-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v391)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v391) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v662) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9x64x4 : Shape := ⟨3, ![9, 64, 4]⟩
abbrev S9x4 : Shape := ⟨2, ![9, 4]⟩
abbrev S9x4x1 : Shape := ⟨3, ![9, 4, 1]⟩
abbrev S9x1 : Shape := ⟨2, ![9, 1]⟩
abbrev S8x64x64 : Shape := ⟨3, ![8, 64, 64]⟩
abbrev S8x64 : Shape := ⟨2, ![8, 64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S9x64x4 : S_.BroadcastsInDim S9x64x4 (![] : Fin 0 → Fin S9x64x4.rank)
  reducesTo_S9x64x4_S_d0_1_2 : S9x64x4.ReducesTo [0, 1, 2] S_
  bcast_S_S9x4 : S_.BroadcastsInDim S9x4 (![] : Fin 0 → Fin S9x4.rank)
  reducesTo_S9x4_S_d0_1 : S9x4.ReducesTo [0, 1] S_
  bcast_S_S9x4x1 : S_.BroadcastsInDim S9x4x1 (![] : Fin 0 → Fin S9x4x1.rank)
  reducesTo_S9x4x1_S_d0_1_2 : S9x4x1.ReducesTo [0, 1, 2] S_
  bcast_S_S9x1 : S_.BroadcastsInDim S9x1 (![] : Fin 0 → Fin S9x1.rank)
  reducesTo_S9x1_S_d0_1 : S9x1.ReducesTo [0, 1] S_
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_arg19 : FVec F S64 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg15 : FVec F S8x64 .f32) (main_arg16 : FVec F S64x128 .f32) (main_arg17 : FVec F S128 .f32) (main_arg18 : FVec F S128x64 .f32) (main_arg19 : FVec F S64 .f32) (main_v63 : IVec S_ 1) (main_v67 : IVec S_ 1) : IVec S_ 1 :=
  let main_v68 : IVec S_ 1 := andi main_v63 main_v67
  let main_v69 : FVec F S8x64 .f32 := Host.absf main_arg15
  let main_cst_26 : FVec F S_ .f32 := constant S_ .f32 0x7F800000#32
  let main_v70 : FVec F S8x64 .f32 := broadcastInDim S8x64 ![] bcast_S_S8x64 main_cst_26
  let main_v71 : IVec S8x64 1 := cmpf .olt main_v69 main_v70
  let main_c_27 : IVec S_ 1 := constantI S_ 1 1#1
  let main_v72 : IVec S_ 1 := (fun x v => Host.reduce IntOp.andi x v reducesTo_S8x64_S_d0_1 h_S_) main_v71 main_c_27
  let main_v73 : IVec S_ 1 := andi main_v68 main_v72
  let main_v74 : FVec F S64x128 .f32 := Host.absf main_arg16
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S8x64x64 .f32) (main_arg13 : FVec F S8x64 .f32) (main_arg14 : FVec F S8x64 .f32) (main_arg15 : FVec F S8x64 .f32) (main_arg16 : FVec F S64x128 .f32) (main_arg17 : FVec F S128 .f32) (main_arg18 : FVec F S128x64 .f32) (main_arg19 : FVec F S64 .f32) (main_v48 : IVec S_ 1) (main_v49 : FVec F S9x1 .f32) (main_v50 : FVec F S9x1 .f32) : IVec S_ 1 :=
  let main_v51 : IVec S9x1 1 := cmpf .olt main_v49 main_v50
  let main_c_19 : IVec S_ 1 := constantI S_ 1 1#1
  let main_v52 : IVec S_ 1 := (fun x v => Host.reduce IntOp.andi x v reducesTo_S9x1_S_d0_1 h_S_) main_v51 main_c_19
  let main_v53 : IVec S_ 1 := andi main_v48 main_v52
  let main_v54 : FVec F S8x64x64 .f32 := Host.absf main_arg12
  let main_cst_20 : FVec F S_ .f32 := constant S_ .f32 0x7F800000#32
  let main_v55 : FVec F S8x64x64 .f32 := broadcastInDim S8x64x64 ![] bcast_S_S8x64x64 main_cst_20
  let main_v56 : IVec S8x64x64 1 := cmpf .olt main_v54 main_v55
  let main_c_21 : IVec S_ 1 := constantI S_ 1 1#1
  let main_v57 : IVec S_ 1 := (fun x v => Host.reduce IntOp.andi x v reducesTo_S8x64x64_S_d0_1_2 h_S_) main_v56 main_c_21
  let main_v58 : IVec S_ 1 := andi main_v53 main_v57
  let main_v59 : FVec F S8x64 .f32 := Host.absf main_arg13
  let main_cst_22 : FVec F S_ .f32 := constant S_ .f32 0x7F800000#32
  let main_v60 : FVec F S8x64 .f32 := broadcastInDim S8x64 ![] bcast_S_S8x64 main_cst_22
  let main_v61 : IVec S8x64 1 := cmpf .olt main_v59 main_v60
  let main_c_23 : IVec S_ 1 := constantI S_ 1 1#1
  let main_v62 : IVec S_ 1 := (fun x v => Host.reduce IntOp.andi x v reducesTo_S8x64_S_d0_1 h_S_) main_v61 main_c_23
  let main_v63 : IVec S_ 1 := andi main_v58 main_v62
  let main_v64 : FVec F S8x64 .f32 := Host.absf main_arg14
  let main_cst_24 : FVec F S_ .f32 := constant S_ .f32 0x7F800000#32
  let main_v65 : FVec F S8x64 .f32 := broadcastInDim S8x64 ![] bcast_S_S8x64 main_cst_24
  let main_v66 : IVec S8x64 1 := cmpf .olt main_v64 main_v65
  let main_c_25 : IVec S_ 1 := constantI S_ 1 1#1
  let main_v67 : IVec S_ 1 := (fun x v => Host.reduce IntOp.andi x v reducesTo_S8x64_S_d0_1 h_S_) main_v66 main_c_25
  fn_part4 (F := F) main_arg15 main_arg16 main_arg17 main_arg18 main_arg19 main_v63 main_v67

def fn_part2 {F : FTy → Type} [FloatOps F] (main_arg8 : FVec F S9x64x4 .f32) (main_arg9 : FVec F S9x4 .f32) (main_arg10 : FVec F S9x4x1 .f32) (main_arg11 : FVec F S9x1 .f32) (main_arg12 : FVec F S8x64x64 .f32) (main_arg13 : FVec F S8x64 .f32) (main_arg14 : FVec F S8x64 .f32) (main_arg15 : FVec F S8x64 .f32) (main_arg16 : FVec F S64x128 .f32) (main_arg17 : FVec F S128 .f32) (main_arg18 : FVec F S128x64 .f32) (main_arg19 : FVec F S64 .f32) (main_v33 : IVec S_ 1) : IVec S_ 1 :=
  let main_v34 : FVec F S9x64x4 .f32 := Host.absf main_arg8
  let main_cst_12 : FVec F S_ .f32 := constant S_ .f32 0x7F800000#32
  let main_v35 : FVec F S9x64x4 .f32 := broadcastInDim S9x64x4 ![] bcast_S_S9x64x4 main_cst_12
  let main_v36 : IVec S9x64x4 1 := cmpf .olt main_v34 main_v35
  let main_c_13 : IVec S_ 1 := constantI S_ 1 1#1
  let main_v37 : IVec S_ 1 := (fun x v => Host.reduce IntOp.andi x v reducesTo_S9x64x4_S_d0_1_2 h_S_) main_v36 main_c_13
  let main_v38 : IVec S_ 1 := andi main_v33 main_v37
  let main_v39 : FVec F S9x4 .f32 := Host.absf main_arg9
  let main_cst_14 : FVec F S_ .f32 := constant S_ .f32 0x7F800000#32
  let main_v40 : FVec F S9x4 .f32 := broadcastInDim S9x4 ![] bcast_S_S9x4 main_cst_14
  let main_v41 : IVec S9x4 1 := cmpf .olt main_v39 main_v40
  let main_c_15 : IVec S_ 1 := constantI S_ 1 1#1
  let main_v42 : IVec S_ 1 := (fun x v => Host.reduce IntOp.andi x v reducesTo_S9x4_S_d0_1 h_S_) main_v41 main_c_15
  let main_v43 : IVec S_ 1 := andi main_v38 main_v42
  let main_v44 : FVec F S9x4x1 .f32 := Host.absf main_arg10
  let main_cst_16 : FVec F S_ .f32 := constant S_ .f32 0x7F800000#32
  let main_v45 : FVec F S9x4x1 .f32 := broadcastInDim S9x4x1 ![] bcast_S_S9x4x1 main_cst_16
  let main_v46 : IVec S9x4x1 1 := cmpf .olt main_v44 main_v45
  let main_c_17 : IVec S_ 1 := constantI S_ 1 1#1
  let main_v47 : IVec S_ 1 := (fun x v => Host.reduce IntOp.andi x v reducesTo_S9x4x1_S_d0_1_2 h_S_) main_v46 main_c_17
  let main_v48 : IVec S_ 1 := andi main_v43 main_v47
  let main_v49 : FVec F S9x1 .f32 := Host.absf main_arg11
  let main_cst_18 : FVec F S_ .f32 := constant S_ .f32 0x7F800000#32
  let main_v50 : FVec F S9x1 .f32 := broadcastInDim S9x1 ![] bcast_S_S9x1 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x64 .f32) (main_arg7 : FVec F S64 .f32) (main_arg8 : FVec F S9x64x4 .f32) (main_arg9 : FVec F S9x4 .f32) (main_arg10 : FVec F S9x4x1 .f32) (main_arg11 : FVec F S9x1 .f32) (main_arg12 : FVec F S8x64x64 .f32) (main_arg13 : FVec F S8x64 .f32) (main_arg14 : FVec F S8x64 .f32) (main_arg15 : FVec F S8x64 .f32) (main_arg16 : FVec F S64x128 .f32) (main_arg17 : FVec F S128 .f32) (main_arg18 : FVec F S128x64 .f32) (main_arg19 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S9x64x4 .f32) (main_arg9 : FVec F S9x4 .f32) (main_arg10 : FVec F S9x4x1 .f32) (main_arg11 : FVec F S9x1 .f32) (main_arg12 : FVec F S8x64x64 .f32) (main_arg13 : FVec F S8x64 .f32) (main_arg14 : FVec F S8x64 .f32) (main_arg15 : FVec F S8x64 .f32) (main_arg16 : FVec F S64x128 .f32) (main_arg17 : FVec F S128 .f32) (main_arg18 : FVec F S128x64 .f32) (main_arg19 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9x64x4 : Shape := ⟨3, ![9, 64, 4]⟩
abbrev S9x4 : Shape := ⟨2, ![9, 4]⟩
abbrev S9x4x1 : Shape := ⟨3, ![9, 4, 1]⟩
abbrev S9x1 : Shape := ⟨2, ![9, 1]⟩
abbrev S8x64x64 : Shape := ⟨3, ![8, 64, 64]⟩
abbrev S8x64 : Shape := ⟨2, ![8, 64]⟩
abbrev S64x128 : Shape := ⟨2, ![64, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x64 : Shape := ⟨2, ![1, 64]⟩
abbrev S2000x128 : Shape := ⟨2, ![2000, 128]⟩
abbrev S1x64x4 : Shape := ⟨3, ![1, 64, 4]⟩
abbrev S64x4 : Shape := ⟨2, ![64, 4]⟩
abbrev S1x4 : Shape := ⟨2, ![1, 4]⟩
abbrev S4 : Shape := ⟨1, ![4]⟩
abbrev S1x4x1 : Shape := ⟨3, ![1, 4, 1]⟩
abbrev S4x1 : Shape := ⟨2, ![4, 1]⟩
abbrev S1x1 : Shape := ⟨2, ![1, 1]⟩
abbrev S1 : Shape := ⟨1, ![1]⟩
abbrev S1x64x64 : Shape := ⟨3, ![1, 64, 64]⟩
abbrev S64x64 : Shape := ⟨2, ![64, 64]⟩
abbrev S50000x64 : Shape := ⟨2, ![50000, 64]⟩
abbrev S2000x64 : Shape := ⟨2, ![2000, 64]⟩
abbrev S2000x4 : Shape := ⟨2, ![2000, 4]⟩
abbrev S2000x1 : Shape := ⟨2, ![2000, 1]⟩
abbrev S850000x64 : Shape := ⟨2, ![850000, 64]⟩

abbrev nBuf : Space → Nat
  | .hbm => 680
  | .vmem => 164
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S9x64x4, .f32⟩
  | 9 => ⟨S9x4, .f32⟩
  | 10 => ⟨S9x4x1, .f32⟩
  | 11 => ⟨S9x1, .f32⟩
  | 12 => ⟨S8x64x64, .f32⟩
  | 13 => ⟨S8x64, .f32⟩
  | 14 => ⟨S8x64, .f32⟩
  | 15 => ⟨S8x64, .f32⟩
  | 16 => ⟨S64x128, .f32⟩
  | 17 => ⟨S128, .f32⟩
  | 18 => ⟨S128x64, .f32⟩
  | 19 => ⟨S64, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S850000x1, .f32⟩
  | 64 => ⟨S128x128, .bf16⟩
  | 65 => ⟨S128x64, .bf16⟩
  | 66 => ⟨S64x128, .bf16⟩
  | 67 => ⟨S128x64, .bf16⟩
  | 68 => ⟨S8x64x64, .bf16⟩
  | 69 => ⟨S9x64x4, .bf16⟩
  | 70 => ⟨S9x4x1, .bf16⟩
  | 71 => ⟨S1x128, .f32⟩
  | 72 => ⟨S1x128, .f32⟩
  | 73 => ⟨S1x128, .f32⟩
  | 74 => ⟨S1x64, .f32⟩
  | 75 => ⟨S1x128, .f32⟩
  | 76 => ⟨S1x64, .f32⟩
  | 77 => ⟨S50000x128, .f32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S1x128, .f32⟩
  | 100 => ⟨S1x128, .f32⟩
  | 101 => ⟨S1x128, .f32⟩
  | 102 => ⟨S_, .f32⟩
  | 103 => ⟨S_, .i1⟩
  | 104 => ⟨S_, .f32⟩
  | 105 => ⟨S_, .f32⟩
  | 106 => ⟨S1x128, .f32⟩
  | 107 => ⟨S1x128, .f32⟩
  | 108 => ⟨S1x64x4, .bf16⟩
  | 109 => ⟨S64x4, .bf16⟩
  | 110 => ⟨S1x4, .f32⟩
  | 111 => ⟨S4, .f32⟩
  | 112 => ⟨S1x4, .f32⟩
  | 113 => ⟨S1x4x1, .bf16⟩
  | 114 => ⟨S4x1, .bf16⟩
  | 115 => ⟨S1x1, .f32⟩
  | 116 => ⟨S1, .f32⟩
  | 117 => ⟨S1x1, .f32⟩
  | 118 => ⟨S1x64x64, .bf16⟩
  | 119 => ⟨S64x64, .bf16⟩
  | 120 => ⟨S50000x64, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x64, .f32⟩
  | 3 => ⟨S850000x64, .f32⟩
  | 4 => ⟨S850000x64, .f32⟩
  | 5 => ⟨S_, .f32⟩
  | 6 => ⟨S50000x64, .f32⟩
  | 7 => ⟨S850000x1, .i32⟩
  | 8 => ⟨S50000x64, .f32⟩
  | 9 => ⟨S1x64, .f32⟩
  | 10 => ⟨S64, .f32⟩
  | 11 => ⟨S1x64, .f32⟩
  | 12 => ⟨S50000x64, .f32⟩
  | 13 => ⟨S50000x64, .f32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S50000x64, .f32⟩
  | 28 => ⟨S50000x64, .f32⟩
  | 29 => ⟨S50000x64, .f32⟩
  | 30 => ⟨S_, .f32⟩
  | 31 => ⟨S_, .f32⟩
  | 32 => ⟨S_, .f32⟩
  | 33 => ⟨S_, .f32⟩
  | 34 => ⟨S64, .f32⟩
  | 35 => ⟨S1x64, .f32⟩
  | 36 => ⟨S1x64, .f32⟩
  | 37 => ⟨S1x64, .f32⟩
  | 38 => ⟨S_, .f32⟩
  | 39 => ⟨S_, .i1⟩
  | 40 => ⟨S_, .f32⟩
  | 41 => ⟨S_, .f32⟩
  | 42 => ⟨S1x64, .f32⟩
  | 43 => ⟨S1x64, .f32⟩
  | 44 => ⟨S1x64, .f32⟩
  | 45 => ⟨S64, .f32⟩
  | 46 => ⟨S1x64, .f32⟩
  | 47 => ⟨S1x64, .f32⟩
  | 48 => ⟨S64, .f32⟩
  | 49 => ⟨S1x64, .f32⟩
  | 50 => ⟨S1x64x4, .bf16⟩
  | 51 => ⟨S64x4, .bf16⟩
  | 52 => ⟨S1x4, .f32⟩
  | 53 => ⟨S4, .f32⟩
  | 54 => ⟨S1x4, .f32⟩
  | 55 => ⟨S1x4x1, .bf16⟩
  | 56 => ⟨S4x1, .bf16⟩
  | 57 => ⟨S1x1, .f32⟩
  | 58 => ⟨S1, .f32⟩
  | 59 => ⟨S1x1, .f32⟩
  | 60 => ⟨S1x64x64, .bf16⟩
  | 61 => ⟨S64x64, .bf16⟩
  | 62 => ⟨S50000x64, .f32⟩
  | 63 => ⟨S50000x64, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x64, .f32⟩
  | 74 => ⟨S850000x64, .f32⟩
  | 75 => ⟨S_, .f32⟩
  | 76 => ⟨S50000x64, .f32⟩
  | 77 => ⟨S850000x1, .i32⟩
  | 78 => ⟨S50000x64, .f32⟩
  | 79 => ⟨S1x64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S50000x64, .f32⟩
  | 98 => ⟨S50000x64, .f32⟩
  | 99 => ⟨S50000x64, .f32⟩
  | 100 => ⟨S_, .f32⟩
  | 101 => ⟨S_, .f32⟩
  | 102 => ⟨S_, .f32⟩
  | 103 => ⟨S_, .f32⟩
  | 104 => ⟨S64, .f32⟩
  | 105 => ⟨S1x64, .f32⟩
  | 106 => ⟨S1x64, .f32⟩
  | 107 => ⟨S1x64, .f32⟩
  | 108 => ⟨S_, .f32⟩
  | 109 => ⟨S_, .i1⟩
  | 110 => ⟨S_, .f32⟩
  | 111 => ⟨S_, .f32⟩
  | 112 => ⟨S1x64, .f32⟩
  | 113 => ⟨S1x64, .f32⟩
  | 114 => ⟨S1x64, .f32⟩
  | 115 => ⟨S64, .f32⟩
  | 116 => ⟨S1x64, .f32⟩
  | 117 => ⟨S1x64, .f32⟩
  | 118 => ⟨S64, .f32⟩
  | 119 => ⟨S1x64, .f32⟩
  | 120 => ⟨S1x64x4, .bf16⟩
  | 121 => ⟨S64x4, .bf16⟩
  | 122 => ⟨S1x4, .f32⟩
  | 123 => ⟨S4, .f32⟩
  | 124 => ⟨S1x4, .f32⟩
  | 125 => ⟨S1x4x1, .bf16⟩
  | 126 => ⟨S4x1, .bf16⟩
  | 127 => ⟨S1x1, .f32⟩
  | _ => ⟨S50000x128, .f32⟩

abbrev hbmTy0_2 (i : Nat) : BufTy := match i % 128 with
  | 0 => ⟨S1, .f32⟩
  | 1 => ⟨S1x1, .f32⟩
  | 2 => ⟨S1x64x64, .bf16⟩
  | 3 => ⟨S64x64, .bf16⟩
  | 4 => ⟨S50000x64, .f32⟩
  | 5 => ⟨S50000x64, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x64, .f32⟩
  | 15 => ⟨S850000x64, .f32⟩
  | 16 => ⟨S850000x64, .f32⟩
  | 17 => ⟨S_, .f32⟩
  | 18 => ⟨S50000x64, .f32⟩
  | 19 => ⟨S850000x1, .i32⟩
  | 20 => ⟨S50000x64, .f32⟩
  | 21 => ⟨S1x64, .f32⟩
  | 22 => ⟨S64, .f32⟩
  | 23 => ⟨S1x64, .f32⟩
  | 24 => ⟨S50000x64, .f32⟩
  | 25 => ⟨S50000x64, .f32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S_, .i32⟩
  | 33 => ⟨S_, .f32⟩
  | 34 => ⟨S64, .f32⟩
  | 35 => ⟨S1x64, .f32⟩
  | 36 => ⟨S_, .f32⟩
  | 37 => ⟨S1x64, .f32⟩
  | 38 => ⟨S1x64, .f32⟩
  | 39 => ⟨S50000x64, .f32⟩
  | 40 => ⟨S50000x64, .f32⟩
  | 41 => ⟨S50000x64, .f32⟩
  | 42 => ⟨S_, .f32⟩
  | 43 => ⟨S_, .f32⟩
  | 44 => ⟨S_, .f32⟩
  | 45 => ⟨S_, .f32⟩
  | 46 => ⟨S64, .f32⟩
  | 47 => ⟨S1x64, .f32⟩
  | 48 => ⟨S1x64, .f32⟩
  | 49 => ⟨S1x64, .f32⟩
  | 50 => ⟨S_, .f32⟩
  | 51 => ⟨S_, .i1⟩
  | 52 => ⟨S_, .f32⟩
  | 53 => ⟨S_, .f32⟩
  | 54 => ⟨S1x64, .f32⟩
  | 55 => ⟨S1x64, .f32⟩
  | 56 => ⟨S1x64, .f32⟩
  | 57 => ⟨S64, .f32⟩
  | 58 => ⟨S1x64, .f32⟩
  | 59 => ⟨S1x64, .f32⟩
  | 60 => ⟨S64, .f32⟩
  | 61 => ⟨S1x64, .f32⟩
  | 62 => ⟨S1x64x4, .bf16⟩
  | 63 => ⟨S64x4, .bf16⟩
  | 64 => ⟨S1x4, .f32⟩
  | 65 => ⟨S4, .f32⟩
  | 66 => ⟨S1x4, .f32⟩
  | 67 => ⟨S1x4x1, .bf16⟩
  | 68 => ⟨S4x1, .bf16⟩
  | 69 => ⟨S1x1, .f32⟩
  | 70 => ⟨S1, .f32⟩
  | 71 => ⟨S1x1, .f32⟩
  | 72 => ⟨S1x64x64, .bf16⟩
  | 73 => ⟨S64x64, .bf16⟩
  | 74 => ⟨S50000x64, .f32⟩
  | 75 => ⟨S50000x64, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x64, .f32⟩
  | 85 => ⟨S850000x64, .f32⟩
  | 86 => ⟨S850000x64, .f32⟩
  | 87 => ⟨S_, .f32⟩
  | 88 => ⟨S50000x64, .f32⟩
  | 89 => ⟨S850000x1, .i32⟩
  | 90 => ⟨S50000x64, .f32⟩
  | 91 => ⟨S1x64, .f32⟩
  | 92 => ⟨S64, .f32⟩
  | 93 => ⟨S1x64, .f32⟩
  | 94 => ⟨S50000x64, .f32⟩
  | 95 => ⟨S50000x64, .f32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S_, .f32⟩
  | 114 => ⟨S_, .f32⟩
  | 115 => ⟨S_, .f32⟩
  | 116 => ⟨S64, .f32⟩
  | 117 => ⟨S1x64, .f32⟩
  | 118 => ⟨S1x64, .f32⟩
  | 119 => ⟨S1x64, .f32⟩
  | 120 => ⟨S_, .f32⟩
  | 121 => ⟨S_, .i1⟩
  | 122 => ⟨S_, .f32⟩
  | 123 => ⟨S_, .f32⟩
  | 124 => ⟨S1x64, .f32⟩
  | 125 => ⟨S1x64, .f32⟩
  | 126 => ⟨S1x64, .f32⟩
  | 127 => ⟨S64, .f32⟩
  | _ => ⟨S50000x128, .f32⟩

abbrev hbmTy0_3 (i : Nat) : BufTy := match i % 128 with
  | 0 => ⟨S1x64, .f32⟩
  | 1 => ⟨S1x64, .f32⟩
  | 2 => ⟨S64, .f32⟩
  | 3 => ⟨S1x64, .f32⟩
  | 4 => ⟨S1x64x4, .bf16⟩
  | 5 => ⟨S64x4, .bf16⟩
  | 6 => ⟨S1x4, .f32⟩
  | 7 => ⟨S4, .f32⟩
  | 8 => ⟨S1x4, .f32⟩
  | 9 => ⟨S1x4x1, .bf16⟩
  | 10 => ⟨S4x1, .bf16⟩
  | 11 => ⟨S1x1, .f32⟩
  | 12 => ⟨S1, .f32⟩
  | 13 => ⟨S1x1, .f32⟩
  | 14 => ⟨S1x64x64, .bf16⟩
  | 15 => ⟨S64x64, .bf16⟩
  | 16 => ⟨S50000x64, .f32⟩
  | 17 => ⟨S50000x64, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x64, .f32⟩
  | 27 => ⟨S850000x64, .f32⟩
  | 28 => ⟨S850000x64, .f32⟩
  | 29 => ⟨S_, .f32⟩
  | 30 => ⟨S50000x64, .f32⟩
  | 31 => ⟨S850000x1, .i32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S50000x64, .f32⟩
  | 52 => ⟨S50000x64, .f32⟩
  | 53 => ⟨S50000x64, .f32⟩
  | 54 => ⟨S_, .f32⟩
  | 55 => ⟨S_, .f32⟩
  | 56 => ⟨S_, .f32⟩
  | 57 => ⟨S_, .f32⟩
  | 58 => ⟨S64, .f32⟩
  | 59 => ⟨S1x64, .f32⟩
  | 60 => ⟨S1x64, .f32⟩
  | 61 => ⟨S1x64, .f32⟩
  | 62 => ⟨S_, .f32⟩
  | 63 => ⟨S_, .i1⟩
  | 64 => ⟨S_, .f32⟩
  | 65 => ⟨S_, .f32⟩
  | 66 => ⟨S1x64, .f32⟩
  | 67 => ⟨S1x64, .f32⟩
  | 68 => ⟨S1x64, .f32⟩
  | 69 => ⟨S64, .f32⟩
  | 70 => ⟨S1x64, .f32⟩
  | 71 => ⟨S1x64, .f32⟩
  | 72 => ⟨S64, .f32⟩
  | 73 => ⟨S1x64, .f32⟩
  | 74 => ⟨S1x64x4, .bf16⟩
  | 75 => ⟨S64x4, .bf16⟩
  | 76 => ⟨S1x4, .f32⟩
  | 77 => ⟨S4, .f32⟩
  | 78 => ⟨S1x4, .f32⟩
  | 79 => ⟨S1x4x1, .bf16⟩
  | 80 => ⟨S4x1, .bf16⟩
  | 81 => ⟨S1x1, .f32⟩
  | 82 => ⟨S1, .f32⟩
  | 83 => ⟨S1x1, .f32⟩
  | 84 => ⟨S1x64x64, .bf16⟩
  | 85 => ⟨S64x64, .bf16⟩
  | 86 => ⟨S50000x64, .f32⟩
  | 87 => ⟨S50000x64, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x64, .f32⟩
  | 97 => ⟨S850000x64, .f32⟩
  | 98 => ⟨S850000x64, .f32⟩
  | 99 => ⟨S_, .f32⟩
  | 100 => ⟨S50000x64, .f32⟩
  | 101 => ⟨S850000x1, .i32⟩
  | 102 => ⟨S50000x64, .f32⟩
  | 103 => ⟨S1x64, .f32⟩
  | 104 => ⟨S64, .f32⟩
  | 105 => ⟨S1x64, .f32⟩
  | 106 => ⟨S50000x64, .f32⟩
  | 107 => ⟨S50000x64, .f32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S_, .i32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S50000x64, .f32⟩
  | 122 => ⟨S50000x64, .f32⟩
  | 123 => ⟨S50000x64, .f32⟩
  | 124 => ⟨S_, .f32⟩
  | 125 => ⟨S_, .f32⟩
  | 126 => ⟨S_, .f32⟩
  | 127 => ⟨S_, .f32⟩
  | _ => ⟨S50000x128, .f32⟩

abbrev hbmTy0_4 (i : Nat) : BufTy := match i % 128 with
  | 0 => ⟨S64, .f32⟩
  | 1 => ⟨S1x64, .f32⟩
  | 2 => ⟨S1x64, .f32⟩
  | 3 => ⟨S1x64, .f32⟩
  | 4 => ⟨S_, .f32⟩
  | 5 => ⟨S_, .i1⟩
  | 6 => ⟨S_, .f32⟩
  | 7 => ⟨S_, .f32⟩
  | 8 => ⟨S1x64, .f32⟩
  | 9 => ⟨S1x64, .f32⟩
  | 10 => ⟨S1x64, .f32⟩
  | 11 => ⟨S64, .f32⟩
  | 12 => ⟨S1x64, .f32⟩
  | 13 => ⟨S1x64, .f32⟩
  | 14 => ⟨S64, .f32⟩
  | 15 => ⟨S1x64, .f32⟩
  | 16 => ⟨S1x64x4, .bf16⟩
  | 17 => ⟨S64x4, .bf16⟩
  | 18 => ⟨S1x4, .f32⟩
  | 19 => ⟨S4, .f32⟩
  | 20 => ⟨S1x4, .f32⟩
  | 21 => ⟨S1x4x1, .bf16⟩
  | 22 => ⟨S4x1, .bf16⟩
  | 23 => ⟨S1x1, .f32⟩
  | 24 => ⟨S1, .f32⟩
  | 25 => ⟨S1x1, .f32⟩
  | 26 => ⟨S1x64x64, .bf16⟩
  | 27 => ⟨S64x64, .bf16⟩
  | 28 => ⟨S50000x64, .f32⟩
  | 29 => ⟨S50000x64, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x64, .f32⟩
  | 39 => ⟨S850000x64, .f32⟩
  | 40 => ⟨S850000x64, .f32⟩
  | 41 => ⟨S_, .f32⟩
  | 42 => ⟨S50000x64, .f32⟩
  | 43 => ⟨S850000x1, .i32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S64, .f32⟩
  | 52 => ⟨S1x64, .f32⟩
  | 53 => ⟨S_, .f32⟩
  | 54 => ⟨S1x64, .f32⟩
  | 55 => ⟨S1x64, .f32⟩
  | 56 => ⟨S_, .i32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S50000x64, .f32⟩
  | 64 => ⟨S50000x64, .f32⟩
  | 65 => ⟨S50000x64, .f32⟩
  | 66 => ⟨S_, .f32⟩
  | 67 => ⟨S_, .f32⟩
  | 68 => ⟨S_, .f32⟩
  | 69 => ⟨S_, .f32⟩
  | 70 => ⟨S64, .f32⟩
  | 71 => ⟨S1x64, .f32⟩
  | 72 => ⟨S1x64, .f32⟩
  | 73 => ⟨S1x64, .f32⟩
  | 74 => ⟨S_, .f32⟩
  | 75 => ⟨S_, .i1⟩
  | 76 => ⟨S_, .f32⟩
  | 77 => ⟨S_, .f32⟩
  | 78 => ⟨S1x64, .f32⟩
  | 79 => ⟨S1x64, .f32⟩
  | 80 => ⟨S1x64, .f32⟩
  | 81 => ⟨S64, .f32⟩
  | 82 => ⟨S1x64, .f32⟩
  | 83 => ⟨S1x64, .f32⟩
  | 84 => ⟨S64, .f32⟩
  | 85 => ⟨S1x64, .f32⟩
  | 86 => ⟨S1x64x4, .bf16⟩
  | 87 => ⟨S64x4, .bf16⟩
  | 88 => ⟨S1x4, .f32⟩
  | 89 => ⟨S4, .f32⟩
  | 90 => ⟨S1x4, .f32⟩
  | 91 => ⟨S1x4x1, .bf16⟩
  | 92 => ⟨S4x1, .bf16⟩
  | 93 => ⟨S1x1, .f32⟩
  | 94 => ⟨S1, .f32⟩
  | 95 => ⟨S1x1, .f32⟩
  | 96 => ⟨S1x64x64, .bf16⟩
  | 97 => ⟨S64x64, .bf16⟩
  | 98 => ⟨S50000x64, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S64, .f32⟩
  | 122 => ⟨S1x64, .f32⟩
  | 123 => ⟨S_, .f32⟩
  | 124 => ⟨S1x64, .f32⟩
  | 125 => ⟨S1x64, .f32⟩
  | 126 => ⟨S_, .i32⟩
  | 127 => ⟨S_, .f32⟩
  | _ => ⟨S50000x128, .f32⟩

abbrev hbmTy0_5 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S50000x64, .f32⟩
  | 6 => ⟨S50000x64, .f32⟩
  | 7 => ⟨S50000x64, .f32⟩
  | 8 => ⟨S_, .f32⟩
  | 9 => ⟨S_, .f32⟩
  | 10 => ⟨S_, .f32⟩
  | 11 => ⟨S_, .f32⟩
  | 12 => ⟨S64, .f32⟩
  | 13 => ⟨S1x64, .f32⟩
  | 14 => ⟨S1x64, .f32⟩
  | 15 => ⟨S1x64, .f32⟩
  | 16 => ⟨S_, .f32⟩
  | 17 => ⟨S_, .i1⟩
  | 18 => ⟨S_, .f32⟩
  | 19 => ⟨S_, .f32⟩
  | 20 => ⟨S1x64, .f32⟩
  | 21 => ⟨S1x64, .f32⟩
  | 22 => ⟨S1x64, .f32⟩
  | 23 => ⟨S64, .f32⟩
  | 24 => ⟨S1x64, .f32⟩
  | 25 => ⟨S1x64, .f32⟩
  | 26 => ⟨S64, .f32⟩
  | 27 => ⟨S1x64, .f32⟩
  | 28 => ⟨S1x64x4, .bf16⟩
  | 29 => ⟨S64x4, .bf16⟩
  | 30 => ⟨S1x4, .f32⟩
  | 31 => ⟨S4, .f32⟩
  | 32 => ⟨S1x4, .f32⟩
  | 33 => ⟨S1x4x1, .bf16⟩
  | 34 => ⟨S4x1, .bf16⟩
  | 35 => ⟨S1x1, .f32⟩
  | 36 => ⟨S1, .f32⟩
  | 37 => ⟨S1x1, .f32⟩
  | 38 => ⟨S50000x64, .f32⟩
  | 39 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev vmemTy0_0 (i : Nat) : BufTy := match i % 128 with
  | 0 => ⟨S2000x128, .f32⟩
  | 1 => ⟨S2000x128, .f32⟩
  | 2 => ⟨S128x128, .bf16⟩
  | 3 => ⟨S1x128, .f32⟩
  | 4 => ⟨S2000x128, .f32⟩
  | 5 => ⟨S2000x128, .f32⟩
  | 6 => ⟨S2000x128, .f32⟩
  | 7 => ⟨S2000x128, .f32⟩
  | 8 => ⟨S1x128, .f32⟩
  | 9 => ⟨S1x128, .f32⟩
  | 10 => ⟨S1x128, .f32⟩
  | 11 => ⟨S1x128, .f32⟩
  | 12 => ⟨S128x64, .bf16⟩
  | 13 => ⟨S1x64, .f32⟩
  | 14 => ⟨S64x4, .bf16⟩
  | 15 => ⟨S1x4, .f32⟩
  | 16 => ⟨S4x1, .bf16⟩
  | 17 => ⟨S1x1, .f32⟩
  | 18 => ⟨S64x64, .bf16⟩
  | 19 => ⟨S2000x64, .f32⟩
  | 20 => ⟨S2000x64, .f32⟩
  | 21 => ⟨S2000x64, .f32⟩
  | 22 => ⟨S2000x64, .f32⟩
  | 23 => ⟨S2000x64, .f32⟩
  | 24 => ⟨S2000x64, .f32⟩
  | 25 => ⟨S1x64, .f32⟩
  | 26 => ⟨S1x64, .f32⟩
  | 27 => ⟨S1x64, .f32⟩
  | 28 => ⟨S1x64, .f32⟩
  | 29 => ⟨S2000x64, .f32⟩
  | 30 => ⟨S2000x64, .f32⟩
  | 31 => ⟨S64x4, .bf16⟩
  | 32 => ⟨S1x4, .f32⟩
  | 33 => ⟨S4x1, .bf16⟩
  | 34 => ⟨S1x1, .f32⟩
  | 35 => ⟨S64x64, .bf16⟩
  | 36 => ⟨S2000x64, .f32⟩
  | 37 => ⟨S2000x64, .f32⟩
  | 38 => ⟨S2000x64, .f32⟩
  | 39 => ⟨S2000x64, .f32⟩
  | 40 => ⟨S2000x64, .f32⟩
  | 41 => ⟨S2000x64, .f32⟩
  | 42 => ⟨S1x64, .f32⟩
  | 43 => ⟨S1x64, .f32⟩
  | 44 => ⟨S1x64, .f32⟩
  | 45 => ⟨S1x64, .f32⟩
  | 46 => ⟨S2000x64, .f32⟩
  | 47 => ⟨S2000x64, .f32⟩
  | 48 => ⟨S64x4, .bf16⟩
  | 49 => ⟨S1x4, .f32⟩
  | 50 => ⟨S4x1, .bf16⟩
  | 51 => ⟨S1x1, .f32⟩
  | 52 => ⟨S64x64, .bf16⟩
  | 53 => ⟨S2000x64, .f32⟩
  | 54 => ⟨S2000x64, .f32⟩
  | 55 => ⟨S2000x64, .f32⟩
  | 56 => ⟨S2000x64, .f32⟩
  | 57 => ⟨S2000x64, .f32⟩
  | 58 => ⟨S2000x64, .f32⟩
  | 59 => ⟨S1x64, .f32⟩
  | 60 => ⟨S1x64, .f32⟩
  | 61 => ⟨S1x64, .f32⟩
  | 62 => ⟨S1x64, .f32⟩
  | 63 => ⟨S2000x64, .f32⟩
  | 64 => ⟨S2000x64, .f32⟩
  | 65 => ⟨S64x4, .bf16⟩
  | 66 => ⟨S1x4, .f32⟩
  | 67 => ⟨S4x1, .bf16⟩
  | 68 => ⟨S1x1, .f32⟩
  | 69 => ⟨S64x64, .bf16⟩
  | 70 => ⟨S2000x64, .f32⟩
  | 71 => ⟨S2000x64, .f32⟩
  | 72 => ⟨S2000x64, .f32⟩
  | 73 => ⟨S2000x64, .f32⟩
  | 74 => ⟨S2000x64, .f32⟩
  | 75 => ⟨S2000x64, .f32⟩
  | 76 => ⟨S1x64, .f32⟩
  | 77 => ⟨S1x64, .f32⟩
  | 78 => ⟨S1x64, .f32⟩
  | 79 => ⟨S1x64, .f32⟩
  | 80 => ⟨S2000x64, .f32⟩
  | 81 => ⟨S2000x64, .f32⟩
  | 82 => ⟨S64x4, .bf16⟩
  | 83 => ⟨S1x4, .f32⟩
  | 84 => ⟨S4x1, .bf16⟩
  | 85 => ⟨S1x1, .f32⟩
  | 86 => ⟨S64x64, .bf16⟩
  | 87 => ⟨S2000x64, .f32⟩
  | 88 => ⟨S2000x64, .f32⟩
  | 89 => ⟨S2000x64, .f32⟩
  | 90 => ⟨S2000x64, .f32⟩
  | 91 => ⟨S2000x64, .f32⟩
  | 92 => ⟨S2000x64, .f32⟩
  | 93 => ⟨S1x64, .f32⟩
  | 94 => ⟨S1x64, .f32⟩
  | 95 => ⟨S1x64, .f32⟩
  | 96 => ⟨S1x64, .f32⟩
  | 97 => ⟨S2000x64, .f32⟩
  | 98 => ⟨S2000x64, .f32⟩
  | 99 => ⟨S64x4, .bf16⟩
  | 100 => ⟨S1x4, .f32⟩
  | 101 => ⟨S4x1, .bf16⟩
  | 102 => ⟨S1x1, .f32⟩
  | 103 => ⟨S64x64, .bf16⟩
  | 104 => ⟨S2000x64, .f32⟩
  | 105 => ⟨S2000x64, .f32⟩
  | 106 => ⟨S2000x64, .f32⟩
  | 107 => ⟨S2000x64, .f32⟩
  | 108 => ⟨S2000x64, .f32⟩
  | 109 => ⟨S2000x64, .f32⟩
  | 110 => ⟨S1x64, .f32⟩
  | 111 => ⟨S1x64, .f32⟩
  | 112 => ⟨S1x64, .f32⟩
  | 113 => ⟨S1x64, .f32⟩
  | 114 => ⟨S2000x64, .f32⟩
  | 115 => ⟨S2000x64, .f32⟩
  | 116 => ⟨S64x4, .bf16⟩
  | 117 => ⟨S1x4, .f32⟩
  | 118 => ⟨S4x1, .bf16⟩
  | 119 => ⟨S1x1, .f32⟩
  | 120 => ⟨S64x64, .bf16⟩
  | 121 => ⟨S2000x64, .f32⟩
  | 122 => ⟨S2000x64, .f32⟩
  | 123 => ⟨S2000x64, .f32⟩
  | 124 => ⟨S2000x64, .f32⟩
  | 125 => ⟨S2000x64, .f32⟩
  | 126 => ⟨S2000x64, .f32⟩
  | 127 => ⟨S1x64, .f32⟩
  | _ => ⟨S50000x128, .f32⟩

abbrev vmemTy0_1 (i : Nat) : BufTy := match i % 128 with
  | 0 => ⟨S1x64, .f32⟩
  | 1 => ⟨S1x64, .f32⟩
  | 2 => ⟨S1x64, .f32⟩
  | 3 => ⟨S2000x64, .f32⟩
  | 4 => ⟨S2000x64, .f32⟩
  | 5 => ⟨S64x4, .bf16⟩
  | 6 => ⟨S1x4, .f32⟩
  | 7 => ⟨S4x1, .bf16⟩
  | 8 => ⟨S1x1, .f32⟩
  | 9 => ⟨S64x64, .bf16⟩
  | 10 => ⟨S2000x64, .f32⟩
  | 11 => ⟨S2000x64, .f32⟩
  | 12 => ⟨S2000x64, .f32⟩
  | 13 => ⟨S2000x64, .f32⟩
  | 14 => ⟨S2000x64, .f32⟩
  | 15 => ⟨S2000x64, .f32⟩
  | 16 => ⟨S1x64, .f32⟩
  | 17 => ⟨S1x64, .f32⟩
  | 18 => ⟨S1x64, .f32⟩
  | 19 => ⟨S1x64, .f32⟩
  | 20 => ⟨S2000x64, .f32⟩
  | 21 => ⟨S2000x64, .f32⟩
  | 22 => ⟨S64x4, .bf16⟩
  | 23 => ⟨S1x4, .f32⟩
  | 24 => ⟨S4x1, .bf16⟩
  | 25 => ⟨S1x1, .f32⟩
  | 26 => ⟨S2000x64, .f32⟩
  | 27 => ⟨S2000x64, .f32⟩
  | 28 => ⟨S2000x64, .f32⟩
  | 29 => ⟨S2000x64, .f32⟩
  | 30 => ⟨S64x128, .bf16⟩
  | 31 => ⟨S1x128, .f32⟩
  | 32 => ⟨S128x64, .bf16⟩
  | 33 => ⟨S1x64, .f32⟩
  | 34 => ⟨S2000x64, .f32⟩
  | 35 => ⟨S2000x64, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 164 → Bool
  | ⟨i, _⟩ => dmaSemScopedAt i

abbrev sig : RefSig :=
  ofTc nBuf bufTy 0 164 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_v50 : Ref sig .tc := ⟨.hbm, 83, rfl⟩
abbrev main_c_9 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_cst_3 : Ref sig .tc := ⟨.hbm, 102, rfl⟩
abbrev main_call1_v13 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64_0 : Ref sig .tc := ⟨.hbm, 120, rfl⟩
abbrev main_v64_1 : Ref sig .tc := ⟨.hbm, 121, rfl⟩
abbrev main_c_10 : Ref sig .tc := ⟨.hbm, 122, rfl⟩
abbrev main_v65 : Ref sig .tc := ⟨.hbm, 123, rfl⟩
abbrev main_v66 : Ref sig .tc := ⟨.hbm, 124, rfl⟩
abbrev main_c_11 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_cst_12 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_13 : Ref sig .tc := ⟨.hbm, 142, rfl⟩
abbrev main_v82 : Ref sig .tc := ⟨.hbm, 143, rfl⟩
abbrev main_v83 : Ref sig .tc := ⟨.hbm, 144, rfl⟩
abbrev main_cst_14 : Ref sig .tc := ⟨.hbm, 145, rfl⟩
abbrev main_v84 : Ref sig .tc := ⟨.hbm, 146, rfl⟩
abbrev main_v85 : Ref sig .tc := ⟨.hbm, 147, rfl⟩
abbrev main_c_15 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_cst_0 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_v7 : Ref sig .tc := ⟨.hbm, 158, rfl⟩
abbrev main_call2_cst_1 : Ref sig .tc := ⟨.hbm, 159, rfl⟩
abbrev main_call2_v8 : Ref sig .tc := ⟨.hbm, 160, rfl⟩
abbrev main_call2_cst_2 : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_call2_v12 : Ref sig .tc := ⟨.hbm, 165, rfl⟩
abbrev main_call2_cst_3 : Ref sig .tc := ⟨.hbm, 166, rfl⟩
abbrev main_call2_v13 : Ref sig .tc := ⟨.hbm, 167, rfl⟩
abbrev main_call2_cst_4 : Ref sig .tc := ⟨.hbm, 168, rfl⟩
abbrev main_call2_call0_v0 : Ref sig .tc := ⟨.hbm, 169, rfl⟩
abbrev main_call2_call0_v1 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105_0 : Ref sig .tc := ⟨.hbm, 190, rfl⟩
abbrev main_v105_1 : Ref sig .tc := ⟨.hbm, 191, rfl⟩
abbrev main_c_16 : Ref sig .tc := ⟨.hbm, 192, rfl⟩
abbrev main_v106 : Ref sig .tc := ⟨.hbm, 193, rfl⟩
abbrev main_v107 : Ref sig .tc := ⟨.hbm, 194, rfl⟩
abbrev main_c_17 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_cst_18 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_19 : Ref sig .tc := ⟨.hbm, 212, rfl⟩
abbrev main_v123 : Ref sig .tc := ⟨.hbm, 213, rfl⟩
abbrev main_v124 : Ref sig .tc := ⟨.hbm, 214, rfl⟩
abbrev main_cst_20 : Ref sig .tc := ⟨.hbm, 215, rfl⟩
abbrev main_v125 : Ref sig .tc := ⟨.hbm, 216, rfl⟩
abbrev main_v126 : Ref sig .tc := ⟨.hbm, 217, rfl⟩
abbrev main_c_21 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_call3_v5 : Ref sig .tc := ⟨.hbm, 226, rfl⟩
abbrev main_call3_v6 : Ref sig .tc := ⟨.hbm, 227, rfl⟩
abbrev main_call3_v7 : Ref sig .tc := ⟨.hbm, 228, rfl⟩
abbrev main_call3_cst_1 : Ref sig .tc := ⟨.hbm, 229, rfl⟩
abbrev main_call3_v8 : Ref sig .tc := ⟨.hbm, 230, rfl⟩
abbrev main_call3_cst_2 : Ref sig .tc := ⟨.hbm, 231, rfl⟩
abbrev main_call3_v9 : Ref sig .tc := ⟨.hbm, 232, rfl⟩
abbrev main_call3_v10 : Ref sig .tc := ⟨.hbm, 233, rfl⟩
abbrev main_call3_v11 : Ref sig .tc := ⟨.hbm, 234, rfl⟩
abbrev main_call3_v12 : Ref sig .tc := ⟨.hbm, 235, rfl⟩
abbrev main_call3_cst_3 : Ref sig .tc := ⟨.hbm, 236, rfl⟩
abbrev main_call3_v13 : Ref sig .tc := ⟨.hbm, 237, rfl⟩
abbrev main_call3_cst_4 : Ref sig .tc := ⟨.hbm, 238, rfl⟩
abbrev main_call3_call0_v0 : Ref sig .tc := ⟨.hbm, 239, rfl⟩
abbrev main_call3_call0_v1 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146_0 : Ref sig .tc := ⟨.hbm, 260, rfl⟩
abbrev main_v146_1 : Ref sig .tc := ⟨.hbm, 261, rfl⟩
abbrev main_c_22 : Ref sig .tc := ⟨.hbm, 262, rfl⟩
abbrev main_v147 : Ref sig .tc := ⟨.hbm, 263, rfl⟩
abbrev main_v148 : Ref sig .tc := ⟨.hbm, 264, rfl⟩
abbrev main_c_23 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_cst_24 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_cst_25 : Ref sig .tc := ⟨.hbm, 282, rfl⟩
abbrev main_v164 : Ref sig .tc := ⟨.hbm, 283, rfl⟩
abbrev main_v165 : Ref sig .tc := ⟨.hbm, 284, rfl⟩
abbrev main_cst_26 : Ref sig .tc := ⟨.hbm, 285, rfl⟩
abbrev main_v166 : Ref sig .tc := ⟨.hbm, 286, rfl⟩
abbrev main_v167 : Ref sig .tc := ⟨.hbm, 287, rfl⟩
abbrev main_c_27 : Ref sig .tc := ⟨.hbm, 288, rfl⟩
abbrev main_call4_cst : Ref sig .tc := ⟨.hbm, 289, rfl⟩
abbrev main_call4_v0 : Ref sig .tc := ⟨.hbm, 290, rfl⟩
abbrev main_call4_v1 : Ref sig .tc := ⟨.hbm, 291, rfl⟩
abbrev main_call4_cst_0 : Ref sig .tc := ⟨.hbm, 292, rfl⟩
abbrev main_call4_v2 : Ref sig .tc := ⟨.hbm, 293, rfl⟩
abbrev main_call4_v3 : Ref sig .tc := ⟨.hbm, 294, rfl⟩
abbrev main_call4_v4 : Ref sig .tc := ⟨.hbm, 295, rfl⟩
abbrev main_call4_v5 : Ref sig .tc := ⟨.hbm, 296, rfl⟩
abbrev main_call4_v6 : Ref sig .tc := ⟨.hbm, 297, rfl⟩
abbrev main_call4_v7 : Ref sig .tc := ⟨.hbm, 298, rfl⟩
abbrev main_call4_cst_1 : Ref sig .tc := ⟨.hbm, 299, rfl⟩
abbrev main_call4_v8 : Ref sig .tc := ⟨.hbm, 300, rfl⟩
abbrev main_call4_cst_2 : Ref sig .tc := ⟨.hbm, 301, rfl⟩
abbrev main_call4_v9 : Ref sig .tc := ⟨.hbm, 302, rfl⟩
abbrev main_call4_v10 : Ref sig .tc := ⟨.hbm, 303, rfl⟩
abbrev main_call4_v11 : Ref sig .tc := ⟨.hbm, 304, rfl⟩
abbrev main_call4_v12 : Ref sig .tc := ⟨.hbm, 305, rfl⟩
abbrev main_call4_cst_3 : Ref sig .tc := ⟨.hbm, 306, rfl⟩
abbrev main_call4_v13 : Ref sig .tc := ⟨.hbm, 307, rfl⟩
abbrev main_call4_cst_4 : Ref sig .tc := ⟨.hbm, 308, rfl⟩
abbrev main_call4_call0_v0 : Ref sig .tc := ⟨.hbm, 309, rfl⟩
abbrev main_call4_call0_v1 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187_0 : Ref sig .tc := ⟨.hbm, 330, rfl⟩
abbrev main_v187_1 : Ref sig .tc := ⟨.hbm, 331, rfl⟩
abbrev main_c_28 : Ref sig .tc := ⟨.hbm, 332, rfl⟩
abbrev main_v188 : Ref sig .tc := ⟨.hbm, 333, rfl⟩
abbrev main_v189 : Ref sig .tc := ⟨.hbm, 334, rfl⟩
abbrev main_c_29 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_30 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_cst_31 : Ref sig .tc := ⟨.hbm, 352, rfl⟩
abbrev main_v205 : Ref sig .tc := ⟨.hbm, 353, rfl⟩
abbrev main_v206 : Ref sig .tc := ⟨.hbm, 354, rfl⟩
abbrev main_cst_32 : Ref sig .tc := ⟨.hbm, 355, rfl⟩
abbrev main_v207 : Ref sig .tc := ⟨.hbm, 356, rfl⟩
abbrev main_v208 : Ref sig .tc := ⟨.hbm, 357, rfl⟩
abbrev main_c_33 : Ref sig .tc := ⟨.hbm, 358, rfl⟩
abbrev main_call5_cst : Ref sig .tc := ⟨.hbm, 359, rfl⟩
abbrev main_call5_v0 : Ref sig .tc := ⟨.hbm, 360, rfl⟩
abbrev main_call5_v1 : Ref sig .tc := ⟨.hbm, 361, rfl⟩
abbrev main_call5_cst_0 : Ref sig .tc := ⟨.hbm, 362, rfl⟩
abbrev main_call5_v2 : Ref sig .tc := ⟨.hbm, 363, rfl⟩
abbrev main_call5_v3 : Ref sig .tc := ⟨.hbm, 364, rfl⟩
abbrev main_call5_v4 : Ref sig .tc := ⟨.hbm, 365, rfl⟩
abbrev main_call5_v5 : Ref sig .tc := ⟨.hbm, 366, rfl⟩
abbrev main_call5_v6 : Ref sig .tc := ⟨.hbm, 367, rfl⟩
abbrev main_call5_v7 : Ref sig .tc := ⟨.hbm, 368, rfl⟩
abbrev main_call5_cst_1 : Ref sig .tc := ⟨.hbm, 369, rfl⟩
abbrev main_call5_v8 : Ref sig .tc := ⟨.hbm, 370, rfl⟩
abbrev main_call5_cst_2 : Ref sig .tc := ⟨.hbm, 371, rfl⟩
abbrev main_call5_v9 : Ref sig .tc := ⟨.hbm, 372, rfl⟩
abbrev main_call5_v10 : Ref sig .tc := ⟨.hbm, 373, rfl⟩
abbrev main_call5_v11 : Ref sig .tc := ⟨.hbm, 374, rfl⟩
abbrev main_call5_v12 : Ref sig .tc := ⟨.hbm, 375, rfl⟩
abbrev main_call5_cst_3 : Ref sig .tc := ⟨.hbm, 376, rfl⟩
abbrev main_call5_v13 : Ref sig .tc := ⟨.hbm, 377, rfl⟩
abbrev main_call5_cst_4 : Ref sig .tc := ⟨.hbm, 378, rfl⟩
abbrev main_call5_call0_v0 : Ref sig .tc := ⟨.hbm, 379, rfl⟩
abbrev main_call5_call0_v1 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_v213 : Ref sig .tc := ⟨.hbm, 385, rfl⟩
abbrev main_v214 : Ref sig .tc := ⟨.hbm, 386, rfl⟩
abbrev main_v215 : Ref sig .tc := ⟨.hbm, 387, rfl⟩
abbrev main_v216 : Ref sig .tc := ⟨.hbm, 388, rfl⟩
abbrev main_v217 : Ref sig .tc := ⟨.hbm, 389, rfl⟩
abbrev main_v218 : Ref sig .tc := ⟨.hbm, 390, rfl⟩
abbrev main_v219 : Ref sig .tc := ⟨.hbm, 391, rfl⟩
abbrev main_v220 : Ref sig .tc := ⟨.hbm, 392, rfl⟩
abbrev main_v221 : Ref sig .tc := ⟨.hbm, 393, rfl⟩
abbrev main_v222 : Ref sig .tc := ⟨.hbm, 394, rfl⟩
abbrev main_v223 : Ref sig .tc := ⟨.hbm, 395, rfl⟩
abbrev main_v224 : Ref sig .tc := ⟨.hbm, 396, rfl⟩
abbrev main_v225 : Ref sig .tc := ⟨.hbm, 397, rfl⟩
abbrev main_v226 : Ref sig .tc := ⟨.hbm, 398, rfl⟩
abbrev main_v227 : Ref sig .tc := ⟨.hbm, 399, rfl⟩
abbrev main_v228_0 : Ref sig .tc := ⟨.hbm, 400, rfl⟩
abbrev main_v228_1 : Ref sig .tc := ⟨.hbm, 401, rfl⟩
abbrev main_c_34 : Ref sig .tc := ⟨.hbm, 402, rfl⟩
abbrev main_v229 : Ref sig .tc := ⟨.hbm, 403, rfl⟩
abbrev main_v230 : Ref sig .tc := ⟨.hbm, 404, rfl⟩
abbrev main_c_35 : Ref sig .tc := ⟨.hbm, 405, rfl⟩
abbrev main_v231 : Ref sig .tc := ⟨.hbm, 406, rfl⟩
abbrev main_v232 : Ref sig .tc := ⟨.hbm, 407, rfl⟩
abbrev main_v233 : Ref sig .tc := ⟨.hbm, 408, rfl⟩
abbrev main_v234 : Ref sig .tc := ⟨.hbm, 409, rfl⟩
abbrev main_v235 : Ref sig .tc := ⟨.hbm, 410, rfl⟩
abbrev main_v236 : Ref sig .tc := ⟨.hbm, 411, rfl⟩
abbrev main_v237 : Ref sig .tc := ⟨.hbm, 412, rfl⟩
abbrev main_cst_36 : Ref sig .tc := ⟨.hbm, 413, rfl⟩
abbrev main_v238 : Ref sig .tc := ⟨.hbm, 414, rfl⟩
abbrev main_v239 : Ref sig .tc := ⟨.hbm, 415, rfl⟩
abbrev main_v240 : Ref sig .tc := ⟨.hbm, 416, rfl⟩
abbrev main_v241 : Ref sig .tc := ⟨.hbm, 417, rfl⟩
abbrev main_v242 : Ref sig .tc := ⟨.hbm, 418, rfl⟩
abbrev main_v243 : Ref sig .tc := ⟨.hbm, 419, rfl⟩
abbrev main_v244 : Ref sig .tc := ⟨.hbm, 420, rfl⟩
abbrev main_v245 : Ref sig .tc := ⟨.hbm, 421, rfl⟩
abbrev main_cst_37 : Ref sig .tc := ⟨.hbm, 422, rfl⟩
abbrev main_v246 : Ref sig .tc := ⟨.hbm, 423, rfl⟩
abbrev main_v247 : Ref sig .tc := ⟨.hbm, 424, rfl⟩
abbrev main_cst_38 : Ref sig .tc := ⟨.hbm, 425, rfl⟩
abbrev main_v248 : Ref sig .tc := ⟨.hbm, 426, rfl⟩
abbrev main_v249 : Ref sig .tc := ⟨.hbm, 427, rfl⟩
abbrev main_c_39 : Ref sig .tc := ⟨.hbm, 428, rfl⟩
abbrev main_call6_cst : Ref sig .tc := ⟨.hbm, 429, rfl⟩
abbrev main_call6_v0 : Ref sig .tc := ⟨.hbm, 430, rfl⟩
abbrev main_call6_v1 : Ref sig .tc := ⟨.hbm, 431, rfl⟩
abbrev main_call6_cst_0 : Ref sig .tc := ⟨.hbm, 432, rfl⟩
abbrev main_call6_v2 : Ref sig .tc := ⟨.hbm, 433, rfl⟩
abbrev main_call6_v3 : Ref sig .tc := ⟨.hbm, 434, rfl⟩
abbrev main_call6_v4 : Ref sig .tc := ⟨.hbm, 435, rfl⟩
abbrev main_call6_v5 : Ref sig .tc := ⟨.hbm, 436, rfl⟩
abbrev main_call6_v6 : Ref sig .tc := ⟨.hbm, 437, rfl⟩
abbrev main_call6_v7 : Ref sig .tc := ⟨.hbm, 438, rfl⟩
abbrev main_call6_cst_1 : Ref sig .tc := ⟨.hbm, 439, rfl⟩
abbrev main_call6_v8 : Ref sig .tc := ⟨.hbm, 440, rfl⟩
abbrev main_call6_cst_2 : Ref sig .tc := ⟨.hbm, 441, rfl⟩
abbrev main_call6_v9 : Ref sig .tc := ⟨.hbm, 442, rfl⟩
abbrev main_call6_v10 : Ref sig .tc := ⟨.hbm, 443, rfl⟩
abbrev main_call6_v11 : Ref sig .tc := ⟨.hbm, 444, rfl⟩
abbrev main_call6_v12 : Ref sig .tc := ⟨.hbm, 445, rfl⟩
abbrev main_call6_cst_3 : Ref sig .tc := ⟨.hbm, 446, rfl⟩
abbrev main_call6_v13 : Ref sig .tc := ⟨.hbm, 447, rfl⟩
abbrev main_call6_cst_4 : Ref sig .tc := ⟨.hbm, 448, rfl⟩
abbrev main_call6_call0_v0 : Ref sig .tc := ⟨.hbm, 449, rfl⟩
abbrev main_call6_call0_v1 : Ref sig .tc := ⟨.hbm, 450, rfl⟩
abbrev main_v250 : Ref sig .tc := ⟨.hbm, 451, rfl⟩
abbrev main_v251 : Ref sig .tc := ⟨.hbm, 452, rfl⟩
abbrev main_v252 : Ref sig .tc := ⟨.hbm, 453, rfl⟩
abbrev main_v253 : Ref sig .tc := ⟨.hbm, 454, rfl⟩
abbrev main_v254 : Ref sig .tc := ⟨.hbm, 455, rfl⟩
abbrev main_v255 : Ref sig .tc := ⟨.hbm, 456, rfl⟩
abbrev main_v256 : Ref sig .tc := ⟨.hbm, 457, rfl⟩
abbrev main_v257 : Ref sig .tc := ⟨.hbm, 458, rfl⟩
abbrev main_v258 : Ref sig .tc := ⟨.hbm, 459, rfl⟩
abbrev main_v259 : Ref sig .tc := ⟨.hbm, 460, rfl⟩
abbrev main_v260 : Ref sig .tc := ⟨.hbm, 461, rfl⟩
abbrev main_v261 : Ref sig .tc := ⟨.hbm, 462, rfl⟩
abbrev main_v262 : Ref sig .tc := ⟨.hbm, 463, rfl⟩
abbrev main_v263 : Ref sig .tc := ⟨.hbm, 464, rfl⟩
abbrev main_v264 : Ref sig .tc := ⟨.hbm, 465, rfl⟩
abbrev main_v265 : Ref sig .tc := ⟨.hbm, 466, rfl⟩
abbrev main_v266 : Ref sig .tc := ⟨.hbm, 467, rfl⟩
abbrev main_v267 : Ref sig .tc := ⟨.hbm, 468, rfl⟩
abbrev main_v268 : Ref sig .tc := ⟨.hbm, 469, rfl⟩
abbrev main_v269_0 : Ref sig .tc := ⟨.hbm, 470, rfl⟩
abbrev main_v269_1 : Ref sig .tc := ⟨.hbm, 471, rfl⟩
abbrev main_c_40 : Ref sig .tc := ⟨.hbm, 472, rfl⟩
abbrev main_v270 : Ref sig .tc := ⟨.hbm, 473, rfl⟩
abbrev main_v271 : Ref sig .tc := ⟨.hbm, 474, rfl⟩
abbrev main_c_41 : Ref sig .tc := ⟨.hbm, 475, rfl⟩
abbrev main_v272 : Ref sig .tc := ⟨.hbm, 476, rfl⟩
abbrev main_v273 : Ref sig .tc := ⟨.hbm, 477, rfl⟩
abbrev main_v274 : Ref sig .tc := ⟨.hbm, 478, rfl⟩
abbrev main_v275 : Ref sig .tc := ⟨.hbm, 479, rfl⟩
abbrev main_v276 : Ref sig .tc := ⟨.hbm, 480, rfl⟩
abbrev main_v277 : Ref sig .tc := ⟨.hbm, 481, rfl⟩
abbrev main_v278 : Ref sig .tc := ⟨.hbm, 482, rfl⟩
abbrev main_cst_42 : Ref sig .tc := ⟨.hbm, 483, rfl⟩
abbrev main_v279 : Ref sig .tc := ⟨.hbm, 484, rfl⟩
abbrev main_v280 : Ref sig .tc := ⟨.hbm, 485, rfl⟩
abbrev main_v281 : Ref sig .tc := ⟨.hbm, 486, rfl⟩
abbrev main_v282 : Ref sig .tc := ⟨.hbm, 487, rfl⟩
abbrev main_v283 : Ref sig .tc := ⟨.hbm, 488, rfl⟩
abbrev main_v284 : Ref sig .tc := ⟨.hbm, 489, rfl⟩
abbrev main_v285 : Ref sig .tc := ⟨.hbm, 490, rfl⟩
abbrev main_v286 : Ref sig .tc := ⟨.hbm, 491, rfl⟩
abbrev main_cst_43 : Ref sig .tc := ⟨.hbm, 492, rfl⟩
abbrev main_v287 : Ref sig .tc := ⟨.hbm, 493, rfl⟩
abbrev main_v288 : Ref sig .tc := ⟨.hbm, 494, rfl⟩
abbrev main_cst_44 : Ref sig .tc := ⟨.hbm, 495, rfl⟩
abbrev main_v289 : Ref sig .tc := ⟨.hbm, 496, rfl⟩
abbrev main_v290 : Ref sig .tc := ⟨.hbm, 497, rfl⟩
abbrev main_c_45 : Ref sig .tc := ⟨.hbm, 498, rfl⟩
abbrev main_call7_cst : Ref sig .tc := ⟨.hbm, 499, rfl⟩
abbrev main_call7_v0 : Ref sig .tc := ⟨.hbm, 500, rfl⟩
abbrev main_call7_v1 : Ref sig .tc := ⟨.hbm, 501, rfl⟩
abbrev main_call7_cst_0 : Ref sig .tc := ⟨.hbm, 502, rfl⟩
abbrev main_call7_v2 : Ref sig .tc := ⟨.hbm, 503, rfl⟩
abbrev main_call7_v3 : Ref sig .tc := ⟨.hbm, 504, rfl⟩
abbrev main_call7_v4 : Ref sig .tc := ⟨.hbm, 505, rfl⟩
abbrev main_call7_v5 : Ref sig .tc := ⟨.hbm, 506, rfl⟩
abbrev main_call7_v6 : Ref sig .tc := ⟨.hbm, 507, rfl⟩
abbrev main_call7_v7 : Ref sig .tc := ⟨.hbm, 508, rfl⟩
abbrev main_call7_cst_1 : Ref sig .tc := ⟨.hbm, 509, rfl⟩
abbrev main_call7_v8 : Ref sig .tc := ⟨.hbm, 510, rfl⟩
abbrev main_call7_cst_2 : Ref sig .tc := ⟨.hbm, 511, rfl⟩
abbrev main_call7_v9 : Ref sig .tc := ⟨.hbm, 512, rfl⟩
abbrev main_call7_v10 : Ref sig .tc := ⟨.hbm, 513, rfl⟩
abbrev main_call7_v11 : Ref sig .tc := ⟨.hbm, 514, rfl⟩
abbrev main_call7_v12 : Ref sig .tc := ⟨.hbm, 515, rfl⟩
abbrev main_call7_cst_3 : Ref sig .tc := ⟨.hbm, 516, rfl⟩
abbrev main_call7_v13 : Ref sig .tc := ⟨.hbm, 517, rfl⟩
abbrev main_call7_cst_4 : Ref sig .tc := ⟨.hbm, 518, rfl⟩
abbrev main_call7_call0_v0 : Ref sig .tc := ⟨.hbm, 519, rfl⟩
abbrev main_call7_call0_v1 : Ref sig .tc := ⟨.hbm, 520, rfl⟩
abbrev main_v291 : Ref sig .tc := ⟨.hbm, 521, rfl⟩
abbrev main_v292 : Ref sig .tc := ⟨.hbm, 522, rfl⟩
abbrev main_v293 : Ref sig .tc := ⟨.hbm, 523, rfl⟩
abbrev main_v294 : Ref sig .tc := ⟨.hbm, 524, rfl⟩
abbrev main_v295 : Ref sig .tc := ⟨.hbm, 525, rfl⟩
abbrev main_v296 : Ref sig .tc := ⟨.hbm, 526, rfl⟩
abbrev main_v297 : Ref sig .tc := ⟨.hbm, 527, rfl⟩
abbrev main_v298 : Ref sig .tc := ⟨.hbm, 528, rfl⟩
abbrev main_v299 : Ref sig .tc := ⟨.hbm, 529, rfl⟩
abbrev main_v300 : Ref sig .tc := ⟨.hbm, 530, rfl⟩
abbrev main_v301 : Ref sig .tc := ⟨.hbm, 531, rfl⟩
abbrev main_v302 : Ref sig .tc := ⟨.hbm, 532, rfl⟩
abbrev main_v303 : Ref sig .tc := ⟨.hbm, 533, rfl⟩
abbrev main_v304 : Ref sig .tc := ⟨.hbm, 534, rfl⟩
abbrev main_v305 : Ref sig .tc := ⟨.hbm, 535, rfl⟩
abbrev main_v306 : Ref sig .tc := ⟨.hbm, 536, rfl⟩
abbrev main_v307 : Ref sig .tc := ⟨.hbm, 537, rfl⟩
abbrev main_v308 : Ref sig .tc := ⟨.hbm, 538, rfl⟩
abbrev main_v309 : Ref sig .tc := ⟨.hbm, 539, rfl⟩
abbrev main_v310_0 : Ref sig .tc := ⟨.hbm, 540, rfl⟩
abbrev main_v310_1 : Ref sig .tc := ⟨.hbm, 541, rfl⟩
abbrev main_c_46 : Ref sig .tc := ⟨.hbm, 542, rfl⟩
abbrev main_v311 : Ref sig .tc := ⟨.hbm, 543, rfl⟩
abbrev main_v312 : Ref sig .tc := ⟨.hbm, 544, rfl⟩
abbrev main_c_47 : Ref sig .tc := ⟨.hbm, 545, rfl⟩
abbrev main_v313 : Ref sig .tc := ⟨.hbm, 546, rfl⟩
abbrev main_v314 : Ref sig .tc := ⟨.hbm, 547, rfl⟩
abbrev main_v315 : Ref sig .tc := ⟨.hbm, 548, rfl⟩
abbrev main_v316 : Ref sig .tc := ⟨.hbm, 549, rfl⟩
abbrev main_v317 : Ref sig .tc := ⟨.hbm, 550, rfl⟩
abbrev main_v318 : Ref sig .tc := ⟨.hbm, 551, rfl⟩
abbrev main_v319 : Ref sig .tc := ⟨.hbm, 552, rfl⟩
abbrev main_cst_48 : Ref sig .tc := ⟨.hbm, 553, rfl⟩
abbrev main_v320 : Ref sig .tc := ⟨.hbm, 554, rfl⟩
abbrev main_v321 : Ref sig .tc := ⟨.hbm, 555, rfl⟩
abbrev main_v322 : Ref sig .tc := ⟨.hbm, 556, rfl⟩
abbrev main_v323 : Ref sig .tc := ⟨.hbm, 557, rfl⟩
abbrev main_v324 : Ref sig .tc := ⟨.hbm, 558, rfl⟩
abbrev main_v325 : Ref sig .tc := ⟨.hbm, 559, rfl⟩
abbrev main_v326 : Ref sig .tc := ⟨.hbm, 560, rfl⟩
abbrev main_v327 : Ref sig .tc := ⟨.hbm, 561, rfl⟩
abbrev main_cst_49 : Ref sig .tc := ⟨.hbm, 562, rfl⟩
abbrev main_v328 : Ref sig .tc := ⟨.hbm, 563, rfl⟩
abbrev main_v329 : Ref sig .tc := ⟨.hbm, 564, rfl⟩
abbrev main_cst_50 : Ref sig .tc := ⟨.hbm, 565, rfl⟩
abbrev main_v330 : Ref sig .tc := ⟨.hbm, 566, rfl⟩
abbrev main_v331 : Ref sig .tc := ⟨.hbm, 567, rfl⟩
abbrev main_c_51 : Ref sig .tc := ⟨.hbm, 568, rfl⟩
abbrev main_call8_cst : Ref sig .tc := ⟨.hbm, 569, rfl⟩
abbrev main_call8_v0 : Ref sig .tc := ⟨.hbm, 570, rfl⟩
abbrev main_call8_v1 : Ref sig .tc := ⟨.hbm, 571, rfl⟩
abbrev main_call8_cst_0 : Ref sig .tc := ⟨.hbm, 572, rfl⟩
abbrev main_call8_v2 : Ref sig .tc := ⟨.hbm, 573, rfl⟩
abbrev main_call8_v3 : Ref sig .tc := ⟨.hbm, 574, rfl⟩
abbrev main_call8_v4 : Ref sig .tc := ⟨.hbm, 575, rfl⟩
abbrev main_call8_v5 : Ref sig .tc := ⟨.hbm, 576, rfl⟩
abbrev main_call8_v6 : Ref sig .tc := ⟨.hbm, 577, rfl⟩
abbrev main_call8_v7 : Ref sig .tc := ⟨.hbm, 578, rfl⟩
abbrev main_call8_cst_1 : Ref sig .tc := ⟨.hbm, 579, rfl⟩
abbrev main_call8_v8 : Ref sig .tc := ⟨.hbm, 580, rfl⟩
abbrev main_call8_cst_2 : Ref sig .tc := ⟨.hbm, 581, rfl⟩
abbrev main_call8_v9 : Ref sig .tc := ⟨.hbm, 582, rfl⟩
abbrev main_call8_v10 : Ref sig .tc := ⟨.hbm, 583, rfl⟩
abbrev main_call8_v11 : Ref sig .tc := ⟨.hbm, 584, rfl⟩
abbrev main_call8_v12 : Ref sig .tc := ⟨.hbm, 585, rfl⟩
abbrev main_call8_cst_3 : Ref sig .tc := ⟨.hbm, 586, rfl⟩
abbrev main_call8_v13 : Ref sig .tc := ⟨.hbm, 587, rfl⟩
abbrev main_call8_cst_4 : Ref sig .tc := ⟨.hbm, 588, rfl⟩
abbrev main_call8_call0_v0 : Ref sig .tc := ⟨.hbm, 589, rfl⟩
abbrev main_call8_call0_v1 : Ref sig .tc := ⟨.hbm, 590, rfl⟩
abbrev main_v332 : Ref sig .tc := ⟨.hbm, 591, rfl⟩
abbrev main_v333 : Ref sig .tc := ⟨.hbm, 592, rfl⟩
abbrev main_v334 : Ref sig .tc := ⟨.hbm, 593, rfl⟩
abbrev main_v335 : Ref sig .tc := ⟨.hbm, 594, rfl⟩
abbrev main_v336 : Ref sig .tc := ⟨.hbm, 595, rfl⟩
abbrev main_v337 : Ref sig .tc := ⟨.hbm, 596, rfl⟩
abbrev main_v338 : Ref sig .tc := ⟨.hbm, 597, rfl⟩
abbrev main_v339 : Ref sig .tc := ⟨.hbm, 598, rfl⟩
abbrev main_v340 : Ref sig .tc := ⟨.hbm, 599, rfl⟩
abbrev main_v341 : Ref sig .tc := ⟨.hbm, 600, rfl⟩
abbrev main_v342 : Ref sig .tc := ⟨.hbm, 601, rfl⟩
abbrev main_v343 : Ref sig .tc := ⟨.hbm, 602, rfl⟩
abbrev main_v344 : Ref sig .tc := ⟨.hbm, 603, rfl⟩
abbrev main_v345 : Ref sig .tc := ⟨.hbm, 604, rfl⟩
abbrev main_v346 : Ref sig .tc := ⟨.hbm, 605, rfl⟩
abbrev main_v347 : Ref sig .tc := ⟨.hbm, 606, rfl⟩
abbrev main_v348 : Ref sig .tc := ⟨.hbm, 607, rfl⟩
abbrev main_v349 : Ref sig .tc := ⟨.hbm, 608, rfl⟩
abbrev main_v350 : Ref sig .tc := ⟨.hbm, 609, rfl⟩
abbrev main_v351_0 : Ref sig .tc := ⟨.hbm, 610, rfl⟩
abbrev main_v351_1 : Ref sig .tc := ⟨.hbm, 611, rfl⟩
abbrev main_c_52 : Ref sig .tc := ⟨.hbm, 612, rfl⟩
abbrev main_v352 : Ref sig .tc := ⟨.hbm, 613, rfl⟩
abbrev main_v353 : Ref sig .tc := ⟨.hbm, 614, rfl⟩
abbrev main_c_53 : Ref sig .tc := ⟨.hbm, 615, rfl⟩
abbrev main_v354 : Ref sig .tc := ⟨.hbm, 616, rfl⟩
abbrev main_v355 : Ref sig .tc := ⟨.hbm, 617, rfl⟩
abbrev main_v356 : Ref sig .tc := ⟨.hbm, 618, rfl⟩
abbrev main_v357 : Ref sig .tc := ⟨.hbm, 619, rfl⟩
abbrev main_v358 : Ref sig .tc := ⟨.hbm, 620, rfl⟩
abbrev main_v359 : Ref sig .tc := ⟨.hbm, 621, rfl⟩
abbrev main_v360 : Ref sig .tc := ⟨.hbm, 622, rfl⟩
abbrev main_cst_54 : Ref sig .tc := ⟨.hbm, 623, rfl⟩
abbrev main_v361 : Ref sig .tc := ⟨.hbm, 624, rfl⟩
abbrev main_v362 : Ref sig .tc := ⟨.hbm, 625, rfl⟩
abbrev main_v363 : Ref sig .tc := ⟨.hbm, 626, rfl⟩
abbrev main_v364 : Ref sig .tc := ⟨.hbm, 627, rfl⟩
abbrev main_v365 : Ref sig .tc := ⟨.hbm, 628, rfl⟩
abbrev main_v366 : Ref sig .tc := ⟨.hbm, 629, rfl⟩
abbrev main_v367 : Ref sig .tc := ⟨.hbm, 630, rfl⟩
abbrev main_v368 : Ref sig .tc := ⟨.hbm, 631, rfl⟩
abbrev main_cst_55 : Ref sig .tc := ⟨.hbm, 632, rfl⟩
abbrev main_v369 : Ref sig .tc := ⟨.hbm, 633, rfl⟩
abbrev main_v370 : Ref sig .tc := ⟨.hbm, 634, rfl⟩
abbrev main_cst_56 : Ref sig .tc := ⟨.hbm, 635, rfl⟩
abbrev main_v371 : Ref sig .tc := ⟨.hbm, 636, rfl⟩
abbrev main_v372 : Ref sig .tc := ⟨.hbm, 637, rfl⟩
abbrev main_c_57 : Ref sig .tc := ⟨.hbm, 638, rfl⟩
abbrev main_call9_cst : Ref sig .tc := ⟨.hbm, 639, rfl⟩
abbrev main_call9_v0 : Ref sig .tc := ⟨.hbm, 640, rfl⟩
abbrev main_call9_v1 : Ref sig .tc := ⟨.hbm, 641, rfl⟩
abbrev main_call9_cst_0 : Ref sig .tc := ⟨.hbm, 642, rfl⟩
abbrev main_call9_v2 : Ref sig .tc := ⟨.hbm, 643, rfl⟩
abbrev main_call9_v3 : Ref sig .tc := ⟨.hbm, 644, rfl⟩
abbrev main_call9_v4 : Ref sig .tc := ⟨.hbm, 645, rfl⟩
abbrev main_call9_v5 : Ref sig .tc := ⟨.hbm, 646, rfl⟩
abbrev main_call9_v6 : Ref sig .tc := ⟨.hbm, 647, rfl⟩
abbrev main_call9_v7 : Ref sig .tc := ⟨.hbm, 648, rfl⟩
abbrev main_call9_cst_1 : Ref sig .tc := ⟨.hbm, 649, rfl⟩
abbrev main_call9_v8 : Ref sig .tc := ⟨.hbm, 650, rfl⟩
abbrev main_call9_cst_2 : Ref sig .tc := ⟨.hbm, 651, rfl⟩
abbrev main_call9_v9 : Ref sig .tc := ⟨.hbm, 652, rfl⟩
abbrev main_call9_v10 : Ref sig .tc := ⟨.hbm, 653, rfl⟩
abbrev main_call9_v11 : Ref sig .tc := ⟨.hbm, 654, rfl⟩
abbrev main_call9_v12 : Ref sig .tc := ⟨.hbm, 655, rfl⟩
abbrev main_call9_cst_3 : Ref sig .tc := ⟨.hbm, 656, rfl⟩
abbrev main_call9_v13 : Ref sig .tc := ⟨.hbm, 657, rfl⟩
abbrev main_call9_cst_4 : Ref sig .tc := ⟨.hbm, 658, rfl⟩
abbrev main_call9_call0_v0 : Ref sig .tc := ⟨.hbm, 659, rfl⟩
abbrev main_call9_call0_v1 : Ref sig .tc := ⟨.hbm, 660, rfl⟩
abbrev main_v373 : Ref sig .tc := ⟨.hbm, 661, rfl⟩
abbrev main_v374 : Ref sig .tc := ⟨.hbm, 662, rfl⟩
abbrev main_v375 : Ref sig .tc := ⟨.hbm, 663, rfl⟩
abbrev main_v376 : Ref sig .tc := ⟨.hbm, 664, rfl⟩
abbrev main_v377 : Ref sig .tc := ⟨.hbm, 665, rfl⟩
abbrev main_v378 : Ref sig .tc := ⟨.hbm, 666, rfl⟩
abbrev main_v379 : Ref sig .tc := ⟨.hbm, 667, rfl⟩
abbrev main_v380 : Ref sig .tc := ⟨.hbm, 668, rfl⟩
abbrev main_v381 : Ref sig .tc := ⟨.hbm, 669, rfl⟩
abbrev main_v382 : Ref sig .tc := ⟨.hbm, 670, rfl⟩
abbrev main_v383 : Ref sig .tc := ⟨.hbm, 671, rfl⟩
abbrev main_v384 : Ref sig .tc := ⟨.hbm, 672, rfl⟩
abbrev main_v385 : Ref sig .tc := ⟨.hbm, 673, rfl⟩
abbrev main_v386 : Ref sig .tc := ⟨.hbm, 674, rfl⟩
abbrev main_v387 : Ref sig .tc := ⟨.hbm, 675, rfl⟩
abbrev main_v388 : Ref sig .tc := ⟨.hbm, 676, rfl⟩
abbrev main_v389 : Ref sig .tc := ⟨.hbm, 677, rfl⟩
abbrev main_v390 : Ref sig .tc := ⟨.hbm, 678, rfl⟩
abbrev main_v391 : Ref sig .tc := ⟨.hbm, 679, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg12_1 : Ref sig .tc := ⟨.vmem, 20, rfl⟩
abbrev cc1_stg13_0 : Ref sig .tc := ⟨.vmem, 21, rfl⟩
abbrev cc1_stg13_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg11_1 : Ref sig .tc := ⟨.vmem, 37, rfl⟩
abbrev cc2_stg12_0 : Ref sig .tc := ⟨.vmem, 38, rfl⟩
abbrev cc2_stg12_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg11_0 : Ref sig .tc := ⟨.vmem, 53, rfl⟩
abbrev cc3_stg11_1 : Ref sig .tc := ⟨.vmem, 54, rfl⟩
abbrev cc3_stg12_0 : Ref sig .tc := ⟨.vmem, 55, rfl⟩
abbrev cc3_stg12_1 : Ref sig .tc := ⟨.vmem, 56, rfl⟩
abbrev cc4_stg0_0 : Ref sig .tc := ⟨.vmem, 57, rfl⟩
abbrev cc4_stg0_1 : Ref sig .tc := ⟨.vmem, 58, rfl⟩
abbrev cc4_stg1_0 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg5_1 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg8_0 : Ref sig .tc := ⟨.vmem, 67, rfl⟩
abbrev cc4_stg9_0 : Ref sig .tc := ⟨.vmem, 68, rfl⟩
abbrev cc4_stg10_0 : Ref sig .tc := ⟨.vmem, 69, rfl⟩
abbrev cc4_stg11_0 : Ref sig .tc := ⟨.vmem, 70, rfl⟩
abbrev cc4_stg11_1 : Ref sig .tc := ⟨.vmem, 71, rfl⟩
abbrev cc4_stg12_0 : Ref sig .tc := ⟨.vmem, 72, rfl⟩
abbrev cc4_stg12_1 : Ref sig .tc := ⟨.vmem, 73, rfl⟩
abbrev cc5_stg0_0 : Ref sig .tc := ⟨.vmem, 74, rfl⟩
abbrev cc5_stg0_1 : Ref sig .tc := ⟨.vmem, 75, rfl⟩
abbrev cc5_stg1_0 : Ref sig .tc := ⟨.vmem, 76, rfl⟩
abbrev cc5_stg2_0 : Ref sig .tc := ⟨.vmem, 77, rfl⟩
abbrev cc5_stg3_0 : Ref sig .tc := ⟨.vmem, 78, rfl⟩
abbrev cc5_stg4_0 : Ref sig .tc := ⟨.vmem, 79, rfl⟩
abbrev cc5_stg5_0 : Ref sig .tc := ⟨.vmem, 80, rfl⟩
abbrev cc5_stg5_1 : Ref sig .tc := ⟨.vmem, 81, rfl⟩
abbrev cc5_stg6_0 : Ref sig .tc := ⟨.vmem, 82, rfl⟩
abbrev cc5_stg7_0 : Ref sig .tc := ⟨.vmem, 83, rfl⟩
abbrev cc5_stg8_0 : Ref sig .tc := ⟨.vmem, 84, rfl⟩
abbrev cc5_stg9_0 : Ref sig .tc := ⟨.vmem, 85, rfl⟩
abbrev cc5_stg10_0 : Ref sig .tc := ⟨.vmem, 86, rfl⟩
abbrev cc5_stg11_0 : Ref sig .tc := ⟨.vmem, 87, rfl⟩
abbrev cc5_stg11_1 : Ref sig .tc := ⟨.vmem, 88, rfl⟩
abbrev cc5_stg12_0 : Ref sig .tc := ⟨.vmem, 89, rfl⟩
abbrev cc5_stg12_1 : Ref sig .tc := ⟨.vmem, 90, rfl⟩
abbrev cc6_stg0_0 : Ref sig .tc := ⟨.vmem, 91, rfl⟩
abbrev cc6_stg0_1 : Ref sig .tc := ⟨.vmem, 92, rfl⟩
abbrev cc6_stg1_0 : Ref sig .tc := ⟨.vmem, 93, rfl⟩
abbrev cc6_stg2_0 : Ref sig .tc := ⟨.vmem, 94, rfl⟩
abbrev cc6_stg3_0 : Ref sig .tc := ⟨.vmem, 95, rfl⟩
abbrev cc6_stg4_0 : Ref sig .tc := ⟨.vmem, 96, rfl⟩
abbrev cc6_stg5_0 : Ref sig .tc := ⟨.vmem, 97, rfl⟩
abbrev cc6_stg5_1 : Ref sig .tc := ⟨.vmem, 98, rfl⟩
abbrev cc6_stg6_0 : Ref sig .tc := ⟨.vmem, 99, rfl⟩
abbrev cc6_stg7_0 : Ref sig .tc := ⟨.vmem, 100, rfl⟩
abbrev cc6_stg8_0 : Ref sig .tc := ⟨.vmem, 101, rfl⟩
abbrev cc6_stg9_0 : Ref sig .tc := ⟨.vmem, 102, rfl⟩
abbrev cc6_stg10_0 : Ref sig .tc := ⟨.vmem, 103, rfl⟩
abbrev cc6_stg11_0 : Ref sig .tc := ⟨.vmem, 104, rfl⟩
abbrev cc6_stg11_1 : Ref sig .tc := ⟨.vmem, 105, rfl⟩
abbrev cc6_stg12_0 : Ref sig .tc := ⟨.vmem, 106, rfl⟩
abbrev cc6_stg12_1 : Ref sig .tc := ⟨.vmem, 107, rfl⟩
abbrev cc7_stg0_0 : Ref sig .tc := ⟨.vmem, 108, rfl⟩
abbrev cc7_stg0_1 : Ref sig .tc := ⟨.vmem, 109, rfl⟩
abbrev cc7_stg1_0 : Ref sig .tc := ⟨.vmem, 110, rfl⟩
abbrev cc7_stg2_0 : Ref sig .tc := ⟨.vmem, 111, rfl⟩
abbrev cc7_stg3_0 : Ref sig .tc := ⟨.vmem, 112, rfl⟩
abbrev cc7_stg4_0 : Ref sig .tc := ⟨.vmem, 113, rfl⟩
abbrev cc7_stg5_0 : Ref sig .tc := ⟨.vmem, 114, rfl⟩
abbrev cc7_stg5_1 : Ref sig .tc := ⟨.vmem, 115, rfl⟩
abbrev cc7_stg6_0 : Ref sig .tc := ⟨.vmem, 116, rfl⟩
abbrev cc7_stg7_0 : Ref sig .tc := ⟨.vmem, 117, rfl⟩
abbrev cc7_stg8_0 : Ref sig .tc := ⟨.vmem, 118, rfl⟩
abbrev cc7_stg9_0 : Ref sig .tc := ⟨.vmem, 119, rfl⟩
abbrev cc7_stg10_0 : Ref sig .tc := ⟨.vmem, 120, rfl⟩
abbrev cc7_stg11_0 : Ref sig .tc := ⟨.vmem, 121, rfl⟩
abbrev cc7_stg11_1 : Ref sig .tc := ⟨.vmem, 122, rfl⟩
abbrev cc7_stg12_0 : Ref sig .tc := ⟨.vmem, 123, rfl⟩
abbrev cc7_stg12_1 : Ref sig .tc := ⟨.vmem, 124, rfl⟩
abbrev cc8_stg0_0 : Ref sig .tc := ⟨.vmem, 125, rfl⟩
abbrev cc8_stg0_1 : Ref sig .tc := ⟨.vmem, 126, rfl⟩
abbrev cc8_stg1_0 : Ref sig .tc := ⟨.vmem, 127, rfl⟩
abbrev cc8_stg2_0 : Ref sig .tc := ⟨.vmem, 128, rfl⟩
abbrev cc8_stg3_0 : Ref sig .tc := ⟨.vmem, 129, rfl⟩
abbrev cc8_stg4_0 : Ref sig .tc := ⟨.vmem, 130, rfl⟩
abbrev cc8_stg5_0 : Ref sig .tc := ⟨.vmem, 131, rfl⟩
abbrev cc8_stg5_1 : Ref sig .tc := ⟨.vmem, 132, rfl⟩
abbrev cc8_stg6_0 : Ref sig .tc := ⟨.vmem, 133, rfl⟩
abbrev cc8_stg7_0 : Ref sig .tc := ⟨.vmem, 134, rfl⟩
abbrev cc8_stg8_0 : Ref sig .tc := ⟨.vmem, 135, rfl⟩
abbrev cc8_stg9_0 : Ref sig .tc := ⟨.vmem, 136, rfl⟩
abbrev cc8_stg10_0 : Ref sig .tc := ⟨.vmem, 137, rfl⟩
abbrev cc8_stg11_0 : Ref sig .tc := ⟨.vmem, 138, rfl⟩
abbrev cc8_stg11_1 : Ref sig .tc := ⟨.vmem, 139, rfl⟩
abbrev cc8_stg12_0 : Ref sig .tc := ⟨.vmem, 140, rfl⟩
abbrev cc8_stg12_1 : Ref sig .tc := ⟨.vmem, 141, rfl⟩
abbrev cc9_stg0_0 : Ref sig .tc := ⟨.vmem, 142, rfl⟩
abbrev cc9_stg0_1 : Ref sig .tc := ⟨.vmem, 143, rfl⟩
abbrev cc9_stg1_0 : Ref sig .tc := ⟨.vmem, 144, rfl⟩
abbrev cc9_stg2_0 : Ref sig .tc := ⟨.vmem, 145, rfl⟩
abbrev cc9_stg3_0 : Ref sig .tc := ⟨.vmem, 146, rfl⟩
abbrev cc9_stg4_0 : Ref sig .tc := ⟨.vmem, 147, rfl⟩
abbrev cc9_stg5_0 : Ref sig .tc := ⟨.vmem, 148, rfl⟩
abbrev cc9_stg5_1 : Ref sig .tc := ⟨.vmem, 149, rfl⟩
abbrev cc9_stg6_0 : Ref sig .tc := ⟨.vmem, 150, rfl⟩
abbrev cc9_stg7_0 : Ref sig .tc := ⟨.vmem, 151, rfl⟩
abbrev cc9_stg8_0 : Ref sig .tc := ⟨.vmem, 152, rfl⟩
abbrev cc9_stg9_0 : Ref sig .tc := ⟨.vmem, 153, rfl⟩
abbrev cc9_stg10_0 : Ref sig .tc := ⟨.vmem, 154, rfl⟩
abbrev cc9_stg10_1 : Ref sig .tc := ⟨.vmem, 155, rfl⟩
abbrev cc10_stg0_0 : Ref sig .tc := ⟨.vmem, 156, rfl⟩
abbrev cc10_stg0_1 : Ref sig .tc := ⟨.vmem, 157, rfl⟩
abbrev cc10_stg1_0 : Ref sig .tc := ⟨.vmem, 158, rfl⟩
abbrev cc10_stg2_0 : Ref sig .tc := ⟨.vmem, 159, rfl⟩
abbrev cc10_stg3_0 : Ref sig .tc := ⟨.vmem, 160, rfl⟩
abbrev cc10_stg4_0 : Ref sig .tc := ⟨.vmem, 161, rfl⟩
abbrev cc10_stg5_0 : Ref sig .tc := ⟨.vmem, 162, rfl⟩
abbrev cc10_stg5_1 : Ref sig .tc := ⟨.vmem, 163, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem12_1 : DmaSem sig := 20
abbrev cc1_sem13_0 : DmaSem sig := 21
abbrev cc1_sem13_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem11_1 : DmaSem sig := 37
abbrev cc2_sem12_0 : DmaSem sig := 38
abbrev cc2_sem12_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem10_0 : DmaSem sig := 52
abbrev cc3_sem11_0 : DmaSem sig := 53
abbrev cc3_sem11_1 : DmaSem sig := 54
abbrev cc3_sem12_0 : DmaSem sig := 55
abbrev cc3_sem12_1 : DmaSem sig := 56
abbrev cc4_sem0_0 : DmaSem sig := 57
abbrev cc4_sem0_1 : DmaSem sig := 58
abbrev cc4_sem1_0 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem5_1 : DmaSem sig := 64
abbrev cc4_sem6_0 : DmaSem sig := 65
abbrev cc4_sem7_0 : DmaSem sig := 66
abbrev cc4_sem8_0 : DmaSem sig := 67
abbrev cc4_sem9_0 : DmaSem sig := 68
abbrev cc4_sem10_0 : DmaSem sig := 69
abbrev cc4_sem11_0 : DmaSem sig := 70
abbrev cc4_sem11_1 : DmaSem sig := 71
abbrev cc4_sem12_0 : DmaSem sig := 72
abbrev cc4_sem12_1 : DmaSem sig := 73
abbrev cc5_sem0_0 : DmaSem sig := 74
abbrev cc5_sem0_1 : DmaSem sig := 75
abbrev cc5_sem1_0 : DmaSem sig := 76
abbrev cc5_sem2_0 : DmaSem sig := 77
abbrev cc5_sem3_0 : DmaSem sig := 78
abbrev cc5_sem4_0 : DmaSem sig := 79
abbrev cc5_sem5_0 : DmaSem sig := 80
abbrev cc5_sem5_1 : DmaSem sig := 81
abbrev cc5_sem6_0 : DmaSem sig := 82
abbrev cc5_sem7_0 : DmaSem sig := 83
abbrev cc5_sem8_0 : DmaSem sig := 84
abbrev cc5_sem9_0 : DmaSem sig := 85
abbrev cc5_sem10_0 : DmaSem sig := 86
abbrev cc5_sem11_0 : DmaSem sig := 87
abbrev cc5_sem11_1 : DmaSem sig := 88
abbrev cc5_sem12_0 : DmaSem sig := 89
abbrev cc5_sem12_1 : DmaSem sig := 90
abbrev cc6_sem0_0 : DmaSem sig := 91
abbrev cc6_sem0_1 : DmaSem sig := 92
abbrev cc6_sem1_0 : DmaSem sig := 93
abbrev cc6_sem2_0 : DmaSem sig := 94
abbrev cc6_sem3_0 : DmaSem sig := 95
abbrev cc6_sem4_0 : DmaSem sig := 96
abbrev cc6_sem5_0 : DmaSem sig := 97
abbrev cc6_sem5_1 : DmaSem sig := 98
abbrev cc6_sem6_0 : DmaSem sig := 99
abbrev cc6_sem7_0 : DmaSem sig := 100
abbrev cc6_sem8_0 : DmaSem sig := 101
abbrev cc6_sem9_0 : DmaSem sig := 102
abbrev cc6_sem10_0 : DmaSem sig := 103
abbrev cc6_sem11_0 : DmaSem sig := 104
abbrev cc6_sem11_1 : DmaSem sig := 105
abbrev cc6_sem12_0 : DmaSem sig := 106
abbrev cc6_sem12_1 : DmaSem sig := 107
abbrev cc7_sem0_0 : DmaSem sig := 108
abbrev cc7_sem0_1 : DmaSem sig := 109
abbrev cc7_sem1_0 : DmaSem sig := 110
abbrev cc7_sem2_0 : DmaSem sig := 111
abbrev cc7_sem3_0 : DmaSem sig := 112
abbrev cc7_sem4_0 : DmaSem sig := 113
abbrev cc7_sem5_0 : DmaSem sig := 114
abbrev cc7_sem5_1 : DmaSem sig := 115
abbrev cc7_sem6_0 : DmaSem sig := 116
abbrev cc7_sem7_0 : DmaSem sig := 117
abbrev cc7_sem8_0 : DmaSem sig := 118
abbrev cc7_sem9_0 : DmaSem sig := 119
abbrev cc7_sem10_0 : DmaSem sig := 120
abbrev cc7_sem11_0 : DmaSem sig := 121
abbrev cc7_sem11_1 : DmaSem sig := 122
abbrev cc7_sem12_0 : DmaSem sig := 123
abbrev cc7_sem12_1 : DmaSem sig := 124
abbrev cc8_sem0_0 : DmaSem sig := 125
abbrev cc8_sem0_1 : DmaSem sig := 126
abbrev cc8_sem1_0 : DmaSem sig := 127
abbrev cc8_sem2_0 : DmaSem sig := 128
abbrev cc8_sem3_0 : DmaSem sig := 129
abbrev cc8_sem4_0 : DmaSem sig := 130
abbrev cc8_sem5_0 : DmaSem sig := 131
abbrev cc8_sem5_1 : DmaSem sig := 132
abbrev cc8_sem6_0 : DmaSem sig := 133
abbrev cc8_sem7_0 : DmaSem sig := 134
abbrev cc8_sem8_0 : DmaSem sig := 135
abbrev cc8_sem9_0 : DmaSem sig := 136
abbrev cc8_sem10_0 : DmaSem sig := 137
abbrev cc8_sem11_0 : DmaSem sig := 138
abbrev cc8_sem11_1 : DmaSem sig := 139
abbrev cc8_sem12_0 : DmaSem sig := 140
abbrev cc8_sem12_1 : DmaSem sig := 141
abbrev cc9_sem0_0 : DmaSem sig := 142
abbrev cc9_sem0_1 : DmaSem sig := 143
abbrev cc9_sem1_0 : DmaSem sig := 144
abbrev cc9_sem2_0 : DmaSem sig := 145
abbrev cc9_sem3_0 : DmaSem sig := 146
abbrev cc9_sem4_0 : DmaSem sig := 147
abbrev cc9_sem5_0 : DmaSem sig := 148
abbrev cc9_sem5_1 : DmaSem sig := 149
abbrev cc9_sem6_0 : DmaSem sig := 150
abbrev cc9_sem7_0 : DmaSem sig := 151
abbrev cc9_sem8_0 : DmaSem sig := 152
abbrev cc9_sem9_0 : DmaSem sig := 153
abbrev cc9_sem10_0 : DmaSem sig := 154
abbrev cc9_sem10_1 : DmaSem sig := 155
abbrev cc10_sem0_0 : DmaSem sig := 156
abbrev cc10_sem0_1 : DmaSem sig := 157
abbrev cc10_sem1_0 : DmaSem sig := 158
abbrev cc10_sem2_0 : DmaSem sig := 159
abbrev cc10_sem3_0 : DmaSem sig := 160
abbrev cc10_sem4_0 : DmaSem sig := 161
abbrev cc10_sem5_0 : DmaSem sig := 162
abbrev cc10_sem5_1 : DmaSem sig := 163

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x4 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2000x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x4 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S4x1 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S64x4 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S4x1 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x64 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S2000x64 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S64x4 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x4 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S4x1 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64x64 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S2000x64 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S2000x64 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S64x4 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x4 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S4x1 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S64x64 .bf16 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S2000x64 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S2000x64 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S64x4 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x4 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S4x1 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S64x64 .bf16 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S2000x64 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S2000x64 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_12 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S64x4 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x4 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S4x1 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x1 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S64x64 .bf16 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S2000x64 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev stage7_12 : Fin 2 → Memref sig .tc .vmem S2000x64 .f32 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_12 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S64x4 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x4 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S4x1 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x1 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S64x64 .bf16 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 2 → Memref sig .tc .vmem S2000x64 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev stage8_12 : Fin 2 → Memref sig .tc .vmem S2000x64 .f32 := fun | 0 => Memref.whole cc8_stg12_0 | 1 => Memref.whole cc8_stg12_1 | ⟨_ + 2, h⟩ => absurd h (Nat.not_lt.2 (Nat.le_add_left _ _))
abbrev sem8_12 : Fin 2 → DmaSem sig := fun | 0 => cc8_sem12_0 | 1 => cc8_sem12_1 | ⟨_ + 2, h⟩ => absurd h (Nat.not_lt.2 (Nat.le_add_left _ _))
abbrev reads8_12 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S64x4 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x4 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S4x1 .bf16 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x1 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 2 → Memref sig .tc .vmem S2000x64 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x64 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S9x64x4_S1x64x4_0_0_0 : S9x64x4.Slices ![0, 0, 0] S1x64x4
  shapeCasts_S1x64x4_S64x4 : S1x64x4.ShapeCasts S64x4
  slices_S9x4_S1x4_0_0 : S9x4.Slices ![0, 0] S1x4
  shapeCasts_S1x4_S4 : S1x4.ShapeCasts S4
  shapeCasts_S4_S1x4 : S4.ShapeCasts S1x4
  slices_S9x4x1_S1x4x1_0_0_0 : S9x4x1.Slices ![0, 0, 0] S1x4x1
  shapeCasts_S1x4x1_S4x1 : S1x4x1.ShapeCasts S4x1
  slices_S9x1_S1x1_0_0 : S9x1.Slices ![0, 0] S1x1
  shapeCasts_S1x1_S1 : S1x1.ShapeCasts S1
  shapeCasts_S1_S1x1 : S1.ShapeCasts S1x1
  slices_S8x64x64_S1x64x64_0_0_0 : S8x64x64.Slices ![0, 0, 0] S1x64x64
  shapeCasts_S1x64x64_S64x64 : S1x64x64.ShapeCasts S64x64
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S8x64_S1x64_0_0 : S8x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S1x64 : S_.BroadcastsInDim S1x64 (![] : Fin 0 → Fin S1x64.rank)
  slices_S9x64x4_S1x64x4_1_0_0 : S9x64x4.Slices ![1, 0, 0] S1x64x4
  slices_S9x4_S1x4_1_0 : S9x4.Slices ![1, 0] S1x4
  slices_S9x4x1_S1x4x1_1_0_0 : S9x4x1.Slices ![1, 0, 0] S1x4x1
  slices_S9x1_S1x1_1_0 : S9x1.Slices ![1, 0] S1x1
  slices_S8x64x64_S1x64x64_1_0_0 : S8x64x64.Slices ![1, 0, 0] S1x64x64
  shapeCasts_S2000x64_S2000x64 : S2000x64.ShapeCasts S2000x64
  slices_S8x64_S1x64_1_0 : S8x64.Slices ![1, 0] S1x64
  slices_S9x64x4_S1x64x4_2_0_0 : S9x64x4.Slices ![2, 0, 0] S1x64x4
  slices_S9x4_S1x4_2_0 : S9x4.Slices ![2, 0] S1x4
  slices_S9x4x1_S1x4x1_2_0_0 : S9x4x1.Slices ![2, 0, 0] S1x4x1
  slices_S9x1_S1x1_2_0 : S9x1.Slices ![2, 0] S1x1
  slices_S8x64x64_S1x64x64_2_0_0 : S8x64x64.Slices ![2, 0, 0] S1x64x64
  slices_S8x64_S1x64_2_0 : S8x64.Slices ![2, 0] S1x64
  slices_S9x64x4_S1x64x4_3_0_0 : S9x64x4.Slices ![3, 0, 0] S1x64x4
  slices_S9x4_S1x4_3_0 : S9x4.Slices ![3, 0] S1x4
  slices_S9x4x1_S1x4x1_3_0_0 : S9x4x1.Slices ![3, 0, 0] S1x4x1
  slices_S9x1_S1x1_3_0 : S9x1.Slices ![3, 0] S1x1
  slices_S8x64x64_S1x64x64_3_0_0 : S8x64x64.Slices ![3, 0, 0] S1x64x64
  slices_S8x64_S1x64_3_0 : S8x64.Slices ![3, 0] S1x64
  slices_S9x64x4_S1x64x4_4_0_0 : S9x64x4.Slices ![4, 0, 0] S1x64x4
  slices_S9x4_S1x4_4_0 : S9x4.Slices ![4, 0] S1x4
  slices_S9x4x1_S1x4x1_4_0_0 : S9x4x1.Slices ![4, 0, 0] S1x4x1
  slices_S9x1_S1x1_4_0 : S9x1.Slices ![4, 0] S1x1
  slices_S8x64x64_S1x64x64_4_0_0 : S8x64x64.Slices ![4, 0, 0] S1x64x64
  slices_S8x64_S1x64_4_0 : S8x64.Slices ![4, 0] S1x64
  slices_S9x64x4_S1x64x4_5_0_0 : S9x64x4.Slices ![5, 0, 0] S1x64x4
  slices_S9x4_S1x4_5_0 : S9x4.Slices ![5, 0] S1x4
  slices_S9x4x1_S1x4x1_5_0_0 : S9x4x1.Slices ![5, 0, 0] S1x4x1
  slices_S9x1_S1x1_5_0 : S9x1.Slices ![5, 0] S1x1
  slices_S8x64x64_S1x64x64_5_0_0 : S8x64x64.Slices ![5, 0, 0] S1x64x64
  slices_S8x64_S1x64_5_0 : S8x64.Slices ![5, 0] S1x64
  slices_S9x64x4_S1x64x4_6_0_0 : S9x64x4.Slices ![6, 0, 0] S1x64x4
  slices_S9x4_S1x4_6_0 : S9x4.Slices ![6, 0] S1x4
  slices_S9x4x1_S1x4x1_6_0_0 : S9x4x1.Slices ![6, 0, 0] S1x4x1
  slices_S9x1_S1x1_6_0 : S9x1.Slices ![6, 0] S1x1
  slices_S8x64x64_S1x64x64_6_0_0 : S8x64x64.Slices ![6, 0, 0] S1x64x64
  slices_S8x64_S1x64_6_0 : S8x64.Slices ![6, 0] S1x64
  slices_S9x64x4_S1x64x4_7_0_0 : S9x64x4.Slices ![7, 0, 0] S1x64x4
  slices_S9x4_S1x4_7_0 : S9x4.Slices ![7, 0] S1x4
  slices_S9x4x1_S1x4x1_7_0_0 : S9x4x1.Slices ![7, 0, 0] S1x4x1
  slices_S9x1_S1x1_7_0 : S9x1.Slices ![7, 0] S1x1
  slices_S8x64x64_S1x64x64_7_0_0 : S8x64x64.Slices ![7, 0, 0] S1x64x64
  slices_S8x64_S1x64_7_0 : S8x64.Slices ![7, 0] S1x64
  slices_S9x64x4_S1x64x4_8_0_0 : S9x64x4.Slices ![8, 0, 0] S1x64x4
  slices_S9x4_S1x4_8_0 : S9x4.Slices ![8, 0] S1x4
  slices_S9x4x1_S1x4x1_8_0_0 : S9x4x1.Slices ![8, 0, 0] S1x4x1
  slices_S9x1_S1x1_8_0 : S9x1.Slices ![8, 0] S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x4_S2000x4_1_0_0_1_n_n_wf : DotDims.WF S2000x64 S64x4 S2000x4 [1] [0] [0] [1] [] []
  dot_S2000x4_S4x1_S2000x1_1_0_0_1_n_n_wf : DotDims.WF S2000x4 S4x1 S2000x1 [1] [0] [0] [1] [] []
  dot_S2000x64_S64x64_S2000x64_1_0_0_1_n_n_wf : DotDims.WF S2000x64 S64x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x4.size a ≤ S64x4.size a
  hwx1_7 : ∀ i : grid1.Coords, EltTy.bits .bf16 = 32 ∨ (Rect.block (s := S64x4) S64x4.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x4.size a ≤ S1x4.size a
  hwx1_8 : ∀ i : grid1.Coords, EltTy.bits .f32 = 32 ∨ (Rect.block (s := S1x4) S1x4.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x1.size a ≤ S4x1.size a
  hwx1_9 : ∀ i : grid1.Coords, EltTy.bits .bf16 = 32 ∨ (Rect.block (s := S4x1) S4x1.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .bf16 = 32 ∨ (Rect.block (s := S64x64) S64x64.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x64.size a ≤ S50000x64.size a
  hwx1_12 : ∀ i : grid1.Coords, EltTy.bits .f32 = 32 ∨ (Rect.block (s := S50000x64) S2000x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x64.size a ≤ S50000x64.size a
  hwx1_13 : ∀ i : grid1.Coords, EltTy.bits .f32 = 32 ∨ (Rect.block (s := S50000x64) S2000x64.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x4.size a ≤ S64x4.size a
  hwx2_6 : ∀ i : grid2.Coords, EltTy.bits .bf16 = 32 ∨ (Rect.block (s := S64x4) S64x4.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4.size a ≤ S1x4.size a
  hwx2_7 : ∀ i : grid2.Coords, EltTy.bits .f32 = 32 ∨ (Rect.block (s := S1x4) S1x4.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S4x1.size a ≤ S4x1.size a
  hwx2_8 : ∀ i : grid2.Coords, EltTy.bits .bf16 = 32 ∨ (Rect.block (s := S4x1) S4x1.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x64.size a ≤ S64x64.size a
  hwx2_10 : ∀ i : grid2.Coords, EltTy.bits .bf16 = 32 ∨ (Rect.block (s := S64x64) S64x64.size (cc2_transform_10 i) (hinb2_10 i)).WholeWords (EltTy.packing .bf16)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x64.size a ≤ S50000x64.size a
  hwx2_11 : ∀ i : grid2.Coords, EltTy.bits .f32 = 32 ∨ (Rect.block (s := S50000x64) S2000x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x64.size a ≤ S50000x64.size a
  hwx2_12 : ∀ i : grid2.Coords, EltTy.bits .f32 = 32 ∨ (Rect.block (s := S50000x64) S2000x64.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x4.size a ≤ S64x4.size a
  hwx3_6 : ∀ i : grid3.Coords, EltTy.bits .bf16 = 32 ∨ (Rect.block (s := S64x4) S64x4.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x4.size a ≤ S1x4.size a
  hwx3_7 : ∀ i : grid3.Coords, EltTy.bits .f32 = 32 ∨ (Rect.block (s := S1x4) S1x4.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S4x1.size a ≤ S4x1.size a
  hwx3_8 : ∀ i : grid3.Coords, EltTy.bits .bf16 = 32 ∨ (Rect.block (s := S4x1) S4x1.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x64.size a ≤ S64x64.size a
  hwx3_10 : ∀ i : grid3.Coords, EltTy.bits .bf16 = 32 ∨ (Rect.block (s := S64x64) S64x64.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x64.size a ≤ S50000x64.size a
  hwx3_11 : ∀ i : grid3.Coords, EltTy.bits .f32 = 32 ∨ (Rect.block (s := S50000x64) S2000x64.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S2000x64.size a ≤ S50000x64.size a
  hwx3_12 : ∀ i : grid3.Coords, EltTy.bits .f32 = 32 ∨ (Rect.block (s := S50000x64) S2000x64.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x4.size a ≤ S64x4.size a
  hwx4_6 : ∀ i : grid4.Coords, EltTy.bits .bf16 = 32 ∨ (Rect.block (s := S64x4) S64x4.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x4.size a ≤ S1x4.size a
  hwx4_7 : ∀ i : grid4.Coords, EltTy.bits .f32 = 32 ∨ (Rect.block (s := S1x4) S1x4.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S4x1.size a ≤ S4x1.size a
  hwx4_8 : ∀ i : grid4.Coords, EltTy.bits .bf16 = 32 ∨ (Rect.block (s := S4x1) S4x1.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x1.size a ≤ S1x1.size a
  hwx4_9 : ∀ i : grid4.Coords, EltTy.bits .f32 = 32 ∨ (Rect.block (s := S1x1) S1x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x64.size a ≤ S64x64.size a
  hwx4_10 : ∀ i : grid4.Coords, EltTy.bits .bf16 = 32 ∨ (Rect.block (s := S64x64) S64x64.size (cc4_transform_10 i) (hinb4_10 i)).WholeWords (EltTy.packing .bf16)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S2000x64.size a ≤ S50000x64.size a
  hwx4_11 : ∀ i : grid4.Coords, EltTy.bits .f32 = 32 ∨ (Rect.block (s := S50000x64) S2000x64.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S2000x64.size a ≤ S50000x64.size a
  hwx4_12 : ∀ i : grid4.Coords, EltTy.bits .f32 = 32 ∨ (Rect.block (s := S50000x64) S2000x64.size (cc4_transform_12 i) (hinb4_12 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x4.size a ≤ S64x4.size a
  hwx5_6 : ∀ i : grid5.Coords, EltTy.bits .bf16 = 32 ∨ (Rect.block (s := S64x4) S64x4.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x4.size a ≤ S1x4.size a
  hwx5_7 : ∀ i : grid5.Coords, EltTy.bits .f32 = 32 ∨ (Rect.block (s := S1x4) S1x4.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S4x1.size a ≤ S4x1.size a
  hwx5_8 : ∀ i : grid5.Coords, EltTy.bits .bf16 = 32 ∨ (Rect.block (s := S4x1) S4x1.size (cc5_transform_8 i) (hinb5_8 i)).WholeWords (EltTy.packing .bf16)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x1.size a ≤ S1x1.size a
  hwx5_9 : ∀ i : grid5.Coords, EltTy.bits .f32 = 32 ∨ (Rect.block (s := S1x1) S1x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S64x64.size a ≤ S64x64.size a
  hwx5_10 : ∀ i : grid5.Coords, EltTy.bits .bf16 = 32 ∨ (Rect.block (s := S64x64) S64x64.size (cc5_transform_10 i) (hinb5_10 i)).WholeWords (EltTy.packing .bf16)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S2000x64.size a ≤ S50000x64.size a
  hwx5_11 : ∀ i : grid5.Coords, EltTy.bits .f32 = 32 ∨ (Rect.block (s := S50000x64) S2000x64.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S2000x64.size a ≤ S50000x64.size a
  hwx5_12 : ∀ i : grid5.Coords, EltTy.bits .f32 = 32 ∨ (Rect.block (s := S50000x64) S2000x64.size (cc5_transform_12 i) (hinb5_12 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S50000x64.size a
  hwx6_5 : ∀ i : grid6.Coords, EltTy.bits .f32 = 32 ∨ (Rect.block (s := S50000x64) S2000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x4.size a ≤ S64x4.size a
  hwx6_6 : ∀ i : grid6.Coords, EltTy.bits .bf16 = 32 ∨ (Rect.block (s := S64x4) S64x4.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x4.size a ≤ S1x4.size a
  hwx6_7 : ∀ i : grid6.Coords, EltTy.bits .f32 = 32 ∨ (Rect.block (s := S1x4) S1x4.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S4x1.size a ≤ S4x1.size a
  hwx6_8 : ∀ i : grid6.Coords, EltTy.bits .bf16 = 32 ∨ (Rect.block (s := S4x1) S4x1.size (cc6_transform_8 i) (hinb6_8 i)).WholeWords (EltTy.packing .bf16)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1.size a ≤ S1x1.size a
  hwx6_9 : ∀ i : grid6.Coords, EltTy.bits .f32 = 32 ∨ (Rect.block (s := S1x1) S1x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S64x64.size a ≤ S64x64.size a
  hwx6_10 : ∀ i : grid6.Coords, EltTy.bits .bf16 = 32 ∨ (Rect.block (s := S64x64) S64x64.size (cc6_transform_10 i) (hinb6_10 i)).WholeWords (EltTy.packing .bf16)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S2000x64.size a ≤ S50000x64.size a
  hwx6_11 : ∀ i : grid6.Coords, EltTy.bits .f32 = 32 ∨ (Rect.block (s := S50000x64) S2000x64.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S2000x64.size a ≤ S50000x64.size a
  hwx6_12 : ∀ i : grid6.Coords, EltTy.bits .f32 = 32 ∨ (Rect.block (s := S50000x64) S2000x64.size (cc6_transform_12 i) (hinb6_12 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x64.size a ≤ S50000x64.size a
  hwx7_5 : ∀ i : grid7.Coords, EltTy.bits .f32 = 32 ∨ (Rect.block (s := S50000x64) S2000x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x4.size a ≤ S64x4.size a
  hwx7_6 : ∀ i : grid7.Coords, EltTy.bits .bf16 = 32 ∨ (Rect.block (s := S64x4) S64x4.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x4.size a ≤ S1x4.size a
  hwx7_7 : ∀ i : grid7.Coords, EltTy.bits .f32 = 32 ∨ (Rect.block (s := S1x4) S1x4.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S4x1.size a ≤ S4x1.size a
  hwx7_8 : ∀ i : grid7.Coords, EltTy.bits .bf16 = 32 ∨ (Rect.block (s := S4x1) S4x1.size (cc7_transform_8 i) (hinb7_8 i)).WholeWords (EltTy.packing .bf16)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x1.size a ≤ S1x1.size a
  hwx7_9 : ∀ i : grid7.Coords, EltTy.bits .f32 = 32 ∨ (Rect.block (s := S1x1) S1x1.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S64x64.size a ≤ S64x64.size a
  hwx7_10 : ∀ i : grid7.Coords, EltTy.bits .bf16 = 32 ∨ (Rect.block (s := S64x64) S64x64.size (cc7_transform_10 i) (hinb7_10 i)).WholeWords (EltTy.packing .bf16)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S2000x64.size a ≤ S50000x64.size a
  hwx7_11 : ∀ i : grid7.Coords, EltTy.bits .f32 = 32 ∨ (Rect.block (s := S50000x64) S2000x64.size (cc7_transform_11 i) (hinb7_11 i)).WholeWords (EltTy.packing .f32)
  hstage7_12 : ∀ j, (stage7_12 j).IsWhole
  nbuf7_12 : grid7.bufCount reads7_12 false = 2
  hreads7_12 : ∀ i i' : grid7.Coords, (∀ a, reads7_12 a = true → i a = i' a) → cc7_transform_12 i = cc7_transform_12 i'
  hinb7_12 : ∀ (i : grid7.Coords) a, (cc7_transform_12 i a + 1) * S2000x64.size a ≤ S50000x64.size a
  hwx7_12 : ∀ i : grid7.Coords, EltTy.bits .f32 = 32 ∨ (Rect.block (s := S50000x64) S2000x64.size (cc7_transform_12 i) (hinb7_12 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x64.size a ≤ S50000x64.size a
  hwx8_5 : ∀ i : grid8.Coords, EltTy.bits .f32 = 32 ∨ (Rect.block (s := S50000x64) S2000x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S64x4.size a ≤ S64x4.size a
  hwx8_6 : ∀ i : grid8.Coords, EltTy.bits .bf16 = 32 ∨ (Rect.block (s := S64x4) S64x4.size (cc8_transform_6 i) (hinb8_6 i)).WholeWords (EltTy.packing .bf16)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x4.size a ≤ S1x4.size a
  hwx8_7 : ∀ i : grid8.Coords, EltTy.bits .f32 = 32 ∨ (Rect.block (s := S1x4) S1x4.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S4x1.size a ≤ S4x1.size a
  hwx8_8 : ∀ i : grid8.Coords, EltTy.bits .bf16 = 32 ∨ (Rect.block (s := S4x1) S4x1.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x1.size a ≤ S1x1.size a
  hwx8_9 : ∀ i : grid8.Coords, EltTy.bits .f32 = 32 ∨ (Rect.block (s := S1x1) S1x1.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S64x64.size a ≤ S64x64.size a
  hwx8_10 : ∀ i : grid8.Coords, EltTy.bits .bf16 = 32 ∨ (Rect.block (s := S64x64) S64x64.size (cc8_transform_10 i) (hinb8_10 i)).WholeWords (EltTy.packing .bf16)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S2000x64.size a ≤ S50000x64.size a
  hwx8_11 : ∀ i : grid8.Coords, EltTy.bits .f32 = 32 ∨ (Rect.block (s := S50000x64) S2000x64.size (cc8_transform_11 i) (hinb8_11 i)).WholeWords (EltTy.packing .f32)
  hstage8_12 : ∀ j, (stage8_12 j).IsWhole
  nbuf8_12 : grid8.bufCount reads8_12 false = 2
  hreads8_12 : ∀ i i' : grid8.Coords, (∀ a, reads8_12 a = true → i a = i' a) → cc8_transform_12 i = cc8_transform_12 i'
  hinb8_12 : ∀ (i : grid8.Coords) a, (cc8_transform_12 i a + 1) * S2000x64.size a ≤ S50000x64.size a
  hwx8_12 : ∀ i : grid8.Coords, EltTy.bits .f32 = 32 ∨ (Rect.block (s := S50000x64) S2000x64.size (cc8_transform_12 i) (hinb8_12 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x64.size a ≤ S50000x64.size a
  hwx9_5 : ∀ i : grid9.Coords, EltTy.bits .f32 = 32 ∨ (Rect.block (s := S50000x64) S2000x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S64x4.size a ≤ S64x4.size a
  hwx9_6 : ∀ i : grid9.Coords, EltTy.bits .bf16 = 32 ∨ (Rect.block (s := S64x4) S64x4.size (cc9_transform_6 i) (hinb9_6 i)).WholeWords (EltTy.packing .bf16)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x4.size a ≤ S1x4.size a
  hwx9_7 : ∀ i : grid9.Coords, EltTy.bits .f32 = 32 ∨ (Rect.block (s := S1x4) S1x4.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S4x1.size a ≤ S4x1.size a
  hwx9_8 : ∀ i : grid9.Coords, EltTy.bits .bf16 = 32 ∨ (Rect.block (s := S4x1) S4x1.size (cc9_transform_8 i) (hinb9_8 i)).WholeWords (EltTy.packing .bf16)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x1.size a ≤ S1x1.size a
  hwx9_9 : ∀ i : grid9.Coords, EltTy.bits .f32 = 32 ∨ (Rect.block (s := S1x1) S1x1.size (cc9_transform_9 i) (hinb9_9 i)).WholeWords (EltTy.packing .f32)
  hstage9_10 : ∀ j, (stage9_10 j).IsWhole
  nbuf9_10 : grid9.bufCount reads9_10 false = 2
  hreads9_10 : ∀ i i' : grid9.Coords, (∀ a, reads9_10 a = true → i a = i' a) → cc9_transform_10 i = cc9_transform_10 i'
  hinb9_10 : ∀ (i : grid9.Coords) a, (cc9_transform_10 i a + 1) * S2000x64.size a ≤ S50000x64.size a
  hwx9_10 : ∀ i : grid9.Coords, EltTy.bits .f32 = 32 ∨ (Rect.block (s := S50000x64) S2000x64.size (cc9_transform_10 i) (hinb9_10 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S50000x64.size a
  hwx10_0 : ∀ i : grid10.Coords, EltTy.bits .f32 = 32 ∨ (Rect.block (s := S50000x64) S2000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .bf16 = 32 ∨ (Rect.block (s := S64x128) S64x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x64.size a ≤ S128x64.size a
  hwx10_3 : ∀ i : grid10.Coords, EltTy.bits .bf16 = 32 ∨ (Rect.block (s := S128x64) S128x64.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x64.size a ≤ S50000x64.size a
  hwx10_5 : ∀ i : grid10.Coords, EltTy.bits .f32 = 32 ∨ (Rect.block (s := S50000x64) S2000x64.size (cc10_transform_5 i) (hinb10_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf
def dot_S2000x4_S4x1_S2000x1_1_0_0_1_n_n : DotDims S2000x4 S4x1 S2000x1 where
  lhsContracting := [1]
  rhsContracting := [0]
  lhsNonContracting := [0]
  rhsNonContracting := [1]
  lhsBatch := []
  rhsBatch := []
  wf := dot_S2000x4_S4x1_S2000x1_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S64x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S1x4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S4x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v61) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v63) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v64_0) S2000x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v64_1) S2000x64.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v81) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v92) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64_0) S2000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v94) S64x4.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v97) S1x4.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v99) S4x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v102) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v104) S64x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v105_0) S2000x64.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v105_1) S2000x64.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v122) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v126) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v127) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v130) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v133) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v105_0) S2000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v135) S64x4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v138) S1x4.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v140) S4x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v143) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v145) S64x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v146_0) S2000x64.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v146_1) S2000x64.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v163) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v167) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v168) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v171) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v174) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v146_0) S2000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v176) S64x4.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v179) S1x4.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v181) S4x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v184) S1x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v186) S64x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v187_0) S2000x64.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v187_1) S2000x64.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_v204) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v208) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v209) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v212) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v215) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v187_0) S2000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v217) S64x4.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v220) S1x4.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v222) S4x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v225) S1x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v227) S64x64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v228_0) S2000x64.size cc5_transform_11 reads5_11 true false 2 stage5_11 sem5_11
    hrank5 hreads5_11 hinb5_11 nbuf5_11 (Memref.isWhole_whole _) hwx5_11 hstage5_11

abbrev win5_12 : Pipeline.Window sig grid5 :=
  Pipeline.Window.ofSpec (Memref.whole main_v228_1) S2000x64.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev win6_0 : Pipeline.Window sig grid6 :=
  Pipeline.Window.ofSpec (Memref.whole main_v245) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v249) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v250) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v253) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v256) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v228_0) S2000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v258) S64x4.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v261) S1x4.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v263) S4x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v266) S1x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v268) S64x64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v269_0) S2000x64.size cc6_transform_11 reads6_11 true false 2 stage6_11 sem6_11
    hrank6 hreads6_11 hinb6_11 nbuf6_11 (Memref.isWhole_whole _) hwx6_11 hstage6_11

abbrev win6_12 : Pipeline.Window sig grid6 :=
  Pipeline.Window.ofSpec (Memref.whole main_v269_1) S2000x64.size cc6_transform_12 reads6_12 true false 2 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

abbrev win7_0 : Pipeline.Window sig grid7 :=
  Pipeline.Window.ofSpec (Memref.whole main_v286) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v290) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v291) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v294) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v297) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v269_0) S2000x64.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v299) S64x4.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v302) S1x4.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v304) S4x1.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v307) S1x1.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v309) S64x64.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v310_0) S2000x64.size cc7_transform_11 reads7_11 true false 2 stage7_11 sem7_11
    hrank7 hreads7_11 hinb7_11 nbuf7_11 (Memref.isWhole_whole _) hwx7_11 hstage7_11

abbrev win7_12 : Pipeline.Window sig grid7 :=
  Pipeline.Window.ofSpec (Memref.whole main_v310_1) S2000x64.size cc7_transform_12 reads7_12 true false 2 stage7_12 sem7_12
    hrank7 hreads7_12 hinb7_12 nbuf7_12 (Memref.isWhole_whole _) hwx7_12 hstage7_12

abbrev win7 : Fin 13 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | ⟨_ + 13, h⟩ => absurd h (Nat.not_lt.2 (Nat.le_add_left _ _))
abbrev spec7 : Fin 13 → Pipeline.WinSpec sig grid7.rank := fun w => (win7 w).toWinSpec

abbrev win8_0 : Pipeline.Window sig grid8 :=
  Pipeline.Window.ofSpec (Memref.whole main_v327) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v331) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v332) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v335) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v338) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v310_0) S2000x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v340) S64x4.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v343) S1x4.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v345) S4x1.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v348) S1x1.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v350) S64x64.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v351_0) S2000x64.size cc8_transform_11 reads8_11 true false 2 stage8_11 sem8_11
    hrank8 hreads8_11 hinb8_11 nbuf8_11 (Memref.isWhole_whole _) hwx8_11 hstage8_11

abbrev win8_12 : Pipeline.Window sig grid8 :=
  Pipeline.Window.ofSpec (Memref.whole main_v351_1) S2000x64.size cc8_transform_12 reads8_12 true false 2 stage8_12 sem8_12
    hrank8 hreads8_12 hinb8_12 nbuf8_12 (Memref.isWhole_whole _) hwx8_12 hstage8_12

abbrev win8 : Fin 13 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | ⟨_ + 13, h⟩ => absurd h (Nat.not_lt.2 (Nat.le_add_left _ _))
abbrev spec8 : Fin 13 → Pipeline.WinSpec sig grid8.rank := fun w => (win8 w).toWinSpec

abbrev win9_0 : Pipeline.Window sig grid9 :=
  Pipeline.Window.ofSpec (Memref.whole main_v368) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v372) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v373) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v376) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v379) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v351_0) S2000x64.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v381) S64x4.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v384) S1x4.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v386) S4x1.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v389) S1x1.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v390) S2000x64.size cc9_transform_10 reads9_10 true false 2 stage9_10 sem9_10
    hrank9 hreads9_10 hinb9_10 nbuf9_10 (Memref.isWhole_whole _) hwx9_10 hstage9_10

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

abbrev win10_0 : Pipeline.Window sig grid10 :=
  Pipeline.Window.ofSpec (Memref.whole main_v390) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v35) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v44) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v36) S128x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v45) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v391) S2000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9x64x4 : Shape := ⟨3, ![9, 64, 4]⟩
abbrev S9x4 : Shape := ⟨2, ![9, 4]⟩
abbrev S9x4x1 : Shape := ⟨3, ![9, 4, 1]⟩
abbrev S9x1 : Shape := ⟨2, ![9, 1]⟩
abbrev S8x64x64 : Shape := ⟨3, ![8, 64, 64]⟩
abbrev S8x64 : Shape := ⟨2, ![8, 64]⟩
abbrev S64x128 : Shape := ⟨2, ![64, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x64 : Shape := ⟨2, ![50000, 64]⟩
abbrev S1x64 : Shape := ⟨2, ![1, 64]⟩
abbrev S1x64x4 : Shape := ⟨3, ![1, 64, 4]⟩
abbrev S64x4 : Shape := ⟨2, ![64, 4]⟩
abbrev S1x4 : Shape := ⟨2, ![1, 4]⟩
abbrev S4 : Shape := ⟨1, ![4]⟩
abbrev S1x4x1 : Shape := ⟨3, ![1, 4, 1]⟩
abbrev S4x1 : Shape := ⟨2, ![4, 1]⟩
abbrev S1x1 : Shape := ⟨2, ![1, 1]⟩
abbrev S1 : Shape := ⟨1, ![1]⟩
abbrev S50000x4 : Shape := ⟨2, ![50000, 4]⟩
abbrev S50000x1 : Shape := ⟨2, ![50000, 1]⟩
abbrev S1x64x64 : Shape := ⟨3, ![1, 64, 64]⟩
abbrev S64x64 : Shape := ⟨2, ![64, 64]⟩
abbrev S850000x64 : Shape := ⟨2, ![850000, 64]⟩

abbrev nBuf : Space → Nat
  | .hbm => 1044
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S9x64x4, .f32⟩
  | 9 => ⟨S9x4, .f32⟩
  | 10 => ⟨S9x4x1, .f32⟩
  | 11 => ⟨S9x1, .f32⟩
  | 12 => ⟨S8x64x64, .f32⟩
  | 13 => ⟨S8x64, .f32⟩
  | 14 => ⟨S8x64, .f32⟩
  | 15 => ⟨S8x64, .f32⟩
  | 16 => ⟨S64x128, .f32⟩
  | 17 => ⟨S128, .f32⟩
  | 18 => ⟨S128x64, .f32⟩
  | 19 => ⟨S64, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S850000x1, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x64, .f32⟩
  | 116 => ⟨S1x64, .f32⟩
  | 117 => ⟨S50000x64, .f32⟩
  | 118 => ⟨S50000x64, .f32⟩
  | 119 => ⟨S1x64x4, .f32⟩
  | 120 => ⟨S64x4, .f32⟩
  | 121 => ⟨S1x4, .f32⟩
  | 122 => ⟨S4, .f32⟩
  | 123 => ⟨S1x4x1, .f32⟩
  | 124 => ⟨S4x1, .f32⟩
  | 125 => ⟨S1x1, .f32⟩
  | 126 => ⟨S1, .f32⟩
  | 127 => ⟨S50000x4, .f32⟩
  | _ => ⟨S50000x128, .f32⟩

abbrev hbmTy0_1 (i : Nat) : BufTy := match i % 128 with
  | 0 => ⟨S1x4, .f32⟩
  | 1 => ⟨S50000x4, .f32⟩
  | 2 => ⟨S50000x4, .f32⟩
  | 3 => ⟨S_, .f32⟩
  | 4 => ⟨S_, .f32⟩
  | 5 => ⟨S50000x4, .f32⟩
  | 6 => ⟨S50000x4, .i1⟩
  | 7 => ⟨S_, .f32⟩
  | 8 => ⟨S50000x4, .f32⟩
  | 9 => ⟨S50000x4, .f32⟩
  | 10 => ⟨S50000x4, .f32⟩
  | 11 => ⟨S50000x1, .f32⟩
  | 12 => ⟨S1x1, .f32⟩
  | 13 => ⟨S50000x1, .f32⟩
  | 14 => ⟨S50000x1, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S_, .f32⟩
  | 21 => ⟨S50000x1, .f32⟩
  | 22 => ⟨S50000x1, .f32⟩
  | 23 => ⟨S50000x64, .f32⟩
  | 24 => ⟨S50000x64, .f32⟩
  | 25 => ⟨S1x64x64, .f32⟩
  | 26 => ⟨S64x64, .f32⟩
  | 27 => ⟨S50000x64, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000x64, .f32⟩
  | 37 => ⟨S850000x64, .f32⟩
  | 38 => ⟨S850000x64, .f32⟩
  | 39 => ⟨S_, .f32⟩
  | 40 => ⟨S50000x64, .f32⟩
  | 41 => ⟨S850000x1, .i32⟩
  | 42 => ⟨S50000x64, .f32⟩
  | 43 => ⟨S1x64, .f32⟩
  | 44 => ⟨S64, .f32⟩
  | 45 => ⟨S1x64, .f32⟩
  | 46 => ⟨S50000x64, .f32⟩
  | 47 => ⟨S50000x64, .f32⟩
  | 48 => ⟨S1x64, .f32⟩
  | 49 => ⟨S64, .f32⟩
  | 50 => ⟨S1x64, .f32⟩
  | 51 => ⟨S64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S50000x64, .f32⟩
  | 65 => ⟨S50000x64, .f32⟩
  | 66 => ⟨S50000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S_, .f32⟩
  | 84 => ⟨S64, .f32⟩
  | 85 => ⟨S64, .f32⟩
  | 86 => ⟨S64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S1x64x4, .f32⟩
  | 101 => ⟨S64x4, .f32⟩
  | 102 => ⟨S1x4, .f32⟩
  | 103 => ⟨S4, .f32⟩
  | 104 => ⟨S1x4x1, .f32⟩
  | 105 => ⟨S4x1, .f32⟩
  | 106 => ⟨S1x1, .f32⟩
  | 107 => ⟨S1, .f32⟩
  | 108 => ⟨S50000x4, .f32⟩
  | 109 => ⟨S1x4, .f32⟩
  | 110 => ⟨S50000x4, .f32⟩
  | 111 => ⟨S50000x4, .f32⟩
  | 112 => ⟨S_, .f32⟩
  | 113 => ⟨S_, .f32⟩
  | 114 => ⟨S50000x4, .f32⟩
  | 115 => ⟨S50000x4, .i1⟩
  | 116 => ⟨S_, .f32⟩
  | 117 => ⟨S50000x4, .f32⟩
  | 118 => ⟨S50000x4, .f32⟩
  | 119 => ⟨S50000x4, .f32⟩
  | 120 => ⟨S50000x1, .f32⟩
  | 121 => ⟨S1x1, .f32⟩
  | 122 => ⟨S50000x1, .f32⟩
  | 123 => ⟨S50000x1, .f32⟩
  | 124 => ⟨S50000x1, .f32⟩
  | 125 => ⟨S50000x1, .f32⟩
  | 126 => ⟨S_, .f32⟩
  | 127 => ⟨S50000x1, .f32⟩
  | _ => ⟨S50000x128, .f32⟩

abbrev hbmTy0_2 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x64, .f32⟩
  | 5 => ⟨S50000x64, .f32⟩
  | 6 => ⟨S50000x64, .f32⟩
  | 7 => ⟨S1x64x64, .f32⟩
  | 8 => ⟨S64x64, .f32⟩
  | 9 => ⟨S50000x64, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x64, .f32⟩
  | 20 => ⟨S850000x64, .f32⟩
  | 21 => ⟨S_, .f32⟩
  | 22 => ⟨S50000x64, .f32⟩
  | 23 => ⟨S850000x1, .i32⟩
  | 24 => ⟨S50000x64, .f32⟩
  | 25 => ⟨S1x64, .f32⟩
  | 26 => ⟨S64, .f32⟩
  | 27 => ⟨S1x64, .f32⟩
  | 28 => ⟨S50000x64, .f32⟩
  | 29 => ⟨S50000x64, .f32⟩
  | 30 => ⟨S1x64, .f32⟩
  | 31 => ⟨S64, .f32⟩
  | 32 => ⟨S1x64, .f32⟩
  | 33 => ⟨S64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S50000x64, .f32⟩
  | 47 => ⟨S50000x64, .f32⟩
  | 48 => ⟨S50000x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S_, .f32⟩
  | 66 => ⟨S64, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S50000x64, .f32⟩
  | 82 => ⟨S1x64x4, .f32⟩
  | 83 => ⟨S64x4, .f32⟩
  | 84 => ⟨S1x4, .f32⟩
  | 85 => ⟨S4, .f32⟩
  | 86 => ⟨S1x4x1, .f32⟩
  | 87 => ⟨S4x1, .f32⟩
  | 88 => ⟨S1x1, .f32⟩
  | 89 => ⟨S1, .f32⟩
  | 90 => ⟨S50000x4, .f32⟩
  | 91 => ⟨S1x4, .f32⟩
  | 92 => ⟨S50000x4, .f32⟩
  | 93 => ⟨S50000x4, .f32⟩
  | 94 => ⟨S_, .f32⟩
  | 95 => ⟨S_, .f32⟩
  | 96 => ⟨S50000x4, .f32⟩
  | 97 => ⟨S50000x4, .i1⟩
  | 98 => ⟨S_, .f32⟩
  | 99 => ⟨S50000x4, .f32⟩
  | 100 => ⟨S50000x4, .f32⟩
  | 101 => ⟨S50000x4, .f32⟩
  | 102 => ⟨S50000x1, .f32⟩
  | 103 => ⟨S1x1, .f32⟩
  | 104 => ⟨S50000x1, .f32⟩
  | 105 => ⟨S50000x1, .f32⟩
  | 106 => ⟨S50000x1, .f32⟩
  | 107 => ⟨S50000x1, .f32⟩
  | 108 => ⟨S_, .f32⟩
  | 109 => ⟨S50000x1, .f32⟩
  | 110 => ⟨S50000x1, .f32⟩
  | 111 => ⟨S_, .f32⟩
  | 112 => ⟨S50000x1, .f32⟩
  | 113 => ⟨S50000x1, .f32⟩
  | 114 => ⟨S50000x64, .f32⟩
  | 115 => ⟨S50000x64, .f32⟩
  | 116 => ⟨S50000x64, .f32⟩
  | 117 => ⟨S1x64x64, .f32⟩
  | 118 => ⟨S64x64, .f32⟩
  | 119 => ⟨S50000x64, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_3 (i : Nat) : BufTy := match i % 128 with
  | 0 => ⟨S850000x64, .f32⟩
  | 1 => ⟨S850000x64, .f32⟩
  | 2 => ⟨S850000x64, .f32⟩
  | 3 => ⟨S_, .f32⟩
  | 4 => ⟨S50000x64, .f32⟩
  | 5 => ⟨S850000x1, .i32⟩
  | 6 => ⟨S50000x64, .f32⟩
  | 7 => ⟨S1x64, .f32⟩
  | 8 => ⟨S64, .f32⟩
  | 9 => ⟨S1x64, .f32⟩
  | 10 => ⟨S50000x64, .f32⟩
  | 11 => ⟨S50000x64, .f32⟩
  | 12 => ⟨S1x64, .f32⟩
  | 13 => ⟨S64, .f32⟩
  | 14 => ⟨S1x64, .f32⟩
  | 15 => ⟨S64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S50000x64, .f32⟩
  | 29 => ⟨S50000x64, .f32⟩
  | 30 => ⟨S50000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S50000x64, .f32⟩
  | 46 => ⟨S50000x64, .f32⟩
  | 47 => ⟨S_, .f32⟩
  | 48 => ⟨S64, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S50000x64, .f32⟩
  | 64 => ⟨S1x64x4, .f32⟩
  | 65 => ⟨S64x4, .f32⟩
  | 66 => ⟨S1x4, .f32⟩
  | 67 => ⟨S4, .f32⟩
  | 68 => ⟨S1x4x1, .f32⟩
  | 69 => ⟨S4x1, .f32⟩
  | 70 => ⟨S1x1, .f32⟩
  | 71 => ⟨S1, .f32⟩
  | 72 => ⟨S50000x4, .f32⟩
  | 73 => ⟨S1x4, .f32⟩
  | 74 => ⟨S50000x4, .f32⟩
  | 75 => ⟨S50000x4, .f32⟩
  | 76 => ⟨S_, .f32⟩
  | 77 => ⟨S_, .f32⟩
  | 78 => ⟨S50000x4, .f32⟩
  | 79 => ⟨S50000x4, .i1⟩
  | 80 => ⟨S_, .f32⟩
  | 81 => ⟨S50000x4, .f32⟩
  | 82 => ⟨S50000x4, .f32⟩
  | 83 => ⟨S50000x4, .f32⟩
  | 84 => ⟨S50000x1, .f32⟩
  | 85 => ⟨S1x1, .f32⟩
  | 86 => ⟨S50000x1, .f32⟩
  | 87 => ⟨S50000x1, .f32⟩
  | 88 => ⟨S50000x1, .f32⟩
  | 89 => ⟨S50000x1, .f32⟩
  | 90 => ⟨S_, .f32⟩
  | 91 => ⟨S50000x1, .f32⟩
  | 92 => ⟨S50000x1, .f32⟩
  | 93 => ⟨S_, .f32⟩
  | 94 => ⟨S50000x1, .f32⟩
  | 95 => ⟨S50000x1, .f32⟩
  | 96 => ⟨S50000x64, .f32⟩
  | 97 => ⟨S50000x64, .f32⟩
  | 98 => ⟨S50000x64, .f32⟩
  | 99 => ⟨S1x64x64, .f32⟩
  | 100 => ⟨S64x64, .f32⟩
  | 101 => ⟨S50000x64, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x64, .f32⟩
  | 111 => ⟨S850000x64, .f32⟩
  | 112 => ⟨S850000x64, .f32⟩
  | 113 => ⟨S_, .f32⟩
  | 114 => ⟨S50000x64, .f32⟩
  | 115 => ⟨S850000x1, .i32⟩
  | 116 => ⟨S50000x64, .f32⟩
  | 117 => ⟨S1x64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S64, .f32⟩
  | 124 => ⟨S1x64, .f32⟩
  | 125 => ⟨S64, .f32⟩
  | 126 => ⟨S_, .f32⟩
  | 127 => ⟨S64, .f32⟩
  | _ => ⟨S50000x128, .f32⟩

abbrev hbmTy0_4 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S50000x64, .f32⟩
  | 11 => ⟨S50000x64, .f32⟩
  | 12 => ⟨S50000x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S64, .f32⟩
  | 32 => ⟨S64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S50000x64, .f32⟩
  | 46 => ⟨S1x64x4, .f32⟩
  | 47 => ⟨S64x4, .f32⟩
  | 48 => ⟨S1x4, .f32⟩
  | 49 => ⟨S4, .f32⟩
  | 50 => ⟨S1x4x1, .f32⟩
  | 51 => ⟨S4x1, .f32⟩
  | 52 => ⟨S1x1, .f32⟩
  | 53 => ⟨S1, .f32⟩
  | 54 => ⟨S50000x4, .f32⟩
  | 55 => ⟨S1x4, .f32⟩
  | 56 => ⟨S50000x4, .f32⟩
  | 57 => ⟨S50000x4, .f32⟩
  | 58 => ⟨S_, .f32⟩
  | 59 => ⟨S_, .f32⟩
  | 60 => ⟨S50000x4, .f32⟩
  | 61 => ⟨S50000x4, .i1⟩
  | 62 => ⟨S_, .f32⟩
  | 63 => ⟨S50000x4, .f32⟩
  | 64 => ⟨S50000x4, .f32⟩
  | 65 => ⟨S50000x4, .f32⟩
  | 66 => ⟨S50000x1, .f32⟩
  | 67 => ⟨S1x1, .f32⟩
  | 68 => ⟨S50000x1, .f32⟩
  | 69 => ⟨S50000x1, .f32⟩
  | 70 => ⟨S50000x1, .f32⟩
  | 71 => ⟨S50000x1, .f32⟩
  | 72 => ⟨S_, .f32⟩
  | 73 => ⟨S50000x1, .f32⟩
  | 74 => ⟨S50000x1, .f32⟩
  | 75 => ⟨S_, .f32⟩
  | 76 => ⟨S50000x1, .f32⟩
  | 77 => ⟨S50000x1, .f32⟩
  | 78 => ⟨S50000x64, .f32⟩
  | 79 => ⟨S50000x64, .f32⟩
  | 80 => ⟨S50000x64, .f32⟩
  | 81 => ⟨S1x64x64, .f32⟩
  | 82 => ⟨S64x64, .f32⟩
  | 83 => ⟨S50000x64, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x64, .f32⟩
  | 93 => ⟨S850000x64, .f32⟩
  | 94 => ⟨S850000x64, .f32⟩
  | 95 => ⟨S_, .f32⟩
  | 96 => ⟨S50000x64, .f32⟩
  | 97 => ⟨S850000x1, .i32⟩
  | 98 => ⟨S50000x64, .f32⟩
  | 99 => ⟨S1x64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S64, .f32⟩
  | 106 => ⟨S1x64, .f32⟩
  | 107 => ⟨S64, .f32⟩
  | 108 => ⟨S_, .f32⟩
  | 109 => ⟨S64, .f32⟩
  | 110 => ⟨S_, .f32⟩
  | 111 => ⟨S64, .f32⟩
  | 112 => ⟨S64, .f32⟩
  | 113 => ⟨S_, .i32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S50000x64, .f32⟩
  | 121 => ⟨S50000x64, .f32⟩
  | 122 => ⟨S50000x64, .f32⟩
  | 123 => ⟨S_, .f32⟩
  | 124 => ⟨S_, .f32⟩
  | 125 => ⟨S_, .f32⟩
  | 126 => ⟨S_, .f32⟩
  | 127 => ⟨S64, .f32⟩
  | _ => ⟨S50000x128, .f32⟩

abbrev hbmTy0_5 (i : Nat) : BufTy := match i % 128 with
  | 0 => ⟨S64, .f32⟩
  | 1 => ⟨S64, .f32⟩
  | 2 => ⟨S_, .f32⟩
  | 3 => ⟨S_, .i1⟩
  | 4 => ⟨S_, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S_, .f32⟩
  | 12 => ⟨S64, .f32⟩
  | 13 => ⟨S64, .f32⟩
  | 14 => ⟨S64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64x4, .f32⟩
  | 29 => ⟨S64x4, .f32⟩
  | 30 => ⟨S1x4, .f32⟩
  | 31 => ⟨S4, .f32⟩
  | 32 => ⟨S1x4x1, .f32⟩
  | 33 => ⟨S4x1, .f32⟩
  | 34 => ⟨S1x1, .f32⟩
  | 35 => ⟨S1, .f32⟩
  | 36 => ⟨S50000x4, .f32⟩
  | 37 => ⟨S1x4, .f32⟩
  | 38 => ⟨S50000x4, .f32⟩
  | 39 => ⟨S50000x4, .f32⟩
  | 40 => ⟨S_, .f32⟩
  | 41 => ⟨S_, .f32⟩
  | 42 => ⟨S50000x4, .f32⟩
  | 43 => ⟨S50000x4, .i1⟩
  | 44 => ⟨S_, .f32⟩
  | 45 => ⟨S50000x4, .f32⟩
  | 46 => ⟨S50000x4, .f32⟩
  | 47 => ⟨S50000x4, .f32⟩
  | 48 => ⟨S50000x1, .f32⟩
  | 49 => ⟨S1x1, .f32⟩
  | 50 => ⟨S50000x1, .f32⟩
  | 51 => ⟨S50000x1, .f32⟩
  | 52 => ⟨S50000x1, .f32⟩
  | 53 => ⟨S50000x1, .f32⟩
  | 54 => ⟨S_, .f32⟩
  | 55 => ⟨S50000x1, .f32⟩
  | 56 => ⟨S50000x1, .f32⟩
  | 57 => ⟨S_, .f32⟩
  | 58 => ⟨S50000x1, .f32⟩
  | 59 => ⟨S50000x1, .f32⟩
  | 60 => ⟨S50000x64, .f32⟩
  | 61 => ⟨S50000x64, .f32⟩
  | 62 => ⟨S50000x64, .f32⟩
  | 63 => ⟨S1x64x64, .f32⟩
  | 64 => ⟨S64x64, .f32⟩
  | 65 => ⟨S50000x64, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x64, .f32⟩
  | 76 => ⟨S850000x64, .f32⟩
  | 77 => ⟨S_, .f32⟩
  | 78 => ⟨S50000x64, .f32⟩
  | 79 => ⟨S850000x1, .i32⟩
  | 80 => ⟨S50000x64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S1x64, .f32⟩
  | 87 => ⟨S64, .f32⟩
  | 88 => ⟨S1x64, .f32⟩
  | 89 => ⟨S64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S50000x64, .f32⟩
  | 103 => ⟨S50000x64, .f32⟩
  | 104 => ⟨S50000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x64, .f32⟩
  | 119 => ⟨S50000x64, .f32⟩
  | 120 => ⟨S50000x64, .f32⟩
  | 121 => ⟨S_, .f32⟩
  | 122 => ⟨S64, .f32⟩
  | 123 => ⟨S64, .f32⟩
  | 124 => ⟨S64, .f32⟩
  | 125 => ⟨S1x64, .f32⟩
  | 126 => ⟨S50000x64, .f32⟩
  | 127 => ⟨S50000x64, .f32⟩
  | _ => ⟨S50000x128, .f32⟩

abbrev hbmTy0_6 (i : Nat) : BufTy := match i % 128 with
  | 0 => ⟨S1x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S1x64x4, .f32⟩
  | 11 => ⟨S64x4, .f32⟩
  | 12 => ⟨S1x4, .f32⟩
  | 13 => ⟨S4, .f32⟩
  | 14 => ⟨S1x4x1, .f32⟩
  | 15 => ⟨S4x1, .f32⟩
  | 16 => ⟨S1x1, .f32⟩
  | 17 => ⟨S1, .f32⟩
  | 18 => ⟨S50000x4, .f32⟩
  | 19 => ⟨S1x4, .f32⟩
  | 20 => ⟨S50000x4, .f32⟩
  | 21 => ⟨S50000x4, .f32⟩
  | 22 => ⟨S_, .f32⟩
  | 23 => ⟨S_, .f32⟩
  | 24 => ⟨S50000x4, .f32⟩
  | 25 => ⟨S50000x4, .i1⟩
  | 26 => ⟨S_, .f32⟩
  | 27 => ⟨S50000x4, .f32⟩
  | 28 => ⟨S50000x4, .f32⟩
  | 29 => ⟨S50000x4, .f32⟩
  | 30 => ⟨S50000x1, .f32⟩
  | 31 => ⟨S1x1, .f32⟩
  | 32 => ⟨S50000x1, .f32⟩
  | 33 => ⟨S50000x1, .f32⟩
  | 34 => ⟨S50000x1, .f32⟩
  | 35 => ⟨S50000x1, .f32⟩
  | 36 => ⟨S_, .f32⟩
  | 37 => ⟨S50000x1, .f32⟩
  | 38 => ⟨S50000x1, .f32⟩
  | 39 => ⟨S_, .f32⟩
  | 40 => ⟨S50000x1, .f32⟩
  | 41 => ⟨S50000x1, .f32⟩
  | 42 => ⟨S50000x64, .f32⟩
  | 43 => ⟨S50000x64, .f32⟩
  | 44 => ⟨S50000x64, .f32⟩
  | 45 => ⟨S1x64x64, .f32⟩
  | 46 => ⟨S64x64, .f32⟩
  | 47 => ⟨S50000x64, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | 68 => ⟨S1x64, .f32⟩
  | 69 => ⟨S64, .f32⟩
  | 70 => ⟨S1x64, .f32⟩
  | 71 => ⟨S64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S50000x64, .f32⟩
  | 85 => ⟨S50000x64, .f32⟩
  | 86 => ⟨S50000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x64, .f32⟩
  | 120 => ⟨S1x64x4, .f32⟩
  | 121 => ⟨S64x4, .f32⟩
  | 122 => ⟨S1x4, .f32⟩
  | 123 => ⟨S4, .f32⟩
  | 124 => ⟨S1x4x1, .f32⟩
  | 125 => ⟨S4x1, .f32⟩
  | 126 => ⟨S1x1, .f32⟩
  | 127 => ⟨S1, .f32⟩
  | _ => ⟨S50000x128, .f32⟩

abbrev hbmTy0_7 (i : Nat) : BufTy := match i % 128 with
  | 0 => ⟨S50000x4, .f32⟩
  | 1 => ⟨S1x4, .f32⟩
  | 2 => ⟨S50000x4, .f32⟩
  | 3 => ⟨S50000x4, .f32⟩
  | 4 => ⟨S_, .f32⟩
  | 5 => ⟨S_, .f32⟩
  | 6 => ⟨S50000x4, .f32⟩
  | 7 => ⟨S50000x4, .i1⟩
  | 8 => ⟨S_, .f32⟩
  | 9 => ⟨S50000x4, .f32⟩
  | 10 => ⟨S50000x4, .f32⟩
  | 11 => ⟨S50000x4, .f32⟩
  | 12 => ⟨S50000x1, .f32⟩
  | 13 => ⟨S1x1, .f32⟩
  | 14 => ⟨S50000x1, .f32⟩
  | 15 => ⟨S50000x1, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S_, .f32⟩
  | 22 => ⟨S50000x1, .f32⟩
  | 23 => ⟨S50000x1, .f32⟩
  | 24 => ⟨S50000x64, .f32⟩
  | 25 => ⟨S50000x64, .f32⟩
  | 26 => ⟨S50000x64, .f32⟩
  | 27 => ⟨S1x64x64, .f32⟩
  | 28 => ⟨S64x64, .f32⟩
  | 29 => ⟨S50000x64, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x64, .f32⟩
  | 39 => ⟨S850000x64, .f32⟩
  | 40 => ⟨S850000x64, .f32⟩
  | 41 => ⟨S_, .f32⟩
  | 42 => ⟨S50000x64, .f32⟩
  | 43 => ⟨S850000x1, .i32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S1x64, .f32⟩
  | 51 => ⟨S64, .f32⟩
  | 52 => ⟨S1x64, .f32⟩
  | 53 => ⟨S64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S50000x64, .f32⟩
  | 67 => ⟨S50000x64, .f32⟩
  | 68 => ⟨S50000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S1x64x4, .f32⟩
  | 103 => ⟨S64x4, .f32⟩
  | 104 => ⟨S1x4, .f32⟩
  | 105 => ⟨S4, .f32⟩
  | 106 => ⟨S1x4x1, .f32⟩
  | 107 => ⟨S4x1, .f32⟩
  | 108 => ⟨S1x1, .f32⟩
  | 109 => ⟨S1, .f32⟩
  | 110 => ⟨S50000x4, .f32⟩
  | 111 => ⟨S1x4, .f32⟩
  | 112 => ⟨S50000x4, .f32⟩
  | 113 => ⟨S50000x4, .f32⟩
  | 114 => ⟨S_, .f32⟩
  | 115 => ⟨S_, .f32⟩
  | 116 => ⟨S50000x4, .f32⟩
  | 117 => ⟨S50000x4, .i1⟩
  | 118 => ⟨S_, .f32⟩
  | 119 => ⟨S50000x4, .f32⟩
  | 120 => ⟨S50000x4, .f32⟩
  | 121 => ⟨S50000x4, .f32⟩
  | 122 => ⟨S50000x1, .f32⟩
  | 123 => ⟨S1x1, .f32⟩
  | 124 => ⟨S50000x1, .f32⟩
  | 125 => ⟨S50000x1, .f32⟩
  | 126 => ⟨S50000x1, .f32⟩
  | 127 => ⟨S50000x1, .f32⟩
  | _ => ⟨S50000x128, .f32⟩

abbrev hbmTy0_8 (i : Nat) : BufTy := match i % 128 with
  | 0 => ⟨S_, .f32⟩
  | 1 => ⟨S50000x1, .f32⟩
  | 2 => ⟨S50000x1, .f32⟩
  | 3 => ⟨S_, .f32⟩
  | 4 => ⟨S50000x1, .f32⟩
  | 5 => ⟨S50000x1, .f32⟩
  | 6 => ⟨S50000x64, .f32⟩
  | 7 => ⟨S50000x64, .f32⟩
  | 8 => ⟨S50000x64, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x64, .f32⟩
  | 17 => ⟨S1x64, .f32⟩
  | 18 => ⟨S50000x64, .f32⟩
  | 19 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_cst_10 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_call2_cst : Ref sig .tc := ⟨.hbm, 112, rfl⟩
abbrev main_call2_v0 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_11 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_12 : Ref sig .tc := ⟨.hbm, 145, rfl⟩
abbrev main_v80 : Ref sig .tc := ⟨.hbm, 146, rfl⟩
abbrev main_v81 : Ref sig .tc := ⟨.hbm, 147, rfl⟩
abbrev main_cst_13 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_14 : Ref sig .tc := ⟨.hbm, 156, rfl⟩
abbrev main_v89 : Ref sig .tc := ⟨.hbm, 157, rfl⟩
abbrev main_v90 : Ref sig .tc := ⟨.hbm, 158, rfl⟩
abbrev main_c_15 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_16 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_17 : Ref sig .tc := ⟨.hbm, 180, rfl⟩
abbrev main_v110 : Ref sig .tc := ⟨.hbm, 181, rfl⟩
abbrev main_cst_18 : Ref sig .tc := ⟨.hbm, 182, rfl⟩
abbrev main_v111 : Ref sig .tc := ⟨.hbm, 183, rfl⟩
abbrev main_v112 : Ref sig .tc := ⟨.hbm, 184, rfl⟩
abbrev main_c_19 : Ref sig .tc := ⟨.hbm, 185, rfl⟩
abbrev main_call4_cst : Ref sig .tc := ⟨.hbm, 186, rfl⟩
abbrev main_call4_v0 : Ref sig .tc := ⟨.hbm, 187, rfl⟩
abbrev main_call4_v1 : Ref sig .tc := ⟨.hbm, 188, rfl⟩
abbrev main_call4_cst_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_v6 : Ref sig .tc := ⟨.hbm, 194, rfl⟩
abbrev main_call4_v7 : Ref sig .tc := ⟨.hbm, 195, rfl⟩
abbrev main_call4_cst_1 : Ref sig .tc := ⟨.hbm, 196, rfl⟩
abbrev main_call4_v8 : Ref sig .tc := ⟨.hbm, 197, rfl⟩
abbrev main_call4_cst_2 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_cst_3 : Ref sig .tc := ⟨.hbm, 202, rfl⟩
abbrev main_call4_v12 : Ref sig .tc := ⟨.hbm, 203, rfl⟩
abbrev main_call4_cst_4 : Ref sig .tc := ⟨.hbm, 204, rfl⟩
abbrev main_call4_call0_v0 : Ref sig .tc := ⟨.hbm, 205, rfl⟩
abbrev main_call4_call0_v1 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_cst_20 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_call5_cst : Ref sig .tc := ⟨.hbm, 224, rfl⟩
abbrev main_call5_v0 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_cst_21 : Ref sig .tc := ⟨.hbm, 240, rfl⟩
abbrev main_call6_cst : Ref sig .tc := ⟨.hbm, 241, rfl⟩
abbrev main_call6_v0 : Ref sig .tc := ⟨.hbm, 242, rfl⟩
abbrev main_call6_v1 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_cst_22 : Ref sig .tc := ⟨.hbm, 254, rfl⟩
abbrev main_v150 : Ref sig .tc := ⟨.hbm, 255, rfl⟩
abbrev main_v151 : Ref sig .tc := ⟨.hbm, 256, rfl⟩
abbrev main_cst_23 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_c_24 : Ref sig .tc := ⟨.hbm, 266, rfl⟩
abbrev main_v160 : Ref sig .tc := ⟨.hbm, 267, rfl⟩
abbrev main_v161 : Ref sig .tc := ⟨.hbm, 268, rfl⟩
abbrev main_c_25 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_cst_26 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_cst_27 : Ref sig .tc := ⟨.hbm, 290, rfl⟩
abbrev main_v181 : Ref sig .tc := ⟨.hbm, 291, rfl⟩
abbrev main_cst_28 : Ref sig .tc := ⟨.hbm, 292, rfl⟩
abbrev main_v182 : Ref sig .tc := ⟨.hbm, 293, rfl⟩
abbrev main_v183 : Ref sig .tc := ⟨.hbm, 294, rfl⟩
abbrev main_c_29 : Ref sig .tc := ⟨.hbm, 295, rfl⟩
abbrev main_call7_cst : Ref sig .tc := ⟨.hbm, 296, rfl⟩
abbrev main_call7_v0 : Ref sig .tc := ⟨.hbm, 297, rfl⟩
abbrev main_call7_v1 : Ref sig .tc := ⟨.hbm, 298, rfl⟩
abbrev main_call7_cst_0 : Ref sig .tc := ⟨.hbm, 299, rfl⟩
abbrev main_call7_v2 : Ref sig .tc := ⟨.hbm, 300, rfl⟩
abbrev main_call7_v3 : Ref sig .tc := ⟨.hbm, 301, rfl⟩
abbrev main_call7_v4 : Ref sig .tc := ⟨.hbm, 302, rfl⟩
abbrev main_call7_v5 : Ref sig .tc := ⟨.hbm, 303, rfl⟩
abbrev main_call7_v6 : Ref sig .tc := ⟨.hbm, 304, rfl⟩
abbrev main_call7_v7 : Ref sig .tc := ⟨.hbm, 305, rfl⟩
abbrev main_call7_cst_1 : Ref sig .tc := ⟨.hbm, 306, rfl⟩
abbrev main_call7_v8 : Ref sig .tc := ⟨.hbm, 307, rfl⟩
abbrev main_call7_cst_2 : Ref sig .tc := ⟨.hbm, 308, rfl⟩
abbrev main_call7_v9 : Ref sig .tc := ⟨.hbm, 309, rfl⟩
abbrev main_call7_v10 : Ref sig .tc := ⟨.hbm, 310, rfl⟩
abbrev main_call7_v11 : Ref sig .tc := ⟨.hbm, 311, rfl⟩
abbrev main_call7_cst_3 : Ref sig .tc := ⟨.hbm, 312, rfl⟩
abbrev main_call7_v12 : Ref sig .tc := ⟨.hbm, 313, rfl⟩
abbrev main_call7_cst_4 : Ref sig .tc := ⟨.hbm, 314, rfl⟩
abbrev main_call7_call0_v0 : Ref sig .tc := ⟨.hbm, 315, rfl⟩
abbrev main_call7_call0_v1 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_cst_30 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_call8_cst : Ref sig .tc := ⟨.hbm, 334, rfl⟩
abbrev main_call8_v0 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_31 : Ref sig .tc := ⟨.hbm, 350, rfl⟩
abbrev main_call9_cst : Ref sig .tc := ⟨.hbm, 351, rfl⟩
abbrev main_call9_v0 : Ref sig .tc := ⟨.hbm, 352, rfl⟩
abbrev main_call9_v1 : Ref sig .tc := ⟨.hbm, 353, rfl⟩
abbrev main_call9_v2 : Ref sig .tc := ⟨.hbm, 354, rfl⟩
abbrev main_call9_v3 : Ref sig .tc := ⟨.hbm, 355, rfl⟩
abbrev main_call9_v4 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_32 : Ref sig .tc := ⟨.hbm, 364, rfl⟩
abbrev main_v221 : Ref sig .tc := ⟨.hbm, 365, rfl⟩
abbrev main_v222 : Ref sig .tc := ⟨.hbm, 366, rfl⟩
abbrev main_cst_33 : Ref sig .tc := ⟨.hbm, 367, rfl⟩
abbrev main_v223 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_v229 : Ref sig .tc := ⟨.hbm, 374, rfl⟩
abbrev main_v230 : Ref sig .tc := ⟨.hbm, 375, rfl⟩
abbrev main_c_34 : Ref sig .tc := ⟨.hbm, 376, rfl⟩
abbrev main_v231 : Ref sig .tc := ⟨.hbm, 377, rfl⟩
abbrev main_v232 : Ref sig .tc := ⟨.hbm, 378, rfl⟩
abbrev main_c_35 : Ref sig .tc := ⟨.hbm, 379, rfl⟩
abbrev main_v233 : Ref sig .tc := ⟨.hbm, 380, rfl⟩
abbrev main_v234 : Ref sig .tc := ⟨.hbm, 381, rfl⟩
abbrev main_v235 : Ref sig .tc := ⟨.hbm, 382, rfl⟩
abbrev main_v236 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_cst_36 : Ref sig .tc := ⟨.hbm, 387, rfl⟩
abbrev main_v240 : Ref sig .tc := ⟨.hbm, 388, rfl⟩
abbrev main_v241 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_v245 : Ref sig .tc := ⟨.hbm, 393, rfl⟩
abbrev main_v246 : Ref sig .tc := ⟨.hbm, 394, rfl⟩
abbrev main_v247 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_cst_37 : Ref sig .tc := ⟨.hbm, 400, rfl⟩
abbrev main_v252 : Ref sig .tc := ⟨.hbm, 401, rfl⟩
abbrev main_cst_38 : Ref sig .tc := ⟨.hbm, 402, rfl⟩
abbrev main_v253 : Ref sig .tc := ⟨.hbm, 403, rfl⟩
abbrev main_v254 : Ref sig .tc := ⟨.hbm, 404, rfl⟩
abbrev main_c_39 : Ref sig .tc := ⟨.hbm, 405, rfl⟩
abbrev main_call10_cst : Ref sig .tc := ⟨.hbm, 406, rfl⟩
abbrev main_call10_v0 : Ref sig .tc := ⟨.hbm, 407, rfl⟩
abbrev main_call10_v1 : Ref sig .tc := ⟨.hbm, 408, rfl⟩
abbrev main_call10_cst_0 : Ref sig .tc := ⟨.hbm, 409, rfl⟩
abbrev main_call10_v2 : Ref sig .tc := ⟨.hbm, 410, rfl⟩
abbrev main_call10_v3 : Ref sig .tc := ⟨.hbm, 411, rfl⟩
abbrev main_call10_v4 : Ref sig .tc := ⟨.hbm, 412, rfl⟩
abbrev main_call10_v5 : Ref sig .tc := ⟨.hbm, 413, rfl⟩
abbrev main_call10_v6 : Ref sig .tc := ⟨.hbm, 414, rfl⟩
abbrev main_call10_v7 : Ref sig .tc := ⟨.hbm, 415, rfl⟩
abbrev main_call10_cst_1 : Ref sig .tc := ⟨.hbm, 416, rfl⟩
abbrev main_call10_v8 : Ref sig .tc := ⟨.hbm, 417, rfl⟩
abbrev main_call10_cst_2 : Ref sig .tc := ⟨.hbm, 418, rfl⟩
abbrev main_call10_v9 : Ref sig .tc := ⟨.hbm, 419, rfl⟩
abbrev main_call10_v10 : Ref sig .tc := ⟨.hbm, 420, rfl⟩
abbrev main_call10_v11 : Ref sig .tc := ⟨.hbm, 421, rfl⟩
abbrev main_call10_cst_3 : Ref sig .tc := ⟨.hbm, 422, rfl⟩
abbrev main_call10_v12 : Ref sig .tc := ⟨.hbm, 423, rfl⟩
abbrev main_call10_cst_4 : Ref sig .tc := ⟨.hbm, 424, rfl⟩
abbrev main_call10_call0_v0 : Ref sig .tc := ⟨.hbm, 425, rfl⟩
abbrev main_call10_call0_v1 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_v258 : Ref sig .tc := ⟨.hbm, 430, rfl⟩
abbrev main_cst_40 : Ref sig .tc := ⟨.hbm, 431, rfl⟩
abbrev main_v259 : Ref sig .tc := ⟨.hbm, 432, rfl⟩
abbrev main_v260 : Ref sig .tc := ⟨.hbm, 433, rfl⟩
abbrev main_v261 : Ref sig .tc := ⟨.hbm, 434, rfl⟩
abbrev main_v262 : Ref sig .tc := ⟨.hbm, 435, rfl⟩
abbrev main_v263 : Ref sig .tc := ⟨.hbm, 436, rfl⟩
abbrev main_v264 : Ref sig .tc := ⟨.hbm, 437, rfl⟩
abbrev main_v265 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_v269 : Ref sig .tc := ⟨.hbm, 442, rfl⟩
abbrev main_v270 : Ref sig .tc := ⟨.hbm, 443, rfl⟩
abbrev main_call11_cst : Ref sig .tc := ⟨.hbm, 444, rfl⟩
abbrev main_call11_v0 : Ref sig .tc := ⟨.hbm, 445, rfl⟩
abbrev main_v271 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_v275 : Ref sig .tc := ⟨.hbm, 450, rfl⟩
abbrev main_v276 : Ref sig .tc := ⟨.hbm, 451, rfl⟩
abbrev main_v277 : Ref sig .tc := ⟨.hbm, 452, rfl⟩
abbrev main_v278 : Ref sig .tc := ⟨.hbm, 453, rfl⟩
abbrev main_v279 : Ref sig .tc := ⟨.hbm, 454, rfl⟩
abbrev main_v280 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_v284 : Ref sig .tc := ⟨.hbm, 459, rfl⟩
abbrev main_cst_41 : Ref sig .tc := ⟨.hbm, 460, rfl⟩
abbrev main_call12_cst : Ref sig .tc := ⟨.hbm, 461, rfl⟩
abbrev main_call12_v0 : Ref sig .tc := ⟨.hbm, 462, rfl⟩
abbrev main_call12_v1 : Ref sig .tc := ⟨.hbm, 463, rfl⟩
abbrev main_call12_v2 : Ref sig .tc := ⟨.hbm, 464, rfl⟩
abbrev main_call12_v3 : Ref sig .tc := ⟨.hbm, 465, rfl⟩
abbrev main_call12_v4 : Ref sig .tc := ⟨.hbm, 466, rfl⟩
abbrev main_v285 : Ref sig .tc := ⟨.hbm, 467, rfl⟩
abbrev main_v286 : Ref sig .tc := ⟨.hbm, 468, rfl⟩
abbrev main_v287 : Ref sig .tc := ⟨.hbm, 469, rfl⟩
abbrev main_v288 : Ref sig .tc := ⟨.hbm, 470, rfl⟩
abbrev main_v289 : Ref sig .tc := ⟨.hbm, 471, rfl⟩
abbrev main_v290 : Ref sig .tc := ⟨.hbm, 472, rfl⟩
abbrev main_v291 : Ref sig .tc := ⟨.hbm, 473, rfl⟩
abbrev main_cst_42 : Ref sig .tc := ⟨.hbm, 474, rfl⟩
abbrev main_v292 : Ref sig .tc := ⟨.hbm, 475, rfl⟩
abbrev main_v293 : Ref sig .tc := ⟨.hbm, 476, rfl⟩
abbrev main_cst_43 : Ref sig .tc := ⟨.hbm, 477, rfl⟩
abbrev main_v294 : Ref sig .tc := ⟨.hbm, 478, rfl⟩
abbrev main_v295 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_v299 : Ref sig .tc := ⟨.hbm, 483, rfl⟩
abbrev main_v300 : Ref sig .tc := ⟨.hbm, 484, rfl⟩
abbrev main_v301 : Ref sig .tc := ⟨.hbm, 485, rfl⟩
abbrev main_c_44 : Ref sig .tc := ⟨.hbm, 486, rfl⟩
abbrev main_v302 : Ref sig .tc := ⟨.hbm, 487, rfl⟩
abbrev main_v303 : Ref sig .tc := ⟨.hbm, 488, rfl⟩
abbrev main_c_45 : Ref sig .tc := ⟨.hbm, 489, rfl⟩
abbrev main_v304 : Ref sig .tc := ⟨.hbm, 490, rfl⟩
abbrev main_v305 : Ref sig .tc := ⟨.hbm, 491, rfl⟩
abbrev main_v306 : Ref sig .tc := ⟨.hbm, 492, rfl⟩
abbrev main_v307 : Ref sig .tc := ⟨.hbm, 493, rfl⟩
abbrev main_v308 : Ref sig .tc := ⟨.hbm, 494, rfl⟩
abbrev main_v309 : Ref sig .tc := ⟨.hbm, 495, rfl⟩
abbrev main_v310 : Ref sig .tc := ⟨.hbm, 496, rfl⟩
abbrev main_cst_46 : Ref sig .tc := ⟨.hbm, 497, rfl⟩
abbrev main_v311 : Ref sig .tc := ⟨.hbm, 498, rfl⟩
abbrev main_v312 : Ref sig .tc := ⟨.hbm, 499, rfl⟩
abbrev main_v313 : Ref sig .tc := ⟨.hbm, 500, rfl⟩
abbrev main_v314 : Ref sig .tc := ⟨.hbm, 501, rfl⟩
abbrev main_v315 : Ref sig .tc := ⟨.hbm, 502, rfl⟩
abbrev main_v316 : Ref sig .tc := ⟨.hbm, 503, rfl⟩
abbrev main_v317 : Ref sig .tc := ⟨.hbm, 504, rfl⟩
abbrev main_v318 : Ref sig .tc := ⟨.hbm, 505, rfl⟩
abbrev main_v319 : Ref sig .tc := ⟨.hbm, 506, rfl⟩
abbrev main_v320 : Ref sig .tc := ⟨.hbm, 507, rfl⟩
abbrev main_v321 : Ref sig .tc := ⟨.hbm, 508, rfl⟩
abbrev main_v322 : Ref sig .tc := ⟨.hbm, 509, rfl⟩
abbrev main_cst_47 : Ref sig .tc := ⟨.hbm, 510, rfl⟩
abbrev main_v323 : Ref sig .tc := ⟨.hbm, 511, rfl⟩
abbrev main_cst_48 : Ref sig .tc := ⟨.hbm, 512, rfl⟩
abbrev main_v324 : Ref sig .tc := ⟨.hbm, 513, rfl⟩
abbrev main_v325 : Ref sig .tc := ⟨.hbm, 514, rfl⟩
abbrev main_c_49 : Ref sig .tc := ⟨.hbm, 515, rfl⟩
abbrev main_call13_cst : Ref sig .tc := ⟨.hbm, 516, rfl⟩
abbrev main_call13_v0 : Ref sig .tc := ⟨.hbm, 517, rfl⟩
abbrev main_call13_v1 : Ref sig .tc := ⟨.hbm, 518, rfl⟩
abbrev main_call13_cst_0 : Ref sig .tc := ⟨.hbm, 519, rfl⟩
abbrev main_call13_v2 : Ref sig .tc := ⟨.hbm, 520, rfl⟩
abbrev main_call13_v3 : Ref sig .tc := ⟨.hbm, 521, rfl⟩
abbrev main_call13_v4 : Ref sig .tc := ⟨.hbm, 522, rfl⟩
abbrev main_call13_v5 : Ref sig .tc := ⟨.hbm, 523, rfl⟩
abbrev main_call13_v6 : Ref sig .tc := ⟨.hbm, 524, rfl⟩
abbrev main_call13_v7 : Ref sig .tc := ⟨.hbm, 525, rfl⟩
abbrev main_call13_cst_1 : Ref sig .tc := ⟨.hbm, 526, rfl⟩
abbrev main_call13_v8 : Ref sig .tc := ⟨.hbm, 527, rfl⟩
abbrev main_call13_cst_2 : Ref sig .tc := ⟨.hbm, 528, rfl⟩
abbrev main_call13_v9 : Ref sig .tc := ⟨.hbm, 529, rfl⟩
abbrev main_call13_v10 : Ref sig .tc := ⟨.hbm, 530, rfl⟩
abbrev main_call13_v11 : Ref sig .tc := ⟨.hbm, 531, rfl⟩
abbrev main_call13_cst_3 : Ref sig .tc := ⟨.hbm, 532, rfl⟩
abbrev main_call13_v12 : Ref sig .tc := ⟨.hbm, 533, rfl⟩
abbrev main_call13_cst_4 : Ref sig .tc := ⟨.hbm, 534, rfl⟩
abbrev main_call13_call0_v0 : Ref sig .tc := ⟨.hbm, 535, rfl⟩
abbrev main_call13_call0_v1 : Ref sig .tc := ⟨.hbm, 536, rfl⟩
abbrev main_v326 : Ref sig .tc := ⟨.hbm, 537, rfl⟩
abbrev main_v327 : Ref sig .tc := ⟨.hbm, 538, rfl⟩
abbrev main_v328 : Ref sig .tc := ⟨.hbm, 539, rfl⟩
abbrev main_v329 : Ref sig .tc := ⟨.hbm, 540, rfl⟩
abbrev main_cst_50 : Ref sig .tc := ⟨.hbm, 541, rfl⟩
abbrev main_v330 : Ref sig .tc := ⟨.hbm, 542, rfl⟩
abbrev main_v331 : Ref sig .tc := ⟨.hbm, 543, rfl⟩
abbrev main_v332 : Ref sig .tc := ⟨.hbm, 544, rfl⟩
abbrev main_v333 : Ref sig .tc := ⟨.hbm, 545, rfl⟩
abbrev main_v334 : Ref sig .tc := ⟨.hbm, 546, rfl⟩
abbrev main_v335 : Ref sig .tc := ⟨.hbm, 547, rfl⟩
abbrev main_v336 : Ref sig .tc := ⟨.hbm, 548, rfl⟩
abbrev main_v337 : Ref sig .tc := ⟨.hbm, 549, rfl⟩
abbrev main_v338 : Ref sig .tc := ⟨.hbm, 550, rfl⟩
abbrev main_v339 : Ref sig .tc := ⟨.hbm, 551, rfl⟩
abbrev main_v340 : Ref sig .tc := ⟨.hbm, 552, rfl⟩
abbrev main_v341 : Ref sig .tc := ⟨.hbm, 553, rfl⟩
abbrev main_call14_cst : Ref sig .tc := ⟨.hbm, 554, rfl⟩
abbrev main_call14_v0 : Ref sig .tc := ⟨.hbm, 555, rfl⟩
abbrev main_v342 : Ref sig .tc := ⟨.hbm, 556, rfl⟩
abbrev main_v343 : Ref sig .tc := ⟨.hbm, 557, rfl⟩
abbrev main_v344 : Ref sig .tc := ⟨.hbm, 558, rfl⟩
abbrev main_v345 : Ref sig .tc := ⟨.hbm, 559, rfl⟩
abbrev main_v346 : Ref sig .tc := ⟨.hbm, 560, rfl⟩
abbrev main_v347 : Ref sig .tc := ⟨.hbm, 561, rfl⟩
abbrev main_v348 : Ref sig .tc := ⟨.hbm, 562, rfl⟩
abbrev main_v349 : Ref sig .tc := ⟨.hbm, 563, rfl⟩
abbrev main_v350 : Ref sig .tc := ⟨.hbm, 564, rfl⟩
abbrev main_v351 : Ref sig .tc := ⟨.hbm, 565, rfl⟩
abbrev main_v352 : Ref sig .tc := ⟨.hbm, 566, rfl⟩
abbrev main_v353 : Ref sig .tc := ⟨.hbm, 567, rfl⟩
abbrev main_v354 : Ref sig .tc := ⟨.hbm, 568, rfl⟩
abbrev main_v355 : Ref sig .tc := ⟨.hbm, 569, rfl⟩
abbrev main_cst_51 : Ref sig .tc := ⟨.hbm, 570, rfl⟩
abbrev main_call15_cst : Ref sig .tc := ⟨.hbm, 571, rfl⟩
abbrev main_call15_v0 : Ref sig .tc := ⟨.hbm, 572, rfl⟩
abbrev main_call15_v1 : Ref sig .tc := ⟨.hbm, 573, rfl⟩
abbrev main_call15_v2 : Ref sig .tc := ⟨.hbm, 574, rfl⟩
abbrev main_call15_v3 : Ref sig .tc := ⟨.hbm, 575, rfl⟩
abbrev main_call15_v4 : Ref sig .tc := ⟨.hbm, 576, rfl⟩
abbrev main_v356 : Ref sig .tc := ⟨.hbm, 577, rfl⟩
abbrev main_v357 : Ref sig .tc := ⟨.hbm, 578, rfl⟩
abbrev main_v358 : Ref sig .tc := ⟨.hbm, 579, rfl⟩
abbrev main_v359 : Ref sig .tc := ⟨.hbm, 580, rfl⟩
abbrev main_v360 : Ref sig .tc := ⟨.hbm, 581, rfl⟩
abbrev main_v361 : Ref sig .tc := ⟨.hbm, 582, rfl⟩
abbrev main_v362 : Ref sig .tc := ⟨.hbm, 583, rfl⟩
abbrev main_cst_52 : Ref sig .tc := ⟨.hbm, 584, rfl⟩
abbrev main_v363 : Ref sig .tc := ⟨.hbm, 585, rfl⟩
abbrev main_v364 : Ref sig .tc := ⟨.hbm, 586, rfl⟩
abbrev main_cst_53 : Ref sig .tc := ⟨.hbm, 587, rfl⟩
abbrev main_v365 : Ref sig .tc := ⟨.hbm, 588, rfl⟩
abbrev main_v366 : Ref sig .tc := ⟨.hbm, 589, rfl⟩
abbrev main_v367 : Ref sig .tc := ⟨.hbm, 590, rfl⟩
abbrev main_v368 : Ref sig .tc := ⟨.hbm, 591, rfl⟩
abbrev main_v369 : Ref sig .tc := ⟨.hbm, 592, rfl⟩
abbrev main_v370 : Ref sig .tc := ⟨.hbm, 593, rfl⟩
abbrev main_v371 : Ref sig .tc := ⟨.hbm, 594, rfl⟩
abbrev main_v372 : Ref sig .tc := ⟨.hbm, 595, rfl⟩
abbrev main_c_54 : Ref sig .tc := ⟨.hbm, 596, rfl⟩
abbrev main_v373 : Ref sig .tc := ⟨.hbm, 597, rfl⟩
abbrev main_v374 : Ref sig .tc := ⟨.hbm, 598, rfl⟩
abbrev main_c_55 : Ref sig .tc := ⟨.hbm, 599, rfl⟩
abbrev main_v375 : Ref sig .tc := ⟨.hbm, 600, rfl⟩
abbrev main_v376 : Ref sig .tc := ⟨.hbm, 601, rfl⟩
abbrev main_v377 : Ref sig .tc := ⟨.hbm, 602, rfl⟩
abbrev main_v378 : Ref sig .tc := ⟨.hbm, 603, rfl⟩
abbrev main_v379 : Ref sig .tc := ⟨.hbm, 604, rfl⟩
abbrev main_v380 : Ref sig .tc := ⟨.hbm, 605, rfl⟩
abbrev main_v381 : Ref sig .tc := ⟨.hbm, 606, rfl⟩
abbrev main_cst_56 : Ref sig .tc := ⟨.hbm, 607, rfl⟩
abbrev main_v382 : Ref sig .tc := ⟨.hbm, 608, rfl⟩
abbrev main_v383 : Ref sig .tc := ⟨.hbm, 609, rfl⟩
abbrev main_v384 : Ref sig .tc := ⟨.hbm, 610, rfl⟩
abbrev main_v385 : Ref sig .tc := ⟨.hbm, 611, rfl⟩
abbrev main_v386 : Ref sig .tc := ⟨.hbm, 612, rfl⟩
abbrev main_v387 : Ref sig .tc := ⟨.hbm, 613, rfl⟩
abbrev main_v388 : Ref sig .tc := ⟨.hbm, 614, rfl⟩
abbrev main_v389 : Ref sig .tc := ⟨.hbm, 615, rfl⟩
abbrev main_v390 : Ref sig .tc := ⟨.hbm, 616, rfl⟩
abbrev main_v391 : Ref sig .tc := ⟨.hbm, 617, rfl⟩
abbrev main_v392 : Ref sig .tc := ⟨.hbm, 618, rfl⟩
abbrev main_v393 : Ref sig .tc := ⟨.hbm, 619, rfl⟩
abbrev main_cst_57 : Ref sig .tc := ⟨.hbm, 620, rfl⟩
abbrev main_v394 : Ref sig .tc := ⟨.hbm, 621, rfl⟩
abbrev main_cst_58 : Ref sig .tc := ⟨.hbm, 622, rfl⟩
abbrev main_v395 : Ref sig .tc := ⟨.hbm, 623, rfl⟩
abbrev main_v396 : Ref sig .tc := ⟨.hbm, 624, rfl⟩
abbrev main_c_59 : Ref sig .tc := ⟨.hbm, 625, rfl⟩
abbrev main_call16_cst : Ref sig .tc := ⟨.hbm, 626, rfl⟩
abbrev main_call16_v0 : Ref sig .tc := ⟨.hbm, 627, rfl⟩
abbrev main_call16_v1 : Ref sig .tc := ⟨.hbm, 628, rfl⟩
abbrev main_call16_cst_0 : Ref sig .tc := ⟨.hbm, 629, rfl⟩
abbrev main_call16_v2 : Ref sig .tc := ⟨.hbm, 630, rfl⟩
abbrev main_call16_v3 : Ref sig .tc := ⟨.hbm, 631, rfl⟩
abbrev main_call16_v4 : Ref sig .tc := ⟨.hbm, 632, rfl⟩
abbrev main_call16_v5 : Ref sig .tc := ⟨.hbm, 633, rfl⟩
abbrev main_call16_v6 : Ref sig .tc := ⟨.hbm, 634, rfl⟩
abbrev main_call16_v7 : Ref sig .tc := ⟨.hbm, 635, rfl⟩
abbrev main_call16_cst_1 : Ref sig .tc := ⟨.hbm, 636, rfl⟩
abbrev main_call16_v8 : Ref sig .tc := ⟨.hbm, 637, rfl⟩
abbrev main_call16_cst_2 : Ref sig .tc := ⟨.hbm, 638, rfl⟩
abbrev main_call16_v9 : Ref sig .tc := ⟨.hbm, 639, rfl⟩
abbrev main_call16_v10 : Ref sig .tc := ⟨.hbm, 640, rfl⟩
abbrev main_call16_v11 : Ref sig .tc := ⟨.hbm, 641, rfl⟩
abbrev main_call16_cst_3 : Ref sig .tc := ⟨.hbm, 642, rfl⟩
abbrev main_call16_v12 : Ref sig .tc := ⟨.hbm, 643, rfl⟩
abbrev main_call16_cst_4 : Ref sig .tc := ⟨.hbm, 644, rfl⟩
abbrev main_call16_call0_v0 : Ref sig .tc := ⟨.hbm, 645, rfl⟩
abbrev main_call16_call0_v1 : Ref sig .tc := ⟨.hbm, 646, rfl⟩
abbrev main_v397 : Ref sig .tc := ⟨.hbm, 647, rfl⟩
abbrev main_v398 : Ref sig .tc := ⟨.hbm, 648, rfl⟩
abbrev main_v399 : Ref sig .tc := ⟨.hbm, 649, rfl⟩
abbrev main_v400 : Ref sig .tc := ⟨.hbm, 650, rfl⟩
abbrev main_cst_60 : Ref sig .tc := ⟨.hbm, 651, rfl⟩
abbrev main_v401 : Ref sig .tc := ⟨.hbm, 652, rfl⟩
abbrev main_v402 : Ref sig .tc := ⟨.hbm, 653, rfl⟩
abbrev main_v403 : Ref sig .tc := ⟨.hbm, 654, rfl⟩
abbrev main_v404 : Ref sig .tc := ⟨.hbm, 655, rfl⟩
abbrev main_v405 : Ref sig .tc := ⟨.hbm, 656, rfl⟩
abbrev main_v406 : Ref sig .tc := ⟨.hbm, 657, rfl⟩
abbrev main_v407 : Ref sig .tc := ⟨.hbm, 658, rfl⟩
abbrev main_v408 : Ref sig .tc := ⟨.hbm, 659, rfl⟩
abbrev main_v409 : Ref sig .tc := ⟨.hbm, 660, rfl⟩
abbrev main_v410 : Ref sig .tc := ⟨.hbm, 661, rfl⟩
abbrev main_v411 : Ref sig .tc := ⟨.hbm, 662, rfl⟩
abbrev main_v412 : Ref sig .tc := ⟨.hbm, 663, rfl⟩
abbrev main_call17_cst : Ref sig .tc := ⟨.hbm, 664, rfl⟩
abbrev main_call17_v0 : Ref sig .tc := ⟨.hbm, 665, rfl⟩
abbrev main_v413 : Ref sig .tc := ⟨.hbm, 666, rfl⟩
abbrev main_v414 : Ref sig .tc := ⟨.hbm, 667, rfl⟩
abbrev main_v415 : Ref sig .tc := ⟨.hbm, 668, rfl⟩
abbrev main_v416 : Ref sig .tc := ⟨.hbm, 669, rfl⟩
abbrev main_v417 : Ref sig .tc := ⟨.hbm, 670, rfl⟩
abbrev main_v418 : Ref sig .tc := ⟨.hbm, 671, rfl⟩
abbrev main_v419 : Ref sig .tc := ⟨.hbm, 672, rfl⟩
abbrev main_v420 : Ref sig .tc := ⟨.hbm, 673, rfl⟩
abbrev main_v421 : Ref sig .tc := ⟨.hbm, 674, rfl⟩
abbrev main_v422 : Ref sig .tc := ⟨.hbm, 675, rfl⟩
abbrev main_v423 : Ref sig .tc := ⟨.hbm, 676, rfl⟩
abbrev main_v424 : Ref sig .tc := ⟨.hbm, 677, rfl⟩
abbrev main_v425 : Ref sig .tc := ⟨.hbm, 678, rfl⟩
abbrev main_v426 : Ref sig .tc := ⟨.hbm, 679, rfl⟩
abbrev main_cst_61 : Ref sig .tc := ⟨.hbm, 680, rfl⟩
abbrev main_call18_cst : Ref sig .tc := ⟨.hbm, 681, rfl⟩
abbrev main_call18_v0 : Ref sig .tc := ⟨.hbm, 682, rfl⟩
abbrev main_call18_v1 : Ref sig .tc := ⟨.hbm, 683, rfl⟩
abbrev main_call18_v2 : Ref sig .tc := ⟨.hbm, 684, rfl⟩
abbrev main_call18_v3 : Ref sig .tc := ⟨.hbm, 685, rfl⟩
abbrev main_call18_v4 : Ref sig .tc := ⟨.hbm, 686, rfl⟩
abbrev main_v427 : Ref sig .tc := ⟨.hbm, 687, rfl⟩
abbrev main_v428 : Ref sig .tc := ⟨.hbm, 688, rfl⟩
abbrev main_v429 : Ref sig .tc := ⟨.hbm, 689, rfl⟩
abbrev main_v430 : Ref sig .tc := ⟨.hbm, 690, rfl⟩
abbrev main_v431 : Ref sig .tc := ⟨.hbm, 691, rfl⟩
abbrev main_v432 : Ref sig .tc := ⟨.hbm, 692, rfl⟩
abbrev main_v433 : Ref sig .tc := ⟨.hbm, 693, rfl⟩
abbrev main_cst_62 : Ref sig .tc := ⟨.hbm, 694, rfl⟩
abbrev main_v434 : Ref sig .tc := ⟨.hbm, 695, rfl⟩
abbrev main_v435 : Ref sig .tc := ⟨.hbm, 696, rfl⟩
abbrev main_cst_63 : Ref sig .tc := ⟨.hbm, 697, rfl⟩
abbrev main_v436 : Ref sig .tc := ⟨.hbm, 698, rfl⟩
abbrev main_v437 : Ref sig .tc := ⟨.hbm, 699, rfl⟩
abbrev main_v438 : Ref sig .tc := ⟨.hbm, 700, rfl⟩
abbrev main_v439 : Ref sig .tc := ⟨.hbm, 701, rfl⟩
abbrev main_v440 : Ref sig .tc := ⟨.hbm, 702, rfl⟩
abbrev main_v441 : Ref sig .tc := ⟨.hbm, 703, rfl⟩
abbrev main_v442 : Ref sig .tc := ⟨.hbm, 704, rfl⟩
abbrev main_v443 : Ref sig .tc := ⟨.hbm, 705, rfl⟩
abbrev main_c_64 : Ref sig .tc := ⟨.hbm, 706, rfl⟩
abbrev main_v444 : Ref sig .tc := ⟨.hbm, 707, rfl⟩
abbrev main_v445 : Ref sig .tc := ⟨.hbm, 708, rfl⟩
abbrev main_c_65 : Ref sig .tc := ⟨.hbm, 709, rfl⟩
abbrev main_v446 : Ref sig .tc := ⟨.hbm, 710, rfl⟩
abbrev main_v447 : Ref sig .tc := ⟨.hbm, 711, rfl⟩
abbrev main_v448 : Ref sig .tc := ⟨.hbm, 712, rfl⟩
abbrev main_v449 : Ref sig .tc := ⟨.hbm, 713, rfl⟩
abbrev main_v450 : Ref sig .tc := ⟨.hbm, 714, rfl⟩
abbrev main_v451 : Ref sig .tc := ⟨.hbm, 715, rfl⟩
abbrev main_v452 : Ref sig .tc := ⟨.hbm, 716, rfl⟩
abbrev main_cst_66 : Ref sig .tc := ⟨.hbm, 717, rfl⟩
abbrev main_v453 : Ref sig .tc := ⟨.hbm, 718, rfl⟩
abbrev main_v454 : Ref sig .tc := ⟨.hbm, 719, rfl⟩
abbrev main_v455 : Ref sig .tc := ⟨.hbm, 720, rfl⟩
abbrev main_v456 : Ref sig .tc := ⟨.hbm, 721, rfl⟩
abbrev main_v457 : Ref sig .tc := ⟨.hbm, 722, rfl⟩
abbrev main_v458 : Ref sig .tc := ⟨.hbm, 723, rfl⟩
abbrev main_v459 : Ref sig .tc := ⟨.hbm, 724, rfl⟩
abbrev main_v460 : Ref sig .tc := ⟨.hbm, 725, rfl⟩
abbrev main_v461 : Ref sig .tc := ⟨.hbm, 726, rfl⟩
abbrev main_v462 : Ref sig .tc := ⟨.hbm, 727, rfl⟩
abbrev main_v463 : Ref sig .tc := ⟨.hbm, 728, rfl⟩
abbrev main_v464 : Ref sig .tc := ⟨.hbm, 729, rfl⟩
abbrev main_cst_67 : Ref sig .tc := ⟨.hbm, 730, rfl⟩
abbrev main_v465 : Ref sig .tc := ⟨.hbm, 731, rfl⟩
abbrev main_cst_68 : Ref sig .tc := ⟨.hbm, 732, rfl⟩
abbrev main_v466 : Ref sig .tc := ⟨.hbm, 733, rfl⟩
abbrev main_v467 : Ref sig .tc := ⟨.hbm, 734, rfl⟩
abbrev main_c_69 : Ref sig .tc := ⟨.hbm, 735, rfl⟩
abbrev main_call19_cst : Ref sig .tc := ⟨.hbm, 736, rfl⟩
abbrev main_call19_v0 : Ref sig .tc := ⟨.hbm, 737, rfl⟩
abbrev main_call19_v1 : Ref sig .tc := ⟨.hbm, 738, rfl⟩
abbrev main_call19_cst_0 : Ref sig .tc := ⟨.hbm, 739, rfl⟩
abbrev main_call19_v2 : Ref sig .tc := ⟨.hbm, 740, rfl⟩
abbrev main_call19_v3 : Ref sig .tc := ⟨.hbm, 741, rfl⟩
abbrev main_call19_v4 : Ref sig .tc := ⟨.hbm, 742, rfl⟩
abbrev main_call19_v5 : Ref sig .tc := ⟨.hbm, 743, rfl⟩
abbrev main_call19_v6 : Ref sig .tc := ⟨.hbm, 744, rfl⟩
abbrev main_call19_v7 : Ref sig .tc := ⟨.hbm, 745, rfl⟩
abbrev main_call19_cst_1 : Ref sig .tc := ⟨.hbm, 746, rfl⟩
abbrev main_call19_v8 : Ref sig .tc := ⟨.hbm, 747, rfl⟩
abbrev main_call19_cst_2 : Ref sig .tc := ⟨.hbm, 748, rfl⟩
abbrev main_call19_v9 : Ref sig .tc := ⟨.hbm, 749, rfl⟩
abbrev main_call19_v10 : Ref sig .tc := ⟨.hbm, 750, rfl⟩
abbrev main_call19_v11 : Ref sig .tc := ⟨.hbm, 751, rfl⟩
abbrev main_call19_cst_3 : Ref sig .tc := ⟨.hbm, 752, rfl⟩
abbrev main_call19_v12 : Ref sig .tc := ⟨.hbm, 753, rfl⟩
abbrev main_call19_cst_4 : Ref sig .tc := ⟨.hbm, 754, rfl⟩
abbrev main_call19_call0_v0 : Ref sig .tc := ⟨.hbm, 755, rfl⟩
abbrev main_call19_call0_v1 : Ref sig .tc := ⟨.hbm, 756, rfl⟩
abbrev main_v468 : Ref sig .tc := ⟨.hbm, 757, rfl⟩
abbrev main_v469 : Ref sig .tc := ⟨.hbm, 758, rfl⟩
abbrev main_v470 : Ref sig .tc := ⟨.hbm, 759, rfl⟩
abbrev main_v471 : Ref sig .tc := ⟨.hbm, 760, rfl⟩
abbrev main_cst_70 : Ref sig .tc := ⟨.hbm, 761, rfl⟩
abbrev main_v472 : Ref sig .tc := ⟨.hbm, 762, rfl⟩
abbrev main_v473 : Ref sig .tc := ⟨.hbm, 763, rfl⟩
abbrev main_v474 : Ref sig .tc := ⟨.hbm, 764, rfl⟩
abbrev main_v475 : Ref sig .tc := ⟨.hbm, 765, rfl⟩
abbrev main_v476 : Ref sig .tc := ⟨.hbm, 766, rfl⟩
abbrev main_v477 : Ref sig .tc := ⟨.hbm, 767, rfl⟩
abbrev main_v478 : Ref sig .tc := ⟨.hbm, 768, rfl⟩
abbrev main_v479 : Ref sig .tc := ⟨.hbm, 769, rfl⟩
abbrev main_v480 : Ref sig .tc := ⟨.hbm, 770, rfl⟩
abbrev main_v481 : Ref sig .tc := ⟨.hbm, 771, rfl⟩
abbrev main_v482 : Ref sig .tc := ⟨.hbm, 772, rfl⟩
abbrev main_v483 : Ref sig .tc := ⟨.hbm, 773, rfl⟩
abbrev main_call20_cst : Ref sig .tc := ⟨.hbm, 774, rfl⟩
abbrev main_call20_v0 : Ref sig .tc := ⟨.hbm, 775, rfl⟩
abbrev main_v484 : Ref sig .tc := ⟨.hbm, 776, rfl⟩
abbrev main_v485 : Ref sig .tc := ⟨.hbm, 777, rfl⟩
abbrev main_v486 : Ref sig .tc := ⟨.hbm, 778, rfl⟩
abbrev main_v487 : Ref sig .tc := ⟨.hbm, 779, rfl⟩
abbrev main_v488 : Ref sig .tc := ⟨.hbm, 780, rfl⟩
abbrev main_v489 : Ref sig .tc := ⟨.hbm, 781, rfl⟩
abbrev main_v490 : Ref sig .tc := ⟨.hbm, 782, rfl⟩
abbrev main_v491 : Ref sig .tc := ⟨.hbm, 783, rfl⟩
abbrev main_v492 : Ref sig .tc := ⟨.hbm, 784, rfl⟩
abbrev main_v493 : Ref sig .tc := ⟨.hbm, 785, rfl⟩
abbrev main_v494 : Ref sig .tc := ⟨.hbm, 786, rfl⟩
abbrev main_v495 : Ref sig .tc := ⟨.hbm, 787, rfl⟩
abbrev main_v496 : Ref sig .tc := ⟨.hbm, 788, rfl⟩
abbrev main_v497 : Ref sig .tc := ⟨.hbm, 789, rfl⟩
abbrev main_cst_71 : Ref sig .tc := ⟨.hbm, 790, rfl⟩
abbrev main_call21_cst : Ref sig .tc := ⟨.hbm, 791, rfl⟩
abbrev main_call21_v0 : Ref sig .tc := ⟨.hbm, 792, rfl⟩
abbrev main_call21_v1 : Ref sig .tc := ⟨.hbm, 793, rfl⟩
abbrev main_call21_v2 : Ref sig .tc := ⟨.hbm, 794, rfl⟩
abbrev main_call21_v3 : Ref sig .tc := ⟨.hbm, 795, rfl⟩
abbrev main_call21_v4 : Ref sig .tc := ⟨.hbm, 796, rfl⟩
abbrev main_v498 : Ref sig .tc := ⟨.hbm, 797, rfl⟩
abbrev main_v499 : Ref sig .tc := ⟨.hbm, 798, rfl⟩
abbrev main_v500 : Ref sig .tc := ⟨.hbm, 799, rfl⟩
abbrev main_v501 : Ref sig .tc := ⟨.hbm, 800, rfl⟩
abbrev main_v502 : Ref sig .tc := ⟨.hbm, 801, rfl⟩
abbrev main_v503 : Ref sig .tc := ⟨.hbm, 802, rfl⟩
abbrev main_v504 : Ref sig .tc := ⟨.hbm, 803, rfl⟩
abbrev main_cst_72 : Ref sig .tc := ⟨.hbm, 804, rfl⟩
abbrev main_v505 : Ref sig .tc := ⟨.hbm, 805, rfl⟩
abbrev main_v506 : Ref sig .tc := ⟨.hbm, 806, rfl⟩
abbrev main_cst_73 : Ref sig .tc := ⟨.hbm, 807, rfl⟩
abbrev main_v507 : Ref sig .tc := ⟨.hbm, 808, rfl⟩
abbrev main_v508 : Ref sig .tc := ⟨.hbm, 809, rfl⟩
abbrev main_v509 : Ref sig .tc := ⟨.hbm, 810, rfl⟩
abbrev main_v510 : Ref sig .tc := ⟨.hbm, 811, rfl⟩
abbrev main_v511 : Ref sig .tc := ⟨.hbm, 812, rfl⟩
abbrev main_v512 : Ref sig .tc := ⟨.hbm, 813, rfl⟩
abbrev main_v513 : Ref sig .tc := ⟨.hbm, 814, rfl⟩
abbrev main_v514 : Ref sig .tc := ⟨.hbm, 815, rfl⟩
abbrev main_c_74 : Ref sig .tc := ⟨.hbm, 816, rfl⟩
abbrev main_v515 : Ref sig .tc := ⟨.hbm, 817, rfl⟩
abbrev main_v516 : Ref sig .tc := ⟨.hbm, 818, rfl⟩
abbrev main_c_75 : Ref sig .tc := ⟨.hbm, 819, rfl⟩
abbrev main_v517 : Ref sig .tc := ⟨.hbm, 820, rfl⟩
abbrev main_v518 : Ref sig .tc := ⟨.hbm, 821, rfl⟩
abbrev main_v519 : Ref sig .tc := ⟨.hbm, 822, rfl⟩
abbrev main_v520 : Ref sig .tc := ⟨.hbm, 823, rfl⟩
abbrev main_v521 : Ref sig .tc := ⟨.hbm, 824, rfl⟩
abbrev main_v522 : Ref sig .tc := ⟨.hbm, 825, rfl⟩
abbrev main_v523 : Ref sig .tc := ⟨.hbm, 826, rfl⟩
abbrev main_cst_76 : Ref sig .tc := ⟨.hbm, 827, rfl⟩
abbrev main_v524 : Ref sig .tc := ⟨.hbm, 828, rfl⟩
abbrev main_v525 : Ref sig .tc := ⟨.hbm, 829, rfl⟩
abbrev main_v526 : Ref sig .tc := ⟨.hbm, 830, rfl⟩
abbrev main_v527 : Ref sig .tc := ⟨.hbm, 831, rfl⟩
abbrev main_v528 : Ref sig .tc := ⟨.hbm, 832, rfl⟩
abbrev main_v529 : Ref sig .tc := ⟨.hbm, 833, rfl⟩
abbrev main_v530 : Ref sig .tc := ⟨.hbm, 834, rfl⟩
abbrev main_v531 : Ref sig .tc := ⟨.hbm, 835, rfl⟩
abbrev main_v532 : Ref sig .tc := ⟨.hbm, 836, rfl⟩
abbrev main_v533 : Ref sig .tc := ⟨.hbm, 837, rfl⟩
abbrev main_v534 : Ref sig .tc := ⟨.hbm, 838, rfl⟩
abbrev main_v535 : Ref sig .tc := ⟨.hbm, 839, rfl⟩
abbrev main_cst_77 : Ref sig .tc := ⟨.hbm, 840, rfl⟩
abbrev main_v536 : Ref sig .tc := ⟨.hbm, 841, rfl⟩
abbrev main_cst_78 : Ref sig .tc := ⟨.hbm, 842, rfl⟩
abbrev main_v537 : Ref sig .tc := ⟨.hbm, 843, rfl⟩
abbrev main_v538 : Ref sig .tc := ⟨.hbm, 844, rfl⟩
abbrev main_c_79 : Ref sig .tc := ⟨.hbm, 845, rfl⟩
abbrev main_call22_cst : Ref sig .tc := ⟨.hbm, 846, rfl⟩
abbrev main_call22_v0 : Ref sig .tc := ⟨.hbm, 847, rfl⟩
abbrev main_call22_v1 : Ref sig .tc := ⟨.hbm, 848, rfl⟩
abbrev main_call22_cst_0 : Ref sig .tc := ⟨.hbm, 849, rfl⟩
abbrev main_call22_v2 : Ref sig .tc := ⟨.hbm, 850, rfl⟩
abbrev main_call22_v3 : Ref sig .tc := ⟨.hbm, 851, rfl⟩
abbrev main_call22_v4 : Ref sig .tc := ⟨.hbm, 852, rfl⟩
abbrev main_call22_v5 : Ref sig .tc := ⟨.hbm, 853, rfl⟩
abbrev main_call22_v6 : Ref sig .tc := ⟨.hbm, 854, rfl⟩
abbrev main_call22_v7 : Ref sig .tc := ⟨.hbm, 855, rfl⟩
abbrev main_call22_cst_1 : Ref sig .tc := ⟨.hbm, 856, rfl⟩
abbrev main_call22_v8 : Ref sig .tc := ⟨.hbm, 857, rfl⟩
abbrev main_call22_cst_2 : Ref sig .tc := ⟨.hbm, 858, rfl⟩
abbrev main_call22_v9 : Ref sig .tc := ⟨.hbm, 859, rfl⟩
abbrev main_call22_v10 : Ref sig .tc := ⟨.hbm, 860, rfl⟩
abbrev main_call22_v11 : Ref sig .tc := ⟨.hbm, 861, rfl⟩
abbrev main_call22_cst_3 : Ref sig .tc := ⟨.hbm, 862, rfl⟩
abbrev main_call22_v12 : Ref sig .tc := ⟨.hbm, 863, rfl⟩
abbrev main_call22_cst_4 : Ref sig .tc := ⟨.hbm, 864, rfl⟩
abbrev main_call22_call0_v0 : Ref sig .tc := ⟨.hbm, 865, rfl⟩
abbrev main_call22_call0_v1 : Ref sig .tc := ⟨.hbm, 866, rfl⟩
abbrev main_v539 : Ref sig .tc := ⟨.hbm, 867, rfl⟩
abbrev main_v540 : Ref sig .tc := ⟨.hbm, 868, rfl⟩
abbrev main_v541 : Ref sig .tc := ⟨.hbm, 869, rfl⟩
abbrev main_v542 : Ref sig .tc := ⟨.hbm, 870, rfl⟩
abbrev main_cst_80 : Ref sig .tc := ⟨.hbm, 871, rfl⟩
abbrev main_v543 : Ref sig .tc := ⟨.hbm, 872, rfl⟩
abbrev main_v544 : Ref sig .tc := ⟨.hbm, 873, rfl⟩
abbrev main_v545 : Ref sig .tc := ⟨.hbm, 874, rfl⟩
abbrev main_v546 : Ref sig .tc := ⟨.hbm, 875, rfl⟩
abbrev main_v547 : Ref sig .tc := ⟨.hbm, 876, rfl⟩
abbrev main_v548 : Ref sig .tc := ⟨.hbm, 877, rfl⟩
abbrev main_v549 : Ref sig .tc := ⟨.hbm, 878, rfl⟩
abbrev main_v550 : Ref sig .tc := ⟨.hbm, 879, rfl⟩
abbrev main_v551 : Ref sig .tc := ⟨.hbm, 880, rfl⟩
abbrev main_v552 : Ref sig .tc := ⟨.hbm, 881, rfl⟩
abbrev main_v553 : Ref sig .tc := ⟨.hbm, 882, rfl⟩
abbrev main_v554 : Ref sig .tc := ⟨.hbm, 883, rfl⟩
abbrev main_call23_cst : Ref sig .tc := ⟨.hbm, 884, rfl⟩
abbrev main_call23_v0 : Ref sig .tc := ⟨.hbm, 885, rfl⟩
abbrev main_v555 : Ref sig .tc := ⟨.hbm, 886, rfl⟩
abbrev main_v556 : Ref sig .tc := ⟨.hbm, 887, rfl⟩
abbrev main_v557 : Ref sig .tc := ⟨.hbm, 888, rfl⟩
abbrev main_v558 : Ref sig .tc := ⟨.hbm, 889, rfl⟩
abbrev main_v559 : Ref sig .tc := ⟨.hbm, 890, rfl⟩
abbrev main_v560 : Ref sig .tc := ⟨.hbm, 891, rfl⟩
abbrev main_v561 : Ref sig .tc := ⟨.hbm, 892, rfl⟩
abbrev main_v562 : Ref sig .tc := ⟨.hbm, 893, rfl⟩
abbrev main_v563 : Ref sig .tc := ⟨.hbm, 894, rfl⟩
abbrev main_v564 : Ref sig .tc := ⟨.hbm, 895, rfl⟩
abbrev main_v565 : Ref sig .tc := ⟨.hbm, 896, rfl⟩
abbrev main_v566 : Ref sig .tc := ⟨.hbm, 897, rfl⟩
abbrev main_v567 : Ref sig .tc := ⟨.hbm, 898, rfl⟩
abbrev main_v568 : Ref sig .tc := ⟨.hbm, 899, rfl⟩
abbrev main_cst_81 : Ref sig .tc := ⟨.hbm, 900, rfl⟩
abbrev main_call24_cst : Ref sig .tc := ⟨.hbm, 901, rfl⟩
abbrev main_call24_v0 : Ref sig .tc := ⟨.hbm, 902, rfl⟩
abbrev main_call24_v1 : Ref sig .tc := ⟨.hbm, 903, rfl⟩
abbrev main_call24_v2 : Ref sig .tc := ⟨.hbm, 904, rfl⟩
abbrev main_call24_v3 : Ref sig .tc := ⟨.hbm, 905, rfl⟩
abbrev main_call24_v4 : Ref sig .tc := ⟨.hbm, 906, rfl⟩
abbrev main_v569 : Ref sig .tc := ⟨.hbm, 907, rfl⟩
abbrev main_v570 : Ref sig .tc := ⟨.hbm, 908, rfl⟩
abbrev main_v571 : Ref sig .tc := ⟨.hbm, 909, rfl⟩
abbrev main_v572 : Ref sig .tc := ⟨.hbm, 910, rfl⟩
abbrev main_v573 : Ref sig .tc := ⟨.hbm, 911, rfl⟩
abbrev main_v574 : Ref sig .tc := ⟨.hbm, 912, rfl⟩
abbrev main_v575 : Ref sig .tc := ⟨.hbm, 913, rfl⟩
abbrev main_cst_82 : Ref sig .tc := ⟨.hbm, 914, rfl⟩
abbrev main_v576 : Ref sig .tc := ⟨.hbm, 915, rfl⟩
abbrev main_v577 : Ref sig .tc := ⟨.hbm, 916, rfl⟩
abbrev main_cst_83 : Ref sig .tc := ⟨.hbm, 917, rfl⟩
abbrev main_v578 : Ref sig .tc := ⟨.hbm, 918, rfl⟩
abbrev main_v579 : Ref sig .tc := ⟨.hbm, 919, rfl⟩
abbrev main_v580 : Ref sig .tc := ⟨.hbm, 920, rfl⟩
abbrev main_v581 : Ref sig .tc := ⟨.hbm, 921, rfl⟩
abbrev main_v582 : Ref sig .tc := ⟨.hbm, 922, rfl⟩
abbrev main_v583 : Ref sig .tc := ⟨.hbm, 923, rfl⟩
abbrev main_v584 : Ref sig .tc := ⟨.hbm, 924, rfl⟩
abbrev main_v585 : Ref sig .tc := ⟨.hbm, 925, rfl⟩
abbrev main_c_84 : Ref sig .tc := ⟨.hbm, 926, rfl⟩
abbrev main_v586 : Ref sig .tc := ⟨.hbm, 927, rfl⟩
abbrev main_v587 : Ref sig .tc := ⟨.hbm, 928, rfl⟩
abbrev main_c_85 : Ref sig .tc := ⟨.hbm, 929, rfl⟩
abbrev main_v588 : Ref sig .tc := ⟨.hbm, 930, rfl⟩
abbrev main_v589 : Ref sig .tc := ⟨.hbm, 931, rfl⟩
abbrev main_v590 : Ref sig .tc := ⟨.hbm, 932, rfl⟩
abbrev main_v591 : Ref sig .tc := ⟨.hbm, 933, rfl⟩
abbrev main_v592 : Ref sig .tc := ⟨.hbm, 934, rfl⟩
abbrev main_v593 : Ref sig .tc := ⟨.hbm, 935, rfl⟩
abbrev main_v594 : Ref sig .tc := ⟨.hbm, 936, rfl⟩
abbrev main_cst_86 : Ref sig .tc := ⟨.hbm, 937, rfl⟩
abbrev main_v595 : Ref sig .tc := ⟨.hbm, 938, rfl⟩
abbrev main_v596 : Ref sig .tc := ⟨.hbm, 939, rfl⟩
abbrev main_v597 : Ref sig .tc := ⟨.hbm, 940, rfl⟩
abbrev main_v598 : Ref sig .tc := ⟨.hbm, 941, rfl⟩
abbrev main_v599 : Ref sig .tc := ⟨.hbm, 942, rfl⟩
abbrev main_v600 : Ref sig .tc := ⟨.hbm, 943, rfl⟩
abbrev main_v601 : Ref sig .tc := ⟨.hbm, 944, rfl⟩
abbrev main_v602 : Ref sig .tc := ⟨.hbm, 945, rfl⟩
abbrev main_v603 : Ref sig .tc := ⟨.hbm, 946, rfl⟩
abbrev main_v604 : Ref sig .tc := ⟨.hbm, 947, rfl⟩
abbrev main_v605 : Ref sig .tc := ⟨.hbm, 948, rfl⟩
abbrev main_v606 : Ref sig .tc := ⟨.hbm, 949, rfl⟩
abbrev main_cst_87 : Ref sig .tc := ⟨.hbm, 950, rfl⟩
abbrev main_v607 : Ref sig .tc := ⟨.hbm, 951, rfl⟩
abbrev main_cst_88 : Ref sig .tc := ⟨.hbm, 952, rfl⟩
abbrev main_v608 : Ref sig .tc := ⟨.hbm, 953, rfl⟩
abbrev main_v609 : Ref sig .tc := ⟨.hbm, 954, rfl⟩
abbrev main_c_89 : Ref sig .tc := ⟨.hbm, 955, rfl⟩
abbrev main_call25_cst : Ref sig .tc := ⟨.hbm, 956, rfl⟩
abbrev main_call25_v0 : Ref sig .tc := ⟨.hbm, 957, rfl⟩
abbrev main_call25_v1 : Ref sig .tc := ⟨.hbm, 958, rfl⟩
abbrev main_call25_cst_0 : Ref sig .tc := ⟨.hbm, 959, rfl⟩
abbrev main_call25_v2 : Ref sig .tc := ⟨.hbm, 960, rfl⟩
abbrev main_call25_v3 : Ref sig .tc := ⟨.hbm, 961, rfl⟩
abbrev main_call25_v4 : Ref sig .tc := ⟨.hbm, 962, rfl⟩
abbrev main_call25_v5 : Ref sig .tc := ⟨.hbm, 963, rfl⟩
abbrev main_call25_v6 : Ref sig .tc := ⟨.hbm, 964, rfl⟩
abbrev main_call25_v7 : Ref sig .tc := ⟨.hbm, 965, rfl⟩
abbrev main_call25_cst_1 : Ref sig .tc := ⟨.hbm, 966, rfl⟩
abbrev main_call25_v8 : Ref sig .tc := ⟨.hbm, 967, rfl⟩
abbrev main_call25_cst_2 : Ref sig .tc := ⟨.hbm, 968, rfl⟩
abbrev main_call25_v9 : Ref sig .tc := ⟨.hbm, 969, rfl⟩
abbrev main_call25_v10 : Ref sig .tc := ⟨.hbm, 970, rfl⟩
abbrev main_call25_v11 : Ref sig .tc := ⟨.hbm, 971, rfl⟩
abbrev main_call25_cst_3 : Ref sig .tc := ⟨.hbm, 972, rfl⟩
abbrev main_call25_v12 : Ref sig .tc := ⟨.hbm, 973, rfl⟩
abbrev main_call25_cst_4 : Ref sig .tc := ⟨.hbm, 974, rfl⟩
abbrev main_call25_call0_v0 : Ref sig .tc := ⟨.hbm, 975, rfl⟩
abbrev main_call25_call0_v1 : Ref sig .tc := ⟨.hbm, 976, rfl⟩
abbrev main_v610 : Ref sig .tc := ⟨.hbm, 977, rfl⟩
abbrev main_v611 : Ref sig .tc := ⟨.hbm, 978, rfl⟩
abbrev main_v612 : Ref sig .tc := ⟨.hbm, 979, rfl⟩
abbrev main_v613 : Ref sig .tc := ⟨.hbm, 980, rfl⟩
abbrev main_cst_90 : Ref sig .tc := ⟨.hbm, 981, rfl⟩
abbrev main_v614 : Ref sig .tc := ⟨.hbm, 982, rfl⟩
abbrev main_v615 : Ref sig .tc := ⟨.hbm, 983, rfl⟩
abbrev main_v616 : Ref sig .tc := ⟨.hbm, 984, rfl⟩
abbrev main_v617 : Ref sig .tc := ⟨.hbm, 985, rfl⟩
abbrev main_v618 : Ref sig .tc := ⟨.hbm, 986, rfl⟩
abbrev main_v619 : Ref sig .tc := ⟨.hbm, 987, rfl⟩
abbrev main_v620 : Ref sig .tc := ⟨.hbm, 988, rfl⟩
abbrev main_v621 : Ref sig .tc := ⟨.hbm, 989, rfl⟩
abbrev main_v622 : Ref sig .tc := ⟨.hbm, 990, rfl⟩
abbrev main_v623 : Ref sig .tc := ⟨.hbm, 991, rfl⟩
abbrev main_v624 : Ref sig .tc := ⟨.hbm, 992, rfl⟩
abbrev main_v625 : Ref sig .tc := ⟨.hbm, 993, rfl⟩
abbrev main_call26_cst : Ref sig .tc := ⟨.hbm, 994, rfl⟩
abbrev main_call26_v0 : Ref sig .tc := ⟨.hbm, 995, rfl⟩
abbrev main_v626 : Ref sig .tc := ⟨.hbm, 996, rfl⟩
abbrev main_v627 : Ref sig .tc := ⟨.hbm, 997, rfl⟩
abbrev main_v628 : Ref sig .tc := ⟨.hbm, 998, rfl⟩
abbrev main_v629 : Ref sig .tc := ⟨.hbm, 999, rfl⟩
abbrev main_v630 : Ref sig .tc := ⟨.hbm, 1000, rfl⟩
abbrev main_v631 : Ref sig .tc := ⟨.hbm, 1001, rfl⟩
abbrev main_v632 : Ref sig .tc := ⟨.hbm, 1002, rfl⟩
abbrev main_v633 : Ref sig .tc := ⟨.hbm, 1003, rfl⟩
abbrev main_v634 : Ref sig .tc := ⟨.hbm, 1004, rfl⟩
abbrev main_v635 : Ref sig .tc := ⟨.hbm, 1005, rfl⟩
abbrev main_v636 : Ref sig .tc := ⟨.hbm, 1006, rfl⟩
abbrev main_v637 : Ref sig .tc := ⟨.hbm, 1007, rfl⟩
abbrev main_v638 : Ref sig .tc := ⟨.hbm, 1008, rfl⟩
abbrev main_v639 : Ref sig .tc := ⟨.hbm, 1009, rfl⟩
abbrev main_cst_91 : Ref sig .tc := ⟨.hbm, 1010, rfl⟩
abbrev main_call27_cst : Ref sig .tc := ⟨.hbm, 1011, rfl⟩
abbrev main_call27_v0 : Ref sig .tc := ⟨.hbm, 1012, rfl⟩
abbrev main_call27_v1 : Ref sig .tc := ⟨.hbm, 1013, rfl⟩
abbrev main_call27_v2 : Ref sig .tc := ⟨.hbm, 1014, rfl⟩
abbrev main_call27_v3 : Ref sig .tc := ⟨.hbm, 1015, rfl⟩
abbrev main_call27_v4 : Ref sig .tc := ⟨.hbm, 1016, rfl⟩
abbrev main_v640 : Ref sig .tc := ⟨.hbm, 1017, rfl⟩
abbrev main_v641 : Ref sig .tc := ⟨.hbm, 1018, rfl⟩
abbrev main_v642 : Ref sig .tc := ⟨.hbm, 1019, rfl⟩
abbrev main_v643 : Ref sig .tc := ⟨.hbm, 1020, rfl⟩
abbrev main_v644 : Ref sig .tc := ⟨.hbm, 1021, rfl⟩
abbrev main_v645 : Ref sig .tc := ⟨.hbm, 1022, rfl⟩
abbrev main_v646 : Ref sig .tc := ⟨.hbm, 1023, rfl⟩
abbrev main_cst_92 : Ref sig .tc := ⟨.hbm, 1024, rfl⟩
abbrev main_v647 : Ref sig .tc := ⟨.hbm, 1025, rfl⟩
abbrev main_v648 : Ref sig .tc := ⟨.hbm, 1026, rfl⟩
abbrev main_cst_93 : Ref sig .tc := ⟨.hbm, 1027, rfl⟩
abbrev main_v649 : Ref sig .tc := ⟨.hbm, 1028, rfl⟩
abbrev main_v650 : Ref sig .tc := ⟨.hbm, 1029, rfl⟩
abbrev main_v651 : Ref sig .tc := ⟨.hbm, 1030, rfl⟩
abbrev main_v652 : Ref sig .tc := ⟨.hbm, 1031, rfl⟩
abbrev main_v653 : Ref sig .tc := ⟨.hbm, 1032, rfl⟩
abbrev main_v654 : Ref sig .tc := ⟨.hbm, 1033, rfl⟩
abbrev main_v655 : Ref sig .tc := ⟨.hbm, 1034, rfl⟩
abbrev main_v656 : Ref sig .tc := ⟨.hbm, 1035, rfl⟩
abbrev main_v657 : Ref sig .tc := ⟨.hbm, 1036, rfl⟩
abbrev main_call28_cst : Ref sig .tc := ⟨.hbm, 1037, rfl⟩
abbrev main_call28_v0 : Ref sig .tc := ⟨.hbm, 1038, rfl⟩
abbrev main_v658 : Ref sig .tc := ⟨.hbm, 1039, rfl⟩
abbrev main_v659 : Ref sig .tc := ⟨.hbm, 1040, rfl⟩
abbrev main_v660 : Ref sig .tc := ⟨.hbm, 1041, rfl⟩
abbrev main_v661 : Ref sig .tc := ⟨.hbm, 1042, rfl⟩
abbrev main_v662 : Ref sig .tc := ⟨.hbm, 1043, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S9x64x4_S1x64x4_0_0_0 : S9x64x4.Slices ![0, 0, 0] S1x64x4
  shapeCasts_S1x64x4_S64x4 : S1x64x4.ShapeCasts S64x4
  slices_S9x4_S1x4_0_0 : S9x4.Slices ![0, 0] S1x4
  shapeCasts_S1x4_S4 : S1x4.ShapeCasts S4
  slices_S9x4x1_S1x4x1_0_0_0 : S9x4x1.Slices ![0, 0, 0] S1x4x1
  shapeCasts_S1x4x1_S4x1 : S1x4x1.ShapeCasts S4x1
  slices_S9x1_S1x1_0_0 : S9x1.Slices ![0, 0] S1x1
  shapeCasts_S1x1_S1 : S1x1.ShapeCasts S1
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S50000x4 : S_.BroadcastsInDim S50000x4 (![] : Fin 0 → Fin S50000x4.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S8x64x64_S1x64x64_0_0_0 : S8x64x64.Slices ![0, 0, 0] S1x64x64
  shapeCasts_S1x64x64_S64x64 : S1x64x64.ShapeCasts S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S8x64_S1x64_0_0 : S8x64.Slices ![0, 0] S1x64
  shapeCasts_S1x64_S64 : S1x64.ShapeCasts S64
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  slices_S9x64x4_S1x64x4_1_0_0 : S9x64x4.Slices ![1, 0, 0] S1x64x4
  slices_S9x4_S1x4_1_0 : S9x4.Slices ![1, 0] S1x4
  slices_S9x4x1_S1x4x1_1_0_0 : S9x4x1.Slices ![1, 0, 0] S1x4x1
  slices_S9x1_S1x1_1_0 : S9x1.Slices ![1, 0] S1x1
  slices_S8x64x64_S1x64x64_1_0_0 : S8x64x64.Slices ![1, 0, 0] S1x64x64
  slices_S8x64_S1x64_1_0 : S8x64.Slices ![1, 0] S1x64
  slices_S9x64x4_S1x64x4_2_0_0 : S9x64x4.Slices ![2, 0, 0] S1x64x4
  slices_S9x4_S1x4_2_0 : S9x4.Slices ![2, 0] S1x4
  slices_S9x4x1_S1x4x1_2_0_0 : S9x4x1.Slices ![2, 0, 0] S1x4x1
  slices_S9x1_S1x1_2_0 : S9x1.Slices ![2, 0] S1x1
  slices_S8x64x64_S1x64x64_2_0_0 : S8x64x64.Slices ![2, 0, 0] S1x64x64
  slices_S8x64_S1x64_2_0 : S8x64.Slices ![2, 0] S1x64
  slices_S9x64x4_S1x64x4_3_0_0 : S9x64x4.Slices ![3, 0, 0] S1x64x4
  slices_S9x4_S1x4_3_0 : S9x4.Slices ![3, 0] S1x4
  slices_S9x4x1_S1x4x1_3_0_0 : S9x4x1.Slices ![3, 0, 0] S1x4x1
  slices_S9x1_S1x1_3_0 : S9x1.Slices ![3, 0] S1x1
  slices_S8x64x64_S1x64x64_3_0_0 : S8x64x64.Slices ![3, 0, 0] S1x64x64
  slices_S8x64_S1x64_3_0 : S8x64.Slices ![3, 0] S1x64
  slices_S9x64x4_S1x64x4_4_0_0 : S9x64x4.Slices ![4, 0, 0] S1x64x4
  slices_S9x4_S1x4_4_0 : S9x4.Slices ![4, 0] S1x4
  slices_S9x4x1_S1x4x1_4_0_0 : S9x4x1.Slices ![4, 0, 0] S1x4x1
  slices_S9x1_S1x1_4_0 : S9x1.Slices ![4, 0] S1x1
  slices_S8x64x64_S1x64x64_4_0_0 : S8x64x64.Slices ![4, 0, 0] S1x64x64
  slices_S8x64_S1x64_4_0 : S8x64.Slices ![4, 0] S1x64
  slices_S9x64x4_S1x64x4_5_0_0 : S9x64x4.Slices ![5, 0, 0] S1x64x4
  slices_S9x4_S1x4_5_0 : S9x4.Slices ![5, 0] S1x4
  slices_S9x4x1_S1x4x1_5_0_0 : S9x4x1.Slices ![5, 0, 0] S1x4x1
  slices_S9x1_S1x1_5_0 : S9x1.Slices ![5, 0] S1x1
  slices_S8x64x64_S1x64x64_5_0_0 : S8x64x64.Slices ![5, 0, 0] S1x64x64
  slices_S8x64_S1x64_5_0 : S8x64.Slices ![5, 0] S1x64
  slices_S9x64x4_S1x64x4_6_0_0 : S9x64x4.Slices ![6, 0, 0] S1x64x4
  slices_S9x4_S1x4_6_0 : S9x4.Slices ![6, 0] S1x4
  slices_S9x4x1_S1x4x1_6_0_0 : S9x4x1.Slices ![6, 0, 0] S1x4x1
  slices_S9x1_S1x1_6_0 : S9x1.Slices ![6, 0] S1x1
  slices_S8x64x64_S1x64x64_6_0_0 : S8x64x64.Slices ![6, 0, 0] S1x64x64
  slices_S8x64_S1x64_6_0 : S8x64.Slices ![6, 0] S1x64
  slices_S9x64x4_S1x64x4_7_0_0 : S9x64x4.Slices ![7, 0, 0] S1x64x4
  slices_S9x4_S1x4_7_0 : S9x4.Slices ![7, 0] S1x4
  slices_S9x4x1_S1x4x1_7_0_0 : S9x4x1.Slices ![7, 0, 0] S1x4x1
  slices_S9x1_S1x1_7_0 : S9x1.Slices ![7, 0] S1x1
  slices_S8x64x64_S1x64x64_7_0_0 : S8x64x64.Slices ![7, 0, 0] S1x64x64
  slices_S8x64_S1x64_7_0 : S8x64.Slices ![7, 0] S1x64
  slices_S9x64x4_S1x64x4_8_0_0 : S9x64x4.Slices ![8, 0, 0] S1x64x4
  slices_S9x4_S1x4_8_0 : S9x4.Slices ![8, 0] S1x4
  slices_S9x4x1_S1x4x1_8_0_0 : S9x4x1.Slices ![8, 0, 0] S1x4x1
  slices_S9x1_S1x1_8_0 : S9x1.Slices ![8, 0] S1x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x4_S50000x4_1_0_0_1_n_n_wf : DotDims.WF S50000x64 S64x4 S50000x4 [1] [0] [0] [1] [] []
  dot_S50000x4_S4x1_S50000x1_1_0_0_1_n_n_wf : DotDims.WF S50000x4 S4x1 S50000x1 [1] [0] [0] [1] [] []
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def dot_S50000x4_S4x1_S50000x1_1_0_0_1_n_n : DotDims S50000x4 S4x1 S50000x1 where
  lhsContracting := [1]
  rhsContracting := [0]
  lhsNonContracting := [0]
  rhsNonContracting := [1]
  lhsBatch := []
  rhsBatch := []
  wf := dot_S50000x4_S4x1_S50000x1_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Spec.lean ====
import Idealize.ShloMosaic.PureOps.Ideal

noncomputable section

namespace Cert.Spec

open Idealize.ShloMosaic

abbrev Mat (n d : ℕ) : Type := Fin n → Fin d → EReal

def eps : EReal := Ideal.ofBits .f32 0x3727C5AC#32

def slope : EReal := Ideal.ofBits .f32 0x3E4CCCCD#32

def nodes : EReal := Ideal.ofBits .f32 0x47435000#32

def bn (v mean var g be : EReal) : EReal := (v - mean) * Ideal.rsqrt (var + eps) * g + be

def relu (v : EReal) : EReal := max v 0

def leaky (v : EReal) : EReal := Scalar.select (Ideal.cmp .oge v 0) v (slope * v)

def meanOf (s : EReal) : EReal := Ideal.div s nodes

def gate (d : Fin 64 → EReal) (lw1 : Mat 64 4) (lb1 : Fin 4 → EReal) (lw2 : Fin 4 → EReal) (lb2 : EReal) : EReal :=
  Ideal.logistic ((∑ a : Fin 4, leaky ((∑ k : Fin 64, d k * lw1 k a) + lb1 a) * lw2 a) + lb2)

def proj {n d : ℕ} (h : Fin n → EReal) (w : Mat n d) (j : Fin d) : EReal := ∑ k : Fin n, h k * w k j

def pre (x : Fin 128 → EReal) (w1 : Mat 128 128) (b1 : Fin 128 → EReal) (j : Fin 128) : EReal := proj x w1 j + b1 j

def hin (p mean var g be : Fin 128 → EReal) (w2 : Mat 128 64) (b2 : Fin 64 → EReal) (j : Fin 64) : EReal :=
  proj (fun k => relu (bn (p k) (mean k) (var k) (g k) (be k))) w2 j + b2 j

def gated (h d : Fin 64 → EReal) (lw1 : Mat 64 4) (lb1 : Fin 4 → EReal) (lw2 : Fin 4 → EReal) (lb2 : EReal)
    (j : Fin 64) : EReal := h j * gate d lw1 lb1 lw2 lb2

def hraw (a mean var g be : Fin 64 → EReal) (j : Fin 64) : EReal := relu (bn (a j) (mean j) (var j) (g j) (be j))

def outRow (f : Fin 64 → EReal) (w1 : Mat 64 128) (b1 : Fin 128 → EReal) (w2 : Mat 128 64) (b2 : Fin 64 → EReal)
    (j : Fin 64) : EReal := proj (fun a => relu (proj f w1 a + b1 a)) w2 j + b2 j

structure Ops where
  scat : Mat 50000 64 → Mat 50000 64
  sum128 : Mat 50000 128 → Fin 128 → EReal
  var128 : Mat 50000 128 → Fin 128 → EReal
  sum64 : Mat 50000 64 → Fin 64 → EReal
  var64 : Mat 50000 64 → Fin 64 → EReal

structure Params where
  x : Mat 50000 128
  im_w1 : Mat 128 128
  im_b1 : Fin 128 → EReal
  im_g1 : Fin 128 → EReal
  im_be1 : Fin 128 → EReal
  im_w2 : Mat 128 64
  im_b2 : Fin 64 → EReal
  lw1 : Fin 9 → Mat 64 4
  lb1 : Fin 9 → Fin 4 → EReal
  lw2 : Fin 9 → Fin 4 → EReal
  lb2 : Fin 9 → EReal
  bw : Fin 8 → Mat 64 64
  bb : Fin 8 → Fin 64 → EReal
  bg : Fin 8 → Fin 64 → EReal
  bbe : Fin 8 → Fin 64 → EReal
  om_w1 : Mat 64 128
  om_b1 : Fin 128 → EReal
  om_w2 : Mat 128 64
  om_b2 : Fin 64 → EReal

variable (O : Ops) (P : Params)

def preA : Mat 50000 128 := fun i j => pre (P.x i) P.im_w1 P.im_b1 j

def hinA : Mat 50000 64 := fun i j =>
  hin (preA P i) (fun k => meanOf (O.sum128 (preA P) k)) (O.var128 (preA P)) P.im_g1 P.im_be1 P.im_w2 P.im_b2 j

def h0 : Mat 50000 64 := fun i j => gated (hinA O P i) (hinA O P i) (P.lw1 0) (P.lb1 0) (P.lw2 0) (P.lb2 0) j

def aggA (l : Fin 8) (h : Mat 50000 64) : Mat 50000 64 := fun i j =>
  O.scat (fun i' j' => proj (h i') (P.bw l) j') i j + P.bb l j

def hrawA (l : Fin 8) (h : Mat 50000 64) : Mat 50000 64 := fun i j =>
  hraw (aggA O P l h i) (fun k => meanOf (O.sum64 (aggA O P l h) k)) (O.var64 (aggA O P l h)) (P.bg l) (P.bbe l) j

def hNext (l : Fin 8) (l' : Fin 9) (fu h : Mat 50000 64) : Mat 50000 64 := fun i j =>
  gated (hrawA O P l h i) (fun k => hrawA O P l h i k - fu i k) (P.lw1 l') (P.lb1 l') (P.lw2 l') (P.lb2 l') j

def layer (l : Fin 8) (l' : Fin 9) (s : Mat 50000 64 × Mat 50000 64) : Mat 50000 64 × Mat 50000 64 :=
  (fun i j => s.1 i j + hNext O P l l' s.1 s.2 i j, hNext O P l l' s.1 s.2)

def s0 : Mat 50000 64 × Mat 50000 64 := (h0 O P, h0 O P)
def s1 := layer O P 0 1 (s0 O P)
def s2 := layer O P 1 2 (s1 O P)
def s3 := layer O P 2 3 (s2 O P)
def s4 := layer O P 3 4 (s3 O P)
def s5 := layer O P 4 5 (s4 O P)
def s6 := layer O P 5 6 (s5 O P)
def s7 := layer O P 6 7 (s6 O P)
def s8 := layer O P 7 8 (s7 O P)

def result : Mat 50000 64 := fun i j => outRow ((s8 O P).1 i) P.om_w1 P.om_b1 P.om_w2 P.om_b2 j

end Cert.Spec

end
-- ==== Proof.Pack.lean ====
import proofs.«428538_j32280974197073_1_alg».proof.Proof.Spec
import Idealize.ShloMosaic.Lib.ValueIdx

noncomputable section

namespace Cert.Pack

open Idealize.ShloMosaic Idealize.ShloMosaic.ValueIdx

def mat {n d : ℕ} (A : (⟨2, ![n, d]⟩ : Shape).Idx → EReal) : Cert.Spec.Mat n d := fun i j => A (ix2 i j)

def row {d : ℕ} (A : (⟨1, ![d]⟩ : Shape).Idx → EReal) : Fin d → EReal := fun j => A (ix1 j)

def rowAt {L d : ℕ} (A : (⟨2, ![L, d]⟩ : Shape).Idx → EReal) (l : Fin L) : Fin d → EReal := fun j => A (ix2 l j)

def matAt {L n d : ℕ} (A : (⟨3, ![L, n, d]⟩ : Shape).Idx → EReal) (l : Fin L) : Cert.Spec.Mat n d :=
  fun i j => A (ix3 l i j)

def colAt {L n : ℕ} (A : (⟨3, ![L, n, 1]⟩ : Shape).Idx → EReal) (l : Fin L) : Fin n → EReal :=
  fun i => A (ix3 l i 0)

def oneAt {L : ℕ} (A : (⟨2, ![L, 1]⟩ : Shape).Idx → EReal) (l : Fin L) : EReal := A (ix2 l 0)

def unmat {n d : ℕ} (M : Cert.Spec.Mat n d) : (⟨2, ![n, d]⟩ : Shape).Idx → EReal := fun y => M (y 0) (y 1)

theorem unmat_ix2 {n d : ℕ} (M : Cert.Spec.Mat n d) (i : Fin n) (j : Fin d) : unmat M (ix2 i j) = M i j := rfl

theorem mat_unmat {n d : ℕ} (M : Cert.Spec.Mat n d) : mat (unmat M) = M := rfl

def params
    (x : (⟨2, ![50000, 128]⟩ : Shape).Idx → EReal)
    (im_w1 : (⟨2, ![128, 128]⟩ : Shape).Idx → EReal) (im_b1 im_g1 im_be1 : (⟨1, ![128]⟩ : Shape).Idx → EReal)
    (im_w2 : (⟨2, ![128, 64]⟩ : Shape).Idx → EReal) (im_b2 : (⟨1, ![64]⟩ : Shape).Idx → EReal)
    (lw1 : (⟨3, ![9, 64, 4]⟩ : Shape).Idx → EReal) (lb1 : (⟨2, ![9, 4]⟩ : Shape).Idx → EReal)
    (lw2 : (⟨3, ![9, 4, 1]⟩ : Shape).Idx → EReal) (lb2 : (⟨2, ![9, 1]⟩ : Shape).Idx → EReal)
    (bw : (⟨3, ![8, 64, 64]⟩ : Shape).Idx → EReal) (bb bg bbe : (⟨2, ![8, 64]⟩ : Shape).Idx → EReal)
    (om_w1 : (⟨2, ![64, 128]⟩ : Shape).Idx → EReal) (om_b1 : (⟨1, ![128]⟩ : Shape).Idx → EReal)
    (om_w2 : (⟨2, ![128, 64]⟩ : Shape).Idx → EReal) (om_b2 : (⟨1, ![64]⟩ : Shape).Idx → EReal) : Cert.Spec.Params where
  x := mat x
  im_w1 := mat im_w1
  im_b1 := row im_b1
  im_g1 := row im_g1
  im_be1 := row im_be1
  im_w2 := mat im_w2
  im_b2 := row im_b2
  lw1 := matAt lw1
  lb1 := rowAt lb1
  lw2 := colAt lw2
  lb2 := oneAt lb2
  bw := matAt bw
  bb := rowAt bb
  bg := rowAt bg
  bbe := rowAt bbe
  om_w1 := mat om_w1
  om_b1 := row om_b1
  om_w2 := mat om_w2
  om_b2 := row om_b2

end Cert.Pack

end
-- ==== Proof.KChain.Step.lean ====
import proofs.«428538_j32280974197073_1_alg».proof.Proof.Spec
import proofs.«428538_j32280974197073_1_alg».proof.Proof.Pack
import Idealize.ShloMosaic.Lib.ValueIdx

set_option pp.maxSteps 5000
set_option pp.deepTerms false

noncomputable section

namespace Cert.KernelIdeal.KChain

open Idealize.ShloMosaic Idealize.ShloMosaic.ValueIdx

abbrev Arr (n d : ℕ) : Type := (⟨2, ![n, d]⟩ : Shape).Idx → EReal

theorem unmat_mat {n d : ℕ} (A : Arr n d) : Cert.Pack.unmat (Cert.Pack.mat A) = A := by
  funext y
  exact congrArg A (eq_ix2 y).symm

theorem unmat_of_mat_eq {n d : ℕ} {A : Arr n d} {M : Cert.Spec.Mat n d} (h : Cert.Pack.mat A = M) : Cert.Pack.unmat M = A := by
  rw [← h, unmat_mat]

theorem mat_congr {n d : ℕ} {A B : Arr n d} (h : ∀ i j, A (ix2 i j) = B (ix2 i j)) : Cert.Pack.mat A = Cert.Pack.mat B :=
  funext fun i => funext fun j => h i j

variable (O : Cert.Spec.Ops) (P : Cert.Spec.Params)

theorem pre_step (Out X : Arr 50000 128) (W : Arr 128 128) (B : Arr 1 128)
    (hOut : ∀ i j, Out (ix2 i j) = Cert.Spec.pre (fun k => X (ix2 i k)) (fun k j => W (ix2 k j)) (fun j => B (ix2 0 j)) j)
    (hX : Cert.Pack.mat X = P.x) (hW : Cert.Pack.mat W = P.im_w1) (hB : ∀ j, B (ix2 0 j) = P.im_b1 j) :
    Cert.Pack.mat Out = Cert.Spec.preA P := by
  funext i j
  have e1 : (fun k => X (ix2 i k)) = P.x i := congrFun hX i
  have e2 : (fun k j => W (ix2 k j)) = P.im_w1 := hW
  have e3 : (fun j => B (ix2 0 j)) = P.im_b1 := funext hB
  show Out (ix2 i j) = Cert.Spec.pre (P.x i) P.im_w1 P.im_b1 j
  rw [hOut, e1, e2, e3]

abbrev gRow0 (Pre : Arr 50000 128) (Mean Var Gam Bet : Arr 1 128) (W2 : Arr 128 64) (B2 : Arr 1 64)
    (LW1 : Arr 64 4) (LB1 : Arr 1 4) (LW2 : Arr 4 1) (LB2 : Arr 1 1) (i : Fin 50000) : Fin 64 → EReal :=
  Cert.Spec.gated
    (Cert.Spec.hin (fun k => Pre (ix2 i k)) (fun k => Mean (ix2 0 k)) (fun k => Var (ix2 0 k)) (fun k => Gam (ix2 0 k))
      (fun k => Bet (ix2 0 k)) (fun k j' => W2 (ix2 k j')) (fun j' => B2 (ix2 0 j')))
    (Cert.Spec.hin (fun k => Pre (ix2 i k)) (fun k => Mean (ix2 0 k)) (fun k => Var (ix2 0 k)) (fun k => Gam (ix2 0 k))
      (fun k => Bet (ix2 0 k)) (fun k j' => W2 (ix2 k j')) (fun j' => B2 (ix2 0 j')))
    (fun k a => LW1 (ix2 k a)) (fun a => LB1 (ix2 0 a)) (fun a => LW2 (ix2 a 0)) (LB2 (ix2 0 0))

theorem gRow0_eq (Pre : Arr 50000 128) (Mean Var Gam Bet : Arr 1 128) (W2 : Arr 128 64) (B2 : Arr 1 64)
    (LW1 : Arr 64 4) (LB1 : Arr 1 4) (LW2 : Arr 4 1) (LB2 : Arr 1 1)
    (hPre : Cert.Pack.mat Pre = Cert.Spec.preA P)
    (hMean : ∀ k, Mean (ix2 0 k) = Cert.Spec.meanOf (O.sum128 (Cert.Spec.preA P) k))
    (hVar : ∀ k, Var (ix2 0 k) = O.var128 (Cert.Spec.preA P) k)
    (hGam : ∀ k, Gam (ix2 0 k) = P.im_g1 k) (hBet : ∀ k, Bet (ix2 0 k) = P.im_be1 k)
    (hW2 : Cert.Pack.mat W2 = P.im_w2) (hB2 : ∀ j, B2 (ix2 0 j) = P.im_b2 j)
    (hLW1 : Cert.Pack.mat LW1 = P.lw1 0) (hLB1 : ∀ a, LB1 (ix2 0 a) = P.lb1 0 a)
    (hLW2 : ∀ a, LW2 (ix2 a 0) = P.lw2 0 a) (hLB2 : LB2 (ix2 0 0) = P.lb2 0) (i : Fin 50000) :
    gRow0 Pre Mean Var Gam Bet W2 B2 LW1 LB1 LW2 LB2 i = Cert.Spec.h0 O P i := by
  have e0 : (fun k => Pre (ix2 i k)) = Cert.Spec.preA P i := congrFun hPre i
  have e1 : (fun k => Mean (ix2 0 k)) = fun k => Cert.Spec.meanOf (O.sum128 (Cert.Spec.preA P) k) := funext hMean
  have e2 : (fun k => Var (ix2 0 k)) = O.var128 (Cert.Spec.preA P) := funext hVar
  have e3 : (fun k => Gam (ix2 0 k)) = P.im_g1 := funext hGam
  have e4 : (fun k => Bet (ix2 0 k)) = P.im_be1 := funext hBet
  have e5 : (fun k j' => W2 (ix2 k j')) = P.im_w2 := hW2
  have e6 : (fun j' => B2 (ix2 0 j')) = P.im_b2 := funext hB2
  have e7 : (fun k a => LW1 (ix2 k a)) = P.lw1 0 := hLW1
  have e8 : (fun a => LB1 (ix2 0 a)) = P.lb1 0 := funext hLB1
  have e9 : (fun a => LW2 (ix2 a 0)) = P.lw2 0 := funext hLW2
  show Cert.Spec.gated
      (Cert.Spec.hin (fun k => Pre (ix2 i k)) (fun k => Mean (ix2 0 k)) (fun k => Var (ix2 0 k)) (fun k => Gam (ix2 0 k))
        (fun k => Bet (ix2 0 k)) (fun k j' => W2 (ix2 k j')) (fun j' => B2 (ix2 0 j')))
      (Cert.Spec.hin (fun k => Pre (ix2 i k)) (fun k => Mean (ix2 0 k)) (fun k => Var (ix2 0 k)) (fun k => Gam (ix2 0 k))
        (fun k => Bet (ix2 0 k)) (fun k j' => W2 (ix2 k j')) (fun j' => B2 (ix2 0 j')))
      (fun k a => LW1 (ix2 k a)) (fun a => LB1 (ix2 0 a)) (fun a => LW2 (ix2 a 0)) (LB2 (ix2 0 0)) = Cert.Spec.h0 O P i
  rw [e0, e1, e2, e3, e4, e5, e6, e7, e8, e9, hLB2]
  rfl

theorem s0_step (G Pj : Arr 50000 64) (Pre : Arr 50000 128) (Mean Var Gam Bet : Arr 1 128) (W2 : Arr 128 64) (B2 : Arr 1 64)
    (LW1 : Arr 64 4) (LB1 : Arr 1 4) (LW2 : Arr 4 1) (LB2 : Arr 1 1) (BW : Arr 64 64)
    (hG : ∀ i j, G (ix2 i j) = gRow0 Pre Mean Var Gam Bet W2 B2 LW1 LB1 LW2 LB2 i j)
    (hPj : ∀ i j, Pj (ix2 i j)
      = Cert.Spec.proj (fun k => gRow0 Pre Mean Var Gam Bet W2 B2 LW1 LB1 LW2 LB2 i k) (fun k j' => BW (ix2 k j')) j)
    (hPre : Cert.Pack.mat Pre = Cert.Spec.preA P)
    (hMean : ∀ k, Mean (ix2 0 k) = Cert.Spec.meanOf (O.sum128 (Cert.Spec.preA P) k))
    (hVar : ∀ k, Var (ix2 0 k) = O.var128 (Cert.Spec.preA P) k)
    (hGam : ∀ k, Gam (ix2 0 k) = P.im_g1 k) (hBet : ∀ k, Bet (ix2 0 k) = P.im_be1 k)
    (hW2 : Cert.Pack.mat W2 = P.im_w2) (hB2 : ∀ j, B2 (ix2 0 j) = P.im_b2 j)
    (hLW1 : Cert.Pack.mat LW1 = P.lw1 0) (hLB1 : ∀ a, LB1 (ix2 0 a) = P.lb1 0 a)
    (hLW2 : ∀ a, LW2 (ix2 a 0) = P.lw2 0 a) (hLB2 : LB2 (ix2 0 0) = P.lb2 0)
    (hBW : Cert.Pack.mat BW = P.bw 0) :
    Cert.Pack.mat G = (Cert.Spec.s0 O P).1
      ∧ Cert.Pack.mat Pj = fun i j => Cert.Spec.proj ((Cert.Spec.s0 O P).2 i) (P.bw 0) j := by
  have hrow := gRow0_eq O P Pre Mean Var Gam Bet W2 B2 LW1 LB1 LW2 LB2 hPre hMean hVar hGam hBet hW2 hB2 hLW1 hLB1 hLW2 hLB2
  have eBW : (fun k j' => BW (ix2 k j')) = P.bw 0 := hBW
  refine ⟨?_, ?_⟩
  · funext i j
    show G (ix2 i j) = Cert.Spec.h0 O P i j
    rw [hG, hrow]
  · funext i j
    show Pj (ix2 i j) = Cert.Spec.proj (Cert.Spec.h0 O P i) (P.bw 0) j
    rw [hPj, eBW]
    show Cert.Spec.proj (gRow0 Pre Mean Var Gam Bet W2 B2 LW1 LB1 LW2 LB2 i) (P.bw 0) j = _
    rw [hrow]

theorem agg_step (l : Fin 8) (h : Cert.Spec.Mat 50000 64) (A0 S : Arr 50000 64) (bias : Fin 64 → EReal)
    (hA : ∀ i j, A0 (ix2 i j) = S (ix2 i j) + bias j)
    (hS : Cert.Pack.mat S = O.scat (fun i' j' => Cert.Spec.proj (h i') (P.bw l) j'))
    (hB : ∀ j, bias j = P.bb l j) : Cert.Pack.mat A0 = Cert.Spec.aggA O P l h := by
  funext i j
  show A0 (ix2 i j) = O.scat (fun i' j' => Cert.Spec.proj (h i') (P.bw l) j') i j + P.bb l j
  rw [hA, hB, ← hS]
  rfl

abbrev gRow (A0 : Arr 50000 64) (A1 A2 A3 A4 : Arr 1 64) (A5 : Arr 50000 64) (A6 : Arr 64 4) (A7 : Arr 1 4)
    (A8 : Arr 4 1) (A9 : Arr 1 1) (r : Fin 50000) : Fin 64 → EReal :=
  Cert.Spec.gated
    (fun k => Cert.Spec.hraw (fun k' => A0 (ix2 r k')) (fun k' => A1 (ix2 (0 : Fin 1) k')) (fun k' => A2 (ix2 (0 : Fin 1) k'))
      (fun k' => A3 (ix2 (0 : Fin 1) k')) (fun k' => A4 (ix2 (0 : Fin 1) k')) k)
    (fun k => Cert.Spec.hraw (fun k' => A0 (ix2 r k')) (fun k' => A1 (ix2 (0 : Fin 1) k')) (fun k' => A2 (ix2 (0 : Fin 1) k'))
      (fun k' => A3 (ix2 (0 : Fin 1) k')) (fun k' => A4 (ix2 (0 : Fin 1) k')) k - A5 (ix2 r k))
    (fun k a => A6 (ix2 k a)) (fun a => A7 (ix2 (0 : Fin 1) a)) (fun a => A8 (ix2 a (0 : Fin 1))) (A9 (ix2 (0 : Fin 1) (0 : Fin 1)))

theorem gRow_eq (l : Fin 8) (l' : Fin 9) (fu h : Cert.Spec.Mat 50000 64)
    (A0 : Arr 50000 64) (A1 A2 A3 A4 : Arr 1 64) (A5 : Arr 50000 64) (A6 : Arr 64 4) (A7 : Arr 1 4) (A8 : Arr 4 1) (A9 : Arr 1 1)
    (h0 : Cert.Pack.mat A0 = Cert.Spec.aggA O P l h)
    (h1 : ∀ k, A1 (ix2 0 k) = Cert.Spec.meanOf (O.sum64 (Cert.Spec.aggA O P l h) k))
    (h2 : ∀ k, A2 (ix2 0 k) = O.var64 (Cert.Spec.aggA O P l h) k)
    (h3 : ∀ k, A3 (ix2 0 k) = P.bg l k) (h4 : ∀ k, A4 (ix2 0 k) = P.bbe l k)
    (h5 : Cert.Pack.mat A5 = fu)
    (h6 : Cert.Pack.mat A6 = P.lw1 l') (h7 : ∀ a, A7 (ix2 0 a) = P.lb1 l' a)
    (h8 : ∀ a, A8 (ix2 a 0) = P.lw2 l' a) (h9 : A9 (ix2 0 0) = P.lb2 l') (r : Fin 50000) :
    gRow A0 A1 A2 A3 A4 A5 A6 A7 A8 A9 r = Cert.Spec.hNext O P l l' fu h r := by
  have e0 : (fun k' => A0 (ix2 r k')) = Cert.Spec.aggA O P l h r := congrFun h0 r
  have e1 : (fun k' => A1 (ix2 (0 : Fin 1) k')) = fun k => Cert.Spec.meanOf (O.sum64 (Cert.Spec.aggA O P l h) k) := funext h1
  have e2 : (fun k' => A2 (ix2 (0 : Fin 1) k')) = O.var64 (Cert.Spec.aggA O P l h) := funext h2
  have e3 : (fun k' => A3 (ix2 (0 : Fin 1) k')) = P.bg l := funext h3
  have e4 : (fun k' => A4 (ix2 (0 : Fin 1) k')) = P.bbe l := funext h4
  have e5 : ∀ k, A5 (ix2 r k) = fu r k := fun k => congrFun (congrFun h5 r) k
  have e6 : (fun k a => A6 (ix2 k a)) = P.lw1 l' := h6
  have e7 : (fun a => A7 (ix2 (0 : Fin 1) a)) = P.lb1 l' := funext h7
  have e8 : (fun a => A8 (ix2 a (0 : Fin 1))) = P.lw2 l' := funext h8
  show Cert.Spec.gated
      (fun k => Cert.Spec.hraw (fun k' => A0 (ix2 r k')) (fun k' => A1 (ix2 (0 : Fin 1) k')) (fun k' => A2 (ix2 (0 : Fin 1) k'))
        (fun k' => A3 (ix2 (0 : Fin 1) k')) (fun k' => A4 (ix2 (0 : Fin 1) k')) k)
      (fun k => Cert.Spec.hraw (fun k' => A0 (ix2 r k')) (fun k' => A1 (ix2 (0 : Fin 1) k')) (fun k' => A2 (ix2 (0 : Fin 1) k'))
        (fun k' => A3 (ix2 (0 : Fin 1) k')) (fun k' => A4 (ix2 (0 : Fin 1) k')) k - A5 (ix2 r k))
      (fun k a => A6 (ix2 k a)) (fun a => A7 (ix2 (0 : Fin 1) a)) (fun a => A8 (ix2 a (0 : Fin 1))) (A9 (ix2 (0 : Fin 1) (0 : Fin 1)))
    = Cert.Spec.hNext O P l l' fu h r
  rw [e0, e1, e2, e3, e4, e6, e7, e8, h9]
  simp only [e5]
  rfl

theorem fused_step (l : Fin 8) (l' : Fin 9) (s : Cert.Spec.Mat 50000 64 × Cert.Spec.Mat 50000 64)
    (Fn : Arr 50000 64)
    (A0 : Arr 50000 64) (A1 A2 A3 A4 : Arr 1 64) (A5 : Arr 50000 64) (A6 : Arr 64 4) (A7 : Arr 1 4) (A8 : Arr 4 1) (A9 : Arr 1 1)
    (hF : ∀ r j, Fn (ix2 r j) = A5 (ix2 r j) + gRow A0 A1 A2 A3 A4 A5 A6 A7 A8 A9 r j)
    (h0 : Cert.Pack.mat A0 = Cert.Spec.aggA O P l s.2)
    (h1 : ∀ k, A1 (ix2 0 k) = Cert.Spec.meanOf (O.sum64 (Cert.Spec.aggA O P l s.2) k))
    (h2 : ∀ k, A2 (ix2 0 k) = O.var64 (Cert.Spec.aggA O P l s.2) k)
    (h3 : ∀ k, A3 (ix2 0 k) = P.bg l k) (h4 : ∀ k, A4 (ix2 0 k) = P.bbe l k)
    (h5 : Cert.Pack.mat A5 = s.1)
    (h6 : Cert.Pack.mat A6 = P.lw1 l') (h7 : ∀ a, A7 (ix2 0 a) = P.lb1 l' a)
    (h8 : ∀ a, A8 (ix2 a 0) = P.lw2 l' a) (h9 : A9 (ix2 0 0) = P.lb2 l') :
    Cert.Pack.mat Fn = (Cert.Spec.layer O P l l' s).1 := by
  funext r j
  show Fn (ix2 r j) = s.1 r j + Cert.Spec.hNext O P l l' s.1 s.2 r j
  rw [hF, gRow_eq O P l l' s.1 s.2 A0 A1 A2 A3 A4 A5 A6 A7 A8 A9 h0 h1 h2 h3 h4 h5 h6 h7 h8 h9 r]
  exact congrArg (· + Cert.Spec.hNext O P l l' s.1 s.2 r j) (congrFun (congrFun h5 r) j)

theorem proj_step (l : Fin 8) (l' : Fin 9) (ln : Fin 8) (s : Cert.Spec.Mat 50000 64 × Cert.Spec.Mat 50000 64)
    (Mn : Arr 50000 64)
    (A0 : Arr 50000 64) (A1 A2 A3 A4 : Arr 1 64) (A5 : Arr 50000 64) (A6 : Arr 64 4) (A7 : Arr 1 4) (A8 : Arr 4 1) (A9 : Arr 1 1)
    (A10 : Arr 64 64)
    (hM : ∀ r j, Mn (ix2 r j)
      = Cert.Spec.proj (fun k => gRow A0 A1 A2 A3 A4 A5 A6 A7 A8 A9 r k) (fun k j' => A10 (ix2 k j')) j)
    (h0 : Cert.Pack.mat A0 = Cert.Spec.aggA O P l s.2)
    (h1 : ∀ k, A1 (ix2 0 k) = Cert.Spec.meanOf (O.sum64 (Cert.Spec.aggA O P l s.2) k))
    (h2 : ∀ k, A2 (ix2 0 k) = O.var64 (Cert.Spec.aggA O P l s.2) k)
    (h3 : ∀ k, A3 (ix2 0 k) = P.bg l k) (h4 : ∀ k, A4 (ix2 0 k) = P.bbe l k)
    (h5 : Cert.Pack.mat A5 = s.1)
    (h6 : Cert.Pack.mat A6 = P.lw1 l') (h7 : ∀ a, A7 (ix2 0 a) = P.lb1 l' a)
    (h8 : ∀ a, A8 (ix2 a 0) = P.lw2 l' a) (h9 : A9 (ix2 0 0) = P.lb2 l')
    (h10 : Cert.Pack.mat A10 = P.bw ln) :
    Cert.Pack.mat Mn = fun i j => Cert.Spec.proj ((Cert.Spec.layer O P l l' s).2 i) (P.bw ln) j := by
  have e10 : (fun k j' => A10 (ix2 k j')) = P.bw ln := h10
  funext r j
  show Mn (ix2 r j) = Cert.Spec.proj (Cert.Spec.hNext O P l l' s.1 s.2 r) (P.bw ln) j
  rw [hM, e10]
  show Cert.Spec.proj (gRow A0 A1 A2 A3 A4 A5 A6 A7 A8 A9 r) (P.bw ln) j = _
  rw [gRow_eq O P l l' s.1 s.2 A0 A1 A2 A3 A4 A5 A6 A7 A8 A9 h0 h1 h2 h3 h4 h5 h6 h7 h8 h9 r]

theorem s0_link (sum : Arr 50000 128 → Fin 128 → EReal) (var : Arr 50000 128 → Fin 128 → EReal)
    (hOsum : ∀ M k, O.sum128 M k = sum (Cert.Pack.unmat M) k) (hOvar : ∀ M k, O.var128 M k = var (Cert.Pack.unmat M) k)
    (G Pj : Arr 50000 64) (Pre : Arr 50000 128) (Mean Var Gam Bet : Arr 1 128) (W2 : Arr 128 64) (B2 : Arr 1 64)
    (LW1 : Arr 64 4) (LB1 : Arr 1 4) (LW2 : Arr 4 1) (LB2 : Arr 1 1) (BW : Arr 64 64)
    (hG : ∀ i j, G (ix2 i j) = gRow0 Pre Mean Var Gam Bet W2 B2 LW1 LB1 LW2 LB2 i j)
    (hPj : ∀ i j, Pj (ix2 i j)
      = Cert.Spec.proj (fun k => gRow0 Pre Mean Var Gam Bet W2 B2 LW1 LB1 LW2 LB2 i k) (fun k j' => BW (ix2 k j')) j)
    (hPre : Cert.Pack.mat Pre = Cert.Spec.preA P)
    (hMean : ∀ k, Mean (ix2 0 k) = Cert.Spec.meanOf (sum Pre k))
    (hVar : ∀ k, Var (ix2 0 k) = var Pre k)
    (hGam : ∀ k, Gam (ix2 0 k) = P.im_g1 k) (hBet : ∀ k, Bet (ix2 0 k) = P.im_be1 k)
    (hW2 : Cert.Pack.mat W2 = P.im_w2) (hB2 : ∀ j, B2 (ix2 0 j) = P.im_b2 j)
    (hLW1 : Cert.Pack.mat LW1 = P.lw1 0) (hLB1 : ∀ a, LB1 (ix2 0 a) = P.lb1 0 a)
    (hLW2 : ∀ a, LW2 (ix2 a 0) = P.lw2 0 a) (hLB2 : LB2 (ix2 0 0) = P.lb2 0)
    (hBW : Cert.Pack.mat BW = P.bw 0) :
    Cert.Pack.mat G = (Cert.Spec.s0 O P).1
      ∧ Cert.Pack.mat Pj = fun i j => Cert.Spec.proj ((Cert.Spec.s0 O P).2 i) (P.bw 0) j := by
  have hu : Cert.Pack.unmat (Cert.Spec.preA P) = Pre := unmat_of_mat_eq hPre
  refine s0_step O P G Pj Pre Mean Var Gam Bet W2 B2 LW1 LB1 LW2 LB2 BW hG hPj hPre (fun k => ?_) (fun k => ?_)
    hGam hBet hW2 hB2 hLW1 hLB1 hLW2 hLB2 hBW
  · rw [hMean k, hOsum, hu]
  · rw [hVar k, hOvar, hu]

theorem agg_link (l : Fin 8) (h : Cert.Spec.Mat 50000 64)
    (scat : Arr 50000 64 → Arr 50000 64) (sum : Arr 50000 64 → Fin 64 → EReal) (var : Arr 50000 64 → Fin 64 → EReal)
    (hOscat : ∀ M, O.scat M = Cert.Pack.mat (scat (Cert.Pack.unmat M)))
    (hOsum : ∀ M k, O.sum64 M k = sum (Cert.Pack.unmat M) k) (hOvar : ∀ M k, O.var64 M k = var (Cert.Pack.unmat M) k)
    (Mprev : Arr 50000 64) (hpj : Cert.Pack.mat Mprev = fun i j => Cert.Spec.proj (h i) (P.bw l) j)
    (A0 : Arr 50000 64) (A1 A2 : Arr 1 64)
    (hA0 : ∀ i j, A0 (ix2 i j) = scat Mprev (ix2 i j) + P.bb l j)
    (hA1 : ∀ k, A1 (ix2 0 k) = Cert.Spec.meanOf (sum A0 k))
    (hA2 : ∀ k, A2 (ix2 0 k) = var A0 k) :
    Cert.Pack.mat A0 = Cert.Spec.aggA O P l h
      ∧ (∀ k, A1 (ix2 0 k) = Cert.Spec.meanOf (O.sum64 (Cert.Spec.aggA O P l h) k))
      ∧ (∀ k, A2 (ix2 0 k) = O.var64 (Cert.Spec.aggA O P l h) k) := by
  have h0 : Cert.Pack.mat A0 = Cert.Spec.aggA O P l h :=
    agg_step O P l h A0 (scat Mprev) (P.bb l) hA0 (by rw [hOscat, unmat_of_mat_eq hpj]) (fun _ => rfl)
  have hu : Cert.Pack.unmat (Cert.Spec.aggA O P l h) = A0 := unmat_of_mat_eq h0
  refine ⟨h0, fun k => ?_, fun k => ?_⟩
  · rw [hA1 k, hOsum, hu]
  · rw [hA2 k, hOvar, hu]

theorem layer_link (l : Fin 8) (l' : Fin 9) (ln : Fin 8) (s : Cert.Spec.Mat 50000 64 × Cert.Spec.Mat 50000 64)
    (scat : Arr 50000 64 → Arr 50000 64) (sum : Arr 50000 64 → Fin 64 → EReal) (var : Arr 50000 64 → Fin 64 → EReal)
    (hOscat : ∀ M, O.scat M = Cert.Pack.mat (scat (Cert.Pack.unmat M)))
    (hOsum : ∀ M k, O.sum64 M k = sum (Cert.Pack.unmat M) k) (hOvar : ∀ M k, O.var64 M k = var (Cert.Pack.unmat M) k)
    (Mprev : Arr 50000 64) (hpj : Cert.Pack.mat Mprev = fun i j => Cert.Spec.proj (s.2 i) (P.bw l) j)
    (Fn Mn : Arr 50000 64)
    (A0 : Arr 50000 64) (A1 A2 A3 A4 : Arr 1 64) (A5 : Arr 50000 64) (A6 : Arr 64 4) (A7 : Arr 1 4) (A8 : Arr 4 1) (A9 : Arr 1 1)
    (A10 : Arr 64 64)
    (hF : ∀ r j, Fn (ix2 r j) = A5 (ix2 r j) + gRow A0 A1 A2 A3 A4 A5 A6 A7 A8 A9 r j)
    (hM : ∀ r j, Mn (ix2 r j)
      = Cert.Spec.proj (fun k => gRow A0 A1 A2 A3 A4 A5 A6 A7 A8 A9 r k) (fun k j' => A10 (ix2 k j')) j)
    (hA0 : ∀ i j, A0 (ix2 i j) = scat Mprev (ix2 i j) + P.bb l j)
    (hA1 : ∀ k, A1 (ix2 0 k) = Cert.Spec.meanOf (sum A0 k))
    (hA2 : ∀ k, A2 (ix2 0 k) = var A0 k)
    (h3 : ∀ k, A3 (ix2 0 k) = P.bg l k) (h4 : ∀ k, A4 (ix2 0 k) = P.bbe l k)
    (h5 : Cert.Pack.mat A5 = s.1)
    (h6 : Cert.Pack.mat A6 = P.lw1 l') (h7 : ∀ a, A7 (ix2 0 a) = P.lb1 l' a)
    (h8 : ∀ a, A8 (ix2 a 0) = P.lw2 l' a) (h9 : A9 (ix2 0 0) = P.lb2 l')
    (h10 : Cert.Pack.mat A10 = P.bw ln) :
    Cert.Pack.mat Fn = (Cert.Spec.layer O P l l' s).1
      ∧ Cert.Pack.mat Mn = fun i j => Cert.Spec.proj ((Cert.Spec.layer O P l l' s).2 i) (P.bw ln) j := by
  obtain ⟨h0, h1, h2⟩ := agg_link O P l s.2 scat sum var hOscat hOsum hOvar Mprev hpj A0 A1 A2 hA0 hA1 hA2
  exact ⟨fused_step O P l l' s Fn A0 A1 A2 A3 A4 A5 A6 A7 A8 A9 hF h0 h1 h2 h3 h4 h5 h6 h7 h8 h9,
    proj_step O P l l' ln s Mn A0 A1 A2 A3 A4 A5 A6 A7 A8 A9 A10 hM h0 h1 h2 h3 h4 h5 h6 h7 h8 h9 h10⟩

theorem last_link (l : Fin 8) (l' : Fin 9) (s : Cert.Spec.Mat 50000 64 × Cert.Spec.Mat 50000 64)
    (scat : Arr 50000 64 → Arr 50000 64) (sum : Arr 50000 64 → Fin 64 → EReal) (var : Arr 50000 64 → Fin 64 → EReal)
    (hOscat : ∀ M, O.scat M = Cert.Pack.mat (scat (Cert.Pack.unmat M)))
    (hOsum : ∀ M k, O.sum64 M k = sum (Cert.Pack.unmat M) k) (hOvar : ∀ M k, O.var64 M k = var (Cert.Pack.unmat M) k)
    (Mprev : Arr 50000 64) (hpj : Cert.Pack.mat Mprev = fun i j => Cert.Spec.proj (s.2 i) (P.bw l) j)
    (Fn : Arr 50000 64)
    (A0 : Arr 50000 64) (A1 A2 A3 A4 : Arr 1 64) (A5 : Arr 50000 64) (A6 : Arr 64 4) (A7 : Arr 1 4) (A8 : Arr 4 1) (A9 : Arr 1 1)
    (hF : ∀ r j, Fn (ix2 r j) = A5 (ix2 r j) + gRow A0 A1 A2 A3 A4 A5 A6 A7 A8 A9 r j)
    (hA0 : ∀ i j, A0 (ix2 i j) = scat Mprev (ix2 i j) + P.bb l j)
    (hA1 : ∀ k, A1 (ix2 0 k) = Cert.Spec.meanOf (sum A0 k))
    (hA2 : ∀ k, A2 (ix2 0 k) = var A0 k)
    (h3 : ∀ k, A3 (ix2 0 k) = P.bg l k) (h4 : ∀ k, A4 (ix2 0 k) = P.bbe l k)
    (h5 : Cert.Pack.mat A5 = s.1)
    (h6 : Cert.Pack.mat A6 = P.lw1 l') (h7 : ∀ a, A7 (ix2 0 a) = P.lb1 l' a)
    (h8 : ∀ a, A8 (ix2 a 0) = P.lw2 l' a) (h9 : A9 (ix2 0 0) = P.lb2 l') :
    Cert.Pack.mat Fn = (Cert.Spec.layer O P l l' s).1 := by
  obtain ⟨h0, h1, h2⟩ := agg_link O P l s.2 scat sum var hOscat hOsum hOvar Mprev hpj A0 A1 A2 hA0 hA1 hA2
  exact fused_step O P l l' s Fn A0 A1 A2 A3 A4 A5 A6 A7 A8 A9 hF h0 h1 h2 h3 h4 h5 h6 h7 h8 h9

theorem out_step (Z Fu : Arr 50000 64) (W1 : Arr 64 128) (B1 : Arr 1 128) (W2 : Arr 128 64) (B2 : Arr 1 64)
    (hZ : ∀ i j, Z (ix2 i j) = Cert.Spec.outRow (fun k => Fu (ix2 i k)) (fun k a => W1 (ix2 k a)) (fun a => B1 (ix2 0 a))
      (fun a j => W2 (ix2 a j)) (fun j => B2 (ix2 0 j)) j)
    (hFu : Cert.Pack.mat Fu = (Cert.Spec.s8 O P).1) (hW1 : Cert.Pack.mat W1 = P.om_w1) (hB1 : ∀ a, B1 (ix2 0 a) = P.om_b1 a)
    (hW2 : Cert.Pack.mat W2 = P.om_w2) (hB2 : ∀ j, B2 (ix2 0 j) = P.om_b2 j) :
    Cert.Pack.mat Z = Cert.Spec.result O P := by
  funext i j
  have e0 : (fun k => Fu (ix2 i k)) = (Cert.Spec.s8 O P).1 i := congrFun hFu i
  have e1 : (fun k a => W1 (ix2 k a)) = P.om_w1 := hW1
  have e2 : (fun a => B1 (ix2 0 a)) = P.om_b1 := funext hB1
  have e3 : (fun a j => W2 (ix2 a j)) = P.om_w2 := hW2
  have e4 : (fun j => B2 (ix2 0 j)) = P.om_b2 := funext hB2
  show Z (ix2 i j) = Cert.Spec.outRow ((Cert.Spec.s8 O P).1 i) P.om_w1 P.om_b1 P.om_w2 P.om_b2 j
  rw [hZ, e0, e1, e2, e3, e4]

end Cert.KernelIdeal.KChain

end
-- ==== Proof.KHost.Defs.lean ====
import proofs.«428538_j32280974197073_1_alg».proof.Proof.Spec
import proofs.«428538_j32280974197073_1_alg».proof.Proof.Gen.KernelIdeal.Launch
import Idealize.ShloMosaic.Lib.StableHlo.Run
import Idealize.ShloMosaic.Lib.ValueIdx
import Idealize.ShloMosaic.Lib.ValueLayout

noncomputable section

namespace Cert.KernelIdeal.KHost

open Cert.KernelIdeal Cert.KernelIdeal.Gen
open Idealize.ShloMosaic Idealize.ShloMosaic.ValueIdx

def srcOf (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

def dstOf (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

def normIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

def degOf (dst : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

def dinvOf (dst : IVec S850000 32) : FVec Ideal S50000 .f32 :=
  select (cmpf .ogt (degOf dst) (broadcastInDim S50000 ![] bcast_S_S50000 (constant S_ .f32 0x00000000#32)))
    (Host.rsqrt (maximumf (degOf dst) (broadcastInDim S50000 ![] bcast_S_S50000 (constant S_ .f32 0x3F800000#32))))
    (broadcastInDim S50000 ![] bcast_S_S50000 (constant S_ .f32 0x00000000#32))

def enormOf (ei : IVec S2x800000 32) : FVec Ideal S850000x1 .f32 :=
  broadcastInDim S850000x1 ![0] bcast_S850000_S850000x1_0
    (mulf (Host.gather gather_S50000_S850000x1_S850000_n_0_n_n_0_1_1 (dinvOf (dstOf ei)) (normIdx (srcOf ei)))
      (Host.gather gather_S50000_S850000x1_S850000_n_0_n_n_0_1_1 (dinvOf (dstOf ei)) (normIdx (dstOf ei))))

def scatK (m : FVec Ideal S50000x64 .f32) (src : IVec S850000 32) (enorm : FVec Ideal S850000x1 .f32) (dst : IVec S850000 32) :
    FVec Ideal S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 m (normIdx src))
      (broadcastInDim S850000x64 ![0, 1] bcast_S850000x1_S850000x64_0_1 enorm))

def sum128K (a : FVec Ideal S50000x128 .f32) : FVec Ideal S128 .f32 :=
  Host.reduceAdd a (constant S_ .f32 0x00000000#32) reducesTo_S50000x128_S128_d0 h_S_

def sum64K (a : FVec Ideal S50000x64 .f32) : FVec Ideal S64 .f32 :=
  Host.reduceAdd a (constant S_ .f32 0x00000000#32) reducesTo_S50000x64_S64_d0 h_S_

def var128K (a : FVec Ideal S50000x128 .f32) : FVec Ideal S1x128 .f32 :=
  select
    (broadcastInDim S1x128 ![] bcast_S_S1x128
      (cmpf (F := Ideal) .ogt (subf (constant S_ .f32 0x47435000#32) (sitofp .f32 (constantI S_ 32 0#32))) (constant S_ .f32 0x00000000#32)))
    (Host.divf
      (broadcastInDim S1x128 ![1] bcast_S128_S1x128_1
        (Host.reduceAdd
          (mulf
            (subf a (broadcastInDim S50000x128 ![0, 1] bcast_S1x128_S50000x128_0_1
              (Host.divf (broadcastInDim S1x128 ![1] bcast_S128_S1x128_1 (sum128K a))
                (broadcastInDim S1x128 ![] bcast_S_S1x128 (constant S_ .f32 0x47435000#32)))))
            (subf a (broadcastInDim S50000x128 ![0, 1] bcast_S1x128_S50000x128_0_1
              (Host.divf (broadcastInDim S1x128 ![1] bcast_S128_S1x128_1 (sum128K a))
                (broadcastInDim S1x128 ![] bcast_S_S1x128 (constant S_ .f32 0x47435000#32))))))
          (constant S_ .f32 0x00000000#32) reducesTo_S50000x128_S128_d0 h_S_))
      (broadcastInDim S1x128 ![] bcast_S_S1x128
        (subf (constant S_ .f32 0x47435000#32) (sitofp .f32 (constantI S_ 32 0#32)))))
    (broadcastInDim S1x128 ![] bcast_S_S1x128 (constant S_ .f32 0x7FC00000#32))

def var64K (a : FVec Ideal S50000x64 .f32) : FVec Ideal S1x64 .f32 :=
  select
    (broadcastInDim S1x64 ![] bcast_S_S1x64
      (cmpf (F := Ideal) .ogt (subf (constant S_ .f32 0x47435000#32) (sitofp .f32 (constantI S_ 32 0#32))) (constant S_ .f32 0x00000000#32)))
    (Host.divf
      (broadcastInDim S1x64 ![1] bcast_S64_S1x64_1
        (Host.reduceAdd
          (mulf
            (subf a (broadcastInDim S50000x64 ![0, 1] bcast_S1x64_S50000x64_0_1
              (Host.divf (broadcastInDim S1x64 ![1] bcast_S64_S1x64_1 (sum64K a))
                (broadcastInDim S1x64 ![] bcast_S_S1x64 (constant S_ .f32 0x47435000#32)))))
            (subf a (broadcastInDim S50000x64 ![0, 1] bcast_S1x64_S50000x64_0_1
              (Host.divf (broadcastInDim S1x64 ![1] bcast_S64_S1x64_1 (sum64K a))
                (broadcastInDim S1x64 ![] bcast_S_S1x64 (constant S_ .f32 0x47435000#32))))))
          (constant S_ .f32 0x00000000#32) reducesTo_S50000x64_S64_d0 h_S_))
      (broadcastInDim S1x64 ![] bcast_S_S1x64
        (subf (constant S_ .f32 0x47435000#32) (sitofp .f32 (constantI S_ 32 0#32)))))
    (broadcastInDim S1x64 ![] bcast_S_S1x64 (constant S_ .f32 0x7FC00000#32))

section Reads
variable {α : Type}

theorem stack3_entry {n a b : ℕ} (l : Fin n) (x : (⟨3, ![n, a, b]⟩ : Shape).Idx → α)
    (hs : (⟨3, ![n, a, b]⟩ : Shape).Slices ![l.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![l.val, 0, 0] x hs) hc (ix2 i j) = x (ix3 l i j) :=
  (shapeCast_1ab_ab_apply _ hc i j).trans
    (extractStridedSlice_apply _ x hs (ix3 (0 : Fin 1) i j) (ix3 l i j) fun ax => by
      match ax with
      | ⟨0, _⟩ => exact (Nat.add_zero _).symm
      | ⟨1, _⟩ => exact (Nat.zero_add _).symm
      | ⟨2, _⟩ => exact (Nat.zero_add _).symm)

theorem stack2_row {n a : ℕ} (l : Fin n) (x : (⟨2, ![n, a]⟩ : Shape).Idx → α)
    (hs : (⟨2, ![n, a]⟩ : Shape).Slices ![l.val, 0] ⟨2, ![1, a]⟩) (u : Fin 1) (i : Fin a) :
    extractStridedSlice ⟨2, ![1, a]⟩ ![l.val, 0] x hs (ix2 u i) = x (ix2 l i) :=
  slice2_axis0_apply l.val x hs u i l (by have := u.isLt; omega)

theorem row_roundtrip {a : ℕ} (y : (⟨2, ![1, a]⟩ : Shape).Idx → α) (h1 : (⟨2, ![1, a]⟩ : Shape).ShapeCasts ⟨1, ![a]⟩)
    (h2 : (⟨1, ![a]⟩ : Shape).ShapeCasts ⟨2, ![1, a]⟩) (u : Fin 1) (i : Fin a) :
    shapeCast ⟨2, ![1, a]⟩ (shapeCast ⟨1, ![a]⟩ y h1) h2 (ix2 u i) = y (ix2 (0 : Fin 1) i) :=
  (shapeCast_a_1a_apply _ h2 u i).trans (shapeCast_1a_a_apply y h1 i)

theorem bcast_b_1b {b : ℕ} (v : (⟨1, ![b]⟩ : Shape).Idx → α) (h : (⟨1, ![b]⟩ : Shape).BroadcastsInDim ⟨2, ![1, b]⟩ ![1])
    (u : Fin 1) (k : Fin b) : broadcastInDim ⟨2, ![1, b]⟩ ![1] h v (ix2 u k) = v (ix1 k) :=
  broadcastInDim_apply _ h v _ _ fun ax => by
    match ax with
    | ⟨0, _⟩ =>
      show k.val = if b = 1 then 0 else k.val
      split
      · have := k.isLt; omega
      · rfl

theorem bcast_1b_ab {a b : ℕ} (v : (⟨2, ![1, b]⟩ : Shape).Idx → α) (h : (⟨2, ![1, b]⟩ : Shape).BroadcastsInDim ⟨2, ![a, b]⟩ ![0, 1])
    (i : Fin a) (k : Fin b) : broadcastInDim ⟨2, ![a, b]⟩ ![0, 1] h v (ix2 i k) = v (ix2 (0 : Fin 1) k) :=
  broadcastInDim_apply _ h v _ _ fun ax => by
    match ax with
    | ⟨0, _⟩ => rfl
    | ⟨1, _⟩ =>
      show k.val = if b = 1 then 0 else k.val
      split
      · have := k.isLt; omega
      · rfl

end Reads

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

end Cert.KernelIdeal.KHost

end
-- ==== Proof.KChain.Defs.lean ====
import proofs.«428538_j32280974197073_1_alg».proof.Proof.Spec
import proofs.«428538_j32280974197073_1_alg».proof.Proof.Pack
import proofs.«428538_j32280974197073_1_alg».proof.Proof.KHost.Defs
import Idealize.ShloMosaic.Lib.ValueIdx

set_option pp.maxSteps 5000
set_option pp.deepTerms false

noncomputable section

namespace Cert.KernelIdeal.KChain

open Cert.KernelIdeal
open Idealize.ShloMosaic Idealize.ShloMosaic.ValueIdx Idealize.ShloMosaic.TcCoe Idealize.SL.Sem

def opsK (ei : IVec S2x800000 32) : Cert.Spec.Ops where
  scat M := Cert.Pack.mat (KHost.scatK (Cert.Pack.unmat M) (KHost.srcOf ei) (KHost.enormOf ei) (KHost.dstOf ei))
  sum128 M j := KHost.sum128K (Cert.Pack.unmat M) (ix1 j)
  var128 M j := KHost.var128K (Cert.Pack.unmat M) (ix2 (0 : Fin 1) j)
  sum64 M j := KHost.sum64K (Cert.Pack.unmat M) (ix1 j)
  var64 M j := KHost.var64K (Cert.Pack.unmat M) (ix2 (0 : Fin 1) j)

theorem opsK_scat (ei : IVec S2x800000 32) (M : Cert.Spec.Mat 50000 64) :
    (opsK ei).scat M = Cert.Pack.mat (KHost.scatK (Cert.Pack.unmat M) (KHost.srcOf ei) (KHost.enormOf ei) (KHost.dstOf ei)) := rfl
theorem opsK_sum128 (ei : IVec S2x800000 32) (M : Cert.Spec.Mat 50000 128) (j : Fin 128) :
    (opsK ei).sum128 M j = KHost.sum128K (Cert.Pack.unmat M) (ix1 j) := rfl
theorem opsK_var128 (ei : IVec S2x800000 32) (M : Cert.Spec.Mat 50000 128) (j : Fin 128) :
    (opsK ei).var128 M j = KHost.var128K (Cert.Pack.unmat M) (ix2 (0 : Fin 1) j) := rfl
theorem opsK_sum64 (ei : IVec S2x800000 32) (M : Cert.Spec.Mat 50000 64) (j : Fin 64) :
    (opsK ei).sum64 M j = KHost.sum64K (Cert.Pack.unmat M) (ix1 j) := rfl
theorem opsK_var64 (ei : IVec S2x800000 32) (M : Cert.Spec.Mat 50000 64) (j : Fin 64) :
    (opsK ei).var64 M j = KHost.var64K (Cert.Pack.unmat M) (ix2 (0 : Fin 1) j) := rfl

variable (m : (ℓ : Loc nD τ sig) → Buf (Elt Ideal) ℓ)

def paramsK (c : Dev nD) : Cert.Spec.Params :=
  Cert.Pack.params
    (m ((c : Thread nD τ).loc main_arg0))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))

theorem paramsK_x (c : Dev nD) : (paramsK m c).x = Cert.Pack.mat (m ((c : Thread nD τ).loc main_arg0)) := rfl
theorem paramsK_im_w1 (c : Dev nD) : (paramsK m c).im_w1 = Cert.Pack.mat (m ((c : Thread nD τ).loc main_arg2)) := rfl
theorem paramsK_im_b1 (c : Dev nD) (j : Fin 128) : (paramsK m c).im_b1 j = m ((c : Thread nD τ).loc main_arg3) (ix1 j) := rfl
theorem paramsK_im_g1 (c : Dev nD) (j : Fin 128) : (paramsK m c).im_g1 j = m ((c : Thread nD τ).loc main_arg4) (ix1 j) := rfl
theorem paramsK_im_be1 (c : Dev nD) (j : Fin 128) : (paramsK m c).im_be1 j = m ((c : Thread nD τ).loc main_arg5) (ix1 j) := rfl
theorem paramsK_im_w2 (c : Dev nD) : (paramsK m c).im_w2 = Cert.Pack.mat (m ((c : Thread nD τ).loc main_arg6)) := rfl
theorem paramsK_im_b2 (c : Dev nD) (j : Fin 64) : (paramsK m c).im_b2 j = m ((c : Thread nD τ).loc main_arg7) (ix1 j) := rfl
theorem paramsK_lw1 (c : Dev nD) (l : Fin 9) (k : Fin 64) (a : Fin 4) :
    (paramsK m c).lw1 l k a = m ((c : Thread nD τ).loc main_arg8) (ix3 l k a) := rfl
theorem paramsK_lb1 (c : Dev nD) (l : Fin 9) (a : Fin 4) : (paramsK m c).lb1 l a = m ((c : Thread nD τ).loc main_arg9) (ix2 l a) := rfl
theorem paramsK_lw2 (c : Dev nD) (l : Fin 9) (a : Fin 4) :
    (paramsK m c).lw2 l a = m ((c : Thread nD τ).loc main_arg10) (ix3 l a (0 : Fin 1)) := rfl
theorem paramsK_lb2 (c : Dev nD) (l : Fin 9) : (paramsK m c).lb2 l = m ((c : Thread nD τ).loc main_arg11) (ix2 l (0 : Fin 1)) := rfl
theorem paramsK_bw (c : Dev nD) (l : Fin 8) (k j : Fin 64) :
    (paramsK m c).bw l k j = m ((c : Thread nD τ).loc main_arg12) (ix3 l k j) := rfl
theorem paramsK_bb (c : Dev nD) (l : Fin 8) (j : Fin 64) : (paramsK m c).bb l j = m ((c : Thread nD τ).loc main_arg13) (ix2 l j) := rfl
theorem paramsK_bg (c : Dev nD) (l : Fin 8) (j : Fin 64) : (paramsK m c).bg l j = m ((c : Thread nD τ).loc main_arg14) (ix2 l j) := rfl
theorem paramsK_bbe (c : Dev nD) (l : Fin 8) (j : Fin 64) : (paramsK m c).bbe l j = m ((c : Thread nD τ).loc main_arg15) (ix2 l j) := rfl
theorem paramsK_om_w1 (c : Dev nD) : (paramsK m c).om_w1 = Cert.Pack.mat (m ((c : Thread nD τ).loc main_arg16)) := rfl
theorem paramsK_om_b1 (c : Dev nD) (j : Fin 128) : (paramsK m c).om_b1 j = m ((c : Thread nD τ).loc main_arg17) (ix1 j) := rfl
theorem paramsK_om_w2 (c : Dev nD) : (paramsK m c).om_w2 = Cert.Pack.mat (m ((c : Thread nD τ).loc main_arg18)) := rfl
theorem paramsK_om_b2 (c : Dev nD) (j : Fin 64) : (paramsK m c).om_b2 j = m ((c : Thread nD τ).loc main_arg19) (ix1 j) := rfl

def staticRefs : List (Ref sig .tc) :=
  [main_v3, main_v6, main_v32, main_v35, main_v36, main_v37, main_v38, main_v39, main_v44, main_v45,
   main_arg9, main_arg11, main_arg13, main_arg14, main_arg15]

def Keeps (W W' : Valuation τ sig (Elt Ideal)) : Prop :=
  ∀ b ∈ staticRefs, W' (Proc.devRef .tc b) = W (Proc.devRef .tc b)

theorem Keeps.refl (W : Valuation τ sig (Elt Ideal)) : Keeps W W := fun _ _ => rfl

theorem Keeps.trans {W W' W'' : Valuation τ sig (Elt Ideal)} (h : Keeps W W') (h' : Keeps W' W'') : Keeps W W'' :=
  fun b hb => (h' b hb).trans (h b hb)

end Cert.KernelIdeal.KChain

end
-- ==== Proof.KHost.S0.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st0 (W : Valuation τ sig (Elt Ideal)) : Valuation τ sig (Elt Ideal) :=
  StableHlo.after hostOps0_2 (StableHlo.after hostOps0_1 (StableHlo.after hostOps0 W))

noncomputable def wr0 : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3]
noncomputable def wr0_1 : List (Ref sig .tc) :=
  [main_call0_v0, main_call0_v1, main_v16]
noncomputable def wr0_2 : List (Ref sig .tc) :=
  [main_c, main_v17, main_v18, main_c_4, main_v19, main_v20, main_v21, main_v22, main_v23, main_c_5, main_v24, main_v25, main_c_6, main_v26, main_v27, main_v28, main_v29, main_v30, main_v31, main_v32, main_v33, main_v34, main_v35, main_v36, main_v37, main_v38, main_v39, main_v40, main_v41, main_v42, main_v43, main_v44, main_v45]
noncomputable def wrS0 : List (Ref sig .tc) := wr0 ++ wr0_1 ++ wr0_2

theorem keep0 (W : Valuation τ sig (Elt Ideal)) (b : Ref sig .tc) (hb : b ∉ wr0) :
    StableHlo.after hostOps0 W (Proc.devRef .tc b) = W (Proc.devRef .tc b) :=
  StableHlo.after_of_writes_sub hostOps0 W (by
    simp only [hostOps0, wr0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep0_1 (W : Valuation τ sig (Elt Ideal)) (b : Ref sig .tc) (hb : b ∉ wr0_1) :
    StableHlo.after hostOps0_1 W (Proc.devRef .tc b) = W (Proc.devRef .tc b) :=
  StableHlo.after_of_writes_sub hostOps0_1 W (by
    simp only [hostOps0_1, wr0_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep0_2 (W : Valuation τ sig (Elt Ideal)) (b : Ref sig .tc) (hb : b ∉ wr0_2) :
    StableHlo.after hostOps0_2 W (Proc.devRef .tc b) = W (Proc.devRef .tc b) :=
  StableHlo.after_of_writes_sub hostOps0_2 W (by
    simp only [hostOps0_2, wr0_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st0_keep (W : Valuation τ sig (Elt Ideal)) (b : Ref sig .tc) (hb : b ∉ wrS0) :
    st0 W (Proc.devRef .tc b) = W (Proc.devRef .tc b) :=
  (keep0_2 _ b fun h => hb (List.mem_append_right _ h)).trans
    ((keep0_1 _ b fun h => hb (List.mem_append_left _ (List.mem_append_right _ h))).trans
      (keep0 W b fun h => hb (List.mem_append_left _ (List.mem_append_left _ h))))

theorem l0_v3 (X : Valuation τ sig (Elt Ideal)) :
    StableHlo.after hostOps0 X (Proc.devRef .tc main_v3) = srcOf (X (Proc.devRef .tc main_arg1)) := by
  simp only [hostOps0]; after_results; rfl

theorem l0_v6 (X : Valuation τ sig (Elt Ideal)) :
    StableHlo.after hostOps0 X (Proc.devRef .tc main_v6) = dstOf (X (Proc.devRef .tc main_arg1)) := by
  simp only [hostOps0]; after_results; rfl

theorem l0_v12 (X : Valuation τ sig (Elt Ideal)) :
    StableHlo.after hostOps0 X (Proc.devRef .tc main_v12)
      = cmpf .ogt (degOf (dstOf (X (Proc.devRef .tc main_arg1)))) (broadcastInDim S50000 ![] bcast_S_S50000 (constant S_ .f32 0x00000000#32)) := by
  simp only [hostOps0]; after_results_simp; rfl

theorem l0_v15 (X : Valuation τ sig (Elt Ideal)) :
    StableHlo.after hostOps0 X (Proc.devRef .tc main_v15)
      = Host.rsqrt (maximumf (degOf (dstOf (X (Proc.devRef .tc main_arg1)))) (broadcastInDim S50000 ![] bcast_S_S50000 (constant S_ .f32 0x3F800000#32))) := by
  simp only [hostOps0]; after_results_simp; rfl

theorem l0_cst_3 (X : Valuation τ sig (Elt Ideal)) :
    StableHlo.after hostOps0 X (Proc.devRef .tc main_cst_3) = (constant S_ .f32 0x00000000#32 : FVec Ideal S_ .f32) := by
  simp only [hostOps0]; after_results; all_goals rfl

theorem l0_1_v16 (X : Valuation τ sig (Elt Ideal)) :
    StableHlo.after hostOps0_1 X (Proc.devRef .tc main_v16)
      = (select (X (Proc.devRef .tc main_v12)) (X (Proc.devRef .tc main_v15)) (broadcastInDim S50000 ![] bcast_S_S50000 (X (Proc.devRef .tc main_cst_3))) :
          FVec Ideal S50000 .f32) := by
  simp only [hostOps0_1]; after_results; rfl

theorem l0_2_v32 (X : Valuation τ sig (Elt Ideal)) :
    StableHlo.after hostOps0_2 X (Proc.devRef .tc main_v32)
      = (broadcastInDim S850000x1 ![0] bcast_S850000_S850000x1_0
          (mulf (Host.gather gather_S50000_S850000x1_S850000_n_0_n_n_0_1_1 (X (Proc.devRef .tc main_v16)) (normIdx (X (Proc.devRef .tc main_v3))))
            (Host.gather gather_S50000_S850000x1_S850000_n_0_n_n_0_1_1 (X (Proc.devRef .tc main_v16)) (normIdx (X (Proc.devRef .tc main_v6))))) :
          FVec Ideal S850000x1 .f32) := by
  simp only [hostOps0_2]; after_results_simp; rfl

theorem st0_v3 (W : Valuation τ sig (Elt Ideal)) :
    st0 W (Proc.devRef .tc main_v3) = srcOf (W (Proc.devRef .tc main_arg1)) := by
  show StableHlo.after hostOps0_2 (StableHlo.after hostOps0_1 (StableHlo.after hostOps0 W)) (Proc.devRef .tc main_v3) = _
  rw [keep0_2 _ _ (by decide), keep0_1 _ _ (by decide), l0_v3]

theorem st0_v6 (W : Valuation τ sig (Elt Ideal)) :
    st0 W (Proc.devRef .tc main_v6) = dstOf (W (Proc.devRef .tc main_arg1)) := by
  show StableHlo.after hostOps0_2 (StableHlo.after hostOps0_1 (StableHlo.after hostOps0 W)) (Proc.devRef .tc main_v6) = _
  rw [keep0_2 _ _ (by decide), keep0_1 _ _ (by decide), l0_v6]

theorem st0_v32 (W : Valuation τ sig (Elt Ideal)) :
    st0 W (Proc.devRef .tc main_v32) = enormOf (W (Proc.devRef .tc main_arg1)) := by
  show StableHlo.after hostOps0_2 (StableHlo.after hostOps0_1 (StableHlo.after hostOps0 W)) (Proc.devRef .tc main_v32) = _
  rw [l0_2_v32, l0_1_v16, keep0_1 _ main_v3 (by decide), keep0_1 _ main_v6 (by decide), l0_v3, l0_v6, l0_v12, l0_v15, l0_cst_3]
  rfl

theorem l0_2_v33 (X : Valuation τ sig (Elt Ideal)) :
    StableHlo.after hostOps0_2 X (Proc.devRef .tc main_v33) = (truncf .bf16 (X (Proc.devRef .tc main_arg2)) bitsLt_bf16_f32 : FVec Ideal S128x128 .bf16) := by
  simp only [hostOps0_2]; after_results; all_goals rfl

theorem st0_v33 (W : Valuation τ sig (Elt Ideal)) :
    (st0 W (Proc.devRef .tc main_v33) : S128x128.Idx → EReal) = (W (Proc.devRef .tc main_arg2) : S128x128.Idx → EReal) := by
  show StableHlo.after hostOps0_2 (StableHlo.after hostOps0_1 (StableHlo.after hostOps0 W)) (Proc.devRef .tc main_v33) = _
  rw [l0_2_v33, keep0_1 _ main_arg2 (by decide), keep0 _ main_arg2 (by decide)]
  rfl

theorem l0_2_v34 (X : Valuation τ sig (Elt Ideal)) :
    StableHlo.after hostOps0_2 X (Proc.devRef .tc main_v34) = (truncf .bf16 (X (Proc.devRef .tc main_arg6)) bitsLt_bf16_f32 : FVec Ideal S128x64 .bf16) := by
  simp only [hostOps0_2]; after_results; all_goals rfl

theorem st0_v34 (W : Valuation τ sig (Elt Ideal)) :
    (st0 W (Proc.devRef .tc main_v34) : S128x64.Idx → EReal) = (W (Proc.devRef .tc main_arg6) : S128x64.Idx → EReal) := by
  show StableHlo.after hostOps0_2 (StableHlo.after hostOps0_1 (StableHlo.after hostOps0 W)) (Proc.devRef .tc main_v34) = _
  rw [l0_2_v34, keep0_1 _ main_arg6 (by decide), keep0 _ main_arg6 (by decide)]
  rfl

theorem l0_2_v35 (X : Valuation τ sig (Elt Ideal)) :
    StableHlo.after hostOps0_2 X (Proc.devRef .tc main_v35) = (truncf .bf16 (X (Proc.devRef .tc main_arg16)) bitsLt_bf16_f32 : FVec Ideal S64x128 .bf16) := by
  simp only [hostOps0_2]; after_results; all_goals rfl

theorem st0_v35 (W : Valuation τ sig (Elt Ideal)) :
    (st0 W (Proc.devRef .tc main_v35) : S64x128.Idx → EReal) = (W (Proc.devRef .tc main_arg16) : S64x128.Idx → EReal) := by
  show StableHlo.after hostOps0_2 (StableHlo.after hostOps0_1 (StableHlo.after hostOps0 W)) (Proc.devRef .tc main_v35) = _
  rw [l0_2_v35, keep0_1 _ main_arg16 (by decide), keep0 _ main_arg16 (by decide)]
  rfl

theorem l0_2_v36 (X : Valuation τ sig (Elt Ideal)) :
    StableHlo.after hostOps0_2 X (Proc.devRef .tc main_v36) = (truncf .bf16 (X (Proc.devRef .tc main_arg18)) bitsLt_bf16_f32 : FVec Ideal S128x64 .bf16) := by
  simp only [hostOps0_2]; after_results; all_goals rfl

theorem st0_v36 (W : Valuation τ sig (Elt Ideal)) :
    (st0 W (Proc.devRef .tc main_v36) : S128x64.Idx → EReal) = (W (Proc.devRef .tc main_arg18) : S128x64.Idx → EReal) := by
  show StableHlo.after hostOps0_2 (StableHlo.after hostOps0_1 (StableHlo.after hostOps0 W)) (Proc.devRef .tc main_v36) = _
  rw [l0_2_v36, keep0_1 _ main_arg18 (by decide), keep0 _ main_arg18 (by decide)]
  rfl

theorem l0_2_v37 (X : Valuation τ sig (Elt Ideal)) :
    StableHlo.after hostOps0_2 X (Proc.devRef .tc main_v37) = (truncf .bf16 (X (Proc.devRef .tc main_arg12)) bitsLt_bf16_f32 : FVec Ideal S8x64x64 .bf16) := by
  simp only [hostOps0_2]; after_results; all_goals rfl

theorem st0_v37 (W : Valuation τ sig (Elt Ideal)) :
    (st0 W (Proc.devRef .tc main_v37) : S8x64x64.Idx → EReal) = (W (Proc.devRef .tc main_arg12) : S8x64x64.Idx → EReal) := by
  show StableHlo.after hostOps0_2 (StableHlo.after hostOps0_1 (StableHlo.after hostOps0 W)) (Proc.devRef .tc main_v37) = _
  rw [l0_2_v37, keep0_1 _ main_arg12 (by decide), keep0 _ main_arg12 (by decide)]
  rfl

theorem l0_2_v38 (X : Valuation τ sig (Elt Ideal)) :
    StableHlo.after hostOps0_2 X (Proc.devRef .tc main_v38) = (truncf .bf16 (X (Proc.devRef .tc main_arg8)) bitsLt_bf16_f32 : FVec Ideal S9x64x4 .bf16) := by
  simp only [hostOps0_2]; after_results; all_goals rfl

theorem st0_v38 (W : Valuation τ sig (Elt Ideal)) :
    (st0 W (Proc.devRef .tc main_v38) : S9x64x4.Idx → EReal) = (W (Proc.devRef .tc main_arg8) : S9x64x4.Idx → EReal) := by
  show StableHlo.after hostOps0_2 (StableHlo.after hostOps0_1 (StableHlo.after hostOps0 W)) (Proc.devRef .tc main_v38) = _
  rw [l0_2_v38, keep0_1 _ main_arg8 (by decide), keep0 _ main_arg8 (by decide)]
  rfl

theorem l0_2_v39 (X : Valuation τ sig (Elt Ideal)) :
    StableHlo.after hostOps0_2 X (Proc.devRef .tc main_v39) = (truncf .bf16 (X (Proc.devRef .tc main_arg10)) bitsLt_bf16_f32 : FVec Ideal S9x4x1 .bf16) := by
  simp only [hostOps0_2]; after_results; all_goals rfl

theorem st0_v39 (W : Valuation τ sig (Elt Ideal)) :
    (st0 W (Proc.devRef .tc main_v39) : S9x4x1.Idx → EReal) = (W (Proc.devRef .tc main_arg10) : S9x4x1.Idx → EReal) := by
  show StableHlo.after hostOps0_2 (StableHlo.after hostOps0_1 (StableHlo.after hostOps0 W)) (Proc.devRef .tc main_v39) = _
  rw [l0_2_v39, keep0_1 _ main_arg10 (by decide), keep0 _ main_arg10 (by decide)]
  rfl

theorem l0_2_v40 (X : Valuation τ sig (Elt Ideal)) :
    StableHlo.after hostOps0_2 X (Proc.devRef .tc main_v40) = (shapeCast S1x128 (X (Proc.devRef .tc main_arg3)) shapeCasts_S128_S1x128 : FVec Ideal S1x128 .f32) := by
  simp only [hostOps0_2]; after_results; all_goals rfl

theorem st0_v40 (W : Valuation τ sig (Elt Ideal)) (u : Fin 1) (j : Fin 128) :
    (st0 W (Proc.devRef .tc main_v40) : S1x128.Idx → EReal) (ix2 u j) = (W (Proc.devRef .tc main_arg3) : S128.Idx → EReal) (ix1 j) := by
  have e : (st0 W (Proc.devRef .tc main_v40) : S1x128.Idx → EReal)
      = shapeCast S1x128 (W (Proc.devRef .tc main_arg3) : S128.Idx → EReal) shapeCasts_S128_S1x128 := by
    show StableHlo.after hostOps0_2 (StableHlo.after hostOps0_1 (StableHlo.after hostOps0 W)) (Proc.devRef .tc main_v40) = _
    rw [l0_2_v40, keep0_1 _ main_arg3 (by decide), keep0 _ main_arg3 (by decide)]
  rw [e]
  exact shapeCast_a_1a_apply _ _ u j

theorem l0_2_v41 (X : Valuation τ sig (Elt Ideal)) :
    StableHlo.after hostOps0_2 X (Proc.devRef .tc main_v41) = (shapeCast S1x128 (X (Proc.devRef .tc main_arg4)) shapeCasts_S128_S1x128 : FVec Ideal S1x128 .f32) := by
  simp only [hostOps0_2]; after_results; all_goals rfl

theorem st0_v41 (W : Valuation τ sig (Elt Ideal)) (u : Fin 1) (j : Fin 128) :
    (st0 W (Proc.devRef .tc main_v41) : S1x128.Idx → EReal) (ix2 u j) = (W (Proc.devRef .tc main_arg4) : S128.Idx → EReal) (ix1 j) := by
  have e : (st0 W (Proc.devRef .tc main_v41) : S1x128.Idx → EReal)
      = shapeCast S1x128 (W (Proc.devRef .tc main_arg4) : S128.Idx → EReal) shapeCasts_S128_S1x128 := by
    show StableHlo.after hostOps0_2 (StableHlo.after hostOps0_1 (StableHlo.after hostOps0 W)) (Proc.devRef .tc main_v41) = _
    rw [l0_2_v41, keep0_1 _ main_arg4 (by decide), keep0 _ main_arg4 (by decide)]
  rw [e]
  exact shapeCast_a_1a_apply _ _ u j

theorem l0_2_v42 (X : Valuation τ sig (Elt Ideal)) :
    StableHlo.after hostOps0_2 X (Proc.devRef .tc main_v42) = (shapeCast S1x128 (X (Proc.devRef .tc main_arg5)) shapeCasts_S128_S1x128 : FVec Ideal S1x128 .f32) := by
  simp only [hostOps0_2]; after_results; all_goals rfl

theorem st0_v42 (W : Valuation τ sig (Elt Ideal)) (u : Fin 1) (j : Fin 128) :
    (st0 W (Proc.devRef .tc main_v42) : S1x128.Idx → EReal) (ix2 u j) = (W (Proc.devRef .tc main_arg5) : S128.Idx → EReal) (ix1 j) := by
  have e : (st0 W (Proc.devRef .tc main_v42) : S1x128.Idx → EReal)
      = shapeCast S1x128 (W (Proc.devRef .tc main_arg5) : S128.Idx → EReal) shapeCasts_S128_S1x128 := by
    show StableHlo.after hostOps0_2 (StableHlo.after hostOps0_1 (StableHlo.after hostOps0 W)) (Proc.devRef .tc main_v42) = _
    rw [l0_2_v42, keep0_1 _ main_arg5 (by decide), keep0 _ main_arg5 (by decide)]
  rw [e]
  exact shapeCast_a_1a_apply _ _ u j

theorem l0_2_v43 (X : Valuation τ sig (Elt Ideal)) :
    StableHlo.after hostOps0_2 X (Proc.devRef .tc main_v43) = (shapeCast S1x64 (X (Proc.devRef .tc main_arg7)) shapeCasts_S64_S1x64 : FVec Ideal S1x64 .f32) := by
  simp only [hostOps0_2]; after_results; all_goals rfl

theorem st0_v43 (W : Valuation τ sig (Elt Ideal)) (u : Fin 1) (j : Fin 64) :
    (st0 W (Proc.devRef .tc main_v43) : S1x64.Idx → EReal) (ix2 u j) = (W (Proc.devRef .tc main_arg7) : S64.Idx → EReal) (ix1 j) := by
  have e : (st0 W (Proc.devRef .tc main_v43) : S1x64.Idx → EReal)
      = shapeCast S1x64 (W (Proc.devRef .tc main_arg7) : S64.Idx → EReal) shapeCasts_S64_S1x64 := by
    show StableHlo.after hostOps0_2 (StableHlo.after hostOps0_1 (StableHlo.after hostOps0 W)) (Proc.devRef .tc main_v43) = _
    rw [l0_2_v43, keep0_1 _ main_arg7 (by decide), keep0 _ main_arg7 (by decide)]
  rw [e]
  exact shapeCast_a_1a_apply _ _ u j

theorem l0_2_v44 (X : Valuation τ sig (Elt Ideal)) :
    StableHlo.after hostOps0_2 X (Proc.devRef .tc main_v44) = (shapeCast S1x128 (X (Proc.devRef .tc main_arg17)) shapeCasts_S128_S1x128 : FVec Ideal S1x128 .f32) := by
  simp only [hostOps0_2]; after_results; all_goals rfl

theorem st0_v44 (W : Valuation τ sig (Elt Ideal)) (u : Fin 1) (j : Fin 128) :
    (st0 W (Proc.devRef .tc main_v44) : S1x128.Idx → EReal) (ix2 u j) = (W (Proc.devRef .tc main_arg17) : S128.Idx → EReal) (ix1 j) := by
  have e : (st0 W (Proc.devRef .tc main_v44) : S1x128.Idx → EReal)
      = shapeCast S1x128 (W (Proc.devRef .tc main_arg17) : S128.Idx → EReal) shapeCasts_S128_S1x128 := by
    show StableHlo.after hostOps0_2 (StableHlo.after hostOps0_1 (StableHlo.after hostOps0 W)) (Proc.devRef .tc main_v44) = _
    rw [l0_2_v44, keep0_1 _ main_arg17 (by decide), keep0 _ main_arg17 (by decide)]
  rw [e]
  exact shapeCast_a_1a_apply _ _ u j

theorem l0_2_v45 (X : Valuation τ sig (Elt Ideal)) :
    StableHlo.after hostOps0_2 X (Proc.devRef .tc main_v45) = (shapeCast S1x64 (X (Proc.devRef .tc main_arg19)) shapeCasts_S64_S1x64 : FVec Ideal S1x64 .f32) := by
  simp only [hostOps0_2]; after_results; all_goals rfl

theorem st0_v45 (W : Valuation τ sig (Elt Ideal)) (u : Fin 1) (j : Fin 64) :
    (st0 W (Proc.devRef .tc main_v45) : S1x64.Idx → EReal) (ix2 u j) = (W (Proc.devRef .tc main_arg19) : S64.Idx → EReal) (ix1 j) := by
  have e : (st0 W (Proc.devRef .tc main_v45) : S1x64.Idx → EReal)
      = shapeCast S1x64 (W (Proc.devRef .tc main_arg19) : S64.Idx → EReal) shapeCasts_S64_S1x64 := by
    show StableHlo.after hostOps0_2 (StableHlo.after hostOps0_1 (StableHlo.after hostOps0 W)) (Proc.devRef .tc main_v45) = _
    rw [l0_2_v45, keep0_1 _ main_arg19 (by decide), keep0 _ main_arg19 (by decide)]
  rw [e]
  exact shapeCast_a_1a_apply _ _ u j

end Cert.KernelIdeal.KHost

end
-- ==== Proof.KChain.Static.lean ====
import proofs.«428538_j32280974197073_1_alg».proof.Proof.Gen.KernelIdeal.Frame
import proofs.«428538_j32280974197073_1_alg».proof.Proof.KHost.S0
import proofs.«428538_j32280974197073_1_alg».proof.Proof.KChain.Defs

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

theorem W3_eq (c : Dev nD) : W3 m ρ c = KHost.st0 (W0 m ρ c) := rfl

theorem W0_at (c : Dev nD) (b : Ref sig .tc) : W0 m ρ c (Proc.devRef .tc b) = m ((c : Thread nD τ).loc b) := rfl

theorem W3_src (c : Dev nD) :
    (W3 m ρ c (Proc.devRef .tc main_v3) : IVec S850000 32) = KHost.srcOf (m ((c : Thread nD τ).loc main_arg1)) :=
  KHost.st0_v3 (W0 m ρ c)

theorem W3_dst (c : Dev nD) :
    (W3 m ρ c (Proc.devRef .tc main_v6) : IVec S850000 32) = KHost.dstOf (m ((c : Thread nD τ).loc main_arg1)) :=
  KHost.st0_v6 (W0 m ρ c)

theorem W3_enorm (c : Dev nD) :
    (W3 m ρ c (Proc.devRef .tc main_v32) : FVec Ideal S850000x1 .f32) = KHost.enormOf (m ((c : Thread nD τ).loc main_arg1)) :=
  KHost.st0_v32 (W0 m ρ c)

theorem W3_v33 (c : Dev nD) :
    (W3 m ρ c (Proc.devRef .tc main_v33) : S128x128.Idx → EReal) = ((m ((c : Thread nD τ).loc main_arg2)) : S128x128.Idx → EReal) :=
  KHost.st0_v33 (W0 m ρ c)

theorem W3_v40 (c : Dev nD) (j : Fin 128) :
    (W3 m ρ c (Proc.devRef .tc main_v40) : S1x128.Idx → EReal) (ix2 (0 : Fin 1) j) = ((m ((c : Thread nD τ).loc main_arg3)) : S128.Idx → EReal) (ix1 j) :=
  KHost.st0_v40 (W0 m ρ c) 0 j

theorem W3_arg0 (c : Dev nD) : W3 m ρ c (Proc.devRef .tc main_arg0) = (m ((c : Thread nD τ).loc main_arg0)) :=
  KHost.st0_keep (W0 m ρ c) main_arg0 (by decide)

theorem W3_v34 (c : Dev nD) :
    (W3 m ρ c (Proc.devRef .tc main_v34) : S128x64.Idx → EReal) = ((m ((c : Thread nD τ).loc main_arg6)) : S128x64.Idx → EReal) :=
  KHost.st0_v34 (W0 m ρ c)

theorem W3_v35 (c : Dev nD) :
    (W3 m ρ c (Proc.devRef .tc main_v35) : S64x128.Idx → EReal) = ((m ((c : Thread nD τ).loc main_arg16)) : S64x128.Idx → EReal) :=
  KHost.st0_v35 (W0 m ρ c)

theorem W3_v36 (c : Dev nD) :
    (W3 m ρ c (Proc.devRef .tc main_v36) : S128x64.Idx → EReal) = ((m ((c : Thread nD τ).loc main_arg18)) : S128x64.Idx → EReal) :=
  KHost.st0_v36 (W0 m ρ c)

theorem W3_v37 (c : Dev nD) :
    (W3 m ρ c (Proc.devRef .tc main_v37) : S8x64x64.Idx → EReal) = ((m ((c : Thread nD τ).loc main_arg12)) : S8x64x64.Idx → EReal) :=
  KHost.st0_v37 (W0 m ρ c)

theorem W3_v38 (c : Dev nD) :
    (W3 m ρ c (Proc.devRef .tc main_v38) : S9x64x4.Idx → EReal) = ((m ((c : Thread nD τ).loc main_arg8)) : S9x64x4.Idx → EReal) :=
  KHost.st0_v38 (W0 m ρ c)

theorem W3_v39 (c : Dev nD) :
    (W3 m ρ c (Proc.devRef .tc main_v39) : S9x4x1.Idx → EReal) = ((m ((c : Thread nD τ).loc main_arg10)) : S9x4x1.Idx → EReal) :=
  KHost.st0_v39 (W0 m ρ c)

theorem W3_v41 (c : Dev nD) (j : Fin 128) :
    (W3 m ρ c (Proc.devRef .tc main_v41) : S1x128.Idx → EReal) (ix2 (0 : Fin 1) j) = ((m ((c : Thread nD τ).loc main_arg4)) : S128.Idx → EReal) (ix1 j) :=
  KHost.st0_v41 (W0 m ρ c) 0 j

theorem W3_v42 (c : Dev nD) (j : Fin 128) :
    (W3 m ρ c (Proc.devRef .tc main_v42) : S1x128.Idx → EReal) (ix2 (0 : Fin 1) j) = ((m ((c : Thread nD τ).loc main_arg5)) : S128.Idx → EReal) (ix1 j) :=
  KHost.st0_v42 (W0 m ρ c) 0 j

theorem W3_v43 (c : Dev nD) (j : Fin 64) :
    (W3 m ρ c (Proc.devRef .tc main_v43) : S1x64.Idx → EReal) (ix2 (0 : Fin 1) j) = ((m ((c : Thread nD τ).loc main_arg7)) : S64.Idx → EReal) (ix1 j) :=
  KHost.st0_v43 (W0 m ρ c) 0 j

theorem W3_v44 (c : Dev nD) (j : Fin 128) :
    (W3 m ρ c (Proc.devRef .tc main_v44) : S1x128.Idx → EReal) (ix2 (0 : Fin 1) j) = ((m ((c : Thread nD τ).loc main_arg17)) : S128.Idx → EReal) (ix1 j) :=
  KHost.st0_v44 (W0 m ρ c) 0 j

theorem W3_v45 (c : Dev nD) (j : Fin 64) :
    (W3 m ρ c (Proc.devRef .tc main_v45) : S1x64.Idx → EReal) (ix2 (0 : Fin 1) j) = ((m ((c : Thread nD τ).loc main_arg19)) : S64.Idx → EReal) (ix1 j) :=
  KHost.st0_v45 (W0 m ρ c) 0 j

theorem W3_arg9 (c : Dev nD) : W3 m ρ c (Proc.devRef .tc main_arg9) = (m ((c : Thread nD τ).loc main_arg9)) :=
  KHost.st0_keep (W0 m ρ c) main_arg9 (by decide)

theorem W3_arg11 (c : Dev nD) : W3 m ρ c (Proc.devRef .tc main_arg11) = (m ((c : Thread nD τ).loc main_arg11)) :=
  KHost.st0_keep (W0 m ρ c) main_arg11 (by decide)

theorem W3_arg13 (c : Dev nD) : W3 m ρ c (Proc.devRef .tc main_arg13) = (m ((c : Thread nD τ).loc main_arg13)) :=
  KHost.st0_keep (W0 m ρ c) main_arg13 (by decide)

theorem W3_arg14 (c : Dev nD) : W3 m ρ c (Proc.devRef .tc main_arg14) = (m ((c : Thread nD τ).loc main_arg14)) :=
  KHost.st0_keep (W0 m ρ c) main_arg14 (by decide)

theorem W3_arg15 (c : Dev nD) : W3 m ρ c (Proc.devRef .tc main_arg15) = (m ((c : Thread nD τ).loc main_arg15)) :=
  KHost.st0_keep (W0 m ρ c) main_arg15 (by decide)

section Kept
variable {m ρ}
variable {c : Dev nD} {W : Valuation τ sig (Elt Ideal)} (h : Keeps (W3 m ρ c) W)
include h

theorem st_src : (W (Proc.devRef .tc main_v3) : IVec S850000 32) = KHost.srcOf (m ((c : Thread nD τ).loc main_arg1)) :=
  (h main_v3 (by decide)).trans (W3_src m ρ c)

theorem st_dst : (W (Proc.devRef .tc main_v6) : IVec S850000 32) = KHost.dstOf (m ((c : Thread nD τ).loc main_arg1)) :=
  (h main_v6 (by decide)).trans (W3_dst m ρ c)

theorem st_enorm : (W (Proc.devRef .tc main_v32) : FVec Ideal S850000x1 .f32) = KHost.enormOf (m ((c : Thread nD τ).loc main_arg1)) :=
  (h main_v32 (by decide)).trans (W3_enorm m ρ c)

theorem st_v35 : (W (Proc.devRef .tc main_v35) : S64x128.Idx → EReal) = ((m ((c : Thread nD τ).loc main_arg16)) : S64x128.Idx → EReal) :=
  (h main_v35 (by decide)).trans (W3_v35 m ρ c)

theorem st_v36 : (W (Proc.devRef .tc main_v36) : S128x64.Idx → EReal) = ((m ((c : Thread nD τ).loc main_arg18)) : S128x64.Idx → EReal) :=
  (h main_v36 (by decide)).trans (W3_v36 m ρ c)

theorem st_v37 : (W (Proc.devRef .tc main_v37) : S8x64x64.Idx → EReal) = ((m ((c : Thread nD τ).loc main_arg12)) : S8x64x64.Idx → EReal) :=
  (h main_v37 (by decide)).trans (W3_v37 m ρ c)

theorem st_v38 : (W (Proc.devRef .tc main_v38) : S9x64x4.Idx → EReal) = ((m ((c : Thread nD τ).loc main_arg8)) : S9x64x4.Idx → EReal) :=
  (h main_v38 (by decide)).trans (W3_v38 m ρ c)

theorem st_v39 : (W (Proc.devRef .tc main_v39) : S9x4x1.Idx → EReal) = ((m ((c : Thread nD τ).loc main_arg10)) : S9x4x1.Idx → EReal) :=
  (h main_v39 (by decide)).trans (W3_v39 m ρ c)

theorem st_v44 (j : Fin 128) :
    (W (Proc.devRef .tc main_v44) : S1x128.Idx → EReal) (ix2 (0 : Fin 1) j) = ((m ((c : Thread nD τ).loc main_arg17)) : S128.Idx → EReal) (ix1 j) :=
  (congrFun (show (W (Proc.devRef .tc main_v44) : S1x128.Idx → EReal) = (W3 m ρ c (Proc.devRef .tc main_v44) : S1x128.Idx → EReal) from h main_v44 (by decide))
    (ix2 (0 : Fin 1) j)).trans (W3_v44 m ρ c j)

theorem st_v45 (j : Fin 64) :
    (W (Proc.devRef .tc main_v45) : S1x64.Idx → EReal) (ix2 (0 : Fin 1) j) = ((m ((c : Thread nD τ).loc main_arg19)) : S64.Idx → EReal) (ix1 j) :=
  (congrFun (show (W (Proc.devRef .tc main_v45) : S1x64.Idx → EReal) = (W3 m ρ c (Proc.devRef .tc main_v45) : S1x64.Idx → EReal) from h main_v45 (by decide))
    (ix2 (0 : Fin 1) j)).trans (W3_v45 m ρ c j)

theorem st_arg9 : W (Proc.devRef .tc main_arg9) = (m ((c : Thread nD τ).loc main_arg9)) :=
  (h main_arg9 (by decide)).trans (W3_arg9 m ρ c)

theorem st_arg11 : W (Proc.devRef .tc main_arg11) = (m ((c : Thread nD τ).loc main_arg11)) :=
  (h main_arg11 (by decide)).trans (W3_arg11 m ρ c)

theorem st_arg13 : W (Proc.devRef .tc main_arg13) = (m ((c : Thread nD τ).loc main_arg13)) :=
  (h main_arg13 (by decide)).trans (W3_arg13 m ρ c)

theorem st_arg14 : W (Proc.devRef .tc main_arg14) = (m ((c : Thread nD τ).loc main_arg14)) :=
  (h main_arg14 (by decide)).trans (W3_arg14 m ρ c)

theorem st_arg15 : W (Proc.devRef .tc main_arg15) = (m ((c : Thread nD τ).loc main_arg15)) :=
  (h main_arg15 (by decide)).trans (W3_arg15 m ρ c)

end Kept

end Cert.KernelIdeal.KChain

end
-- ==== Proof.ReadOps.lean ====
import proofs.«428538_j32280974197073_1_alg».proof.KernelIdeal
import proofs.«428538_j32280974197073_1_alg».proof.ReferenceIdeal
import proofs.«428538_j32280974197073_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.ReadOps

open Cert.KernelIdeal
open Idealize.ShloMosaic Idealize.ShloMosaic.ValueIdx

section
variable [Facts]
open Facts₀ Facts

theorem lhs_128x128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch from List.not_mem_nil),
    dif_pos (show (0 : Fin S2000x128.rank) ∈ dot_S2000x128_S128x128_S2000x128_1_0_0_1_n_n.lhsNonContracting from List.mem_singleton.mpr rfl)]
  rfl
theorem lhs_128x128_1 (i : S2000x128.Idx) (q : dot_S2000x128_S128x128_S2000x128_1_0_0_1_n_n.contr.Idx) :
    (dot_S2000x128_S128x128_S2000x128_1_0_0_1_n_n.lhsIdx i q 1).val = (q ⟨0, Nat.one_pos⟩).val :=
  dot_S2000x128_S128x128_S2000x128_1_0_0_1_n_n.lhsIdx_val_of_single rfl i q
theorem rhs_128x128_0 (i : S2000x128.Idx) (q : dot_S2000x128_S128x128_S2000x128_1_0_0_1_n_n.contr.Idx) :
    (dot_S2000x128_S128x128_S2000x128_1_0_0_1_n_n.rhsIdx i q 0).val = (q ⟨0, Nat.one_pos⟩).val :=
  dot_S2000x128_S128x128_S2000x128_1_0_0_1_n_n.rhsIdx_val_of_single rfl i q
theorem rhs_128x128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch from List.not_mem_nil),
    dif_pos (show (1 : Fin S128x128.rank) ∈ dot_S2000x128_S128x128_S2000x128_1_0_0_1_n_n.rhsNonContracting from List.mem_singleton.mpr rfl)]
  rfl

theorem matmul_128x128_apply (l : FVec Ideal S2000x128 .bf16) (r : FVec Ideal S128x128 .bf16) (i : Fin 2000) (j : Fin 128) :
    matmul (F := Ideal) dot_S2000x128_S128x128_S2000x128_1_0_0_1_n_n none l r (constant S2000x128 .f32 0x00000000#32) (ix2 i j)
      = ∑ k : Fin 128, l (ix2 i k) * r (ix2 k j) := by
  show FloatOps.matmul dot_S2000x128_S128x128_S2000x128_1_0_0_1_n_n none l r (constant S2000x128 .f32 0x00000000#32) (ix2 i j) = _
  rw [Ideal.matmul_constant_zero_apply]
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k :=
    funext fun a => Fin.ext (by
      match a with
      | ⟨0, _⟩ => exact lhs_128x128_0 _ _
      | ⟨1, _⟩ => exact (lhs_128x128_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j :=
    funext fun a => Fin.ext (by
      match a with
      | ⟨0, _⟩ => exact (rhs_128x128_0 _ _).trans hk
      | ⟨1, _⟩ => exact rhs_128x128_1 _ _)
  rw [el, er]

theorem lhs_128x64_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch from List.not_mem_nil),
    dif_pos (show (0 : Fin S2000x128.rank) ∈ dot_S2000x128_S128x64_S2000x64_1_0_0_1_n_n.lhsNonContracting from List.mem_singleton.mpr rfl)]
  rfl
theorem lhs_128x64_1 (i : S2000x64.Idx) (q : dot_S2000x128_S128x64_S2000x64_1_0_0_1_n_n.contr.Idx) :
    (dot_S2000x128_S128x64_S2000x64_1_0_0_1_n_n.lhsIdx i q 1).val = (q ⟨0, Nat.one_pos⟩).val :=
  dot_S2000x128_S128x64_S2000x64_1_0_0_1_n_n.lhsIdx_val_of_single rfl i q
theorem rhs_128x64_0 (i : S2000x64.Idx) (q : dot_S2000x128_S128x64_S2000x64_1_0_0_1_n_n.contr.Idx) :
    (dot_S2000x128_S128x64_S2000x64_1_0_0_1_n_n.rhsIdx i q 0).val = (q ⟨0, Nat.one_pos⟩).val :=
  dot_S2000x128_S128x64_S2000x64_1_0_0_1_n_n.rhsIdx_val_of_single rfl i q
theorem rhs_128x64_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch from List.not_mem_nil),
    dif_pos (show (1 : Fin S128x64.rank) ∈ dot_S2000x128_S128x64_S2000x64_1_0_0_1_n_n.rhsNonContracting from List.mem_singleton.mpr rfl)]
  rfl

theorem matmul_128x64_apply (l : FVec Ideal S2000x128 .bf16) (r : FVec Ideal S128x64 .bf16) (i : Fin 2000) (j : Fin 64) :
    matmul (F := Ideal) dot_S2000x128_S128x64_S2000x64_1_0_0_1_n_n none l r (constant S2000x64 .f32 0x00000000#32) (ix2 i j)
      = ∑ k : Fin 128, l (ix2 i k) * r (ix2 k j) := by
  show FloatOps.matmul dot_S2000x128_S128x64_S2000x64_1_0_0_1_n_n none l r (constant S2000x64 .f32 0x00000000#32) (ix2 i j) = _
  rw [Ideal.matmul_constant_zero_apply]
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 i j) ((contrEquiv1 dot_S2000x128_S128x64_S2000x64_1_0_0_1_n_n 128 rfl rfl).symm k) = ix2 i k :=
    funext fun a => Fin.ext (by
      match a with
      | ⟨0, _⟩ => exact lhs_128x64_0 _ _
      | ⟨1, _⟩ => exact (lhs_128x64_1 _ _).trans hk)
  have er : dot_S2000x128_S128x64_S2000x64_1_0_0_1_n_n.rhsIdx (ix2 i j) ((contrEquiv1 dot_S2000x128_S128x64_S2000x64_1_0_0_1_n_n 128 rfl rfl).symm k) = ix2 k j :=
    funext fun a => Fin.ext (by
      match a with
      | ⟨0, _⟩ => exact (rhs_128x64_0 _ _).trans hk
      | ⟨1, _⟩ => exact rhs_128x64_1 _ _)
  rw [el, er]

theorem lhs_64x4_0 (i : S2000x4.Idx) (q : dot_S2000x64_S64x4_S2000x4_1_0_0_1_n_n.contr.Idx) :
    (dot_S2000x64_S64x4_S2000x4_1_0_0_1_n_n.lhsIdx i q 0).val = (i 0).val := by
  unfold DotDims.lhsIdx
  rw [dif_neg (show ¬(0 : Fin S2000x64.rank) ∈ dot_S2000x64_S64x4_S2000x4_1_0_0_1_n_n.lhsBatch from List.not_mem_nil),
    dif_pos (show (0 : Fin S2000x64.rank) ∈ dot_S2000x64_S64x4_S2000x4_1_0_0_1_n_n.lhsNonContracting from List.mem_singleton.mpr rfl)]
  rfl
theorem lhs_64x4_1 (i : S2000x4.Idx) (q : dot_S2000x64_S64x4_S2000x4_1_0_0_1_n_n.contr.Idx) :
    (dot_S2000x64_S64x4_S2000x4_1_0_0_1_n_n.lhsIdx i q 1).val = (q ⟨0, Nat.one_pos⟩).val :=
  dot_S2000x64_S64x4_S2000x4_1_0_0_1_n_n.lhsIdx_val_of_single rfl i q
theorem rhs_64x4_0 (i : S2000x4.Idx) (q : dot_S2000x64_S64x4_S2000x4_1_0_0_1_n_n.contr.Idx) :
    (dot_S2000x64_S64x4_S2000x4_1_0_0_1_n_n.rhsIdx i q 0).val = (q ⟨0, Nat.one_pos⟩).val :=
  dot_S2000x64_S64x4_S2000x4_1_0_0_1_n_n.rhsIdx_val_of_single rfl i q
theorem rhs_64x4_1 (i : S2000x4.Idx) (q : dot_S2000x64_S64x4_S2000x4_1_0_0_1_n_n.contr.Idx) :
    (dot_S2000x64_S64x4_S2000x4_1_0_0_1_n_n.rhsIdx i q 1).val = (i 1).val := by
  unfold DotDims.rhsIdx
  rw [dif_neg (show ¬(1 : Fin S64x4.rank) ∈ dot_S2000x64_S64x4_S2000x4_1_0_0_1_n_n.rhsBatch from List.not_mem_nil),
    dif_pos (show (1 : Fin S64x4.rank) ∈ dot_S2000x64_S64x4_S2000x4_1_0_0_1_n_n.rhsNonContracting from List.mem_singleton.mpr rfl)]
  rfl

theorem matmul_64x4_apply (l : FVec Ideal S2000x64 .bf16) (r : FVec Ideal S64x4 .bf16) (i : Fin 2000) (j : Fin 4) :
    matmul (F := Ideal) dot_S2000x64_S64x4_S2000x4_1_0_0_1_n_n none l r (constant S2000x4 .f32 0x00000000#32) (ix2 i j)
      = ∑ k : Fin 64, l (ix2 i k) * r (ix2 k j) := by
  show FloatOps.matmul dot_S2000x64_S64x4_S2000x4_1_0_0_1_n_n none l r (constant S2000x4 .f32 0x00000000#32) (ix2 i j) = _
  rw [Ideal.matmul_constant_zero_apply]
  rw [← Equiv.sum_comp (contrEquiv1 dot_S2000x64_S64x4_S2000x4_1_0_0_1_n_n 64 rfl rfl).symm]
  refine Finset.sum_congr rfl fun k _ => ?_
  have hk := contrEquiv1_symm_val dot_S2000x64_S64x4_S2000x4_1_0_0_1_n_n 64 rfl rfl k
  have el : dot_S2000x64_S64x4_S2000x4_1_0_0_1_n_n.lhsIdx (ix2 i j) ((contrEquiv1 dot_S2000x64_S64x4_S2000x4_1_0_0_1_n_n 64 rfl rfl).symm k) = ix2 i k :=
    funext fun a => Fin.ext (by
      match a with
      | ⟨0, _⟩ => exact lhs_64x4_0 _ _
      | ⟨1, _⟩ => exact (lhs_64x4_1 _ _).trans hk)
  have er : dot_S2000x64_S64x4_S2000x4_1_0_0_1_n_n.rhsIdx (ix2 i j) ((contrEquiv1 dot_S2000x64_S64x4_S2000x4_1_0_0_1_n_n 64 rfl rfl).symm k) = ix2 k j :=
    funext fun a => Fin.ext (by
      match a with
      | ⟨0, _⟩ => exact (rhs_64x4_0 _ _).trans hk
      | ⟨1, _⟩ => exact rhs_64x4_1 _ _)
  rw [el, er]

theorem lhs_4x1_0 (i : S2000x1.Idx) (q : dot_S2000x4_S4x1_S2000x1_1_0_0_1_n_n.contr.Idx) :
    (dot_S2000x4_S4x1_S2000x1_1_0_0_1_n_n.lhsIdx i q 0).val = (i 0).val := by
  unfold DotDims.lhsIdx
  rw [dif_neg (show ¬(0 : Fin S2000x4.rank) ∈ dot_S2000x4_S4x1_S2000x1_1_0_0_1_n_n.lhsBatch from List.not_mem_nil),
    dif_pos (show (0 : Fin S2000x4.rank) ∈ dot_S2000x4_S4x1_S2000x1_1_0_0_1_n_n.lhsNonContracting from List.mem_singleton.mpr rfl)]
  rfl
theorem lhs_4x1_1 (i : S2000x1.Idx) (q : dot_S2000x4_S4x1_S2000x1_1_0_0_1_n_n.contr.Idx) :
    (dot_S2000x4_S4x1_S2000x1_1_0_0_1_n_n.lhsIdx i q 1).val = (q ⟨0, Nat.one_pos⟩).val :=
  dot_S2000x4_S4x1_S2000x1_1_0_0_1_n_n.lhsIdx_val_of_single rfl i q
theorem rhs_4x1_0 (i : S2000x1.Idx) (q : dot_S2000x4_S4x1_S2000x1_1_0_0_1_n_n.contr.Idx) :
    (dot_S2000x4_S4x1_S2000x1_1_0_0_1_n_n.rhsIdx i q 0).val = (q ⟨0, Nat.one_pos⟩).val :=
  dot_S2000x4_S4x1_S2000x1_1_0_0_1_n_n.rhsIdx_val_of_single rfl i q
theorem rhs_4x1_1 (i : S2000x1.Idx) (q : dot_S2000x4_S4x1_S2000x1_1_0_0_1_n_n.contr.Idx) :
    (dot_S2000x4_S4x1_S2000x1_1_0_0_1_n_n.rhsIdx i q 1).val = (i 1).val := by
  unfold DotDims.rhsIdx
  rw [dif_neg (show ¬(1 : Fin S4x1.rank) ∈ dot_S2000x4_S4x1_S2000x1_1_0_0_1_n_n.rhsBatch from List.not_mem_nil),
    dif_pos (show (1 : Fin S4x1.rank) ∈ dot_S2000x4_S4x1_S2000x1_1_0_0_1_n_n.rhsNonContracting from List.mem_singleton.mpr rfl)]
  rfl

theorem matmul_4x1_apply (l : FVec Ideal S2000x4 .bf16) (r : FVec Ideal S4x1 .bf16) (i : Fin 2000) (j : Fin 1) :
    matmul (F := Ideal) dot_S2000x4_S4x1_S2000x1_1_0_0_1_n_n none l r (constant S2000x1 .f32 0x00000000#32) (ix2 i j)
      = ∑ k : Fin 4, l (ix2 i k) * r (ix2 k j) := by
  show FloatOps.matmul dot_S2000x4_S4x1_S2000x1_1_0_0_1_n_n none l r (constant S2000x1 .f32 0x00000000#32) (ix2 i j) = _
  rw [Ideal.matmul_constant_zero_apply]
  rw [← Equiv.sum_comp (contrEquiv1 dot_S2000x4_S4x1_S2000x1_1_0_0_1_n_n 4 rfl rfl).symm]
  refine Finset.sum_congr rfl fun k _ => ?_
  have hk := contrEquiv1_symm_val dot_S2000x4_S4x1_S2000x1_1_0_0_1_n_n 4 rfl rfl k
  have el : dot_S2000x4_S4x1_S2000x1_1_0_0_1_n_n.lhsIdx (ix2 i j) ((contrEquiv1 dot_S2000x4_S4x1_S2000x1_1_0_0_1_n_n 4 rfl rfl).symm k) = ix2 i k :=
    funext fun a => Fin.ext (by
      match a with
      | ⟨0, _⟩ => exact lhs_4x1_0 _ _
      | ⟨1, _⟩ => exact (lhs_4x1_1 _ _).trans hk)
  have er : dot_S2000x4_S4x1_S2000x1_1_0_0_1_n_n.rhsIdx (ix2 i j) ((contrEquiv1 dot_S2000x4_S4x1_S2000x1_1_0_0_1_n_n 4 rfl rfl).symm k) = ix2 k j :=
    funext fun a => Fin.ext (by
      match a with
      | ⟨0, _⟩ => exact (rhs_4x1_0 _ _).trans hk
      | ⟨1, _⟩ => exact rhs_4x1_1 _ _)
  rw [el, er]

theorem lhs_64x64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch from List.not_mem_nil),
    dif_pos (show (0 : Fin S2000x64.rank) ∈ dot_S2000x64_S64x64_S2000x64_1_0_0_1_n_n.lhsNonContracting from List.mem_singleton.mpr rfl)]
  rfl
theorem lhs_64x64_1 (i : S2000x64.Idx) (q : dot_S2000x64_S64x64_S2000x64_1_0_0_1_n_n.contr.Idx) :
    (dot_S2000x64_S64x64_S2000x64_1_0_0_1_n_n.lhsIdx i q 1).val = (q ⟨0, Nat.one_pos⟩).val :=
  dot_S2000x64_S64x64_S2000x64_1_0_0_1_n_n.lhsIdx_val_of_single rfl i q
theorem rhs_64x64_0 (i : S2000x64.Idx) (q : dot_S2000x64_S64x64_S2000x64_1_0_0_1_n_n.contr.Idx) :
    (dot_S2000x64_S64x64_S2000x64_1_0_0_1_n_n.rhsIdx i q 0).val = (q ⟨0, Nat.one_pos⟩).val :=
  dot_S2000x64_S64x64_S2000x64_1_0_0_1_n_n.rhsIdx_val_of_single rfl i q
theorem rhs_64x64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch from List.not_mem_nil),
    dif_pos (show (1 : Fin S64x64.rank) ∈ dot_S2000x64_S64x64_S2000x64_1_0_0_1_n_n.rhsNonContracting from List.mem_singleton.mpr rfl)]
  rfl

theorem matmul_64x64_apply (l : FVec Ideal S2000x64 .bf16) (r : FVec Ideal S64x64 .bf16) (i : Fin 2000) (j : Fin 64) :
    matmul (F := Ideal) dot_S2000x64_S64x64_S2000x64_1_0_0_1_n_n none l r (constant S2000x64 .f32 0x00000000#32) (ix2 i j)
      = ∑ k : Fin 64, l (ix2 i k) * r (ix2 k j) := by
  show FloatOps.matmul dot_S2000x64_S64x64_S2000x64_1_0_0_1_n_n none l r (constant S2000x64 .f32 0x00000000#32) (ix2 i j) = _
  rw [Ideal.matmul_constant_zero_apply]
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 i j) ((contrEquiv1 dot_S2000x64_S64x64_S2000x64_1_0_0_1_n_n 64 rfl rfl).symm k) = ix2 i k :=
    funext fun a => Fin.ext (by
      match a with
      | ⟨0, _⟩ => exact lhs_64x64_0 _ _
      | ⟨1, _⟩ => exact (lhs_64x64_1 _ _).trans hk)
  have er : dot_S2000x64_S64x64_S2000x64_1_0_0_1_n_n.rhsIdx (ix2 i j) ((contrEquiv1 dot_S2000x64_S64x64_S2000x64_1_0_0_1_n_n 64 rfl rfl).symm k) = ix2 k j :=
    funext fun a => Fin.ext (by
      match a with
      | ⟨0, _⟩ => exact (rhs_64x64_0 _ _).trans hk
      | ⟨1, _⟩ => exact rhs_64x64_1 _ _)
  rw [el, er]

theorem lhs_64x128_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch from List.not_mem_nil),
    dif_pos (show (0 : Fin S2000x64.rank) ∈ dot_S2000x64_S64x128_S2000x128_1_0_0_1_n_n.lhsNonContracting from List.mem_singleton.mpr rfl)]
  rfl
theorem lhs_64x128_1 (i : S2000x128.Idx) (q : dot_S2000x64_S64x128_S2000x128_1_0_0_1_n_n.contr.Idx) :
    (dot_S2000x64_S64x128_S2000x128_1_0_0_1_n_n.lhsIdx i q 1).val = (q ⟨0, Nat.one_pos⟩).val :=
  dot_S2000x64_S64x128_S2000x128_1_0_0_1_n_n.lhsIdx_val_of_single rfl i q
theorem rhs_64x128_0 (i : S2000x128.Idx) (q : dot_S2000x64_S64x128_S2000x128_1_0_0_1_n_n.contr.Idx) :
    (dot_S2000x64_S64x128_S2000x128_1_0_0_1_n_n.rhsIdx i q 0).val = (q ⟨0, Nat.one_pos⟩).val :=
  dot_S2000x64_S64x128_S2000x128_1_0_0_1_n_n.rhsIdx_val_of_single rfl i q
theorem rhs_64x128_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch from List.not_mem_nil),
    dif_pos (show (1 : Fin S64x128.rank) ∈ dot_S2000x64_S64x128_S2000x128_1_0_0_1_n_n.rhsNonContracting from List.mem_singleton.mpr rfl)]
  rfl

theorem matmul_64x128_apply (l : FVec Ideal S2000x64 .bf16) (r : FVec Ideal S64x128 .bf16) (i : Fin 2000) (j : Fin 128) :
    matmul (F := Ideal) dot_S2000x64_S64x128_S2000x128_1_0_0_1_n_n none l r (constant S2000x128 .f32 0x00000000#32) (ix2 i j)
      = ∑ k : Fin 64, l (ix2 i k) * r (ix2 k j) := by
  show FloatOps.matmul dot_S2000x64_S64x128_S2000x128_1_0_0_1_n_n none l r (constant S2000x128 .f32 0x00000000#32) (ix2 i j) = _
  rw [Ideal.matmul_constant_zero_apply]
  rw [← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 i j) ((contrEquiv1 dot_S2000x64_S64x128_S2000x128_1_0_0_1_n_n 64 rfl rfl).symm k) = ix2 i k :=
    funext fun a => Fin.ext (by
      match a with
      | ⟨0, _⟩ => exact lhs_64x128_0 _ _
      | ⟨1, _⟩ => exact (lhs_64x128_1 _ _).trans hk)
  have er : dot_S2000x64_S64x128_S2000x128_1_0_0_1_n_n.rhsIdx (ix2 i j) ((contrEquiv1 dot_S2000x64_S64x128_S2000x128_1_0_0_1_n_n 64 rfl rfl).symm k) = ix2 k j :=
    funext fun a => Fin.ext (by
      match a with
      | ⟨0, _⟩ => exact (rhs_64x128_0 _ _).trans hk
      | ⟨1, _⟩ => exact rhs_64x128_1 _ _)
  rw [el, er]

theorem broadcastTo_row128_apply {α : Type} (v : S1x128.Idx → α) (i : Fin 2000) (k : Fin 128) :
    broadcastTo S2000x128 v broadcasts_S1x128_S2000x128 (ix2 i k) = v (ix2 0 k) :=
  broadcastTo_1b_ab_apply v broadcasts_S1x128_S2000x128 i k

theorem broadcastTo_row64_apply {α : Type} (v : S1x64.Idx → α) (i : Fin 2000) (k : Fin 64) :
    broadcastTo S2000x64 v broadcasts_S1x64_S2000x64 (ix2 i k) = v (ix2 0 k) :=
  broadcastTo_1b_ab_apply v broadcasts_S1x64_S2000x64 i k

theorem broadcastTo_row4_apply {α : Type} (v : S1x4.Idx → α) (i : Fin 2000) (k : Fin 4) :
    broadcastTo S2000x4 v broadcasts_S1x4_S2000x4 (ix2 i k) = v (ix2 0 k) :=
  broadcastTo_1b_ab_apply v broadcasts_S1x4_S2000x4 i k

theorem broadcastTo_row1_apply {α : Type} (v : S1x1.Idx → α) (i : Fin 2000) (k : Fin 1) :
    broadcastTo S2000x1 v broadcasts_S1x1_S2000x1 (ix2 i k) = v (ix2 0 k) :=
  broadcastTo_1b_ab_apply v broadcasts_S1x1_S2000x1 i k

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastTo_col64_apply {α : Type} (v : S2000x1.Idx → α) (i : Fin 2000) (j : Fin 64) :
    broadcastTo S2000x64 v broadcasts_S2000x1_S2000x64 (ix2 i j) = v (ix2 i 0) :=
  broadcastTo_a1_ab_apply v broadcasts_S2000x1_S2000x64 i j

theorem shapeCast_self_apply {α : Type} {s : Shape} (v : s.Idx → α) (h : s.ShapeCasts s) (i : s.Idx) :
    shapeCast s v h i = v i :=
  congrFun (shapeCast_self v h) i

theorem broadcast_scalar_apply {α : Type} {s : Shape} (x : α) (i : s.Idx) : broadcast s x i = x := rfl

theorem constant_zero_apply {s : Shape} (i : s.Idx) : constant (F := Ideal) s .f32 0x00000000#32 i = 0 :=
  Ideal.ofBits_zero_f32

theorem broadcastInDim_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 fun a => a.elim0

theorem broadcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

theorem broadcastInDim_row128_apply {α : Type} (v : S128.Idx → α) (u : Fin 1) (k : Fin 128) :
    broadcastInDim S1x128 ![1] bcast_S128_S1x128_1 v (ix2 u k) = v (ix1 k) :=
  broadcastInDim_b_1b_apply v bcast_S128_S1x128_1 u k

theorem broadcastInDim_rows128_apply {α : Type} (v : S1x128.Idx → α) (i : Fin 50000) (k : Fin 128) :
    broadcastInDim S50000x128 ![0, 1] bcast_S1x128_S50000x128_0_1 v (ix2 i k) = v (ix2 0 k) :=
  broadcastInDim_1b_ab_apply v bcast_S1x128_S50000x128_0_1 i k

theorem broadcastInDim_row64_apply {α : Type} (v : S64.Idx → α) (u : Fin 1) (k : Fin 64) :
    broadcastInDim S1x64 ![1] bcast_S64_S1x64_1 v (ix2 u k) = v (ix1 k) :=
  broadcastInDim_b_1b_apply v bcast_S64_S1x64_1 u k

theorem broadcastInDim_rows64_apply {α : Type} (v : S1x64.Idx → α) (i : Fin 50000) (k : Fin 64) :
    broadcastInDim S50000x64 ![0, 1] bcast_S1x64_S50000x64_0_1 v (ix2 i k) = v (ix2 0 k) :=
  broadcastInDim_1b_ab_apply v bcast_S1x64_S50000x64_0_1 i k

theorem reshape_128_1x128_apply {α : Type} (v : S128.Idx → α) (u : Fin 1) (k : Fin 128) :
    shapeCast S1x128 v shapeCasts_S128_S1x128 (ix2 u k) = v (ix1 k) :=
  shapeCast_a_1a_apply v shapeCasts_S128_S1x128 u k

theorem reshape_64_1x64_apply {α : Type} (v : S64.Idx → α) (u : Fin 1) (k : Fin 64) :
    shapeCast S1x64 v shapeCasts_S64_S1x64 (ix2 u k) = v (ix1 k) :=
  shapeCast_a_1a_apply v shapeCasts_S64_S1x64 u k

theorem reshape_4_1x4_apply {α : Type} (v : S4.Idx → α) (u : Fin 1) (k : Fin 4) :
    shapeCast S1x4 v shapeCasts_S4_S1x4 (ix2 u k) = v (ix1 k) :=
  shapeCast_a_1a_apply v shapeCasts_S4_S1x4 u k

theorem reshape_1_1x1_apply {α : Type} (v : S1.Idx → α) (u : Fin 1) (k : Fin 1) :
    shapeCast S1x1 v shapeCasts_S1_S1x1 (ix2 u k) = v (ix1 k) :=
  shapeCast_a_1a_apply v shapeCasts_S1_S1x1 u k

theorem reshape_1x64_64_apply {α : Type} (v : S1x64.Idx → α) (k : Fin 64) :
    shapeCast S64 v shapeCasts_S1x64_S64 (ix1 k) = v (ix2 0 k) :=
  shapeCast_1a_a_apply v shapeCasts_S1x64_S64 k

theorem reshape_1x4_4_apply {α : Type} (v : S1x4.Idx → α) (k : Fin 4) :
    shapeCast S4 v shapeCasts_S1x4_S4 (ix1 k) = v (ix2 0 k) :=
  shapeCast_1a_a_apply v shapeCasts_S1x4_S4 k

theorem reshape_1x1_1_apply {α : Type} (v : S1x1.Idx → α) (k : Fin 1) :
    shapeCast S1 v shapeCasts_S1x1_S1 (ix1 k) = v (ix2 0 k) :=
  shapeCast_1a_a_apply v shapeCasts_S1x1_S1 k

theorem reshape_1x64x4_64x4_apply {α : Type} (v : S1x64x4.Idx → α) (p : Fin 64) (q : Fin 4) :
    shapeCast S64x4 v shapeCasts_S1x64x4_S64x4 (ix2 p q) = v (ix3 0 p q) :=
  shapeCast_1ab_ab_apply v shapeCasts_S1x64x4_S64x4 p q

theorem reshape_1x4x1_4x1_apply {α : Type} (v : S1x4x1.Idx → α) (p : Fin 4) (q : Fin 1) :
    shapeCast S4x1 v shapeCasts_S1x4x1_S4x1 (ix2 p q) = v (ix3 0 p q) :=
  shapeCast_1ab_ab_apply v shapeCasts_S1x4x1_S4x1 p q

theorem reshape_1x64x64_64x64_apply {α : Type} (v : S1x64x64.Idx → α) (p : Fin 64) (q : Fin 64) :
    shapeCast S64x64 v shapeCasts_S1x64x64_S64x64 (ix2 p q) = v (ix3 0 p q) :=
  shapeCast_1ab_ab_apply v shapeCasts_S1x64x64_S64x64 p q

theorem slice_S9x64x4_apply {α : Type} (l : Fin 9) (X : S9x64x4.Idx → α) (h : S9x64x4.Slices ![l.val, 0, 0] S1x64x4)
    (u : Fin 1) (p : Fin 64) (q : Fin 4) :
    extractStridedSlice S1x64x4 ![l.val, 0, 0] X h (ix3 u p q) = X (ix3 l p q) :=
  extractStridedSlice_apply _ X h (ix3 u p q) (ix3 l p q) fun ax => by
    match ax with
    | ⟨0, _⟩ => show l.val = l.val + u.val; have := u.isLt; omega
    | ⟨1, _⟩ => exact (Nat.zero_add _).symm
    | ⟨2, _⟩ => exact (Nat.zero_add _).symm

theorem entry_S9x64x4_apply {α : Type} (l : Fin 9) (X : S9x64x4.Idx → α) (h : S9x64x4.Slices ![l.val, 0, 0] S1x64x4)
    (p : Fin 64) (q : Fin 4) :
    shapeCast S64x4 (extractStridedSlice S1x64x4 ![l.val, 0, 0] X h) shapeCasts_S1x64x4_S64x4 (ix2 p q)
      = X (ix3 l p q) :=
  (reshape_1x64x4_64x4_apply _ p q).trans (slice_S9x64x4_apply l X h 0 p q)

theorem slice_S9x4x1_apply {α : Type} (l : Fin 9) (X : S9x4x1.Idx → α) (h : S9x4x1.Slices ![l.val, 0, 0] S1x4x1)
    (u : Fin 1) (p : Fin 4) (q : Fin 1) :
    extractStridedSlice S1x4x1 ![l.val, 0, 0] X h (ix3 u p q) = X (ix3 l p q) :=
  extractStridedSlice_apply _ X h (ix3 u p q) (ix3 l p q) fun ax => by
    match ax with
    | ⟨0, _⟩ => show l.val = l.val + u.val; have := u.isLt; omega
    | ⟨1, _⟩ => exact (Nat.zero_add _).symm
    | ⟨2, _⟩ => exact (Nat.zero_add _).symm

theorem entry_S9x4x1_apply {α : Type} (l : Fin 9) (X : S9x4x1.Idx → α) (h : S9x4x1.Slices ![l.val, 0, 0] S1x4x1)
    (p : Fin 4) (q : Fin 1) :
    shapeCast S4x1 (extractStridedSlice S1x4x1 ![l.val, 0, 0] X h) shapeCasts_S1x4x1_S4x1 (ix2 p q)
      = X (ix3 l p q) :=
  (reshape_1x4x1_4x1_apply _ p q).trans (slice_S9x4x1_apply l X h 0 p q)

theorem slice_S8x64x64_apply {α : Type} (l : Fin 8) (X : S8x64x64.Idx → α) (h : S8x64x64.Slices ![l.val, 0, 0] S1x64x64)
    (u : Fin 1) (p : Fin 64) (q : Fin 64) :
    extractStridedSlice S1x64x64 ![l.val, 0, 0] X h (ix3 u p q) = X (ix3 l p q) :=
  extractStridedSlice_apply _ X h (ix3 u p q) (ix3 l p q) fun ax => by
    match ax with
    | ⟨0, _⟩ => show l.val = l.val + u.val; have := u.isLt; omega
    | ⟨1, _⟩ => exact (Nat.zero_add _).symm
    | ⟨2, _⟩ => exact (Nat.zero_add _).symm

theorem entry_S8x64x64_apply {α : Type} (l : Fin 8) (X : S8x64x64.Idx → α) (h : S8x64x64.Slices ![l.val, 0, 0] S1x64x64)
    (p : Fin 64) (q : Fin 64) :
    shapeCast S64x64 (extractStridedSlice S1x64x64 ![l.val, 0, 0] X h) shapeCasts_S1x64x64_S64x64 (ix2 p q)
      = X (ix3 l p q) :=
  (reshape_1x64x64_64x64_apply _ p q).trans (slice_S8x64x64_apply l X h 0 p q)

theorem slice_S9x4_apply {α : Type} (l : Fin 9) (X : S9x4.Idx → α) (h : S9x4.Slices ![l.val, 0] S1x4)
    (u : Fin 1) (p : Fin 4) :
    extractStridedSlice S1x4 ![l.val, 0] X h (ix2 u p) = X (ix2 l p) :=
  extractStridedSlice_apply _ X h (ix2 u p) (ix2 l p) fun ax => by
    match ax with
    | ⟨0, _⟩ => show l.val = l.val + u.val; have := u.isLt; omega
    | ⟨1, _⟩ => exact (Nat.zero_add _).symm

theorem entry_S9x4_apply {α : Type} (l : Fin 9) (X : S9x4.Idx → α) (h : S9x4.Slices ![l.val, 0] S1x4) (p : Fin 4) :
    shapeCast S4 (extractStridedSlice S1x4 ![l.val, 0] X h) shapeCasts_S1x4_S4 (ix1 p) = X (ix2 l p) :=
  (reshape_1x4_4_apply _ p).trans (slice_S9x4_apply l X h 0 p)

theorem slice_S9x1_apply {α : Type} (l : Fin 9) (X : S9x1.Idx → α) (h : S9x1.Slices ![l.val, 0] S1x1)
    (u : Fin 1) (p : Fin 1) :
    extractStridedSlice S1x1 ![l.val, 0] X h (ix2 u p) = X (ix2 l p) :=
  extractStridedSlice_apply _ X h (ix2 u p) (ix2 l p) fun ax => by
    match ax with
    | ⟨0, _⟩ => show l.val = l.val + u.val; have := u.isLt; omega
    | ⟨1, _⟩ => exact (Nat.zero_add _).symm

theorem entry_S9x1_apply {α : Type} (l : Fin 9) (X : S9x1.Idx → α) (h : S9x1.Slices ![l.val, 0] S1x1) (p : Fin 1) :
    shapeCast S1 (extractStridedSlice S1x1 ![l.val, 0] X h) shapeCasts_S1x1_S1 (ix1 p) = X (ix2 l p) :=
  (reshape_1x1_1_apply _ p).trans (slice_S9x1_apply l X h 0 p)

theorem slice_S8x64_apply {α : Type} (l : Fin 8) (X : S8x64.Idx → α) (h : S8x64.Slices ![l.val, 0] S1x64)
    (u : Fin 1) (p : Fin 64) :
    extractStridedSlice S1x64 ![l.val, 0] X h (ix2 u p) = X (ix2 l p) :=
  extractStridedSlice_apply _ X h (ix2 u p) (ix2 l p) fun ax => by
    match ax with
    | ⟨0, _⟩ => show l.val = l.val + u.val; have := u.isLt; omega
    | ⟨1, _⟩ => exact (Nat.zero_add _).symm

theorem entry_S8x64_apply {α : Type} (l : Fin 8) (X : S8x64.Idx → α) (h : S8x64.Slices ![l.val, 0] S1x64) (p : Fin 64) :
    shapeCast S64 (extractStridedSlice S1x64 ![l.val, 0] X h) shapeCasts_S1x64_S64 (ix1 p) = X (ix2 l p) :=
  (reshape_1x64_64_apply _ p).trans (slice_S8x64_apply l X h 0 p)

theorem entry_S9x64x4_0 {α : Type} (X : S9x64x4.Idx → α) (p : Fin 64) (q : Fin 4) :
    shapeCast S64x4 (extractStridedSlice S1x64x4 ![0, 0, 0] X slices_S9x64x4_S1x64x4_0_0_0)
      shapeCasts_S1x64x4_S64x4 (ix2 p q) = X (ix3 0 p q) :=
  entry_S9x64x4_apply 0 X slices_S9x64x4_S1x64x4_0_0_0 p q
theorem entry_S9x64x4_1 {α : Type} (X : S9x64x4.Idx → α) (p : Fin 64) (q : Fin 4) :
    shapeCast S64x4 (extractStridedSlice S1x64x4 ![1, 0, 0] X slices_S9x64x4_S1x64x4_1_0_0)
      shapeCasts_S1x64x4_S64x4 (ix2 p q) = X (ix3 1 p q) :=
  entry_S9x64x4_apply 1 X slices_S9x64x4_S1x64x4_1_0_0 p q
theorem entry_S9x64x4_2 {α : Type} (X : S9x64x4.Idx → α) (p : Fin 64) (q : Fin 4) :
    shapeCast S64x4 (extractStridedSlice S1x64x4 ![2, 0, 0] X slices_S9x64x4_S1x64x4_2_0_0)
      shapeCasts_S1x64x4_S64x4 (ix2 p q) = X (ix3 2 p q) :=
  entry_S9x64x4_apply 2 X slices_S9x64x4_S1x64x4_2_0_0 p q
theorem entry_S9x64x4_3 {α : Type} (X : S9x64x4.Idx → α) (p : Fin 64) (q : Fin 4) :
    shapeCast S64x4 (extractStridedSlice S1x64x4 ![3, 0, 0] X slices_S9x64x4_S1x64x4_3_0_0)
      shapeCasts_S1x64x4_S64x4 (ix2 p q) = X (ix3 3 p q) :=
  entry_S9x64x4_apply 3 X slices_S9x64x4_S1x64x4_3_0_0 p q
theorem entry_S9x64x4_4 {α : Type} (X : S9x64x4.Idx → α) (p : Fin 64) (q : Fin 4) :
    shapeCast S64x4 (extractStridedSlice S1x64x4 ![4, 0, 0] X slices_S9x64x4_S1x64x4_4_0_0)
      shapeCasts_S1x64x4_S64x4 (ix2 p q) = X (ix3 4 p q) :=
  entry_S9x64x4_apply 4 X slices_S9x64x4_S1x64x4_4_0_0 p q
theorem entry_S9x64x4_5 {α : Type} (X : S9x64x4.Idx → α) (p : Fin 64) (q : Fin 4) :
    shapeCast S64x4 (extractStridedSlice S1x64x4 ![5, 0, 0] X slices_S9x64x4_S1x64x4_5_0_0)
      shapeCasts_S1x64x4_S64x4 (ix2 p q) = X (ix3 5 p q) :=
  entry_S9x64x4_apply 5 X slices_S9x64x4_S1x64x4_5_0_0 p q
theorem entry_S9x64x4_6 {α : Type} (X : S9x64x4.Idx → α) (p : Fin 64) (q : Fin 4) :
    shapeCast S64x4 (extractStridedSlice S1x64x4 ![6, 0, 0] X slices_S9x64x4_S1x64x4_6_0_0)
      shapeCasts_S1x64x4_S64x4 (ix2 p q) = X (ix3 6 p q) :=
  entry_S9x64x4_apply 6 X slices_S9x64x4_S1x64x4_6_0_0 p q
theorem entry_S9x64x4_7 {α : Type} (X : S9x64x4.Idx → α) (p : Fin 64) (q : Fin 4) :
    shapeCast S64x4 (extractStridedSlice S1x64x4 ![7, 0, 0] X slices_S9x64x4_S1x64x4_7_0_0)
      shapeCasts_S1x64x4_S64x4 (ix2 p q) = X (ix3 7 p q) :=
  entry_S9x64x4_apply 7 X slices_S9x64x4_S1x64x4_7_0_0 p q
theorem entry_S9x64x4_8 {α : Type} (X : S9x64x4.Idx → α) (p : Fin 64) (q : Fin 4) :
    shapeCast S64x4 (extractStridedSlice S1x64x4 ![8, 0, 0] X slices_S9x64x4_S1x64x4_8_0_0)
      shapeCasts_S1x64x4_S64x4 (ix2 p q) = X (ix3 8 p q) :=
  entry_S9x64x4_apply 8 X slices_S9x64x4_S1x64x4_8_0_0 p q
theorem entry_S9x4x1_0 {α : Type} (X : S9x4x1.Idx → α) (p : Fin 4) (q : Fin 1) :
    shapeCast S4x1 (extractStridedSlice S1x4x1 ![0, 0, 0] X slices_S9x4x1_S1x4x1_0_0_0)
      shapeCasts_S1x4x1_S4x1 (ix2 p q) = X (ix3 0 p q) :=
  entry_S9x4x1_apply 0 X slices_S9x4x1_S1x4x1_0_0_0 p q
theorem entry_S9x4x1_1 {α : Type} (X : S9x4x1.Idx → α) (p : Fin 4) (q : Fin 1) :
    shapeCast S4x1 (extractStridedSlice S1x4x1 ![1, 0, 0] X slices_S9x4x1_S1x4x1_1_0_0)
      shapeCasts_S1x4x1_S4x1 (ix2 p q) = X (ix3 1 p q) :=
  entry_S9x4x1_apply 1 X slices_S9x4x1_S1x4x1_1_0_0 p q
theorem entry_S9x4x1_2 {α : Type} (X : S9x4x1.Idx → α) (p : Fin 4) (q : Fin 1) :
    shapeCast S4x1 (extractStridedSlice S1x4x1 ![2, 0, 0] X slices_S9x4x1_S1x4x1_2_0_0)
      shapeCasts_S1x4x1_S4x1 (ix2 p q) = X (ix3 2 p q) :=
  entry_S9x4x1_apply 2 X slices_S9x4x1_S1x4x1_2_0_0 p q
theorem entry_S9x4x1_3 {α : Type} (X : S9x4x1.Idx → α) (p : Fin 4) (q : Fin 1) :
    shapeCast S4x1 (extractStridedSlice S1x4x1 ![3, 0, 0] X slices_S9x4x1_S1x4x1_3_0_0)
      shapeCasts_S1x4x1_S4x1 (ix2 p q) = X (ix3 3 p q) :=
  entry_S9x4x1_apply 3 X slices_S9x4x1_S1x4x1_3_0_0 p q
theorem entry_S9x4x1_4 {α : Type} (X : S9x4x1.Idx → α) (p : Fin 4) (q : Fin 1) :
    shapeCast S4x1 (extractStridedSlice S1x4x1 ![4, 0, 0] X slices_S9x4x1_S1x4x1_4_0_0)
      shapeCasts_S1x4x1_S4x1 (ix2 p q) = X (ix3 4 p q) :=
  entry_S9x4x1_apply 4 X slices_S9x4x1_S1x4x1_4_0_0 p q
theorem entry_S9x4x1_5 {α : Type} (X : S9x4x1.Idx → α) (p : Fin 4) (q : Fin 1) :
    shapeCast S4x1 (extractStridedSlice S1x4x1 ![5, 0, 0] X slices_S9x4x1_S1x4x1_5_0_0)
      shapeCasts_S1x4x1_S4x1 (ix2 p q) = X (ix3 5 p q) :=
  entry_S9x4x1_apply 5 X slices_S9x4x1_S1x4x1_5_0_0 p q
theorem entry_S9x4x1_6 {α : Type} (X : S9x4x1.Idx → α) (p : Fin 4) (q : Fin 1) :
    shapeCast S4x1 (extractStridedSlice S1x4x1 ![6, 0, 0] X slices_S9x4x1_S1x4x1_6_0_0)
      shapeCasts_S1x4x1_S4x1 (ix2 p q) = X (ix3 6 p q) :=
  entry_S9x4x1_apply 6 X slices_S9x4x1_S1x4x1_6_0_0 p q
theorem entry_S9x4x1_7 {α : Type} (X : S9x4x1.Idx → α) (p : Fin 4) (q : Fin 1) :
    shapeCast S4x1 (extractStridedSlice S1x4x1 ![7, 0, 0] X slices_S9x4x1_S1x4x1_7_0_0)
      shapeCasts_S1x4x1_S4x1 (ix2 p q) = X (ix3 7 p q) :=
  entry_S9x4x1_apply 7 X slices_S9x4x1_S1x4x1_7_0_0 p q
theorem entry_S9x4x1_8 {α : Type} (X : S9x4x1.Idx → α) (p : Fin 4) (q : Fin 1) :
    shapeCast S4x1 (extractStridedSlice S1x4x1 ![8, 0, 0] X slices_S9x4x1_S1x4x1_8_0_0)
      shapeCasts_S1x4x1_S4x1 (ix2 p q) = X (ix3 8 p q) :=
  entry_S9x4x1_apply 8 X slices_S9x4x1_S1x4x1_8_0_0 p q
theorem entry_S8x64x64_0 {α : Type} (X : S8x64x64.Idx → α) (p : Fin 64) (q : Fin 64) :
    shapeCast S64x64 (extractStridedSlice S1x64x64 ![0, 0, 0] X slices_S8x64x64_S1x64x64_0_0_0)
      shapeCasts_S1x64x64_S64x64 (ix2 p q) = X (ix3 0 p q) :=
  entry_S8x64x64_apply 0 X slices_S8x64x64_S1x64x64_0_0_0 p q
theorem entry_S8x64x64_1 {α : Type} (X : S8x64x64.Idx → α) (p : Fin 64) (q : Fin 64) :
    shapeCast S64x64 (extractStridedSlice S1x64x64 ![1, 0, 0] X slices_S8x64x64_S1x64x64_1_0_0)
      shapeCasts_S1x64x64_S64x64 (ix2 p q) = X (ix3 1 p q) :=
  entry_S8x64x64_apply 1 X slices_S8x64x64_S1x64x64_1_0_0 p q
theorem entry_S8x64x64_2 {α : Type} (X : S8x64x64.Idx → α) (p : Fin 64) (q : Fin 64) :
    shapeCast S64x64 (extractStridedSlice S1x64x64 ![2, 0, 0] X slices_S8x64x64_S1x64x64_2_0_0)
      shapeCasts_S1x64x64_S64x64 (ix2 p q) = X (ix3 2 p q) :=
  entry_S8x64x64_apply 2 X slices_S8x64x64_S1x64x64_2_0_0 p q
theorem entry_S8x64x64_3 {α : Type} (X : S8x64x64.Idx → α) (p : Fin 64) (q : Fin 64) :
    shapeCast S64x64 (extractStridedSlice S1x64x64 ![3, 0, 0] X slices_S8x64x64_S1x64x64_3_0_0)
      shapeCasts_S1x64x64_S64x64 (ix2 p q) = X (ix3 3 p q) :=
  entry_S8x64x64_apply 3 X slices_S8x64x64_S1x64x64_3_0_0 p q
theorem entry_S8x64x64_4 {α : Type} (X : S8x64x64.Idx → α) (p : Fin 64) (q : Fin 64) :
    shapeCast S64x64 (extractStridedSlice S1x64x64 ![4, 0, 0] X slices_S8x64x64_S1x64x64_4_0_0)
      shapeCasts_S1x64x64_S64x64 (ix2 p q) = X (ix3 4 p q) :=
  entry_S8x64x64_apply 4 X slices_S8x64x64_S1x64x64_4_0_0 p q
theorem entry_S8x64x64_5 {α : Type} (X : S8x64x64.Idx → α) (p : Fin 64) (q : Fin 64) :
    shapeCast S64x64 (extractStridedSlice S1x64x64 ![5, 0, 0] X slices_S8x64x64_S1x64x64_5_0_0)
      shapeCasts_S1x64x64_S64x64 (ix2 p q) = X (ix3 5 p q) :=
  entry_S8x64x64_apply 5 X slices_S8x64x64_S1x64x64_5_0_0 p q
theorem entry_S8x64x64_6 {α : Type} (X : S8x64x64.Idx → α) (p : Fin 64) (q : Fin 64) :
    shapeCast S64x64 (extractStridedSlice S1x64x64 ![6, 0, 0] X slices_S8x64x64_S1x64x64_6_0_0)
      shapeCasts_S1x64x64_S64x64 (ix2 p q) = X (ix3 6 p q) :=
  entry_S8x64x64_apply 6 X slices_S8x64x64_S1x64x64_6_0_0 p q
theorem entry_S8x64x64_7 {α : Type} (X : S8x64x64.Idx → α) (p : Fin 64) (q : Fin 64) :
    shapeCast S64x64 (extractStridedSlice S1x64x64 ![7, 0, 0] X slices_S8x64x64_S1x64x64_7_0_0)
      shapeCasts_S1x64x64_S64x64 (ix2 p q) = X (ix3 7 p q) :=
  entry_S8x64x64_apply 7 X slices_S8x64x64_S1x64x64_7_0_0 p q

theorem entry_S9x4_0 {α : Type} (X : S9x4.Idx → α) (p : Fin 4) :
    shapeCast S4 (extractStridedSlice S1x4 ![0, 0] X slices_S9x4_S1x4_0_0) shapeCasts_S1x4_S4 (ix1 p)
      = X (ix2 0 p) :=
  entry_S9x4_apply 0 X slices_S9x4_S1x4_0_0 p
theorem entry_S9x4_1 {α : Type} (X : S9x4.Idx → α) (p : Fin 4) :
    shapeCast S4 (extractStridedSlice S1x4 ![1, 0] X slices_S9x4_S1x4_1_0) shapeCasts_S1x4_S4 (ix1 p)
      = X (ix2 1 p) :=
  entry_S9x4_apply 1 X slices_S9x4_S1x4_1_0 p
theorem entry_S9x4_2 {α : Type} (X : S9x4.Idx → α) (p : Fin 4) :
    shapeCast S4 (extractStridedSlice S1x4 ![2, 0] X slices_S9x4_S1x4_2_0) shapeCasts_S1x4_S4 (ix1 p)
      = X (ix2 2 p) :=
  entry_S9x4_apply 2 X slices_S9x4_S1x4_2_0 p
theorem entry_S9x4_3 {α : Type} (X : S9x4.Idx → α) (p : Fin 4) :
    shapeCast S4 (extractStridedSlice S1x4 ![3, 0] X slices_S9x4_S1x4_3_0) shapeCasts_S1x4_S4 (ix1 p)
      = X (ix2 3 p) :=
  entry_S9x4_apply 3 X slices_S9x4_S1x4_3_0 p
theorem entry_S9x4_4 {α : Type} (X : S9x4.Idx → α) (p : Fin 4) :
    shapeCast S4 (extractStridedSlice S1x4 ![4, 0] X slices_S9x4_S1x4_4_0) shapeCasts_S1x4_S4 (ix1 p)
      = X (ix2 4 p) :=
  entry_S9x4_apply 4 X slices_S9x4_S1x4_4_0 p
theorem entry_S9x4_5 {α : Type} (X : S9x4.Idx → α) (p : Fin 4) :
    shapeCast S4 (extractStridedSlice S1x4 ![5, 0] X slices_S9x4_S1x4_5_0) shapeCasts_S1x4_S4 (ix1 p)
      = X (ix2 5 p) :=
  entry_S9x4_apply 5 X slices_S9x4_S1x4_5_0 p
theorem entry_S9x4_6 {α : Type} (X : S9x4.Idx → α) (p : Fin 4) :
    shapeCast S4 (extractStridedSlice S1x4 ![6, 0] X slices_S9x4_S1x4_6_0) shapeCasts_S1x4_S4 (ix1 p)
      = X (ix2 6 p) :=
  entry_S9x4_apply 6 X slices_S9x4_S1x4_6_0 p
theorem entry_S9x4_7 {α : Type} (X : S9x4.Idx → α) (p : Fin 4) :
    shapeCast S4 (extractStridedSlice S1x4 ![7, 0] X slices_S9x4_S1x4_7_0) shapeCasts_S1x4_S4 (ix1 p)
      = X (ix2 7 p) :=
  entry_S9x4_apply 7 X slices_S9x4_S1x4_7_0 p
theorem entry_S9x4_8 {α : Type} (X : S9x4.Idx → α) (p : Fin 4) :
    shapeCast S4 (extractStridedSlice S1x4 ![8, 0] X slices_S9x4_S1x4_8_0) shapeCasts_S1x4_S4 (ix1 p)
      = X (ix2 8 p) :=
  entry_S9x4_apply 8 X slices_S9x4_S1x4_8_0 p
theorem entry_S9x1_0 {α : Type} (X : S9x1.Idx → α) (p : Fin 1) :
    shapeCast S1 (extractStridedSlice S1x1 ![0, 0] X slices_S9x1_S1x1_0_0) shapeCasts_S1x1_S1 (ix1 p)
      = X (ix2 0 p) :=
  entry_S9x1_apply 0 X slices_S9x1_S1x1_0_0 p
theorem entry_S9x1_1 {α : Type} (X : S9x1.Idx → α) (p : Fin 1) :
    shapeCast S1 (extractStridedSlice S1x1 ![1, 0] X slices_S9x1_S1x1_1_0) shapeCasts_S1x1_S1 (ix1 p)
      = X (ix2 1 p) :=
  entry_S9x1_apply 1 X slices_S9x1_S1x1_1_0 p
theorem entry_S9x1_2 {α : Type} (X : S9x1.Idx → α) (p : Fin 1) :
    shapeCast S1 (extractStridedSlice S1x1 ![2, 0] X slices_S9x1_S1x1_2_0) shapeCasts_S1x1_S1 (ix1 p)
      = X (ix2 2 p) :=
  entry_S9x1_apply 2 X slices_S9x1_S1x1_2_0 p
theorem entry_S9x1_3 {α : Type} (X : S9x1.Idx → α) (p : Fin 1) :
    shapeCast S1 (extractStridedSlice S1x1 ![3, 0] X slices_S9x1_S1x1_3_0) shapeCasts_S1x1_S1 (ix1 p)
      = X (ix2 3 p) :=
  entry_S9x1_apply 3 X slices_S9x1_S1x1_3_0 p
theorem entry_S9x1_4 {α : Type} (X : S9x1.Idx → α) (p : Fin 1) :
    shapeCast S1 (extractStridedSlice S1x1 ![4, 0] X slices_S9x1_S1x1_4_0) shapeCasts_S1x1_S1 (ix1 p)
      = X (ix2 4 p) :=
  entry_S9x1_apply 4 X slices_S9x1_S1x1_4_0 p
theorem entry_S9x1_5 {α : Type} (X : S9x1.Idx → α) (p : Fin 1) :
    shapeCast S1 (extractStridedSlice S1x1 ![5, 0] X slices_S9x1_S1x1_5_0) shapeCasts_S1x1_S1 (ix1 p)
      = X (ix2 5 p) :=
  entry_S9x1_apply 5 X slices_S9x1_S1x1_5_0 p
theorem entry_S9x1_6 {α : Type} (X : S9x1.Idx → α) (p : Fin 1) :
    shapeCast S1 (extractStridedSlice S1x1 ![6, 0] X slices_S9x1_S1x1_6_0) shapeCasts_S1x1_S1 (ix1 p)
      = X (ix2 6 p) :=
  entry_S9x1_apply 6 X slices_S9x1_S1x1_6_0 p
theorem entry_S9x1_7 {α : Type} (X : S9x1.Idx → α) (p : Fin 1) :
    shapeCast S1 (extractStridedSlice S1x1 ![7, 0] X slices_S9x1_S1x1_7_0) shapeCasts_S1x1_S1 (ix1 p)
      = X (ix2 7 p) :=
  entry_S9x1_apply 7 X slices_S9x1_S1x1_7_0 p
theorem entry_S9x1_8 {α : Type} (X : S9x1.Idx → α) (p : Fin 1) :
    shapeCast S1 (extractStridedSlice S1x1 ![8, 0] X slices_S9x1_S1x1_8_0) shapeCasts_S1x1_S1 (ix1 p)
      = X (ix2 8 p) :=
  entry_S9x1_apply 8 X slices_S9x1_S1x1_8_0 p
theorem entry_S8x64_0 {α : Type} (X : S8x64.Idx → α) (p : Fin 64) :
    shapeCast S64 (extractStridedSlice S1x64 ![0, 0] X slices_S8x64_S1x64_0_0) shapeCasts_S1x64_S64 (ix1 p)
      = X (ix2 0 p) :=
  entry_S8x64_apply 0 X slices_S8x64_S1x64_0_0 p
theorem entry_S8x64_1 {α : Type} (X : S8x64.Idx → α) (p : Fin 64) :
    shapeCast S64 (extractStridedSlice S1x64 ![1, 0] X slices_S8x64_S1x64_1_0) shapeCasts_S1x64_S64 (ix1 p)
      = X (ix2 1 p) :=
  entry_S8x64_apply 1 X slices_S8x64_S1x64_1_0 p
theorem entry_S8x64_2 {α : Type} (X : S8x64.Idx → α) (p : Fin 64) :
    shapeCast S64 (extractStridedSlice S1x64 ![2, 0] X slices_S8x64_S1x64_2_0) shapeCasts_S1x64_S64 (ix1 p)
      = X (ix2 2 p) :=
  entry_S8x64_apply 2 X slices_S8x64_S1x64_2_0 p
theorem entry_S8x64_3 {α : Type} (X : S8x64.Idx → α) (p : Fin 64) :
    shapeCast S64 (extractStridedSlice S1x64 ![3, 0] X slices_S8x64_S1x64_3_0) shapeCasts_S1x64_S64 (ix1 p)
      = X (ix2 3 p) :=
  entry_S8x64_apply 3 X slices_S8x64_S1x64_3_0 p
theorem entry_S8x64_4 {α : Type} (X : S8x64.Idx → α) (p : Fin 64) :
    shapeCast S64 (extractStridedSlice S1x64 ![4, 0] X slices_S8x64_S1x64_4_0) shapeCasts_S1x64_S64 (ix1 p)
      = X (ix2 4 p) :=
  entry_S8x64_apply 4 X slices_S8x64_S1x64_4_0 p
theorem entry_S8x64_5 {α : Type} (X : S8x64.Idx → α) (p : Fin 64) :
    shapeCast S64 (extractStridedSlice S1x64 ![5, 0] X slices_S8x64_S1x64_5_0) shapeCasts_S1x64_S64 (ix1 p)
      = X (ix2 5 p) :=
  entry_S8x64_apply 5 X slices_S8x64_S1x64_5_0 p
theorem entry_S8x64_6 {α : Type} (X : S8x64.Idx → α) (p : Fin 64) :
    shapeCast S64 (extractStridedSlice S1x64 ![6, 0] X slices_S8x64_S1x64_6_0) shapeCasts_S1x64_S64 (ix1 p)
      = X (ix2 6 p) :=
  entry_S8x64_apply 6 X slices_S8x64_S1x64_6_0 p
theorem entry_S8x64_7 {α : Type} (X : S8x64.Idx → α) (p : Fin 64) :
    shapeCast S64 (extractStridedSlice S1x64 ![7, 0] X slices_S8x64_S1x64_7_0) shapeCasts_S1x64_S64 (ix1 p)
      = X (ix2 7 p) :=
  entry_S8x64_apply 7 X slices_S8x64_S1x64_7_0 p

theorem leaky_apply {s : Shape} (v : FVec Ideal s .f32) (i : s.Idx) :
    select (cmpf .oge v (broadcast s (Scalar.ofBits (F := Ideal) .f32 0x00000000#32))) v
        (mulf (broadcast s (Scalar.ofBits (F := Ideal) .f32 0x3E4CCCCD#32)) v) i
      = Spec.leaky (v i) := by
  show Scalar.select (Ideal.cmp .oge (v i) (Ideal.ofBits .f32 0x00000000#32)) (v i)
      (Ideal.ofBits .f32 0x3E4CCCCD#32 * v i) = _
  rw [Ideal.ofBits_zero_f32]
  rfl

theorem relu_apply {s : Shape} (v : FVec Ideal s .f32) (i : s.Idx) :
    maximumf v (broadcast s (Scalar.ofBits (F := Ideal) .f32 0x00000000#32)) i = Spec.relu (v i) := by
  show max (v i) (Ideal.ofBits .f32 0x00000000#32) = _
  rw [Ideal.ofBits_zero_f32]
  rfl

theorem logistic_apply {s : Shape} (v : FVec Ideal s .f32) (i : s.Idx) : logistic v i = Ideal.logistic (v i) := rfl

end

end Cert.KernelIdeal.ReadOps

namespace Cert.ReferenceIdeal.ReadOps

open Cert.ReferenceIdeal
open Idealize.ShloMosaic Idealize.ShloMosaic.ValueIdx

section
variable [Facts]
open Facts₀ Facts

theorem lhs_128x128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
theorem lhs_128x128_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhs_128x128_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhs_128x128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

theorem dotGeneral_128x128_apply (l : FVec Ideal S50000x128 .f32) (r : FVec Ideal S128x128 .f32) (i : Fin 50000) (j : Fin 128) :
    Host.dotGeneral (F := Ideal) dot_S50000x128_S128x128_S50000x128_1_0_0_1_n_n none l r (ix2 i j) = ∑ k : Fin 128, l (ix2 i k) * r (ix2 k j) := by
  show FloatOps.dotGeneral dot_S50000x128_S128x128_S50000x128_1_0_0_1_n_n none .single l r (ix2 i j) = _
  rw [Ideal.dotGeneral_apply]
  rw [← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 i j) ((contrEquiv1 dot_S50000x128_S128x128_S50000x128_1_0_0_1_n_n 128 rfl rfl).symm k) = ix2 i k :=
    funext fun a => Fin.ext (by
      match a with
      | ⟨0, _⟩ => exact lhs_128x128_0 _ _
      | ⟨1, _⟩ => exact (lhs_128x128_1 _ _).trans hk)
  have er : dot_S50000x128_S128x128_S50000x128_1_0_0_1_n_n.rhsIdx (ix2 i j) ((contrEquiv1 dot_S50000x128_S128x128_S50000x128_1_0_0_1_n_n 128 rfl rfl).symm k) = ix2 k j :=
    funext fun a => Fin.ext (by
      match a with
      | ⟨0, _⟩ => exact (rhs_128x128_0 _ _).trans hk
      | ⟨1, _⟩ => exact rhs_128x128_1 _ _)
  rw [el, er]

theorem lhs_128x64_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch from List.not_mem_nil),
    dif_pos (show (0 : Fin S50000x128.rank) ∈ dot_S50000x128_S128x64_S50000x64_1_0_0_1_n_n.lhsNonContracting from List.mem_singleton.mpr rfl)]
  rfl
theorem lhs_128x64_1 (i : S50000x64.Idx) (q : dot_S50000x128_S128x64_S50000x64_1_0_0_1_n_n.contr.Idx) :
    (dot_S50000x128_S128x64_S50000x64_1_0_0_1_n_n.lhsIdx i q 1).val = (q ⟨0, Nat.one_pos⟩).val :=
  dot_S50000x128_S128x64_S50000x64_1_0_0_1_n_n.lhsIdx_val_of_single rfl i q
theorem rhs_128x64_0 (i : S50000x64.Idx) (q : dot_S50000x128_S128x64_S50000x64_1_0_0_1_n_n.contr.Idx) :
    (dot_S50000x128_S128x64_S50000x64_1_0_0_1_n_n.rhsIdx i q 0).val = (q ⟨0, Nat.one_pos⟩).val :=
  dot_S50000x128_S128x64_S50000x64_1_0_0_1_n_n.rhsIdx_val_of_single rfl i q
theorem rhs_128x64_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch from List.not_mem_nil),
    dif_pos (show (1 : Fin S128x64.rank) ∈ dot_S50000x128_S128x64_S50000x64_1_0_0_1_n_n.rhsNonContracting from List.mem_singleton.mpr rfl)]
  rfl

theorem dotGeneral_128x64_apply (l : FVec Ideal S50000x128 .f32) (r : FVec Ideal S128x64 .f32) (i : Fin 50000) (j : Fin 64) :
    Host.dotGeneral (F := Ideal) dot_S50000x128_S128x64_S50000x64_1_0_0_1_n_n none l r (ix2 i j) = ∑ k : Fin 128, l (ix2 i k) * r (ix2 k j) := by
  show FloatOps.dotGeneral dot_S50000x128_S128x64_S50000x64_1_0_0_1_n_n none .single l r (ix2 i j) = _
  rw [Ideal.dotGeneral_apply]
  rw [← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 i j) ((contrEquiv1 dot_S50000x128_S128x64_S50000x64_1_0_0_1_n_n 128 rfl rfl).symm k) = ix2 i k :=
    funext fun a => Fin.ext (by
      match a with
      | ⟨0, _⟩ => exact lhs_128x64_0 _ _
      | ⟨1, _⟩ => exact (lhs_128x64_1 _ _).trans hk)
  have er : dot_S50000x128_S128x64_S50000x64_1_0_0_1_n_n.rhsIdx (ix2 i j) ((contrEquiv1 dot_S50000x128_S128x64_S50000x64_1_0_0_1_n_n 128 rfl rfl).symm k) = ix2 k j :=
    funext fun a => Fin.ext (by
      match a with
      | ⟨0, _⟩ => exact (rhs_128x64_0 _ _).trans hk
      | ⟨1, _⟩ => exact rhs_128x64_1 _ _)
  rw [el, er]

theorem lhs_64x4_0 (i : S50000x4.Idx) (q : dot_S50000x64_S64x4_S50000x4_1_0_0_1_n_n.contr.Idx) :
    (dot_S50000x64_S64x4_S50000x4_1_0_0_1_n_n.lhsIdx i q 0).val = (i 0).val := by
  unfold DotDims.lhsIdx
  rw [dif_neg (show ¬(0 : Fin S50000x64.rank) ∈ dot_S50000x64_S64x4_S50000x4_1_0_0_1_n_n.lhsBatch from List.not_mem_nil),
    dif_pos (show (0 : Fin S50000x64.rank) ∈ dot_S50000x64_S64x4_S50000x4_1_0_0_1_n_n.lhsNonContracting from List.mem_singleton.mpr rfl)]
  rfl
theorem lhs_64x4_1 (i : S50000x4.Idx) (q : dot_S50000x64_S64x4_S50000x4_1_0_0_1_n_n.contr.Idx) :
    (dot_S50000x64_S64x4_S50000x4_1_0_0_1_n_n.lhsIdx i q 1).val = (q ⟨0, Nat.one_pos⟩).val :=
  dot_S50000x64_S64x4_S50000x4_1_0_0_1_n_n.lhsIdx_val_of_single rfl i q
theorem rhs_64x4_0 (i : S50000x4.Idx) (q : dot_S50000x64_S64x4_S50000x4_1_0_0_1_n_n.contr.Idx) :
    (dot_S50000x64_S64x4_S50000x4_1_0_0_1_n_n.rhsIdx i q 0).val = (q ⟨0, Nat.one_pos⟩).val :=
  dot_S50000x64_S64x4_S50000x4_1_0_0_1_n_n.rhsIdx_val_of_single rfl i q
theorem rhs_64x4_1 (i : S50000x4.Idx) (q : dot_S50000x64_S64x4_S50000x4_1_0_0_1_n_n.contr.Idx) :
    (dot_S50000x64_S64x4_S50000x4_1_0_0_1_n_n.rhsIdx i q 1).val = (i 1).val := by
  unfold DotDims.rhsIdx
  rw [dif_neg (show ¬(1 : Fin S64x4.rank) ∈ dot_S50000x64_S64x4_S50000x4_1_0_0_1_n_n.rhsBatch from List.not_mem_nil),
    dif_pos (show (1 : Fin S64x4.rank) ∈ dot_S50000x64_S64x4_S50000x4_1_0_0_1_n_n.rhsNonContracting from List.mem_singleton.mpr rfl)]
  rfl

theorem dotGeneral_64x4_apply (l : FVec Ideal S50000x64 .f32) (r : FVec Ideal S64x4 .f32) (i : Fin 50000) (j : Fin 4) :
    Host.dotGeneral (F := Ideal) dot_S50000x64_S64x4_S50000x4_1_0_0_1_n_n none l r (ix2 i j) = ∑ k : Fin 64, l (ix2 i k) * r (ix2 k j) := by
  show FloatOps.dotGeneral dot_S50000x64_S64x4_S50000x4_1_0_0_1_n_n none .single l r (ix2 i j) = _
  rw [Ideal.dotGeneral_apply]
  rw [← Equiv.sum_comp (contrEquiv1 dot_S50000x64_S64x4_S50000x4_1_0_0_1_n_n 64 rfl rfl).symm]
  refine Finset.sum_congr rfl fun k _ => ?_
  have hk := contrEquiv1_symm_val dot_S50000x64_S64x4_S50000x4_1_0_0_1_n_n 64 rfl rfl k
  have el : dot_S50000x64_S64x4_S50000x4_1_0_0_1_n_n.lhsIdx (ix2 i j) ((contrEquiv1 dot_S50000x64_S64x4_S50000x4_1_0_0_1_n_n 64 rfl rfl).symm k) = ix2 i k :=
    funext fun a => Fin.ext (by
      match a with
      | ⟨0, _⟩ => exact lhs_64x4_0 _ _
      | ⟨1, _⟩ => exact (lhs_64x4_1 _ _).trans hk)
  have er : dot_S50000x64_S64x4_S50000x4_1_0_0_1_n_n.rhsIdx (ix2 i j) ((contrEquiv1 dot_S50000x64_S64x4_S50000x4_1_0_0_1_n_n 64 rfl rfl).symm k) = ix2 k j :=
    funext fun a => Fin.ext (by
      match a with
      | ⟨0, _⟩ => exact (rhs_64x4_0 _ _).trans hk
      | ⟨1, _⟩ => exact rhs_64x4_1 _ _)
  rw [el, er]

theorem lhs_4x1_0 (i : S50000x1.Idx) (q : dot_S50000x4_S4x1_S50000x1_1_0_0_1_n_n.contr.Idx) :
    (dot_S50000x4_S4x1_S50000x1_1_0_0_1_n_n.lhsIdx i q 0).val = (i 0).val := by
  unfold DotDims.lhsIdx
  rw [dif_neg (show ¬(0 : Fin S50000x4.rank) ∈ dot_S50000x4_S4x1_S50000x1_1_0_0_1_n_n.lhsBatch from List.not_mem_nil),
    dif_pos (show (0 : Fin S50000x4.rank) ∈ dot_S50000x4_S4x1_S50000x1_1_0_0_1_n_n.lhsNonContracting from List.mem_singleton.mpr rfl)]
  rfl
theorem lhs_4x1_1 (i : S50000x1.Idx) (q : dot_S50000x4_S4x1_S50000x1_1_0_0_1_n_n.contr.Idx) :
    (dot_S50000x4_S4x1_S50000x1_1_0_0_1_n_n.lhsIdx i q 1).val = (q ⟨0, Nat.one_pos⟩).val :=
  dot_S50000x4_S4x1_S50000x1_1_0_0_1_n_n.lhsIdx_val_of_single rfl i q
theorem rhs_4x1_0 (i : S50000x1.Idx) (q : dot_S50000x4_S4x1_S50000x1_1_0_0_1_n_n.contr.Idx) :
    (dot_S50000x4_S4x1_S50000x1_1_0_0_1_n_n.rhsIdx i q 0).val = (q ⟨0, Nat.one_pos⟩).val :=
  dot_S50000x4_S4x1_S50000x1_1_0_0_1_n_n.rhsIdx_val_of_single rfl i q
theorem rhs_4x1_1 (i : S50000x1.Idx) (q : dot_S50000x4_S4x1_S50000x1_1_0_0_1_n_n.contr.Idx) :
    (dot_S50000x4_S4x1_S50000x1_1_0_0_1_n_n.rhsIdx i q 1).val = (i 1).val := by
  unfold DotDims.rhsIdx
  rw [dif_neg (show ¬(1 : Fin S4x1.rank) ∈ dot_S50000x4_S4x1_S50000x1_1_0_0_1_n_n.rhsBatch from List.not_mem_nil),
    dif_pos (show (1 : Fin S4x1.rank) ∈ dot_S50000x4_S4x1_S50000x1_1_0_0_1_n_n.rhsNonContracting from List.mem_singleton.mpr rfl)]
  rfl

theorem dotGeneral_4x1_apply (l : FVec Ideal S50000x4 .f32) (r : FVec Ideal S4x1 .f32) (i : Fin 50000) (j : Fin 1) :
    Host.dotGeneral (F := Ideal) dot_S50000x4_S4x1_S50000x1_1_0_0_1_n_n none l r (ix2 i j) = ∑ k : Fin 4, l (ix2 i k) * r (ix2 k j) := by
  show FloatOps.dotGeneral dot_S50000x4_S4x1_S50000x1_1_0_0_1_n_n none .single l r (ix2 i j) = _
  rw [Ideal.dotGeneral_apply]
  rw [← Equiv.sum_comp (contrEquiv1 dot_S50000x4_S4x1_S50000x1_1_0_0_1_n_n 4 rfl rfl).symm]
  refine Finset.sum_congr rfl fun k _ => ?_
  have hk := contrEquiv1_symm_val dot_S50000x4_S4x1_S50000x1_1_0_0_1_n_n 4 rfl rfl k
  have el : dot_S50000x4_S4x1_S50000x1_1_0_0_1_n_n.lhsIdx (ix2 i j) ((contrEquiv1 dot_S50000x4_S4x1_S50000x1_1_0_0_1_n_n 4 rfl rfl).symm k) = ix2 i k :=
    funext fun a => Fin.ext (by
      match a with
      | ⟨0, _⟩ => exact lhs_4x1_0 _ _
      | ⟨1, _⟩ => exact (lhs_4x1_1 _ _).trans hk)
  have er : dot_S50000x4_S4x1_S50000x1_1_0_0_1_n_n.rhsIdx (ix2 i j) ((contrEquiv1 dot_S50000x4_S4x1_S50000x1_1_0_0_1_n_n 4 rfl rfl).symm k) = ix2 k j :=
    funext fun a => Fin.ext (by
      match a with
      | ⟨0, _⟩ => exact (rhs_4x1_0 _ _).trans hk
      | ⟨1, _⟩ => exact rhs_4x1_1 _ _)
  rw [el, er]

theorem lhs_64x64_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch from List.not_mem_nil),
    dif_pos (show (0 : Fin S50000x64.rank) ∈ dot_S50000x64_S64x64_S50000x64_1_0_0_1_n_n.lhsNonContracting from List.mem_singleton.mpr rfl)]
  rfl
theorem lhs_64x64_1 (i : S50000x64.Idx) (q : dot_S50000x64_S64x64_S50000x64_1_0_0_1_n_n.contr.Idx) :
    (dot_S50000x64_S64x64_S50000x64_1_0_0_1_n_n.lhsIdx i q 1).val = (q ⟨0, Nat.one_pos⟩).val :=
  dot_S50000x64_S64x64_S50000x64_1_0_0_1_n_n.lhsIdx_val_of_single rfl i q
theorem rhs_64x64_0 (i : S50000x64.Idx) (q : dot_S50000x64_S64x64_S50000x64_1_0_0_1_n_n.contr.Idx) :
    (dot_S50000x64_S64x64_S50000x64_1_0_0_1_n_n.rhsIdx i q 0).val = (q ⟨0, Nat.one_pos⟩).val :=
  dot_S50000x64_S64x64_S50000x64_1_0_0_1_n_n.rhsIdx_val_of_single rfl i q
theorem rhs_64x64_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch from List.not_mem_nil),
    dif_pos (show (1 : Fin S64x64.rank) ∈ dot_S50000x64_S64x64_S50000x64_1_0_0_1_n_n.rhsNonContracting from List.mem_singleton.mpr rfl)]
  rfl

theorem dotGeneral_64x64_apply (l : FVec Ideal S50000x64 .f32) (r : FVec Ideal S64x64 .f32) (i : Fin 50000) (j : Fin 64) :
    Host.dotGeneral (F := Ideal) dot_S50000x64_S64x64_S50000x64_1_0_0_1_n_n none l r (ix2 i j) = ∑ k : Fin 64, l (ix2 i k) * r (ix2 k j) := by
  show FloatOps.dotGeneral dot_S50000x64_S64x64_S50000x64_1_0_0_1_n_n none .single l r (ix2 i j) = _
  rw [Ideal.dotGeneral_apply]
  rw [← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 i j) ((contrEquiv1 dot_S50000x64_S64x64_S50000x64_1_0_0_1_n_n 64 rfl rfl).symm k) = ix2 i k :=
    funext fun a => Fin.ext (by
      match a with
      | ⟨0, _⟩ => exact lhs_64x64_0 _ _
      | ⟨1, _⟩ => exact (lhs_64x64_1 _ _).trans hk)
  have er : dot_S50000x64_S64x64_S50000x64_1_0_0_1_n_n.rhsIdx (ix2 i j) ((contrEquiv1 dot_S50000x64_S64x64_S50000x64_1_0_0_1_n_n 64 rfl rfl).symm k) = ix2 k j :=
    funext fun a => Fin.ext (by
      match a with
      | ⟨0, _⟩ => exact (rhs_64x64_0 _ _).trans hk
      | ⟨1, _⟩ => exact rhs_64x64_1 _ _)
  rw [el, er]

theorem lhs_64x128_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch from List.not_mem_nil),
    dif_pos (show (0 : Fin S50000x64.rank) ∈ dot_S50000x64_S64x128_S50000x128_1_0_0_1_n_n.lhsNonContracting from List.mem_singleton.mpr rfl)]
  rfl
theorem lhs_64x128_1 (i : S50000x128.Idx) (q : dot_S50000x64_S64x128_S50000x128_1_0_0_1_n_n.contr.Idx) :
    (dot_S50000x64_S64x128_S50000x128_1_0_0_1_n_n.lhsIdx i q 1).val = (q ⟨0, Nat.one_pos⟩).val :=
  dot_S50000x64_S64x128_S50000x128_1_0_0_1_n_n.lhsIdx_val_of_single rfl i q
theorem rhs_64x128_0 (i : S50000x128.Idx) (q : dot_S50000x64_S64x128_S50000x128_1_0_0_1_n_n.contr.Idx) :
    (dot_S50000x64_S64x128_S50000x128_1_0_0_1_n_n.rhsIdx i q 0).val = (q ⟨0, Nat.one_pos⟩).val :=
  dot_S50000x64_S64x128_S50000x128_1_0_0_1_n_n.rhsIdx_val_of_single rfl i q
theorem rhs_64x128_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch from List.not_mem_nil),
    dif_pos (show (1 : Fin S64x128.rank) ∈ dot_S50000x64_S64x128_S50000x128_1_0_0_1_n_n.rhsNonContracting from List.mem_singleton.mpr rfl)]
  rfl

theorem dotGeneral_64x128_apply (l : FVec Ideal S50000x64 .f32) (r : FVec Ideal S64x128 .f32) (i : Fin 50000) (j : Fin 128) :
    Host.dotGeneral (F := Ideal) dot_S50000x64_S64x128_S50000x128_1_0_0_1_n_n none l r (ix2 i j) = ∑ k : Fin 64, l (ix2 i k) * r (ix2 k j) := by
  show FloatOps.dotGeneral dot_S50000x64_S64x128_S50000x128_1_0_0_1_n_n none .single l r (ix2 i j) = _
  rw [Ideal.dotGeneral_apply]
  rw [← Equiv.sum_comp (contrEquiv1 dot_S50000x64_S64x128_S50000x128_1_0_0_1_n_n 64 rfl rfl).symm]
  refine Finset.sum_congr rfl fun k _ => ?_
  have hk := contrEquiv1_symm_val dot_S50000x64_S64x128_S50000x128_1_0_0_1_n_n 64 rfl rfl k
  have el : dot_S50000x64_S64x128_S50000x128_1_0_0_1_n_n.lhsIdx (ix2 i j) ((contrEquiv1 dot_S50000x64_S64x128_S50000x128_1_0_0_1_n_n 64 rfl rfl).symm k) = ix2 i k :=
    funext fun a => Fin.ext (by
      match a with
      | ⟨0, _⟩ => exact lhs_64x128_0 _ _
      | ⟨1, _⟩ => exact (lhs_64x128_1 _ _).trans hk)
  have er : dot_S50000x64_S64x128_S50000x128_1_0_0_1_n_n.rhsIdx (ix2 i j) ((contrEquiv1 dot_S50000x64_S64x128_S50000x128_1_0_0_1_n_n 64 rfl rfl).symm k) = ix2 k j :=
    funext fun a => Fin.ext (by
      match a with
      | ⟨0, _⟩ => exact (rhs_64x128_0 _ _).trans hk
      | ⟨1, _⟩ => exact rhs_64x128_1 _ _)
  rw [el, er]

theorem broadcastInDim_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 fun a => a.elim0

theorem broadcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

theorem broadcastInDim_row128_apply {α : Type} (v : S128.Idx → α) (u : Fin 1) (k : Fin 128) :
    broadcastInDim S1x128 ![1] bcast_S128_S1x128_1 v (ix2 u k) = v (ix1 k) :=
  broadcastInDim_b_1b_apply v bcast_S128_S1x128_1 u k

theorem broadcastInDim_rows128_apply {α : Type} (v : S1x128.Idx → α) (i : Fin 50000) (k : Fin 128) :
    broadcastInDim S50000x128 ![0, 1] bcast_S1x128_S50000x128_0_1 v (ix2 i k) = v (ix2 0 k) :=
  broadcastInDim_1b_ab_apply v bcast_S1x128_S50000x128_0_1 i k

theorem broadcastInDim_row64_apply {α : Type} (v : S64.Idx → α) (u : Fin 1) (k : Fin 64) :
    broadcastInDim S1x64 ![1] bcast_S64_S1x64_1 v (ix2 u k) = v (ix1 k) :=
  broadcastInDim_b_1b_apply v bcast_S64_S1x64_1 u k

theorem broadcastInDim_rows64_apply {α : Type} (v : S1x64.Idx → α) (i : Fin 50000) (k : Fin 64) :
    broadcastInDim S50000x64 ![0, 1] bcast_S1x64_S50000x64_0_1 v (ix2 i k) = v (ix2 0 k) :=
  broadcastInDim_1b_ab_apply v bcast_S1x64_S50000x64_0_1 i k

theorem broadcastInDim_row4_apply {α : Type} (v : S4.Idx → α) (u : Fin 1) (k : Fin 4) :
    broadcastInDim S1x4 ![1] bcast_S4_S1x4_1 v (ix2 u k) = v (ix1 k) :=
  broadcastInDim_b_1b_apply v bcast_S4_S1x4_1 u k

theorem broadcastInDim_rows4_apply {α : Type} (v : S1x4.Idx → α) (i : Fin 50000) (k : Fin 4) :
    broadcastInDim S50000x4 ![0, 1] bcast_S1x4_S50000x4_0_1 v (ix2 i k) = v (ix2 0 k) :=
  broadcastInDim_1b_ab_apply v bcast_S1x4_S50000x4_0_1 i k

theorem broadcastInDim_row1_apply {α : Type} (v : S1.Idx → α) (u : Fin 1) (k : Fin 1) :
    broadcastInDim S1x1 ![1] bcast_S1_S1x1_1 v (ix2 u k) = v (ix1 k) :=
  broadcastInDim_b_1b_apply v bcast_S1_S1x1_1 u k

theorem broadcastInDim_rows1_apply {α : Type} (v : S1x1.Idx → α) (i : Fin 50000) (k : Fin 1) :
    broadcastInDim S50000x1 ![0, 1] bcast_S1x1_S50000x1_0_1 v (ix2 i k) = v (ix2 0 k) :=
  broadcastInDim_1b_ab_apply v bcast_S1x1_S50000x1_0_1 i k

theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_col64_apply {α : Type} (v : S50000x1.Idx → α) (i : Fin 50000) (j : Fin 64) :
    broadcastInDim S50000x64 ![0, 1] bcast_S50000x1_S50000x64_0_1 v (ix2 i j) = v (ix2 i 0) :=
  broadcastInDim_a1_ab_apply v bcast_S50000x1_S50000x64_0_1 i j

theorem reshape_1x64_64_apply {α : Type} (v : S1x64.Idx → α) (k : Fin 64) :
    shapeCast S64 v shapeCasts_S1x64_S64 (ix1 k) = v (ix2 0 k) :=
  shapeCast_1a_a_apply v shapeCasts_S1x64_S64 k

theorem reshape_1x4_4_apply {α : Type} (v : S1x4.Idx → α) (k : Fin 4) :
    shapeCast S4 v shapeCasts_S1x4_S4 (ix1 k) = v (ix2 0 k) :=
  shapeCast_1a_a_apply v shapeCasts_S1x4_S4 k

theorem reshape_1x1_1_apply {α : Type} (v : S1x1.Idx → α) (k : Fin 1) :
    shapeCast S1 v shapeCasts_S1x1_S1 (ix1 k) = v (ix2 0 k) :=
  shapeCast_1a_a_apply v shapeCasts_S1x1_S1 k

theorem reshape_1x64x4_64x4_apply {α : Type} (v : S1x64x4.Idx → α) (p : Fin 64) (q : Fin 4) :
    shapeCast S64x4 v shapeCasts_S1x64x4_S64x4 (ix2 p q) = v (ix3 0 p q) :=
  shapeCast_1ab_ab_apply v shapeCasts_S1x64x4_S64x4 p q

theorem reshape_1x4x1_4x1_apply {α : Type} (v : S1x4x1.Idx → α) (p : Fin 4) (q : Fin 1) :
    shapeCast S4x1 v shapeCasts_S1x4x1_S4x1 (ix2 p q) = v (ix3 0 p q) :=
  shapeCast_1ab_ab_apply v shapeCasts_S1x4x1_S4x1 p q

theorem reshape_1x64x64_64x64_apply {α : Type} (v : S1x64x64.Idx → α) (p : Fin 64) (q : Fin 64) :
    shapeCast S64x64 v shapeCasts_S1x64x64_S64x64 (ix2 p q) = v (ix3 0 p q) :=
  shapeCast_1ab_ab_apply v shapeCasts_S1x64x64_S64x64 p q

theorem slice_S9x64x4_apply {α : Type} (l : Fin 9) (X : S9x64x4.Idx → α) (h : S9x64x4.Slices ![l.val, 0, 0] S1x64x4)
    (u : Fin 1) (p : Fin 64) (q : Fin 4) :
    extractStridedSlice S1x64x4 ![l.val, 0, 0] X h (ix3 u p q) = X (ix3 l p q) :=
  extractStridedSlice_apply _ X h (ix3 u p q) (ix3 l p q) fun ax => by
    match ax with
    | ⟨0, _⟩ => show l.val = l.val + u.val; have := u.isLt; omega
    | ⟨1, _⟩ => exact (Nat.zero_add _).symm
    | ⟨2, _⟩ => exact (Nat.zero_add _).symm

theorem entry_S9x64x4_apply {α : Type} (l : Fin 9) (X : S9x64x4.Idx → α) (h : S9x64x4.Slices ![l.val, 0, 0] S1x64x4)
    (p : Fin 64) (q : Fin 4) :
    shapeCast S64x4 (extractStridedSlice S1x64x4 ![l.val, 0, 0] X h) shapeCasts_S1x64x4_S64x4 (ix2 p q)
      = X (ix3 l p q) :=
  (reshape_1x64x4_64x4_apply _ p q).trans (slice_S9x64x4_apply l X h 0 p q)

theorem slice_S9x4x1_apply {α : Type} (l : Fin 9) (X : S9x4x1.Idx → α) (h : S9x4x1.Slices ![l.val, 0, 0] S1x4x1)
    (u : Fin 1) (p : Fin 4) (q : Fin 1) :
    extractStridedSlice S1x4x1 ![l.val, 0, 0] X h (ix3 u p q) = X (ix3 l p q) :=
  extractStridedSlice_apply _ X h (ix3 u p q) (ix3 l p q) fun ax => by
    match ax with
    | ⟨0, _⟩ => show l.val = l.val + u.val; have := u.isLt; omega
    | ⟨1, _⟩ => exact (Nat.zero_add _).symm
    | ⟨2, _⟩ => exact (Nat.zero_add _).symm

theorem entry_S9x4x1_apply {α : Type} (l : Fin 9) (X : S9x4x1.Idx → α) (h : S9x4x1.Slices ![l.val, 0, 0] S1x4x1)
    (p : Fin 4) (q : Fin 1) :
    shapeCast S4x1 (extractStridedSlice S1x4x1 ![l.val, 0, 0] X h) shapeCasts_S1x4x1_S4x1 (ix2 p q)
      = X (ix3 l p q) :=
  (reshape_1x4x1_4x1_apply _ p q).trans (slice_S9x4x1_apply l X h 0 p q)

theorem slice_S8x64x64_apply {α : Type} (l : Fin 8) (X : S8x64x64.Idx → α) (h : S8x64x64.Slices ![l.val, 0, 0] S1x64x64)
    (u : Fin 1) (p : Fin 64) (q : Fin 64) :
    extractStridedSlice S1x64x64 ![l.val, 0, 0] X h (ix3 u p q) = X (ix3 l p q) :=
  extractStridedSlice_apply _ X h (ix3 u p q) (ix3 l p q) fun ax => by
    match ax with
    | ⟨0, _⟩ => show l.val = l.val + u.val; have := u.isLt; omega
    | ⟨1, _⟩ => exact (Nat.zero_add _).symm
    | ⟨2, _⟩ => exact (Nat.zero_add _).symm

theorem entry_S8x64x64_apply {α : Type} (l : Fin 8) (X : S8x64x64.Idx → α) (h : S8x64x64.Slices ![l.val, 0, 0] S1x64x64)
    (p : Fin 64) (q : Fin 64) :
    shapeCast S64x64 (extractStridedSlice S1x64x64 ![l.val, 0, 0] X h) shapeCasts_S1x64x64_S64x64 (ix2 p q)
      = X (ix3 l p q) :=
  (reshape_1x64x64_64x64_apply _ p q).trans (slice_S8x64x64_apply l X h 0 p q)

theorem slice_S9x4_apply {α : Type} (l : Fin 9) (X : S9x4.Idx → α) (h : S9x4.Slices ![l.val, 0] S1x4)
    (u : Fin 1) (p : Fin 4) :
    extractStridedSlice S1x4 ![l.val, 0] X h (ix2 u p) = X (ix2 l p) :=
  extractStridedSlice_apply _ X h (ix2 u p) (ix2 l p) fun ax => by
    match ax with
    | ⟨0, _⟩ => show l.val = l.val + u.val; have := u.isLt; omega
    | ⟨1, _⟩ => exact (Nat.zero_add _).symm

theorem entry_S9x4_apply {α : Type} (l : Fin 9) (X : S9x4.Idx → α) (h : S9x4.Slices ![l.val, 0] S1x4) (p : Fin 4) :
    shapeCast S4 (extractStridedSlice S1x4 ![l.val, 0] X h) shapeCasts_S1x4_S4 (ix1 p) = X (ix2 l p) :=
  (reshape_1x4_4_apply _ p).trans (slice_S9x4_apply l X h 0 p)

theorem slice_S9x1_apply {α : Type} (l : Fin 9) (X : S9x1.Idx → α) (h : S9x1.Slices ![l.val, 0] S1x1)
    (u : Fin 1) (p : Fin 1) :
    extractStridedSlice S1x1 ![l.val, 0] X h (ix2 u p) = X (ix2 l p) :=
  extractStridedSlice_apply _ X h (ix2 u p) (ix2 l p) fun ax => by
    match ax with
    | ⟨0, _⟩ => show l.val = l.val + u.val; have := u.isLt; omega
    | ⟨1, _⟩ => exact (Nat.zero_add _).symm

theorem entry_S9x1_apply {α : Type} (l : Fin 9) (X : S9x1.Idx → α) (h : S9x1.Slices ![l.val, 0] S1x1) (p : Fin 1) :
    shapeCast S1 (extractStridedSlice S1x1 ![l.val, 0] X h) shapeCasts_S1x1_S1 (ix1 p) = X (ix2 l p) :=
  (reshape_1x1_1_apply _ p).trans (slice_S9x1_apply l X h 0 p)

theorem slice_S8x64_apply {α : Type} (l : Fin 8) (X : S8x64.Idx → α) (h : S8x64.Slices ![l.val, 0] S1x64)
    (u : Fin 1) (p : Fin 64) :
    extractStridedSlice S1x64 ![l.val, 0] X h (ix2 u p) = X (ix2 l p) :=
  extractStridedSlice_apply _ X h (ix2 u p) (ix2 l p) fun ax => by
    match ax with
    | ⟨0, _⟩ => show l.val = l.val + u.val; have := u.isLt; omega
    | ⟨1, _⟩ => exact (Nat.zero_add _).symm

theorem entry_S8x64_apply {α : Type} (l : Fin 8) (X : S8x64.Idx → α) (h : S8x64.Slices ![l.val, 0] S1x64) (p : Fin 64) :
    shapeCast S64 (extractStridedSlice S1x64 ![l.val, 0] X h) shapeCasts_S1x64_S64 (ix1 p) = X (ix2 l p) :=
  (reshape_1x64_64_apply _ p).trans (slice_S8x64_apply l X h 0 p)

theorem entry_S9x64x4_0 {α : Type} (X : S9x64x4.Idx → α) (p : Fin 64) (q : Fin 4) :
    shapeCast S64x4 (extractStridedSlice S1x64x4 ![0, 0, 0] X slices_S9x64x4_S1x64x4_0_0_0)
      shapeCasts_S1x64x4_S64x4 (ix2 p q) = X (ix3 0 p q) :=
  entry_S9x64x4_apply 0 X slices_S9x64x4_S1x64x4_0_0_0 p q
theorem entry_S9x64x4_1 {α : Type} (X : S9x64x4.Idx → α) (p : Fin 64) (q : Fin 4) :
    shapeCast S64x4 (extractStridedSlice S1x64x4 ![1, 0, 0] X slices_S9x64x4_S1x64x4_1_0_0)
      shapeCasts_S1x64x4_S64x4 (ix2 p q) = X (ix3 1 p q) :=
  entry_S9x64x4_apply 1 X slices_S9x64x4_S1x64x4_1_0_0 p q
theorem entry_S9x64x4_2 {α : Type} (X : S9x64x4.Idx → α) (p : Fin 64) (q : Fin 4) :
    shapeCast S64x4 (extractStridedSlice S1x64x4 ![2, 0, 0] X slices_S9x64x4_S1x64x4_2_0_0)
      shapeCasts_S1x64x4_S64x4 (ix2 p q) = X (ix3 2 p q) :=
  entry_S9x64x4_apply 2 X slices_S9x64x4_S1x64x4_2_0_0 p q
theorem entry_S9x64x4_3 {α : Type} (X : S9x64x4.Idx → α) (p : Fin 64) (q : Fin 4) :
    shapeCast S64x4 (extractStridedSlice S1x64x4 ![3, 0, 0] X slices_S9x64x4_S1x64x4_3_0_0)
      shapeCasts_S1x64x4_S64x4 (ix2 p q) = X (ix3 3 p q) :=
  entry_S9x64x4_apply 3 X slices_S9x64x4_S1x64x4_3_0_0 p q
theorem entry_S9x64x4_4 {α : Type} (X : S9x64x4.Idx → α) (p : Fin 64) (q : Fin 4) :
    shapeCast S64x4 (extractStridedSlice S1x64x4 ![4, 0, 0] X slices_S9x64x4_S1x64x4_4_0_0)
      shapeCasts_S1x64x4_S64x4 (ix2 p q) = X (ix3 4 p q) :=
  entry_S9x64x4_apply 4 X slices_S9x64x4_S1x64x4_4_0_0 p q
theorem entry_S9x64x4_5 {α : Type} (X : S9x64x4.Idx → α) (p : Fin 64) (q : Fin 4) :
    shapeCast S64x4 (extractStridedSlice S1x64x4 ![5, 0, 0] X slices_S9x64x4_S1x64x4_5_0_0)
      shapeCasts_S1x64x4_S64x4 (ix2 p q) = X (ix3 5 p q) :=
  entry_S9x64x4_apply 5 X slices_S9x64x4_S1x64x4_5_0_0 p q
theorem entry_S9x64x4_6 {α : Type} (X : S9x64x4.Idx → α) (p : Fin 64) (q : Fin 4) :
    shapeCast S64x4 (extractStridedSlice S1x64x4 ![6, 0, 0] X slices_S9x64x4_S1x64x4_6_0_0)
      shapeCasts_S1x64x4_S64x4 (ix2 p q) = X (ix3 6 p q) :=
  entry_S9x64x4_apply 6 X slices_S9x64x4_S1x64x4_6_0_0 p q
theorem entry_S9x64x4_7 {α : Type} (X : S9x64x4.Idx → α) (p : Fin 64) (q : Fin 4) :
    shapeCast S64x4 (extractStridedSlice S1x64x4 ![7, 0, 0] X slices_S9x64x4_S1x64x4_7_0_0)
      shapeCasts_S1x64x4_S64x4 (ix2 p q) = X (ix3 7 p q) :=
  entry_S9x64x4_apply 7 X slices_S9x64x4_S1x64x4_7_0_0 p q
theorem entry_S9x64x4_8 {α : Type} (X : S9x64x4.Idx → α) (p : Fin 64) (q : Fin 4) :
    shapeCast S64x4 (extractStridedSlice S1x64x4 ![8, 0, 0] X slices_S9x64x4_S1x64x4_8_0_0)
      shapeCasts_S1x64x4_S64x4 (ix2 p q) = X (ix3 8 p q) :=
  entry_S9x64x4_apply 8 X slices_S9x64x4_S1x64x4_8_0_0 p q
theorem entry_S9x4x1_0 {α : Type} (X : S9x4x1.Idx → α) (p : Fin 4) (q : Fin 1) :
    shapeCast S4x1 (extractStridedSlice S1x4x1 ![0, 0, 0] X slices_S9x4x1_S1x4x1_0_0_0)
      shapeCasts_S1x4x1_S4x1 (ix2 p q) = X (ix3 0 p q) :=
  entry_S9x4x1_apply 0 X slices_S9x4x1_S1x4x1_0_0_0 p q
theorem entry_S9x4x1_1 {α : Type} (X : S9x4x1.Idx → α) (p : Fin 4) (q : Fin 1) :
    shapeCast S4x1 (extractStridedSlice S1x4x1 ![1, 0, 0] X slices_S9x4x1_S1x4x1_1_0_0)
      shapeCasts_S1x4x1_S4x1 (ix2 p q) = X (ix3 1 p q) :=
  entry_S9x4x1_apply 1 X slices_S9x4x1_S1x4x1_1_0_0 p q
theorem entry_S9x4x1_2 {α : Type} (X : S9x4x1.Idx → α) (p : Fin 4) (q : Fin 1) :
    shapeCast S4x1 (extractStridedSlice S1x4x1 ![2, 0, 0] X slices_S9x4x1_S1x4x1_2_0_0)
      shapeCasts_S1x4x1_S4x1 (ix2 p q) = X (ix3 2 p q) :=
  entry_S9x4x1_apply 2 X slices_S9x4x1_S1x4x1_2_0_0 p q
theorem entry_S9x4x1_3 {α : Type} (X : S9x4x1.Idx → α) (p : Fin 4) (q : Fin 1) :
    shapeCast S4x1 (extractStridedSlice S1x4x1 ![3, 0, 0] X slices_S9x4x1_S1x4x1_3_0_0)
      shapeCasts_S1x4x1_S4x1 (ix2 p q) = X (ix3 3 p q) :=
  entry_S9x4x1_apply 3 X slices_S9x4x1_S1x4x1_3_0_0 p q
theorem entry_S9x4x1_4 {α : Type} (X : S9x4x1.Idx → α) (p : Fin 4) (q : Fin 1) :
    shapeCast S4x1 (extractStridedSlice S1x4x1 ![4, 0, 0] X slices_S9x4x1_S1x4x1_4_0_0)
      shapeCasts_S1x4x1_S4x1 (ix2 p q) = X (ix3 4 p q) :=
  entry_S9x4x1_apply 4 X slices_S9x4x1_S1x4x1_4_0_0 p q
theorem entry_S9x4x1_5 {α : Type} (X : S9x4x1.Idx → α) (p : Fin 4) (q : Fin 1) :
    shapeCast S4x1 (extractStridedSlice S1x4x1 ![5, 0, 0] X slices_S9x4x1_S1x4x1_5_0_0)
      shapeCasts_S1x4x1_S4x1 (ix2 p q) = X (ix3 5 p q) :=
  entry_S9x4x1_apply 5 X slices_S9x4x1_S1x4x1_5_0_0 p q
theorem entry_S9x4x1_6 {α : Type} (X : S9x4x1.Idx → α) (p : Fin 4) (q : Fin 1) :
    shapeCast S4x1 (extractStridedSlice S1x4x1 ![6, 0, 0] X slices_S9x4x1_S1x4x1_6_0_0)
      shapeCasts_S1x4x1_S4x1 (ix2 p q) = X (ix3 6 p q) :=
  entry_S9x4x1_apply 6 X slices_S9x4x1_S1x4x1_6_0_0 p q
theorem entry_S9x4x1_7 {α : Type} (X : S9x4x1.Idx → α) (p : Fin 4) (q : Fin 1) :
    shapeCast S4x1 (extractStridedSlice S1x4x1 ![7, 0, 0] X slices_S9x4x1_S1x4x1_7_0_0)
      shapeCasts_S1x4x1_S4x1 (ix2 p q) = X (ix3 7 p q) :=
  entry_S9x4x1_apply 7 X slices_S9x4x1_S1x4x1_7_0_0 p q
theorem entry_S9x4x1_8 {α : Type} (X : S9x4x1.Idx → α) (p : Fin 4) (q : Fin 1) :
    shapeCast S4x1 (extractStridedSlice S1x4x1 ![8, 0, 0] X slices_S9x4x1_S1x4x1_8_0_0)
      shapeCasts_S1x4x1_S4x1 (ix2 p q) = X (ix3 8 p q) :=
  entry_S9x4x1_apply 8 X slices_S9x4x1_S1x4x1_8_0_0 p q
theorem entry_S8x64x64_0 {α : Type} (X : S8x64x64.Idx → α) (p : Fin 64) (q : Fin 64) :
    shapeCast S64x64 (extractStridedSlice S1x64x64 ![0, 0, 0] X slices_S8x64x64_S1x64x64_0_0_0)
      shapeCasts_S1x64x64_S64x64 (ix2 p q) = X (ix3 0 p q) :=
  entry_S8x64x64_apply 0 X slices_S8x64x64_S1x64x64_0_0_0 p q
theorem entry_S8x64x64_1 {α : Type} (X : S8x64x64.Idx → α) (p : Fin 64) (q : Fin 64) :
    shapeCast S64x64 (extractStridedSlice S1x64x64 ![1, 0, 0] X slices_S8x64x64_S1x64x64_1_0_0)
      shapeCasts_S1x64x64_S64x64 (ix2 p q) = X (ix3 1 p q) :=
  entry_S8x64x64_apply 1 X slices_S8x64x64_S1x64x64_1_0_0 p q
theorem entry_S8x64x64_2 {α : Type} (X : S8x64x64.Idx → α) (p : Fin 64) (q : Fin 64) :
    shapeCast S64x64 (extractStridedSlice S1x64x64 ![2, 0, 0] X slices_S8x64x64_S1x64x64_2_0_0)
      shapeCasts_S1x64x64_S64x64 (ix2 p q) = X (ix3 2 p q) :=
  entry_S8x64x64_apply 2 X slices_S8x64x64_S1x64x64_2_0_0 p q
theorem entry_S8x64x64_3 {α : Type} (X : S8x64x64.Idx → α) (p : Fin 64) (q : Fin 64) :
    shapeCast S64x64 (extractStridedSlice S1x64x64 ![3, 0, 0] X slices_S8x64x64_S1x64x64_3_0_0)
      shapeCasts_S1x64x64_S64x64 (ix2 p q) = X (ix3 3 p q) :=
  entry_S8x64x64_apply 3 X slices_S8x64x64_S1x64x64_3_0_0 p q
theorem entry_S8x64x64_4 {α : Type} (X : S8x64x64.Idx → α) (p : Fin 64) (q : Fin 64) :
    shapeCast S64x64 (extractStridedSlice S1x64x64 ![4, 0, 0] X slices_S8x64x64_S1x64x64_4_0_0)
      shapeCasts_S1x64x64_S64x64 (ix2 p q) = X (ix3 4 p q) :=
  entry_S8x64x64_apply 4 X slices_S8x64x64_S1x64x64_4_0_0 p q
theorem entry_S8x64x64_5 {α : Type} (X : S8x64x64.Idx → α) (p : Fin 64) (q : Fin 64) :
    shapeCast S64x64 (extractStridedSlice S1x64x64 ![5, 0, 0] X slices_S8x64x64_S1x64x64_5_0_0)
      shapeCasts_S1x64x64_S64x64 (ix2 p q) = X (ix3 5 p q) :=
  entry_S8x64x64_apply 5 X slices_S8x64x64_S1x64x64_5_0_0 p q
theorem entry_S8x64x64_6 {α : Type} (X : S8x64x64.Idx → α) (p : Fin 64) (q : Fin 64) :
    shapeCast S64x64 (extractStridedSlice S1x64x64 ![6, 0, 0] X slices_S8x64x64_S1x64x64_6_0_0)
      shapeCasts_S1x64x64_S64x64 (ix2 p q) = X (ix3 6 p q) :=
  entry_S8x64x64_apply 6 X slices_S8x64x64_S1x64x64_6_0_0 p q
theorem entry_S8x64x64_7 {α : Type} (X : S8x64x64.Idx → α) (p : Fin 64) (q : Fin 64) :
    shapeCast S64x64 (extractStridedSlice S1x64x64 ![7, 0, 0] X slices_S8x64x64_S1x64x64_7_0_0)
      shapeCasts_S1x64x64_S64x64 (ix2 p q) = X (ix3 7 p q) :=
  entry_S8x64x64_apply 7 X slices_S8x64x64_S1x64x64_7_0_0 p q

theorem entry_S9x4_0 {α : Type} (X : S9x4.Idx → α) (p : Fin 4) :
    shapeCast S4 (extractStridedSlice S1x4 ![0, 0] X slices_S9x4_S1x4_0_0) shapeCasts_S1x4_S4 (ix1 p)
      = X (ix2 0 p) :=
  entry_S9x4_apply 0 X slices_S9x4_S1x4_0_0 p
theorem entry_S9x4_1 {α : Type} (X : S9x4.Idx → α) (p : Fin 4) :
    shapeCast S4 (extractStridedSlice S1x4 ![1, 0] X slices_S9x4_S1x4_1_0) shapeCasts_S1x4_S4 (ix1 p)
      = X (ix2 1 p) :=
  entry_S9x4_apply 1 X slices_S9x4_S1x4_1_0 p
theorem entry_S9x4_2 {α : Type} (X : S9x4.Idx → α) (p : Fin 4) :
    shapeCast S4 (extractStridedSlice S1x4 ![2, 0] X slices_S9x4_S1x4_2_0) shapeCasts_S1x4_S4 (ix1 p)
      = X (ix2 2 p) :=
  entry_S9x4_apply 2 X slices_S9x4_S1x4_2_0 p
theorem entry_S9x4_3 {α : Type} (X : S9x4.Idx → α) (p : Fin 4) :
    shapeCast S4 (extractStridedSlice S1x4 ![3, 0] X slices_S9x4_S1x4_3_0) shapeCasts_S1x4_S4 (ix1 p)
      = X (ix2 3 p) :=
  entry_S9x4_apply 3 X slices_S9x4_S1x4_3_0 p
theorem entry_S9x4_4 {α : Type} (X : S9x4.Idx → α) (p : Fin 4) :
    shapeCast S4 (extractStridedSlice S1x4 ![4, 0] X slices_S9x4_S1x4_4_0) shapeCasts_S1x4_S4 (ix1 p)
      = X (ix2 4 p) :=
  entry_S9x4_apply 4 X slices_S9x4_S1x4_4_0 p
theorem entry_S9x4_5 {α : Type} (X : S9x4.Idx → α) (p : Fin 4) :
    shapeCast S4 (extractStridedSlice S1x4 ![5, 0] X slices_S9x4_S1x4_5_0) shapeCasts_S1x4_S4 (ix1 p)
      = X (ix2 5 p) :=
  entry_S9x4_apply 5 X slices_S9x4_S1x4_5_0 p
theorem entry_S9x4_6 {α : Type} (X : S9x4.Idx → α) (p : Fin 4) :
    shapeCast S4 (extractStridedSlice S1x4 ![6, 0] X slices_S9x4_S1x4_6_0) shapeCasts_S1x4_S4 (ix1 p)
      = X (ix2 6 p) :=
  entry_S9x4_apply 6 X slices_S9x4_S1x4_6_0 p
theorem entry_S9x4_7 {α : Type} (X : S9x4.Idx → α) (p : Fin 4) :
    shapeCast S4 (extractStridedSlice S1x4 ![7, 0] X slices_S9x4_S1x4_7_0) shapeCasts_S1x4_S4 (ix1 p)
      = X (ix2 7 p) :=
  entry_S9x4_apply 7 X slices_S9x4_S1x4_7_0 p
theorem entry_S9x4_8 {α : Type} (X : S9x4.Idx → α) (p : Fin 4) :
    shapeCast S4 (extractStridedSlice S1x4 ![8, 0] X slices_S9x4_S1x4_8_0) shapeCasts_S1x4_S4 (ix1 p)
      = X (ix2 8 p) :=
  entry_S9x4_apply 8 X slices_S9x4_S1x4_8_0 p
theorem entry_S9x1_0 {α : Type} (X : S9x1.Idx → α) (p : Fin 1) :
    shapeCast S1 (extractStridedSlice S1x1 ![0, 0] X slices_S9x1_S1x1_0_0) shapeCasts_S1x1_S1 (ix1 p)
      = X (ix2 0 p) :=
  entry_S9x1_apply 0 X slices_S9x1_S1x1_0_0 p
theorem entry_S9x1_1 {α : Type} (X : S9x1.Idx → α) (p : Fin 1) :
    shapeCast S1 (extractStridedSlice S1x1 ![1, 0] X slices_S9x1_S1x1_1_0) shapeCasts_S1x1_S1 (ix1 p)
      = X (ix2 1 p) :=
  entry_S9x1_apply 1 X slices_S9x1_S1x1_1_0 p
theorem entry_S9x1_2 {α : Type} (X : S9x1.Idx → α) (p : Fin 1) :
    shapeCast S1 (extractStridedSlice S1x1 ![2, 0] X slices_S9x1_S1x1_2_0) shapeCasts_S1x1_S1 (ix1 p)
      = X (ix2 2 p) :=
  entry_S9x1_apply 2 X slices_S9x1_S1x1_2_0 p
theorem entry_S9x1_3 {α : Type} (X : S9x1.Idx → α) (p : Fin 1) :
    shapeCast S1 (extractStridedSlice S1x1 ![3, 0] X slices_S9x1_S1x1_3_0) shapeCasts_S1x1_S1 (ix1 p)
      = X (ix2 3 p) :=
  entry_S9x1_apply 3 X slices_S9x1_S1x1_3_0 p
theorem entry_S9x1_4 {α : Type} (X : S9x1.Idx → α) (p : Fin 1) :
    shapeCast S1 (extractStridedSlice S1x1 ![4, 0] X slices_S9x1_S1x1_4_0) shapeCasts_S1x1_S1 (ix1 p)
      = X (ix2 4 p) :=
  entry_S9x1_apply 4 X slices_S9x1_S1x1_4_0 p
theorem entry_S9x1_5 {α : Type} (X : S9x1.Idx → α) (p : Fin 1) :
    shapeCast S1 (extractStridedSlice S1x1 ![5, 0] X slices_S9x1_S1x1_5_0) shapeCasts_S1x1_S1 (ix1 p)
      = X (ix2 5 p) :=
  entry_S9x1_apply 5 X slices_S9x1_S1x1_5_0 p
theorem entry_S9x1_6 {α : Type} (X : S9x1.Idx → α) (p : Fin 1) :
    shapeCast S1 (extractStridedSlice S1x1 ![6, 0] X slices_S9x1_S1x1_6_0) shapeCasts_S1x1_S1 (ix1 p)
      = X (ix2 6 p) :=
  entry_S9x1_apply 6 X slices_S9x1_S1x1_6_0 p
theorem entry_S9x1_7 {α : Type} (X : S9x1.Idx → α) (p : Fin 1) :
    shapeCast S1 (extractStridedSlice S1x1 ![7, 0] X slices_S9x1_S1x1_7_0) shapeCasts_S1x1_S1 (ix1 p)
      = X (ix2 7 p) :=
  entry_S9x1_apply 7 X slices_S9x1_S1x1_7_0 p
theorem entry_S9x1_8 {α : Type} (X : S9x1.Idx → α) (p : Fin 1) :
    shapeCast S1 (extractStridedSlice S1x1 ![8, 0] X slices_S9x1_S1x1_8_0) shapeCasts_S1x1_S1 (ix1 p)
      = X (ix2 8 p) :=
  entry_S9x1_apply 8 X slices_S9x1_S1x1_8_0 p
theorem entry_S8x64_0 {α : Type} (X : S8x64.Idx → α) (p : Fin 64) :
    shapeCast S64 (extractStridedSlice S1x64 ![0, 0] X slices_S8x64_S1x64_0_0) shapeCasts_S1x64_S64 (ix1 p)
      = X (ix2 0 p) :=
  entry_S8x64_apply 0 X slices_S8x64_S1x64_0_0 p
theorem entry_S8x64_1 {α : Type} (X : S8x64.Idx → α) (p : Fin 64) :
    shapeCast S64 (extractStridedSlice S1x64 ![1, 0] X slices_S8x64_S1x64_1_0) shapeCasts_S1x64_S64 (ix1 p)
      = X (ix2 1 p) :=
  entry_S8x64_apply 1 X slices_S8x64_S1x64_1_0 p
theorem entry_S8x64_2 {α : Type} (X : S8x64.Idx → α) (p : Fin 64) :
    shapeCast S64 (extractStridedSlice S1x64 ![2, 0] X slices_S8x64_S1x64_2_0) shapeCasts_S1x64_S64 (ix1 p)
      = X (ix2 2 p) :=
  entry_S8x64_apply 2 X slices_S8x64_S1x64_2_0 p
theorem entry_S8x64_3 {α : Type} (X : S8x64.Idx → α) (p : Fin 64) :
    shapeCast S64 (extractStridedSlice S1x64 ![3, 0] X slices_S8x64_S1x64_3_0) shapeCasts_S1x64_S64 (ix1 p)
      = X (ix2 3 p) :=
  entry_S8x64_apply 3 X slices_S8x64_S1x64_3_0 p
theorem entry_S8x64_4 {α : Type} (X : S8x64.Idx → α) (p : Fin 64) :
    shapeCast S64 (extractStridedSlice S1x64 ![4, 0] X slices_S8x64_S1x64_4_0) shapeCasts_S1x64_S64 (ix1 p)
      = X (ix2 4 p) :=
  entry_S8x64_apply 4 X slices_S8x64_S1x64_4_0 p
theorem entry_S8x64_5 {α : Type} (X : S8x64.Idx → α) (p : Fin 64) :
    shapeCast S64 (extractStridedSlice S1x64 ![5, 0] X slices_S8x64_S1x64_5_0) shapeCasts_S1x64_S64 (ix1 p)
      = X (ix2 5 p) :=
  entry_S8x64_apply 5 X slices_S8x64_S1x64_5_0 p
theorem entry_S8x64_6 {α : Type} (X : S8x64.Idx → α) (p : Fin 64) :
    shapeCast S64 (extractStridedSlice S1x64 ![6, 0] X slices_S8x64_S1x64_6_0) shapeCasts_S1x64_S64 (ix1 p)
      = X (ix2 6 p) :=
  entry_S8x64_apply 6 X slices_S8x64_S1x64_6_0 p
theorem entry_S8x64_7 {α : Type} (X : S8x64.Idx → α) (p : Fin 64) :
    shapeCast S64 (extractStridedSlice S1x64 ![7, 0] X slices_S8x64_S1x64_7_0) shapeCasts_S1x64_S64 (ix1 p)
      = X (ix2 7 p) :=
  entry_S8x64_apply 7 X slices_S8x64_S1x64_7_0 p

theorem ofBits_one_f32 : Ideal.ofBits .f32 0x3F800000#32 = 1 := by
  simp [Ideal.ofBits, Ideal.ieee, -EReal.coe_mul]; norm_num

theorem broadcastInDim_constant_apply {t : Shape} (dims : Fin S_.rank → Fin t.rank) (h : S_.BroadcastsInDim t dims)
    (b : BitVec 32) (j : t.Idx) :
    broadcastInDim t dims h (constant (F := Ideal) S_ .f32 b) j = Ideal.ofBits .f32 b := rfl

theorem leaky_apply_of {t : Shape} (dims : Fin S_.rank → Fin t.rank) (h : S_.BroadcastsInDim t dims)
    (v : FVec Ideal t .f32) (sl : FVec Ideal S_ .f32) (i : t.Idx) :
    select (cmpf .oge v (broadcastInDim t dims h (constant (F := Ideal) S_ .f32 0x00000000#32))) v
        (mulf (broadcastInDim t dims h sl) v) i
      = Scalar.select (Ideal.cmp .oge (v i) 0) (v i) (sl ix0 * v i) := by
  show Scalar.select (Ideal.cmp .oge (v i) (Ideal.ofBits .f32 0x00000000#32)) (v i)
      (broadcastInDim t dims h sl i * v i) = _
  rw [Ideal.ofBits_zero_f32, broadcastInDim_scalar_apply]

theorem leaky_apply {t : Shape} (dims : Fin S_.rank → Fin t.rank) (h : S_.BroadcastsInDim t dims)
    (v : FVec Ideal t .f32) (i : t.Idx) :
    select (cmpf .oge v (broadcastInDim t dims h (constant (F := Ideal) S_ .f32 0x00000000#32))) v
        (mulf (broadcastInDim t dims h (constant (F := Ideal) S_ .f32 0x3E4CCCCD#32)) v) i
      = Spec.leaky (v i) :=
  leaky_apply_of dims h v _ i

theorem relu_apply {t : Shape} (dims : Fin S_.rank → Fin t.rank) (h : S_.BroadcastsInDim t dims)
    (v : FVec Ideal t .f32) (i : t.Idx) :
    maximumf v (broadcastInDim t dims h (constant (F := Ideal) S_ .f32 0x00000000#32)) i = Spec.relu (v i) := by
  show max (v i) (Ideal.ofBits .f32 0x00000000#32) = _
  rw [Ideal.ofBits_zero_f32]
  rfl

theorem logistic_apply {t : Shape} (dims : Fin S_.rank → Fin t.rank) (h : S_.BroadcastsInDim t dims)
    (v : FVec Ideal t .f32) (i : t.Idx) :
    Host.divf (broadcastInDim t dims h (constant (F := Ideal) S_ .f32 0x3F800000#32))
        (addf (broadcastInDim t dims h (constant (F := Ideal) S_ .f32 0x3F800000#32)) (Host.exp (Host.negf v))) i
      = Ideal.logistic (v i) := by
  show FloatOps.hostDivf (Ideal.ofBits .f32 0x3F800000#32)
      (FloatOps.addf (Ideal.ofBits .f32 0x3F800000#32) (FloatOps.hostUnary .exp (FloatOps.hostNegf (v i)))) = _
  rw [ofBits_one_f32]
  rfl

end

end Cert.ReferenceIdeal.ReadOps

end
-- ==== Proof.KReg0.lean ====
import proofs.«428538_j32280974197073_1_alg».proof.Proof.Spec
import proofs.«428538_j32280974197073_1_alg».proof.Proof.Gen.KernelIdeal.Frame
import proofs.«428538_j32280974197073_1_alg».proof.Proof.ReadOps
import Idealize.ShloMosaic.PureOps.Ideal.Laws
import Idealize.ShloMosaic.Lib.ValueIdx
import Idealize.ShloMosaic.Lib.Pipeline.Value

set_option maxRecDepth 16384

noncomputable section

namespace Cert.KernelIdeal.KReg0

open Idealize.ShloMosaic Idealize.ShloMosaic.ValueIdx Idealize.ShloMosaic.TcCoe Idealize.SL.Sem
open Idealize.ShloMosaic.Pipeline (Dat)
open Cert.KernelIdeal Cert.KernelIdeal.Gen

open Cert.KernelIdeal.ReadOps

theorem pay1_raw (x : Vec Ideal S2000x128 .f32) (w : Vec Ideal S128x128 .bf16) (b : Vec Ideal S1x128 .f32) (p : Fin 2000) (q : Fin 128) :
    Gen.k0_pay1 (F := Ideal) x w b (ix2 p q) = (∑ k : Fin 128, x (ix2 p k) * w (ix2 k q)) + b (ix2 0 q) := by
  unfold Gen.k0_pay1
  rw [addf_apply, shapeCast_self, shapeCast_self, matmul_128x128_apply, broadcastTo_row128_apply]
  rfl

theorem pay1_apply (x : Vec Ideal S2000x128 .f32) (w : Vec Ideal S128x128 .bf16) (b : Vec Ideal S1x128 .f32) (p : Fin 2000) (q : Fin 128) :
    Gen.k0_pay1 (F := Ideal) x w b (ix2 p q) = Cert.Spec.pre (fun k => x (ix2 p k)) (fun k j => w (ix2 k j)) (fun j => b (ix2 0 j)) q :=
  pay1_raw x w b p q

def preArr (x : Vec Ideal S50000x128 .f32) (w : Vec Ideal S128x128 .bf16) (b : Vec Ideal S1x128 .f32) : Vec Ideal S50000x128 .f32 :=
  fun i => (∑ k : Fin 128, x (ix2 (⟨(i 0).val, idx2_lt0 i⟩ : Fin 50000) k) * w (ix2 k (⟨(i 1).val, idx2_lt1 i⟩ : Fin 128)))
    + b (ix2 0 (⟨(i 1).val, idx2_lt1 i⟩ : Fin 128))

theorem preArr_raw (x : Vec Ideal S50000x128 .f32) (w : Vec Ideal S128x128 .bf16) (b : Vec Ideal S1x128 .f32) (i : Fin 50000) (j : Fin 128) :
    preArr x w b (ix2 i j) = (∑ k : Fin 128, x (ix2 i k) * w (ix2 k j)) + b (ix2 0 j) := rfl

theorem preArr_apply (x : Vec Ideal S50000x128 .f32) (w : Vec Ideal S128x128 .bf16) (b : Vec Ideal S1x128 .f32) (i : Fin 50000) (j : Fin 128) :
    preArr x w b (ix2 i j) = Cert.Spec.pre (fun k => x (ix2 i k)) (fun k j => w (ix2 k j)) (fun j => b (ix2 0 j)) j := rfl

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem xblk_apply (X : Vec Ideal S50000x128 .f32) (t : Fin cfg0.N) (y : S2000x128.Idx) (i : S50000x128.Idx)
    (h0 : (i 0).val = 2000 * t.val + (y 0).val) (h1 : (i 1).val = (y 1).val) :
    (((cfg0.win 0).blk t).view.read (Elt Ideal) X : Vec Ideal S2000x128 .f32) y = X i := by
  obtain ⟨e0, e1, -⟩ := idx_facts t
  rw [View.read_apply]
  show X (((cfg0.win 0).blk t).view.emb y) = X i
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

theorem wblk_eq (W : Vec Ideal S128x128 .bf16) (t : Fin cfg0.N) :
    (((cfg0.win 1).blk t).view.read (Elt Ideal) W : Vec Ideal S128x128 .bf16) = W := by
  obtain ⟨-, -, e2, e3, -⟩ := idx_facts t
  funext y
  rw [View.read_apply]
  show W (((cfg0.win 1).blk t).view.emb y) = W y
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

theorem bblk_eq (B : Vec Ideal S1x128 .f32) (t : Fin cfg0.N) :
    (((cfg0.win 2).blk t).view.read (Elt Ideal) B : Vec Ideal S1x128 .f32) = B := by
  obtain ⟨-, -, -, -, e4, e5, -⟩ := idx_facts t
  funext y
  rw [View.read_apply]
  show B (((cfg0.win 2).blk t).view.emb y) = B y
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

theorem mem_blk3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v46).slice (win0_3.rect t)).set ↔ _
  rw [View.set_slice_whole, Rect.mem_set_unit]
  exact Iff.rfl

theorem cover3 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  refine ⟨⟨(i 0).val / 2000, by rw [hN]; omega⟩, flush0_3 _, ?_⟩
  rw [mem_blk3]
  obtain ⟨-, -, -, -, -, -, e6, e7⟩ := idx_facts ⟨(i 0).val / 2000, by rw [hN]; omega⟩
  intro a
  match a with
  | ⟨0, _⟩ =>
    show win0_3.index _ 0 * 2000 ≤ (i 0).val ∧ (i 0).val < win0_3.index _ 0 * 2000 + 2000
    rw [e6]; show (i 0).val / 2000 * 2000 ≤ (i 0).val ∧ (i 0).val < (i 0).val / 2000 * 2000 + 2000; omega
  | ⟨1, _⟩ =>
    show win0_3.index _ 1 * 128 ≤ (i 1).val ∧ (i 1).val < win0_3.index _ 1 * 128 + 128
    rw [e7]; omega

section Array

variable (V : (c : Dev nD) → (b : Ref sig .tc) → Buf (Elt Ideal) ((c : Thread nD τ).loc b))

abbrev xarr (c : Dev nD) : Vec Ideal S50000x128 .f32 := V c main_arg0

abbrev warr (c : Dev nD) : Vec Ideal S128x128 .bf16 := V c main_v33

abbrev barr (c : Dev nD) : Vec Ideal S1x128 .f32 := V c main_v40

theorem flushed_eq (c : Dev nD) (t : Fin cfg0.N) :
    (dat0 V c).flushed 3 t = ((cfg0.win 3).blk t).view.read (Elt Ideal) (preArr (xarr V c) (warr V c) (barr V c)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, e6, e7⟩ := idx_facts t
  have ht : t.val < 25 := lt_of_lt_of_eq t.isLt N_0
  refine (pay1_raw (iblk0 V c 0 t) (iblk0 V c 1 t) (iblk0 V c 2 t) p q).trans ?_
  rw [View.read_apply]
  have hi : ((cfg0.win 3).blk t).view.emb (ix2 p q) = ix2 (⟨2000 * t.val + p.val, by omega⟩ : Fin 50000) q := by
    funext a; apply Fin.ext
    match a with
    | ⟨0, _⟩ => show win0_3.index t 0 * 2000 + 1 * p.val = 2000 * t.val + p.val; rw [e6]; omega
    | ⟨1, _⟩ => show win0_3.index t 1 * 128 + 1 * q.val = q.val; rw [e7]; omega
  show _ = preArr (xarr V c) (warr V c) (barr V c) (((cfg0.win 3).blk t).view.emb (ix2 p q))
  rw [hi, preArr_raw]
  unfold iblk0
  refine congrArg₂ (fun a b : EReal => a + b) (Finset.sum_congr rfl fun k _ => congrArg₂ (fun a b : EReal => a * b) ?_ ?_) ?_
  · exact xblk_apply (xarr V c) t (ix2 p k) (ix2 (⟨2000 * t.val + p.val, by omega⟩ : Fin 50000) k) rfl rfl
  · exact congrFun (wblk_eq (warr V c) t) (ix2 k q)
  · exact congrFun (bblk_eq (barr V c) t) (ix2 0 q)

theorem final (c : Dev nD) : (dat0 (F := Ideal) V c).arrAt 3 cfg0.N = preArr (xarr V c) (warr V c) (barr V c) :=
  (dat0 V c).arrAt_eq_of_cover 3 (preArr (xarr V c) (warr V c) (barr V c)) (fun t _ => flushed_eq V c t) cover3

end Array

end Cert.KernelIdeal.KReg0

end
-- ==== Proof.KChain.Link0.lean ====
import proofs.«428538_j32280974197073_1_alg».proof.Proof.Gen.KernelIdeal.Frame
import proofs.«428538_j32280974197073_1_alg».proof.Proof.KReg0
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link0

variable (m : (ℓ : Loc nD τ sig) → Buf (Elt Ideal) ℓ) (ρ : Dev nD → PrngReg)

theorem static_ne : ∀ b ∈ staticRefs, ∀ w, Pipeline.arrRef spec0 w ≠ b := by decide

theorem keeps (c : Dev nD) : Keeps (W3 m ρ c) (W4 m ρ c) := fun b hb => W4_of_ne m ρ c b (static_ne b hb)

theorem exit_pre (c : Dev nD) :
    (W4 m ρ c (Proc.devRef .tc main_v46) : Vec Ideal S50000x128 .f32)
      = KReg0.preArr (W3 m ρ c (Proc.devRef .tc main_arg0) : Vec Ideal S50000x128 .f32) (W3 m ρ c (Proc.devRef .tc main_v33) : Vec Ideal S128x128 .bf16)
          (W3 m ρ c (Proc.devRef .tc main_v40) : Vec Ideal S1x128 .f32) :=
  (W4_arr m ρ c 3).trans (KReg0.final (V3 m ρ) c)

theorem link (c : Dev nD) :
    Keeps (W3 m ρ c) (W4 m ρ c)
      ∧ Cert.Pack.mat (W4 m ρ c (Proc.devRef .tc main_v46) : Vec Ideal S50000x128 .f32) = Cert.Spec.preA (paramsK m c) :=
  ⟨keeps m ρ c,
   pre_step (paramsK m c) (W4 m ρ c (Proc.devRef .tc main_v46) : Vec Ideal S50000x128 .f32) (W3 m ρ c (Proc.devRef .tc main_arg0) : Vec Ideal S50000x128 .f32)
    (W3 m ρ c (Proc.devRef .tc main_v33) : Vec Ideal S128x128 .bf16) (W3 m ρ c (Proc.devRef .tc main_v40) : Vec Ideal S1x128 .f32)
    (fun i j => by rw [exit_pre]; exact KReg0.preArr_apply _ _ _ i j)
    (by rw [W3_arg0]; rfl)
    (by rw [W3_v33]; rfl)
    (fun j => W3_v40 m ρ c j)⟩

end Link0

end Cert.KernelIdeal.KChain

end
-- ==== Proof.KHost.S1.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st1 (W : Valuation τ sig (Elt Ideal)) : Valuation τ sig (Elt Ideal) :=
  StableHlo.after hostOps1_2 (StableHlo.after hostOps1_1 (StableHlo.after hostOps1 W))

noncomputable def wr1 : List (Ref sig .tc) :=
  [main_cst_7, main_v47, main_v48, main_cst_8, main_v49, main_v50, main_c_9]
noncomputable def wr1_1 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v51]
noncomputable def wr1_2 : List (Ref sig .tc) :=
  [main_v52, main_v53, main_v54, main_v55, main_v56, main_v57, main_v58, main_v59, main_v60, main_v61, main_v62, main_v63]
noncomputable def wrS1 : List (Ref sig .tc) := wr1 ++ wr1_1 ++ wr1_2

theorem keep1 (W : Valuation τ sig (Elt Ideal)) (b : Ref sig .tc) (hb : b ∉ wr1) :
    StableHlo.after hostOps1 W (Proc.devRef .tc b) = W (Proc.devRef .tc b) :=
  StableHlo.after_of_writes_sub hostOps1 W (by
    simp only [hostOps1, wr1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep1_1 (W : Valuation τ sig (Elt Ideal)) (b : Ref sig .tc) (hb : b ∉ wr1_1) :
    StableHlo.after hostOps1_1 W (Proc.devRef .tc b) = W (Proc.devRef .tc b) :=
  StableHlo.after_of_writes_sub hostOps1_1 W (by
    simp only [hostOps1_1, wr1_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep1_2 (W : Valuation τ sig (Elt Ideal)) (b : Ref sig .tc) (hb : b ∉ wr1_2) :
    StableHlo.after hostOps1_2 W (Proc.devRef .tc b) = W (Proc.devRef .tc b) :=
  StableHlo.after_of_writes_sub hostOps1_2 W (by
    simp only [hostOps1_2, wr1_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st1_keep (W : Valuation τ sig (Elt Ideal)) (b : Ref sig .tc) (hb : b ∉ wrS1) :
    st1 W (Proc.devRef .tc b) = W (Proc.devRef .tc b) :=
  (keep1_2 _ b fun h => hb (List.mem_append_right _ h)).trans
    ((keep1_1 _ b fun h => hb (List.mem_append_left _ (List.mem_append_right _ h))).trans
      (keep1 W b fun h => hb (List.mem_append_left _ (List.mem_append_left _ h))))

theorem l1_v50 (X : Valuation τ sig (Elt Ideal)) :
    StableHlo.after hostOps1 X (Proc.devRef .tc main_v50)
      = (Host.divf (broadcastInDim S1x128 ![1] bcast_S128_S1x128_1 (sum128K (X (Proc.devRef .tc main_v46))))
          (broadcastInDim S1x128 ![] bcast_S_S1x128 (constant S_ .f32 0x47435000#32)) : FVec Ideal S1x128 .f32) := by
  simp only [hostOps1]; after_results; all_goals rfl

theorem l1_c_9 (X : Valuation τ sig (Elt Ideal)) :
    StableHlo.after hostOps1 X (Proc.devRef .tc main_c_9) = (constantI S_ 32 0#32 : IVec S_ 32) := by
  simp only [hostOps1]; after_results; all_goals rfl

theorem l1_1_v51 (X : Valuation τ sig (Elt Ideal)) (h9 : X (Proc.devRef .tc main_c_9) = (constantI S_ 32 0#32 : IVec S_ 32)) :
    StableHlo.after hostOps1_1 X (Proc.devRef .tc main_v51) = var128K (X (Proc.devRef .tc main_v46)) := by
  simp only [hostOps1_1]; after_results_simp; rw [h9]; rfl

theorem l1_2_v53 (X : Valuation τ sig (Elt Ideal)) :
    StableHlo.after hostOps1_2 X (Proc.devRef .tc main_v53)
      = (shapeCast S64x4 (extractStridedSlice S1x64x4 ![0, 0, 0] (X (Proc.devRef .tc main_v38)) slices_S9x64x4_S1x64x4_0_0_0) shapeCasts_S1x64x4_S64x4 :
          FVec Ideal S64x4 .bf16) := by
  simp only [hostOps1_2]; after_results; all_goals rfl

theorem l1_2_v56 (X : Valuation τ sig (Elt Ideal)) :
    StableHlo.after hostOps1_2 X (Proc.devRef .tc main_v56)
      = (shapeCast S1x4 (shapeCast S4 (extractStridedSlice S1x4 ![0, 0] (X (Proc.devRef .tc main_arg9)) slices_S9x4_S1x4_0_0) shapeCasts_S1x4_S4) shapeCasts_S4_S1x4 :
          FVec Ideal S1x4 .f32) := by
  simp only [hostOps1_2]; after_results; all_goals rfl

theorem l1_2_v58 (X : Valuation τ sig (Elt Ideal)) :
    StableHlo.after hostOps1_2 X (Proc.devRef .tc main_v58)
      = (shapeCast S4x1 (extractStridedSlice S1x4x1 ![0, 0, 0] (X (Proc.devRef .tc main_v39)) slices_S9x4x1_S1x4x1_0_0_0) shapeCasts_S1x4x1_S4x1 :
          FVec Ideal S4x1 .bf16) := by
  simp only [hostOps1_2]; after_results; all_goals rfl

theorem l1_2_v61 (X : Valuation τ sig (Elt Ideal)) :
    StableHlo.after hostOps1_2 X (Proc.devRef .tc main_v61)
      = (shapeCast S1x1 (shapeCast S1 (extractStridedSlice S1x1 ![0, 0] (X (Proc.devRef .tc main_arg11)) slices_S9x1_S1x1_0_0) shapeCasts_S1x1_S1) shapeCasts_S1_S1x1 :
          FVec Ideal S1x1 .f32) := by
  simp only [hostOps1_2]; after_results; all_goals rfl

theorem l1_2_v63 (X : Valuation τ sig (Elt Ideal)) :
    StableHlo.after hostOps1_2 X (Proc.devRef .tc main_v63)
      = (shapeCast S64x64 (extractStridedSlice S1x64x64 ![0, 0, 0] (X (Proc.devRef .tc main_v37)) slices_S8x64x64_S1x64x64_0_0_0) shapeCasts_S1x64x64_S64x64 :
          FVec Ideal S64x64 .bf16) := by
  simp only [hostOps1_2]; after_results; all_goals rfl

theorem st1_v50 (W : Valuation τ sig (Elt Ideal)) (u : Fin 1) (j : Fin 128) :
    (st1 W (Proc.devRef .tc main_v50) : S1x128.Idx → EReal) (ix2 u j)
      = Cert.Spec.meanOf (sum128K (W (Proc.devRef .tc main_v46)) (ix1 j)) := by
  have e : (st1 W (Proc.devRef .tc main_v50) : S1x128.Idx → EReal)
      = Host.divf (broadcastInDim S1x128 ![1] bcast_S128_S1x128_1 (sum128K (W (Proc.devRef .tc main_v46))))
          (broadcastInDim S1x128 ![] bcast_S_S1x128 (constant S_ .f32 0x47435000#32)) := by
    show StableHlo.after hostOps1_2 (StableHlo.after hostOps1_1 (StableHlo.after hostOps1 W)) (Proc.devRef .tc main_v50) = _
    rw [keep1_2 _ main_v50 (by decide), keep1_1 _ main_v50 (by decide), l1_v50]
  rw [e]
  show Ideal.div (broadcastInDim S1x128 ![1] bcast_S128_S1x128_1 (sum128K (W (Proc.devRef .tc main_v46))) (ix2 u j))
      (Ideal.ofBits .f32 0x47435000#32) = _
  rw [bcast_b_1b]
  rfl

theorem st1_v51 (W : Valuation τ sig (Elt Ideal)) :
    st1 W (Proc.devRef .tc main_v51) = var128K (W (Proc.devRef .tc main_v46)) := by
  show StableHlo.after hostOps1_2 (StableHlo.after hostOps1_1 (StableHlo.after hostOps1 W)) (Proc.devRef .tc main_v51) = _
  rw [keep1_2 _ main_v51 (by decide), l1_1_v51 _ (l1_c_9 W), keep1 _ main_v46 (by decide)]

theorem st1_v53 (W : Valuation τ sig (Elt Ideal)) (k : Fin 64) (a : Fin 4) :
    (st1 W (Proc.devRef .tc main_v53) : S64x4.Idx → EReal) (ix2 k a) = (W (Proc.devRef .tc main_v38) : S9x64x4.Idx → EReal) (ix3 0 k a) := by
  have e : (st1 W (Proc.devRef .tc main_v53) : S64x4.Idx → EReal)
      = shapeCast S64x4 (extractStridedSlice S1x64x4 ![0, 0, 0] (W (Proc.devRef .tc main_v38) : S9x64x4.Idx → EReal) slices_S9x64x4_S1x64x4_0_0_0) shapeCasts_S1x64x4_S64x4 := by
    show StableHlo.after hostOps1_2 (StableHlo.after hostOps1_1 (StableHlo.after hostOps1 W)) (Proc.devRef .tc main_v53) = _
    rw [l1_2_v53, keep1_1 _ main_v38 (by decide), keep1 _ main_v38 (by decide)]
  rw [e]
  exact stack3_entry (0 : Fin 9) _ _ _ k a

theorem st1_v56 (W : Valuation τ sig (Elt Ideal)) (u : Fin 1) (a : Fin 4) :
    (st1 W (Proc.devRef .tc main_v56) : S1x4.Idx → EReal) (ix2 u a) = (W (Proc.devRef .tc main_arg9) : S9x4.Idx → EReal) (ix2 0 a) := by
  have e : (st1 W (Proc.devRef .tc main_v56) : S1x4.Idx → EReal)
      = shapeCast S1x4 (shapeCast S4 (extractStridedSlice S1x4 ![0, 0] (W (Proc.devRef .tc main_arg9) : S9x4.Idx → EReal) slices_S9x4_S1x4_0_0) shapeCasts_S1x4_S4) shapeCasts_S4_S1x4 := by
    show StableHlo.after hostOps1_2 (StableHlo.after hostOps1_1 (StableHlo.after hostOps1 W)) (Proc.devRef .tc main_v56) = _
    rw [l1_2_v56, keep1_1 _ main_arg9 (by decide), keep1 _ main_arg9 (by decide)]
  rw [e]
  exact (row_roundtrip _ _ _ u a).trans (stack2_row (0 : Fin 9) _ _ 0 a)

theorem st1_v58 (W : Valuation τ sig (Elt Ideal)) (a : Fin 4) (q : Fin 1) :
    (st1 W (Proc.devRef .tc main_v58) : S4x1.Idx → EReal) (ix2 a q) = (W (Proc.devRef .tc main_v39) : S9x4x1.Idx → EReal) (ix3 0 a q) := by
  have e : (st1 W (Proc.devRef .tc main_v58) : S4x1.Idx → EReal)
      = shapeCast S4x1 (extractStridedSlice S1x4x1 ![0, 0, 0] (W (Proc.devRef .tc main_v39) : S9x4x1.Idx → EReal) slices_S9x4x1_S1x4x1_0_0_0) shapeCasts_S1x4x1_S4x1 := by
    show StableHlo.after hostOps1_2 (StableHlo.after hostOps1_1 (StableHlo.after hostOps1 W)) (Proc.devRef .tc main_v58) = _
    rw [l1_2_v58, keep1_1 _ main_v39 (by decide), keep1 _ main_v39 (by decide)]
  rw [e]
  exact stack3_entry (0 : Fin 9) _ _ _ a q

theorem st1_v61 (W : Valuation τ sig (Elt Ideal)) (u : Fin 1) (q : Fin 1) :
    (st1 W (Proc.devRef .tc main_v61) : S1x1.Idx → EReal) (ix2 u q) = (W (Proc.devRef .tc main_arg11) : S9x1.Idx → EReal) (ix2 0 q) := by
  have e : (st1 W (Proc.devRef .tc main_v61) : S1x1.Idx → EReal)
      = shapeCast S1x1 (shapeCast S1 (extractStridedSlice S1x1 ![0, 0] (W (Proc.devRef .tc main_arg11) : S9x1.Idx → EReal) slices_S9x1_S1x1_0_0) shapeCasts_S1x1_S1) shapeCasts_S1_S1x1 := by
    show StableHlo.after hostOps1_2 (StableHlo.after hostOps1_1 (StableHlo.after hostOps1 W)) (Proc.devRef .tc main_v61) = _
    rw [l1_2_v61, keep1_1 _ main_arg11 (by decide), keep1 _ main_arg11 (by decide)]
  rw [e]
  exact (row_roundtrip _ _ _ u q).trans (stack2_row (0 : Fin 9) _ _ 0 q)

theorem st1_v63 (W : Valuation τ sig (Elt Ideal)) (k : Fin 64) (j : Fin 64) :
    (st1 W (Proc.devRef .tc main_v63) : S64x64.Idx → EReal) (ix2 k j) = (W (Proc.devRef .tc main_v37) : S8x64x64.Idx → EReal) (ix3 0 k j) := by
  have e : (st1 W (Proc.devRef .tc main_v63) : S64x64.Idx → EReal)
      = shapeCast S64x64 (extractStridedSlice S1x64x64 ![0, 0, 0] (W (Proc.devRef .tc main_v37) : S8x64x64.Idx → EReal) slices_S8x64x64_S1x64x64_0_0_0) shapeCasts_S1x64x64_S64x64 := by
    show StableHlo.after hostOps1_2 (StableHlo.after hostOps1_1 (StableHlo.after hostOps1 W)) (Proc.devRef .tc main_v63) = _
    rw [l1_2_v63, keep1_1 _ main_v37 (by decide), keep1 _ main_v37 (by decide)]
  rw [e]
  exact stack3_entry (0 : Fin 8) _ _ _ k j

end Cert.KernelIdeal.KHost

end
-- ==== Proof.KReg1.lean ====
import proofs.«428538_j32280974197073_1_alg».proof.Proof.Spec
import proofs.«428538_j32280974197073_1_alg».proof.Proof.ReadOps
import proofs.«428538_j32280974197073_1_alg».proof.Proof.Gen.KernelIdeal.Skeleton
import proofs.«428538_j32280974197073_1_alg».proof.Proof.Gen.KernelIdeal.Frame
import Idealize.ShloMosaic.Lib.Tactic
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KReg1

open Cert.KernelIdeal Cert.KernelIdeal.Gen
open Idealize.ShloMosaic Idealize.ShloMosaic.ValueIdx

theorem rsqrt_at {s : Shape} {φ : FTy} (x : FVec Ideal s φ) (y : s.Idx) : rsqrt x y = Ideal.rsqrt (x y) := rfl

theorem pay3_at (v0 : Vec Ideal S2000x128 .f32) (v2 v7 v13 v17 : Vec Ideal S1x128 .f32) (v24 : Vec Ideal S128x64 .bf16)
    (v27 : Vec Ideal S1x64 .f32) (i : Fin 2000) (j : Fin 64) :
    k1_pay3 (F := Ideal) v0 v2 v7 v13 v17 v24 v27 (ix2 i j)
      = Cert.Spec.hin (fun k => v0 (ix2 i k)) (fun k => v7 (ix2 0 k)) (fun k => v2 (ix2 0 k)) (fun k => v13 (ix2 0 k))
          (fun k => v17 (ix2 0 k)) (fun k j' => v24 (ix2 k j')) (fun j' => v27 (ix2 0 j')) j := by
  unfold k1_pay3
  simp only [shapeCast_self]
  rw [addf_apply, ReadOps.matmul_128x64_apply, ReadOps.broadcastTo_row64_apply]
  unfold Cert.Spec.hin Cert.Spec.proj Cert.Spec.relu Cert.Spec.bn Cert.Spec.eps
  refine congrArg (· + v27 (ix2 0 j)) (Finset.sum_congr rfl fun k _ => congrArg (· * v24 (ix2 k j)) ?_)
  rw [truncf_apply, maximumf_apply, addf_apply, mulf_apply, mulf_apply, subf_apply,
    ReadOps.broadcastTo_row128_apply, ReadOps.broadcastTo_row128_apply, ReadOps.broadcastTo_row128_apply, ReadOps.broadcastTo_row128_apply, broadcast_apply, rsqrt_at, addf_apply, broadcast_apply]
  show max _ (Ideal.ofBits .f32 0x00000000#32) = _
  rw [Ideal.ofBits_zero_f32]
  rfl

theorem pay4_at (v0 : Vec Ideal S2000x128 .f32) (v2 v7 v13 v17 : Vec Ideal S1x128 .f32) (v24 : Vec Ideal S128x64 .bf16)
    (v27 : Vec Ideal S1x64 .f32) (v32 : Vec Ideal S64x4 .bf16) (i : Fin 2000) (a : Fin 4) :
    k1_pay4 (F := Ideal) v0 v2 v7 v13 v17 v24 v27 v32 (ix2 i a)
      = ∑ k : Fin 64, k1_pay3 (F := Ideal) v0 v2 v7 v13 v17 v24 v27 (ix2 i k) * v32 (ix2 k a) := by
  unfold k1_pay4
  rw [shapeCast_self, ReadOps.matmul_64x4_apply]
  rfl

theorem pay5_eq (v35 : Vec Ideal S1x4 .f32) : k1_pay5 (F := Ideal) v35 = v35 := by
  unfold k1_pay5
  exact shapeCast_self _ _

theorem pay1_at (v30 : FVec Ideal S2000x64 .f32) (v34 : FVec Ideal S2000x4 .f32) (v36 : FVec Ideal S1x4 .f32)
    (v45 : Vec Ideal S4x1 .bf16) (v48 : Vec Ideal S1x1 .f32) (i : Fin 2000) (j : Fin 64) :
    k1_pay1 (F := Ideal) v30 v34 v36 v45 v48 (ix2 i j)
      = v30 (ix2 i j) * Ideal.logistic ((∑ a : Fin 4, Cert.Spec.leaky (v34 (ix2 i a) + v36 (ix2 0 a)) * v45 (ix2 a 0)) + v48 (ix2 0 0)) := by
  unfold k1_pay1
  simp only [shapeCast_self]
  rw [mulf_apply, ReadOps.broadcastTo_col64_apply, ReadOps.logistic_apply, addf_apply, ReadOps.matmul_4x1_apply, ReadOps.broadcastTo_row1_apply]
  refine congrArg (fun z => v30 (ix2 i j) * Ideal.logistic (z + v48 (ix2 0 0))) (Finset.sum_congr rfl fun a _ => congrArg (· * v45 (ix2 a 0)) ?_)
  rw [truncf_apply, ReadOps.leaky_apply, addf_apply, ReadOps.broadcastTo_row4_apply]

theorem pay2_at (v30 : FVec Ideal S2000x64 .f32) (v34 : FVec Ideal S2000x4 .f32) (v36 : FVec Ideal S1x4 .f32)
    (v45 : Vec Ideal S4x1 .bf16) (v48 : Vec Ideal S1x1 .f32) (v57 : Vec Ideal S64x64 .bf16) (i : Fin 2000) (j : Fin 64) :
    k1_pay2 (F := Ideal) v30 v34 v36 v45 v48 v57 (ix2 i j)
      = ∑ k : Fin 64, k1_pay1 (F := Ideal) v30 v34 v36 v45 v48 (ix2 i k) * v57 (ix2 k j) := by
  unfold k1_pay2
  rw [shapeCast_self, ReadOps.matmul_64x64_apply]
  rfl

abbrev hrow (x0 : Vec Ideal S2000x128 .f32) (x1 x2 x3 x4 : Vec Ideal S1x128 .f32) (x5 : Vec Ideal S128x64 .bf16)
    (x6 : Vec Ideal S1x64 .f32) (i : Fin 2000) : Fin 64 → EReal :=
  Cert.Spec.hin (fun k => x0 (ix2 i k)) (fun k => x1 (ix2 0 k)) (fun k => x2 (ix2 0 k)) (fun k => x3 (ix2 0 k))
    (fun k => x4 (ix2 0 k)) (fun k j => x5 (ix2 k j)) (fun j => x6 (ix2 0 j))

abbrev grow (x0 : Vec Ideal S2000x128 .f32) (x1 x2 x3 x4 : Vec Ideal S1x128 .f32) (x5 : Vec Ideal S128x64 .bf16)
    (x6 : Vec Ideal S1x64 .f32) (x7 : Vec Ideal S64x4 .bf16) (x8 : Vec Ideal S1x4 .f32) (x9 : Vec Ideal S4x1 .bf16)
    (x10 : Vec Ideal S1x1 .f32) (i : Fin 2000) : Fin 64 → EReal :=
  Cert.Spec.gated (hrow x0 x1 x2 x3 x4 x5 x6 i) (hrow x0 x1 x2 x3 x4 x5 x6 i) (fun k a => x7 (ix2 k a)) (fun a => x8 (ix2 0 a))
    (fun a => x9 (ix2 a 0)) (x10 (ix2 0 0))

theorem store12_at (x0 : Vec Ideal S2000x128 .f32) (x1 x2 x3 x4 : Vec Ideal S1x128 .f32) (x5 : Vec Ideal S128x64 .bf16)
    (x6 : Vec Ideal S1x64 .f32) (x7 : Vec Ideal S64x4 .bf16) (x8 : Vec Ideal S1x4 .f32) (x9 : Vec Ideal S4x1 .bf16)
    (x10 : Vec Ideal S1x1 .f32) (i : Fin 2000) (j : Fin 64) :
    k1_pay1 (F := Ideal) (k1_pay3 x0 x2 x1 x3 x4 x5 x6) (k1_pay4 x0 x2 x1 x3 x4 x5 x6 x7) (k1_pay5 x8) x9 x10 (ix2 i j)
      = grow x0 x1 x2 x3 x4 x5 x6 x7 x8 x9 x10 i j := by
  rw [pay1_at, pay5_eq]
  simp only [pay4_at, pay3_at]
  rfl

theorem store13_at (x0 : Vec Ideal S2000x128 .f32) (x1 x2 x3 x4 : Vec Ideal S1x128 .f32) (x5 : Vec Ideal S128x64 .bf16)
    (x6 : Vec Ideal S1x64 .f32) (x7 : Vec Ideal S64x4 .bf16) (x8 : Vec Ideal S1x4 .f32) (x9 : Vec Ideal S4x1 .bf16)
    (x10 : Vec Ideal S1x1 .f32) (x11 : Vec Ideal S64x64 .bf16) (i : Fin 2000) (j : Fin 64) :
    k1_pay2 (F := Ideal) (k1_pay3 x0 x2 x1 x3 x4 x5 x6) (k1_pay4 x0 x2 x1 x3 x4 x5 x6 x7) (k1_pay5 x8) x9 x10 x11 (ix2 i j)
      = Cert.Spec.proj (grow x0 x1 x2 x3 x4 x5 x6 x7 x8 x9 x10 i) (fun k j' => x11 (ix2 k j')) j := by
  rw [pay2_at]
  exact Finset.sum_congr rfl fun k _ => congrArg (· * x11 (ix2 k j)) (store12_at x0 x1 x2 x3 x4 x5 x6 x7 x8 x9 x10 i k)

abbrev Hrow (P : Vec Ideal S50000x128 .f32) (mean var gamma beta : Vec Ideal S1x128 .f32) (w2 : Vec Ideal S128x64 .bf16)
    (b2 : Vec Ideal S1x64 .f32) (r : Fin 50000) : Fin 64 → EReal :=
  Cert.Spec.hin (fun k => P (ix2 r k)) (fun k => mean (ix2 0 k)) (fun k => var (ix2 0 k)) (fun k => gamma (ix2 0 k))
    (fun k => beta (ix2 0 k)) (fun k j => w2 (ix2 k j)) (fun j => b2 (ix2 0 j))

abbrev Grow (P : Vec Ideal S50000x128 .f32) (mean var gamma beta : Vec Ideal S1x128 .f32) (w2 : Vec Ideal S128x64 .bf16)
    (b2 : Vec Ideal S1x64 .f32) (lw1 : Vec Ideal S64x4 .bf16) (lb1 : Vec Ideal S1x4 .f32) (lw2 : Vec Ideal S4x1 .bf16)
    (lb2 : Vec Ideal S1x1 .f32) (r : Fin 50000) : Fin 64 → EReal :=
  Cert.Spec.gated (Hrow P mean var gamma beta w2 b2 r) (Hrow P mean var gamma beta w2 b2 r) (fun k a => lw1 (ix2 k a))
    (fun a => lb1 (ix2 0 a)) (fun a => lw2 (ix2 a 0)) (lb2 (ix2 0 0))

def gatedArr (P : Vec Ideal S50000x128 .f32) (mean var gamma beta : Vec Ideal S1x128 .f32) (w2 : Vec Ideal S128x64 .bf16)
    (b2 : Vec Ideal S1x64 .f32) (lw1 : Vec Ideal S64x4 .bf16) (lb1 : Vec Ideal S1x4 .f32) (lw2 : Vec Ideal S4x1 .bf16)
    (lb2 : Vec Ideal S1x1 .f32) : Vec Ideal S50000x64 .f32 :=
  fun y => Grow P mean var gamma beta w2 b2 lw1 lb1 lw2 lb2 (y 0) (y 1)

def projArr (P : Vec Ideal S50000x128 .f32) (mean var gamma beta : Vec Ideal S1x128 .f32) (w2 : Vec Ideal S128x64 .bf16)
    (b2 : Vec Ideal S1x64 .f32) (lw1 : Vec Ideal S64x4 .bf16) (lb1 : Vec Ideal S1x4 .f32) (lw2 : Vec Ideal S4x1 .bf16)
    (lb2 : Vec Ideal S1x1 .f32) (bw : Vec Ideal S64x64 .bf16) : Vec Ideal S50000x64 .f32 :=
  fun y => Cert.Spec.proj (Grow P mean var gamma beta w2 b2 lw1 lb1 lw2 lb2 (y 0)) (fun k j => bw (ix2 k j)) (y 1)

theorem gatedArr_apply (P : Vec Ideal S50000x128 .f32) (mean var gamma beta : Vec Ideal S1x128 .f32) (w2 : Vec Ideal S128x64 .bf16)
    (b2 : Vec Ideal S1x64 .f32) (lw1 : Vec Ideal S64x4 .bf16) (lb1 : Vec Ideal S1x4 .f32) (lw2 : Vec Ideal S4x1 .bf16)
    (lb2 : Vec Ideal S1x1 .f32) (i : Fin 50000) (j : Fin 64) :
    gatedArr P mean var gamma beta w2 b2 lw1 lb1 lw2 lb2 (ix2 i j)
      = Cert.Spec.gated
          (Cert.Spec.hin (fun k => P (ix2 i k)) (fun k => mean (ix2 0 k)) (fun k => var (ix2 0 k)) (fun k => gamma (ix2 0 k))
            (fun k => beta (ix2 0 k)) (fun k j' => w2 (ix2 k j')) (fun j' => b2 (ix2 0 j')))
          (Cert.Spec.hin (fun k => P (ix2 i k)) (fun k => mean (ix2 0 k)) (fun k => var (ix2 0 k)) (fun k => gamma (ix2 0 k))
            (fun k => beta (ix2 0 k)) (fun k j' => w2 (ix2 k j')) (fun j' => b2 (ix2 0 j')))
          (fun k a => lw1 (ix2 k a)) (fun a => lb1 (ix2 0 a)) (fun a => lw2 (ix2 a 0)) (lb2 (ix2 0 0)) j := rfl

theorem projArr_apply (P : Vec Ideal S50000x128 .f32) (mean var gamma beta : Vec Ideal S1x128 .f32) (w2 : Vec Ideal S128x64 .bf16)
    (b2 : Vec Ideal S1x64 .f32) (lw1 : Vec Ideal S64x4 .bf16) (lb1 : Vec Ideal S1x4 .f32) (lw2 : Vec Ideal S4x1 .bf16)
    (lb2 : Vec Ideal S1x1 .f32) (bw : Vec Ideal S64x64 .bf16) (i : Fin 50000) (j : Fin 64) :
    projArr P mean var gamma beta w2 b2 lw1 lb1 lw2 lb2 bw (ix2 i j)
      = Cert.Spec.proj
          (fun k => Cert.Spec.gated
            (Cert.Spec.hin (fun k => P (ix2 i k)) (fun k => mean (ix2 0 k)) (fun k => var (ix2 0 k)) (fun k => gamma (ix2 0 k))
              (fun k => beta (ix2 0 k)) (fun k j' => w2 (ix2 k j')) (fun j' => b2 (ix2 0 j')))
            (Cert.Spec.hin (fun k => P (ix2 i k)) (fun k => mean (ix2 0 k)) (fun k => var (ix2 0 k)) (fun k => gamma (ix2 0 k))
              (fun k => beta (ix2 0 k)) (fun k j' => w2 (ix2 k j')) (fun j' => b2 (ix2 0 j')))
            (fun k a => lw1 (ix2 k a)) (fun a => lb1 (ix2 0 a)) (fun a => lw2 (ix2 a 0)) (lb2 (ix2 0 0)) k)
          (fun k j' => bw (ix2 k j')) j := rfl

theorem grow_eq (P : Vec Ideal S50000x128 .f32) (mean var gamma beta : Vec Ideal S1x128 .f32) (w2 : Vec Ideal S128x64 .bf16)
    (b2 : Vec Ideal S1x64 .f32) (lw1 : Vec Ideal S64x4 .bf16) (lb1 : Vec Ideal S1x4 .f32) (lw2 : Vec Ideal S4x1 .bf16)
    (lb2 : Vec Ideal S1x1 .f32)
    (x0 : Vec Ideal S2000x128 .f32) (x1 x2 x3 x4 : Vec Ideal S1x128 .f32) (x5 : Vec Ideal S128x64 .bf16)
    (x6 : Vec Ideal S1x64 .f32) (x7 : Vec Ideal S64x4 .bf16) (x8 : Vec Ideal S1x4 .f32) (x9 : Vec Ideal S4x1 .bf16)
    (x10 : Vec Ideal S1x1 .f32) (p : Fin 2000) (r : Fin 50000)
    (h0 : ∀ k : Fin 128, x0 (ix2 p k) = P (ix2 r k)) (h1 : x1 = mean) (h2 : x2 = var) (h3 : x3 = gamma) (h4 : x4 = beta)
    (h5 : x5 = w2) (h6 : x6 = b2) (h7 : x7 = lw1) (h8 : x8 = lb1) (h9 : x9 = lw2) (h10 : x10 = lb2) :
    grow x0 x1 x2 x3 x4 x5 x6 x7 x8 x9 x10 p = Grow P mean var gamma beta w2 b2 lw1 lb1 lw2 lb2 r := by
  subst h1 h2 h3 h4 h5 h6 h7 h8 h9 h10
  have e : (fun k => x0 (ix2 p k)) = fun k => P (ix2 r k) := funext h0
  unfold grow hrow Grow Hrow
  rw [e]

section Run

open Idealize.ShloMosaic.TcCoe Idealize.SL.Sem
open Idealize.ShloMosaic.Pipeline (Dat)

variable (V : (c : Dev nD) → (b : Ref sig .tc) → Buf (Elt Ideal) ((c : Thread nD τ).loc b))

abbrev parr (c : Dev nD) : Vec Ideal S50000x128 .f32 := V c main_v46

abbrev meanarr (c : Dev nD) : Vec Ideal S1x128 .f32 := V c main_v50

abbrev vararr (c : Dev nD) : Vec Ideal S1x128 .f32 := V c main_v51

abbrev gammaarr (c : Dev nD) : Vec Ideal S1x128 .f32 := V c main_v41

abbrev betaarr (c : Dev nD) : Vec Ideal S1x128 .f32 := V c main_v42

abbrev w2arr (c : Dev nD) : Vec Ideal S128x64 .bf16 := V c main_v34

abbrev b2arr (c : Dev nD) : Vec Ideal S1x64 .f32 := V c main_v43

abbrev lw1arr (c : Dev nD) : Vec Ideal S64x4 .bf16 := V c main_v53

abbrev lb1arr (c : Dev nD) : Vec Ideal S1x4 .f32 := V c main_v56

abbrev lw2arr (c : Dev nD) : Vec Ideal S4x1 .bf16 := V c main_v58

abbrev lb2arr (c : Dev nD) : Vec Ideal S1x1 .f32 := V c main_v61

abbrev bwarr (c : Dev nD) : Vec Ideal S64x64 .bf16 := V c main_v63

abbrev blk0 (c : Dev nD) (t : Fin cfg1.N) : Vec Ideal S2000x128 .f32 := iblk1 V c 0 t
abbrev blk1 (c : Dev nD) (t : Fin cfg1.N) : Vec Ideal S1x128 .f32 := iblk1 V c 1 t
abbrev blk2 (c : Dev nD) (t : Fin cfg1.N) : Vec Ideal S1x128 .f32 := iblk1 V c 2 t
abbrev blk3 (c : Dev nD) (t : Fin cfg1.N) : Vec Ideal S1x128 .f32 := iblk1 V c 3 t
abbrev blk4 (c : Dev nD) (t : Fin cfg1.N) : Vec Ideal S1x128 .f32 := iblk1 V c 4 t
abbrev blk5 (c : Dev nD) (t : Fin cfg1.N) : Vec Ideal S128x64 .bf16 := iblk1 V c 5 t
abbrev blk6 (c : Dev nD) (t : Fin cfg1.N) : Vec Ideal S1x64 .f32 := iblk1 V c 6 t
abbrev blk7 (c : Dev nD) (t : Fin cfg1.N) : Vec Ideal S64x4 .bf16 := iblk1 V c 7 t
abbrev blk8 (c : Dev nD) (t : Fin cfg1.N) : Vec Ideal S1x4 .f32 := iblk1 V c 8 t
abbrev blk9 (c : Dev nD) (t : Fin cfg1.N) : Vec Ideal S4x1 .bf16 := iblk1 V c 9 t
abbrev blk10 (c : Dev nD) (t : Fin cfg1.N) : Vec Ideal S1x1 .f32 := iblk1 V c 10 t
abbrev blk11 (c : Dev nD) (t : Fin cfg1.N) : Vec Ideal S64x64 .bf16 := iblk1 V c 11 t

theorem hz : (![0, 0] : Fin 2 → Nat) = fun _ => 0 := funext fun a => by fin_cases a <;> rfl

theorem idx_rows : ∀ t : Fin cfg1.N, win1_0.index t (0 : Fin 2) = t.val ∧ win1_0.index t (1 : Fin 2) = 0
    ∧ win1_12.index t (0 : Fin 2) = t.val ∧ win1_12.index t (1 : Fin 2) = 0
    ∧ win1_13.index t (0 : Fin 2) = t.val ∧ win1_13.index t (1 : Fin 2) = 0 :=
  (by decide +kernel : ∀ t : Fin grid1.N, _)

theorem idx_resident : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

theorem blk0_at (c : Dev nD) (t : Fin cfg1.N) (p : Fin 2000) (k : Fin 128) (r : Fin 50000) (hr : r.val = 2000 * t.val + p.val) :
    blk0 V c t (ix2 p k) = parr V c (ix2 r k) := by
  obtain ⟨e0, e1, -⟩ := idx_rows t
  unfold blk0 iblk1
  rw [View.read_apply]
  show V c main_v46 _ = V c main_v46 (ix2 r k)
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

theorem blk1_eq (c : Dev nD) (t : Fin cfg1.N) : blk1 V c t = meanarr V c := by
  obtain ⟨⟨e0, e1⟩, -, -, -, -, -, -, -, -, -, -⟩ := idx_resident t
  funext y
  unfold blk1 iblk1
  rw [View.read_apply]
  show V c main_v50 _ = V c main_v50 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

theorem blk2_eq (c : Dev nD) (t : Fin cfg1.N) : blk2 V c t = vararr V c := by
  obtain ⟨-, ⟨e0, e1⟩, -, -, -, -, -, -, -, -, -⟩ := idx_resident t
  funext y
  unfold blk2 iblk1
  rw [View.read_apply]
  show V c main_v51 _ = V c main_v51 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem blk3_eq (c : Dev nD) (t : Fin cfg1.N) : blk3 V c t = gammaarr V c := by
  obtain ⟨-, -, ⟨e0, e1⟩, -, -, -, -, -, -, -, -⟩ := idx_resident t
  funext y
  unfold blk3 iblk1
  rw [View.read_apply]
  show V c main_v41 _ = V c main_v41 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk4_eq (c : Dev nD) (t : Fin cfg1.N) : blk4 V c t = betaarr V c := by
  obtain ⟨-, -, -, ⟨e0, e1⟩, -, -, -, -, -, -, -⟩ := idx_resident t
  funext y
  unfold blk4 iblk1
  rw [View.read_apply]
  show V c main_v42 _ = V c main_v42 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem blk5_eq (c : Dev nD) (t : Fin cfg1.N) : blk5 V c t = w2arr V c := by
  obtain ⟨-, -, -, -, ⟨e0, e1⟩, -, -, -, -, -, -⟩ := idx_resident t
  funext y
  unfold blk5 iblk1
  rw [View.read_apply]
  show V c main_v34 _ = V c main_v34 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

theorem blk6_eq (c : Dev nD) (t : Fin cfg1.N) : blk6 V c t = b2arr V c := by
  obtain ⟨-, -, -, -, -, ⟨e0, e1⟩, -, -, -, -, -⟩ := idx_resident t
  funext y
  unfold blk6 iblk1
  rw [View.read_apply]
  show V c main_v43 _ = V c main_v43 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

theorem blk7_eq (c : Dev nD) (t : Fin cfg1.N) : blk7 V c t = lw1arr V c := by
  obtain ⟨-, -, -, -, -, -, ⟨e0, e1⟩, -, -, -, -⟩ := idx_resident t
  funext y
  unfold blk7 iblk1
  rw [View.read_apply]
  show V c main_v53 _ = V c main_v53 y
  congr 1
  funext a
  apply Fin.ext
  match a with
  | ⟨0, _⟩ => show win1_7.index t (0 : Fin 2) * 64 + 1 * (y 0).val = (y 0).val; rw [e0]; omega
  | ⟨1, _⟩ => show win1_7.index t (1 : Fin 2) * 4 + 1 * (y 1).val = (y 1).val; rw [e1]; omega

theorem blk8_eq (c : Dev nD) (t : Fin cfg1.N) : blk8 V c t = lb1arr V c := by
  obtain ⟨-, -, -, -, -, -, -, ⟨e0, e1⟩, -, -, -⟩ := idx_resident t
  funext y
  unfold blk8 iblk1
  rw [View.read_apply]
  show V c main_v56 _ = V c main_v56 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 4 + 1 * (y 1).val = (y 1).val; rw [e1]; omega

theorem blk9_eq (c : Dev nD) (t : Fin cfg1.N) : blk9 V c t = lw2arr V c := by
  obtain ⟨-, -, -, -, -, -, -, -, ⟨e0, e1⟩, -, -⟩ := idx_resident t
  funext y
  unfold blk9 iblk1
  rw [View.read_apply]
  show V c main_v58 _ = V c main_v58 y
  congr 1
  funext a
  apply Fin.ext
  match a with
  | ⟨0, _⟩ => show win1_9.index t (0 : Fin 2) * 4 + 1 * (y 0).val = (y 0).val; rw [e0]; omega
  | ⟨1, _⟩ => show win1_9.index t (1 : Fin 2) * 1 + 1 * (y 1).val = (y 1).val; rw [e1]; omega

theorem blk10_eq (c : Dev nD) (t : Fin cfg1.N) : blk10 V c t = lb2arr V c := by
  obtain ⟨-, -, -, -, -, -, -, -, -, ⟨e0, e1⟩, -⟩ := idx_resident t
  funext y
  unfold blk10 iblk1
  rw [View.read_apply]
  show V c main_v61 _ = V c main_v61 y
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 1 + 1 * (y 1).val = (y 1).val; rw [e1]; omega

theorem blk11_eq (c : Dev nD) (t : Fin cfg1.N) : blk11 V c t = bwarr V c := by
  obtain ⟨-, -, -, -, -, -, -, -, -, -, ⟨e0, e1⟩⟩ := idx_resident t
  funext y
  unfold blk11 iblk1
  rw [View.read_apply]
  show V c main_v63 _ = V c main_v63 y
  congr 1
  funext a
  apply Fin.ext
  match a with
  | ⟨0, _⟩ => show win1_11.index t (0 : Fin 2) * 64 + 1 * (y 0).val = (y 0).val; rw [e0]; omega
  | ⟨1, _⟩ => show win1_11.index t (1 : Fin 2) * 64 + 1 * (y 1).val = (y 1).val; rw [e1]; omega

theorem flushed12_eq (c : Dev nD) (t : Fin cfg1.N) :
    (dat1 (F := Ideal) V c).flushed 12 t
      = ((cfg1.win 12).blk t).view.read (Elt Ideal) (gatedArr (parr V c) (meanarr V c) (vararr V c) (gammaarr V c) (betaarr V c) (w2arr V c) (b2arr V c) (lw1arr V c) (lb1arr V c) (lw2arr V c) (lb2arr V c)) := by
  obtain ⟨-, -, e0, e1, -, -⟩ := idx_rows t
  have hN : t.val < 25 := lt_of_lt_of_eq t.isLt N_1
  show (cfg1.win 12).cut (grid1.coords t) ((dat1 (F := Ideal) V c).after 12 t) = _
  rw [after1_12]
  unfold out1_12
  rw [View.canon_unit_zero hz]
  simp only [View.ld_unit_zero (S := S2000x128) hz, View.ld_unit_zero (S := S1x128) hz, View.ld_unit_zero (S := S128x64) hz, View.ld_unit_zero (S := S1x64) hz, View.ld_unit_zero (S := S64x4) hz, View.ld_unit_zero (S := S1x4) hz, View.ld_unit_zero (S := S4x1) hz, View.ld_unit_zero (S := S1x1) hz, View.ld_unit_zero (S := S64x64) hz]
  funext y
  obtain ⟨p, q, rfl⟩ : ∃ (p : Fin 2000) (q : Fin 64), y = ix2 p q := ⟨y 0, y 1, eq_ix2 y⟩
  have hr : 2000 * t.val + p.val < 50000 := by have := p.isLt; omega
  have hemb : ((cfg1.win 12).blk t).view.emb (ix2 p q) = ix2 (⟨2000 * t.val + p.val, hr⟩ : Fin 50000) q := by
    funext a
    apply Fin.ext
    match a with
    | ⟨0, _⟩ => show win1_12.index t (0 : Fin 2) * 2000 + 1 * p.val = 2000 * t.val + p.val; rw [e0]; omega
    | ⟨1, _⟩ => show win1_12.index t (1 : Fin 2) * 64 + 1 * q.val = q.val; rw [e1]; omega
  show k1_pay1 (F := Ideal) (k1_pay3 (blk0 V c t) (blk2 V c t) (blk1 V c t) (blk3 V c t) (blk4 V c t) (blk5 V c t) (blk6 V c t)) (k1_pay4 (blk0 V c t) (blk2 V c t) (blk1 V c t) (blk3 V c t) (blk4 V c t) (blk5 V c t) (blk6 V c t) (blk7 V c t)) (k1_pay5 (blk8 V c t)) (blk9 V c t) (blk10 V c t) (ix2 p q)
    = gatedArr (parr V c) (meanarr V c) (vararr V c) (gammaarr V c) (betaarr V c) (w2arr V c) (b2arr V c) (lw1arr V c) (lb1arr V c) (lw2arr V c) (lb2arr V c) (((cfg1.win 12).blk t).view.emb (ix2 p q))
  rw [hemb]
  refine (store12_at (blk0 V c t) (blk1 V c t) (blk2 V c t) (blk3 V c t) (blk4 V c t) (blk5 V c t) (blk6 V c t) (blk7 V c t) (blk8 V c t) (blk9 V c t) (blk10 V c t) p q).trans ?_
  exact congrFun (grow_eq (parr V c) (meanarr V c) (vararr V c) (gammaarr V c) (betaarr V c) (w2arr V c) (b2arr V c) (lw1arr V c) (lb1arr V c) (lw2arr V c) (lb2arr V c) (blk0 V c t) (blk1 V c t) (blk2 V c t) (blk3 V c t) (blk4 V c t) (blk5 V c t) (blk6 V c t) (blk7 V c t) (blk8 V c t) (blk9 V c t) (blk10 V c t) p ⟨2000 * t.val + p.val, hr⟩
      (fun k => blk0_at V c t p k ⟨2000 * t.val + p.val, hr⟩ rfl) (blk1_eq V c t) (blk2_eq V c t) (blk3_eq V c t) (blk4_eq V c t) (blk5_eq V c t)
      (blk6_eq V c t) (blk7_eq V c t) (blk8_eq V c t) (blk9_eq V c t) (blk10_eq V c t)) q

theorem flushed13_eq (c : Dev nD) (t : Fin cfg1.N) :
    (dat1 (F := Ideal) V c).flushed 13 t
      = ((cfg1.win 13).blk t).view.read (Elt Ideal) (projArr (parr V c) (meanarr V c) (vararr V c) (gammaarr V c) (betaarr V c) (w2arr V c) (b2arr V c) (lw1arr V c) (lb1arr V c) (lw2arr V c) (lb2arr V c) (bwarr V c)) := by
  obtain ⟨-, -, -, -, e0, e1⟩ := idx_rows t
  have hN : t.val < 25 := lt_of_lt_of_eq t.isLt N_1
  show (cfg1.win 13).cut (grid1.coords t) ((dat1 (F := Ideal) V c).after 13 t) = _
  rw [after1_13]
  unfold out1_13
  rw [View.canon_unit_zero hz]
  simp only [View.ld_unit_zero (S := S2000x128) hz, View.ld_unit_zero (S := S1x128) hz, View.ld_unit_zero (S := S128x64) hz, View.ld_unit_zero (S := S1x64) hz, View.ld_unit_zero (S := S64x4) hz, View.ld_unit_zero (S := S1x4) hz, View.ld_unit_zero (S := S4x1) hz, View.ld_unit_zero (S := S1x1) hz, View.ld_unit_zero (S := S64x64) hz]
  funext y
  obtain ⟨p, q, rfl⟩ : ∃ (p : Fin 2000) (q : Fin 64), y = ix2 p q := ⟨y 0, y 1, eq_ix2 y⟩
  have hr : 2000 * t.val + p.val < 50000 := by have := p.isLt; omega
  have hemb : ((cfg1.win 13).blk t).view.emb (ix2 p q) = ix2 (⟨2000 * t.val + p.val, hr⟩ : Fin 50000) q := by
    funext a
    apply Fin.ext
    match a with
    | ⟨0, _⟩ => show win1_13.index t (0 : Fin 2) * 2000 + 1 * p.val = 2000 * t.val + p.val; rw [e0]; omega
    | ⟨1, _⟩ => show win1_13.index t (1 : Fin 2) * 64 + 1 * q.val = q.val; rw [e1]; omega
  show k1_pay2 (F := Ideal) (k1_pay3 (blk0 V c t) (blk2 V c t) (blk1 V c t) (blk3 V c t) (blk4 V c t) (blk5 V c t) (blk6 V c t)) (k1_pay4 (blk0 V c t) (blk2 V c t) (blk1 V c t) (blk3 V c t) (blk4 V c t) (blk5 V c t) (blk6 V c t) (blk7 V c t)) (k1_pay5 (blk8 V c t)) (blk9 V c t) (blk10 V c t) (blk11 V c t) (ix2 p q)
    = projArr (parr V c) (meanarr V c) (vararr V c) (gammaarr V c) (betaarr V c) (w2arr V c) (b2arr V c) (lw1arr V c) (lb1arr V c) (lw2arr V c) (lb2arr V c) (bwarr V c) (((cfg1.win 13).blk t).view.emb (ix2 p q))
  rw [hemb]
  refine (store13_at (blk0 V c t) (blk1 V c t) (blk2 V c t) (blk3 V c t) (blk4 V c t) (blk5 V c t) (blk6 V c t) (blk7 V c t) (blk8 V c t) (blk9 V c t) (blk10 V c t) (blk11 V c t) p q).trans ?_
  show Cert.Spec.proj (grow (blk0 V c t) (blk1 V c t) (blk2 V c t) (blk3 V c t) (blk4 V c t) (blk5 V c t) (blk6 V c t) (blk7 V c t) (blk8 V c t) (blk9 V c t) (blk10 V c t) p) (fun k j' => blk11 V c t (ix2 k j')) q
    = Cert.Spec.proj (Grow (parr V c) (meanarr V c) (vararr V c) (gammaarr V c) (betaarr V c) (w2arr V c) (b2arr V c) (lw1arr V c) (lb1arr V c) (lw2arr V c) (lb2arr V c) ⟨2000 * t.val + p.val, hr⟩) (fun k j' => bwarr V c (ix2 k j')) q
  rw [(grow_eq (parr V c) (meanarr V c) (vararr V c) (gammaarr V c) (betaarr V c) (w2arr V c) (b2arr V c) (lw1arr V c) (lb1arr V c) (lw2arr V c) (lb2arr V c) (blk0 V c t) (blk1 V c t) (blk2 V c t) (blk3 V c t) (blk4 V c t) (blk5 V c t) (blk6 V c t) (blk7 V c t) (blk8 V c t) (blk9 V c t) (blk10 V c t) p ⟨2000 * t.val + p.val, hr⟩
      (fun k => blk0_at V c t p k ⟨2000 * t.val + p.val, hr⟩ rfl) (blk1_eq V c t) (blk2_eq V c t) (blk3_eq V c t) (blk4_eq V c t) (blk5_eq V c t)
      (blk6_eq V c t) (blk7_eq V c t) (blk8_eq V c t) (blk9_eq V c t) (blk10_eq V c t)), blk11_eq V c t]

theorem mem_blk12 (t : Fin cfg1.N) (i : S50000x64.Idx) :
    i ∈ ((cfg1.win 12).blk t).view.set ↔ ∀ a : Fin 2, win1_12.index t a * S2000x64.size a ≤ (i a).val ∧ (i a).val < win1_12.index t a * S2000x64.size a + S2000x64.size a := by
  show i ∈ ((View.whole main_v64_0).slice (win1_12.rect t)).set ↔ _
  rw [View.set_slice_whole, Rect.mem_set_unit]
  exact Iff.rfl

theorem mem_blk13 (t : Fin cfg1.N) (i : S50000x64.Idx) :
    i ∈ ((cfg1.win 13).blk t).view.set ↔ ∀ a : Fin 2, win1_13.index t a * S2000x64.size a ≤ (i a).val ∧ (i a).val < win1_13.index t a * S2000x64.size a + S2000x64.size a := by
  show i ∈ ((View.whole main_v64_1).slice (win1_13.rect t)).set ↔ _
  rw [View.set_slice_whole, Rect.mem_set_unit]
  exact Iff.rfl

theorem cover12 (i : S50000x64.Idx) : ∃ t : Fin cfg1.N, (cfg1.win 12).flush t = true ∧ i ∈ ((cfg1.win 12).blk t).view.set := by
  have h0 : (i 0).val < 50000 := (i 0).isLt
  have h1 : (i 1).val < 64 := (i 1).isLt
  have hq : (i 0).val / 2000 < cfg1.N := lt_of_lt_of_eq (show (i 0).val / 2000 < 25 by omega) N_1.symm
  obtain ⟨-, -, e0, e1, -, -⟩ := idx_rows ⟨(i 0).val / 2000, hq⟩
  refine ⟨⟨(i 0).val / 2000, hq⟩, flush1_12 _, ?_⟩
  rw [mem_blk12]
  intro a
  match a with
  | ⟨0, _⟩ =>
    show win1_12.index ⟨(i 0).val / 2000, hq⟩ (0 : Fin 2) * 2000 ≤ (i 0).val ∧ (i 0).val < win1_12.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_12.index ⟨(i 0).val / 2000, hq⟩ (1 : Fin 2) * 64 ≤ (i 1).val ∧ (i 1).val < win1_12.index ⟨(i 0).val / 2000, hq⟩ (1 : Fin 2) * 64 + 64
    rw [e1]; omega

theorem cover13 (i : S50000x64.Idx) : ∃ t : Fin cfg1.N, (cfg1.win 13).flush t = true ∧ i ∈ ((cfg1.win 13).blk t).view.set := by
  have h0 : (i 0).val < 50000 := (i 0).isLt
  have h1 : (i 1).val < 64 := (i 1).isLt
  have hq : (i 0).val / 2000 < cfg1.N := lt_of_lt_of_eq (show (i 0).val / 2000 < 25 by omega) N_1.symm
  obtain ⟨-, -, -, -, e0, e1⟩ := idx_rows ⟨(i 0).val / 2000, hq⟩
  refine ⟨⟨(i 0).val / 2000, hq⟩, flush1_13 _, ?_⟩
  rw [mem_blk13]
  intro a
  match a with
  | ⟨0, _⟩ =>
    show win1_13.index ⟨(i 0).val / 2000, hq⟩ (0 : Fin 2) * 2000 ≤ (i 0).val ∧ (i 0).val < win1_13.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_13.index ⟨(i 0).val / 2000, hq⟩ (1 : Fin 2) * 64 ≤ (i 1).val ∧ (i 1).val < win1_13.index ⟨(i 0).val / 2000, hq⟩ (1 : Fin 2) * 64 + 64
    rw [e1]; omega

theorem final12 (c : Dev nD) :
    (dat1 (F := Ideal) V c).arrAt 12 cfg1.N = gatedArr (parr V c) (meanarr V c) (vararr V c) (gammaarr V c) (betaarr V c) (w2arr V c) (b2arr V c) (lw1arr V c) (lb1arr V c) (lw2arr V c) (lb2arr V c) :=
  (dat1 (F := Ideal) V c).arrAt_eq_of_cover 12 (gatedArr (parr V c) (meanarr V c) (vararr V c) (gammaarr V c) (betaarr V c) (w2arr V c) (b2arr V c) (lw1arr V c) (lb1arr V c) (lw2arr V c) (lb2arr V c))
    (fun t _ => flushed12_eq V c t) (fun i => cover12 i)

theorem final13 (c : Dev nD) :
    (dat1 (F := Ideal) V c).arrAt 13 cfg1.N = projArr (parr V c) (meanarr V c) (vararr V c) (gammaarr V c) (betaarr V c) (w2arr V c) (b2arr V c) (lw1arr V c) (lb1arr V c) (lw2arr V c) (lb2arr V c) (bwarr V c) :=
  (dat1 (F := Ideal) V c).arrAt_eq_of_cover 13 (projArr (parr V c) (meanarr V c) (vararr V c) (gammaarr V c) (betaarr V c) (w2arr V c) (b2arr V c) (lw1arr V c) (lb1arr V c) (lw2arr V c) (lb2arr V c) (bwarr V c))
    (fun t _ => flushed13_eq V c t) (fun i => cover13 i)

end Run

end Cert.KernelIdeal.KReg1

end
-- ==== Proof.KChain.Link1.lean ====
import proofs.«428538_j32280974197073_1_alg».proof.Proof.Gen.KernelIdeal.Frame
import proofs.«428538_j32280974197073_1_alg».proof.Proof.KHost.S1
import proofs.«428538_j32280974197073_1_alg».proof.Proof.KReg1
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link1

variable (m : (ℓ : Loc nD τ sig) → Buf (Elt Ideal) ℓ) (ρ : Dev nD → PrngReg)

theorem static_nw : ∀ b ∈ staticRefs, b ∉ KHost.wrS1 := by decide

theorem static_ne : ∀ b ∈ staticRefs, ∀ w, Pipeline.arrRef spec1 w ≠ b := by decide

theorem keeps_entry (c : Dev nD) : Keeps (W4 m ρ c) (W7 m ρ c) := fun b hb =>
  KHost.st1_keep (W4 m ρ c) b (static_nw b hb)

theorem keeps_exit (c : Dev nD) : Keeps (W7 m ρ c) (W8 m ρ c) := fun b hb => W8_of_ne m ρ c b (static_ne b hb)

theorem exit_gated (c : Dev nD) :
    (W8 m ρ c (Proc.devRef .tc main_v64_0) : Vec Ideal S50000x64 .f32)
      = KReg1.gatedArr
          (W7 m ρ c (Proc.devRef .tc main_v46) : Vec Ideal S50000x128 .f32)
          (W7 m ρ c (Proc.devRef .tc main_v50) : Vec Ideal S1x128 .f32)
          (W7 m ρ c (Proc.devRef .tc main_v51) : Vec Ideal S1x128 .f32)
          (W7 m ρ c (Proc.devRef .tc main_v41) : Vec Ideal S1x128 .f32)
          (W7 m ρ c (Proc.devRef .tc main_v42) : Vec Ideal S1x128 .f32)
          (W7 m ρ c (Proc.devRef .tc main_v34) : Vec Ideal S128x64 .bf16)
          (W7 m ρ c (Proc.devRef .tc main_v43) : Vec Ideal S1x64 .f32)
          (W7 m ρ c (Proc.devRef .tc main_v53) : Vec Ideal S64x4 .bf16)
          (W7 m ρ c (Proc.devRef .tc main_v56) : Vec Ideal S1x4 .f32)
          (W7 m ρ c (Proc.devRef .tc main_v58) : Vec Ideal S4x1 .bf16)
          (W7 m ρ c (Proc.devRef .tc main_v61) : Vec Ideal S1x1 .f32) :=
  (W8_arr m ρ c 12).trans (KReg1.final12 (V7 m ρ) c)

theorem exit_proj (c : Dev nD) :
    (W8 m ρ c (Proc.devRef .tc main_v64_1) : Vec Ideal S50000x64 .f32)
      = KReg1.projArr
          (W7 m ρ c (Proc.devRef .tc main_v46) : Vec Ideal S50000x128 .f32)
          (W7 m ρ c (Proc.devRef .tc main_v50) : Vec Ideal S1x128 .f32)
          (W7 m ρ c (Proc.devRef .tc main_v51) : Vec Ideal S1x128 .f32)
          (W7 m ρ c (Proc.devRef .tc main_v41) : Vec Ideal S1x128 .f32)
          (W7 m ρ c (Proc.devRef .tc main_v42) : Vec Ideal S1x128 .f32)
          (W7 m ρ c (Proc.devRef .tc main_v34) : Vec Ideal S128x64 .bf16)
          (W7 m ρ c (Proc.devRef .tc main_v43) : Vec Ideal S1x64 .f32)
          (W7 m ρ c (Proc.devRef .tc main_v53) : Vec Ideal S64x4 .bf16)
          (W7 m ρ c (Proc.devRef .tc main_v56) : Vec Ideal S1x4 .f32)
          (W7 m ρ c (Proc.devRef .tc main_v58) : Vec Ideal S4x1 .bf16)
          (W7 m ρ c (Proc.devRef .tc main_v61) : Vec Ideal S1x1 .f32)
          (W7 m ρ c (Proc.devRef .tc main_v63) : Vec Ideal S64x64 .bf16) :=
  (W8_arr m ρ c 13).trans (KReg1.final13 (V7 m ρ) c)

theorem e_pre (c : Dev nD) : W7 m ρ c (Proc.devRef .tc main_v46) = W4 m ρ c (Proc.devRef .tc main_v46) :=
  KHost.st1_keep (W4 m ρ c) main_v46 (by decide)

theorem e_mean (c : Dev nD) (k : Fin 128) :
    (W7 m ρ c (Proc.devRef .tc main_v50) : Vec Ideal S1x128 .f32) (ix2 (0 : Fin 1) k) = Cert.Spec.meanOf (KHost.sum128K (W7 m ρ c (Proc.devRef .tc main_v46) : Vec Ideal S50000x128 .f32) (ix1 k)) := by
  rw [e_pre]
  exact KHost.st1_v50 (W4 m ρ c) 0 k

theorem e_var (c : Dev nD) (k : Fin 128) :
    (W7 m ρ c (Proc.devRef .tc main_v51) : Vec Ideal S1x128 .f32) (ix2 (0 : Fin 1) k) = KHost.var128K (W7 m ρ c (Proc.devRef .tc main_v46) : Vec Ideal S50000x128 .f32) (ix2 (0 : Fin 1) k) := by
  rw [e_pre]
  exact congrFun (KHost.st1_v51 (W4 m ρ c)) (ix2 (0 : Fin 1) k)

theorem early (c : Dev nD) (b : Ref sig .tc) (h1 : b ∉ KHost.wrS1) (h0 : ∀ w, Pipeline.arrRef spec0 w ≠ b) :
    W7 m ρ c (Proc.devRef .tc b) = W3 m ρ c (Proc.devRef .tc b) :=
  (KHost.st1_keep (W4 m ρ c) b h1).trans (W4_of_ne m ρ c b h0)

theorem e_gamma (c : Dev nD) (k : Fin 128) :
    (W7 m ρ c (Proc.devRef .tc main_v41) : Vec Ideal S1x128 .f32) (ix2 (0 : Fin 1) k) = (paramsK m c).im_g1 k :=
  (congrFun (show (W7 m ρ c (Proc.devRef .tc main_v41) : S1x128.Idx → EReal) = (W3 m ρ c (Proc.devRef .tc main_v41) : S1x128.Idx → EReal)
    from early m ρ c main_v41 (by decide) (by decide)) (ix2 (0 : Fin 1) k)).trans (W3_v41 m ρ c k)

theorem e_beta (c : Dev nD) (k : Fin 128) :
    (W7 m ρ c (Proc.devRef .tc main_v42) : Vec Ideal S1x128 .f32) (ix2 (0 : Fin 1) k) = (paramsK m c).im_be1 k :=
  (congrFun (show (W7 m ρ c (Proc.devRef .tc main_v42) : S1x128.Idx → EReal) = (W3 m ρ c (Proc.devRef .tc main_v42) : S1x128.Idx → EReal)
    from early m ρ c main_v42 (by decide) (by decide)) (ix2 (0 : Fin 1) k)).trans (W3_v42 m ρ c k)

theorem e_w2 (c : Dev nD) : Cert.Pack.mat (W7 m ρ c (Proc.devRef .tc main_v34) : Vec Ideal S128x64 .bf16) = (paramsK m c).im_w2 := by
  rw [early m ρ c main_v34 (by decide) (by decide), W3_v34]
  rfl

theorem e_b2 (c : Dev nD) (j : Fin 64) :
    (W7 m ρ c (Proc.devRef .tc main_v43) : Vec Ideal S1x64 .f32) (ix2 (0 : Fin 1) j) = (paramsK m c).im_b2 j :=
  (congrFun (show (W7 m ρ c (Proc.devRef .tc main_v43) : S1x64.Idx → EReal) = (W3 m ρ c (Proc.devRef .tc main_v43) : S1x64.Idx → EReal)
    from early m ρ c main_v43 (by decide) (by decide)) (ix2 (0 : Fin 1) j)).trans (W3_v43 m ρ c j)

theorem e_lw1 (c : Dev nD) (hst : Keeps (W3 m ρ c) (W4 m ρ c)) :
    Cert.Pack.mat (W7 m ρ c (Proc.devRef .tc main_v53) : Vec Ideal S64x4 .bf16) = (paramsK m c).lw1 (0 : Fin 9) := by
  funext k a
  have h := KHost.st1_v53 (W4 m ρ c) k a
  rw [st_v38 hst] at h
  exact h

theorem e_lb1 (c : Dev nD) (hst : Keeps (W3 m ρ c) (W4 m ρ c)) (a : Fin 4) :
    (W7 m ρ c (Proc.devRef .tc main_v56) : Vec Ideal S1x4 .f32) (ix2 (0 : Fin 1) a) = (paramsK m c).lb1 (0 : Fin 9) a := by
  have h := KHost.st1_v56 (W4 m ρ c) 0 a
  rw [st_arg9 hst] at h
  exact h

theorem e_lw2 (c : Dev nD) (hst : Keeps (W3 m ρ c) (W4 m ρ c)) (a : Fin 4) :
    (W7 m ρ c (Proc.devRef .tc main_v58) : Vec Ideal S4x1 .bf16) (ix2 a (0 : Fin 1)) = (paramsK m c).lw2 (0 : Fin 9) a := by
  have h := KHost.st1_v58 (W4 m ρ c) a 0
  rw [st_v39 hst] at h
  exact h

theorem e_lb2 (c : Dev nD) (hst : Keeps (W3 m ρ c) (W4 m ρ c)) :
    (W7 m ρ c (Proc.devRef .tc main_v61) : Vec Ideal S1x1 .f32) (ix2 (0 : Fin 1) (0 : Fin 1)) = (paramsK m c).lb2 (0 : Fin 9) := by
  have h := KHost.st1_v61 (W4 m ρ c) 0 0
  rw [st_arg11 hst] at h
  exact h

theorem e_bw (c : Dev nD) (hst : Keeps (W3 m ρ c) (W4 m ρ c)) :
    Cert.Pack.mat (W7 m ρ c (Proc.devRef .tc main_v63) : Vec Ideal S64x64 .bf16) = (paramsK m c).bw (0 : Fin 8) := by
  funext k j
  have h := KHost.st1_v63 (W4 m ρ c) k j
  rw [st_v37 hst] at h
  exact h

theorem link (c : Dev nD) (hst : Keeps (W3 m ρ c) (W4 m ρ c))
    (hpre : Cert.Pack.mat (W4 m ρ c (Proc.devRef .tc main_v46) : Vec Ideal S50000x128 .f32) = Cert.Spec.preA (paramsK m c)) :
    Keeps (W3 m ρ c) (W8 m ρ c)
      ∧ Cert.Pack.mat (W8 m ρ c (Proc.devRef .tc main_v64_0) : Vec Ideal S50000x64 .f32)
          = (Cert.Spec.s0 (opsK (m ((c : Thread nD τ).loc main_arg1))) (paramsK m c)).1
      ∧ Cert.Pack.mat (W8 m ρ c (Proc.devRef .tc main_v64_1) : Vec Ideal S50000x64 .f32)
          = fun i j => Cert.Spec.proj ((Cert.Spec.s0 (opsK (m ((c : Thread nD τ).loc main_arg1))) (paramsK m c)).2 i) ((paramsK m c).bw (0 : Fin 8)) j :=
  ⟨(hst.trans (keeps_entry m ρ c)).trans (keeps_exit m ρ c),
   s0_link (opsK (m ((c : Thread nD τ).loc main_arg1))) (paramsK m c)
    (fun A k => KHost.sum128K A (ix1 k)) (fun A k => KHost.var128K A (ix2 (0 : Fin 1) k))
    (fun M k => opsK_sum128 (m ((c : Thread nD τ).loc main_arg1)) M k) (fun M k => opsK_var128 (m ((c : Thread nD τ).loc main_arg1)) M k)
    (W8 m ρ c (Proc.devRef .tc main_v64_0) : Vec Ideal S50000x64 .f32) (W8 m ρ c (Proc.devRef .tc main_v64_1) : Vec Ideal S50000x64 .f32)
    (W7 m ρ c (Proc.devRef .tc main_v46) : Vec Ideal S50000x128 .f32) (W7 m ρ c (Proc.devRef .tc main_v50) : Vec Ideal S1x128 .f32) (W7 m ρ c (Proc.devRef .tc main_v51) : Vec Ideal S1x128 .f32) (W7 m ρ c (Proc.devRef .tc main_v41) : Vec Ideal S1x128 .f32)
    (W7 m ρ c (Proc.devRef .tc main_v42) : Vec Ideal S1x128 .f32) (W7 m ρ c (Proc.devRef .tc main_v34) : Vec Ideal S128x64 .bf16) (W7 m ρ c (Proc.devRef .tc main_v43) : Vec Ideal S1x64 .f32) (W7 m ρ c (Proc.devRef .tc main_v53) : Vec Ideal S64x4 .bf16)
    (W7 m ρ c (Proc.devRef .tc main_v56) : Vec Ideal S1x4 .f32) (W7 m ρ c (Proc.devRef .tc main_v58) : Vec Ideal S4x1 .bf16) (W7 m ρ c (Proc.devRef .tc main_v61) : Vec Ideal S1x1 .f32) (W7 m ρ c (Proc.devRef .tc main_v63) : Vec Ideal S64x64 .bf16)
    (fun i j => by rw [exit_gated]; exact KReg1.gatedArr_apply _ _ _ _ _ _ _ _ _ _ _ i j)
    (fun i j => by rw [exit_proj]; exact KReg1.projArr_apply _ _ _ _ _ _ _ _ _ _ _ _ i j)
    (by rw [e_pre]; exact hpre)
    (e_mean m ρ c) (e_var m ρ c)
    (e_gamma m ρ c) (e_beta m ρ c) (e_w2 m ρ c) (e_b2 m ρ c)
    (e_lw1 m ρ c hst) (e_lb1 m ρ c hst) (e_lw2 m ρ c hst) (e_lb2 m ρ c hst) (e_bw m ρ c hst)⟩

end Link1

end Cert.KernelIdeal.KChain

end
-- ==== Proof.KHost.L2.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st2 (W : Valuation τ sig (Elt Ideal)) : Valuation τ sig (Elt Ideal) :=
  StableHlo.after hostOps2_2 (StableHlo.after hostOps2_1 (StableHlo.after hostOps2 W))

noncomputable def wr2 : List (Ref sig .tc) :=
  [main_c_10, main_v65, main_v66, main_c_11, main_v67, main_v68, main_v69, main_v70, main_v71, main_v72, main_v73, main_cst_12, main_v74, main_v75, main_v76, main_v77, main_v78, main_v79, main_v80, main_v81, main_cst_13, main_v82, main_v83, main_cst_14, main_v84, main_v85, main_c_15]
noncomputable def wr2_1 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v86]
noncomputable def wr2_2 : List (Ref sig .tc) :=
  [main_v87, main_v88, main_v89, main_v90, main_v91, main_v92, main_v93, main_v94, main_v95, main_v96, main_v97, main_v98, main_v99, main_v100, main_v101, main_v102, main_v103, main_v104]
noncomputable def wrS2 : List (Ref sig .tc) := wr2 ++ wr2_1 ++ wr2_2

theorem keep2 (W : Valuation τ sig (Elt Ideal)) (b : Ref sig .tc) (hb : b ∉ wr2) :
    StableHlo.after hostOps2 W (Proc.devRef .tc b) = W (Proc.devRef .tc b) :=
  StableHlo.after_of_writes_sub hostOps2 W (by
    simp only [hostOps2, wr2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep2_1 (W : Valuation τ sig (Elt Ideal)) (b : Ref sig .tc) (hb : b ∉ wr2_1) :
    StableHlo.after hostOps2_1 W (Proc.devRef .tc b) = W (Proc.devRef .tc b) :=
  StableHlo.after_of_writes_sub hostOps2_1 W (by
    simp only [hostOps2_1, wr2_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep2_2 (W : Valuation τ sig (Elt Ideal)) (b : Ref sig .tc) (hb : b ∉ wr2_2) :
    StableHlo.after hostOps2_2 W (Proc.devRef .tc b) = W (Proc.devRef .tc b) :=
  StableHlo.after_of_writes_sub hostOps2_2 W (by
    simp only [hostOps2_2, wr2_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st2_keep (W : Valuation τ sig (Elt Ideal)) (b : Ref sig .tc) (hb : b ∉ wrS2) :
    st2 W (Proc.devRef .tc b) = W (Proc.devRef .tc b) :=
  (keep2_2 _ b fun h => hb (List.mem_append_right _ h)).trans
    ((keep2_1 _ b fun h => hb (List.mem_append_left _ (List.mem_append_right _ h))).trans
      (keep2 W b fun h => hb (List.mem_append_left _ (List.mem_append_left _ h))))

theorem l2_v81 (X : Valuation τ sig (Elt Ideal)) :
    StableHlo.after hostOps2 X (Proc.devRef .tc main_v81)
      = (addf (scatK (X (Proc.devRef .tc main_v64_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![0, 0] (X (Proc.devRef .tc main_arg13)) slices_S8x64_S1x64_0_0) shapeCasts_S1x64_S64))) :
          FVec Ideal S50000x64 .f32) := by
  simp only [hostOps2]; after_results_simp; all_goals rfl

theorem l2_v85 (X : Valuation τ sig (Elt Ideal)) :
    StableHlo.after hostOps2 X (Proc.devRef .tc main_v85)
      = (Host.divf (broadcastInDim S1x64 ![1] bcast_S64_S1x64_1 (sum64K (StableHlo.after hostOps2 X (Proc.devRef .tc main_v81))))
          (broadcastInDim S1x64 ![] bcast_S_S1x64 (constant S_ .f32 0x47435000#32)) : FVec Ideal S1x64 .f32) := by
  rw [← List.take_append_drop 20 (hostOps2 (F := Ideal)), after_append]
  generalize StableHlo.after (List.take 20 hostOps2) X = Y
  simp only [hostOps2, List.drop_succ_cons, List.drop_zero]
  after_results; all_goals rfl

theorem l2_c_15 (X : Valuation τ sig (Elt Ideal)) :
    StableHlo.after hostOps2 X (Proc.devRef .tc main_c_15) = (constantI S_ 32 0#32 : IVec S_ 32) := by
  simp only [hostOps2]; after_results; all_goals rfl

theorem l2_1_v86 (X : Valuation τ sig (Elt Ideal)) (h0 : X (Proc.devRef .tc main_c_15) = (constantI S_ 32 0#32 : IVec S_ 32)) :
    StableHlo.after hostOps2_1 X (Proc.devRef .tc main_v86) = var64K (X (Proc.devRef .tc main_v81)) := by
  simp only [hostOps2_1]; after_results_simp; rw [h0]; rfl

theorem l2_2_v89 (X : Valuation τ sig (Elt Ideal)) :
    StableHlo.after hostOps2_2 X (Proc.devRef .tc main_v89)
      = (shapeCast S1x64 (shapeCast S64 (extractStridedSlice S1x64 ![0, 0] (X (Proc.devRef .tc main_arg14)) slices_S8x64_S1x64_0_0) shapeCasts_S1x64_S64) shapeCasts_S64_S1x64 :
          FVec Ideal S1x64 .f32) := by
  simp only [hostOps2_2]; after_results; all_goals rfl

theorem l2_2_v92 (X : Valuation τ sig (Elt Ideal)) :
    StableHlo.after hostOps2_2 X (Proc.devRef .tc main_v92)
      = (shapeCast S1x64 (shapeCast S64 (extractStridedSlice S1x64 ![0, 0] (X (Proc.devRef .tc main_arg15)) slices_S8x64_S1x64_0_0) shapeCasts_S1x64_S64) shapeCasts_S64_S1x64 :
          FVec Ideal S1x64 .f32) := by
  simp only [hostOps2_2]; after_results; all_goals rfl

theorem l2_2_v94 (X : Valuation τ sig (Elt Ideal)) :
    StableHlo.after hostOps2_2 X (Proc.devRef .tc main_v94)
      = (shapeCast S64x4 (extractStridedSlice S1x64x4 ![1, 0, 0] (X (Proc.devRef .tc main_v38)) slices_S9x64x4_S1x64x4_1_0_0) shapeCasts_S1x64x4_S64x4 :
          FVec Ideal S64x4 .bf16) := by
  simp only [hostOps2_2]; after_results; all_goals rfl

theorem l2_2_v97 (X : Valuation τ sig (Elt Ideal)) :
    StableHlo.after hostOps2_2 X (Proc.devRef .tc main_v97)
      = (shapeCast S1x4 (shapeCast S4 (extractStridedSlice S1x4 ![1, 0] (X (Proc.devRef .tc main_arg9)) slices_S9x4_S1x4_1_0) shapeCasts_S1x4_S4) shapeCasts_S4_S1x4 :
          FVec Ideal S1x4 .f32) := by
  simp only [hostOps2_2]; after_results; all_goals rfl

theorem l2_2_v99 (X : Valuation τ sig (Elt Ideal)) :
    StableHlo.after hostOps2_2 X (Proc.devRef .tc main_v99)
      = (shapeCast S4x1 (extractStridedSlice S1x4x1 ![1, 0, 0] (X (Proc.devRef .tc main_v39)) slices_S9x4x1_S1x4x1_1_0_0) shapeCasts_S1x4x1_S4x1 :
          FVec Ideal S4x1 .bf16) := by
  simp only [hostOps2_2]; after_results; all_goals rfl

theorem l2_2_v102 (X : Valuation τ sig (Elt Ideal)) :
    StableHlo.after hostOps2_2 X (Proc.devRef .tc main_v102)
      = (shapeCast S1x1 (shapeCast S1 (extractStridedSlice S1x1 ![1, 0] (X (Proc.devRef .tc main_arg11)) slices_S9x1_S1x1_1_0) shapeCasts_S1x1_S1) shapeCasts_S1_S1x1 :
          FVec Ideal S1x1 .f32) := by
  simp only [hostOps2_2]; after_results; all_goals rfl

theorem l2_2_v104 (X : Valuation τ sig (Elt Ideal)) :
    StableHlo.after hostOps2_2 X (Proc.devRef .tc main_v104)
      = (shapeCast S64x64 (extractStridedSlice S1x64x64 ![1, 0, 0] (X (Proc.devRef .tc main_v37)) slices_S8x64x64_S1x64x64_1_0_0) shapeCasts_S1x64x64_S64x64 :
          FVec Ideal S64x64 .bf16) := by
  simp only [hostOps2_2]; after_results; all_goals rfl

theorem st2_v81 (W : Valuation τ sig (Elt Ideal)) (i : Fin 50000) (j : Fin 64) :
    (st2 W (Proc.devRef .tc main_v81) : S50000x64.Idx → EReal) (ix2 i j)
      = scatK (W (Proc.devRef .tc main_v64_1)) (W (Proc.devRef .tc main_v3)) (W (Proc.devRef .tc main_v32)) (W (Proc.devRef .tc main_v6)) (ix2 i j)
        + (W (Proc.devRef .tc main_arg13) : S8x64.Idx → EReal) (ix2 0 j) := by
  have e : (st2 W (Proc.devRef .tc main_v81) : S50000x64.Idx → EReal)
      = addf (scatK (W (Proc.devRef .tc main_v64_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![0, 0] (W (Proc.devRef .tc main_arg13) : S8x64.Idx → EReal) slices_S8x64_S1x64_0_0) shapeCasts_S1x64_S64))) := by
    show StableHlo.after hostOps2_2 (StableHlo.after hostOps2_1 (StableHlo.after hostOps2 W)) (Proc.devRef .tc main_v81) = _
    rw [keep2_2 _ main_v81 (by decide), keep2_1 _ main_v81 (by decide), l2_v81]
  rw [e, addf_apply, bcast_1b_ab, bcast_b_1b]
  exact congrArg (_ + ·) ((shapeCast_1a_a_apply _ _ j).trans (stack2_row (0 : Fin 8) _ _ 0 j))

theorem st2_v85 (W : Valuation τ sig (Elt Ideal)) (u : Fin 1) (j : Fin 64) :
    (st2 W (Proc.devRef .tc main_v85) : S1x64.Idx → EReal) (ix2 u j)
      = Cert.Spec.meanOf (sum64K (st2 W (Proc.devRef .tc main_v81)) (ix1 j)) := by
  have e : (st2 W (Proc.devRef .tc main_v85) : S1x64.Idx → EReal)
      = Host.divf (broadcastInDim S1x64 ![1] bcast_S64_S1x64_1 (sum64K (st2 W (Proc.devRef .tc main_v81))))
          (broadcastInDim S1x64 ![] bcast_S_S1x64 (constant S_ .f32 0x47435000#32)) := by
    show StableHlo.after hostOps2_2 (StableHlo.after hostOps2_1 (StableHlo.after hostOps2 W)) (Proc.devRef .tc main_v85)
      = Host.divf (broadcastInDim S1x64 ![1] bcast_S64_S1x64_1 (sum64K (StableHlo.after hostOps2_2 (StableHlo.after hostOps2_1 (StableHlo.after hostOps2 W)) (Proc.devRef .tc main_v81))))
          (broadcastInDim S1x64 ![] bcast_S_S1x64 (constant S_ .f32 0x47435000#32))
    rw [keep2_2 _ main_v85 (by decide), keep2_1 _ main_v85 (by decide), keep2_2 _ main_v81 (by decide),
      keep2_1 _ main_v81 (by decide), l2_v85]
  rw [e]
  show Ideal.div (broadcastInDim S1x64 ![1] bcast_S64_S1x64_1 (sum64K (st2 W (Proc.devRef .tc main_v81))) (ix2 u j))
      (Ideal.ofBits .f32 0x47435000#32) = _
  rw [bcast_b_1b]
  rfl

theorem st2_v86 (W : Valuation τ sig (Elt Ideal)) :
    st2 W (Proc.devRef .tc main_v86) = var64K (st2 W (Proc.devRef .tc main_v81)) := by
  show StableHlo.after hostOps2_2 (StableHlo.after hostOps2_1 (StableHlo.after hostOps2 W)) (Proc.devRef .tc main_v86) = var64K (StableHlo.after hostOps2_2 (StableHlo.after hostOps2_1 (StableHlo.after hostOps2 W)) (Proc.devRef .tc main_v81))
  rw [keep2_2 _ main_v86 (by decide), keep2_2 _ main_v81 (by decide), keep2_1 _ main_v81 (by decide),
    l2_1_v86 _ (l2_c_15 W)]

theorem st2_v89 (W : Valuation τ sig (Elt Ideal)) (u : Fin 1) (j : Fin 64) :
    (st2 W (Proc.devRef .tc main_v89) : S1x64.Idx → EReal) (ix2 u j) = (W (Proc.devRef .tc main_arg14) : S8x64.Idx → EReal) (ix2 0 j) := by
  have e : (st2 W (Proc.devRef .tc main_v89) : S1x64.Idx → EReal)
      = shapeCast S1x64 (shapeCast S64 (extractStridedSlice S1x64 ![0, 0] (W (Proc.devRef .tc main_arg14) : S8x64.Idx → EReal) slices_S8x64_S1x64_0_0) shapeCasts_S1x64_S64) shapeCasts_S64_S1x64 := by
    show StableHlo.after hostOps2_2 (StableHlo.after hostOps2_1 (StableHlo.after hostOps2 W)) (Proc.devRef .tc main_v89) = _
    rw [l2_2_v89, keep2_1 _ main_arg14 (by decide), keep2 _ main_arg14 (by decide)]
  rw [e]
  exact (row_roundtrip _ _ _ u j).trans (stack2_row (0 : Fin 8) _ _ 0 j)

theorem st2_v92 (W : Valuation τ sig (Elt Ideal)) (u : Fin 1) (j : Fin 64) :
    (st2 W (Proc.devRef .tc main_v92) : S1x64.Idx → EReal) (ix2 u j) = (W (Proc.devRef .tc main_arg15) : S8x64.Idx → EReal) (ix2 0 j) := by
  have e : (st2 W (Proc.devRef .tc main_v92) : S1x64.Idx → EReal)
      = shapeCast S1x64 (shapeCast S64 (extractStridedSlice S1x64 ![0, 0] (W (Proc.devRef .tc main_arg15) : S8x64.Idx → EReal) slices_S8x64_S1x64_0_0) shapeCasts_S1x64_S64) shapeCasts_S64_S1x64 := by
    show StableHlo.after hostOps2_2 (StableHlo.after hostOps2_1 (StableHlo.after hostOps2 W)) (Proc.devRef .tc main_v92) = _
    rw [l2_2_v92, keep2_1 _ main_arg15 (by decide), keep2 _ main_arg15 (by decide)]
  rw [e]
  exact (row_roundtrip _ _ _ u j).trans (stack2_row (0 : Fin 8) _ _ 0 j)

theorem st2_v94 (W : Valuation τ sig (Elt Ideal)) (k : Fin 64) (a : Fin 4) :
    (st2 W (Proc.devRef .tc main_v94) : S64x4.Idx → EReal) (ix2 k a) = (W (Proc.devRef .tc main_v38) : S9x64x4.Idx → EReal) (ix3 1 k a) := by
  have e : (st2 W (Proc.devRef .tc main_v94) : S64x4.Idx → EReal)
      = shapeCast S64x4 (extractStridedSlice S1x64x4 ![1, 0, 0] (W (Proc.devRef .tc main_v38) : S9x64x4.Idx → EReal) slices_S9x64x4_S1x64x4_1_0_0) shapeCasts_S1x64x4_S64x4 := by
    show StableHlo.after hostOps2_2 (StableHlo.after hostOps2_1 (StableHlo.after hostOps2 W)) (Proc.devRef .tc main_v94) = _
    rw [l2_2_v94, keep2_1 _ main_v38 (by decide), keep2 _ main_v38 (by decide)]
  rw [e]
  exact stack3_entry (1 : Fin 9) _ _ _ k a

theorem st2_v97 (W : Valuation τ sig (Elt Ideal)) (u : Fin 1) (a : Fin 4) :
    (st2 W (Proc.devRef .tc main_v97) : S1x4.Idx → EReal) (ix2 u a) = (W (Proc.devRef .tc main_arg9) : S9x4.Idx → EReal) (ix2 1 a) := by
  have e : (st2 W (Proc.devRef .tc main_v97) : S1x4.Idx → EReal)
      = shapeCast S1x4 (shapeCast S4 (extractStridedSlice S1x4 ![1, 0] (W (Proc.devRef .tc main_arg9) : S9x4.Idx → EReal) slices_S9x4_S1x4_1_0) shapeCasts_S1x4_S4) shapeCasts_S4_S1x4 := by
    show StableHlo.after hostOps2_2 (StableHlo.after hostOps2_1 (StableHlo.after hostOps2 W)) (Proc.devRef .tc main_v97) = _
    rw [l2_2_v97, keep2_1 _ main_arg9 (by decide), keep2 _ main_arg9 (by decide)]
  rw [e]
  exact (row_roundtrip _ _ _ u a).trans (stack2_row (1 : Fin 9) _ _ 0 a)

theorem st2_v99 (W : Valuation τ sig (Elt Ideal)) (a : Fin 4) (q : Fin 1) :
    (st2 W (Proc.devRef .tc main_v99) : S4x1.Idx → EReal) (ix2 a q) = (W (Proc.devRef .tc main_v39) : S9x4x1.Idx → EReal) (ix3 1 a q) := by
  have e : (st2 W (Proc.devRef .tc main_v99) : S4x1.Idx → EReal)
      = shapeCast S4x1 (extractStridedSlice S1x4x1 ![1, 0, 0] (W (Proc.devRef .tc main_v39) : S9x4x1.Idx → EReal) slices_S9x4x1_S1x4x1_1_0_0) shapeCasts_S1x4x1_S4x1 := by
    show StableHlo.after hostOps2_2 (StableHlo.after hostOps2_1 (StableHlo.after hostOps2 W)) (Proc.devRef .tc main_v99) = _
    rw [l2_2_v99, keep2_1 _ main_v39 (by decide), keep2 _ main_v39 (by decide)]
  rw [e]
  exact stack3_entry (1 : Fin 9) _ _ _ a q

theorem st2_v102 (W : Valuation τ sig (Elt Ideal)) (u : Fin 1) (q : Fin 1) :
    (st2 W (Proc.devRef .tc main_v102) : S1x1.Idx → EReal) (ix2 u q) = (W (Proc.devRef .tc main_arg11) : S9x1.Idx → EReal) (ix2 1 q) := by
  have e : (st2 W (Proc.devRef .tc main_v102) : S1x1.Idx → EReal)
      = shapeCast S1x1 (shapeCast S1 (extractStridedSlice S1x1 ![1, 0] (W (Proc.devRef .tc main_arg11) : S9x1.Idx → EReal) slices_S9x1_S1x1_1_0) shapeCasts_S1x1_S1) shapeCasts_S1_S1x1 := by
    show StableHlo.after hostOps2_2 (StableHlo.after hostOps2_1 (StableHlo.after hostOps2 W)) (Proc.devRef .tc main_v102) = _
    rw [l2_2_v102, keep2_1 _ main_arg11 (by decide), keep2 _ main_arg11 (by decide)]
  rw [e]
  exact (row_roundtrip _ _ _ u q).trans (stack2_row (1 : Fin 9) _ _ 0 q)

theorem st2_v104 (W : Valuation τ sig (Elt Ideal)) (k : Fin 64) (j : Fin 64) :
    (st2 W (Proc.devRef .tc main_v104) : S64x64.Idx → EReal) (ix2 k j) = (W (Proc.devRef .tc main_v37) : S8x64x64.Idx → EReal) (ix3 1 k j) := by
  have e : (st2 W (Proc.devRef .tc main_v104) : S64x64.Idx → EReal)
      = shapeCast S64x64 (extractStridedSlice S1x64x64 ![1, 0, 0] (W (Proc.devRef .tc main_v37) : S8x64x64.Idx → EReal) slices_S8x64x64_S1x64x64_1_0_0) shapeCasts_S1x64x64_S64x64 := by
    show StableHlo.after hostOps2_2 (StableHlo.after hostOps2_1 (StableHlo.after hostOps2 W)) (Proc.devRef .tc main_v104) = _
    rw [l2_2_v104, keep2_1 _ main_v37 (by decide), keep2 _ main_v37 (by decide)]
  rw [e]
  exact stack3_entry (1 : Fin 8) _ _ _ k j

end Cert.KernelIdeal.KHost

end
-- ==== Proof.KReg2.lean ====
import proofs.«428538_j32280974197073_1_alg».proof.Proof.Spec
import proofs.«428538_j32280974197073_1_alg».proof.Proof.Gen.KernelIdeal.Frame
import proofs.«428538_j32280974197073_1_alg».proof.Proof.ReadOps
import Idealize.ShloMosaic.PureOps.Ideal.Laws
import Idealize.ShloMosaic.Lib.ValueIdx
import Idealize.ShloMosaic.Lib.ValueLayout
import Idealize.ShloMosaic.Lib.Pipeline.Value

set_option pp.maxSteps 5000
set_option pp.deepTerms false

noncomputable section

open scoped BigOperators

namespace Cert.KernelIdeal.KReg2

open Cert.KernelIdeal Cert.KernelIdeal.Gen
open Idealize.ShloMosaic Idealize.ShloMosaic.ValueIdx
open Idealize.ShloMosaic.TcCoe Idealize.SL.Sem
open Idealize.ShloMosaic.Pipeline (Dat)

theorem broadcastTo_col_apply (v : S2000x1.Idx → EReal) (i : Fin 2000) (j : Fin 64) :
    broadcastTo S2000x64 v broadcasts_S2000x1_S2000x64 (ix2 i j) = v (ix2 i (0 : Fin 1)) := by
  refine broadcastTo_apply v broadcasts_S2000x1_S2000x64 (ix2 i j) (ix2 i (0 : Fin 1)) fun ax => ?_
  match ax with
  | ⟨0, _⟩ =>
    show i.val = if (2000 : ℕ) = 1 then 0 else i.val
    rw [if_neg (by decide)]
  | ⟨1, _⟩ => rfl

theorem zero_word : (Scalar.ofBits .f32 0x00000000#32 : Ideal .f32) = 0 := Ideal.ofBits_zero_f32

theorem leaky_eq (x : EReal) :
    Scalar.select (FloatOps.cmpf (F := Ideal) (φ := .f32) .oge x (Scalar.ofBits .f32 0x00000000#32)) x
        ((Scalar.ofBits .f32 0x3E4CCCCD#32 : Ideal .f32) * x) = Cert.Spec.leaky x := by
  unfold Cert.Spec.leaky Cert.Spec.slope
  rw [zero_word]
  rfl

abbrev hrow {n : ℕ} (v0 : (⟨2, ![n, 64]⟩ : Shape).Idx → EReal) (v2 v7 v13 v17 : Vec Ideal S1x64 .f32) (i : Fin n) : Fin 64 → EReal :=
  Cert.Spec.hraw (fun k => v0 (ix2 i k)) (fun k => v7 (ix2 (0 : Fin 1) k)) (fun k => v2 (ix2 (0 : Fin 1) k))
    (fun k => v13 (ix2 (0 : Fin 1) k)) (fun k => v17 (ix2 (0 : Fin 1) k))

abbrev grow {n : ℕ} (v0 v23 : (⟨2, ![n, 64]⟩ : Shape).Idx → EReal) (v2 v7 v13 v17 : Vec Ideal S1x64 .f32) (v27 : Vec Ideal S64x4 .bf16)
    (v30 : Vec Ideal S1x4 .f32) (v40 : Vec Ideal S4x1 .bf16) (v43 : Vec Ideal S1x1 .f32) (i : Fin n) : Fin 64 → EReal :=
  Cert.Spec.gated (hrow v0 v2 v7 v13 v17 i) (fun k => hrow v0 v2 v7 v13 v17 i k - v23 (ix2 i k))
    (fun k a => v27 (ix2 k a)) (fun a => v30 (ix2 (0 : Fin 1) a)) (fun a => v40 (ix2 a (0 : Fin 1))) (v43 (ix2 (0 : Fin 1) (0 : Fin 1)))

theorem hrow_congr {n n' : ℕ} (x0 : (⟨2, ![n, 64]⟩ : Shape).Idx → EReal) (A0 : (⟨2, ![n', 64]⟩ : Shape).Idx → EReal)
    (v2 v7 v13 v17 : Vec Ideal S1x64 .f32) (p : Fin n) (r : Fin n') (h0 : ∀ k, x0 (ix2 p k) = A0 (ix2 r k)) :
    hrow x0 v2 v7 v13 v17 p = hrow A0 v2 v7 v13 v17 r := by
  show Cert.Spec.hraw (fun k => x0 (ix2 p k)) _ _ _ _ = Cert.Spec.hraw (fun k => A0 (ix2 r k)) _ _ _ _
  rw [show (fun k => x0 (ix2 p k)) = fun k => A0 (ix2 r k) from funext h0]

theorem grow_congr {n n' : ℕ} (x0 x5 : (⟨2, ![n, 64]⟩ : Shape).Idx → EReal) (A0 A5 : (⟨2, ![n', 64]⟩ : Shape).Idx → EReal)
    (v2 v7 v13 v17 : Vec Ideal S1x64 .f32) (v27 : Vec Ideal S64x4 .bf16) (v30 : Vec Ideal S1x4 .f32) (v40 : Vec Ideal S4x1 .bf16)
    (v43 : Vec Ideal S1x1 .f32) (p : Fin n) (r : Fin n') (h0 : ∀ k, x0 (ix2 p k) = A0 (ix2 r k)) (h5 : ∀ k, x5 (ix2 p k) = A5 (ix2 r k)) :
    grow x0 x5 v2 v7 v13 v17 v27 v30 v40 v43 p = grow A0 A5 v2 v7 v13 v17 v27 v30 v40 v43 r := by
  show Cert.Spec.gated (hrow x0 v2 v7 v13 v17 p) (fun k => hrow x0 v2 v7 v13 v17 p k - x5 (ix2 p k)) _ _ _ _
    = Cert.Spec.gated (hrow A0 v2 v7 v13 v17 r) (fun k => hrow A0 v2 v7 v13 v17 r k - A5 (ix2 r k)) _ _ _ _
  rw [hrow_congr x0 A0 v2 v7 v13 v17 p r h0]
  simp only [h5]

theorem hz : (![0, 0] : Fin 2 → Nat) = fun _ => 0 := funext fun a => by fin_cases a <;> rfl

def fusedArr (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32) : Vec Ideal S50000x64 .f32 :=
  fun y => A5 y + grow (n := 50000) A0 A5 A2 A1 A3 A4 A6 A7 A8 A9 (y 0) (y 1)

def projArr (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32) (A10 : Vec Ideal S64x64 .bf16) : Vec Ideal S50000x64 .f32 :=
  fun y => Cert.Spec.proj (grow (n := 50000) A0 A5 A2 A1 A3 A4 A6 A7 A8 A9 (y 0)) (fun k j' => A10 (ix2 k j')) (y 1)

theorem fusedArr_apply (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32) (r : Fin 50000) (j : Fin 64) :
    fusedArr A0 A1 A2 A3 A4 A5 A6 A7 A8 A9 (ix2 r j)
      = A5 (ix2 r j) + Cert.Spec.gated
          (fun k => Cert.Spec.hraw (fun k' => A0 (ix2 r k')) (fun k' => A1 (ix2 (0 : Fin 1) k')) (fun k' => A2 (ix2 (0 : Fin 1) k'))
            (fun k' => A3 (ix2 (0 : Fin 1) k')) (fun k' => A4 (ix2 (0 : Fin 1) k')) k)
          (fun k => Cert.Spec.hraw (fun k' => A0 (ix2 r k')) (fun k' => A1 (ix2 (0 : Fin 1) k')) (fun k' => A2 (ix2 (0 : Fin 1) k'))
            (fun k' => A3 (ix2 (0 : Fin 1) k')) (fun k' => A4 (ix2 (0 : Fin 1) k')) k - A5 (ix2 r k))
          (fun k a => A6 (ix2 k a)) (fun a => A7 (ix2 (0 : Fin 1) a)) (fun a => A8 (ix2 a (0 : Fin 1))) (A9 (ix2 (0 : Fin 1) (0 : Fin 1))) j := rfl

theorem projArr_apply (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32) (A10 : Vec Ideal S64x64 .bf16) (r : Fin 50000) (j : Fin 64) :
    projArr A0 A1 A2 A3 A4 A5 A6 A7 A8 A9 A10 (ix2 r j)
      = Cert.Spec.proj (fun k => Cert.Spec.gated
          (fun k => Cert.Spec.hraw (fun k' => A0 (ix2 r k')) (fun k' => A1 (ix2 (0 : Fin 1) k')) (fun k' => A2 (ix2 (0 : Fin 1) k'))
            (fun k' => A3 (ix2 (0 : Fin 1) k')) (fun k' => A4 (ix2 (0 : Fin 1) k')) k)
          (fun k => Cert.Spec.hraw (fun k' => A0 (ix2 r k')) (fun k' => A1 (ix2 (0 : Fin 1) k')) (fun k' => A2 (ix2 (0 : Fin 1) k'))
            (fun k' => A3 (ix2 (0 : Fin 1) k')) (fun k' => A4 (ix2 (0 : Fin 1) k')) k - A5 (ix2 r k))
          (fun k a => A6 (ix2 k a)) (fun a => A7 (ix2 (0 : Fin 1) a)) (fun a => A8 (ix2 a (0 : Fin 1))) (A9 (ix2 (0 : Fin 1) (0 : Fin 1))) k)
          (fun k j' => A10 (ix2 k j')) j := rfl

theorem k2_pay4_apply (v0 : Vec Ideal S2000x64 .f32) (v2 v7 v13 v17 : Vec Ideal S1x64 .f32) (i : Fin 2000) (j : Fin 64) :
    k2_pay4 (F := Ideal) v0 v2 v7 v13 v17 (ix2 i j)
      = hrow v0 v2 v7 v13 v17 i j := by
  unfold k2_pay4
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply, zero_word]
  rfl

theorem k2_pay5_apply (v0 v23 : Vec Ideal S2000x64 .f32) (v2 v7 v13 v17 : Vec Ideal S1x64 .f32) (v27 : Vec Ideal S64x4 .bf16)
    (v30 : Vec Ideal S1x4 .f32) (i : Fin 2000) (a : Fin 4) :
    k2_pay5 (F := Ideal) v0 v2 v7 v13 v17 v23 v27 v30 (ix2 i a)
      = (∑ k : Fin 64, (hrow v0 v2 v7 v13 v17 i k - v23 (ix2 i k)) * v27 (ix2 k a)) + v30 (ix2 (0 : Fin 1) a) := by
  unfold k2_pay5
  simp only [shapeCast_self]
  rw [addf_apply, ReadOps.matmul_64x4_apply, broadcastTo_1b_ab_apply]
  refine congrArg (· + v30 (ix2 (0 : Fin 1) a)) (Finset.sum_congr rfl fun k _ => ?_)
  rw [truncf_apply, subf_apply, k2_pay4_apply]

theorem k2_select_apply (v0 v23 : Vec Ideal S2000x64 .f32) (v2 v7 v13 v17 : Vec Ideal S1x64 .f32) (v27 : Vec Ideal S64x4 .bf16)
    (v30 : Vec Ideal S1x4 .f32) (i : Fin 2000) (a : Fin 4) :
    Scalar.select (k2_pay6 (F := Ideal) v0 v2 v7 v13 v17 v23 v27 v30 (ix2 i a)) (k2_pay5 (F := Ideal) v0 v2 v7 v13 v17 v23 v27 v30 (ix2 i a))
        (k2_pay7 (F := Ideal) v0 v2 v7 v13 v17 v23 v27 v30 (ix2 i a))
      = Cert.Spec.leaky (k2_pay5 (F := Ideal) v0 v2 v7 v13 v17 v23 v27 v30 (ix2 i a)) :=
  leaky_eq (k2_pay5 (F := Ideal) v0 v2 v7 v13 v17 v23 v27 v30 (ix2 i a))

theorem k2_pay1_apply (v22 : FVec Ideal S2000x64 .f32) (v33 v37 : FVec Ideal S2000x4 .f32) (v35 : IVec S2000x4 1)
    (v40 : Vec Ideal S4x1 .bf16) (v43 : Vec Ideal S1x1 .f32) (i : Fin 2000) (j : Fin 64) :
    k2_pay1 (F := Ideal) v22 v33 v35 v37 v40 v43 (ix2 i j)
      = v22 (ix2 i j) * Ideal.logistic ((∑ a : Fin 4, Scalar.select (v35 (ix2 i a)) (v33 (ix2 i a)) (v37 (ix2 i a)) * v40 (ix2 a (0 : Fin 1)))
          + v43 (ix2 (0 : Fin 1) (0 : Fin 1))) := by
  unfold k2_pay1
  simp only [shapeCast_self]
  rw [mulf_apply, broadcastTo_col_apply]
  refine congrArg (fun z => v22 (ix2 i j) * Ideal.logistic z) ?_
  rw [addf_apply, ReadOps.matmul_4x1_apply, broadcastTo_1b_ab_apply]
  rfl

theorem k2_gated_apply (v0 v23 : Vec Ideal S2000x64 .f32) (v2 v7 v13 v17 : Vec Ideal S1x64 .f32) (v27 : Vec Ideal S64x4 .bf16)
    (v30 : Vec Ideal S1x4 .f32) (v40 : Vec Ideal S4x1 .bf16) (v43 : Vec Ideal S1x1 .f32) (i : Fin 2000) (j : Fin 64) :
    k2_pay1 (F := Ideal) (k2_pay4 v0 v2 v7 v13 v17) (k2_pay5 v0 v2 v7 v13 v17 v23 v27 v30) (k2_pay6 v0 v2 v7 v13 v17 v23 v27 v30)
        (k2_pay7 v0 v2 v7 v13 v17 v23 v27 v30) v40 v43 (ix2 i j)
      = grow v0 v23 v2 v7 v13 v17 v27 v30 v40 v43 i j := by
  rw [k2_pay1_apply, k2_pay4_apply]
  show _ = hrow v0 v2 v7 v13 v17 i j * Ideal.logistic ((∑ a : Fin 4, Cert.Spec.leaky ((∑ k : Fin 64,
      (hrow v0 v2 v7 v13 v17 i k - v23 (ix2 i k)) * v27 (ix2 k a)) + v30 (ix2 (0 : Fin 1) a)) * v40 (ix2 a (0 : Fin 1)))
      + v43 (ix2 (0 : Fin 1) (0 : Fin 1)))
  refine congrArg (fun z => hrow v0 v2 v7 v13 v17 i j * Ideal.logistic (z + v43 (ix2 (0 : Fin 1) (0 : Fin 1)))) ?_
  refine Finset.sum_congr rfl fun a _ => ?_
  rw [k2_select_apply, k2_pay5_apply]

theorem k2_pay2_apply (v0 v23 v50 : Vec Ideal S2000x64 .f32) (v2 v7 v13 v17 : Vec Ideal S1x64 .f32) (v27 : Vec Ideal S64x4 .bf16)
    (v30 : Vec Ideal S1x4 .f32) (v40 : Vec Ideal S4x1 .bf16) (v43 : Vec Ideal S1x1 .f32) (i : Fin 2000) (j : Fin 64) :
    k2_pay2 (F := Ideal) (k2_pay4 v0 v2 v7 v13 v17) (k2_pay5 v0 v2 v7 v13 v17 v23 v27 v30) (k2_pay6 v0 v2 v7 v13 v17 v23 v27 v30)
        (k2_pay7 v0 v2 v7 v13 v17 v23 v27 v30) v40 v43 v50 (ix2 i j)
      = v50 (ix2 i j) + grow v0 v23 v2 v7 v13 v17 v27 v30 v40 v43 i j := by
  unfold k2_pay2
  simp only [shapeCast_self]
  rw [addf_apply, k2_gated_apply]

theorem k2_pay3_apply (v0 v23 : Vec Ideal S2000x64 .f32) (v2 v7 v13 v17 : Vec Ideal S1x64 .f32) (v27 : Vec Ideal S64x4 .bf16)
    (v30 : Vec Ideal S1x4 .f32) (v40 : Vec Ideal S4x1 .bf16) (v43 : Vec Ideal S1x1 .f32) (v55 : Vec Ideal S64x64 .bf16)
    (i : Fin 2000) (j : Fin 64) :
    k2_pay3 (F := Ideal) (k2_pay4 v0 v2 v7 v13 v17) (k2_pay5 v0 v2 v7 v13 v17 v23 v27 v30) (k2_pay6 v0 v2 v7 v13 v17 v23 v27 v30)
        (k2_pay7 v0 v2 v7 v13 v17 v23 v27 v30) v40 v43 v55 (ix2 i j)
      = Cert.Spec.proj (grow v0 v23 v2 v7 v13 v17 v27 v30 v40 v43 i) (fun k j' => v55 (ix2 k j')) j := by
  unfold k2_pay3
  simp only [shapeCast_self]
  rw [ReadOps.matmul_64x64_apply]
  refine Finset.sum_congr rfl fun k _ => ?_
  rw [truncf_apply, k2_gated_apply]

/-- On blocks that are rows `ρ p` of the two node arrays, and the parameter arrays whole, the body's first store is those rows of `fusedArr`. -/
theorem store11 (ρ : Fin 2000 → Fin 50000) (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32)
    (x0 : Vec Ideal S2000x64 .f32) (x1 x2 x3 x4 : Vec Ideal S1x64 .f32) (x5 : Vec Ideal S2000x64 .f32)
    (x6 : Vec Ideal S64x4 .bf16) (x7 : Vec Ideal S1x4 .f32) (x8 : Vec Ideal S4x1 .bf16) (x9 : Vec Ideal S1x1 .f32)
    (h0 : ∀ p k, x0 (ix2 p k) = A0 (ix2 (ρ p) k)) (h1 : x1 = A1) (h2 : x2 = A2) (h3 : x3 = A3) (h4 : x4 = A4)
    (h5 : ∀ p k, x5 (ix2 p k) = A5 (ix2 (ρ p) k)) (h6 : x6 = A6) (h7 : x7 = A7) (h8 : x8 = A8) (h9 : x9 = A9)
    (B : Vec Ideal S2000x64 .f32) (hB : ∀ p j, B (ix2 p j) = fusedArr A0 A1 A2 A3 A4 A5 A6 A7 A8 A9 (ix2 (ρ p) j)) :
    k2_pay2 (F := Ideal) (k2_pay4 x0 x2 x1 x3 x4) (k2_pay5 x0 x2 x1 x3 x4 x5 x6 x7) (k2_pay6 x0 x2 x1 x3 x4 x5 x6 x7)
        (k2_pay7 x0 x2 x1 x3 x4 x5 x6 x7) x8 x9 x5 = B := by
  subst h1 h2 h3 h4 h6 h7 h8 h9
  funext y
  obtain ⟨p, j, rfl⟩ : ∃ (p : Fin 2000) (j : Fin 64), y = ix2 p j := ⟨y 0, y 1, eq_ix2 y⟩
  rw [hB, k2_pay2_apply, h5 p j]
  show _ = A5 (ix2 (ρ p) j) + grow (n := 50000) A0 A5 x2 x1 x3 x4 x6 x7 x8 x9 (ρ p) j
  rw [grow_congr x0 x5 A0 A5 x2 x1 x3 x4 x6 x7 x8 x9 p (ρ p) (h0 p) (h5 p)]

/-- Likewise the second store is those rows of `projArr`. -/
theorem store12 (ρ : Fin 2000 → Fin 50000) (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32) (A10 : Vec Ideal S64x64 .bf16)
    (x0 : Vec Ideal S2000x64 .f32) (x1 x2 x3 x4 : Vec Ideal S1x64 .f32) (x5 : Vec Ideal S2000x64 .f32)
    (x6 : Vec Ideal S64x4 .bf16) (x7 : Vec Ideal S1x4 .f32) (x8 : Vec Ideal S4x1 .bf16) (x9 : Vec Ideal S1x1 .f32) (x10 : Vec Ideal S64x64 .bf16)
    (h0 : ∀ p k, x0 (ix2 p k) = A0 (ix2 (ρ p) k)) (h1 : x1 = A1) (h2 : x2 = A2) (h3 : x3 = A3) (h4 : x4 = A4)
    (h5 : ∀ p k, x5 (ix2 p k) = A5 (ix2 (ρ p) k)) (h6 : x6 = A6) (h7 : x7 = A7) (h8 : x8 = A8) (h9 : x9 = A9) (h10 : x10 = A10)
    (B : Vec Ideal S2000x64 .f32) (hB : ∀ p j, B (ix2 p j) = projArr A0 A1 A2 A3 A4 A5 A6 A7 A8 A9 A10 (ix2 (ρ p) j)) :
    k2_pay3 (F := Ideal) (k2_pay4 x0 x2 x1 x3 x4) (k2_pay5 x0 x2 x1 x3 x4 x5 x6 x7) (k2_pay6 x0 x2 x1 x3 x4 x5 x6 x7)
        (k2_pay7 x0 x2 x1 x3 x4 x5 x6 x7) x8 x9 x10 = B := by
  subst h1 h2 h3 h4 h6 h7 h8 h9 h10
  funext y
  obtain ⟨p, j, rfl⟩ : ∃ (p : Fin 2000) (j : Fin 64), y = ix2 p j := ⟨y 0, y 1, eq_ix2 y⟩
  rw [hB, k2_pay3_apply]
  show _ = Cert.Spec.proj (grow (n := 50000) A0 A5 x2 x1 x3 x4 x6 x7 x8 x9 (ρ p)) (fun k j' => x10 (ix2 k j')) j
  rw [grow_congr x0 x5 A0 A5 x2 x1 x3 x4 x6 x7 x8 x9 p (ρ p) (h0 p) (h5 p)]

/-! ## The region -/

theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_11.index t (0 : Fin 2) = t.val ∧ win2_11.index t (1 : Fin 2) = 0
    ∧ win2_12.index t (0 : Fin 2) = t.val ∧ win2_12.index t (1 : Fin 2) = 0 :=
  (by decide +kernel : ∀ t : Fin grid2.N, _)

theorem idx_facts_res : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

def rowOf (t : Fin cfg2.N) (p : Fin 2000) : Fin 50000 :=
  ⟨t.val * 2000 + p.val, by have h : cfg2.N = 25 := N_2; have := t.isLt; have := p.isLt; omega⟩

theorem read0 (t : Fin cfg2.N) (A : Vec Ideal S50000x64 .f32) (p : Fin 2000) (k : Fin 64) :
    (((cfg2.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win2_0.index t (0 : Fin 2) * 2000 + 1 * p.val = t.val * 2000 + p.val; rw [e0a]; omega
  | ⟨1, _⟩ => show win2_0.index t (1 : Fin 2) * 64 + 1 * k.val = k.val; rw [e0b]; omega

theorem read5 (t : Fin cfg2.N) (A : Vec Ideal S50000x64 .f32) (p : Fin 2000) (k : Fin 64) :
    (((cfg2.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win2_5.index t (0 : Fin 2) * 2000 + 1 * p.val = t.val * 2000 + p.val; rw [e0a]; omega
  | ⟨1, _⟩ => show win2_5.index t (1 : Fin 2) * 64 + 1 * k.val = k.val; rw [e0b]; omega

theorem read11 (t : Fin cfg2.N) (A : Vec Ideal S50000x64 .f32) (p : Fin 2000) (k : Fin 64) :
    (((cfg2.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win2_11.index t (0 : Fin 2) * 2000 + 1 * p.val = t.val * 2000 + p.val; rw [e0a]; omega
  | ⟨1, _⟩ => show win2_11.index t (1 : Fin 2) * 64 + 1 * k.val = k.val; rw [e0b]; omega

theorem read12 (t : Fin cfg2.N) (A : Vec Ideal S50000x64 .f32) (p : Fin 2000) (k : Fin 64) :
    (((cfg2.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win2_12.index t (0 : Fin 2) * 2000 + 1 * p.val = t.val * 2000 + p.val; rw [e0a]; omega
  | ⟨1, _⟩ => show win2_12.index t (1 : Fin 2) * 64 + 1 * k.val = k.val; rw [e0b]; omega

theorem read1 (t : Fin cfg2.N) (A : Vec Ideal S1x64 .f32) : ((cfg2.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_1.index t (0 : Fin 2) * 1 + 1 * (y 0).val = (y 0).val; rw [e1a]; omega
  | ⟨1, _⟩ => show win2_1.index t (1 : Fin 2) * 64 + 1 * (y 1).val = (y 1).val; rw [e1b]; omega

theorem read2 (t : Fin cfg2.N) (A : Vec Ideal S1x64 .f32) : ((cfg2.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_2.index t (0 : Fin 2) * 1 + 1 * (y 0).val = (y 0).val; rw [e2a]; omega
  | ⟨1, _⟩ => show win2_2.index t (1 : Fin 2) * 64 + 1 * (y 1).val = (y 1).val; rw [e2b]; omega

theorem read3 (t : Fin cfg2.N) (A : Vec Ideal S1x64 .f32) : ((cfg2.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_3.index t (0 : Fin 2) * 1 + 1 * (y 0).val = (y 0).val; rw [e3a]; omega
  | ⟨1, _⟩ => show win2_3.index t (1 : Fin 2) * 64 + 1 * (y 1).val = (y 1).val; rw [e3b]; omega

theorem read4 (t : Fin cfg2.N) (A : Vec Ideal S1x64 .f32) : ((cfg2.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_4.index t (0 : Fin 2) * 1 + 1 * (y 0).val = (y 0).val; rw [e4a]; omega
  | ⟨1, _⟩ => show win2_4.index t (1 : Fin 2) * 64 + 1 * (y 1).val = (y 1).val; rw [e4b]; omega

theorem read6 (t : Fin cfg2.N) (A : Vec Ideal S64x4 .bf16) : ((cfg2.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_6.index t (0 : Fin 2) * 64 + 1 * (y 0).val = (y 0).val; rw [e6a]; omega
  | ⟨1, _⟩ => show win2_6.index t (1 : Fin 2) * 4 + 1 * (y 1).val = (y 1).val; rw [e6b]; omega

theorem read7 (t : Fin cfg2.N) (A : Vec Ideal S1x4 .f32) : ((cfg2.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_7.index t (0 : Fin 2) * 1 + 1 * (y 0).val = (y 0).val; rw [e7a]; omega
  | ⟨1, _⟩ => show win2_7.index t (1 : Fin 2) * 4 + 1 * (y 1).val = (y 1).val; rw [e7b]; omega

theorem read8 (t : Fin cfg2.N) (A : Vec Ideal S4x1 .bf16) : ((cfg2.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_8.index t (0 : Fin 2) * 4 + 1 * (y 0).val = (y 0).val; rw [e8a]; omega
  | ⟨1, _⟩ => show win2_8.index t (1 : Fin 2) * 1 + 1 * (y 1).val = (y 1).val; rw [e8b]; omega

theorem read9 (t : Fin cfg2.N) (A : Vec Ideal S1x1 .f32) : ((cfg2.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_9.index t (0 : Fin 2) * 1 + 1 * (y 0).val = (y 0).val; rw [e9a]; omega
  | ⟨1, _⟩ => show win2_9.index t (1 : Fin 2) * 1 + 1 * (y 1).val = (y 1).val; rw [e9b]; omega

theorem read10 (t : Fin cfg2.N) (A : Vec Ideal S64x64 .bf16) : ((cfg2.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win2_10.index t (0 : Fin 2) * 64 + 1 * (y 0).val = (y 0).val; rw [e10a]; omega
  | ⟨1, _⟩ => show win2_10.index t (1 : Fin 2) * 64 + 1 * (y 1).val = (y 1).val; rw [e10b]; omega

theorem mem_blk11 (t : Fin cfg2.N) (i : S50000x64.Idx) :
    i ∈ ((cfg2.win 11).blk t).view.set ↔ ∀ a : Fin 2, win2_11.index t a * S2000x64.size a ≤ (i a).val ∧ (i a).val < win2_11.index t a * S2000x64.size a + S2000x64.size a := by
  show i ∈ ((View.whole main_v105_0).slice (win2_11.rect t)).set ↔ _
  rw [View.set_slice_whole, Rect.mem_set_unit]
  exact Iff.rfl
theorem mem_blk12 (t : Fin cfg2.N) (i : S50000x64.Idx) :
    i ∈ ((cfg2.win 12).blk t).view.set ↔ ∀ a : Fin 2, win2_12.index t a * S2000x64.size a ≤ (i a).val ∧ (i a).val < win2_12.index t a * S2000x64.size a + S2000x64.size a := by
  show i ∈ ((View.whole main_v105_1).slice (win2_12.rect t)).set ↔ _
  rw [View.set_slice_whole, Rect.mem_set_unit]
  exact Iff.rfl

def pointOf (i : S50000x64.Idx) : Fin cfg2.N :=
  ⟨(i 0).val / 2000, by have h : cfg2.N = 25 := N_2; have : (i 0).val < 50000 := (i 0).isLt; omega⟩

theorem cover11 (i : S50000x64.Idx) : ∃ t : Fin cfg2.N, (cfg2.win 11).flush t = true ∧ i ∈ ((cfg2.win 11).blk t).view.set := by
  refine ⟨pointOf i, flush2_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win2_11.index (pointOf i) (0 : Fin 2) * 2000 ≤ (i 0).val ∧ (i 0).val < win2_11.index (pointOf i) (0 : Fin 2) * 2000 + 2000; rw [e0a, hp]; omega
  | ⟨1, _⟩ => show win2_11.index (pointOf i) (1 : Fin 2) * 64 ≤ (i 1).val ∧ (i 1).val < win2_11.index (pointOf i) (1 : Fin 2) * 64 + 64; rw [e0b]; omega

theorem cover12 (i : S50000x64.Idx) : ∃ t : Fin cfg2.N, (cfg2.win 12).flush t = true ∧ i ∈ ((cfg2.win 12).blk t).view.set := by
  refine ⟨pointOf i, flush2_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win2_12.index (pointOf i) (0 : Fin 2) * 2000 ≤ (i 0).val ∧ (i 0).val < win2_12.index (pointOf i) (0 : Fin 2) * 2000 + 2000; rw [e0a, hp]; omega
  | ⟨1, _⟩ => show win2_12.index (pointOf i) (1 : Fin 2) * 64 ≤ (i 1).val ∧ (i 1).val < win2_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v81
abbrev meanIn (c : Dev nD) : Vec Ideal S1x64 .f32 := V c main_v85
abbrev varIn (c : Dev nD) : Vec Ideal S1x64 .f32 := V c main_v86
abbrev gammaIn (c : Dev nD) : Vec Ideal S1x64 .f32 := V c main_v89
abbrev betaIn (c : Dev nD) : Vec Ideal S1x64 .f32 := V c main_v92
abbrev fusedIn (c : Dev nD) : Vec Ideal S50000x64 .f32 := V c main_v64_0
abbrev lw1In (c : Dev nD) : Vec Ideal S64x4 .bf16 := V c main_v94
abbrev lb1In (c : Dev nD) : Vec Ideal S1x4 .f32 := V c main_v97
abbrev lw2In (c : Dev nD) : Vec Ideal S4x1 .bf16 := V c main_v99
abbrev lb2In (c : Dev nD) : Vec Ideal S1x1 .f32 := V c main_v102
abbrev bwIn (c : Dev nD) : Vec Ideal S64x64 .bf16 := V c main_v104

theorem flushed11_eq (c : Dev nD) (t : Fin cfg2.N) :
    (dat2 (F := Ideal) V c).flushed 11 t
      = ((cfg2.win 11).blk t).view.read (Elt Ideal) (fusedArr (aggIn V c) (meanIn V c) (varIn V c) (gammaIn V c) (betaIn V c) (fusedIn V c) (lw1In V c) (lb1In V c) (lw2In V c) (lb2In V c)) := by
  show (cfg2.win 11).cut (grid2.coords t) ((dat2 (F := Ideal) V c).after 11 t) = _
  rw [after2_11]
  unfold out2_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg2.N) :
    (dat2 (F := Ideal) V c).flushed 12 t
      = ((cfg2.win 12).blk t).view.read (Elt Ideal) (projArr (aggIn V c) (meanIn V c) (varIn V c) (gammaIn V c) (betaIn V c) (fusedIn V c) (lw1In V c) (lb1In V c) (lw2In V c) (lb2In V c) (bwIn V c)) := by
  show (cfg2.win 12).cut (grid2.coords t) ((dat2 (F := Ideal) V c).after 12 t) = _
  rw [after2_12]
  unfold out2_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat2 (F := Ideal) V c).arrAt 11 cfg2.N = fusedArr (aggIn V c) (meanIn V c) (varIn V c) (gammaIn V c) (betaIn V c) (fusedIn V c) (lw1In V c) (lb1In V c) (lw2In V c) (lb2In V c) :=
  (dat2 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat2 (F := Ideal) V c).arrAt 12 cfg2.N = projArr (aggIn V c) (meanIn V c) (varIn V c) (gammaIn V c) (betaIn V c) (fusedIn V c) (lw1In V c) (lb1In V c) (lw2In V c) (lb2In V c) (bwIn V c) :=
  (dat2 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg2

end
-- ==== Proof.KChain.Link2.lean ====
import proofs.«428538_j32280974197073_1_alg».proof.Proof.Gen.KernelIdeal.Frame
import proofs.«428538_j32280974197073_1_alg».proof.Proof.KHost.L2
import proofs.«428538_j32280974197073_1_alg».proof.Proof.KReg2
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link2

variable (m : (ℓ : Loc nD τ sig) → Buf (Elt Ideal) ℓ) (ρ : Dev nD → PrngReg)

theorem static_nw : ∀ b ∈ staticRefs, b ∉ KHost.wrS2 := by decide

theorem static_ne : ∀ b ∈ staticRefs, ∀ w, Pipeline.arrRef spec2 w ≠ b := by decide

theorem keeps (c : Dev nD) : Keeps (W8 m ρ c) (W12 m ρ c) := fun b hb =>
  (W12_of_ne m ρ c b (static_ne b hb)).trans (KHost.st2_keep (W8 m ρ c) b (static_nw b hb))

theorem exit_fused (c : Dev nD) :
    (W12 m ρ c (Proc.devRef .tc main_v105_0) : Vec Ideal S50000x64 .f32)
      = KReg2.fusedArr
          (W11 m ρ c (Proc.devRef .tc main_v81) : Vec Ideal S50000x64 .f32)
          (W11 m ρ c (Proc.devRef .tc main_v85) : Vec Ideal S1x64 .f32)
          (W11 m ρ c (Proc.devRef .tc main_v86) : Vec Ideal S1x64 .f32)
          (W11 m ρ c (Proc.devRef .tc main_v89) : Vec Ideal S1x64 .f32)
          (W11 m ρ c (Proc.devRef .tc main_v92) : Vec Ideal S1x64 .f32)
          (W11 m ρ c (Proc.devRef .tc main_v64_0) : Vec Ideal S50000x64 .f32)
          (W11 m ρ c (Proc.devRef .tc main_v94) : Vec Ideal S64x4 .bf16)
          (W11 m ρ c (Proc.devRef .tc main_v97) : Vec Ideal S1x4 .f32)
          (W11 m ρ c (Proc.devRef .tc main_v99) : Vec Ideal S4x1 .bf16)
          (W11 m ρ c (Proc.devRef .tc main_v102) : Vec Ideal S1x1 .f32) :=
  (W12_arr m ρ c 11).trans (KReg2.final11 (V11 m ρ) c)

theorem exit_proj (c : Dev nD) :
    (W12 m ρ c (Proc.devRef .tc main_v105_1) : Vec Ideal S50000x64 .f32)
      = KReg2.projArr
          (W11 m ρ c (Proc.devRef .tc main_v81) : Vec Ideal S50000x64 .f32)
          (W11 m ρ c (Proc.devRef .tc main_v85) : Vec Ideal S1x64 .f32)
          (W11 m ρ c (Proc.devRef .tc main_v86) : Vec Ideal S1x64 .f32)
          (W11 m ρ c (Proc.devRef .tc main_v89) : Vec Ideal S1x64 .f32)
          (W11 m ρ c (Proc.devRef .tc main_v92) : Vec Ideal S1x64 .f32)
          (W11 m ρ c (Proc.devRef .tc main_v64_0) : Vec Ideal S50000x64 .f32)
          (W11 m ρ c (Proc.devRef .tc main_v94) : Vec Ideal S64x4 .bf16)
          (W11 m ρ c (Proc.devRef .tc main_v97) : Vec Ideal S1x4 .f32)
          (W11 m ρ c (Proc.devRef .tc main_v99) : Vec Ideal S4x1 .bf16)
          (W11 m ρ c (Proc.devRef .tc main_v102) : Vec Ideal S1x1 .f32)
          (W11 m ρ c (Proc.devRef .tc main_v104) : Vec Ideal S64x64 .bf16) :=
  (W12_arr m ρ c 12).trans (KReg2.final12 (V11 m ρ) c)

theorem e_agg (c : Dev nD) (hst : Keeps (W3 m ρ c) (W8 m ρ c)) (i : Fin 50000) (j : Fin 64) :
    (W11 m ρ c (Proc.devRef .tc main_v81) : Vec Ideal S50000x64 .f32) (ix2 i j)
      = KHost.scatK (W8 m ρ c (Proc.devRef .tc main_v64_1)) (KHost.srcOf (m ((c : Thread nD τ).loc main_arg1))) (KHost.enormOf (m ((c : Thread nD τ).loc main_arg1))) (KHost.dstOf (m ((c : Thread nD τ).loc main_arg1))) (ix2 i j)
        + (paramsK m c).bb (0 : Fin 8) j := by
  have h := KHost.st2_v81 (W8 m ρ c) i j
  rw [st_src hst, st_enorm hst, st_dst hst, st_arg13 hst] at h
  exact h

theorem e_mean (c : Dev nD) (k : Fin 64) :
    (W11 m ρ c (Proc.devRef .tc main_v85) : Vec Ideal S1x64 .f32) (ix2 (0 : Fin 1) k) = Cert.Spec.meanOf (KHost.sum64K (W11 m ρ c (Proc.devRef .tc main_v81) : Vec Ideal S50000x64 .f32) (ix1 k)) :=
  KHost.st2_v85 (W8 m ρ c) 0 k

theorem e_var (c : Dev nD) (k : Fin 64) :
    (W11 m ρ c (Proc.devRef .tc main_v86) : Vec Ideal S1x64 .f32) (ix2 (0 : Fin 1) k) = KHost.var64K (W11 m ρ c (Proc.devRef .tc main_v81) : Vec Ideal S50000x64 .f32) (ix2 (0 : Fin 1) k) :=
  congrFun (KHost.st2_v86 (W8 m ρ c)) (ix2 (0 : Fin 1) k)

theorem e_gamma (c : Dev nD) (hst : Keeps (W3 m ρ c) (W8 m ρ c)) (k : Fin 64) :
    (W11 m ρ c (Proc.devRef .tc main_v89) : Vec Ideal S1x64 .f32) (ix2 (0 : Fin 1) k) = (paramsK m c).bg (0 : Fin 8) k := by
  have h := KHost.st2_v89 (W8 m ρ c) 0 k
  rw [st_arg14 hst] at h
  exact h

theorem e_beta (c : Dev nD) (hst : Keeps (W3 m ρ c) (W8 m ρ c)) (k : Fin 64) :
    (W11 m ρ c (Proc.devRef .tc main_v92) : Vec Ideal S1x64 .f32) (ix2 (0 : Fin 1) k) = (paramsK m c).bbe (0 : Fin 8) k := by
  have h := KHost.st2_v92 (W8 m ρ c) 0 k
  rw [st_arg15 hst] at h
  exact h

theorem e_fused (c : Dev nD) : W11 m ρ c (Proc.devRef .tc main_v64_0) = W8 m ρ c (Proc.devRef .tc main_v64_0) :=
  KHost.st2_keep (W8 m ρ c) main_v64_0 (by decide)

theorem e_lw1 (c : Dev nD) (hst : Keeps (W3 m ρ c) (W8 m ρ c)) :
    Cert.Pack.mat (W11 m ρ c (Proc.devRef .tc main_v94) : Vec Ideal S64x4 .bf16) = (paramsK m c).lw1 (1 : Fin 9) := by
  funext k a
  have h := KHost.st2_v94 (W8 m ρ c) k a
  rw [st_v38 hst] at h
  exact h

theorem e_lb1 (c : Dev nD) (hst : Keeps (W3 m ρ c) (W8 m ρ c)) (a : Fin 4) :
    (W11 m ρ c (Proc.devRef .tc main_v97) : Vec Ideal S1x4 .f32) (ix2 (0 : Fin 1) a) = (paramsK m c).lb1 (1 : Fin 9) a := by
  have h := KHost.st2_v97 (W8 m ρ c) 0 a
  rw [st_arg9 hst] at h
  exact h

theorem e_lw2 (c : Dev nD) (hst : Keeps (W3 m ρ c) (W8 m ρ c)) (a : Fin 4) :
    (W11 m ρ c (Proc.devRef .tc main_v99) : Vec Ideal S4x1 .bf16) (ix2 a (0 : Fin 1)) = (paramsK m c).lw2 (1 : Fin 9) a := by
  have h := KHost.st2_v99 (W8 m ρ c) a 0
  rw [st_v39 hst] at h
  exact h

theorem e_lb2 (c : Dev nD) (hst : Keeps (W3 m ρ c) (W8 m ρ c)) :
    (W11 m ρ c (Proc.devRef .tc main_v102) : Vec Ideal S1x1 .f32) (ix2 (0 : Fin 1) (0 : Fin 1)) = (paramsK m c).lb2 (1 : Fin 9) := by
  have h := KHost.st2_v102 (W8 m ρ c) 0 0
  rw [st_arg11 hst] at h
  exact h

theorem e_bw (c : Dev nD) (hst : Keeps (W3 m ρ c) (W8 m ρ c)) :
    Cert.Pack.mat (W11 m ρ c (Proc.devRef .tc main_v104) : Vec Ideal S64x64 .bf16) = (paramsK m c).bw (1 : Fin 8) := by
  funext k j
  have h := KHost.st2_v104 (W8 m ρ c) k j
  rw [st_v37 hst] at h
  exact h

theorem link (c : Dev nD) (s : Cert.Spec.Mat 50000 64 × Cert.Spec.Mat 50000 64)
    (hst : Keeps (W3 m ρ c) (W8 m ρ c))
    (hfu : Cert.Pack.mat (W8 m ρ c (Proc.devRef .tc main_v64_0) : Vec Ideal S50000x64 .f32) = s.1)
    (hpj : Cert.Pack.mat (W8 m ρ c (Proc.devRef .tc main_v64_1) : Vec Ideal S50000x64 .f32)
      = fun i j => Cert.Spec.proj (s.2 i) ((paramsK m c).bw (0 : Fin 8)) j) :
    Keeps (W3 m ρ c) (W12 m ρ c)
      ∧ Cert.Pack.mat (W12 m ρ c (Proc.devRef .tc main_v105_0) : Vec Ideal S50000x64 .f32)
          = (Cert.Spec.layer (opsK (m ((c : Thread nD τ).loc main_arg1))) (paramsK m c) (0 : Fin 8) (1 : Fin 9) s).1
      ∧ Cert.Pack.mat (W12 m ρ c (Proc.devRef .tc main_v105_1) : Vec Ideal S50000x64 .f32)
          = fun i j => Cert.Spec.proj
              ((Cert.Spec.layer (opsK (m ((c : Thread nD τ).loc main_arg1))) (paramsK m c) (0 : Fin 8) (1 : Fin 9) s).2 i)
              ((paramsK m c).bw (1 : Fin 8)) j :=
  ⟨hst.trans (keeps m ρ c),
   layer_link (opsK (m ((c : Thread nD τ).loc main_arg1))) (paramsK m c) (0 : Fin 8) (1 : Fin 9) (1 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W8 m ρ c (Proc.devRef .tc main_v64_1) : Vec Ideal S50000x64 .f32) hpj
    (W12 m ρ c (Proc.devRef .tc main_v105_0) : Vec Ideal S50000x64 .f32) (W12 m ρ c (Proc.devRef .tc main_v105_1) : Vec Ideal S50000x64 .f32)
    (W11 m ρ c (Proc.devRef .tc main_v81) : Vec Ideal S50000x64 .f32) (W11 m ρ c (Proc.devRef .tc main_v85) : Vec Ideal S1x64 .f32) (W11 m ρ c (Proc.devRef .tc main_v86) : Vec Ideal S1x64 .f32) (W11 m ρ c (Proc.devRef .tc main_v89) : Vec Ideal S1x64 .f32)
    (W11 m ρ c (Proc.devRef .tc main_v92) : Vec Ideal S1x64 .f32) (W11 m ρ c (Proc.devRef .tc main_v64_0) : Vec Ideal S50000x64 .f32) (W11 m ρ c (Proc.devRef .tc main_v94) : Vec Ideal S64x4 .bf16) (W11 m ρ c (Proc.devRef .tc main_v97) : Vec Ideal S1x4 .f32)
    (W11 m ρ c (Proc.devRef .tc main_v99) : Vec Ideal S4x1 .bf16) (W11 m ρ c (Proc.devRef .tc main_v102) : Vec Ideal S1x1 .f32) (W11 m ρ c (Proc.devRef .tc main_v104) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link2

end Cert.KernelIdeal.KChain

end
-- ==== Proof.KHost.L3.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st3 (W : Valuation τ sig (Elt Ideal)) : Valuation τ sig (Elt Ideal) :=
  StableHlo.after hostOps3_2 (StableHlo.after hostOps3_1 (StableHlo.after hostOps3 W))

noncomputable def wr3 : List (Ref sig .tc) :=
  [main_c_16, main_v106, main_v107, main_c_17, main_v108, main_v109, main_v110, main_v111, main_v112, main_v113, main_v114, main_cst_18, main_v115, main_v116, main_v117, main_v118, main_v119, main_v120, main_v121, main_v122, main_cst_19, main_v123, main_v124, main_cst_20, main_v125, main_v126, main_c_21]
noncomputable def wr3_1 : List (Ref sig .tc) :=
  [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v127]
noncomputable def wr3_2 : List (Ref sig .tc) :=
  [main_v128, main_v129, main_v130, main_v131, main_v132, main_v133, main_v134, main_v135, main_v136, main_v137, main_v138, main_v139, main_v140, main_v141, main_v142, main_v143, main_v144, main_v145]
noncomputable def wrS3 : List (Ref sig .tc) := wr3 ++ wr3_1 ++ wr3_2

theorem keep3 (W : Valuation τ sig (Elt Ideal)) (b : Ref sig .tc) (hb : b ∉ wr3) :
    StableHlo.after hostOps3 W (Proc.devRef .tc b) = W (Proc.devRef .tc b) :=
  StableHlo.after_of_writes_sub hostOps3 W (by
    simp only [hostOps3, wr3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep3_1 (W : Valuation τ sig (Elt Ideal)) (b : Ref sig .tc) (hb : b ∉ wr3_1) :
    StableHlo.after hostOps3_1 W (Proc.devRef .tc b) = W (Proc.devRef .tc b) :=
  StableHlo.after_of_writes_sub hostOps3_1 W (by
    simp only [hostOps3_1, wr3_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep3_2 (W : Valuation τ sig (Elt Ideal)) (b : Ref sig .tc) (hb : b ∉ wr3_2) :
    StableHlo.after hostOps3_2 W (Proc.devRef .tc b) = W (Proc.devRef .tc b) :=
  StableHlo.after_of_writes_sub hostOps3_2 W (by
    simp only [hostOps3_2, wr3_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st3_keep (W : Valuation τ sig (Elt Ideal)) (b : Ref sig .tc) (hb : b ∉ wrS3) :
    st3 W (Proc.devRef .tc b) = W (Proc.devRef .tc b) :=
  (keep3_2 _ b fun h => hb (List.mem_append_right _ h)).trans
    ((keep3_1 _ b fun h => hb (List.mem_append_left _ (List.mem_append_right _ h))).trans
      (keep3 W b fun h => hb (List.mem_append_left _ (List.mem_append_left _ h))))

theorem l3_v122 (X : Valuation τ sig (Elt Ideal)) :
    StableHlo.after hostOps3 X (Proc.devRef .tc main_v122)
      = (addf (scatK (X (Proc.devRef .tc main_v105_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![1, 0] (X (Proc.devRef .tc main_arg13)) slices_S8x64_S1x64_1_0) shapeCasts_S1x64_S64))) :
          FVec Ideal S50000x64 .f32) := by
  simp only [hostOps3]; after_results_simp; all_goals rfl

theorem l3_v126 (X : Valuation τ sig (Elt Ideal)) :
    StableHlo.after hostOps3 X (Proc.devRef .tc main_v126)
      = (Host.divf (broadcastInDim S1x64 ![1] bcast_S64_S1x64_1 (sum64K (StableHlo.after hostOps3 X (Proc.devRef .tc main_v122))))
          (broadcastInDim S1x64 ![] bcast_S_S1x64 (constant S_ .f32 0x47435000#32)) : FVec Ideal S1x64 .f32) := by
  rw [← List.take_append_drop 20 (hostOps3 (F := Ideal)), after_append]
  generalize StableHlo.after (List.take 20 hostOps3) X = Y
  simp only [hostOps3, List.drop_succ_cons, List.drop_zero]
  after_results; all_goals rfl

theorem l3_c_21 (X : Valuation τ sig (Elt Ideal)) :
    StableHlo.after hostOps3 X (Proc.devRef .tc main_c_21) = (constantI S_ 32 0#32 : IVec S_ 32) := by
  simp only [hostOps3]; after_results; all_goals rfl

theorem l3_1_v127 (X : Valuation τ sig (Elt Ideal)) (h0 : X (Proc.devRef .tc main_c_21) = (constantI S_ 32 0#32 : IVec S_ 32)) :
    StableHlo.after hostOps3_1 X (Proc.devRef .tc main_v127) = var64K (X (Proc.devRef .tc main_v122)) := by
  simp only [hostOps3_1]; after_results_simp; rw [h0]; rfl

theorem l3_2_v130 (X : Valuation τ sig (Elt Ideal)) :
    StableHlo.after hostOps3_2 X (Proc.devRef .tc main_v130)
      = (shapeCast S1x64 (shapeCast S64 (extractStridedSlice S1x64 ![1, 0] (X (Proc.devRef .tc main_arg14)) slices_S8x64_S1x64_1_0) shapeCasts_S1x64_S64) shapeCasts_S64_S1x64 :
          FVec Ideal S1x64 .f32) := by
  simp only [hostOps3_2]; after_results; all_goals rfl

theorem l3_2_v133 (X : Valuation τ sig (Elt Ideal)) :
    StableHlo.after hostOps3_2 X (Proc.devRef .tc main_v133)
      = (shapeCast S1x64 (shapeCast S64 (extractStridedSlice S1x64 ![1, 0] (X (Proc.devRef .tc main_arg15)) slices_S8x64_S1x64_1_0) shapeCasts_S1x64_S64) shapeCasts_S64_S1x64 :
          FVec Ideal S1x64 .f32) := by
  simp only [hostOps3_2]; after_results; all_goals rfl

theorem l3_2_v135 (X : Valuation τ sig (Elt Ideal)) :
    StableHlo.after hostOps3_2 X (Proc.devRef .tc main_v135)
      = (shapeCast S64x4 (extractStridedSlice S1x64x4 ![2, 0, 0] (X (Proc.devRef .tc main_v38)) slices_S9x64x4_S1x64x4_2_0_0) shapeCasts_S1x64x4_S64x4 :
          FVec Ideal S64x4 .bf16) := by
  simp only [hostOps3_2]; after_results; all_goals rfl

theorem l3_2_v138 (X : Valuation τ sig (Elt Ideal)) :
    StableHlo.after hostOps3_2 X (Proc.devRef .tc main_v138)
      = (shapeCast S1x4 (shapeCast S4 (extractStridedSlice S1x4 ![2, 0] (X (Proc.devRef .tc main_arg9)) slices_S9x4_S1x4_2_0) shapeCasts_S1x4_S4) shapeCasts_S4_S1x4 :
          FVec Ideal S1x4 .f32) := by
  simp only [hostOps3_2]; after_results; all_goals rfl

theorem l3_2_v140 (X : Valuation τ sig (Elt Ideal)) :
    StableHlo.after hostOps3_2 X (Proc.devRef .tc main_v140)
      = (shapeCast S4x1 (extractStridedSlice S1x4x1 ![2, 0, 0] (X (Proc.devRef .tc main_v39)) slices_S9x4x1_S1x4x1_2_0_0) shapeCasts_S1x4x1_S4x1 :
          FVec Ideal S4x1 .bf16) := by
  simp only [hostOps3_2]; after_results; all_goals rfl

theorem l3_2_v143 (X : Valuation τ sig (Elt Ideal)) :
    StableHlo.after hostOps3_2 X (Proc.devRef .tc main_v143)
      = (shapeCast S1x1 (shapeCast S1 (extractStridedSlice S1x1 ![2, 0] (X (Proc.devRef .tc main_arg11)) slices_S9x1_S1x1_2_0) shapeCasts_S1x1_S1) shapeCasts_S1_S1x1 :
          FVec Ideal S1x1 .f32) := by
  simp only [hostOps3_2]; after_results; all_goals rfl

theorem l3_2_v145 (X : Valuation τ sig (Elt Ideal)) :
    StableHlo.after hostOps3_2 X (Proc.devRef .tc main_v145)
      = (shapeCast S64x64 (extractStridedSlice S1x64x64 ![2, 0, 0] (X (Proc.devRef .tc main_v37)) slices_S8x64x64_S1x64x64_2_0_0) shapeCasts_S1x64x64_S64x64 :
          FVec Ideal S64x64 .bf16) := by
  simp only [hostOps3_2]; after_results; all_goals rfl

theorem st3_v122 (W : Valuation τ sig (Elt Ideal)) (i : Fin 50000) (j : Fin 64) :
    (st3 W (Proc.devRef .tc main_v122) : S50000x64.Idx → EReal) (ix2 i j)
      = scatK (W (Proc.devRef .tc main_v105_1)) (W (Proc.devRef .tc main_v3)) (W (Proc.devRef .tc main_v32)) (W (Proc.devRef .tc main_v6)) (ix2 i j)
        + (W (Proc.devRef .tc main_arg13) : S8x64.Idx → EReal) (ix2 1 j) := by
  have e : (st3 W (Proc.devRef .tc main_v122) : S50000x64.Idx → EReal)
      = addf (scatK (W (Proc.devRef .tc main_v105_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![1, 0] (W (Proc.devRef .tc main_arg13) : S8x64.Idx → EReal) slices_S8x64_S1x64_1_0) shapeCasts_S1x64_S64))) := by
    show StableHlo.after hostOps3_2 (StableHlo.after hostOps3_1 (StableHlo.after hostOps3 W)) (Proc.devRef .tc main_v122) = _
    rw [keep3_2 _ main_v122 (by decide), keep3_1 _ main_v122 (by decide), l3_v122]
  rw [e, addf_apply, bcast_1b_ab, bcast_b_1b]
  exact congrArg (_ + ·) ((shapeCast_1a_a_apply _ _ j).trans (stack2_row (1 : Fin 8) _ _ 0 j))

theorem st3_v126 (W : Valuation τ sig (Elt Ideal)) (u : Fin 1) (j : Fin 64) :
    (st3 W (Proc.devRef .tc main_v126) : S1x64.Idx → EReal) (ix2 u j)
      = Cert.Spec.meanOf (sum64K (st3 W (Proc.devRef .tc main_v122)) (ix1 j)) := by
  have e : (st3 W (Proc.devRef .tc main_v126) : S1x64.Idx → EReal)
      = Host.divf (broadcastInDim S1x64 ![1] bcast_S64_S1x64_1 (sum64K (st3 W (Proc.devRef .tc main_v122))))
          (broadcastInDim S1x64 ![] bcast_S_S1x64 (constant S_ .f32 0x47435000#32)) := by
    show StableHlo.after hostOps3_2 (StableHlo.after hostOps3_1 (StableHlo.after hostOps3 W)) (Proc.devRef .tc main_v126)
      = Host.divf (broadcastInDim S1x64 ![1] bcast_S64_S1x64_1 (sum64K (StableHlo.after hostOps3_2 (StableHlo.after hostOps3_1 (StableHlo.after hostOps3 W)) (Proc.devRef .tc main_v122))))
          (broadcastInDim S1x64 ![] bcast_S_S1x64 (constant S_ .f32 0x47435000#32))
    rw [keep3_2 _ main_v126 (by decide), keep3_1 _ main_v126 (by decide), keep3_2 _ main_v122 (by decide),
      keep3_1 _ main_v122 (by decide), l3_v126]
  rw [e]
  show Ideal.div (broadcastInDim S1x64 ![1] bcast_S64_S1x64_1 (sum64K (st3 W (Proc.devRef .tc main_v122))) (ix2 u j))
      (Ideal.ofBits .f32 0x47435000#32) = _
  rw [bcast_b_1b]
  rfl

theorem st3_v127 (W : Valuation τ sig (Elt Ideal)) :
    st3 W (Proc.devRef .tc main_v127) = var64K (st3 W (Proc.devRef .tc main_v122)) := by
  show StableHlo.after hostOps3_2 (StableHlo.after hostOps3_1 (StableHlo.after hostOps3 W)) (Proc.devRef .tc main_v127) = var64K (StableHlo.after hostOps3_2 (StableHlo.after hostOps3_1 (StableHlo.after hostOps3 W)) (Proc.devRef .tc main_v122))
  rw [keep3_2 _ main_v127 (by decide), keep3_2 _ main_v122 (by decide), keep3_1 _ main_v122 (by decide),
    l3_1_v127 _ (l3_c_21 W)]

theorem st3_v130 (W : Valuation τ sig (Elt Ideal)) (u : Fin 1) (j : Fin 64) :
    (st3 W (Proc.devRef .tc main_v130) : S1x64.Idx → EReal) (ix2 u j) = (W (Proc.devRef .tc main_arg14) : S8x64.Idx → EReal) (ix2 1 j) := by
  have e : (st3 W (Proc.devRef .tc main_v130) : S1x64.Idx → EReal)
      = shapeCast S1x64 (shapeCast S64 (extractStridedSlice S1x64 ![1, 0] (W (Proc.devRef .tc main_arg14) : S8x64.Idx → EReal) slices_S8x64_S1x64_1_0) shapeCasts_S1x64_S64) shapeCasts_S64_S1x64 := by
    show StableHlo.after hostOps3_2 (StableHlo.after hostOps3_1 (StableHlo.after hostOps3 W)) (Proc.devRef .tc main_v130) = _
    rw [l3_2_v130, keep3_1 _ main_arg14 (by decide), keep3 _ main_arg14 (by decide)]
  rw [e]
  exact (row_roundtrip _ _ _ u j).trans (stack2_row (1 : Fin 8) _ _ 0 j)

theorem st3_v133 (W : Valuation τ sig (Elt Ideal)) (u : Fin 1) (j : Fin 64) :
    (st3 W (Proc.devRef .tc main_v133) : S1x64.Idx → EReal) (ix2 u j) = (W (Proc.devRef .tc main_arg15) : S8x64.Idx → EReal) (ix2 1 j) := by
  have e : (st3 W (Proc.devRef .tc main_v133) : S1x64.Idx → EReal)
      = shapeCast S1x64 (shapeCast S64 (extractStridedSlice S1x64 ![1, 0] (W (Proc.devRef .tc main_arg15) : S8x64.Idx → EReal) slices_S8x64_S1x64_1_0) shapeCasts_S1x64_S64) shapeCasts_S64_S1x64 := by
    show StableHlo.after hostOps3_2 (StableHlo.after hostOps3_1 (StableHlo.after hostOps3 W)) (Proc.devRef .tc main_v133) = _
    rw [l3_2_v133, keep3_1 _ main_arg15 (by decide), keep3 _ main_arg15 (by decide)]
  rw [e]
  exact (row_roundtrip _ _ _ u j).trans (stack2_row (1 : Fin 8) _ _ 0 j)

theorem st3_v135 (W : Valuation τ sig (Elt Ideal)) (k : Fin 64) (a : Fin 4) :
    (st3 W (Proc.devRef .tc main_v135) : S64x4.Idx → EReal) (ix2 k a) = (W (Proc.devRef .tc main_v38) : S9x64x4.Idx → EReal) (ix3 2 k a) := by
  have e : (st3 W (Proc.devRef .tc main_v135) : S64x4.Idx → EReal)
      = shapeCast S64x4 (extractStridedSlice S1x64x4 ![2, 0, 0] (W (Proc.devRef .tc main_v38) : S9x64x4.Idx → EReal) slices_S9x64x4_S1x64x4_2_0_0) shapeCasts_S1x64x4_S64x4 := by
    show StableHlo.after hostOps3_2 (StableHlo.after hostOps3_1 (StableHlo.after hostOps3 W)) (Proc.devRef .tc main_v135) = _
    rw [l3_2_v135, keep3_1 _ main_v38 (by decide), keep3 _ main_v38 (by decide)]
  rw [e]
  exact stack3_entry (2 : Fin 9) _ _ _ k a

theorem st3_v138 (W : Valuation τ sig (Elt Ideal)) (u : Fin 1) (a : Fin 4) :
    (st3 W (Proc.devRef .tc main_v138) : S1x4.Idx → EReal) (ix2 u a) = (W (Proc.devRef .tc main_arg9) : S9x4.Idx → EReal) (ix2 2 a) := by
  have e : (st3 W (Proc.devRef .tc main_v138) : S1x4.Idx → EReal)
      = shapeCast S1x4 (shapeCast S4 (extractStridedSlice S1x4 ![2, 0] (W (Proc.devRef .tc main_arg9) : S9x4.Idx → EReal) slices_S9x4_S1x4_2_0) shapeCasts_S1x4_S4) shapeCasts_S4_S1x4 := by
    show StableHlo.after hostOps3_2 (StableHlo.after hostOps3_1 (StableHlo.after hostOps3 W)) (Proc.devRef .tc main_v138) = _
    rw [l3_2_v138, keep3_1 _ main_arg9 (by decide), keep3 _ main_arg9 (by decide)]
  rw [e]
  exact (row_roundtrip _ _ _ u a).trans (stack2_row (2 : Fin 9) _ _ 0 a)

theorem st3_v140 (W : Valuation τ sig (Elt Ideal)) (a : Fin 4) (q : Fin 1) :
    (st3 W (Proc.devRef .tc main_v140) : S4x1.Idx → EReal) (ix2 a q) = (W (Proc.devRef .tc main_v39) : S9x4x1.Idx → EReal) (ix3 2 a q) := by
  have e : (st3 W (Proc.devRef .tc main_v140) : S4x1.Idx → EReal)
      = shapeCast S4x1 (extractStridedSlice S1x4x1 ![2, 0, 0] (W (Proc.devRef .tc main_v39) : S9x4x1.Idx → EReal) slices_S9x4x1_S1x4x1_2_0_0) shapeCasts_S1x4x1_S4x1 := by
    show StableHlo.after hostOps3_2 (StableHlo.after hostOps3_1 (StableHlo.after hostOps3 W)) (Proc.devRef .tc main_v140) = _
    rw [l3_2_v140, keep3_1 _ main_v39 (by decide), keep3 _ main_v39 (by decide)]
  rw [e]
  exact stack3_entry (2 : Fin 9) _ _ _ a q

theorem st3_v143 (W : Valuation τ sig (Elt Ideal)) (u : Fin 1) (q : Fin 1) :
    (st3 W (Proc.devRef .tc main_v143) : S1x1.Idx → EReal) (ix2 u q) = (W (Proc.devRef .tc main_arg11) : S9x1.Idx → EReal) (ix2 2 q) := by
  have e : (st3 W (Proc.devRef .tc main_v143) : S1x1.Idx → EReal)
      = shapeCast S1x1 (shapeCast S1 (extractStridedSlice S1x1 ![2, 0] (W (Proc.devRef .tc main_arg11) : S9x1.Idx → EReal) slices_S9x1_S1x1_2_0) shapeCasts_S1x1_S1) shapeCasts_S1_S1x1 := by
    show StableHlo.after hostOps3_2 (StableHlo.after hostOps3_1 (StableHlo.after hostOps3 W)) (Proc.devRef .tc main_v143) = _
    rw [l3_2_v143, keep3_1 _ main_arg11 (by decide), keep3 _ main_arg11 (by decide)]
  rw [e]
  exact (row_roundtrip _ _ _ u q).trans (stack2_row (2 : Fin 9) _ _ 0 q)

theorem st3_v145 (W : Valuation τ sig (Elt Ideal)) (k : Fin 64) (j : Fin 64) :
    (st3 W (Proc.devRef .tc main_v145) : S64x64.Idx → EReal) (ix2 k j) = (W (Proc.devRef .tc main_v37) : S8x64x64.Idx → EReal) (ix3 2 k j) := by
  have e : (st3 W (Proc.devRef .tc main_v145) : S64x64.Idx → EReal)
      = shapeCast S64x64 (extractStridedSlice S1x64x64 ![2, 0, 0] (W (Proc.devRef .tc main_v37) : S8x64x64.Idx → EReal) slices_S8x64x64_S1x64x64_2_0_0) shapeCasts_S1x64x64_S64x64 := by
    show StableHlo.after hostOps3_2 (StableHlo.after hostOps3_1 (StableHlo.after hostOps3 W)) (Proc.devRef .tc main_v145) = _
    rw [l3_2_v145, keep3_1 _ main_v37 (by decide), keep3 _ main_v37 (by decide)]
  rw [e]
  exact stack3_entry (2 : Fin 8) _ _ _ k j

end Cert.KernelIdeal.KHost

end
-- ==== Proof.KReg3.lean ====
import proofs.«428538_j32280974197073_1_alg».proof.Proof.KReg2

noncomputable section

namespace Cert.KernelIdeal.KReg3

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hz fusedArr projArr store11 store12)

/-! ## The region -/

theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_11.index t (0 : Fin 2) = t.val ∧ win3_11.index t (1 : Fin 2) = 0
    ∧ win3_12.index t (0 : Fin 2) = t.val ∧ win3_12.index t (1 : Fin 2) = 0 :=
  (by decide +kernel : ∀ t : Fin grid3.N, _)

theorem idx_facts_res : ∀ t : Fin cfg3.N,
    win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

def rowOf (t : Fin cfg3.N) (p : Fin 2000) : Fin 50000 :=
  ⟨t.val * 2000 + p.val, by have h : cfg3.N = 25 := N_3; have := t.isLt; have := p.isLt; omega⟩

theorem read0 (t : Fin cfg3.N) (A : Vec Ideal S50000x64 .f32) (p : Fin 2000) (k : Fin 64) :
    (((cfg3.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win3_0.index t (0 : Fin 2) * 2000 + 1 * p.val = t.val * 2000 + p.val; rw [e0a]; omega
  | ⟨1, _⟩ => show win3_0.index t (1 : Fin 2) * 64 + 1 * k.val = k.val; rw [e0b]; omega

theorem read5 (t : Fin cfg3.N) (A : Vec Ideal S50000x64 .f32) (p : Fin 2000) (k : Fin 64) :
    (((cfg3.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win3_5.index t (0 : Fin 2) * 2000 + 1 * p.val = t.val * 2000 + p.val; rw [e0a]; omega
  | ⟨1, _⟩ => show win3_5.index t (1 : Fin 2) * 64 + 1 * k.val = k.val; rw [e0b]; omega

theorem read11 (t : Fin cfg3.N) (A : Vec Ideal S50000x64 .f32) (p : Fin 2000) (k : Fin 64) :
    (((cfg3.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win3_11.index t (0 : Fin 2) * 2000 + 1 * p.val = t.val * 2000 + p.val; rw [e0a]; omega
  | ⟨1, _⟩ => show win3_11.index t (1 : Fin 2) * 64 + 1 * k.val = k.val; rw [e0b]; omega

theorem read12 (t : Fin cfg3.N) (A : Vec Ideal S50000x64 .f32) (p : Fin 2000) (k : Fin 64) :
    (((cfg3.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win3_12.index t (0 : Fin 2) * 2000 + 1 * p.val = t.val * 2000 + p.val; rw [e0a]; omega
  | ⟨1, _⟩ => show win3_12.index t (1 : Fin 2) * 64 + 1 * k.val = k.val; rw [e0b]; omega

theorem read1 (t : Fin cfg3.N) (A : Vec Ideal S1x64 .f32) : ((cfg3.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_1.index t (0 : Fin 2) * 1 + 1 * (y 0).val = (y 0).val; rw [e1a]; omega
  | ⟨1, _⟩ => show win3_1.index t (1 : Fin 2) * 64 + 1 * (y 1).val = (y 1).val; rw [e1b]; omega

theorem read2 (t : Fin cfg3.N) (A : Vec Ideal S1x64 .f32) : ((cfg3.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_2.index t (0 : Fin 2) * 1 + 1 * (y 0).val = (y 0).val; rw [e2a]; omega
  | ⟨1, _⟩ => show win3_2.index t (1 : Fin 2) * 64 + 1 * (y 1).val = (y 1).val; rw [e2b]; omega

theorem read3 (t : Fin cfg3.N) (A : Vec Ideal S1x64 .f32) : ((cfg3.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_3.index t (0 : Fin 2) * 1 + 1 * (y 0).val = (y 0).val; rw [e3a]; omega
  | ⟨1, _⟩ => show win3_3.index t (1 : Fin 2) * 64 + 1 * (y 1).val = (y 1).val; rw [e3b]; omega

theorem read4 (t : Fin cfg3.N) (A : Vec Ideal S1x64 .f32) : ((cfg3.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_4.index t (0 : Fin 2) * 1 + 1 * (y 0).val = (y 0).val; rw [e4a]; omega
  | ⟨1, _⟩ => show win3_4.index t (1 : Fin 2) * 64 + 1 * (y 1).val = (y 1).val; rw [e4b]; omega

theorem read6 (t : Fin cfg3.N) (A : Vec Ideal S64x4 .bf16) : ((cfg3.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_6.index t (0 : Fin 2) * 64 + 1 * (y 0).val = (y 0).val; rw [e6a]; omega
  | ⟨1, _⟩ => show win3_6.index t (1 : Fin 2) * 4 + 1 * (y 1).val = (y 1).val; rw [e6b]; omega

theorem read7 (t : Fin cfg3.N) (A : Vec Ideal S1x4 .f32) : ((cfg3.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_7.index t (0 : Fin 2) * 1 + 1 * (y 0).val = (y 0).val; rw [e7a]; omega
  | ⟨1, _⟩ => show win3_7.index t (1 : Fin 2) * 4 + 1 * (y 1).val = (y 1).val; rw [e7b]; omega

theorem read8 (t : Fin cfg3.N) (A : Vec Ideal S4x1 .bf16) : ((cfg3.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_8.index t (0 : Fin 2) * 4 + 1 * (y 0).val = (y 0).val; rw [e8a]; omega
  | ⟨1, _⟩ => show win3_8.index t (1 : Fin 2) * 1 + 1 * (y 1).val = (y 1).val; rw [e8b]; omega

theorem read9 (t : Fin cfg3.N) (A : Vec Ideal S1x1 .f32) : ((cfg3.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_9.index t (0 : Fin 2) * 1 + 1 * (y 0).val = (y 0).val; rw [e9a]; omega
  | ⟨1, _⟩ => show win3_9.index t (1 : Fin 2) * 1 + 1 * (y 1).val = (y 1).val; rw [e9b]; omega

theorem read10 (t : Fin cfg3.N) (A : Vec Ideal S64x64 .bf16) : ((cfg3.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win3_10.index t (0 : Fin 2) * 64 + 1 * (y 0).val = (y 0).val; rw [e10a]; omega
  | ⟨1, _⟩ => show win3_10.index t (1 : Fin 2) * 64 + 1 * (y 1).val = (y 1).val; rw [e10b]; omega

theorem mem_blk11 (t : Fin cfg3.N) (i : S50000x64.Idx) :
    i ∈ ((cfg3.win 11).blk t).view.set ↔ ∀ a : Fin 2, win3_11.index t a * S2000x64.size a ≤ (i a).val ∧ (i a).val < win3_11.index t a * S2000x64.size a + S2000x64.size a := by
  show i ∈ ((View.whole main_v146_0).slice (win3_11.rect t)).set ↔ _
  rw [View.set_slice_whole, Rect.mem_set_unit]
  exact Iff.rfl
theorem mem_blk12 (t : Fin cfg3.N) (i : S50000x64.Idx) :
    i ∈ ((cfg3.win 12).blk t).view.set ↔ ∀ a : Fin 2, win3_12.index t a * S2000x64.size a ≤ (i a).val ∧ (i a).val < win3_12.index t a * S2000x64.size a + S2000x64.size a := by
  show i ∈ ((View.whole main_v146_1).slice (win3_12.rect t)).set ↔ _
  rw [View.set_slice_whole, Rect.mem_set_unit]
  exact Iff.rfl

def pointOf (i : S50000x64.Idx) : Fin cfg3.N :=
  ⟨(i 0).val / 2000, by have h : cfg3.N = 25 := N_3; have : (i 0).val < 50000 := (i 0).isLt; omega⟩

theorem cover11 (i : S50000x64.Idx) : ∃ t : Fin cfg3.N, (cfg3.win 11).flush t = true ∧ i ∈ ((cfg3.win 11).blk t).view.set := by
  refine ⟨pointOf i, flush3_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win3_11.index (pointOf i) (0 : Fin 2) * 2000 ≤ (i 0).val ∧ (i 0).val < win3_11.index (pointOf i) (0 : Fin 2) * 2000 + 2000; rw [e0a, hp]; omega
  | ⟨1, _⟩ => show win3_11.index (pointOf i) (1 : Fin 2) * 64 ≤ (i 1).val ∧ (i 1).val < win3_11.index (pointOf i) (1 : Fin 2) * 64 + 64; rw [e0b]; omega

theorem cover12 (i : S50000x64.Idx) : ∃ t : Fin cfg3.N, (cfg3.win 12).flush t = true ∧ i ∈ ((cfg3.win 12).blk t).view.set := by
  refine ⟨pointOf i, flush3_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win3_12.index (pointOf i) (0 : Fin 2) * 2000 ≤ (i 0).val ∧ (i 0).val < win3_12.index (pointOf i) (0 : Fin 2) * 2000 + 2000; rw [e0a, hp]; omega
  | ⟨1, _⟩ => show win3_12.index (pointOf i) (1 : Fin 2) * 64 ≤ (i 1).val ∧ (i 1).val < win3_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v122
abbrev meanIn (c : Dev nD) : Vec Ideal S1x64 .f32 := V c main_v126
abbrev varIn (c : Dev nD) : Vec Ideal S1x64 .f32 := V c main_v127
abbrev gammaIn (c : Dev nD) : Vec Ideal S1x64 .f32 := V c main_v130
abbrev betaIn (c : Dev nD) : Vec Ideal S1x64 .f32 := V c main_v133
abbrev fusedIn (c : Dev nD) : Vec Ideal S50000x64 .f32 := V c main_v105_0
abbrev lw1In (c : Dev nD) : Vec Ideal S64x4 .bf16 := V c main_v135
abbrev lb1In (c : Dev nD) : Vec Ideal S1x4 .f32 := V c main_v138
abbrev lw2In (c : Dev nD) : Vec Ideal S4x1 .bf16 := V c main_v140
abbrev lb2In (c : Dev nD) : Vec Ideal S1x1 .f32 := V c main_v143
abbrev bwIn (c : Dev nD) : Vec Ideal S64x64 .bf16 := V c main_v145

theorem flushed11_eq (c : Dev nD) (t : Fin cfg3.N) :
    (dat3 (F := Ideal) V c).flushed 11 t
      = ((cfg3.win 11).blk t).view.read (Elt Ideal) (fusedArr (aggIn V c) (meanIn V c) (varIn V c) (gammaIn V c) (betaIn V c) (fusedIn V c) (lw1In V c) (lb1In V c) (lw2In V c) (lb2In V c)) := by
  show (cfg3.win 11).cut (grid3.coords t) ((dat3 (F := Ideal) V c).after 11 t) = _
  rw [after3_11]
  unfold out3_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg3.N) :
    (dat3 (F := Ideal) V c).flushed 12 t
      = ((cfg3.win 12).blk t).view.read (Elt Ideal) (projArr (aggIn V c) (meanIn V c) (varIn V c) (gammaIn V c) (betaIn V c) (fusedIn V c) (lw1In V c) (lb1In V c) (lw2In V c) (lb2In V c) (bwIn V c)) := by
  show (cfg3.win 12).cut (grid3.coords t) ((dat3 (F := Ideal) V c).after 12 t) = _
  rw [after3_12]
  unfold out3_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat3 (F := Ideal) V c).arrAt 11 cfg3.N = fusedArr (aggIn V c) (meanIn V c) (varIn V c) (gammaIn V c) (betaIn V c) (fusedIn V c) (lw1In V c) (lb1In V c) (lw2In V c) (lb2In V c) :=
  (dat3 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat3 (F := Ideal) V c).arrAt 12 cfg3.N = projArr (aggIn V c) (meanIn V c) (varIn V c) (gammaIn V c) (betaIn V c) (fusedIn V c) (lw1In V c) (lb1In V c) (lw2In V c) (lb2In V c) (bwIn V c) :=
  (dat3 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg3

end
-- ==== Proof.KChain.Link3.lean ====
/- Template: proof/Proof/KChain/Link2.lean, whole. Substitutions, all at once: Link2 -> Link3, KHost.L2 -> KHost.L3, st2_keep -> st3_keep, wrS2 -> wrS3,
   st2_v<n> -> st3_v<n + 41>, Proof.KReg2 -> Proof.KReg3, KReg2.final -> KReg3.final, spec2 -> spec3, main_v<n> -> main_v<n + 41> for n >= 64,
   W<n> and V<n> -> W<n + 4> and V<n + 4> for n >= 8, (0 : Fin 8) -> (1 : Fin 8), (1 : Fin 9) -> (2 : Fin 9), (1 : Fin 8) -> (2 : Fin 8),
   and the heading's layer and region numbers. -/
/-
  Backbone layer 1 (kernel region 3), linked to the specification.

  Between the previous region's exit and this region's entry the host operations aggregate the previous projection over
  the edges, add the layer's bias, take the aggregate's per-feature mean and variance, and slice the layer's parameters
  out of their stacks; the region then leaves the new fused state and the new projection. Read as matrices, the two
  arrays are the specification's state after the layer, given that the two arrays the previous region left are the
  specification's state before it.
-/
import proofs.«428538_j32280974197073_1_alg».proof.Proof.Gen.KernelIdeal.Frame
import proofs.«428538_j32280974197073_1_alg».proof.Proof.KHost.L3
import proofs.«428538_j32280974197073_1_alg».proof.Proof.KReg3
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link3

variable (m : (ℓ : Loc nD τ sig) → Buf (Elt Ideal) ℓ) (ρ : Dev nD → PrngReg)

/-! ## The buffers computed once are kept -/

/-- No buffer computed once before the first region is written by this stretch of host operations. -/
theorem static_nw : ∀ b ∈ staticRefs, b ∉ KHost.wrS3 := by decide

/-- None is an array of this region. -/
theorem static_ne : ∀ b ∈ staticRefs, ∀ w, Pipeline.arrRef spec3 w ≠ b := by decide

/-- So each holds at the region's exit what it held at the previous region's exit. -/
theorem keeps (c : Dev nD) : Keeps (W12 m ρ c) (W16 m ρ c) := fun b hb =>
  (W16_of_ne m ρ c b (static_ne b hb)).trans (KHost.st3_keep (W12 m ρ c) b (static_nw b hb))

/-! ## The region's exit arrays as functions of its entry arrays -/

/-- The new fused state the region leaves, as a function of the arrays it was entered with. -/
theorem exit_fused (c : Dev nD) :
    (W16 m ρ c (Proc.devRef .tc main_v146_0) : Vec Ideal S50000x64 .f32)
      = KReg2.fusedArr
          (W15 m ρ c (Proc.devRef .tc main_v122) : Vec Ideal S50000x64 .f32)
          (W15 m ρ c (Proc.devRef .tc main_v126) : Vec Ideal S1x64 .f32)
          (W15 m ρ c (Proc.devRef .tc main_v127) : Vec Ideal S1x64 .f32)
          (W15 m ρ c (Proc.devRef .tc main_v130) : Vec Ideal S1x64 .f32)
          (W15 m ρ c (Proc.devRef .tc main_v133) : Vec Ideal S1x64 .f32)
          (W15 m ρ c (Proc.devRef .tc main_v105_0) : Vec Ideal S50000x64 .f32)
          (W15 m ρ c (Proc.devRef .tc main_v135) : Vec Ideal S64x4 .bf16)
          (W15 m ρ c (Proc.devRef .tc main_v138) : Vec Ideal S1x4 .f32)
          (W15 m ρ c (Proc.devRef .tc main_v140) : Vec Ideal S4x1 .bf16)
          (W15 m ρ c (Proc.devRef .tc main_v143) : Vec Ideal S1x1 .f32) :=
  (W16_arr m ρ c 11).trans (KReg3.final11 (V15 m ρ) c)

/-- The new projection the region leaves, as a function of the arrays it was entered with. -/
theorem exit_proj (c : Dev nD) :
    (W16 m ρ c (Proc.devRef .tc main_v146_1) : Vec Ideal S50000x64 .f32)
      = KReg2.projArr
          (W15 m ρ c (Proc.devRef .tc main_v122) : Vec Ideal S50000x64 .f32)
          (W15 m ρ c (Proc.devRef .tc main_v126) : Vec Ideal S1x64 .f32)
          (W15 m ρ c (Proc.devRef .tc main_v127) : Vec Ideal S1x64 .f32)
          (W15 m ρ c (Proc.devRef .tc main_v130) : Vec Ideal S1x64 .f32)
          (W15 m ρ c (Proc.devRef .tc main_v133) : Vec Ideal S1x64 .f32)
          (W15 m ρ c (Proc.devRef .tc main_v105_0) : Vec Ideal S50000x64 .f32)
          (W15 m ρ c (Proc.devRef .tc main_v135) : Vec Ideal S64x4 .bf16)
          (W15 m ρ c (Proc.devRef .tc main_v138) : Vec Ideal S1x4 .f32)
          (W15 m ρ c (Proc.devRef .tc main_v140) : Vec Ideal S4x1 .bf16)
          (W15 m ρ c (Proc.devRef .tc main_v143) : Vec Ideal S1x1 .f32)
          (W15 m ρ c (Proc.devRef .tc main_v145) : Vec Ideal S64x64 .bf16) :=
  (W16_arr m ρ c 12).trans (KReg3.final12 (V15 m ρ) c)

/-! ## The region's entry arrays, from the previous region's exit -/

/-- The aggregate: the edge aggregation of the previous projection, plus the layer's bias. -/
theorem e_agg (c : Dev nD) (hst : Keeps (W3 m ρ c) (W12 m ρ c)) (i : Fin 50000) (j : Fin 64) :
    (W15 m ρ c (Proc.devRef .tc main_v122) : Vec Ideal S50000x64 .f32) (ix2 i j)
      = KHost.scatK (W12 m ρ c (Proc.devRef .tc main_v105_1)) (KHost.srcOf (m ((c : Thread nD τ).loc main_arg1))) (KHost.enormOf (m ((c : Thread nD τ).loc main_arg1))) (KHost.dstOf (m ((c : Thread nD τ).loc main_arg1))) (ix2 i j)
        + (paramsK m c).bb (1 : Fin 8) j := by
  have h := KHost.st3_v122 (W12 m ρ c) i j
  rw [st_src hst, st_enorm hst, st_dst hst, st_arg13 hst] at h
  exact h

/-- The mean's row: the aggregate's per-feature sum over the number of nodes. -/
theorem e_mean (c : Dev nD) (k : Fin 64) :
    (W15 m ρ c (Proc.devRef .tc main_v126) : Vec Ideal S1x64 .f32) (ix2 (0 : Fin 1) k) = Cert.Spec.meanOf (KHost.sum64K (W15 m ρ c (Proc.devRef .tc main_v122) : Vec Ideal S50000x64 .f32) (ix1 k)) :=
  KHost.st3_v126 (W12 m ρ c) 0 k

/-- The variance's row: the aggregate's per-feature variance. -/
theorem e_var (c : Dev nD) (k : Fin 64) :
    (W15 m ρ c (Proc.devRef .tc main_v127) : Vec Ideal S1x64 .f32) (ix2 (0 : Fin 1) k) = KHost.var64K (W15 m ρ c (Proc.devRef .tc main_v122) : Vec Ideal S50000x64 .f32) (ix2 (0 : Fin 1) k) :=
  congrFun (KHost.st3_v127 (W12 m ρ c)) (ix2 (0 : Fin 1) k)

/-- The scale's row: the layer's row of the stacked scales. -/
theorem e_gamma (c : Dev nD) (hst : Keeps (W3 m ρ c) (W12 m ρ c)) (k : Fin 64) :
    (W15 m ρ c (Proc.devRef .tc main_v130) : Vec Ideal S1x64 .f32) (ix2 (0 : Fin 1) k) = (paramsK m c).bg (1 : Fin 8) k := by
  have h := KHost.st3_v130 (W12 m ρ c) 0 k
  rw [st_arg14 hst] at h
  exact h

/-- The shift's row: the layer's row of the stacked shifts. -/
theorem e_beta (c : Dev nD) (hst : Keeps (W3 m ρ c) (W12 m ρ c)) (k : Fin 64) :
    (W15 m ρ c (Proc.devRef .tc main_v133) : Vec Ideal S1x64 .f32) (ix2 (0 : Fin 1) k) = (paramsK m c).bbe (1 : Fin 8) k := by
  have h := KHost.st3_v133 (W12 m ρ c) 0 k
  rw [st_arg15 hst] at h
  exact h

/-- The fused state is the one the previous region left. -/
theorem e_fused (c : Dev nD) : W15 m ρ c (Proc.devRef .tc main_v105_0) = W12 m ρ c (Proc.devRef .tc main_v105_0) :=
  KHost.st3_keep (W12 m ρ c) main_v105_0 (by decide)

/-- The gate's first matrix: the layer's member of the stack. -/
theorem e_lw1 (c : Dev nD) (hst : Keeps (W3 m ρ c) (W12 m ρ c)) :
    Cert.Pack.mat (W15 m ρ c (Proc.devRef .tc main_v135) : Vec Ideal S64x4 .bf16) = (paramsK m c).lw1 (2 : Fin 9) := by
  funext k a
  have h := KHost.st3_v135 (W12 m ρ c) k a
  rw [st_v38 hst] at h
  exact h

/-- The gate's first bias: the layer's row of the stack. -/
theorem e_lb1 (c : Dev nD) (hst : Keeps (W3 m ρ c) (W12 m ρ c)) (a : Fin 4) :
    (W15 m ρ c (Proc.devRef .tc main_v138) : Vec Ideal S1x4 .f32) (ix2 (0 : Fin 1) a) = (paramsK m c).lb1 (2 : Fin 9) a := by
  have h := KHost.st3_v138 (W12 m ρ c) 0 a
  rw [st_arg9 hst] at h
  exact h

/-- The gate's read-out column: the layer's member of the stack. -/
theorem e_lw2 (c : Dev nD) (hst : Keeps (W3 m ρ c) (W12 m ρ c)) (a : Fin 4) :
    (W15 m ρ c (Proc.devRef .tc main_v140) : Vec Ideal S4x1 .bf16) (ix2 a (0 : Fin 1)) = (paramsK m c).lw2 (2 : Fin 9) a := by
  have h := KHost.st3_v140 (W12 m ρ c) a 0
  rw [st_v39 hst] at h
  exact h

/-- The gate's last bias: the layer's entry of the stack. -/
theorem e_lb2 (c : Dev nD) (hst : Keeps (W3 m ρ c) (W12 m ρ c)) :
    (W15 m ρ c (Proc.devRef .tc main_v143) : Vec Ideal S1x1 .f32) (ix2 (0 : Fin 1) (0 : Fin 1)) = (paramsK m c).lb2 (2 : Fin 9) := by
  have h := KHost.st3_v143 (W12 m ρ c) 0 0
  rw [st_arg11 hst] at h
  exact h

/-- The next layer's weights: its member of the stack. -/
theorem e_bw (c : Dev nD) (hst : Keeps (W3 m ρ c) (W12 m ρ c)) :
    Cert.Pack.mat (W15 m ρ c (Proc.devRef .tc main_v145) : Vec Ideal S64x64 .bf16) = (paramsK m c).bw (2 : Fin 8) := by
  funext k j
  have h := KHost.st3_v145 (W12 m ρ c) k j
  rw [st_v37 hst] at h
  exact h

/-! ## The link -/

/-- If the two arrays the previous region left read as the specification's state before the layer, the two arrays this
    region leaves read as its state after the layer; and the buffers computed once are still what they were. -/
theorem link (c : Dev nD) (s : Cert.Spec.Mat 50000 64 × Cert.Spec.Mat 50000 64)
    (hst : Keeps (W3 m ρ c) (W12 m ρ c))
    (hfu : Cert.Pack.mat (W12 m ρ c (Proc.devRef .tc main_v105_0) : Vec Ideal S50000x64 .f32) = s.1)
    (hpj : Cert.Pack.mat (W12 m ρ c (Proc.devRef .tc main_v105_1) : Vec Ideal S50000x64 .f32)
      = fun i j => Cert.Spec.proj (s.2 i) ((paramsK m c).bw (1 : Fin 8)) j) :
    Keeps (W3 m ρ c) (W16 m ρ c)
      ∧ Cert.Pack.mat (W16 m ρ c (Proc.devRef .tc main_v146_0) : Vec Ideal S50000x64 .f32)
          = (Cert.Spec.layer (opsK (m ((c : Thread nD τ).loc main_arg1))) (paramsK m c) (1 : Fin 8) (2 : Fin 9) s).1
      ∧ Cert.Pack.mat (W16 m ρ c (Proc.devRef .tc main_v146_1) : Vec Ideal S50000x64 .f32)
          = fun i j => Cert.Spec.proj
              ((Cert.Spec.layer (opsK (m ((c : Thread nD τ).loc main_arg1))) (paramsK m c) (1 : Fin 8) (2 : Fin 9) s).2 i)
              ((paramsK m c).bw (2 : Fin 8)) j :=
  ⟨hst.trans (keeps m ρ c),
   layer_link (opsK (m ((c : Thread nD τ).loc main_arg1))) (paramsK m c) (1 : Fin 8) (2 : Fin 9) (2 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W12 m ρ c (Proc.devRef .tc main_v105_1) : Vec Ideal S50000x64 .f32) hpj
    (W16 m ρ c (Proc.devRef .tc main_v146_0) : Vec Ideal S50000x64 .f32) (W16 m ρ c (Proc.devRef .tc main_v146_1) : Vec Ideal S50000x64 .f32)
    (W15 m ρ c (Proc.devRef .tc main_v122) : Vec Ideal S50000x64 .f32) (W15 m ρ c (Proc.devRef .tc main_v126) : Vec Ideal S1x64 .f32) (W15 m ρ c (Proc.devRef .tc main_v127) : Vec Ideal S1x64 .f32) (W15 m ρ c (Proc.devRef .tc main_v130) : Vec Ideal S1x64 .f32)
    (W15 m ρ c (Proc.devRef .tc main_v133) : Vec Ideal S1x64 .f32) (W15 m ρ c (Proc.devRef .tc main_v105_0) : Vec Ideal S50000x64 .f32) (W15 m ρ c (Proc.devRef .tc main_v135) : Vec Ideal S64x4 .bf16) (W15 m ρ c (Proc.devRef .tc main_v138) : Vec Ideal S1x4 .f32)
    (W15 m ρ c (Proc.devRef .tc main_v140) : Vec Ideal S4x1 .bf16) (W15 m ρ c (Proc.devRef .tc main_v143) : Vec Ideal S1x1 .f32) (W15 m ρ c (Proc.devRef .tc main_v145) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link3

end Cert.KernelIdeal.KChain

end
-- ==== Proof.KHost.L4.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st4 (W : Valuation τ sig (Elt Ideal)) : Valuation τ sig (Elt Ideal) :=
  StableHlo.after hostOps4_2 (StableHlo.after hostOps4_1 (StableHlo.after hostOps4 W))

noncomputable def wr4 : List (Ref sig .tc) :=
  [main_c_22, main_v147, main_v148, main_c_23, main_v149, main_v150, main_v151, main_v152, main_v153, main_v154, main_v155, main_cst_24, main_v156, main_v157, main_v158, main_v159, main_v160, main_v161, main_v162, main_v163, main_cst_25, main_v164, main_v165, main_cst_26, main_v166, main_v167, main_c_27]
noncomputable def wr4_1 : List (Ref sig .tc) :=
  [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v168]
noncomputable def wr4_2 : List (Ref sig .tc) :=
  [main_v169, main_v170, main_v171, main_v172, main_v173, main_v174, main_v175, main_v176, main_v177, main_v178, main_v179, main_v180, main_v181, main_v182, main_v183, main_v184, main_v185, main_v186]
noncomputable def wrS4 : List (Ref sig .tc) := wr4 ++ wr4_1 ++ wr4_2

theorem keep4 (W : Valuation τ sig (Elt Ideal)) (b : Ref sig .tc) (hb : b ∉ wr4) :
    StableHlo.after hostOps4 W (Proc.devRef .tc b) = W (Proc.devRef .tc b) :=
  StableHlo.after_of_writes_sub hostOps4 W (by
    simp only [hostOps4, wr4, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep4_1 (W : Valuation τ sig (Elt Ideal)) (b : Ref sig .tc) (hb : b ∉ wr4_1) :
    StableHlo.after hostOps4_1 W (Proc.devRef .tc b) = W (Proc.devRef .tc b) :=
  StableHlo.after_of_writes_sub hostOps4_1 W (by
    simp only [hostOps4_1, wr4_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep4_2 (W : Valuation τ sig (Elt Ideal)) (b : Ref sig .tc) (hb : b ∉ wr4_2) :
    StableHlo.after hostOps4_2 W (Proc.devRef .tc b) = W (Proc.devRef .tc b) :=
  StableHlo.after_of_writes_sub hostOps4_2 W (by
    simp only [hostOps4_2, wr4_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st4_keep (W : Valuation τ sig (Elt Ideal)) (b : Ref sig .tc) (hb : b ∉ wrS4) :
    st4 W (Proc.devRef .tc b) = W (Proc.devRef .tc b) :=
  (keep4_2 _ b fun h => hb (List.mem_append_right _ h)).trans
    ((keep4_1 _ b fun h => hb (List.mem_append_left _ (List.mem_append_right _ h))).trans
      (keep4 W b fun h => hb (List.mem_append_left _ (List.mem_append_left _ h))))

theorem l4_v163 (X : Valuation τ sig (Elt Ideal)) :
    StableHlo.after hostOps4 X (Proc.devRef .tc main_v163)
      = (addf (scatK (X (Proc.devRef .tc main_v146_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![2, 0] (X (Proc.devRef .tc main_arg13)) slices_S8x64_S1x64_2_0) shapeCasts_S1x64_S64))) :
          FVec Ideal S50000x64 .f32) := by
  simp only [hostOps4]; after_results_simp; all_goals rfl

theorem l4_v167 (X : Valuation τ sig (Elt Ideal)) :
    StableHlo.after hostOps4 X (Proc.devRef .tc main_v167)
      = (Host.divf (broadcastInDim S1x64 ![1] bcast_S64_S1x64_1 (sum64K (StableHlo.after hostOps4 X (Proc.devRef .tc main_v163))))
          (broadcastInDim S1x64 ![] bcast_S_S1x64 (constant S_ .f32 0x47435000#32)) : FVec Ideal S1x64 .f32) := by
  rw [← List.take_append_drop 20 (hostOps4 (F := Ideal)), after_append]
  generalize StableHlo.after (List.take 20 hostOps4) X = Y
  simp only [hostOps4, List.drop_succ_cons, List.drop_zero]
  after_results; all_goals rfl

theorem l4_c_27 (X : Valuation τ sig (Elt Ideal)) :
    StableHlo.after hostOps4 X (Proc.devRef .tc main_c_27) = (constantI S_ 32 0#32 : IVec S_ 32) := by
  simp only [hostOps4]; after_results; all_goals rfl

theorem l4_1_v168 (X : Valuation τ sig (Elt Ideal)) (h0 : X (Proc.devRef .tc main_c_27) = (constantI S_ 32 0#32 : IVec S_ 32)) :
    StableHlo.after hostOps4_1 X (Proc.devRef .tc main_v168) = var64K (X (Proc.devRef .tc main_v163)) := by
  simp only [hostOps4_1]; after_results_simp; rw [h0]; rfl

theorem l4_2_v171 (X : Valuation τ sig (Elt Ideal)) :
    StableHlo.after hostOps4_2 X (Proc.devRef .tc main_v171)
      = (shapeCast S1x64 (shapeCast S64 (extractStridedSlice S1x64 ![2, 0] (X (Proc.devRef .tc main_arg14)) slices_S8x64_S1x64_2_0) shapeCasts_S1x64_S64) shapeCasts_S64_S1x64 :
          FVec Ideal S1x64 .f32) := by
  simp only [hostOps4_2]; after_results; all_goals rfl

theorem l4_2_v174 (X : Valuation τ sig (Elt Ideal)) :
    StableHlo.after hostOps4_2 X (Proc.devRef .tc main_v174)
      = (shapeCast S1x64 (shapeCast S64 (extractStridedSlice S1x64 ![2, 0] (X (Proc.devRef .tc main_arg15)) slices_S8x64_S1x64_2_0) shapeCasts_S1x64_S64) shapeCasts_S64_S1x64 :
          FVec Ideal S1x64 .f32) := by
  simp only [hostOps4_2]; after_results; all_goals rfl

theorem l4_2_v176 (X : Valuation τ sig (Elt Ideal)) :
    StableHlo.after hostOps4_2 X (Proc.devRef .tc main_v176)
      = (shapeCast S64x4 (extractStridedSlice S1x64x4 ![3, 0, 0] (X (Proc.devRef .tc main_v38)) slices_S9x64x4_S1x64x4_3_0_0) shapeCasts_S1x64x4_S64x4 :
          FVec Ideal S64x4 .bf16) := by
  simp only [hostOps4_2]; after_results; all_goals rfl

theorem l4_2_v179 (X : Valuation τ sig (Elt Ideal)) :
    StableHlo.after hostOps4_2 X (Proc.devRef .tc main_v179)
      = (shapeCast S1x4 (shapeCast S4 (extractStridedSlice S1x4 ![3, 0] (X (Proc.devRef .tc main_arg9)) slices_S9x4_S1x4_3_0) shapeCasts_S1x4_S4) shapeCasts_S4_S1x4 :
          FVec Ideal S1x4 .f32) := by
  simp only [hostOps4_2]; after_results; all_goals rfl

theorem l4_2_v181 (X : Valuation τ sig (Elt Ideal)) :
    StableHlo.after hostOps4_2 X (Proc.devRef .tc main_v181)
      = (shapeCast S4x1 (extractStridedSlice S1x4x1 ![3, 0, 0] (X (Proc.devRef .tc main_v39)) slices_S9x4x1_S1x4x1_3_0_0) shapeCasts_S1x4x1_S4x1 :
          FVec Ideal S4x1 .bf16) := by
  simp only [hostOps4_2]; after_results; all_goals rfl

theorem l4_2_v184 (X : Valuation τ sig (Elt Ideal)) :
    StableHlo.after hostOps4_2 X (Proc.devRef .tc main_v184)
      = (shapeCast S1x1 (shapeCast S1 (extractStridedSlice S1x1 ![3, 0] (X (Proc.devRef .tc main_arg11)) slices_S9x1_S1x1_3_0) shapeCasts_S1x1_S1) shapeCasts_S1_S1x1 :
          FVec Ideal S1x1 .f32) := by
  simp only [hostOps4_2]; after_results; all_goals rfl

theorem l4_2_v186 (X : Valuation τ sig (Elt Ideal)) :
    StableHlo.after hostOps4_2 X (Proc.devRef .tc main_v186)
      = (shapeCast S64x64 (extractStridedSlice S1x64x64 ![3, 0, 0] (X (Proc.devRef .tc main_v37)) slices_S8x64x64_S1x64x64_3_0_0) shapeCasts_S1x64x64_S64x64 :
          FVec Ideal S64x64 .bf16) := by
  simp only [hostOps4_2]; after_results; all_goals rfl

theorem st4_v163 (W : Valuation τ sig (Elt Ideal)) (i : Fin 50000) (j : Fin 64) :
    (st4 W (Proc.devRef .tc main_v163) : S50000x64.Idx → EReal) (ix2 i j)
      = scatK (W (Proc.devRef .tc main_v146_1)) (W (Proc.devRef .tc main_v3)) (W (Proc.devRef .tc main_v32)) (W (Proc.devRef .tc main_v6)) (ix2 i j)
        + (W (Proc.devRef .tc main_arg13) : S8x64.Idx → EReal) (ix2 2 j) := by
  have e : (st4 W (Proc.devRef .tc main_v163) : S50000x64.Idx → EReal)
      = addf (scatK (W (Proc.devRef .tc main_v146_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![2, 0] (W (Proc.devRef .tc main_arg13) : S8x64.Idx → EReal) slices_S8x64_S1x64_2_0) shapeCasts_S1x64_S64))) := by
    show StableHlo.after hostOps4_2 (StableHlo.after hostOps4_1 (StableHlo.after hostOps4 W)) (Proc.devRef .tc main_v163) = _
    rw [keep4_2 _ main_v163 (by decide), keep4_1 _ main_v163 (by decide), l4_v163]
  rw [e, addf_apply, bcast_1b_ab, bcast_b_1b]
  exact congrArg (_ + ·) ((shapeCast_1a_a_apply _ _ j).trans (stack2_row (2 : Fin 8) _ _ 0 j))

theorem st4_v167 (W : Valuation τ sig (Elt Ideal)) (u : Fin 1) (j : Fin 64) :
    (st4 W (Proc.devRef .tc main_v167) : S1x64.Idx → EReal) (ix2 u j)
      = Cert.Spec.meanOf (sum64K (st4 W (Proc.devRef .tc main_v163)) (ix1 j)) := by
  have e : (st4 W (Proc.devRef .tc main_v167) : S1x64.Idx → EReal)
      = Host.divf (broadcastInDim S1x64 ![1] bcast_S64_S1x64_1 (sum64K (st4 W (Proc.devRef .tc main_v163))))
          (broadcastInDim S1x64 ![] bcast_S_S1x64 (constant S_ .f32 0x47435000#32)) := by
    show StableHlo.after hostOps4_2 (StableHlo.after hostOps4_1 (StableHlo.after hostOps4 W)) (Proc.devRef .tc main_v167)
      = Host.divf (broadcastInDim S1x64 ![1] bcast_S64_S1x64_1 (sum64K (StableHlo.after hostOps4_2 (StableHlo.after hostOps4_1 (StableHlo.after hostOps4 W)) (Proc.devRef .tc main_v163))))
          (broadcastInDim S1x64 ![] bcast_S_S1x64 (constant S_ .f32 0x47435000#32))
    rw [keep4_2 _ main_v167 (by decide), keep4_1 _ main_v167 (by decide), keep4_2 _ main_v163 (by decide),
      keep4_1 _ main_v163 (by decide), l4_v167]
  rw [e]
  show Ideal.div (broadcastInDim S1x64 ![1] bcast_S64_S1x64_1 (sum64K (st4 W (Proc.devRef .tc main_v163))) (ix2 u j))
      (Ideal.ofBits .f32 0x47435000#32) = _
  rw [bcast_b_1b]
  rfl

theorem st4_v168 (W : Valuation τ sig (Elt Ideal)) :
    st4 W (Proc.devRef .tc main_v168) = var64K (st4 W (Proc.devRef .tc main_v163)) := by
  show StableHlo.after hostOps4_2 (StableHlo.after hostOps4_1 (StableHlo.after hostOps4 W)) (Proc.devRef .tc main_v168) = var64K (StableHlo.after hostOps4_2 (StableHlo.after hostOps4_1 (StableHlo.after hostOps4 W)) (Proc.devRef .tc main_v163))
  rw [keep4_2 _ main_v168 (by decide), keep4_2 _ main_v163 (by decide), keep4_1 _ main_v163 (by decide),
    l4_1_v168 _ (l4_c_27 W)]

theorem st4_v171 (W : Valuation τ sig (Elt Ideal)) (u : Fin 1) (j : Fin 64) :
    (st4 W (Proc.devRef .tc main_v171) : S1x64.Idx → EReal) (ix2 u j) = (W (Proc.devRef .tc main_arg14) : S8x64.Idx → EReal) (ix2 2 j) := by
  have e : (st4 W (Proc.devRef .tc main_v171) : S1x64.Idx → EReal)
      = shapeCast S1x64 (shapeCast S64 (extractStridedSlice S1x64 ![2, 0] (W (Proc.devRef .tc main_arg14) : S8x64.Idx → EReal) slices_S8x64_S1x64_2_0) shapeCasts_S1x64_S64) shapeCasts_S64_S1x64 := by
    show StableHlo.after hostOps4_2 (StableHlo.after hostOps4_1 (StableHlo.after hostOps4 W)) (Proc.devRef .tc main_v171) = _
    rw [l4_2_v171, keep4_1 _ main_arg14 (by decide), keep4 _ main_arg14 (by decide)]
  rw [e]
  exact (row_roundtrip _ _ _ u j).trans (stack2_row (2 : Fin 8) _ _ 0 j)

theorem st4_v174 (W : Valuation τ sig (Elt Ideal)) (u : Fin 1) (j : Fin 64) :
    (st4 W (Proc.devRef .tc main_v174) : S1x64.Idx → EReal) (ix2 u j) = (W (Proc.devRef .tc main_arg15) : S8x64.Idx → EReal) (ix2 2 j) := by
  have e : (st4 W (Proc.devRef .tc main_v174) : S1x64.Idx → EReal)
      = shapeCast S1x64 (shapeCast S64 (extractStridedSlice S1x64 ![2, 0] (W (Proc.devRef .tc main_arg15) : S8x64.Idx → EReal) slices_S8x64_S1x64_2_0) shapeCasts_S1x64_S64) shapeCasts_S64_S1x64 := by
    show StableHlo.after hostOps4_2 (StableHlo.after hostOps4_1 (StableHlo.after hostOps4 W)) (Proc.devRef .tc main_v174) = _
    rw [l4_2_v174, keep4_1 _ main_arg15 (by decide), keep4 _ main_arg15 (by decide)]
  rw [e]
  exact (row_roundtrip _ _ _ u j).trans (stack2_row (2 : Fin 8) _ _ 0 j)

theorem st4_v176 (W : Valuation τ sig (Elt Ideal)) (k : Fin 64) (a : Fin 4) :
    (st4 W (Proc.devRef .tc main_v176) : S64x4.Idx → EReal) (ix2 k a) = (W (Proc.devRef .tc main_v38) : S9x64x4.Idx → EReal) (ix3 3 k a) := by
  have e : (st4 W (Proc.devRef .tc main_v176) : S64x4.Idx → EReal)
      = shapeCast S64x4 (extractStridedSlice S1x64x4 ![3, 0, 0] (W (Proc.devRef .tc main_v38) : S9x64x4.Idx → EReal) slices_S9x64x4_S1x64x4_3_0_0) shapeCasts_S1x64x4_S64x4 := by
    show StableHlo.after hostOps4_2 (StableHlo.after hostOps4_1 (StableHlo.after hostOps4 W)) (Proc.devRef .tc main_v176) = _
    rw [l4_2_v176, keep4_1 _ main_v38 (by decide), keep4 _ main_v38 (by decide)]
  rw [e]
  exact stack3_entry (3 : Fin 9) _ _ _ k a

theorem st4_v179 (W : Valuation τ sig (Elt Ideal)) (u : Fin 1) (a : Fin 4) :
    (st4 W (Proc.devRef .tc main_v179) : S1x4.Idx → EReal) (ix2 u a) = (W (Proc.devRef .tc main_arg9) : S9x4.Idx → EReal) (ix2 3 a) := by
  have e : (st4 W (Proc.devRef .tc main_v179) : S1x4.Idx → EReal)
      = shapeCast S1x4 (shapeCast S4 (extractStridedSlice S1x4 ![3, 0] (W (Proc.devRef .tc main_arg9) : S9x4.Idx → EReal) slices_S9x4_S1x4_3_0) shapeCasts_S1x4_S4) shapeCasts_S4_S1x4 := by
    show StableHlo.after hostOps4_2 (StableHlo.after hostOps4_1 (StableHlo.after hostOps4 W)) (Proc.devRef .tc main_v179) = _
    rw [l4_2_v179, keep4_1 _ main_arg9 (by decide), keep4 _ main_arg9 (by decide)]
  rw [e]
  exact (row_roundtrip _ _ _ u a).trans (stack2_row (3 : Fin 9) _ _ 0 a)

theorem st4_v181 (W : Valuation τ sig (Elt Ideal)) (a : Fin 4) (q : Fin 1) :
    (st4 W (Proc.devRef .tc main_v181) : S4x1.Idx → EReal) (ix2 a q) = (W (Proc.devRef .tc main_v39) : S9x4x1.Idx → EReal) (ix3 3 a q) := by
  have e : (st4 W (Proc.devRef .tc main_v181) : S4x1.Idx → EReal)
      = shapeCast S4x1 (extractStridedSlice S1x4x1 ![3, 0, 0] (W (Proc.devRef .tc main_v39) : S9x4x1.Idx → EReal) slices_S9x4x1_S1x4x1_3_0_0) shapeCasts_S1x4x1_S4x1 := by
    show StableHlo.after hostOps4_2 (StableHlo.after hostOps4_1 (StableHlo.after hostOps4 W)) (Proc.devRef .tc main_v181) = _
    rw [l4_2_v181, keep4_1 _ main_v39 (by decide), keep4 _ main_v39 (by decide)]
  rw [e]
  exact stack3_entry (3 : Fin 9) _ _ _ a q

theorem st4_v184 (W : Valuation τ sig (Elt Ideal)) (u : Fin 1) (q : Fin 1) :
    (st4 W (Proc.devRef .tc main_v184) : S1x1.Idx → EReal) (ix2 u q) = (W (Proc.devRef .tc main_arg11) : S9x1.Idx → EReal) (ix2 3 q) := by
  have e : (st4 W (Proc.devRef .tc main_v184) : S1x1.Idx → EReal)
      = shapeCast S1x1 (shapeCast S1 (extractStridedSlice S1x1 ![3, 0] (W (Proc.devRef .tc main_arg11) : S9x1.Idx → EReal) slices_S9x1_S1x1_3_0) shapeCasts_S1x1_S1) shapeCasts_S1_S1x1 := by
    show StableHlo.after hostOps4_2 (StableHlo.after hostOps4_1 (StableHlo.after hostOps4 W)) (Proc.devRef .tc main_v184) = _
    rw [l4_2_v184, keep4_1 _ main_arg11 (by decide), keep4 _ main_arg11 (by decide)]
  rw [e]
  exact (row_roundtrip _ _ _ u q).trans (stack2_row (3 : Fin 9) _ _ 0 q)

theorem st4_v186 (W : Valuation τ sig (Elt Ideal)) (k : Fin 64) (j : Fin 64) :
    (st4 W (Proc.devRef .tc main_v186) : S64x64.Idx → EReal) (ix2 k j) = (W (Proc.devRef .tc main_v37) : S8x64x64.Idx → EReal) (ix3 3 k j) := by
  have e : (st4 W (Proc.devRef .tc main_v186) : S64x64.Idx → EReal)
      = shapeCast S64x64 (extractStridedSlice S1x64x64 ![3, 0, 0] (W (Proc.devRef .tc main_v37) : S8x64x64.Idx → EReal) slices_S8x64x64_S1x64x64_3_0_0) shapeCasts_S1x64x64_S64x64 := by
    show StableHlo.after hostOps4_2 (StableHlo.after hostOps4_1 (StableHlo.after hostOps4 W)) (Proc.devRef .tc main_v186) = _
    rw [l4_2_v186, keep4_1 _ main_v37 (by decide), keep4 _ main_v37 (by decide)]
  rw [e]
  exact stack3_entry (3 : Fin 8) _ _ _ k j

end Cert.KernelIdeal.KHost

end
-- ==== Proof.KReg4.lean ====
import proofs.«428538_j32280974197073_1_alg».proof.Proof.KReg2

noncomputable section

namespace Cert.KernelIdeal.KReg4

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hz fusedArr projArr store11 store12)

/-! ## The region -/

theorem idx_facts : ∀ t : Fin cfg4.N,
    win4_0.index t (0 : Fin 2) = t.val ∧ win4_0.index t (1 : Fin 2) = 0
    ∧ win4_5.index t (0 : Fin 2) = t.val ∧ win4_5.index t (1 : Fin 2) = 0
    ∧ win4_11.index t (0 : Fin 2) = t.val ∧ win4_11.index t (1 : Fin 2) = 0
    ∧ win4_12.index t (0 : Fin 2) = t.val ∧ win4_12.index t (1 : Fin 2) = 0 :=
  (by decide +kernel : ∀ t : Fin grid4.N, _)

theorem idx_facts_res : ∀ t : Fin cfg4.N,
    win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0 :=
  (by decide +kernel : ∀ t : Fin grid4.N, _)

def rowOf (t : Fin cfg4.N) (p : Fin 2000) : Fin 50000 :=
  ⟨t.val * 2000 + p.val, by have h : cfg4.N = 25 := N_4; have := t.isLt; have := p.isLt; omega⟩

theorem read0 (t : Fin cfg4.N) (A : Vec Ideal S50000x64 .f32) (p : Fin 2000) (k : Fin 64) :
    (((cfg4.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win4_0.index t (0 : Fin 2) * 2000 + 1 * p.val = t.val * 2000 + p.val; rw [e0a]; omega
  | ⟨1, _⟩ => show win4_0.index t (1 : Fin 2) * 64 + 1 * k.val = k.val; rw [e0b]; omega

theorem read5 (t : Fin cfg4.N) (A : Vec Ideal S50000x64 .f32) (p : Fin 2000) (k : Fin 64) :
    (((cfg4.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win4_5.index t (0 : Fin 2) * 2000 + 1 * p.val = t.val * 2000 + p.val; rw [e0a]; omega
  | ⟨1, _⟩ => show win4_5.index t (1 : Fin 2) * 64 + 1 * k.val = k.val; rw [e0b]; omega

theorem read11 (t : Fin cfg4.N) (A : Vec Ideal S50000x64 .f32) (p : Fin 2000) (k : Fin 64) :
    (((cfg4.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win4_11.index t (0 : Fin 2) * 2000 + 1 * p.val = t.val * 2000 + p.val; rw [e0a]; omega
  | ⟨1, _⟩ => show win4_11.index t (1 : Fin 2) * 64 + 1 * k.val = k.val; rw [e0b]; omega

theorem read12 (t : Fin cfg4.N) (A : Vec Ideal S50000x64 .f32) (p : Fin 2000) (k : Fin 64) :
    (((cfg4.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win4_12.index t (0 : Fin 2) * 2000 + 1 * p.val = t.val * 2000 + p.val; rw [e0a]; omega
  | ⟨1, _⟩ => show win4_12.index t (1 : Fin 2) * 64 + 1 * k.val = k.val; rw [e0b]; omega

theorem read1 (t : Fin cfg4.N) (A : Vec Ideal S1x64 .f32) : ((cfg4.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_1.index t (0 : Fin 2) * 1 + 1 * (y 0).val = (y 0).val; rw [e1a]; omega
  | ⟨1, _⟩ => show win4_1.index t (1 : Fin 2) * 64 + 1 * (y 1).val = (y 1).val; rw [e1b]; omega

theorem read2 (t : Fin cfg4.N) (A : Vec Ideal S1x64 .f32) : ((cfg4.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_2.index t (0 : Fin 2) * 1 + 1 * (y 0).val = (y 0).val; rw [e2a]; omega
  | ⟨1, _⟩ => show win4_2.index t (1 : Fin 2) * 64 + 1 * (y 1).val = (y 1).val; rw [e2b]; omega

theorem read3 (t : Fin cfg4.N) (A : Vec Ideal S1x64 .f32) : ((cfg4.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_3.index t (0 : Fin 2) * 1 + 1 * (y 0).val = (y 0).val; rw [e3a]; omega
  | ⟨1, _⟩ => show win4_3.index t (1 : Fin 2) * 64 + 1 * (y 1).val = (y 1).val; rw [e3b]; omega

theorem read4 (t : Fin cfg4.N) (A : Vec Ideal S1x64 .f32) : ((cfg4.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_4.index t (0 : Fin 2) * 1 + 1 * (y 0).val = (y 0).val; rw [e4a]; omega
  | ⟨1, _⟩ => show win4_4.index t (1 : Fin 2) * 64 + 1 * (y 1).val = (y 1).val; rw [e4b]; omega

theorem read6 (t : Fin cfg4.N) (A : Vec Ideal S64x4 .bf16) : ((cfg4.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_6.index t (0 : Fin 2) * 64 + 1 * (y 0).val = (y 0).val; rw [e6a]; omega
  | ⟨1, _⟩ => show win4_6.index t (1 : Fin 2) * 4 + 1 * (y 1).val = (y 1).val; rw [e6b]; omega

theorem read7 (t : Fin cfg4.N) (A : Vec Ideal S1x4 .f32) : ((cfg4.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_7.index t (0 : Fin 2) * 1 + 1 * (y 0).val = (y 0).val; rw [e7a]; omega
  | ⟨1, _⟩ => show win4_7.index t (1 : Fin 2) * 4 + 1 * (y 1).val = (y 1).val; rw [e7b]; omega

theorem read8 (t : Fin cfg4.N) (A : Vec Ideal S4x1 .bf16) : ((cfg4.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_8.index t (0 : Fin 2) * 4 + 1 * (y 0).val = (y 0).val; rw [e8a]; omega
  | ⟨1, _⟩ => show win4_8.index t (1 : Fin 2) * 1 + 1 * (y 1).val = (y 1).val; rw [e8b]; omega

theorem read9 (t : Fin cfg4.N) (A : Vec Ideal S1x1 .f32) : ((cfg4.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_9.index t (0 : Fin 2) * 1 + 1 * (y 0).val = (y 0).val; rw [e9a]; omega
  | ⟨1, _⟩ => show win4_9.index t (1 : Fin 2) * 1 + 1 * (y 1).val = (y 1).val; rw [e9b]; omega

theorem read10 (t : Fin cfg4.N) (A : Vec Ideal S64x64 .bf16) : ((cfg4.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win4_10.index t (0 : Fin 2) * 64 + 1 * (y 0).val = (y 0).val; rw [e10a]; omega
  | ⟨1, _⟩ => show win4_10.index t (1 : Fin 2) * 64 + 1 * (y 1).val = (y 1).val; rw [e10b]; omega

theorem mem_blk11 (t : Fin cfg4.N) (i : S50000x64.Idx) :
    i ∈ ((cfg4.win 11).blk t).view.set ↔ ∀ a : Fin 2, win4_11.index t a * S2000x64.size a ≤ (i a).val ∧ (i a).val < win4_11.index t a * S2000x64.size a + S2000x64.size a := by
  show i ∈ ((View.whole main_v187_0).slice (win4_11.rect t)).set ↔ _
  rw [View.set_slice_whole, Rect.mem_set_unit]
  exact Iff.rfl
theorem mem_blk12 (t : Fin cfg4.N) (i : S50000x64.Idx) :
    i ∈ ((cfg4.win 12).blk t).view.set ↔ ∀ a : Fin 2, win4_12.index t a * S2000x64.size a ≤ (i a).val ∧ (i a).val < win4_12.index t a * S2000x64.size a + S2000x64.size a := by
  show i ∈ ((View.whole main_v187_1).slice (win4_12.rect t)).set ↔ _
  rw [View.set_slice_whole, Rect.mem_set_unit]
  exact Iff.rfl

def pointOf (i : S50000x64.Idx) : Fin cfg4.N :=
  ⟨(i 0).val / 2000, by have h : cfg4.N = 25 := N_4; have : (i 0).val < 50000 := (i 0).isLt; omega⟩

theorem cover11 (i : S50000x64.Idx) : ∃ t : Fin cfg4.N, (cfg4.win 11).flush t = true ∧ i ∈ ((cfg4.win 11).blk t).view.set := by
  refine ⟨pointOf i, flush4_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win4_11.index (pointOf i) (0 : Fin 2) * 2000 ≤ (i 0).val ∧ (i 0).val < win4_11.index (pointOf i) (0 : Fin 2) * 2000 + 2000; rw [e0a, hp]; omega
  | ⟨1, _⟩ => show win4_11.index (pointOf i) (1 : Fin 2) * 64 ≤ (i 1).val ∧ (i 1).val < win4_11.index (pointOf i) (1 : Fin 2) * 64 + 64; rw [e0b]; omega

theorem cover12 (i : S50000x64.Idx) : ∃ t : Fin cfg4.N, (cfg4.win 12).flush t = true ∧ i ∈ ((cfg4.win 12).blk t).view.set := by
  refine ⟨pointOf i, flush4_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win4_12.index (pointOf i) (0 : Fin 2) * 2000 ≤ (i 0).val ∧ (i 0).val < win4_12.index (pointOf i) (0 : Fin 2) * 2000 + 2000; rw [e0a, hp]; omega
  | ⟨1, _⟩ => show win4_12.index (pointOf i) (1 : Fin 2) * 64 ≤ (i 1).val ∧ (i 1).val < win4_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v163
abbrev meanIn (c : Dev nD) : Vec Ideal S1x64 .f32 := V c main_v167
abbrev varIn (c : Dev nD) : Vec Ideal S1x64 .f32 := V c main_v168
abbrev gammaIn (c : Dev nD) : Vec Ideal S1x64 .f32 := V c main_v171
abbrev betaIn (c : Dev nD) : Vec Ideal S1x64 .f32 := V c main_v174
abbrev fusedIn (c : Dev nD) : Vec Ideal S50000x64 .f32 := V c main_v146_0
abbrev lw1In (c : Dev nD) : Vec Ideal S64x4 .bf16 := V c main_v176
abbrev lb1In (c : Dev nD) : Vec Ideal S1x4 .f32 := V c main_v179
abbrev lw2In (c : Dev nD) : Vec Ideal S4x1 .bf16 := V c main_v181
abbrev lb2In (c : Dev nD) : Vec Ideal S1x1 .f32 := V c main_v184
abbrev bwIn (c : Dev nD) : Vec Ideal S64x64 .bf16 := V c main_v186

theorem flushed11_eq (c : Dev nD) (t : Fin cfg4.N) :
    (dat4 (F := Ideal) V c).flushed 11 t
      = ((cfg4.win 11).blk t).view.read (Elt Ideal) (fusedArr (aggIn V c) (meanIn V c) (varIn V c) (gammaIn V c) (betaIn V c) (fusedIn V c) (lw1In V c) (lb1In V c) (lw2In V c) (lb2In V c)) := by
  show (cfg4.win 11).cut (grid4.coords t) ((dat4 (F := Ideal) V c).after 11 t) = _
  rw [after4_11]
  unfold out4_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg4.N) :
    (dat4 (F := Ideal) V c).flushed 12 t
      = ((cfg4.win 12).blk t).view.read (Elt Ideal) (projArr (aggIn V c) (meanIn V c) (varIn V c) (gammaIn V c) (betaIn V c) (fusedIn V c) (lw1In V c) (lb1In V c) (lw2In V c) (lb2In V c) (bwIn V c)) := by
  show (cfg4.win 12).cut (grid4.coords t) ((dat4 (F := Ideal) V c).after 12 t) = _
  rw [after4_12]
  unfold out4_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat4 (F := Ideal) V c).arrAt 11 cfg4.N = fusedArr (aggIn V c) (meanIn V c) (varIn V c) (gammaIn V c) (betaIn V c) (fusedIn V c) (lw1In V c) (lb1In V c) (lw2In V c) (lb2In V c) :=
  (dat4 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat4 (F := Ideal) V c).arrAt 12 cfg4.N = projArr (aggIn V c) (meanIn V c) (varIn V c) (gammaIn V c) (betaIn V c) (fusedIn V c) (lw1In V c) (lb1In V c) (lw2In V c) (lb2In V c) (bwIn V c) :=
  (dat4 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg4

end
-- ==== Proof.KChain.Link4.lean ====
/- Template: proof/Proof/KChain/Link2.lean, whole. Substitutions, all at once: Link2 -> Link4, KHost.L2 -> KHost.L4, st2_keep -> st4_keep, wrS2 -> wrS4,
   st2_v<n> -> st4_v<n + 82>, Proof.KReg2 -> Proof.KReg4, KReg2.final -> KReg4.final, spec2 -> spec4, main_v<n> -> main_v<n + 82> for n >= 64,
   W<n> and V<n> -> W<n + 8> and V<n + 8> for n >= 8, (0 : Fin 8) -> (2 : Fin 8), (1 : Fin 9) -> (3 : Fin 9), (1 : Fin 8) -> (3 : Fin 8),
   and the heading's layer and region numbers. -/
/-
  Backbone layer 2 (kernel region 4), linked to the specification.

  Between the previous region's exit and this region's entry the host operations aggregate the previous projection over
  the edges, add the layer's bias, take the aggregate's per-feature mean and variance, and slice the layer's parameters
  out of their stacks; the region then leaves the new fused state and the new projection. Read as matrices, the two
  arrays are the specification's state after the layer, given that the two arrays the previous region left are the
  specification's state before it.
-/
import proofs.«428538_j32280974197073_1_alg».proof.Proof.Gen.KernelIdeal.Frame
import proofs.«428538_j32280974197073_1_alg».proof.Proof.KHost.L4
import proofs.«428538_j32280974197073_1_alg».proof.Proof.KReg4
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link4

variable (m : (ℓ : Loc nD τ sig) → Buf (Elt Ideal) ℓ) (ρ : Dev nD → PrngReg)

/-! ## The buffers computed once are kept -/

/-- No buffer computed once before the first region is written by this stretch of host operations. -/
theorem static_nw : ∀ b ∈ staticRefs, b ∉ KHost.wrS4 := by decide

/-- None is an array of this region. -/
theorem static_ne : ∀ b ∈ staticRefs, ∀ w, Pipeline.arrRef spec4 w ≠ b := by decide

/-- So each holds at the region's exit what it held at the previous region's exit. -/
theorem keeps (c : Dev nD) : Keeps (W16 m ρ c) (W20 m ρ c) := fun b hb =>
  (W20_of_ne m ρ c b (static_ne b hb)).trans (KHost.st4_keep (W16 m ρ c) b (static_nw b hb))

/-! ## The region's exit arrays as functions of its entry arrays -/

/-- The new fused state the region leaves, as a function of the arrays it was entered with. -/
theorem exit_fused (c : Dev nD) :
    (W20 m ρ c (Proc.devRef .tc main_v187_0) : Vec Ideal S50000x64 .f32)
      = KReg2.fusedArr
          (W19 m ρ c (Proc.devRef .tc main_v163) : Vec Ideal S50000x64 .f32)
          (W19 m ρ c (Proc.devRef .tc main_v167) : Vec Ideal S1x64 .f32)
          (W19 m ρ c (Proc.devRef .tc main_v168) : Vec Ideal S1x64 .f32)
          (W19 m ρ c (Proc.devRef .tc main_v171) : Vec Ideal S1x64 .f32)
          (W19 m ρ c (Proc.devRef .tc main_v174) : Vec Ideal S1x64 .f32)
          (W19 m ρ c (Proc.devRef .tc main_v146_0) : Vec Ideal S50000x64 .f32)
          (W19 m ρ c (Proc.devRef .tc main_v176) : Vec Ideal S64x4 .bf16)
          (W19 m ρ c (Proc.devRef .tc main_v179) : Vec Ideal S1x4 .f32)
          (W19 m ρ c (Proc.devRef .tc main_v181) : Vec Ideal S4x1 .bf16)
          (W19 m ρ c (Proc.devRef .tc main_v184) : Vec Ideal S1x1 .f32) :=
  (W20_arr m ρ c 11).trans (KReg4.final11 (V19 m ρ) c)

/-- The new projection the region leaves, as a function of the arrays it was entered with. -/
theorem exit_proj (c : Dev nD) :
    (W20 m ρ c (Proc.devRef .tc main_v187_1) : Vec Ideal S50000x64 .f32)
      = KReg2.projArr
          (W19 m ρ c (Proc.devRef .tc main_v163) : Vec Ideal S50000x64 .f32)
          (W19 m ρ c (Proc.devRef .tc main_v167) : Vec Ideal S1x64 .f32)
          (W19 m ρ c (Proc.devRef .tc main_v168) : Vec Ideal S1x64 .f32)
          (W19 m ρ c (Proc.devRef .tc main_v171) : Vec Ideal S1x64 .f32)
          (W19 m ρ c (Proc.devRef .tc main_v174) : Vec Ideal S1x64 .f32)
          (W19 m ρ c (Proc.devRef .tc main_v146_0) : Vec Ideal S50000x64 .f32)
          (W19 m ρ c (Proc.devRef .tc main_v176) : Vec Ideal S64x4 .bf16)
          (W19 m ρ c (Proc.devRef .tc main_v179) : Vec Ideal S1x4 .f32)
          (W19 m ρ c (Proc.devRef .tc main_v181) : Vec Ideal S4x1 .bf16)
          (W19 m ρ c (Proc.devRef .tc main_v184) : Vec Ideal S1x1 .f32)
          (W19 m ρ c (Proc.devRef .tc main_v186) : Vec Ideal S64x64 .bf16) :=
  (W20_arr m ρ c 12).trans (KReg4.final12 (V19 m ρ) c)

/-! ## The region's entry arrays, from the previous region's exit -/

/-- The aggregate: the edge aggregation of the previous projection, plus the layer's bias. -/
theorem e_agg (c : Dev nD) (hst : Keeps (W3 m ρ c) (W16 m ρ c)) (i : Fin 50000) (j : Fin 64) :
    (W19 m ρ c (Proc.devRef .tc main_v163) : Vec Ideal S50000x64 .f32) (ix2 i j)
      = KHost.scatK (W16 m ρ c (Proc.devRef .tc main_v146_1)) (KHost.srcOf (m ((c : Thread nD τ).loc main_arg1))) (KHost.enormOf (m ((c : Thread nD τ).loc main_arg1))) (KHost.dstOf (m ((c : Thread nD τ).loc main_arg1))) (ix2 i j)
        + (paramsK m c).bb (2 : Fin 8) j := by
  have h := KHost.st4_v163 (W16 m ρ c) i j
  rw [st_src hst, st_enorm hst, st_dst hst, st_arg13 hst] at h
  exact h

/-- The mean's row: the aggregate's per-feature sum over the number of nodes. -/
theorem e_mean (c : Dev nD) (k : Fin 64) :
    (W19 m ρ c (Proc.devRef .tc main_v167) : Vec Ideal S1x64 .f32) (ix2 (0 : Fin 1) k) = Cert.Spec.meanOf (KHost.sum64K (W19 m ρ c (Proc.devRef .tc main_v163) : Vec Ideal S50000x64 .f32) (ix1 k)) :=
  KHost.st4_v167 (W16 m ρ c) 0 k

/-- The variance's row: the aggregate's per-feature variance. -/
theorem e_var (c : Dev nD) (k : Fin 64) :
    (W19 m ρ c (Proc.devRef .tc main_v168) : Vec Ideal S1x64 .f32) (ix2 (0 : Fin 1) k) = KHost.var64K (W19 m ρ c (Proc.devRef .tc main_v163) : Vec Ideal S50000x64 .f32) (ix2 (0 : Fin 1) k) :=
  congrFun (KHost.st4_v168 (W16 m ρ c)) (ix2 (0 : Fin 1) k)

/-- The scale's row: the layer's row of the stacked scales. -/
theorem e_gamma (c : Dev nD) (hst : Keeps (W3 m ρ c) (W16 m ρ c)) (k : Fin 64) :
    (W19 m ρ c (Proc.devRef .tc main_v171) : Vec Ideal S1x64 .f32) (ix2 (0 : Fin 1) k) = (paramsK m c).bg (2 : Fin 8) k := by
  have h := KHost.st4_v171 (W16 m ρ c) 0 k
  rw [st_arg14 hst] at h
  exact h

/-- The shift's row: the layer's row of the stacked shifts. -/
theorem e_beta (c : Dev nD) (hst : Keeps (W3 m ρ c) (W16 m ρ c)) (k : Fin 64) :
    (W19 m ρ c (Proc.devRef .tc main_v174) : Vec Ideal S1x64 .f32) (ix2 (0 : Fin 1) k) = (paramsK m c).bbe (2 : Fin 8) k := by
  have h := KHost.st4_v174 (W16 m ρ c) 0 k
  rw [st_arg15 hst] at h
  exact h

/-- The fused state is the one the previous region left. -/
theorem e_fused (c : Dev nD) : W19 m ρ c (Proc.devRef .tc main_v146_0) = W16 m ρ c (Proc.devRef .tc main_v146_0) :=
  KHost.st4_keep (W16 m ρ c) main_v146_0 (by decide)

/-- The gate's first matrix: the layer's member of the stack. -/
theorem e_lw1 (c : Dev nD) (hst : Keeps (W3 m ρ c) (W16 m ρ c)) :
    Cert.Pack.mat (W19 m ρ c (Proc.devRef .tc main_v176) : Vec Ideal S64x4 .bf16) = (paramsK m c).lw1 (3 : Fin 9) := by
  funext k a
  have h := KHost.st4_v176 (W16 m ρ c) k a
  rw [st_v38 hst] at h
  exact h

/-- The gate's first bias: the layer's row of the stack. -/
theorem e_lb1 (c : Dev nD) (hst : Keeps (W3 m ρ c) (W16 m ρ c)) (a : Fin 4) :
    (W19 m ρ c (Proc.devRef .tc main_v179) : Vec Ideal S1x4 .f32) (ix2 (0 : Fin 1) a) = (paramsK m c).lb1 (3 : Fin 9) a := by
  have h := KHost.st4_v179 (W16 m ρ c) 0 a
  rw [st_arg9 hst] at h
  exact h

/-- The gate's read-out column: the layer's member of the stack. -/
theorem e_lw2 (c : Dev nD) (hst : Keeps (W3 m ρ c) (W16 m ρ c)) (a : Fin 4) :
    (W19 m ρ c (Proc.devRef .tc main_v181) : Vec Ideal S4x1 .bf16) (ix2 a (0 : Fin 1)) = (paramsK m c).lw2 (3 : Fin 9) a := by
  have h := KHost.st4_v181 (W16 m ρ c) a 0
  rw [st_v39 hst] at h
  exact h

/-- The gate's last bias: the layer's entry of the stack. -/
theorem e_lb2 (c : Dev nD) (hst : Keeps (W3 m ρ c) (W16 m ρ c)) :
    (W19 m ρ c (Proc.devRef .tc main_v184) : Vec Ideal S1x1 .f32) (ix2 (0 : Fin 1) (0 : Fin 1)) = (paramsK m c).lb2 (3 : Fin 9) := by
  have h := KHost.st4_v184 (W16 m ρ c) 0 0
  rw [st_arg11 hst] at h
  exact h

/-- The next layer's weights: its member of the stack. -/
theorem e_bw (c : Dev nD) (hst : Keeps (W3 m ρ c) (W16 m ρ c)) :
    Cert.Pack.mat (W19 m ρ c (Proc.devRef .tc main_v186) : Vec Ideal S64x64 .bf16) = (paramsK m c).bw (3 : Fin 8) := by
  funext k j
  have h := KHost.st4_v186 (W16 m ρ c) k j
  rw [st_v37 hst] at h
  exact h

/-! ## The link -/

/-- If the two arrays the previous region left read as the specification's state before the layer, the two arrays this
    region leaves read as its state after the layer; and the buffers computed once are still what they were. -/
theorem link (c : Dev nD) (s : Cert.Spec.Mat 50000 64 × Cert.Spec.Mat 50000 64)
    (hst : Keeps (W3 m ρ c) (W16 m ρ c))
    (hfu : Cert.Pack.mat (W16 m ρ c (Proc.devRef .tc main_v146_0) : Vec Ideal S50000x64 .f32) = s.1)
    (hpj : Cert.Pack.mat (W16 m ρ c (Proc.devRef .tc main_v146_1) : Vec Ideal S50000x64 .f32)
      = fun i j => Cert.Spec.proj (s.2 i) ((paramsK m c).bw (2 : Fin 8)) j) :
    Keeps (W3 m ρ c) (W20 m ρ c)
      ∧ Cert.Pack.mat (W20 m ρ c (Proc.devRef .tc main_v187_0) : Vec Ideal S50000x64 .f32)
          = (Cert.Spec.layer (opsK (m ((c : Thread nD τ).loc main_arg1))) (paramsK m c) (2 : Fin 8) (3 : Fin 9) s).1
      ∧ Cert.Pack.mat (W20 m ρ c (Proc.devRef .tc main_v187_1) : Vec Ideal S50000x64 .f32)
          = fun i j => Cert.Spec.proj
              ((Cert.Spec.layer (opsK (m ((c : Thread nD τ).loc main_arg1))) (paramsK m c) (2 : Fin 8) (3 : Fin 9) s).2 i)
              ((paramsK m c).bw (3 : Fin 8)) j :=
  ⟨hst.trans (keeps m ρ c),
   layer_link (opsK (m ((c : Thread nD τ).loc main_arg1))) (paramsK m c) (2 : Fin 8) (3 : Fin 9) (3 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W16 m ρ c (Proc.devRef .tc main_v146_1) : Vec Ideal S50000x64 .f32) hpj
    (W20 m ρ c (Proc.devRef .tc main_v187_0) : Vec Ideal S50000x64 .f32) (W20 m ρ c (Proc.devRef .tc main_v187_1) : Vec Ideal S50000x64 .f32)
    (W19 m ρ c (Proc.devRef .tc main_v163) : Vec Ideal S50000x64 .f32) (W19 m ρ c (Proc.devRef .tc main_v167) : Vec Ideal S1x64 .f32) (W19 m ρ c (Proc.devRef .tc main_v168) : Vec Ideal S1x64 .f32) (W19 m ρ c (Proc.devRef .tc main_v171) : Vec Ideal S1x64 .f32)
    (W19 m ρ c (Proc.devRef .tc main_v174) : Vec Ideal S1x64 .f32) (W19 m ρ c (Proc.devRef .tc main_v146_0) : Vec Ideal S50000x64 .f32) (W19 m ρ c (Proc.devRef .tc main_v176) : Vec Ideal S64x4 .bf16) (W19 m ρ c (Proc.devRef .tc main_v179) : Vec Ideal S1x4 .f32)
    (W19 m ρ c (Proc.devRef .tc main_v181) : Vec Ideal S4x1 .bf16) (W19 m ρ c (Proc.devRef .tc main_v184) : Vec Ideal S1x1 .f32) (W19 m ρ c (Proc.devRef .tc main_v186) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link4

end Cert.KernelIdeal.KChain

end
-- ==== Proof.KHost.L5.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st5 (W : Valuation τ sig (Elt Ideal)) : Valuation τ sig (Elt Ideal) :=
  StableHlo.after hostOps5_2 (StableHlo.after hostOps5_1 (StableHlo.after hostOps5 W))

noncomputable def wr5 : List (Ref sig .tc) :=
  [main_c_28, main_v188, main_v189, main_c_29, main_v190, main_v191, main_v192, main_v193, main_v194, main_v195, main_v196, main_cst_30, main_v197, main_v198, main_v199, main_v200, main_v201, main_v202, main_v203, main_v204, main_cst_31, main_v205, main_v206, main_cst_32, main_v207, main_v208, main_c_33]
noncomputable def wr5_1 : List (Ref sig .tc) :=
  [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v209]
noncomputable def wr5_2 : List (Ref sig .tc) :=
  [main_v210, main_v211, main_v212, main_v213, main_v214, main_v215, main_v216, main_v217, main_v218, main_v219, main_v220, main_v221, main_v222, main_v223, main_v224, main_v225, main_v226, main_v227]
noncomputable def wrS5 : List (Ref sig .tc) := wr5 ++ wr5_1 ++ wr5_2

theorem keep5 (W : Valuation τ sig (Elt Ideal)) (b : Ref sig .tc) (hb : b ∉ wr5) :
    StableHlo.after hostOps5 W (Proc.devRef .tc b) = W (Proc.devRef .tc b) :=
  StableHlo.after_of_writes_sub hostOps5 W (by
    simp only [hostOps5, wr5, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep5_1 (W : Valuation τ sig (Elt Ideal)) (b : Ref sig .tc) (hb : b ∉ wr5_1) :
    StableHlo.after hostOps5_1 W (Proc.devRef .tc b) = W (Proc.devRef .tc b) :=
  StableHlo.after_of_writes_sub hostOps5_1 W (by
    simp only [hostOps5_1, wr5_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep5_2 (W : Valuation τ sig (Elt Ideal)) (b : Ref sig .tc) (hb : b ∉ wr5_2) :
    StableHlo.after hostOps5_2 W (Proc.devRef .tc b) = W (Proc.devRef .tc b) :=
  StableHlo.after_of_writes_sub hostOps5_2 W (by
    simp only [hostOps5_2, wr5_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st5_keep (W : Valuation τ sig (Elt Ideal)) (b : Ref sig .tc) (hb : b ∉ wrS5) :
    st5 W (Proc.devRef .tc b) = W (Proc.devRef .tc b) :=
  (keep5_2 _ b fun h => hb (List.mem_append_right _ h)).trans
    ((keep5_1 _ b fun h => hb (List.mem_append_left _ (List.mem_append_right _ h))).trans
      (keep5 W b fun h => hb (List.mem_append_left _ (List.mem_append_left _ h))))

theorem l5_v204 (X : Valuation τ sig (Elt Ideal)) :
    StableHlo.after hostOps5 X (Proc.devRef .tc main_v204)
      = (addf (scatK (X (Proc.devRef .tc main_v187_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![3, 0] (X (Proc.devRef .tc main_arg13)) slices_S8x64_S1x64_3_0) shapeCasts_S1x64_S64))) :
          FVec Ideal S50000x64 .f32) := by
  simp only [hostOps5]; after_results_simp; all_goals rfl

theorem l5_v208 (X : Valuation τ sig (Elt Ideal)) :
    StableHlo.after hostOps5 X (Proc.devRef .tc main_v208)
      = (Host.divf (broadcastInDim S1x64 ![1] bcast_S64_S1x64_1 (sum64K (StableHlo.after hostOps5 X (Proc.devRef .tc main_v204))))
          (broadcastInDim S1x64 ![] bcast_S_S1x64 (constant S_ .f32 0x47435000#32)) : FVec Ideal S1x64 .f32) := by
  rw [← List.take_append_drop 20 (hostOps5 (F := Ideal)), after_append]
  generalize StableHlo.after (List.take 20 hostOps5) X = Y
  simp only [hostOps5, List.drop_succ_cons, List.drop_zero]
  after_results; all_goals rfl

theorem l5_c_33 (X : Valuation τ sig (Elt Ideal)) :
    StableHlo.after hostOps5 X (Proc.devRef .tc main_c_33) = (constantI S_ 32 0#32 : IVec S_ 32) := by
  simp only [hostOps5]; after_results; all_goals rfl

theorem l5_1_v209 (X : Valuation τ sig (Elt Ideal)) (h0 : X (Proc.devRef .tc main_c_33) = (constantI S_ 32 0#32 : IVec S_ 32)) :
    StableHlo.after hostOps5_1 X (Proc.devRef .tc main_v209) = var64K (X (Proc.devRef .tc main_v204)) := by
  simp only [hostOps5_1]; after_results_simp; rw [h0]; rfl

theorem l5_2_v212 (X : Valuation τ sig (Elt Ideal)) :
    StableHlo.after hostOps5_2 X (Proc.devRef .tc main_v212)
      = (shapeCast S1x64 (shapeCast S64 (extractStridedSlice S1x64 ![3, 0] (X (Proc.devRef .tc main_arg14)) slices_S8x64_S1x64_3_0) shapeCasts_S1x64_S64) shapeCasts_S64_S1x64 :
          FVec Ideal S1x64 .f32) := by
  simp only [hostOps5_2]; after_results; all_goals rfl

theorem l5_2_v215 (X : Valuation τ sig (Elt Ideal)) :
    StableHlo.after hostOps5_2 X (Proc.devRef .tc main_v215)
      = (shapeCast S1x64 (shapeCast S64 (extractStridedSlice S1x64 ![3, 0] (X (Proc.devRef .tc main_arg15)) slices_S8x64_S1x64_3_0) shapeCasts_S1x64_S64) shapeCasts_S64_S1x64 :
          FVec Ideal S1x64 .f32) := by
  simp only [hostOps5_2]; after_results; all_goals rfl

theorem l5_2_v217 (X : Valuation τ sig (Elt Ideal)) :
    StableHlo.after hostOps5_2 X (Proc.devRef .tc main_v217)
      = (shapeCast S64x4 (extractStridedSlice S1x64x4 ![4, 0, 0] (X (Proc.devRef .tc main_v38)) slices_S9x64x4_S1x64x4_4_0_0) shapeCasts_S1x64x4_S64x4 :
          FVec Ideal S64x4 .bf16) := by
  simp only [hostOps5_2]; after_results; all_goals rfl

theorem l5_2_v220 (X : Valuation τ sig (Elt Ideal)) :
    StableHlo.after hostOps5_2 X (Proc.devRef .tc main_v220)
      = (shapeCast S1x4 (shapeCast S4 (extractStridedSlice S1x4 ![4, 0] (X (Proc.devRef .tc main_arg9)) slices_S9x4_S1x4_4_0) shapeCasts_S1x4_S4) shapeCasts_S4_S1x4 :
          FVec Ideal S1x4 .f32) := by
  simp only [hostOps5_2]; after_results; all_goals rfl

theorem l5_2_v222 (X : Valuation τ sig (Elt Ideal)) :
    StableHlo.after hostOps5_2 X (Proc.devRef .tc main_v222)
      = (shapeCast S4x1 (extractStridedSlice S1x4x1 ![4, 0, 0] (X (Proc.devRef .tc main_v39)) slices_S9x4x1_S1x4x1_4_0_0) shapeCasts_S1x4x1_S4x1 :
          FVec Ideal S4x1 .bf16) := by
  simp only [hostOps5_2]; after_results; all_goals rfl

theorem l5_2_v225 (X : Valuation τ sig (Elt Ideal)) :
    StableHlo.after hostOps5_2 X (Proc.devRef .tc main_v225)
      = (shapeCast S1x1 (shapeCast S1 (extractStridedSlice S1x1 ![4, 0] (X (Proc.devRef .tc main_arg11)) slices_S9x1_S1x1_4_0) shapeCasts_S1x1_S1) shapeCasts_S1_S1x1 :
          FVec Ideal S1x1 .f32) := by
  simp only [hostOps5_2]; after_results; all_goals rfl

theorem l5_2_v227 (X : Valuation τ sig (Elt Ideal)) :
    StableHlo.after hostOps5_2 X (Proc.devRef .tc main_v227)
      = (shapeCast S64x64 (extractStridedSlice S1x64x64 ![4, 0, 0] (X (Proc.devRef .tc main_v37)) slices_S8x64x64_S1x64x64_4_0_0) shapeCasts_S1x64x64_S64x64 :
          FVec Ideal S64x64 .bf16) := by
  simp only [hostOps5_2]; after_results; all_goals rfl

theorem st5_v204 (W : Valuation τ sig (Elt Ideal)) (i : Fin 50000) (j : Fin 64) :
    (st5 W (Proc.devRef .tc main_v204) : S50000x64.Idx → EReal) (ix2 i j)
      = scatK (W (Proc.devRef .tc main_v187_1)) (W (Proc.devRef .tc main_v3)) (W (Proc.devRef .tc main_v32)) (W (Proc.devRef .tc main_v6)) (ix2 i j)
        + (W (Proc.devRef .tc main_arg13) : S8x64.Idx → EReal) (ix2 3 j) := by
  have e : (st5 W (Proc.devRef .tc main_v204) : S50000x64.Idx → EReal)
      = addf (scatK (W (Proc.devRef .tc main_v187_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![3, 0] (W (Proc.devRef .tc main_arg13) : S8x64.Idx → EReal) slices_S8x64_S1x64_3_0) shapeCasts_S1x64_S64))) := by
    show StableHlo.after hostOps5_2 (StableHlo.after hostOps5_1 (StableHlo.after hostOps5 W)) (Proc.devRef .tc main_v204) = _
    rw [keep5_2 _ main_v204 (by decide), keep5_1 _ main_v204 (by decide), l5_v204]
  rw [e, addf_apply, bcast_1b_ab, bcast_b_1b]
  exact congrArg (_ + ·) ((shapeCast_1a_a_apply _ _ j).trans (stack2_row (3 : Fin 8) _ _ 0 j))

theorem st5_v208 (W : Valuation τ sig (Elt Ideal)) (u : Fin 1) (j : Fin 64) :
    (st5 W (Proc.devRef .tc main_v208) : S1x64.Idx → EReal) (ix2 u j)
      = Cert.Spec.meanOf (sum64K (st5 W (Proc.devRef .tc main_v204)) (ix1 j)) := by
  have e : (st5 W (Proc.devRef .tc main_v208) : S1x64.Idx → EReal)
      = Host.divf (broadcastInDim S1x64 ![1] bcast_S64_S1x64_1 (sum64K (st5 W (Proc.devRef .tc main_v204))))
          (broadcastInDim S1x64 ![] bcast_S_S1x64 (constant S_ .f32 0x47435000#32)) := by
    show StableHlo.after hostOps5_2 (StableHlo.after hostOps5_1 (StableHlo.after hostOps5 W)) (Proc.devRef .tc main_v208)
      = Host.divf (broadcastInDim S1x64 ![1] bcast_S64_S1x64_1 (sum64K (StableHlo.after hostOps5_2 (StableHlo.after hostOps5_1 (StableHlo.after hostOps5 W)) (Proc.devRef .tc main_v204))))
          (broadcastInDim S1x64 ![] bcast_S_S1x64 (constant S_ .f32 0x47435000#32))
    rw [keep5_2 _ main_v208 (by decide), keep5_1 _ main_v208 (by decide), keep5_2 _ main_v204 (by decide),
      keep5_1 _ main_v204 (by decide), l5_v208]
  rw [e]
  show Ideal.div (broadcastInDim S1x64 ![1] bcast_S64_S1x64_1 (sum64K (st5 W (Proc.devRef .tc main_v204))) (ix2 u j))
      (Ideal.ofBits .f32 0x47435000#32) = _
  rw [bcast_b_1b]
  rfl

theorem st5_v209 (W : Valuation τ sig (Elt Ideal)) :
    st5 W (Proc.devRef .tc main_v209) = var64K (st5 W (Proc.devRef .tc main_v204)) := by
  show StableHlo.after hostOps5_2 (StableHlo.after hostOps5_1 (StableHlo.after hostOps5 W)) (Proc.devRef .tc main_v209) = var64K (StableHlo.after hostOps5_2 (StableHlo.after hostOps5_1 (StableHlo.after hostOps5 W)) (Proc.devRef .tc main_v204))
  rw [keep5_2 _ main_v209 (by decide), keep5_2 _ main_v204 (by decide), keep5_1 _ main_v204 (by decide),
    l5_1_v209 _ (l5_c_33 W)]

theorem st5_v212 (W : Valuation τ sig (Elt Ideal)) (u : Fin 1) (j : Fin 64) :
    (st5 W (Proc.devRef .tc main_v212) : S1x64.Idx → EReal) (ix2 u j) = (W (Proc.devRef .tc main_arg14) : S8x64.Idx → EReal) (ix2 3 j) := by
  have e : (st5 W (Proc.devRef .tc main_v212) : S1x64.Idx → EReal)
      = shapeCast S1x64 (shapeCast S64 (extractStridedSlice S1x64 ![3, 0] (W (Proc.devRef .tc main_arg14) : S8x64.Idx → EReal) slices_S8x64_S1x64_3_0) shapeCasts_S1x64_S64) shapeCasts_S64_S1x64 := by
    show StableHlo.after hostOps5_2 (StableHlo.after hostOps5_1 (StableHlo.after hostOps5 W)) (Proc.devRef .tc main_v212) = _
    rw [l5_2_v212, keep5_1 _ main_arg14 (by decide), keep5 _ main_arg14 (by decide)]
  rw [e]
  exact (row_roundtrip _ _ _ u j).trans (stack2_row (3 : Fin 8) _ _ 0 j)

theorem st5_v215 (W : Valuation τ sig (Elt Ideal)) (u : Fin 1) (j : Fin 64) :
    (st5 W (Proc.devRef .tc main_v215) : S1x64.Idx → EReal) (ix2 u j) = (W (Proc.devRef .tc main_arg15) : S8x64.Idx → EReal) (ix2 3 j) := by
  have e : (st5 W (Proc.devRef .tc main_v215) : S1x64.Idx → EReal)
      = shapeCast S1x64 (shapeCast S64 (extractStridedSlice S1x64 ![3, 0] (W (Proc.devRef .tc main_arg15) : S8x64.Idx → EReal) slices_S8x64_S1x64_3_0) shapeCasts_S1x64_S64) shapeCasts_S64_S1x64 := by
    show StableHlo.after hostOps5_2 (StableHlo.after hostOps5_1 (StableHlo.after hostOps5 W)) (Proc.devRef .tc main_v215) = _
    rw [l5_2_v215, keep5_1 _ main_arg15 (by decide), keep5 _ main_arg15 (by decide)]
  rw [e]
  exact (row_roundtrip _ _ _ u j).trans (stack2_row (3 : Fin 8) _ _ 0 j)

theorem st5_v217 (W : Valuation τ sig (Elt Ideal)) (k : Fin 64) (a : Fin 4) :
    (st5 W (Proc.devRef .tc main_v217) : S64x4.Idx → EReal) (ix2 k a) = (W (Proc.devRef .tc main_v38) : S9x64x4.Idx → EReal) (ix3 4 k a) := by
  have e : (st5 W (Proc.devRef .tc main_v217) : S64x4.Idx → EReal)
      = shapeCast S64x4 (extractStridedSlice S1x64x4 ![4, 0, 0] (W (Proc.devRef .tc main_v38) : S9x64x4.Idx → EReal) slices_S9x64x4_S1x64x4_4_0_0) shapeCasts_S1x64x4_S64x4 := by
    show StableHlo.after hostOps5_2 (StableHlo.after hostOps5_1 (StableHlo.after hostOps5 W)) (Proc.devRef .tc main_v217) = _
    rw [l5_2_v217, keep5_1 _ main_v38 (by decide), keep5 _ main_v38 (by decide)]
  rw [e]
  exact stack3_entry (4 : Fin 9) _ _ _ k a

theorem st5_v220 (W : Valuation τ sig (Elt Ideal)) (u : Fin 1) (a : Fin 4) :
    (st5 W (Proc.devRef .tc main_v220) : S1x4.Idx → EReal) (ix2 u a) = (W (Proc.devRef .tc main_arg9) : S9x4.Idx → EReal) (ix2 4 a) := by
  have e : (st5 W (Proc.devRef .tc main_v220) : S1x4.Idx → EReal)
      = shapeCast S1x4 (shapeCast S4 (extractStridedSlice S1x4 ![4, 0] (W (Proc.devRef .tc main_arg9) : S9x4.Idx → EReal) slices_S9x4_S1x4_4_0) shapeCasts_S1x4_S4) shapeCasts_S4_S1x4 := by
    show StableHlo.after hostOps5_2 (StableHlo.after hostOps5_1 (StableHlo.after hostOps5 W)) (Proc.devRef .tc main_v220) = _
    rw [l5_2_v220, keep5_1 _ main_arg9 (by decide), keep5 _ main_arg9 (by decide)]
  rw [e]
  exact (row_roundtrip _ _ _ u a).trans (stack2_row (4 : Fin 9) _ _ 0 a)

theorem st5_v222 (W : Valuation τ sig (Elt Ideal)) (a : Fin 4) (q : Fin 1) :
    (st5 W (Proc.devRef .tc main_v222) : S4x1.Idx → EReal) (ix2 a q) = (W (Proc.devRef .tc main_v39) : S9x4x1.Idx → EReal) (ix3 4 a q) := by
  have e : (st5 W (Proc.devRef .tc main_v222) : S4x1.Idx → EReal)
      = shapeCast S4x1 (extractStridedSlice S1x4x1 ![4, 0, 0] (W (Proc.devRef .tc main_v39) : S9x4x1.Idx → EReal) slices_S9x4x1_S1x4x1_4_0_0) shapeCasts_S1x4x1_S4x1 := by
    show StableHlo.after hostOps5_2 (StableHlo.after hostOps5_1 (StableHlo.after hostOps5 W)) (Proc.devRef .tc main_v222) = _
    rw [l5_2_v222, keep5_1 _ main_v39 (by decide), keep5 _ main_v39 (by decide)]
  rw [e]
  exact stack3_entry (4 : Fin 9) _ _ _ a q

theorem st5_v225 (W : Valuation τ sig (Elt Ideal)) (u : Fin 1) (q : Fin 1) :
    (st5 W (Proc.devRef .tc main_v225) : S1x1.Idx → EReal) (ix2 u q) = (W (Proc.devRef .tc main_arg11) : S9x1.Idx → EReal) (ix2 4 q) := by
  have e : (st5 W (Proc.devRef .tc main_v225) : S1x1.Idx → EReal)
      = shapeCast S1x1 (shapeCast S1 (extractStridedSlice S1x1 ![4, 0] (W (Proc.devRef .tc main_arg11) : S9x1.Idx → EReal) slices_S9x1_S1x1_4_0) shapeCasts_S1x1_S1) shapeCasts_S1_S1x1 := by
    show StableHlo.after hostOps5_2 (StableHlo.after hostOps5_1 (StableHlo.after hostOps5 W)) (Proc.devRef .tc main_v225) = _
    rw [l5_2_v225, keep5_1 _ main_arg11 (by decide), keep5 _ main_arg11 (by decide)]
  rw [e]
  exact (row_roundtrip _ _ _ u q).trans (stack2_row (4 : Fin 9) _ _ 0 q)

theorem st5_v227 (W : Valuation τ sig (Elt Ideal)) (k : Fin 64) (j : Fin 64) :
    (st5 W (Proc.devRef .tc main_v227) : S64x64.Idx → EReal) (ix2 k j) = (W (Proc.devRef .tc main_v37) : S8x64x64.Idx → EReal) (ix3 4 k j) := by
  have e : (st5 W (Proc.devRef .tc main_v227) : S64x64.Idx → EReal)
      = shapeCast S64x64 (extractStridedSlice S1x64x64 ![4, 0, 0] (W (Proc.devRef .tc main_v37) : S8x64x64.Idx → EReal) slices_S8x64x64_S1x64x64_4_0_0) shapeCasts_S1x64x64_S64x64 := by
    show StableHlo.after hostOps5_2 (StableHlo.after hostOps5_1 (StableHlo.after hostOps5 W)) (Proc.devRef .tc main_v227) = _
    rw [l5_2_v227, keep5_1 _ main_v37 (by decide), keep5 _ main_v37 (by decide)]
  rw [e]
  exact stack3_entry (4 : Fin 8) _ _ _ k j

end Cert.KernelIdeal.KHost

end
-- ==== Proof.KReg5.lean ====
import proofs.«428538_j32280974197073_1_alg».proof.Proof.KReg2

noncomputable section

namespace Cert.KernelIdeal.KReg5

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hz fusedArr projArr store11 store12)

/-! ## The region -/

theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_11.index t (0 : Fin 2) = t.val ∧ win5_11.index t (1 : Fin 2) = 0
    ∧ win5_12.index t (0 : Fin 2) = t.val ∧ win5_12.index t (1 : Fin 2) = 0 :=
  (by decide +kernel : ∀ t : Fin grid5.N, _)

theorem idx_facts_res : ∀ t : Fin cfg5.N,
    win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0 :=
  (by decide +kernel : ∀ t : Fin grid5.N, _)

def rowOf (t : Fin cfg5.N) (p : Fin 2000) : Fin 50000 :=
  ⟨t.val * 2000 + p.val, by have h : cfg5.N = 25 := N_5; have := t.isLt; have := p.isLt; omega⟩

theorem read0 (t : Fin cfg5.N) (A : Vec Ideal S50000x64 .f32) (p : Fin 2000) (k : Fin 64) :
    (((cfg5.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win5_0.index t (0 : Fin 2) * 2000 + 1 * p.val = t.val * 2000 + p.val; rw [e0a]; omega
  | ⟨1, _⟩ => show win5_0.index t (1 : Fin 2) * 64 + 1 * k.val = k.val; rw [e0b]; omega

theorem read5 (t : Fin cfg5.N) (A : Vec Ideal S50000x64 .f32) (p : Fin 2000) (k : Fin 64) :
    (((cfg5.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win5_5.index t (0 : Fin 2) * 2000 + 1 * p.val = t.val * 2000 + p.val; rw [e0a]; omega
  | ⟨1, _⟩ => show win5_5.index t (1 : Fin 2) * 64 + 1 * k.val = k.val; rw [e0b]; omega

theorem read11 (t : Fin cfg5.N) (A : Vec Ideal S50000x64 .f32) (p : Fin 2000) (k : Fin 64) :
    (((cfg5.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win5_11.index t (0 : Fin 2) * 2000 + 1 * p.val = t.val * 2000 + p.val; rw [e0a]; omega
  | ⟨1, _⟩ => show win5_11.index t (1 : Fin 2) * 64 + 1 * k.val = k.val; rw [e0b]; omega

theorem read12 (t : Fin cfg5.N) (A : Vec Ideal S50000x64 .f32) (p : Fin 2000) (k : Fin 64) :
    (((cfg5.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win5_12.index t (0 : Fin 2) * 2000 + 1 * p.val = t.val * 2000 + p.val; rw [e0a]; omega
  | ⟨1, _⟩ => show win5_12.index t (1 : Fin 2) * 64 + 1 * k.val = k.val; rw [e0b]; omega

theorem read1 (t : Fin cfg5.N) (A : Vec Ideal S1x64 .f32) : ((cfg5.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_1.index t (0 : Fin 2) * 1 + 1 * (y 0).val = (y 0).val; rw [e1a]; omega
  | ⟨1, _⟩ => show win5_1.index t (1 : Fin 2) * 64 + 1 * (y 1).val = (y 1).val; rw [e1b]; omega

theorem read2 (t : Fin cfg5.N) (A : Vec Ideal S1x64 .f32) : ((cfg5.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_2.index t (0 : Fin 2) * 1 + 1 * (y 0).val = (y 0).val; rw [e2a]; omega
  | ⟨1, _⟩ => show win5_2.index t (1 : Fin 2) * 64 + 1 * (y 1).val = (y 1).val; rw [e2b]; omega

theorem read3 (t : Fin cfg5.N) (A : Vec Ideal S1x64 .f32) : ((cfg5.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_3.index t (0 : Fin 2) * 1 + 1 * (y 0).val = (y 0).val; rw [e3a]; omega
  | ⟨1, _⟩ => show win5_3.index t (1 : Fin 2) * 64 + 1 * (y 1).val = (y 1).val; rw [e3b]; omega

theorem read4 (t : Fin cfg5.N) (A : Vec Ideal S1x64 .f32) : ((cfg5.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_4.index t (0 : Fin 2) * 1 + 1 * (y 0).val = (y 0).val; rw [e4a]; omega
  | ⟨1, _⟩ => show win5_4.index t (1 : Fin 2) * 64 + 1 * (y 1).val = (y 1).val; rw [e4b]; omega

theorem read6 (t : Fin cfg5.N) (A : Vec Ideal S64x4 .bf16) : ((cfg5.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_6.index t (0 : Fin 2) * 64 + 1 * (y 0).val = (y 0).val; rw [e6a]; omega
  | ⟨1, _⟩ => show win5_6.index t (1 : Fin 2) * 4 + 1 * (y 1).val = (y 1).val; rw [e6b]; omega

theorem read7 (t : Fin cfg5.N) (A : Vec Ideal S1x4 .f32) : ((cfg5.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_7.index t (0 : Fin 2) * 1 + 1 * (y 0).val = (y 0).val; rw [e7a]; omega
  | ⟨1, _⟩ => show win5_7.index t (1 : Fin 2) * 4 + 1 * (y 1).val = (y 1).val; rw [e7b]; omega

theorem read8 (t : Fin cfg5.N) (A : Vec Ideal S4x1 .bf16) : ((cfg5.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_8.index t (0 : Fin 2) * 4 + 1 * (y 0).val = (y 0).val; rw [e8a]; omega
  | ⟨1, _⟩ => show win5_8.index t (1 : Fin 2) * 1 + 1 * (y 1).val = (y 1).val; rw [e8b]; omega

theorem read9 (t : Fin cfg5.N) (A : Vec Ideal S1x1 .f32) : ((cfg5.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_9.index t (0 : Fin 2) * 1 + 1 * (y 0).val = (y 0).val; rw [e9a]; omega
  | ⟨1, _⟩ => show win5_9.index t (1 : Fin 2) * 1 + 1 * (y 1).val = (y 1).val; rw [e9b]; omega

theorem read10 (t : Fin cfg5.N) (A : Vec Ideal S64x64 .bf16) : ((cfg5.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win5_10.index t (0 : Fin 2) * 64 + 1 * (y 0).val = (y 0).val; rw [e10a]; omega
  | ⟨1, _⟩ => show win5_10.index t (1 : Fin 2) * 64 + 1 * (y 1).val = (y 1).val; rw [e10b]; omega

theorem mem_blk11 (t : Fin cfg5.N) (i : S50000x64.Idx) :
    i ∈ ((cfg5.win 11).blk t).view.set ↔ ∀ a : Fin 2, win5_11.index t a * S2000x64.size a ≤ (i a).val ∧ (i a).val < win5_11.index t a * S2000x64.size a + S2000x64.size a := by
  show i ∈ ((View.whole main_v228_0).slice (win5_11.rect t)).set ↔ _
  rw [View.set_slice_whole, Rect.mem_set_unit]
  exact Iff.rfl
theorem mem_blk12 (t : Fin cfg5.N) (i : S50000x64.Idx) :
    i ∈ ((cfg5.win 12).blk t).view.set ↔ ∀ a : Fin 2, win5_12.index t a * S2000x64.size a ≤ (i a).val ∧ (i a).val < win5_12.index t a * S2000x64.size a + S2000x64.size a := by
  show i ∈ ((View.whole main_v228_1).slice (win5_12.rect t)).set ↔ _
  rw [View.set_slice_whole, Rect.mem_set_unit]
  exact Iff.rfl

def pointOf (i : S50000x64.Idx) : Fin cfg5.N :=
  ⟨(i 0).val / 2000, by have h : cfg5.N = 25 := N_5; have : (i 0).val < 50000 := (i 0).isLt; omega⟩

theorem cover11 (i : S50000x64.Idx) : ∃ t : Fin cfg5.N, (cfg5.win 11).flush t = true ∧ i ∈ ((cfg5.win 11).blk t).view.set := by
  refine ⟨pointOf i, flush5_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win5_11.index (pointOf i) (0 : Fin 2) * 2000 ≤ (i 0).val ∧ (i 0).val < win5_11.index (pointOf i) (0 : Fin 2) * 2000 + 2000; rw [e0a, hp]; omega
  | ⟨1, _⟩ => show win5_11.index (pointOf i) (1 : Fin 2) * 64 ≤ (i 1).val ∧ (i 1).val < win5_11.index (pointOf i) (1 : Fin 2) * 64 + 64; rw [e0b]; omega

theorem cover12 (i : S50000x64.Idx) : ∃ t : Fin cfg5.N, (cfg5.win 12).flush t = true ∧ i ∈ ((cfg5.win 12).blk t).view.set := by
  refine ⟨pointOf i, flush5_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win5_12.index (pointOf i) (0 : Fin 2) * 2000 ≤ (i 0).val ∧ (i 0).val < win5_12.index (pointOf i) (0 : Fin 2) * 2000 + 2000; rw [e0a, hp]; omega
  | ⟨1, _⟩ => show win5_12.index (pointOf i) (1 : Fin 2) * 64 ≤ (i 1).val ∧ (i 1).val < win5_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v204
abbrev meanIn (c : Dev nD) : Vec Ideal S1x64 .f32 := V c main_v208
abbrev varIn (c : Dev nD) : Vec Ideal S1x64 .f32 := V c main_v209
abbrev gammaIn (c : Dev nD) : Vec Ideal S1x64 .f32 := V c main_v212
abbrev betaIn (c : Dev nD) : Vec Ideal S1x64 .f32 := V c main_v215
abbrev fusedIn (c : Dev nD) : Vec Ideal S50000x64 .f32 := V c main_v187_0
abbrev lw1In (c : Dev nD) : Vec Ideal S64x4 .bf16 := V c main_v217
abbrev lb1In (c : Dev nD) : Vec Ideal S1x4 .f32 := V c main_v220
abbrev lw2In (c : Dev nD) : Vec Ideal S4x1 .bf16 := V c main_v222
abbrev lb2In (c : Dev nD) : Vec Ideal S1x1 .f32 := V c main_v225
abbrev bwIn (c : Dev nD) : Vec Ideal S64x64 .bf16 := V c main_v227

theorem flushed11_eq (c : Dev nD) (t : Fin cfg5.N) :
    (dat5 (F := Ideal) V c).flushed 11 t
      = ((cfg5.win 11).blk t).view.read (Elt Ideal) (fusedArr (aggIn V c) (meanIn V c) (varIn V c) (gammaIn V c) (betaIn V c) (fusedIn V c) (lw1In V c) (lb1In V c) (lw2In V c) (lb2In V c)) := by
  show (cfg5.win 11).cut (grid5.coords t) ((dat5 (F := Ideal) V c).after 11 t) = _
  rw [after5_11]
  unfold out5_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg5.N) :
    (dat5 (F := Ideal) V c).flushed 12 t
      = ((cfg5.win 12).blk t).view.read (Elt Ideal) (projArr (aggIn V c) (meanIn V c) (varIn V c) (gammaIn V c) (betaIn V c) (fusedIn V c) (lw1In V c) (lb1In V c) (lw2In V c) (lb2In V c) (bwIn V c)) := by
  show (cfg5.win 12).cut (grid5.coords t) ((dat5 (F := Ideal) V c).after 12 t) = _
  rw [after5_12]
  unfold out5_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat5 (F := Ideal) V c).arrAt 11 cfg5.N = fusedArr (aggIn V c) (meanIn V c) (varIn V c) (gammaIn V c) (betaIn V c) (fusedIn V c) (lw1In V c) (lb1In V c) (lw2In V c) (lb2In V c) :=
  (dat5 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat5 (F := Ideal) V c).arrAt 12 cfg5.N = projArr (aggIn V c) (meanIn V c) (varIn V c) (gammaIn V c) (betaIn V c) (fusedIn V c) (lw1In V c) (lb1In V c) (lw2In V c) (lb2In V c) (bwIn V c) :=
  (dat5 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg5

end
-- ==== Proof.KChain.Link5.lean ====
/- Template: proof/Proof/KChain/Link2.lean, whole. Substitutions, all at once: Link2 -> Link5, KHost.L2 -> KHost.L5, st2_keep -> st5_keep, wrS2 -> wrS5,
   st2_v<n> -> st5_v<n + 123>, Proof.KReg2 -> Proof.KReg5, KReg2.final -> KReg5.final, spec2 -> spec5, main_v<n> -> main_v<n + 123> for n >= 64,
   W<n> and V<n> -> W<n + 12> and V<n + 12> for n >= 8, (0 : Fin 8) -> (3 : Fin 8), (1 : Fin 9) -> (4 : Fin 9), (1 : Fin 8) -> (4 : Fin 8),
   and the heading's layer and region numbers. -/
/-
  Backbone layer 3 (kernel region 5), linked to the specification.

  Between the previous region's exit and this region's entry the host operations aggregate the previous projection over
  the edges, add the layer's bias, take the aggregate's per-feature mean and variance, and slice the layer's parameters
  out of their stacks; the region then leaves the new fused state and the new projection. Read as matrices, the two
  arrays are the specification's state after the layer, given that the two arrays the previous region left are the
  specification's state before it.
-/
import proofs.«428538_j32280974197073_1_alg».proof.Proof.Gen.KernelIdeal.Frame
import proofs.«428538_j32280974197073_1_alg».proof.Proof.KHost.L5
import proofs.«428538_j32280974197073_1_alg».proof.Proof.KReg5
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link5

variable (m : (ℓ : Loc nD τ sig) → Buf (Elt Ideal) ℓ) (ρ : Dev nD → PrngReg)

/-! ## The buffers computed once are kept -/

/-- No buffer computed once before the first region is written by this stretch of host operations. -/
theorem static_nw : ∀ b ∈ staticRefs, b ∉ KHost.wrS5 := by decide

/-- None is an array of this region. -/
theorem static_ne : ∀ b ∈ staticRefs, ∀ w, Pipeline.arrRef spec5 w ≠ b := by decide

/-- So each holds at the region's exit what it held at the previous region's exit. -/
theorem keeps (c : Dev nD) : Keeps (W20 m ρ c) (W24 m ρ c) := fun b hb =>
  (W24_of_ne m ρ c b (static_ne b hb)).trans (KHost.st5_keep (W20 m ρ c) b (static_nw b hb))

/-! ## The region's exit arrays as functions of its entry arrays -/

/-- The new fused state the region leaves, as a function of the arrays it was entered with. -/
theorem exit_fused (c : Dev nD) :
    (W24 m ρ c (Proc.devRef .tc main_v228_0) : Vec Ideal S50000x64 .f32)
      = KReg2.fusedArr
          (W23 m ρ c (Proc.devRef .tc main_v204) : Vec Ideal S50000x64 .f32)
          (W23 m ρ c (Proc.devRef .tc main_v208) : Vec Ideal S1x64 .f32)
          (W23 m ρ c (Proc.devRef .tc main_v209) : Vec Ideal S1x64 .f32)
          (W23 m ρ c (Proc.devRef .tc main_v212) : Vec Ideal S1x64 .f32)
          (W23 m ρ c (Proc.devRef .tc main_v215) : Vec Ideal S1x64 .f32)
          (W23 m ρ c (Proc.devRef .tc main_v187_0) : Vec Ideal S50000x64 .f32)
          (W23 m ρ c (Proc.devRef .tc main_v217) : Vec Ideal S64x4 .bf16)
          (W23 m ρ c (Proc.devRef .tc main_v220) : Vec Ideal S1x4 .f32)
          (W23 m ρ c (Proc.devRef .tc main_v222) : Vec Ideal S4x1 .bf16)
          (W23 m ρ c (Proc.devRef .tc main_v225) : Vec Ideal S1x1 .f32) :=
  (W24_arr m ρ c 11).trans (KReg5.final11 (V23 m ρ) c)

/-- The new projection the region leaves, as a function of the arrays it was entered with. -/
theorem exit_proj (c : Dev nD) :
    (W24 m ρ c (Proc.devRef .tc main_v228_1) : Vec Ideal S50000x64 .f32)
      = KReg2.projArr
          (W23 m ρ c (Proc.devRef .tc main_v204) : Vec Ideal S50000x64 .f32)
          (W23 m ρ c (Proc.devRef .tc main_v208) : Vec Ideal S1x64 .f32)
          (W23 m ρ c (Proc.devRef .tc main_v209) : Vec Ideal S1x64 .f32)
          (W23 m ρ c (Proc.devRef .tc main_v212) : Vec Ideal S1x64 .f32)
          (W23 m ρ c (Proc.devRef .tc main_v215) : Vec Ideal S1x64 .f32)
          (W23 m ρ c (Proc.devRef .tc main_v187_0) : Vec Ideal S50000x64 .f32)
          (W23 m ρ c (Proc.devRef .tc main_v217) : Vec Ideal S64x4 .bf16)
          (W23 m ρ c (Proc.devRef .tc main_v220) : Vec Ideal S1x4 .f32)
          (W23 m ρ c (Proc.devRef .tc main_v222) : Vec Ideal S4x1 .bf16)
          (W23 m ρ c (Proc.devRef .tc main_v225) : Vec Ideal S1x1 .f32)
          (W23 m ρ c (Proc.devRef .tc main_v227) : Vec Ideal S64x64 .bf16) :=
  (W24_arr m ρ c 12).trans (KReg5.final12 (V23 m ρ) c)

/-! ## The region's entry arrays, from the previous region's exit -/

/-- The aggregate: the edge aggregation of the previous projection, plus the layer's bias. -/
theorem e_agg (c : Dev nD) (hst : Keeps (W3 m ρ c) (W20 m ρ c)) (i : Fin 50000) (j : Fin 64) :
    (W23 m ρ c (Proc.devRef .tc main_v204) : Vec Ideal S50000x64 .f32) (ix2 i j)
      = KHost.scatK (W20 m ρ c (Proc.devRef .tc main_v187_1)) (KHost.srcOf (m ((c : Thread nD τ).loc main_arg1))) (KHost.enormOf (m ((c : Thread nD τ).loc main_arg1))) (KHost.dstOf (m ((c : Thread nD τ).loc main_arg1))) (ix2 i j)
        + (paramsK m c).bb (3 : Fin 8) j := by
  have h := KHost.st5_v204 (W20 m ρ c) i j
  rw [st_src hst, st_enorm hst, st_dst hst, st_arg13 hst] at h
  exact h

/-- The mean's row: the aggregate's per-feature sum over the number of nodes. -/
theorem e_mean (c : Dev nD) (k : Fin 64) :
    (W23 m ρ c (Proc.devRef .tc main_v208) : Vec Ideal S1x64 .f32) (ix2 (0 : Fin 1) k) = Cert.Spec.meanOf (KHost.sum64K (W23 m ρ c (Proc.devRef .tc main_v204) : Vec Ideal S50000x64 .f32) (ix1 k)) :=
  KHost.st5_v208 (W20 m ρ c) 0 k

/-- The variance's row: the aggregate's per-feature variance. -/
theorem e_var (c : Dev nD) (k : Fin 64) :
    (W23 m ρ c (Proc.devRef .tc main_v209) : Vec Ideal S1x64 .f32) (ix2 (0 : Fin 1) k) = KHost.var64K (W23 m ρ c (Proc.devRef .tc main_v204) : Vec Ideal S50000x64 .f32) (ix2 (0 : Fin 1) k) :=
  congrFun (KHost.st5_v209 (W20 m ρ c)) (ix2 (0 : Fin 1) k)

/-- The scale's row: the layer's row of the stacked scales. -/
theorem e_gamma (c : Dev nD) (hst : Keeps (W3 m ρ c) (W20 m ρ c)) (k : Fin 64) :
    (W23 m ρ c (Proc.devRef .tc main_v212) : Vec Ideal S1x64 .f32) (ix2 (0 : Fin 1) k) = (paramsK m c).bg (3 : Fin 8) k := by
  have h := KHost.st5_v212 (W20 m ρ c) 0 k
  rw [st_arg14 hst] at h
  exact h

/-- The shift's row: the layer's row of the stacked shifts. -/
theorem e_beta (c : Dev nD) (hst : Keeps (W3 m ρ c) (W20 m ρ c)) (k : Fin 64) :
    (W23 m ρ c (Proc.devRef .tc main_v215) : Vec Ideal S1x64 .f32) (ix2 (0 : Fin 1) k) = (paramsK m c).bbe (3 : Fin 8) k := by
  have h := KHost.st5_v215 (W20 m ρ c) 0 k
  rw [st_arg15 hst] at h
  exact h

/-- The fused state is the one the previous region left. -/
theorem e_fused (c : Dev nD) : W23 m ρ c (Proc.devRef .tc main_v187_0) = W20 m ρ c (Proc.devRef .tc main_v187_0) :=
  KHost.st5_keep (W20 m ρ c) main_v187_0 (by decide)

/-- The gate's first matrix: the layer's member of the stack. -/
theorem e_lw1 (c : Dev nD) (hst : Keeps (W3 m ρ c) (W20 m ρ c)) :
    Cert.Pack.mat (W23 m ρ c (Proc.devRef .tc main_v217) : Vec Ideal S64x4 .bf16) = (paramsK m c).lw1 (4 : Fin 9) := by
  funext k a
  have h := KHost.st5_v217 (W20 m ρ c) k a
  rw [st_v38 hst] at h
  exact h

/-- The gate's first bias: the layer's row of the stack. -/
theorem e_lb1 (c : Dev nD) (hst : Keeps (W3 m ρ c) (W20 m ρ c)) (a : Fin 4) :
    (W23 m ρ c (Proc.devRef .tc main_v220) : Vec Ideal S1x4 .f32) (ix2 (0 : Fin 1) a) = (paramsK m c).lb1 (4 : Fin 9) a := by
  have h := KHost.st5_v220 (W20 m ρ c) 0 a
  rw [st_arg9 hst] at h
  exact h

/-- The gate's read-out column: the layer's member of the stack. -/
theorem e_lw2 (c : Dev nD) (hst : Keeps (W3 m ρ c) (W20 m ρ c)) (a : Fin 4) :
    (W23 m ρ c (Proc.devRef .tc main_v222) : Vec Ideal S4x1 .bf16) (ix2 a (0 : Fin 1)) = (paramsK m c).lw2 (4 : Fin 9) a := by
  have h := KHost.st5_v222 (W20 m ρ c) a 0
  rw [st_v39 hst] at h
  exact h

/-- The gate's last bias: the layer's entry of the stack. -/
theorem e_lb2 (c : Dev nD) (hst : Keeps (W3 m ρ c) (W20 m ρ c)) :
    (W23 m ρ c (Proc.devRef .tc main_v225) : Vec Ideal S1x1 .f32) (ix2 (0 : Fin 1) (0 : Fin 1)) = (paramsK m c).lb2 (4 : Fin 9) := by
  have h := KHost.st5_v225 (W20 m ρ c) 0 0
  rw [st_arg11 hst] at h
  exact h

/-- The next layer's weights: its member of the stack. -/
theorem e_bw (c : Dev nD) (hst : Keeps (W3 m ρ c) (W20 m ρ c)) :
    Cert.Pack.mat (W23 m ρ c (Proc.devRef .tc main_v227) : Vec Ideal S64x64 .bf16) = (paramsK m c).bw (4 : Fin 8) := by
  funext k j
  have h := KHost.st5_v227 (W20 m ρ c) k j
  rw [st_v37 hst] at h
  exact h

/-! ## The link -/

/-- If the two arrays the previous region left read as the specification's state before the layer, the two arrays this
    region leaves read as its state after the layer; and the buffers computed once are still what they were. -/
theorem link (c : Dev nD) (s : Cert.Spec.Mat 50000 64 × Cert.Spec.Mat 50000 64)
    (hst : Keeps (W3 m ρ c) (W20 m ρ c))
    (hfu : Cert.Pack.mat (W20 m ρ c (Proc.devRef .tc main_v187_0) : Vec Ideal S50000x64 .f32) = s.1)
    (hpj : Cert.Pack.mat (W20 m ρ c (Proc.devRef .tc main_v187_1) : Vec Ideal S50000x64 .f32)
      = fun i j => Cert.Spec.proj (s.2 i) ((paramsK m c).bw (3 : Fin 8)) j) :
    Keeps (W3 m ρ c) (W24 m ρ c)
      ∧ Cert.Pack.mat (W24 m ρ c (Proc.devRef .tc main_v228_0) : Vec Ideal S50000x64 .f32)
          = (Cert.Spec.layer (opsK (m ((c : Thread nD τ).loc main_arg1))) (paramsK m c) (3 : Fin 8) (4 : Fin 9) s).1
      ∧ Cert.Pack.mat (W24 m ρ c (Proc.devRef .tc main_v228_1) : Vec Ideal S50000x64 .f32)
          = fun i j => Cert.Spec.proj
              ((Cert.Spec.layer (opsK (m ((c : Thread nD τ).loc main_arg1))) (paramsK m c) (3 : Fin 8) (4 : Fin 9) s).2 i)
              ((paramsK m c).bw (4 : Fin 8)) j :=
  ⟨hst.trans (keeps m ρ c),
   layer_link (opsK (m ((c : Thread nD τ).loc main_arg1))) (paramsK m c) (3 : Fin 8) (4 : Fin 9) (4 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W20 m ρ c (Proc.devRef .tc main_v187_1) : Vec Ideal S50000x64 .f32) hpj
    (W24 m ρ c (Proc.devRef .tc main_v228_0) : Vec Ideal S50000x64 .f32) (W24 m ρ c (Proc.devRef .tc main_v228_1) : Vec Ideal S50000x64 .f32)
    (W23 m ρ c (Proc.devRef .tc main_v204) : Vec Ideal S50000x64 .f32) (W23 m ρ c (Proc.devRef .tc main_v208) : Vec Ideal S1x64 .f32) (W23 m ρ c (Proc.devRef .tc main_v209) : Vec Ideal S1x64 .f32) (W23 m ρ c (Proc.devRef .tc main_v212) : Vec Ideal S1x64 .f32)
    (W23 m ρ c (Proc.devRef .tc main_v215) : Vec Ideal S1x64 .f32) (W23 m ρ c (Proc.devRef .tc main_v187_0) : Vec Ideal S50000x64 .f32) (W23 m ρ c (Proc.devRef .tc main_v217) : Vec Ideal S64x4 .bf16) (W23 m ρ c (Proc.devRef .tc main_v220) : Vec Ideal S1x4 .f32)
    (W23 m ρ c (Proc.devRef .tc main_v222) : Vec Ideal S4x1 .bf16) (W23 m ρ c (Proc.devRef .tc main_v225) : Vec Ideal S1x1 .f32) (W23 m ρ c (Proc.devRef .tc main_v227) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link5

end Cert.KernelIdeal.KChain

end
-- ==== Proof.KHost.L6.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st6 (W : Valuation τ sig (Elt Ideal)) : Valuation τ sig (Elt Ideal) :=
  StableHlo.after hostOps6_2 (StableHlo.after hostOps6_1 (StableHlo.after hostOps6 W))

noncomputable def wr6 : List (Ref sig .tc) :=
  [main_c_34, main_v229, main_v230, main_c_35, main_v231, main_v232, main_v233, main_v234, main_v235, main_v236, main_v237, main_cst_36, main_v238, main_v239, main_v240, main_v241, main_v242, main_v243, main_v244, main_v245, main_cst_37, main_v246, main_v247, main_cst_38, main_v248, main_v249, main_c_39]
noncomputable def wr6_1 : List (Ref sig .tc) :=
  [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v250]
noncomputable def wr6_2 : List (Ref sig .tc) :=
  [main_v251, main_v252, main_v253, main_v254, main_v255, main_v256, main_v257, main_v258, main_v259, main_v260, main_v261, main_v262, main_v263, main_v264, main_v265, main_v266, main_v267, main_v268]
noncomputable def wrS6 : List (Ref sig .tc) := wr6 ++ wr6_1 ++ wr6_2

theorem keep6 (W : Valuation τ sig (Elt Ideal)) (b : Ref sig .tc) (hb : b ∉ wr6) :
    StableHlo.after hostOps6 W (Proc.devRef .tc b) = W (Proc.devRef .tc b) :=
  StableHlo.after_of_writes_sub hostOps6 W (by
    simp only [hostOps6, wr6, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep6_1 (W : Valuation τ sig (Elt Ideal)) (b : Ref sig .tc) (hb : b ∉ wr6_1) :
    StableHlo.after hostOps6_1 W (Proc.devRef .tc b) = W (Proc.devRef .tc b) :=
  StableHlo.after_of_writes_sub hostOps6_1 W (by
    simp only [hostOps6_1, wr6_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep6_2 (W : Valuation τ sig (Elt Ideal)) (b : Ref sig .tc) (hb : b ∉ wr6_2) :
    StableHlo.after hostOps6_2 W (Proc.devRef .tc b) = W (Proc.devRef .tc b) :=
  StableHlo.after_of_writes_sub hostOps6_2 W (by
    simp only [hostOps6_2, wr6_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st6_keep (W : Valuation τ sig (Elt Ideal)) (b : Ref sig .tc) (hb : b ∉ wrS6) :
    st6 W (Proc.devRef .tc b) = W (Proc.devRef .tc b) :=
  (keep6_2 _ b fun h => hb (List.mem_append_right _ h)).trans
    ((keep6_1 _ b fun h => hb (List.mem_append_left _ (List.mem_append_right _ h))).trans
      (keep6 W b fun h => hb (List.mem_append_left _ (List.mem_append_left _ h))))

theorem l6_v245 (X : Valuation τ sig (Elt Ideal)) :
    StableHlo.after hostOps6 X (Proc.devRef .tc main_v245)
      = (addf (scatK (X (Proc.devRef .tc main_v228_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![4, 0] (X (Proc.devRef .tc main_arg13)) slices_S8x64_S1x64_4_0) shapeCasts_S1x64_S64))) :
          FVec Ideal S50000x64 .f32) := by
  simp only [hostOps6]; after_results_simp; all_goals rfl

theorem l6_v249 (X : Valuation τ sig (Elt Ideal)) :
    StableHlo.after hostOps6 X (Proc.devRef .tc main_v249)
      = (Host.divf (broadcastInDim S1x64 ![1] bcast_S64_S1x64_1 (sum64K (StableHlo.after hostOps6 X (Proc.devRef .tc main_v245))))
          (broadcastInDim S1x64 ![] bcast_S_S1x64 (constant S_ .f32 0x47435000#32)) : FVec Ideal S1x64 .f32) := by
  rw [← List.take_append_drop 20 (hostOps6 (F := Ideal)), after_append]
  generalize StableHlo.after (List.take 20 hostOps6) X = Y
  simp only [hostOps6, List.drop_succ_cons, List.drop_zero]
  after_results; all_goals rfl

theorem l6_c_39 (X : Valuation τ sig (Elt Ideal)) :
    StableHlo.after hostOps6 X (Proc.devRef .tc main_c_39) = (constantI S_ 32 0#32 : IVec S_ 32) := by
  simp only [hostOps6]; after_results; all_goals rfl

theorem l6_1_v250 (X : Valuation τ sig (Elt Ideal)) (h0 : X (Proc.devRef .tc main_c_39) = (constantI S_ 32 0#32 : IVec S_ 32)) :
    StableHlo.after hostOps6_1 X (Proc.devRef .tc main_v250) = var64K (X (Proc.devRef .tc main_v245)) := by
  simp only [hostOps6_1]; after_results_simp; rw [h0]; rfl

theorem l6_2_v253 (X : Valuation τ sig (Elt Ideal)) :
    StableHlo.after hostOps6_2 X (Proc.devRef .tc main_v253)
      = (shapeCast S1x64 (shapeCast S64 (extractStridedSlice S1x64 ![4, 0] (X (Proc.devRef .tc main_arg14)) slices_S8x64_S1x64_4_0) shapeCasts_S1x64_S64) shapeCasts_S64_S1x64 :
          FVec Ideal S1x64 .f32) := by
  simp only [hostOps6_2]; after_results; all_goals rfl

theorem l6_2_v256 (X : Valuation τ sig (Elt Ideal)) :
    StableHlo.after hostOps6_2 X (Proc.devRef .tc main_v256)
      = (shapeCast S1x64 (shapeCast S64 (extractStridedSlice S1x64 ![4, 0] (X (Proc.devRef .tc main_arg15)) slices_S8x64_S1x64_4_0) shapeCasts_S1x64_S64) shapeCasts_S64_S1x64 :
          FVec Ideal S1x64 .f32) := by
  simp only [hostOps6_2]; after_results; all_goals rfl

theorem l6_2_v258 (X : Valuation τ sig (Elt Ideal)) :
    StableHlo.after hostOps6_2 X (Proc.devRef .tc main_v258)
      = (shapeCast S64x4 (extractStridedSlice S1x64x4 ![5, 0, 0] (X (Proc.devRef .tc main_v38)) slices_S9x64x4_S1x64x4_5_0_0) shapeCasts_S1x64x4_S64x4 :
          FVec Ideal S64x4 .bf16) := by
  simp only [hostOps6_2]; after_results; all_goals rfl

theorem l6_2_v261 (X : Valuation τ sig (Elt Ideal)) :
    StableHlo.after hostOps6_2 X (Proc.devRef .tc main_v261)
      = (shapeCast S1x4 (shapeCast S4 (extractStridedSlice S1x4 ![5, 0] (X (Proc.devRef .tc main_arg9)) slices_S9x4_S1x4_5_0) shapeCasts_S1x4_S4) shapeCasts_S4_S1x4 :
          FVec Ideal S1x4 .f32) := by
  simp only [hostOps6_2]; after_results; all_goals rfl

theorem l6_2_v263 (X : Valuation τ sig (Elt Ideal)) :
    StableHlo.after hostOps6_2 X (Proc.devRef .tc main_v263)
      = (shapeCast S4x1 (extractStridedSlice S1x4x1 ![5, 0, 0] (X (Proc.devRef .tc main_v39)) slices_S9x4x1_S1x4x1_5_0_0) shapeCasts_S1x4x1_S4x1 :
          FVec Ideal S4x1 .bf16) := by
  simp only [hostOps6_2]; after_results; all_goals rfl

theorem l6_2_v266 (X : Valuation τ sig (Elt Ideal)) :
    StableHlo.after hostOps6_2 X (Proc.devRef .tc main_v266)
      = (shapeCast S1x1 (shapeCast S1 (extractStridedSlice S1x1 ![5, 0] (X (Proc.devRef .tc main_arg11)) slices_S9x1_S1x1_5_0) shapeCasts_S1x1_S1) shapeCasts_S1_S1x1 :
          FVec Ideal S1x1 .f32) := by
  simp only [hostOps6_2]; after_results; all_goals rfl

theorem l6_2_v268 (X : Valuation τ sig (Elt Ideal)) :
    StableHlo.after hostOps6_2 X (Proc.devRef .tc main_v268)
      = (shapeCast S64x64 (extractStridedSlice S1x64x64 ![5, 0, 0] (X (Proc.devRef .tc main_v37)) slices_S8x64x64_S1x64x64_5_0_0) shapeCasts_S1x64x64_S64x64 :
          FVec Ideal S64x64 .bf16) := by
  simp only [hostOps6_2]; after_results; all_goals rfl

theorem st6_v245 (W : Valuation τ sig (Elt Ideal)) (i : Fin 50000) (j : Fin 64) :
    (st6 W (Proc.devRef .tc main_v245) : S50000x64.Idx → EReal) (ix2 i j)
      = scatK (W (Proc.devRef .tc main_v228_1)) (W (Proc.devRef .tc main_v3)) (W (Proc.devRef .tc main_v32)) (W (Proc.devRef .tc main_v6)) (ix2 i j)
        + (W (Proc.devRef .tc main_arg13) : S8x64.Idx → EReal) (ix2 4 j) := by
  have e : (st6 W (Proc.devRef .tc main_v245) : S50000x64.Idx → EReal)
      = addf (scatK (W (Proc.devRef .tc main_v228_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![4, 0] (W (Proc.devRef .tc main_arg13) : S8x64.Idx → EReal) slices_S8x64_S1x64_4_0) shapeCasts_S1x64_S64))) := by
    show StableHlo.after hostOps6_2 (StableHlo.after hostOps6_1 (StableHlo.after hostOps6 W)) (Proc.devRef .tc main_v245) = _
    rw [keep6_2 _ main_v245 (by decide), keep6_1 _ main_v245 (by decide), l6_v245]
  rw [e, addf_apply, bcast_1b_ab, bcast_b_1b]
  exact congrArg (_ + ·) ((shapeCast_1a_a_apply _ _ j).trans (stack2_row (4 : Fin 8) _ _ 0 j))

theorem st6_v249 (W : Valuation τ sig (Elt Ideal)) (u : Fin 1) (j : Fin 64) :
    (st6 W (Proc.devRef .tc main_v249) : S1x64.Idx → EReal) (ix2 u j)
      = Cert.Spec.meanOf (sum64K (st6 W (Proc.devRef .tc main_v245)) (ix1 j)) := by
  have e : (st6 W (Proc.devRef .tc main_v249) : S1x64.Idx → EReal)
      = Host.divf (broadcastInDim S1x64 ![1] bcast_S64_S1x64_1 (sum64K (st6 W (Proc.devRef .tc main_v245))))
          (broadcastInDim S1x64 ![] bcast_S_S1x64 (constant S_ .f32 0x47435000#32)) := by
    show StableHlo.after hostOps6_2 (StableHlo.after hostOps6_1 (StableHlo.after hostOps6 W)) (Proc.devRef .tc main_v249)
      = Host.divf (broadcastInDim S1x64 ![1] bcast_S64_S1x64_1 (sum64K (StableHlo.after hostOps6_2 (StableHlo.after hostOps6_1 (StableHlo.after hostOps6 W)) (Proc.devRef .tc main_v245))))
          (broadcastInDim S1x64 ![] bcast_S_S1x64 (constant S_ .f32 0x47435000#32))
    rw [keep6_2 _ main_v249 (by decide), keep6_1 _ main_v249 (by decide), keep6_2 _ main_v245 (by decide),
      keep6_1 _ main_v245 (by decide), l6_v249]
  rw [e]
  show Ideal.div (broadcastInDim S1x64 ![1] bcast_S64_S1x64_1 (sum64K (st6 W (Proc.devRef .tc main_v245))) (ix2 u j))
      (Ideal.ofBits .f32 0x47435000#32) = _
  rw [bcast_b_1b]
  rfl

theorem st6_v250 (W : Valuation τ sig (Elt Ideal)) :
    st6 W (Proc.devRef .tc main_v250) = var64K (st6 W (Proc.devRef .tc main_v245)) := by
  show StableHlo.after hostOps6_2 (StableHlo.after hostOps6_1 (StableHlo.after hostOps6 W)) (Proc.devRef .tc main_v250) = var64K (StableHlo.after hostOps6_2 (StableHlo.after hostOps6_1 (StableHlo.after hostOps6 W)) (Proc.devRef .tc main_v245))
  rw [keep6_2 _ main_v250 (by decide), keep6_2 _ main_v245 (by decide), keep6_1 _ main_v245 (by decide),
    l6_1_v250 _ (l6_c_39 W)]

theorem st6_v253 (W : Valuation τ sig (Elt Ideal)) (u : Fin 1) (j : Fin 64) :
    (st6 W (Proc.devRef .tc main_v253) : S1x64.Idx → EReal) (ix2 u j) = (W (Proc.devRef .tc main_arg14) : S8x64.Idx → EReal) (ix2 4 j) := by
  have e : (st6 W (Proc.devRef .tc main_v253) : S1x64.Idx → EReal)
      = shapeCast S1x64 (shapeCast S64 (extractStridedSlice S1x64 ![4, 0] (W (Proc.devRef .tc main_arg14) : S8x64.Idx → EReal) slices_S8x64_S1x64_4_0) shapeCasts_S1x64_S64) shapeCasts_S64_S1x64 := by
    show StableHlo.after hostOps6_2 (StableHlo.after hostOps6_1 (StableHlo.after hostOps6 W)) (Proc.devRef .tc main_v253) = _
    rw [l6_2_v253, keep6_1 _ main_arg14 (by decide), keep6 _ main_arg14 (by decide)]
  rw [e]
  exact (row_roundtrip _ _ _ u j).trans (stack2_row (4 : Fin 8) _ _ 0 j)

theorem st6_v256 (W : Valuation τ sig (Elt Ideal)) (u : Fin 1) (j : Fin 64) :
    (st6 W (Proc.devRef .tc main_v256) : S1x64.Idx → EReal) (ix2 u j) = (W (Proc.devRef .tc main_arg15) : S8x64.Idx → EReal) (ix2 4 j) := by
  have e : (st6 W (Proc.devRef .tc main_v256) : S1x64.Idx → EReal)
      = shapeCast S1x64 (shapeCast S64 (extractStridedSlice S1x64 ![4, 0] (W (Proc.devRef .tc main_arg15) : S8x64.Idx → EReal) slices_S8x64_S1x64_4_0) shapeCasts_S1x64_S64) shapeCasts_S64_S1x64 := by
    show StableHlo.after hostOps6_2 (StableHlo.after hostOps6_1 (StableHlo.after hostOps6 W)) (Proc.devRef .tc main_v256) = _
    rw [l6_2_v256, keep6_1 _ main_arg15 (by decide), keep6 _ main_arg15 (by decide)]
  rw [e]
  exact (row_roundtrip _ _ _ u j).trans (stack2_row (4 : Fin 8) _ _ 0 j)

theorem st6_v258 (W : Valuation τ sig (Elt Ideal)) (k : Fin 64) (a : Fin 4) :
    (st6 W (Proc.devRef .tc main_v258) : S64x4.Idx → EReal) (ix2 k a) = (W (Proc.devRef .tc main_v38) : S9x64x4.Idx → EReal) (ix3 5 k a) := by
  have e : (st6 W (Proc.devRef .tc main_v258) : S64x4.Idx → EReal)
      = shapeCast S64x4 (extractStridedSlice S1x64x4 ![5, 0, 0] (W (Proc.devRef .tc main_v38) : S9x64x4.Idx → EReal) slices_S9x64x4_S1x64x4_5_0_0) shapeCasts_S1x64x4_S64x4 := by
    show StableHlo.after hostOps6_2 (StableHlo.after hostOps6_1 (StableHlo.after hostOps6 W)) (Proc.devRef .tc main_v258) = _
    rw [l6_2_v258, keep6_1 _ main_v38 (by decide), keep6 _ main_v38 (by decide)]
  rw [e]
  exact stack3_entry (5 : Fin 9) _ _ _ k a

theorem st6_v261 (W : Valuation τ sig (Elt Ideal)) (u : Fin 1) (a : Fin 4) :
    (st6 W (Proc.devRef .tc main_v261) : S1x4.Idx → EReal) (ix2 u a) = (W (Proc.devRef .tc main_arg9) : S9x4.Idx → EReal) (ix2 5 a) := by
  have e : (st6 W (Proc.devRef .tc main_v261) : S1x4.Idx → EReal)
      = shapeCast S1x4 (shapeCast S4 (extractStridedSlice S1x4 ![5, 0] (W (Proc.devRef .tc main_arg9) : S9x4.Idx → EReal) slices_S9x4_S1x4_5_0) shapeCasts_S1x4_S4) shapeCasts_S4_S1x4 := by
    show StableHlo.after hostOps6_2 (StableHlo.after hostOps6_1 (StableHlo.after hostOps6 W)) (Proc.devRef .tc main_v261) = _
    rw [l6_2_v261, keep6_1 _ main_arg9 (by decide), keep6 _ main_arg9 (by decide)]
  rw [e]
  exact (row_roundtrip _ _ _ u a).trans (stack2_row (5 : Fin 9) _ _ 0 a)

theorem st6_v263 (W : Valuation τ sig (Elt Ideal)) (a : Fin 4) (q : Fin 1) :
    (st6 W (Proc.devRef .tc main_v263) : S4x1.Idx → EReal) (ix2 a q) = (W (Proc.devRef .tc main_v39) : S9x4x1.Idx → EReal) (ix3 5 a q) := by
  have e : (st6 W (Proc.devRef .tc main_v263) : S4x1.Idx → EReal)
      = shapeCast S4x1 (extractStridedSlice S1x4x1 ![5, 0, 0] (W (Proc.devRef .tc main_v39) : S9x4x1.Idx → EReal) slices_S9x4x1_S1x4x1_5_0_0) shapeCasts_S1x4x1_S4x1 := by
    show StableHlo.after hostOps6_2 (StableHlo.after hostOps6_1 (StableHlo.after hostOps6 W)) (Proc.devRef .tc main_v263) = _
    rw [l6_2_v263, keep6_1 _ main_v39 (by decide), keep6 _ main_v39 (by decide)]
  rw [e]
  exact stack3_entry (5 : Fin 9) _ _ _ a q

theorem st6_v266 (W : Valuation τ sig (Elt Ideal)) (u : Fin 1) (q : Fin 1) :
    (st6 W (Proc.devRef .tc main_v266) : S1x1.Idx → EReal) (ix2 u q) = (W (Proc.devRef .tc main_arg11) : S9x1.Idx → EReal) (ix2 5 q) := by
  have e : (st6 W (Proc.devRef .tc main_v266) : S1x1.Idx → EReal)
      = shapeCast S1x1 (shapeCast S1 (extractStridedSlice S1x1 ![5, 0] (W (Proc.devRef .tc main_arg11) : S9x1.Idx → EReal) slices_S9x1_S1x1_5_0) shapeCasts_S1x1_S1) shapeCasts_S1_S1x1 := by
    show StableHlo.after hostOps6_2 (StableHlo.after hostOps6_1 (StableHlo.after hostOps6 W)) (Proc.devRef .tc main_v266) = _
    rw [l6_2_v266, keep6_1 _ main_arg11 (by decide), keep6 _ main_arg11 (by decide)]
  rw [e]
  exact (row_roundtrip _ _ _ u q).trans (stack2_row (5 : Fin 9) _ _ 0 q)

theorem st6_v268 (W : Valuation τ sig (Elt Ideal)) (k : Fin 64) (j : Fin 64) :
    (st6 W (Proc.devRef .tc main_v268) : S64x64.Idx → EReal) (ix2 k j) = (W (Proc.devRef .tc main_v37) : S8x64x64.Idx → EReal) (ix3 5 k j) := by
  have e : (st6 W (Proc.devRef .tc main_v268) : S64x64.Idx → EReal)
      = shapeCast S64x64 (extractStridedSlice S1x64x64 ![5, 0, 0] (W (Proc.devRef .tc main_v37) : S8x64x64.Idx → EReal) slices_S8x64x64_S1x64x64_5_0_0) shapeCasts_S1x64x64_S64x64 := by
    show StableHlo.after hostOps6_2 (StableHlo.after hostOps6_1 (StableHlo.after hostOps6 W)) (Proc.devRef .tc main_v268) = _
    rw [l6_2_v268, keep6_1 _ main_v37 (by decide), keep6 _ main_v37 (by decide)]
  rw [e]
  exact stack3_entry (5 : Fin 8) _ _ _ k j

end Cert.KernelIdeal.KHost

end
-- ==== Proof.KReg6.lean ====
import proofs.«428538_j32280974197073_1_alg».proof.Proof.KReg2

noncomputable section

namespace Cert.KernelIdeal.KReg6

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hz fusedArr projArr store11 store12)

/-! ## The region -/

theorem idx_facts : ∀ t : Fin cfg6.N,
    win6_0.index t (0 : Fin 2) = t.val ∧ win6_0.index t (1 : Fin 2) = 0
    ∧ win6_5.index t (0 : Fin 2) = t.val ∧ win6_5.index t (1 : Fin 2) = 0
    ∧ win6_11.index t (0 : Fin 2) = t.val ∧ win6_11.index t (1 : Fin 2) = 0
    ∧ win6_12.index t (0 : Fin 2) = t.val ∧ win6_12.index t (1 : Fin 2) = 0 :=
  (by decide +kernel : ∀ t : Fin grid6.N, _)

theorem idx_facts_res : ∀ t : Fin cfg6.N,
    win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0 :=
  (by decide +kernel : ∀ t : Fin grid6.N, _)

def rowOf (t : Fin cfg6.N) (p : Fin 2000) : Fin 50000 :=
  ⟨t.val * 2000 + p.val, by have h : cfg6.N = 25 := N_6; have := t.isLt; have := p.isLt; omega⟩

theorem read0 (t : Fin cfg6.N) (A : Vec Ideal S50000x64 .f32) (p : Fin 2000) (k : Fin 64) :
    (((cfg6.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win6_0.index t (0 : Fin 2) * 2000 + 1 * p.val = t.val * 2000 + p.val; rw [e0a]; omega
  | ⟨1, _⟩ => show win6_0.index t (1 : Fin 2) * 64 + 1 * k.val = k.val; rw [e0b]; omega

theorem read5 (t : Fin cfg6.N) (A : Vec Ideal S50000x64 .f32) (p : Fin 2000) (k : Fin 64) :
    (((cfg6.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win6_5.index t (0 : Fin 2) * 2000 + 1 * p.val = t.val * 2000 + p.val; rw [e0a]; omega
  | ⟨1, _⟩ => show win6_5.index t (1 : Fin 2) * 64 + 1 * k.val = k.val; rw [e0b]; omega

theorem read11 (t : Fin cfg6.N) (A : Vec Ideal S50000x64 .f32) (p : Fin 2000) (k : Fin 64) :
    (((cfg6.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win6_11.index t (0 : Fin 2) * 2000 + 1 * p.val = t.val * 2000 + p.val; rw [e0a]; omega
  | ⟨1, _⟩ => show win6_11.index t (1 : Fin 2) * 64 + 1 * k.val = k.val; rw [e0b]; omega

theorem read12 (t : Fin cfg6.N) (A : Vec Ideal S50000x64 .f32) (p : Fin 2000) (k : Fin 64) :
    (((cfg6.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win6_12.index t (0 : Fin 2) * 2000 + 1 * p.val = t.val * 2000 + p.val; rw [e0a]; omega
  | ⟨1, _⟩ => show win6_12.index t (1 : Fin 2) * 64 + 1 * k.val = k.val; rw [e0b]; omega

theorem read1 (t : Fin cfg6.N) (A : Vec Ideal S1x64 .f32) : ((cfg6.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_1.index t (0 : Fin 2) * 1 + 1 * (y 0).val = (y 0).val; rw [e1a]; omega
  | ⟨1, _⟩ => show win6_1.index t (1 : Fin 2) * 64 + 1 * (y 1).val = (y 1).val; rw [e1b]; omega

theorem read2 (t : Fin cfg6.N) (A : Vec Ideal S1x64 .f32) : ((cfg6.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_2.index t (0 : Fin 2) * 1 + 1 * (y 0).val = (y 0).val; rw [e2a]; omega
  | ⟨1, _⟩ => show win6_2.index t (1 : Fin 2) * 64 + 1 * (y 1).val = (y 1).val; rw [e2b]; omega

theorem read3 (t : Fin cfg6.N) (A : Vec Ideal S1x64 .f32) : ((cfg6.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_3.index t (0 : Fin 2) * 1 + 1 * (y 0).val = (y 0).val; rw [e3a]; omega
  | ⟨1, _⟩ => show win6_3.index t (1 : Fin 2) * 64 + 1 * (y 1).val = (y 1).val; rw [e3b]; omega

theorem read4 (t : Fin cfg6.N) (A : Vec Ideal S1x64 .f32) : ((cfg6.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_4.index t (0 : Fin 2) * 1 + 1 * (y 0).val = (y 0).val; rw [e4a]; omega
  | ⟨1, _⟩ => show win6_4.index t (1 : Fin 2) * 64 + 1 * (y 1).val = (y 1).val; rw [e4b]; omega

theorem read6 (t : Fin cfg6.N) (A : Vec Ideal S64x4 .bf16) : ((cfg6.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_6.index t (0 : Fin 2) * 64 + 1 * (y 0).val = (y 0).val; rw [e6a]; omega
  | ⟨1, _⟩ => show win6_6.index t (1 : Fin 2) * 4 + 1 * (y 1).val = (y 1).val; rw [e6b]; omega

theorem read7 (t : Fin cfg6.N) (A : Vec Ideal S1x4 .f32) : ((cfg6.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_7.index t (0 : Fin 2) * 1 + 1 * (y 0).val = (y 0).val; rw [e7a]; omega
  | ⟨1, _⟩ => show win6_7.index t (1 : Fin 2) * 4 + 1 * (y 1).val = (y 1).val; rw [e7b]; omega

theorem read8 (t : Fin cfg6.N) (A : Vec Ideal S4x1 .bf16) : ((cfg6.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_8.index t (0 : Fin 2) * 4 + 1 * (y 0).val = (y 0).val; rw [e8a]; omega
  | ⟨1, _⟩ => show win6_8.index t (1 : Fin 2) * 1 + 1 * (y 1).val = (y 1).val; rw [e8b]; omega

theorem read9 (t : Fin cfg6.N) (A : Vec Ideal S1x1 .f32) : ((cfg6.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_9.index t (0 : Fin 2) * 1 + 1 * (y 0).val = (y 0).val; rw [e9a]; omega
  | ⟨1, _⟩ => show win6_9.index t (1 : Fin 2) * 1 + 1 * (y 1).val = (y 1).val; rw [e9b]; omega

theorem read10 (t : Fin cfg6.N) (A : Vec Ideal S64x64 .bf16) : ((cfg6.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win6_10.index t (0 : Fin 2) * 64 + 1 * (y 0).val = (y 0).val; rw [e10a]; omega
  | ⟨1, _⟩ => show win6_10.index t (1 : Fin 2) * 64 + 1 * (y 1).val = (y 1).val; rw [e10b]; omega

theorem mem_blk11 (t : Fin cfg6.N) (i : S50000x64.Idx) :
    i ∈ ((cfg6.win 11).blk t).view.set ↔ ∀ a : Fin 2, win6_11.index t a * S2000x64.size a ≤ (i a).val ∧ (i a).val < win6_11.index t a * S2000x64.size a + S2000x64.size a := by
  show i ∈ ((View.whole main_v269_0).slice (win6_11.rect t)).set ↔ _
  rw [View.set_slice_whole, Rect.mem_set_unit]
  exact Iff.rfl
theorem mem_blk12 (t : Fin cfg6.N) (i : S50000x64.Idx) :
    i ∈ ((cfg6.win 12).blk t).view.set ↔ ∀ a : Fin 2, win6_12.index t a * S2000x64.size a ≤ (i a).val ∧ (i a).val < win6_12.index t a * S2000x64.size a + S2000x64.size a := by
  show i ∈ ((View.whole main_v269_1).slice (win6_12.rect t)).set ↔ _
  rw [View.set_slice_whole, Rect.mem_set_unit]
  exact Iff.rfl

def pointOf (i : S50000x64.Idx) : Fin cfg6.N :=
  ⟨(i 0).val / 2000, by have h : cfg6.N = 25 := N_6; have : (i 0).val < 50000 := (i 0).isLt; omega⟩

theorem cover11 (i : S50000x64.Idx) : ∃ t : Fin cfg6.N, (cfg6.win 11).flush t = true ∧ i ∈ ((cfg6.win 11).blk t).view.set := by
  refine ⟨pointOf i, flush6_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win6_11.index (pointOf i) (0 : Fin 2) * 2000 ≤ (i 0).val ∧ (i 0).val < win6_11.index (pointOf i) (0 : Fin 2) * 2000 + 2000; rw [e0a, hp]; omega
  | ⟨1, _⟩ => show win6_11.index (pointOf i) (1 : Fin 2) * 64 ≤ (i 1).val ∧ (i 1).val < win6_11.index (pointOf i) (1 : Fin 2) * 64 + 64; rw [e0b]; omega

theorem cover12 (i : S50000x64.Idx) : ∃ t : Fin cfg6.N, (cfg6.win 12).flush t = true ∧ i ∈ ((cfg6.win 12).blk t).view.set := by
  refine ⟨pointOf i, flush6_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win6_12.index (pointOf i) (0 : Fin 2) * 2000 ≤ (i 0).val ∧ (i 0).val < win6_12.index (pointOf i) (0 : Fin 2) * 2000 + 2000; rw [e0a, hp]; omega
  | ⟨1, _⟩ => show win6_12.index (pointOf i) (1 : Fin 2) * 64 ≤ (i 1).val ∧ (i 1).val < win6_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v245
abbrev meanIn (c : Dev nD) : Vec Ideal S1x64 .f32 := V c main_v249
abbrev varIn (c : Dev nD) : Vec Ideal S1x64 .f32 := V c main_v250
abbrev gammaIn (c : Dev nD) : Vec Ideal S1x64 .f32 := V c main_v253
abbrev betaIn (c : Dev nD) : Vec Ideal S1x64 .f32 := V c main_v256
abbrev fusedIn (c : Dev nD) : Vec Ideal S50000x64 .f32 := V c main_v228_0
abbrev lw1In (c : Dev nD) : Vec Ideal S64x4 .bf16 := V c main_v258
abbrev lb1In (c : Dev nD) : Vec Ideal S1x4 .f32 := V c main_v261
abbrev lw2In (c : Dev nD) : Vec Ideal S4x1 .bf16 := V c main_v263
abbrev lb2In (c : Dev nD) : Vec Ideal S1x1 .f32 := V c main_v266
abbrev bwIn (c : Dev nD) : Vec Ideal S64x64 .bf16 := V c main_v268

theorem flushed11_eq (c : Dev nD) (t : Fin cfg6.N) :
    (dat6 (F := Ideal) V c).flushed 11 t
      = ((cfg6.win 11).blk t).view.read (Elt Ideal) (fusedArr (aggIn V c) (meanIn V c) (varIn V c) (gammaIn V c) (betaIn V c) (fusedIn V c) (lw1In V c) (lb1In V c) (lw2In V c) (lb2In V c)) := by
  show (cfg6.win 11).cut (grid6.coords t) ((dat6 (F := Ideal) V c).after 11 t) = _
  rw [after6_11]
  unfold out6_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg6.N) :
    (dat6 (F := Ideal) V c).flushed 12 t
      = ((cfg6.win 12).blk t).view.read (Elt Ideal) (projArr (aggIn V c) (meanIn V c) (varIn V c) (gammaIn V c) (betaIn V c) (fusedIn V c) (lw1In V c) (lb1In V c) (lw2In V c) (lb2In V c) (bwIn V c)) := by
  show (cfg6.win 12).cut (grid6.coords t) ((dat6 (F := Ideal) V c).after 12 t) = _
  rw [after6_12]
  unfold out6_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat6 (F := Ideal) V c).arrAt 11 cfg6.N = fusedArr (aggIn V c) (meanIn V c) (varIn V c) (gammaIn V c) (betaIn V c) (fusedIn V c) (lw1In V c) (lb1In V c) (lw2In V c) (lb2In V c) :=
  (dat6 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat6 (F := Ideal) V c).arrAt 12 cfg6.N = projArr (aggIn V c) (meanIn V c) (varIn V c) (gammaIn V c) (betaIn V c) (fusedIn V c) (lw1In V c) (lb1In V c) (lw2In V c) (lb2In V c) (bwIn V c) :=
  (dat6 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg6

end
-- ==== Proof.KChain.Link6.lean ====
/- Template: proof/Proof/KChain/Link2.lean, whole. Substitutions, all at once: Link2 -> Link6, KHost.L2 -> KHost.L6, st2_keep -> st6_keep, wrS2 -> wrS6,
   st2_v<n> -> st6_v<n + 164>, Proof.KReg2 -> Proof.KReg6, KReg2.final -> KReg6.final, spec2 -> spec6, main_v<n> -> main_v<n + 164> for n >= 64,
   W<n> and V<n> -> W<n + 16> and V<n + 16> for n >= 8, (0 : Fin 8) -> (4 : Fin 8), (1 : Fin 9) -> (5 : Fin 9), (1 : Fin 8) -> (5 : Fin 8),
   and the heading's layer and region numbers. -/
/-
  Backbone layer 4 (kernel region 6), linked to the specification.

  Between the previous region's exit and this region's entry the host operations aggregate the previous projection over
  the edges, add the layer's bias, take the aggregate's per-feature mean and variance, and slice the layer's parameters
  out of their stacks; the region then leaves the new fused state and the new projection. Read as matrices, the two
  arrays are the specification's state after the layer, given that the two arrays the previous region left are the
  specification's state before it.
-/
import proofs.«428538_j32280974197073_1_alg».proof.Proof.Gen.KernelIdeal.Frame
import proofs.«428538_j32280974197073_1_alg».proof.Proof.KHost.L6
import proofs.«428538_j32280974197073_1_alg».proof.Proof.KReg6
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link6

variable (m : (ℓ : Loc nD τ sig) → Buf (Elt Ideal) ℓ) (ρ : Dev nD → PrngReg)

/-! ## The buffers computed once are kept -/

/-- No buffer computed once before the first region is written by this stretch of host operations. -/
theorem static_nw : ∀ b ∈ staticRefs, b ∉ KHost.wrS6 := by decide

/-- None is an array of this region. -/
theorem static_ne : ∀ b ∈ staticRefs, ∀ w, Pipeline.arrRef spec6 w ≠ b := by decide

/-- So each holds at the region's exit what it held at the previous region's exit. -/
theorem keeps (c : Dev nD) : Keeps (W24 m ρ c) (W28 m ρ c) := fun b hb =>
  (W28_of_ne m ρ c b (static_ne b hb)).trans (KHost.st6_keep (W24 m ρ c) b (static_nw b hb))

/-! ## The region's exit arrays as functions of its entry arrays -/

/-- The new fused state the region leaves, as a function of the arrays it was entered with. -/
theorem exit_fused (c : Dev nD) :
    (W28 m ρ c (Proc.devRef .tc main_v269_0) : Vec Ideal S50000x64 .f32)
      = KReg2.fusedArr
          (W27 m ρ c (Proc.devRef .tc main_v245) : Vec Ideal S50000x64 .f32)
          (W27 m ρ c (Proc.devRef .tc main_v249) : Vec Ideal S1x64 .f32)
          (W27 m ρ c (Proc.devRef .tc main_v250) : Vec Ideal S1x64 .f32)
          (W27 m ρ c (Proc.devRef .tc main_v253) : Vec Ideal S1x64 .f32)
          (W27 m ρ c (Proc.devRef .tc main_v256) : Vec Ideal S1x64 .f32)
          (W27 m ρ c (Proc.devRef .tc main_v228_0) : Vec Ideal S50000x64 .f32)
          (W27 m ρ c (Proc.devRef .tc main_v258) : Vec Ideal S64x4 .bf16)
          (W27 m ρ c (Proc.devRef .tc main_v261) : Vec Ideal S1x4 .f32)
          (W27 m ρ c (Proc.devRef .tc main_v263) : Vec Ideal S4x1 .bf16)
          (W27 m ρ c (Proc.devRef .tc main_v266) : Vec Ideal S1x1 .f32) :=
  (W28_arr m ρ c 11).trans (KReg6.final11 (V27 m ρ) c)

/-- The new projection the region leaves, as a function of the arrays it was entered with. -/
theorem exit_proj (c : Dev nD) :
    (W28 m ρ c (Proc.devRef .tc main_v269_1) : Vec Ideal S50000x64 .f32)
      = KReg2.projArr
          (W27 m ρ c (Proc.devRef .tc main_v245) : Vec Ideal S50000x64 .f32)
          (W27 m ρ c (Proc.devRef .tc main_v249) : Vec Ideal S1x64 .f32)
          (W27 m ρ c (Proc.devRef .tc main_v250) : Vec Ideal S1x64 .f32)
          (W27 m ρ c (Proc.devRef .tc main_v253) : Vec Ideal S1x64 .f32)
          (W27 m ρ c (Proc.devRef .tc main_v256) : Vec Ideal S1x64 .f32)
          (W27 m ρ c (Proc.devRef .tc main_v228_0) : Vec Ideal S50000x64 .f32)
          (W27 m ρ c (Proc.devRef .tc main_v258) : Vec Ideal S64x4 .bf16)
          (W27 m ρ c (Proc.devRef .tc main_v261) : Vec Ideal S1x4 .f32)
          (W27 m ρ c (Proc.devRef .tc main_v263) : Vec Ideal S4x1 .bf16)
          (W27 m ρ c (Proc.devRef .tc main_v266) : Vec Ideal S1x1 .f32)
          (W27 m ρ c (Proc.devRef .tc main_v268) : Vec Ideal S64x64 .bf16) :=
  (W28_arr m ρ c 12).trans (KReg6.final12 (V27 m ρ) c)

/-! ## The region's entry arrays, from the previous region's exit -/

/-- The aggregate: the edge aggregation of the previous projection, plus the layer's bias. -/
theorem e_agg (c : Dev nD) (hst : Keeps (W3 m ρ c) (W24 m ρ c)) (i : Fin 50000) (j : Fin 64) :
    (W27 m ρ c (Proc.devRef .tc main_v245) : Vec Ideal S50000x64 .f32) (ix2 i j)
      = KHost.scatK (W24 m ρ c (Proc.devRef .tc main_v228_1)) (KHost.srcOf (m ((c : Thread nD τ).loc main_arg1))) (KHost.enormOf (m ((c : Thread nD τ).loc main_arg1))) (KHost.dstOf (m ((c : Thread nD τ).loc main_arg1))) (ix2 i j)
        + (paramsK m c).bb (4 : Fin 8) j := by
  have h := KHost.st6_v245 (W24 m ρ c) i j
  rw [st_src hst, st_enorm hst, st_dst hst, st_arg13 hst] at h
  exact h

/-- The mean's row: the aggregate's per-feature sum over the number of nodes. -/
theorem e_mean (c : Dev nD) (k : Fin 64) :
    (W27 m ρ c (Proc.devRef .tc main_v249) : Vec Ideal S1x64 .f32) (ix2 (0 : Fin 1) k) = Cert.Spec.meanOf (KHost.sum64K (W27 m ρ c (Proc.devRef .tc main_v245) : Vec Ideal S50000x64 .f32) (ix1 k)) :=
  KHost.st6_v249 (W24 m ρ c) 0 k

/-- The variance's row: the aggregate's per-feature variance. -/
theorem e_var (c : Dev nD) (k : Fin 64) :
    (W27 m ρ c (Proc.devRef .tc main_v250) : Vec Ideal S1x64 .f32) (ix2 (0 : Fin 1) k) = KHost.var64K (W27 m ρ c (Proc.devRef .tc main_v245) : Vec Ideal S50000x64 .f32) (ix2 (0 : Fin 1) k) :=
  congrFun (KHost.st6_v250 (W24 m ρ c)) (ix2 (0 : Fin 1) k)

/-- The scale's row: the layer's row of the stacked scales. -/
theorem e_gamma (c : Dev nD) (hst : Keeps (W3 m ρ c) (W24 m ρ c)) (k : Fin 64) :
    (W27 m ρ c (Proc.devRef .tc main_v253) : Vec Ideal S1x64 .f32) (ix2 (0 : Fin 1) k) = (paramsK m c).bg (4 : Fin 8) k := by
  have h := KHost.st6_v253 (W24 m ρ c) 0 k
  rw [st_arg14 hst] at h
  exact h

/-- The shift's row: the layer's row of the stacked shifts. -/
theorem e_beta (c : Dev nD) (hst : Keeps (W3 m ρ c) (W24 m ρ c)) (k : Fin 64) :
    (W27 m ρ c (Proc.devRef .tc main_v256) : Vec Ideal S1x64 .f32) (ix2 (0 : Fin 1) k) = (paramsK m c).bbe (4 : Fin 8) k := by
  have h := KHost.st6_v256 (W24 m ρ c) 0 k
  rw [st_arg15 hst] at h
  exact h

/-- The fused state is the one the previous region left. -/
theorem e_fused (c : Dev nD) : W27 m ρ c (Proc.devRef .tc main_v228_0) = W24 m ρ c (Proc.devRef .tc main_v228_0) :=
  KHost.st6_keep (W24 m ρ c) main_v228_0 (by decide)

/-- The gate's first matrix: the layer's member of the stack. -/
theorem e_lw1 (c : Dev nD) (hst : Keeps (W3 m ρ c) (W24 m ρ c)) :
    Cert.Pack.mat (W27 m ρ c (Proc.devRef .tc main_v258) : Vec Ideal S64x4 .bf16) = (paramsK m c).lw1 (5 : Fin 9) := by
  funext k a
  have h := KHost.st6_v258 (W24 m ρ c) k a
  rw [st_v38 hst] at h
  exact h

/-- The gate's first bias: the layer's row of the stack. -/
theorem e_lb1 (c : Dev nD) (hst : Keeps (W3 m ρ c) (W24 m ρ c)) (a : Fin 4) :
    (W27 m ρ c (Proc.devRef .tc main_v261) : Vec Ideal S1x4 .f32) (ix2 (0 : Fin 1) a) = (paramsK m c).lb1 (5 : Fin 9) a := by
  have h := KHost.st6_v261 (W24 m ρ c) 0 a
  rw [st_arg9 hst] at h
  exact h

/-- The gate's read-out column: the layer's member of the stack. -/
theorem e_lw2 (c : Dev nD) (hst : Keeps (W3 m ρ c) (W24 m ρ c)) (a : Fin 4) :
    (W27 m ρ c (Proc.devRef .tc main_v263) : Vec Ideal S4x1 .bf16) (ix2 a (0 : Fin 1)) = (paramsK m c).lw2 (5 : Fin 9) a := by
  have h := KHost.st6_v263 (W24 m ρ c) a 0
  rw [st_v39 hst] at h
  exact h

/-- The gate's last bias: the layer's entry of the stack. -/
theorem e_lb2 (c : Dev nD) (hst : Keeps (W3 m ρ c) (W24 m ρ c)) :
    (W27 m ρ c (Proc.devRef .tc main_v266) : Vec Ideal S1x1 .f32) (ix2 (0 : Fin 1) (0 : Fin 1)) = (paramsK m c).lb2 (5 : Fin 9) := by
  have h := KHost.st6_v266 (W24 m ρ c) 0 0
  rw [st_arg11 hst] at h
  exact h

/-- The next layer's weights: its member of the stack. -/
theorem e_bw (c : Dev nD) (hst : Keeps (W3 m ρ c) (W24 m ρ c)) :
    Cert.Pack.mat (W27 m ρ c (Proc.devRef .tc main_v268) : Vec Ideal S64x64 .bf16) = (paramsK m c).bw (5 : Fin 8) := by
  funext k j
  have h := KHost.st6_v268 (W24 m ρ c) k j
  rw [st_v37 hst] at h
  exact h

/-! ## The link -/

/-- If the two arrays the previous region left read as the specification's state before the layer, the two arrays this
    region leaves read as its state after the layer; and the buffers computed once are still what they were. -/
theorem link (c : Dev nD) (s : Cert.Spec.Mat 50000 64 × Cert.Spec.Mat 50000 64)
    (hst : Keeps (W3 m ρ c) (W24 m ρ c))
    (hfu : Cert.Pack.mat (W24 m ρ c (Proc.devRef .tc main_v228_0) : Vec Ideal S50000x64 .f32) = s.1)
    (hpj : Cert.Pack.mat (W24 m ρ c (Proc.devRef .tc main_v228_1) : Vec Ideal S50000x64 .f32)
      = fun i j => Cert.Spec.proj (s.2 i) ((paramsK m c).bw (4 : Fin 8)) j) :
    Keeps (W3 m ρ c) (W28 m ρ c)
      ∧ Cert.Pack.mat (W28 m ρ c (Proc.devRef .tc main_v269_0) : Vec Ideal S50000x64 .f32)
          = (Cert.Spec.layer (opsK (m ((c : Thread nD τ).loc main_arg1))) (paramsK m c) (4 : Fin 8) (5 : Fin 9) s).1
      ∧ Cert.Pack.mat (W28 m ρ c (Proc.devRef .tc main_v269_1) : Vec Ideal S50000x64 .f32)
          = fun i j => Cert.Spec.proj
              ((Cert.Spec.layer (opsK (m ((c : Thread nD τ).loc main_arg1))) (paramsK m c) (4 : Fin 8) (5 : Fin 9) s).2 i)
              ((paramsK m c).bw (5 : Fin 8)) j :=
  ⟨hst.trans (keeps m ρ c),
   layer_link (opsK (m ((c : Thread nD τ).loc main_arg1))) (paramsK m c) (4 : Fin 8) (5 : Fin 9) (5 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W24 m ρ c (Proc.devRef .tc main_v228_1) : Vec Ideal S50000x64 .f32) hpj
    (W28 m ρ c (Proc.devRef .tc main_v269_0) : Vec Ideal S50000x64 .f32) (W28 m ρ c (Proc.devRef .tc main_v269_1) : Vec Ideal S50000x64 .f32)
    (W27 m ρ c (Proc.devRef .tc main_v245) : Vec Ideal S50000x64 .f32) (W27 m ρ c (Proc.devRef .tc main_v249) : Vec Ideal S1x64 .f32) (W27 m ρ c (Proc.devRef .tc main_v250) : Vec Ideal S1x64 .f32) (W27 m ρ c (Proc.devRef .tc main_v253) : Vec Ideal S1x64 .f32)
    (W27 m ρ c (Proc.devRef .tc main_v256) : Vec Ideal S1x64 .f32) (W27 m ρ c (Proc.devRef .tc main_v228_0) : Vec Ideal S50000x64 .f32) (W27 m ρ c (Proc.devRef .tc main_v258) : Vec Ideal S64x4 .bf16) (W27 m ρ c (Proc.devRef .tc main_v261) : Vec Ideal S1x4 .f32)
    (W27 m ρ c (Proc.devRef .tc main_v263) : Vec Ideal S4x1 .bf16) (W27 m ρ c (Proc.devRef .tc main_v266) : Vec Ideal S1x1 .f32) (W27 m ρ c (Proc.devRef .tc main_v268) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link6

end Cert.KernelIdeal.KChain

end
-- ==== Proof.KHost.L7.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st7 (W : Valuation τ sig (Elt Ideal)) : Valuation τ sig (Elt Ideal) :=
  StableHlo.after hostOps7_2 (StableHlo.after hostOps7_1 (StableHlo.after hostOps7 W))

noncomputable def wr7 : List (Ref sig .tc) :=
  [main_c_40, main_v270, main_v271, main_c_41, main_v272, main_v273, main_v274, main_v275, main_v276, main_v277, main_v278, main_cst_42, main_v279, main_v280, main_v281, main_v282, main_v283, main_v284, main_v285, main_v286, main_cst_43, main_v287, main_v288, main_cst_44, main_v289, main_v290, main_c_45]
noncomputable def wr7_1 : List (Ref sig .tc) :=
  [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v291]
noncomputable def wr7_2 : List (Ref sig .tc) :=
  [main_v292, main_v293, main_v294, main_v295, main_v296, main_v297, main_v298, main_v299, main_v300, main_v301, main_v302, main_v303, main_v304, main_v305, main_v306, main_v307, main_v308, main_v309]
noncomputable def wrS7 : List (Ref sig .tc) := wr7 ++ wr7_1 ++ wr7_2

theorem keep7 (W : Valuation τ sig (Elt Ideal)) (b : Ref sig .tc) (hb : b ∉ wr7) :
    StableHlo.after hostOps7 W (Proc.devRef .tc b) = W (Proc.devRef .tc b) :=
  StableHlo.after_of_writes_sub hostOps7 W (by
    simp only [hostOps7, wr7, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep7_1 (W : Valuation τ sig (Elt Ideal)) (b : Ref sig .tc) (hb : b ∉ wr7_1) :
    StableHlo.after hostOps7_1 W (Proc.devRef .tc b) = W (Proc.devRef .tc b) :=
  StableHlo.after_of_writes_sub hostOps7_1 W (by
    simp only [hostOps7_1, wr7_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep7_2 (W : Valuation τ sig (Elt Ideal)) (b : Ref sig .tc) (hb : b ∉ wr7_2) :
    StableHlo.after hostOps7_2 W (Proc.devRef .tc b) = W (Proc.devRef .tc b) :=
  StableHlo.after_of_writes_sub hostOps7_2 W (by
    simp only [hostOps7_2, wr7_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st7_keep (W : Valuation τ sig (Elt Ideal)) (b : Ref sig .tc) (hb : b ∉ wrS7) :
    st7 W (Proc.devRef .tc b) = W (Proc.devRef .tc b) :=
  (keep7_2 _ b fun h => hb (List.mem_append_right _ h)).trans
    ((keep7_1 _ b fun h => hb (List.mem_append_left _ (List.mem_append_right _ h))).trans
      (keep7 W b fun h => hb (List.mem_append_left _ (List.mem_append_left _ h))))

theorem l7_v286 (X : Valuation τ sig (Elt Ideal)) :
    StableHlo.after hostOps7 X (Proc.devRef .tc main_v286)
      = (addf (scatK (X (Proc.devRef .tc main_v269_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![5, 0] (X (Proc.devRef .tc main_arg13)) slices_S8x64_S1x64_5_0) shapeCasts_S1x64_S64))) :
          FVec Ideal S50000x64 .f32) := by
  simp only [hostOps7]; after_results_simp; all_goals rfl

theorem l7_v290 (X : Valuation τ sig (Elt Ideal)) :
    StableHlo.after hostOps7 X (Proc.devRef .tc main_v290)
      = (Host.divf (broadcastInDim S1x64 ![1] bcast_S64_S1x64_1 (sum64K (StableHlo.after hostOps7 X (Proc.devRef .tc main_v286))))
          (broadcastInDim S1x64 ![] bcast_S_S1x64 (constant S_ .f32 0x47435000#32)) : FVec Ideal S1x64 .f32) := by
  rw [← List.take_append_drop 20 (hostOps7 (F := Ideal)), after_append]
  generalize StableHlo.after (List.take 20 hostOps7) X = Y
  simp only [hostOps7, List.drop_succ_cons, List.drop_zero]
  after_results; all_goals rfl

theorem l7_c_45 (X : Valuation τ sig (Elt Ideal)) :
    StableHlo.after hostOps7 X (Proc.devRef .tc main_c_45) = (constantI S_ 32 0#32 : IVec S_ 32) := by
  simp only [hostOps7]; after_results; all_goals rfl

theorem l7_1_v291 (X : Valuation τ sig (Elt Ideal)) (h0 : X (Proc.devRef .tc main_c_45) = (constantI S_ 32 0#32 : IVec S_ 32)) :
    StableHlo.after hostOps7_1 X (Proc.devRef .tc main_v291) = var64K (X (Proc.devRef .tc main_v286)) := by
  simp only [hostOps7_1]; after_results_simp; rw [h0]; rfl

theorem l7_2_v294 (X : Valuation τ sig (Elt Ideal)) :
    StableHlo.after hostOps7_2 X (Proc.devRef .tc main_v294)
      = (shapeCast S1x64 (shapeCast S64 (extractStridedSlice S1x64 ![5, 0] (X (Proc.devRef .tc main_arg14)) slices_S8x64_S1x64_5_0) shapeCasts_S1x64_S64) shapeCasts_S64_S1x64 :
          FVec Ideal S1x64 .f32) := by
  simp only [hostOps7_2]; after_results; all_goals rfl

theorem l7_2_v297 (X : Valuation τ sig (Elt Ideal)) :
    StableHlo.after hostOps7_2 X (Proc.devRef .tc main_v297)
      = (shapeCast S1x64 (shapeCast S64 (extractStridedSlice S1x64 ![5, 0] (X (Proc.devRef .tc main_arg15)) slices_S8x64_S1x64_5_0) shapeCasts_S1x64_S64) shapeCasts_S64_S1x64 :
          FVec Ideal S1x64 .f32) := by
  simp only [hostOps7_2]; after_results; all_goals rfl

theorem l7_2_v299 (X : Valuation τ sig (Elt Ideal)) :
    StableHlo.after hostOps7_2 X (Proc.devRef .tc main_v299)
      = (shapeCast S64x4 (extractStridedSlice S1x64x4 ![6, 0, 0] (X (Proc.devRef .tc main_v38)) slices_S9x64x4_S1x64x4_6_0_0) shapeCasts_S1x64x4_S64x4 :
          FVec Ideal S64x4 .bf16) := by
  simp only [hostOps7_2]; after_results; all_goals rfl

theorem l7_2_v302 (X : Valuation τ sig (Elt Ideal)) :
    StableHlo.after hostOps7_2 X (Proc.devRef .tc main_v302)
      = (shapeCast S1x4 (shapeCast S4 (extractStridedSlice S1x4 ![6, 0] (X (Proc.devRef .tc main_arg9)) slices_S9x4_S1x4_6_0) shapeCasts_S1x4_S4) shapeCasts_S4_S1x4 :
          FVec Ideal S1x4 .f32) := by
  simp only [hostOps7_2]; after_results; all_goals rfl

theorem l7_2_v304 (X : Valuation τ sig (Elt Ideal)) :
    StableHlo.after hostOps7_2 X (Proc.devRef .tc main_v304)
      = (shapeCast S4x1 (extractStridedSlice S1x4x1 ![6, 0, 0] (X (Proc.devRef .tc main_v39)) slices_S9x4x1_S1x4x1_6_0_0) shapeCasts_S1x4x1_S4x1 :
          FVec Ideal S4x1 .bf16) := by
  simp only [hostOps7_2]; after_results; all_goals rfl

theorem l7_2_v307 (X : Valuation τ sig (Elt Ideal)) :
    StableHlo.after hostOps7_2 X (Proc.devRef .tc main_v307)
      = (shapeCast S1x1 (shapeCast S1 (extractStridedSlice S1x1 ![6, 0] (X (Proc.devRef .tc main_arg11)) slices_S9x1_S1x1_6_0) shapeCasts_S1x1_S1) shapeCasts_S1_S1x1 :
          FVec Ideal S1x1 .f32) := by
  simp only [hostOps7_2]; after_results; all_goals rfl

theorem l7_2_v309 (X : Valuation τ sig (Elt Ideal)) :
    StableHlo.after hostOps7_2 X (Proc.devRef .tc main_v309)
      = (shapeCast S64x64 (extractStridedSlice S1x64x64 ![6, 0, 0] (X (Proc.devRef .tc main_v37)) slices_S8x64x64_S1x64x64_6_0_0) shapeCasts_S1x64x64_S64x64 :
          FVec Ideal S64x64 .bf16) := by
  simp only [hostOps7_2]; after_results; all_goals rfl

theorem st7_v286 (W : Valuation τ sig (Elt Ideal)) (i : Fin 50000) (j : Fin 64) :
    (st7 W (Proc.devRef .tc main_v286) : S50000x64.Idx → EReal) (ix2 i j)
      = scatK (W (Proc.devRef .tc main_v269_1)) (W (Proc.devRef .tc main_v3)) (W (Proc.devRef .tc main_v32)) (W (Proc.devRef .tc main_v6)) (ix2 i j)
        + (W (Proc.devRef .tc main_arg13) : S8x64.Idx → EReal) (ix2 5 j) := by
  have e : (st7 W (Proc.devRef .tc main_v286) : S50000x64.Idx → EReal)
      = addf (scatK (W (Proc.devRef .tc main_v269_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![5, 0] (W (Proc.devRef .tc main_arg13) : S8x64.Idx → EReal) slices_S8x64_S1x64_5_0) shapeCasts_S1x64_S64))) := by
    show StableHlo.after hostOps7_2 (StableHlo.after hostOps7_1 (StableHlo.after hostOps7 W)) (Proc.devRef .tc main_v286) = _
    rw [keep7_2 _ main_v286 (by decide), keep7_1 _ main_v286 (by decide), l7_v286]
  rw [e, addf_apply, bcast_1b_ab, bcast_b_1b]
  exact congrArg (_ + ·) ((shapeCast_1a_a_apply _ _ j).trans (stack2_row (5 : Fin 8) _ _ 0 j))

theorem st7_v290 (W : Valuation τ sig (Elt Ideal)) (u : Fin 1) (j : Fin 64) :
    (st7 W (Proc.devRef .tc main_v290) : S1x64.Idx → EReal) (ix2 u j)
      = Cert.Spec.meanOf (sum64K (st7 W (Proc.devRef .tc main_v286)) (ix1 j)) := by
  have e : (st7 W (Proc.devRef .tc main_v290) : S1x64.Idx → EReal)
      = Host.divf (broadcastInDim S1x64 ![1] bcast_S64_S1x64_1 (sum64K (st7 W (Proc.devRef .tc main_v286))))
          (broadcastInDim S1x64 ![] bcast_S_S1x64 (constant S_ .f32 0x47435000#32)) := by
    show StableHlo.after hostOps7_2 (StableHlo.after hostOps7_1 (StableHlo.after hostOps7 W)) (Proc.devRef .tc main_v290)
      = Host.divf (broadcastInDim S1x64 ![1] bcast_S64_S1x64_1 (sum64K (StableHlo.after hostOps7_2 (StableHlo.after hostOps7_1 (StableHlo.after hostOps7 W)) (Proc.devRef .tc main_v286))))
          (broadcastInDim S1x64 ![] bcast_S_S1x64 (constant S_ .f32 0x47435000#32))
    rw [keep7_2 _ main_v290 (by decide), keep7_1 _ main_v290 (by decide), keep7_2 _ main_v286 (by decide),
      keep7_1 _ main_v286 (by decide), l7_v290]
  rw [e]
  show Ideal.div (broadcastInDim S1x64 ![1] bcast_S64_S1x64_1 (sum64K (st7 W (Proc.devRef .tc main_v286))) (ix2 u j))
      (Ideal.ofBits .f32 0x47435000#32) = _
  rw [bcast_b_1b]
  rfl

theorem st7_v291 (W : Valuation τ sig (Elt Ideal)) :
    st7 W (Proc.devRef .tc main_v291) = var64K (st7 W (Proc.devRef .tc main_v286)) := by
  show StableHlo.after hostOps7_2 (StableHlo.after hostOps7_1 (StableHlo.after hostOps7 W)) (Proc.devRef .tc main_v291) = var64K (StableHlo.after hostOps7_2 (StableHlo.after hostOps7_1 (StableHlo.after hostOps7 W)) (Proc.devRef .tc main_v286))
  rw [keep7_2 _ main_v291 (by decide), keep7_2 _ main_v286 (by decide), keep7_1 _ main_v286 (by decide),
    l7_1_v291 _ (l7_c_45 W)]

theorem st7_v294 (W : Valuation τ sig (Elt Ideal)) (u : Fin 1) (j : Fin 64) :
    (st7 W (Proc.devRef .tc main_v294) : S1x64.Idx → EReal) (ix2 u j) = (W (Proc.devRef .tc main_arg14) : S8x64.Idx → EReal) (ix2 5 j) := by
  have e : (st7 W (Proc.devRef .tc main_v294) : S1x64.Idx → EReal)
      = shapeCast S1x64 (shapeCast S64 (extractStridedSlice S1x64 ![5, 0] (W (Proc.devRef .tc main_arg14) : S8x64.Idx → EReal) slices_S8x64_S1x64_5_0) shapeCasts_S1x64_S64) shapeCasts_S64_S1x64 := by
    show StableHlo.after hostOps7_2 (StableHlo.after hostOps7_1 (StableHlo.after hostOps7 W)) (Proc.devRef .tc main_v294) = _
    rw [l7_2_v294, keep7_1 _ main_arg14 (by decide), keep7 _ main_arg14 (by decide)]
  rw [e]
  exact (row_roundtrip _ _ _ u j).trans (stack2_row (5 : Fin 8) _ _ 0 j)

theorem st7_v297 (W : Valuation τ sig (Elt Ideal)) (u : Fin 1) (j : Fin 64) :
    (st7 W (Proc.devRef .tc main_v297) : S1x64.Idx → EReal) (ix2 u j) = (W (Proc.devRef .tc main_arg15) : S8x64.Idx → EReal) (ix2 5 j) := by
  have e : (st7 W (Proc.devRef .tc main_v297) : S1x64.Idx → EReal)
      = shapeCast S1x64 (shapeCast S64 (extractStridedSlice S1x64 ![5, 0] (W (Proc.devRef .tc main_arg15) : S8x64.Idx → EReal) slices_S8x64_S1x64_5_0) shapeCasts_S1x64_S64) shapeCasts_S64_S1x64 := by
    show StableHlo.after hostOps7_2 (StableHlo.after hostOps7_1 (StableHlo.after hostOps7 W)) (Proc.devRef .tc main_v297) = _
    rw [l7_2_v297, keep7_1 _ main_arg15 (by decide), keep7 _ main_arg15 (by decide)]
  rw [e]
  exact (row_roundtrip _ _ _ u j).trans (stack2_row (5 : Fin 8) _ _ 0 j)

theorem st7_v299 (W : Valuation τ sig (Elt Ideal)) (k : Fin 64) (a : Fin 4) :
    (st7 W (Proc.devRef .tc main_v299) : S64x4.Idx → EReal) (ix2 k a) = (W (Proc.devRef .tc main_v38) : S9x64x4.Idx → EReal) (ix3 6 k a) := by
  have e : (st7 W (Proc.devRef .tc main_v299) : S64x4.Idx → EReal)
      = shapeCast S64x4 (extractStridedSlice S1x64x4 ![6, 0, 0] (W (Proc.devRef .tc main_v38) : S9x64x4.Idx → EReal) slices_S9x64x4_S1x64x4_6_0_0) shapeCasts_S1x64x4_S64x4 := by
    show StableHlo.after hostOps7_2 (StableHlo.after hostOps7_1 (StableHlo.after hostOps7 W)) (Proc.devRef .tc main_v299) = _
    rw [l7_2_v299, keep7_1 _ main_v38 (by decide), keep7 _ main_v38 (by decide)]
  rw [e]
  exact stack3_entry (6 : Fin 9) _ _ _ k a

theorem st7_v302 (W : Valuation τ sig (Elt Ideal)) (u : Fin 1) (a : Fin 4) :
    (st7 W (Proc.devRef .tc main_v302) : S1x4.Idx → EReal) (ix2 u a) = (W (Proc.devRef .tc main_arg9) : S9x4.Idx → EReal) (ix2 6 a) := by
  have e : (st7 W (Proc.devRef .tc main_v302) : S1x4.Idx → EReal)
      = shapeCast S1x4 (shapeCast S4 (extractStridedSlice S1x4 ![6, 0] (W (Proc.devRef .tc main_arg9) : S9x4.Idx → EReal) slices_S9x4_S1x4_6_0) shapeCasts_S1x4_S4) shapeCasts_S4_S1x4 := by
    show StableHlo.after hostOps7_2 (StableHlo.after hostOps7_1 (StableHlo.after hostOps7 W)) (Proc.devRef .tc main_v302) = _
    rw [l7_2_v302, keep7_1 _ main_arg9 (by decide), keep7 _ main_arg9 (by decide)]
  rw [e]
  exact (row_roundtrip _ _ _ u a).trans (stack2_row (6 : Fin 9) _ _ 0 a)

theorem st7_v304 (W : Valuation τ sig (Elt Ideal)) (a : Fin 4) (q : Fin 1) :
    (st7 W (Proc.devRef .tc main_v304) : S4x1.Idx → EReal) (ix2 a q) = (W (Proc.devRef .tc main_v39) : S9x4x1.Idx → EReal) (ix3 6 a q) := by
  have e : (st7 W (Proc.devRef .tc main_v304) : S4x1.Idx → EReal)
      = shapeCast S4x1 (extractStridedSlice S1x4x1 ![6, 0, 0] (W (Proc.devRef .tc main_v39) : S9x4x1.Idx → EReal) slices_S9x4x1_S1x4x1_6_0_0) shapeCasts_S1x4x1_S4x1 := by
    show StableHlo.after hostOps7_2 (StableHlo.after hostOps7_1 (StableHlo.after hostOps7 W)) (Proc.devRef .tc main_v304) = _
    rw [l7_2_v304, keep7_1 _ main_v39 (by decide), keep7 _ main_v39 (by decide)]
  rw [e]
  exact stack3_entry (6 : Fin 9) _ _ _ a q

theorem st7_v307 (W : Valuation τ sig (Elt Ideal)) (u : Fin 1) (q : Fin 1) :
    (st7 W (Proc.devRef .tc main_v307) : S1x1.Idx → EReal) (ix2 u q) = (W (Proc.devRef .tc main_arg11) : S9x1.Idx → EReal) (ix2 6 q) := by
  have e : (st7 W (Proc.devRef .tc main_v307) : S1x1.Idx → EReal)
      = shapeCast S1x1 (shapeCast S1 (extractStridedSlice S1x1 ![6, 0] (W (Proc.devRef .tc main_arg11) : S9x1.Idx → EReal) slices_S9x1_S1x1_6_0) shapeCasts_S1x1_S1) shapeCasts_S1_S1x1 := by
    show StableHlo.after hostOps7_2 (StableHlo.after hostOps7_1 (StableHlo.after hostOps7 W)) (Proc.devRef .tc main_v307) = _
    rw [l7_2_v307, keep7_1 _ main_arg11 (by decide), keep7 _ main_arg11 (by decide)]
  rw [e]
  exact (row_roundtrip _ _ _ u q).trans (stack2_row (6 : Fin 9) _ _ 0 q)

theorem st7_v309 (W : Valuation τ sig (Elt Ideal)) (k : Fin 64) (j : Fin 64) :
    (st7 W (Proc.devRef .tc main_v309) : S64x64.Idx → EReal) (ix2 k j) = (W (Proc.devRef .tc main_v37) : S8x64x64.Idx → EReal) (ix3 6 k j) := by
  have e : (st7 W (Proc.devRef .tc main_v309) : S64x64.Idx → EReal)
      = shapeCast S64x64 (extractStridedSlice S1x64x64 ![6, 0, 0] (W (Proc.devRef .tc main_v37) : S8x64x64.Idx → EReal) slices_S8x64x64_S1x64x64_6_0_0) shapeCasts_S1x64x64_S64x64 := by
    show StableHlo.after hostOps7_2 (StableHlo.after hostOps7_1 (StableHlo.after hostOps7 W)) (Proc.devRef .tc main_v309) = _
    rw [l7_2_v309, keep7_1 _ main_v37 (by decide), keep7 _ main_v37 (by decide)]
  rw [e]
  exact stack3_entry (6 : Fin 8) _ _ _ k j

end Cert.KernelIdeal.KHost

end
-- ==== Proof.KReg7.lean ====
import proofs.«428538_j32280974197073_1_alg».proof.Proof.KReg2

noncomputable section

namespace Cert.KernelIdeal.KReg7

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hz fusedArr projArr store11 store12)

/-! ## The region -/

theorem idx_facts : ∀ t : Fin cfg7.N,
    win7_0.index t (0 : Fin 2) = t.val ∧ win7_0.index t (1 : Fin 2) = 0
    ∧ win7_5.index t (0 : Fin 2) = t.val ∧ win7_5.index t (1 : Fin 2) = 0
    ∧ win7_11.index t (0 : Fin 2) = t.val ∧ win7_11.index t (1 : Fin 2) = 0
    ∧ win7_12.index t (0 : Fin 2) = t.val ∧ win7_12.index t (1 : Fin 2) = 0 :=
  (by decide +kernel : ∀ t : Fin grid7.N, _)

theorem idx_facts_res : ∀ t : Fin cfg7.N,
    win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0
    ∧ win7_10.index t (0 : Fin 2) = 0 ∧ win7_10.index t (1 : Fin 2) = 0 :=
  (by decide +kernel : ∀ t : Fin grid7.N, _)

def rowOf (t : Fin cfg7.N) (p : Fin 2000) : Fin 50000 :=
  ⟨t.val * 2000 + p.val, by have h : cfg7.N = 25 := N_7; have := t.isLt; have := p.isLt; omega⟩

theorem read0 (t : Fin cfg7.N) (A : Vec Ideal S50000x64 .f32) (p : Fin 2000) (k : Fin 64) :
    (((cfg7.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win7_0.index t (0 : Fin 2) * 2000 + 1 * p.val = t.val * 2000 + p.val; rw [e0a]; omega
  | ⟨1, _⟩ => show win7_0.index t (1 : Fin 2) * 64 + 1 * k.val = k.val; rw [e0b]; omega

theorem read5 (t : Fin cfg7.N) (A : Vec Ideal S50000x64 .f32) (p : Fin 2000) (k : Fin 64) :
    (((cfg7.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win7_5.index t (0 : Fin 2) * 2000 + 1 * p.val = t.val * 2000 + p.val; rw [e0a]; omega
  | ⟨1, _⟩ => show win7_5.index t (1 : Fin 2) * 64 + 1 * k.val = k.val; rw [e0b]; omega

theorem read11 (t : Fin cfg7.N) (A : Vec Ideal S50000x64 .f32) (p : Fin 2000) (k : Fin 64) :
    (((cfg7.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win7_11.index t (0 : Fin 2) * 2000 + 1 * p.val = t.val * 2000 + p.val; rw [e0a]; omega
  | ⟨1, _⟩ => show win7_11.index t (1 : Fin 2) * 64 + 1 * k.val = k.val; rw [e0b]; omega

theorem read12 (t : Fin cfg7.N) (A : Vec Ideal S50000x64 .f32) (p : Fin 2000) (k : Fin 64) :
    (((cfg7.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win7_12.index t (0 : Fin 2) * 2000 + 1 * p.val = t.val * 2000 + p.val; rw [e0a]; omega
  | ⟨1, _⟩ => show win7_12.index t (1 : Fin 2) * 64 + 1 * k.val = k.val; rw [e0b]; omega

theorem read1 (t : Fin cfg7.N) (A : Vec Ideal S1x64 .f32) : ((cfg7.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_1.index t (0 : Fin 2) * 1 + 1 * (y 0).val = (y 0).val; rw [e1a]; omega
  | ⟨1, _⟩ => show win7_1.index t (1 : Fin 2) * 64 + 1 * (y 1).val = (y 1).val; rw [e1b]; omega

theorem read2 (t : Fin cfg7.N) (A : Vec Ideal S1x64 .f32) : ((cfg7.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_2.index t (0 : Fin 2) * 1 + 1 * (y 0).val = (y 0).val; rw [e2a]; omega
  | ⟨1, _⟩ => show win7_2.index t (1 : Fin 2) * 64 + 1 * (y 1).val = (y 1).val; rw [e2b]; omega

theorem read3 (t : Fin cfg7.N) (A : Vec Ideal S1x64 .f32) : ((cfg7.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_3.index t (0 : Fin 2) * 1 + 1 * (y 0).val = (y 0).val; rw [e3a]; omega
  | ⟨1, _⟩ => show win7_3.index t (1 : Fin 2) * 64 + 1 * (y 1).val = (y 1).val; rw [e3b]; omega

theorem read4 (t : Fin cfg7.N) (A : Vec Ideal S1x64 .f32) : ((cfg7.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_4.index t (0 : Fin 2) * 1 + 1 * (y 0).val = (y 0).val; rw [e4a]; omega
  | ⟨1, _⟩ => show win7_4.index t (1 : Fin 2) * 64 + 1 * (y 1).val = (y 1).val; rw [e4b]; omega

theorem read6 (t : Fin cfg7.N) (A : Vec Ideal S64x4 .bf16) : ((cfg7.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_6.index t (0 : Fin 2) * 64 + 1 * (y 0).val = (y 0).val; rw [e6a]; omega
  | ⟨1, _⟩ => show win7_6.index t (1 : Fin 2) * 4 + 1 * (y 1).val = (y 1).val; rw [e6b]; omega

theorem read7 (t : Fin cfg7.N) (A : Vec Ideal S1x4 .f32) : ((cfg7.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_7.index t (0 : Fin 2) * 1 + 1 * (y 0).val = (y 0).val; rw [e7a]; omega
  | ⟨1, _⟩ => show win7_7.index t (1 : Fin 2) * 4 + 1 * (y 1).val = (y 1).val; rw [e7b]; omega

theorem read8 (t : Fin cfg7.N) (A : Vec Ideal S4x1 .bf16) : ((cfg7.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_8.index t (0 : Fin 2) * 4 + 1 * (y 0).val = (y 0).val; rw [e8a]; omega
  | ⟨1, _⟩ => show win7_8.index t (1 : Fin 2) * 1 + 1 * (y 1).val = (y 1).val; rw [e8b]; omega

theorem read9 (t : Fin cfg7.N) (A : Vec Ideal S1x1 .f32) : ((cfg7.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_9.index t (0 : Fin 2) * 1 + 1 * (y 0).val = (y 0).val; rw [e9a]; omega
  | ⟨1, _⟩ => show win7_9.index t (1 : Fin 2) * 1 + 1 * (y 1).val = (y 1).val; rw [e9b]; omega

theorem read10 (t : Fin cfg7.N) (A : Vec Ideal S64x64 .bf16) : ((cfg7.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win7_10.index t (0 : Fin 2) * 64 + 1 * (y 0).val = (y 0).val; rw [e10a]; omega
  | ⟨1, _⟩ => show win7_10.index t (1 : Fin 2) * 64 + 1 * (y 1).val = (y 1).val; rw [e10b]; omega

theorem mem_blk11 (t : Fin cfg7.N) (i : S50000x64.Idx) :
    i ∈ ((cfg7.win 11).blk t).view.set ↔ ∀ a : Fin 2, win7_11.index t a * S2000x64.size a ≤ (i a).val ∧ (i a).val < win7_11.index t a * S2000x64.size a + S2000x64.size a := by
  show i ∈ ((View.whole main_v310_0).slice (win7_11.rect t)).set ↔ _
  rw [View.set_slice_whole, Rect.mem_set_unit]
  exact Iff.rfl
theorem mem_blk12 (t : Fin cfg7.N) (i : S50000x64.Idx) :
    i ∈ ((cfg7.win 12).blk t).view.set ↔ ∀ a : Fin 2, win7_12.index t a * S2000x64.size a ≤ (i a).val ∧ (i a).val < win7_12.index t a * S2000x64.size a + S2000x64.size a := by
  show i ∈ ((View.whole main_v310_1).slice (win7_12.rect t)).set ↔ _
  rw [View.set_slice_whole, Rect.mem_set_unit]
  exact Iff.rfl

def pointOf (i : S50000x64.Idx) : Fin cfg7.N :=
  ⟨(i 0).val / 2000, by have h : cfg7.N = 25 := N_7; have : (i 0).val < 50000 := (i 0).isLt; omega⟩

theorem cover11 (i : S50000x64.Idx) : ∃ t : Fin cfg7.N, (cfg7.win 11).flush t = true ∧ i ∈ ((cfg7.win 11).blk t).view.set := by
  refine ⟨pointOf i, flush7_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win7_11.index (pointOf i) (0 : Fin 2) * 2000 ≤ (i 0).val ∧ (i 0).val < win7_11.index (pointOf i) (0 : Fin 2) * 2000 + 2000; rw [e0a, hp]; omega
  | ⟨1, _⟩ => show win7_11.index (pointOf i) (1 : Fin 2) * 64 ≤ (i 1).val ∧ (i 1).val < win7_11.index (pointOf i) (1 : Fin 2) * 64 + 64; rw [e0b]; omega

theorem cover12 (i : S50000x64.Idx) : ∃ t : Fin cfg7.N, (cfg7.win 12).flush t = true ∧ i ∈ ((cfg7.win 12).blk t).view.set := by
  refine ⟨pointOf i, flush7_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win7_12.index (pointOf i) (0 : Fin 2) * 2000 ≤ (i 0).val ∧ (i 0).val < win7_12.index (pointOf i) (0 : Fin 2) * 2000 + 2000; rw [e0a, hp]; omega
  | ⟨1, _⟩ => show win7_12.index (pointOf i) (1 : Fin 2) * 64 ≤ (i 1).val ∧ (i 1).val < win7_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v286
abbrev meanIn (c : Dev nD) : Vec Ideal S1x64 .f32 := V c main_v290
abbrev varIn (c : Dev nD) : Vec Ideal S1x64 .f32 := V c main_v291
abbrev gammaIn (c : Dev nD) : Vec Ideal S1x64 .f32 := V c main_v294
abbrev betaIn (c : Dev nD) : Vec Ideal S1x64 .f32 := V c main_v297
abbrev fusedIn (c : Dev nD) : Vec Ideal S50000x64 .f32 := V c main_v269_0
abbrev lw1In (c : Dev nD) : Vec Ideal S64x4 .bf16 := V c main_v299
abbrev lb1In (c : Dev nD) : Vec Ideal S1x4 .f32 := V c main_v302
abbrev lw2In (c : Dev nD) : Vec Ideal S4x1 .bf16 := V c main_v304
abbrev lb2In (c : Dev nD) : Vec Ideal S1x1 .f32 := V c main_v307
abbrev bwIn (c : Dev nD) : Vec Ideal S64x64 .bf16 := V c main_v309

theorem flushed11_eq (c : Dev nD) (t : Fin cfg7.N) :
    (dat7 (F := Ideal) V c).flushed 11 t
      = ((cfg7.win 11).blk t).view.read (Elt Ideal) (fusedArr (aggIn V c) (meanIn V c) (varIn V c) (gammaIn V c) (betaIn V c) (fusedIn V c) (lw1In V c) (lb1In V c) (lw2In V c) (lb2In V c)) := by
  show (cfg7.win 11).cut (grid7.coords t) ((dat7 (F := Ideal) V c).after 11 t) = _
  rw [after7_11]
  unfold out7_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg7.N) :
    (dat7 (F := Ideal) V c).flushed 12 t
      = ((cfg7.win 12).blk t).view.read (Elt Ideal) (projArr (aggIn V c) (meanIn V c) (varIn V c) (gammaIn V c) (betaIn V c) (fusedIn V c) (lw1In V c) (lb1In V c) (lw2In V c) (lb2In V c) (bwIn V c)) := by
  show (cfg7.win 12).cut (grid7.coords t) ((dat7 (F := Ideal) V c).after 12 t) = _
  rw [after7_12]
  unfold out7_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat7 (F := Ideal) V c).arrAt 11 cfg7.N = fusedArr (aggIn V c) (meanIn V c) (varIn V c) (gammaIn V c) (betaIn V c) (fusedIn V c) (lw1In V c) (lb1In V c) (lw2In V c) (lb2In V c) :=
  (dat7 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat7 (F := Ideal) V c).arrAt 12 cfg7.N = projArr (aggIn V c) (meanIn V c) (varIn V c) (gammaIn V c) (betaIn V c) (fusedIn V c) (lw1In V c) (lb1In V c) (lw2In V c) (lb2In V c) (bwIn V c) :=
  (dat7 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg7

end
-- ==== Proof.KChain.Link7.lean ====
/- Template: proof/Proof/KChain/Link2.lean, whole. Substitutions, all at once: Link2 -> Link7, KHost.L2 -> KHost.L7, st2_keep -> st7_keep, wrS2 -> wrS7,
   st2_v<n> -> st7_v<n + 205>, Proof.KReg2 -> Proof.KReg7, KReg2.final -> KReg7.final, spec2 -> spec7, main_v<n> -> main_v<n + 205> for n >= 64,
   W<n> and V<n> -> W<n + 20> and V<n + 20> for n >= 8, (0 : Fin 8) -> (5 : Fin 8), (1 : Fin 9) -> (6 : Fin 9), (1 : Fin 8) -> (6 : Fin 8),
   and the heading's layer and region numbers. -/
/-
  Backbone layer 5 (kernel region 7), linked to the specification.

  Between the previous region's exit and this region's entry the host operations aggregate the previous projection over
  the edges, add the layer's bias, take the aggregate's per-feature mean and variance, and slice the layer's parameters
  out of their stacks; the region then leaves the new fused state and the new projection. Read as matrices, the two
  arrays are the specification's state after the layer, given that the two arrays the previous region left are the
  specification's state before it.
-/
import proofs.«428538_j32280974197073_1_alg».proof.Proof.Gen.KernelIdeal.Frame
import proofs.«428538_j32280974197073_1_alg».proof.Proof.KHost.L7
import proofs.«428538_j32280974197073_1_alg».proof.Proof.KReg7
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link7

variable (m : (ℓ : Loc nD τ sig) → Buf (Elt Ideal) ℓ) (ρ : Dev nD → PrngReg)

/-! ## The buffers computed once are kept -/

/-- No buffer computed once before the first region is written by this stretch of host operations. -/
theorem static_nw : ∀ b ∈ staticRefs, b ∉ KHost.wrS7 := by decide

/-- None is an array of this region. -/
theorem static_ne : ∀ b ∈ staticRefs, ∀ w, Pipeline.arrRef spec7 w ≠ b := by decide

/-- So each holds at the region's exit what it held at the previous region's exit. -/
theorem keeps (c : Dev nD) : Keeps (W28 m ρ c) (W32 m ρ c) := fun b hb =>
  (W32_of_ne m ρ c b (static_ne b hb)).trans (KHost.st7_keep (W28 m ρ c) b (static_nw b hb))

/-! ## The region's exit arrays as functions of its entry arrays -/

/-- The new fused state the region leaves, as a function of the arrays it was entered with. -/
theorem exit_fused (c : Dev nD) :
    (W32 m ρ c (Proc.devRef .tc main_v310_0) : Vec Ideal S50000x64 .f32)
      = KReg2.fusedArr
          (W31 m ρ c (Proc.devRef .tc main_v286) : Vec Ideal S50000x64 .f32)
          (W31 m ρ c (Proc.devRef .tc main_v290) : Vec Ideal S1x64 .f32)
          (W31 m ρ c (Proc.devRef .tc main_v291) : Vec Ideal S1x64 .f32)
          (W31 m ρ c (Proc.devRef .tc main_v294) : Vec Ideal S1x64 .f32)
          (W31 m ρ c (Proc.devRef .tc main_v297) : Vec Ideal S1x64 .f32)
          (W31 m ρ c (Proc.devRef .tc main_v269_0) : Vec Ideal S50000x64 .f32)
          (W31 m ρ c (Proc.devRef .tc main_v299) : Vec Ideal S64x4 .bf16)
          (W31 m ρ c (Proc.devRef .tc main_v302) : Vec Ideal S1x4 .f32)
          (W31 m ρ c (Proc.devRef .tc main_v304) : Vec Ideal S4x1 .bf16)
          (W31 m ρ c (Proc.devRef .tc main_v307) : Vec Ideal S1x1 .f32) :=
  (W32_arr m ρ c 11).trans (KReg7.final11 (V31 m ρ) c)

/-- The new projection the region leaves, as a function of the arrays it was entered with. -/
theorem exit_proj (c : Dev nD) :
    (W32 m ρ c (Proc.devRef .tc main_v310_1) : Vec Ideal S50000x64 .f32)
      = KReg2.projArr
          (W31 m ρ c (Proc.devRef .tc main_v286) : Vec Ideal S50000x64 .f32)
          (W31 m ρ c (Proc.devRef .tc main_v290) : Vec Ideal S1x64 .f32)
          (W31 m ρ c (Proc.devRef .tc main_v291) : Vec Ideal S1x64 .f32)
          (W31 m ρ c (Proc.devRef .tc main_v294) : Vec Ideal S1x64 .f32)
          (W31 m ρ c (Proc.devRef .tc main_v297) : Vec Ideal S1x64 .f32)
          (W31 m ρ c (Proc.devRef .tc main_v269_0) : Vec Ideal S50000x64 .f32)
          (W31 m ρ c (Proc.devRef .tc main_v299) : Vec Ideal S64x4 .bf16)
          (W31 m ρ c (Proc.devRef .tc main_v302) : Vec Ideal S1x4 .f32)
          (W31 m ρ c (Proc.devRef .tc main_v304) : Vec Ideal S4x1 .bf16)
          (W31 m ρ c (Proc.devRef .tc main_v307) : Vec Ideal S1x1 .f32)
          (W31 m ρ c (Proc.devRef .tc main_v309) : Vec Ideal S64x64 .bf16) :=
  (W32_arr m ρ c 12).trans (KReg7.final12 (V31 m ρ) c)

/-! ## The region's entry arrays, from the previous region's exit -/

/-- The aggregate: the edge aggregation of the previous projection, plus the layer's bias. -/
theorem e_agg (c : Dev nD) (hst : Keeps (W3 m ρ c) (W28 m ρ c)) (i : Fin 50000) (j : Fin 64) :
    (W31 m ρ c (Proc.devRef .tc main_v286) : Vec Ideal S50000x64 .f32) (ix2 i j)
      = KHost.scatK (W28 m ρ c (Proc.devRef .tc main_v269_1)) (KHost.srcOf (m ((c : Thread nD τ).loc main_arg1))) (KHost.enormOf (m ((c : Thread nD τ).loc main_arg1))) (KHost.dstOf (m ((c : Thread nD τ).loc main_arg1))) (ix2 i j)
        + (paramsK m c).bb (5 : Fin 8) j := by
  have h := KHost.st7_v286 (W28 m ρ c) i j
  rw [st_src hst, st_enorm hst, st_dst hst, st_arg13 hst] at h
  exact h

/-- The mean's row: the aggregate's per-feature sum over the number of nodes. -/
theorem e_mean (c : Dev nD) (k : Fin 64) :
    (W31 m ρ c (Proc.devRef .tc main_v290) : Vec Ideal S1x64 .f32) (ix2 (0 : Fin 1) k) = Cert.Spec.meanOf (KHost.sum64K (W31 m ρ c (Proc.devRef .tc main_v286) : Vec Ideal S50000x64 .f32) (ix1 k)) :=
  KHost.st7_v290 (W28 m ρ c) 0 k

/-- The variance's row: the aggregate's per-feature variance. -/
theorem e_var (c : Dev nD) (k : Fin 64) :
    (W31 m ρ c (Proc.devRef .tc main_v291) : Vec Ideal S1x64 .f32) (ix2 (0 : Fin 1) k) = KHost.var64K (W31 m ρ c (Proc.devRef .tc main_v286) : Vec Ideal S50000x64 .f32) (ix2 (0 : Fin 1) k) :=
  congrFun (KHost.st7_v291 (W28 m ρ c)) (ix2 (0 : Fin 1) k)

/-- The scale's row: the layer's row of the stacked scales. -/
theorem e_gamma (c : Dev nD) (hst : Keeps (W3 m ρ c) (W28 m ρ c)) (k : Fin 64) :
    (W31 m ρ c (Proc.devRef .tc main_v294) : Vec Ideal S1x64 .f32) (ix2 (0 : Fin 1) k) = (paramsK m c).bg (5 : Fin 8) k := by
  have h := KHost.st7_v294 (W28 m ρ c) 0 k
  rw [st_arg14 hst] at h
  exact h

/-- The shift's row: the layer's row of the stacked shifts. -/
theorem e_beta (c : Dev nD) (hst : Keeps (W3 m ρ c) (W28 m ρ c)) (k : Fin 64) :
    (W31 m ρ c (Proc.devRef .tc main_v297) : Vec Ideal S1x64 .f32) (ix2 (0 : Fin 1) k) = (paramsK m c).bbe (5 : Fin 8) k := by
  have h := KHost.st7_v297 (W28 m ρ c) 0 k
  rw [st_arg15 hst] at h
  exact h

/-- The fused state is the one the previous region left. -/
theorem e_fused (c : Dev nD) : W31 m ρ c (Proc.devRef .tc main_v269_0) = W28 m ρ c (Proc.devRef .tc main_v269_0) :=
  KHost.st7_keep (W28 m ρ c) main_v269_0 (by decide)

/-- The gate's first matrix: the layer's member of the stack. -/
theorem e_lw1 (c : Dev nD) (hst : Keeps (W3 m ρ c) (W28 m ρ c)) :
    Cert.Pack.mat (W31 m ρ c (Proc.devRef .tc main_v299) : Vec Ideal S64x4 .bf16) = (paramsK m c).lw1 (6 : Fin 9) := by
  funext k a
  have h := KHost.st7_v299 (W28 m ρ c) k a
  rw [st_v38 hst] at h
  exact h

/-- The gate's first bias: the layer's row of the stack. -/
theorem e_lb1 (c : Dev nD) (hst : Keeps (W3 m ρ c) (W28 m ρ c)) (a : Fin 4) :
    (W31 m ρ c (Proc.devRef .tc main_v302) : Vec Ideal S1x4 .f32) (ix2 (0 : Fin 1) a) = (paramsK m c).lb1 (6 : Fin 9) a := by
  have h := KHost.st7_v302 (W28 m ρ c) 0 a
  rw [st_arg9 hst] at h
  exact h

/-- The gate's read-out column: the layer's member of the stack. -/
theorem e_lw2 (c : Dev nD) (hst : Keeps (W3 m ρ c) (W28 m ρ c)) (a : Fin 4) :
    (W31 m ρ c (Proc.devRef .tc main_v304) : Vec Ideal S4x1 .bf16) (ix2 a (0 : Fin 1)) = (paramsK m c).lw2 (6 : Fin 9) a := by
  have h := KHost.st7_v304 (W28 m ρ c) a 0
  rw [st_v39 hst] at h
  exact h

/-- The gate's last bias: the layer's entry of the stack. -/
theorem e_lb2 (c : Dev nD) (hst : Keeps (W3 m ρ c) (W28 m ρ c)) :
    (W31 m ρ c (Proc.devRef .tc main_v307) : Vec Ideal S1x1 .f32) (ix2 (0 : Fin 1) (0 : Fin 1)) = (paramsK m c).lb2 (6 : Fin 9) := by
  have h := KHost.st7_v307 (W28 m ρ c) 0 0
  rw [st_arg11 hst] at h
  exact h

/-- The next layer's weights: its member of the stack. -/
theorem e_bw (c : Dev nD) (hst : Keeps (W3 m ρ c) (W28 m ρ c)) :
    Cert.Pack.mat (W31 m ρ c (Proc.devRef .tc main_v309) : Vec Ideal S64x64 .bf16) = (paramsK m c).bw (6 : Fin 8) := by
  funext k j
  have h := KHost.st7_v309 (W28 m ρ c) k j
  rw [st_v37 hst] at h
  exact h

/-! ## The link -/

/-- If the two arrays the previous region left read as the specification's state before the layer, the two arrays this
    region leaves read as its state after the layer; and the buffers computed once are still what they were. -/
theorem link (c : Dev nD) (s : Cert.Spec.Mat 50000 64 × Cert.Spec.Mat 50000 64)
    (hst : Keeps (W3 m ρ c) (W28 m ρ c))
    (hfu : Cert.Pack.mat (W28 m ρ c (Proc.devRef .tc main_v269_0) : Vec Ideal S50000x64 .f32) = s.1)
    (hpj : Cert.Pack.mat (W28 m ρ c (Proc.devRef .tc main_v269_1) : Vec Ideal S50000x64 .f32)
      = fun i j => Cert.Spec.proj (s.2 i) ((paramsK m c).bw (5 : Fin 8)) j) :
    Keeps (W3 m ρ c) (W32 m ρ c)
      ∧ Cert.Pack.mat (W32 m ρ c (Proc.devRef .tc main_v310_0) : Vec Ideal S50000x64 .f32)
          = (Cert.Spec.layer (opsK (m ((c : Thread nD τ).loc main_arg1))) (paramsK m c) (5 : Fin 8) (6 : Fin 9) s).1
      ∧ Cert.Pack.mat (W32 m ρ c (Proc.devRef .tc main_v310_1) : Vec Ideal S50000x64 .f32)
          = fun i j => Cert.Spec.proj
              ((Cert.Spec.layer (opsK (m ((c : Thread nD τ).loc main_arg1))) (paramsK m c) (5 : Fin 8) (6 : Fin 9) s).2 i)
              ((paramsK m c).bw (6 : Fin 8)) j :=
  ⟨hst.trans (keeps m ρ c),
   layer_link (opsK (m ((c : Thread nD τ).loc main_arg1))) (paramsK m c) (5 : Fin 8) (6 : Fin 9) (6 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W28 m ρ c (Proc.devRef .tc main_v269_1) : Vec Ideal S50000x64 .f32) hpj
    (W32 m ρ c (Proc.devRef .tc main_v310_0) : Vec Ideal S50000x64 .f32) (W32 m ρ c (Proc.devRef .tc main_v310_1) : Vec Ideal S50000x64 .f32)
    (W31 m ρ c (Proc.devRef .tc main_v286) : Vec Ideal S50000x64 .f32) (W31 m ρ c (Proc.devRef .tc main_v290) : Vec Ideal S1x64 .f32) (W31 m ρ c (Proc.devRef .tc main_v291) : Vec Ideal S1x64 .f32) (W31 m ρ c (Proc.devRef .tc main_v294) : Vec Ideal S1x64 .f32)
    (W31 m ρ c (Proc.devRef .tc main_v297) : Vec Ideal S1x64 .f32) (W31 m ρ c (Proc.devRef .tc main_v269_0) : Vec Ideal S50000x64 .f32) (W31 m ρ c (Proc.devRef .tc main_v299) : Vec Ideal S64x4 .bf16) (W31 m ρ c (Proc.devRef .tc main_v302) : Vec Ideal S1x4 .f32)
    (W31 m ρ c (Proc.devRef .tc main_v304) : Vec Ideal S4x1 .bf16) (W31 m ρ c (Proc.devRef .tc main_v307) : Vec Ideal S1x1 .f32) (W31 m ρ c (Proc.devRef .tc main_v309) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link7

end Cert.KernelIdeal.KChain

end
-- ==== Proof.KHost.L8.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st8 (W : Valuation τ sig (Elt Ideal)) : Valuation τ sig (Elt Ideal) :=
  StableHlo.after hostOps8_2 (StableHlo.after hostOps8_1 (StableHlo.after hostOps8 W))

noncomputable def wr8 : List (Ref sig .tc) :=
  [main_c_46, main_v311, main_v312, main_c_47, main_v313, main_v314, main_v315, main_v316, main_v317, main_v318, main_v319, main_cst_48, main_v320, main_v321, main_v322, main_v323, main_v324, main_v325, main_v326, main_v327, main_cst_49, main_v328, main_v329, main_cst_50, main_v330, main_v331, main_c_51]
noncomputable def wr8_1 : List (Ref sig .tc) :=
  [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v332]
noncomputable def wr8_2 : List (Ref sig .tc) :=
  [main_v333, main_v334, main_v335, main_v336, main_v337, main_v338, main_v339, main_v340, main_v341, main_v342, main_v343, main_v344, main_v345, main_v346, main_v347, main_v348, main_v349, main_v350]
noncomputable def wrS8 : List (Ref sig .tc) := wr8 ++ wr8_1 ++ wr8_2

theorem keep8 (W : Valuation τ sig (Elt Ideal)) (b : Ref sig .tc) (hb : b ∉ wr8) :
    StableHlo.after hostOps8 W (Proc.devRef .tc b) = W (Proc.devRef .tc b) :=
  StableHlo.after_of_writes_sub hostOps8 W (by
    simp only [hostOps8, wr8, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep8_1 (W : Valuation τ sig (Elt Ideal)) (b : Ref sig .tc) (hb : b ∉ wr8_1) :
    StableHlo.after hostOps8_1 W (Proc.devRef .tc b) = W (Proc.devRef .tc b) :=
  StableHlo.after_of_writes_sub hostOps8_1 W (by
    simp only [hostOps8_1, wr8_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep8_2 (W : Valuation τ sig (Elt Ideal)) (b : Ref sig .tc) (hb : b ∉ wr8_2) :
    StableHlo.after hostOps8_2 W (Proc.devRef .tc b) = W (Proc.devRef .tc b) :=
  StableHlo.after_of_writes_sub hostOps8_2 W (by
    simp only [hostOps8_2, wr8_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st8_keep (W : Valuation τ sig (Elt Ideal)) (b : Ref sig .tc) (hb : b ∉ wrS8) :
    st8 W (Proc.devRef .tc b) = W (Proc.devRef .tc b) :=
  (keep8_2 _ b fun h => hb (List.mem_append_right _ h)).trans
    ((keep8_1 _ b fun h => hb (List.mem_append_left _ (List.mem_append_right _ h))).trans
      (keep8 W b fun h => hb (List.mem_append_left _ (List.mem_append_left _ h))))

theorem l8_v327 (X : Valuation τ sig (Elt Ideal)) :
    StableHlo.after hostOps8 X (Proc.devRef .tc main_v327)
      = (addf (scatK (X (Proc.devRef .tc main_v310_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![6, 0] (X (Proc.devRef .tc main_arg13)) slices_S8x64_S1x64_6_0) shapeCasts_S1x64_S64))) :
          FVec Ideal S50000x64 .f32) := by
  simp only [hostOps8]; after_results_simp; all_goals rfl

theorem l8_v331 (X : Valuation τ sig (Elt Ideal)) :
    StableHlo.after hostOps8 X (Proc.devRef .tc main_v331)
      = (Host.divf (broadcastInDim S1x64 ![1] bcast_S64_S1x64_1 (sum64K (StableHlo.after hostOps8 X (Proc.devRef .tc main_v327))))
          (broadcastInDim S1x64 ![] bcast_S_S1x64 (constant S_ .f32 0x47435000#32)) : FVec Ideal S1x64 .f32) := by
  rw [← List.take_append_drop 20 (hostOps8 (F := Ideal)), after_append]
  generalize StableHlo.after (List.take 20 hostOps8) X = Y
  simp only [hostOps8, List.drop_succ_cons, List.drop_zero]
  after_results; all_goals rfl

theorem l8_c_51 (X : Valuation τ sig (Elt Ideal)) :
    StableHlo.after hostOps8 X (Proc.devRef .tc main_c_51) = (constantI S_ 32 0#32 : IVec S_ 32) := by
  simp only [hostOps8]; after_results; all_goals rfl

theorem l8_1_v332 (X : Valuation τ sig (Elt Ideal)) (h0 : X (Proc.devRef .tc main_c_51) = (constantI S_ 32 0#32 : IVec S_ 32)) :
    StableHlo.after hostOps8_1 X (Proc.devRef .tc main_v332) = var64K (X (Proc.devRef .tc main_v327)) := by
  simp only [hostOps8_1]; after_results_simp; rw [h0]; rfl

theorem l8_2_v335 (X : Valuation τ sig (Elt Ideal)) :
    StableHlo.after hostOps8_2 X (Proc.devRef .tc main_v335)
      = (shapeCast S1x64 (shapeCast S64 (extractStridedSlice S1x64 ![6, 0] (X (Proc.devRef .tc main_arg14)) slices_S8x64_S1x64_6_0) shapeCasts_S1x64_S64) shapeCasts_S64_S1x64 :
          FVec Ideal S1x64 .f32) := by
  simp only [hostOps8_2]; after_results; all_goals rfl

theorem l8_2_v338 (X : Valuation τ sig (Elt Ideal)) :
    StableHlo.after hostOps8_2 X (Proc.devRef .tc main_v338)
      = (shapeCast S1x64 (shapeCast S64 (extractStridedSlice S1x64 ![6, 0] (X (Proc.devRef .tc main_arg15)) slices_S8x64_S1x64_6_0) shapeCasts_S1x64_S64) shapeCasts_S64_S1x64 :
          FVec Ideal S1x64 .f32) := by
  simp only [hostOps8_2]; after_results; all_goals rfl

theorem l8_2_v340 (X : Valuation τ sig (Elt Ideal)) :
    StableHlo.after hostOps8_2 X (Proc.devRef .tc main_v340)
      = (shapeCast S64x4 (extractStridedSlice S1x64x4 ![7, 0, 0] (X (Proc.devRef .tc main_v38)) slices_S9x64x4_S1x64x4_7_0_0) shapeCasts_S1x64x4_S64x4 :
          FVec Ideal S64x4 .bf16) := by
  simp only [hostOps8_2]; after_results; all_goals rfl

theorem l8_2_v343 (X : Valuation τ sig (Elt Ideal)) :
    StableHlo.after hostOps8_2 X (Proc.devRef .tc main_v343)
      = (shapeCast S1x4 (shapeCast S4 (extractStridedSlice S1x4 ![7, 0] (X (Proc.devRef .tc main_arg9)) slices_S9x4_S1x4_7_0) shapeCasts_S1x4_S4) shapeCasts_S4_S1x4 :
          FVec Ideal S1x4 .f32) := by
  simp only [hostOps8_2]; after_results; all_goals rfl

theorem l8_2_v345 (X : Valuation τ sig (Elt Ideal)) :
    StableHlo.after hostOps8_2 X (Proc.devRef .tc main_v345)
      = (shapeCast S4x1 (extractStridedSlice S1x4x1 ![7, 0, 0] (X (Proc.devRef .tc main_v39)) slices_S9x4x1_S1x4x1_7_0_0) shapeCasts_S1x4x1_S4x1 :
          FVec Ideal S4x1 .bf16) := by
  simp only [hostOps8_2]; after_results; all_goals rfl

theorem l8_2_v348 (X : Valuation τ sig (Elt Ideal)) :
    StableHlo.after hostOps8_2 X (Proc.devRef .tc main_v348)
      = (shapeCast S1x1 (shapeCast S1 (extractStridedSlice S1x1 ![7, 0] (X (Proc.devRef .tc main_arg11)) slices_S9x1_S1x1_7_0) shapeCasts_S1x1_S1) shapeCasts_S1_S1x1 :
          FVec Ideal S1x1 .f32) := by
  simp only [hostOps8_2]; after_results; all_goals rfl

theorem l8_2_v350 (X : Valuation τ sig (Elt Ideal)) :
    StableHlo.after hostOps8_2 X (Proc.devRef .tc main_v350)
      = (shapeCast S64x64 (extractStridedSlice S1x64x64 ![7, 0, 0] (X (Proc.devRef .tc main_v37)) slices_S8x64x64_S1x64x64_7_0_0) shapeCasts_S1x64x64_S64x64 :
          FVec Ideal S64x64 .bf16) := by
  simp only [hostOps8_2]; after_results; all_goals rfl

theorem st8_v327 (W : Valuation τ sig (Elt Ideal)) (i : Fin 50000) (j : Fin 64) :
    (st8 W (Proc.devRef .tc main_v327) : S50000x64.Idx → EReal) (ix2 i j)
      = scatK (W (Proc.devRef .tc main_v310_1)) (W (Proc.devRef .tc main_v3)) (W (Proc.devRef .tc main_v32)) (W (Proc.devRef .tc main_v6)) (ix2 i j)
        + (W (Proc.devRef .tc main_arg13) : S8x64.Idx → EReal) (ix2 6 j) := by
  have e : (st8 W (Proc.devRef .tc main_v327) : S50000x64.Idx → EReal)
      = addf (scatK (W (Proc.devRef .tc main_v310_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![6, 0] (W (Proc.devRef .tc main_arg13) : S8x64.Idx → EReal) slices_S8x64_S1x64_6_0) shapeCasts_S1x64_S64))) := by
    show StableHlo.after hostOps8_2 (StableHlo.after hostOps8_1 (StableHlo.after hostOps8 W)) (Proc.devRef .tc main_v327) = _
    rw [keep8_2 _ main_v327 (by decide), keep8_1 _ main_v327 (by decide), l8_v327]
  rw [e, addf_apply, bcast_1b_ab, bcast_b_1b]
  exact congrArg (_ + ·) ((shapeCast_1a_a_apply _ _ j).trans (stack2_row (6 : Fin 8) _ _ 0 j))

theorem st8_v331 (W : Valuation τ sig (Elt Ideal)) (u : Fin 1) (j : Fin 64) :
    (st8 W (Proc.devRef .tc main_v331) : S1x64.Idx → EReal) (ix2 u j)
      = Cert.Spec.meanOf (sum64K (st8 W (Proc.devRef .tc main_v327)) (ix1 j)) := by
  have e : (st8 W (Proc.devRef .tc main_v331) : S1x64.Idx → EReal)
      = Host.divf (broadcastInDim S1x64 ![1] bcast_S64_S1x64_1 (sum64K (st8 W (Proc.devRef .tc main_v327))))
          (broadcastInDim S1x64 ![] bcast_S_S1x64 (constant S_ .f32 0x47435000#32)) := by
    show StableHlo.after hostOps8_2 (StableHlo.after hostOps8_1 (StableHlo.after hostOps8 W)) (Proc.devRef .tc main_v331)
      = Host.divf (broadcastInDim S1x64 ![1] bcast_S64_S1x64_1 (sum64K (StableHlo.after hostOps8_2 (StableHlo.after hostOps8_1 (StableHlo.after hostOps8 W)) (Proc.devRef .tc main_v327))))
          (broadcastInDim S1x64 ![] bcast_S_S1x64 (constant S_ .f32 0x47435000#32))
    rw [keep8_2 _ main_v331 (by decide), keep8_1 _ main_v331 (by decide), keep8_2 _ main_v327 (by decide),
      keep8_1 _ main_v327 (by decide), l8_v331]
  rw [e]
  show Ideal.div (broadcastInDim S1x64 ![1] bcast_S64_S1x64_1 (sum64K (st8 W (Proc.devRef .tc main_v327))) (ix2 u j))
      (Ideal.ofBits .f32 0x47435000#32) = _
  rw [bcast_b_1b]
  rfl

theorem st8_v332 (W : Valuation τ sig (Elt Ideal)) :
    st8 W (Proc.devRef .tc main_v332) = var64K (st8 W (Proc.devRef .tc main_v327)) := by
  show StableHlo.after hostOps8_2 (StableHlo.after hostOps8_1 (StableHlo.after hostOps8 W)) (Proc.devRef .tc main_v332) = var64K (StableHlo.after hostOps8_2 (StableHlo.after hostOps8_1 (StableHlo.after hostOps8 W)) (Proc.devRef .tc main_v327))
  rw [keep8_2 _ main_v332 (by decide), keep8_2 _ main_v327 (by decide), keep8_1 _ main_v327 (by decide),
    l8_1_v332 _ (l8_c_51 W)]

theorem st8_v335 (W : Valuation τ sig (Elt Ideal)) (u : Fin 1) (j : Fin 64) :
    (st8 W (Proc.devRef .tc main_v335) : S1x64.Idx → EReal) (ix2 u j) = (W (Proc.devRef .tc main_arg14) : S8x64.Idx → EReal) (ix2 6 j) := by
  have e : (st8 W (Proc.devRef .tc main_v335) : S1x64.Idx → EReal)
      = shapeCast S1x64 (shapeCast S64 (extractStridedSlice S1x64 ![6, 0] (W (Proc.devRef .tc main_arg14) : S8x64.Idx → EReal) slices_S8x64_S1x64_6_0) shapeCasts_S1x64_S64) shapeCasts_S64_S1x64 := by
    show StableHlo.after hostOps8_2 (StableHlo.after hostOps8_1 (StableHlo.after hostOps8 W)) (Proc.devRef .tc main_v335) = _
    rw [l8_2_v335, keep8_1 _ main_arg14 (by decide), keep8 _ main_arg14 (by decide)]
  rw [e]
  exact (row_roundtrip _ _ _ u j).trans (stack2_row (6 : Fin 8) _ _ 0 j)

theorem st8_v338 (W : Valuation τ sig (Elt Ideal)) (u : Fin 1) (j : Fin 64) :
    (st8 W (Proc.devRef .tc main_v338) : S1x64.Idx → EReal) (ix2 u j) = (W (Proc.devRef .tc main_arg15) : S8x64.Idx → EReal) (ix2 6 j) := by
  have e : (st8 W (Proc.devRef .tc main_v338) : S1x64.Idx → EReal)
      = shapeCast S1x64 (shapeCast S64 (extractStridedSlice S1x64 ![6, 0] (W (Proc.devRef .tc main_arg15) : S8x64.Idx → EReal) slices_S8x64_S1x64_6_0) shapeCasts_S1x64_S64) shapeCasts_S64_S1x64 := by
    show StableHlo.after hostOps8_2 (StableHlo.after hostOps8_1 (StableHlo.after hostOps8 W)) (Proc.devRef .tc main_v338) = _
    rw [l8_2_v338, keep8_1 _ main_arg15 (by decide), keep8 _ main_arg15 (by decide)]
  rw [e]
  exact (row_roundtrip _ _ _ u j).trans (stack2_row (6 : Fin 8) _ _ 0 j)

theorem st8_v340 (W : Valuation τ sig (Elt Ideal)) (k : Fin 64) (a : Fin 4) :
    (st8 W (Proc.devRef .tc main_v340) : S64x4.Idx → EReal) (ix2 k a) = (W (Proc.devRef .tc main_v38) : S9x64x4.Idx → EReal) (ix3 7 k a) := by
  have e : (st8 W (Proc.devRef .tc main_v340) : S64x4.Idx → EReal)
      = shapeCast S64x4 (extractStridedSlice S1x64x4 ![7, 0, 0] (W (Proc.devRef .tc main_v38) : S9x64x4.Idx → EReal) slices_S9x64x4_S1x64x4_7_0_0) shapeCasts_S1x64x4_S64x4 := by
    show StableHlo.after hostOps8_2 (StableHlo.after hostOps8_1 (StableHlo.after hostOps8 W)) (Proc.devRef .tc main_v340) = _
    rw [l8_2_v340, keep8_1 _ main_v38 (by decide), keep8 _ main_v38 (by decide)]
  rw [e]
  exact stack3_entry (7 : Fin 9) _ _ _ k a

theorem st8_v343 (W : Valuation τ sig (Elt Ideal)) (u : Fin 1) (a : Fin 4) :
    (st8 W (Proc.devRef .tc main_v343) : S1x4.Idx → EReal) (ix2 u a) = (W (Proc.devRef .tc main_arg9) : S9x4.Idx → EReal) (ix2 7 a) := by
  have e : (st8 W (Proc.devRef .tc main_v343) : S1x4.Idx → EReal)
      = shapeCast S1x4 (shapeCast S4 (extractStridedSlice S1x4 ![7, 0] (W (Proc.devRef .tc main_arg9) : S9x4.Idx → EReal) slices_S9x4_S1x4_7_0) shapeCasts_S1x4_S4) shapeCasts_S4_S1x4 := by
    show StableHlo.after hostOps8_2 (StableHlo.after hostOps8_1 (StableHlo.after hostOps8 W)) (Proc.devRef .tc main_v343) = _
    rw [l8_2_v343, keep8_1 _ main_arg9 (by decide), keep8 _ main_arg9 (by decide)]
  rw [e]
  exact (row_roundtrip _ _ _ u a).trans (stack2_row (7 : Fin 9) _ _ 0 a)

theorem st8_v345 (W : Valuation τ sig (Elt Ideal)) (a : Fin 4) (q : Fin 1) :
    (st8 W (Proc.devRef .tc main_v345) : S4x1.Idx → EReal) (ix2 a q) = (W (Proc.devRef .tc main_v39) : S9x4x1.Idx → EReal) (ix3 7 a q) := by
  have e : (st8 W (Proc.devRef .tc main_v345) : S4x1.Idx → EReal)
      = shapeCast S4x1 (extractStridedSlice S1x4x1 ![7, 0, 0] (W (Proc.devRef .tc main_v39) : S9x4x1.Idx → EReal) slices_S9x4x1_S1x4x1_7_0_0) shapeCasts_S1x4x1_S4x1 := by
    show StableHlo.after hostOps8_2 (StableHlo.after hostOps8_1 (StableHlo.after hostOps8 W)) (Proc.devRef .tc main_v345) = _
    rw [l8_2_v345, keep8_1 _ main_v39 (by decide), keep8 _ main_v39 (by decide)]
  rw [e]
  exact stack3_entry (7 : Fin 9) _ _ _ a q

theorem st8_v348 (W : Valuation τ sig (Elt Ideal)) (u : Fin 1) (q : Fin 1) :
    (st8 W (Proc.devRef .tc main_v348) : S1x1.Idx → EReal) (ix2 u q) = (W (Proc.devRef .tc main_arg11) : S9x1.Idx → EReal) (ix2 7 q) := by
  have e : (st8 W (Proc.devRef .tc main_v348) : S1x1.Idx → EReal)
      = shapeCast S1x1 (shapeCast S1 (extractStridedSlice S1x1 ![7, 0] (W (Proc.devRef .tc main_arg11) : S9x1.Idx → EReal) slices_S9x1_S1x1_7_0) shapeCasts_S1x1_S1) shapeCasts_S1_S1x1 := by
    show StableHlo.after hostOps8_2 (StableHlo.after hostOps8_1 (StableHlo.after hostOps8 W)) (Proc.devRef .tc main_v348) = _
    rw [l8_2_v348, keep8_1 _ main_arg11 (by decide), keep8 _ main_arg11 (by decide)]
  rw [e]
  exact (row_roundtrip _ _ _ u q).trans (stack2_row (7 : Fin 9) _ _ 0 q)

theorem st8_v350 (W : Valuation τ sig (Elt Ideal)) (k : Fin 64) (j : Fin 64) :
    (st8 W (Proc.devRef .tc main_v350) : S64x64.Idx → EReal) (ix2 k j) = (W (Proc.devRef .tc main_v37) : S8x64x64.Idx → EReal) (ix3 7 k j) := by
  have e : (st8 W (Proc.devRef .tc main_v350) : S64x64.Idx → EReal)
      = shapeCast S64x64 (extractStridedSlice S1x64x64 ![7, 0, 0] (W (Proc.devRef .tc main_v37) : S8x64x64.Idx → EReal) slices_S8x64x64_S1x64x64_7_0_0) shapeCasts_S1x64x64_S64x64 := by
    show StableHlo.after hostOps8_2 (StableHlo.after hostOps8_1 (StableHlo.after hostOps8 W)) (Proc.devRef .tc main_v350) = _
    rw [l8_2_v350, keep8_1 _ main_v37 (by decide), keep8 _ main_v37 (by decide)]
  rw [e]
  exact stack3_entry (7 : Fin 8) _ _ _ k j

end Cert.KernelIdeal.KHost

end
-- ==== Proof.KReg8.lean ====
import proofs.«428538_j32280974197073_1_alg».proof.Proof.KReg2

noncomputable section

namespace Cert.KernelIdeal.KReg8

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hz fusedArr projArr store11 store12)

/-! ## The region -/

theorem idx_facts : ∀ t : Fin cfg8.N,
    win8_0.index t (0 : Fin 2) = t.val ∧ win8_0.index t (1 : Fin 2) = 0
    ∧ win8_5.index t (0 : Fin 2) = t.val ∧ win8_5.index t (1 : Fin 2) = 0
    ∧ win8_11.index t (0 : Fin 2) = t.val ∧ win8_11.index t (1 : Fin 2) = 0
    ∧ win8_12.index t (0 : Fin 2) = t.val ∧ win8_12.index t (1 : Fin 2) = 0 :=
  (by decide +kernel : ∀ t : Fin grid8.N, _)

theorem idx_facts_res : ∀ t : Fin cfg8.N,
    win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0
    ∧ win8_10.index t (0 : Fin 2) = 0 ∧ win8_10.index t (1 : Fin 2) = 0 :=
  (by decide +kernel : ∀ t : Fin grid8.N, _)

def rowOf (t : Fin cfg8.N) (p : Fin 2000) : Fin 50000 :=
  ⟨t.val * 2000 + p.val, by have h : cfg8.N = 25 := N_8; have := t.isLt; have := p.isLt; omega⟩

theorem read0 (t : Fin cfg8.N) (A : Vec Ideal S50000x64 .f32) (p : Fin 2000) (k : Fin 64) :
    (((cfg8.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win8_0.index t (0 : Fin 2) * 2000 + 1 * p.val = t.val * 2000 + p.val; rw [e0a]; omega
  | ⟨1, _⟩ => show win8_0.index t (1 : Fin 2) * 64 + 1 * k.val = k.val; rw [e0b]; omega

theorem read5 (t : Fin cfg8.N) (A : Vec Ideal S50000x64 .f32) (p : Fin 2000) (k : Fin 64) :
    (((cfg8.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win8_5.index t (0 : Fin 2) * 2000 + 1 * p.val = t.val * 2000 + p.val; rw [e0a]; omega
  | ⟨1, _⟩ => show win8_5.index t (1 : Fin 2) * 64 + 1 * k.val = k.val; rw [e0b]; omega

theorem read11 (t : Fin cfg8.N) (A : Vec Ideal S50000x64 .f32) (p : Fin 2000) (k : Fin 64) :
    (((cfg8.win 11).blk t).view.read (Elt Ideal) A) (ix2 p k) = A (ix2 (rowOf t p) k) := by
  obtain ⟨-, -, -, -, e0a, e0b, -⟩ := idx_facts t
  rw [View.read_apply]
  refine congrArg A (funext fun a => Fin.ext ?_)
  match a with
  | ⟨0, _⟩ => show win8_11.index t (0 : Fin 2) * 2000 + 1 * p.val = t.val * 2000 + p.val; rw [e0a]; omega
  | ⟨1, _⟩ => show win8_11.index t (1 : Fin 2) * 64 + 1 * k.val = k.val; rw [e0b]; omega

theorem read12 (t : Fin cfg8.N) (A : Vec Ideal S50000x64 .f32) (p : Fin 2000) (k : Fin 64) :
    (((cfg8.win 12).blk t).view.read (Elt Ideal) A) (ix2 p k) = A (ix2 (rowOf t p) k) := by
  obtain ⟨-, -, -, -, -, -, e0a, e0b⟩ := idx_facts t
  rw [View.read_apply]
  refine congrArg A (funext fun a => Fin.ext ?_)
  match a with
  | ⟨0, _⟩ => show win8_12.index t (0 : Fin 2) * 2000 + 1 * p.val = t.val * 2000 + p.val; rw [e0a]; omega
  | ⟨1, _⟩ => show win8_12.index t (1 : Fin 2) * 64 + 1 * k.val = k.val; rw [e0b]; omega

theorem read1 (t : Fin cfg8.N) (A : Vec Ideal S1x64 .f32) : ((cfg8.win 1).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_1.index t (0 : Fin 2) * 1 + 1 * (y 0).val = (y 0).val; rw [e1a]; omega
  | ⟨1, _⟩ => show win8_1.index t (1 : Fin 2) * 64 + 1 * (y 1).val = (y 1).val; rw [e1b]; omega

theorem read2 (t : Fin cfg8.N) (A : Vec Ideal S1x64 .f32) : ((cfg8.win 2).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_2.index t (0 : Fin 2) * 1 + 1 * (y 0).val = (y 0).val; rw [e2a]; omega
  | ⟨1, _⟩ => show win8_2.index t (1 : Fin 2) * 64 + 1 * (y 1).val = (y 1).val; rw [e2b]; omega

theorem read3 (t : Fin cfg8.N) (A : Vec Ideal S1x64 .f32) : ((cfg8.win 3).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_3.index t (0 : Fin 2) * 1 + 1 * (y 0).val = (y 0).val; rw [e3a]; omega
  | ⟨1, _⟩ => show win8_3.index t (1 : Fin 2) * 64 + 1 * (y 1).val = (y 1).val; rw [e3b]; omega

theorem read4 (t : Fin cfg8.N) (A : Vec Ideal S1x64 .f32) : ((cfg8.win 4).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_4.index t (0 : Fin 2) * 1 + 1 * (y 0).val = (y 0).val; rw [e4a]; omega
  | ⟨1, _⟩ => show win8_4.index t (1 : Fin 2) * 64 + 1 * (y 1).val = (y 1).val; rw [e4b]; omega

theorem read6 (t : Fin cfg8.N) (A : Vec Ideal S64x4 .bf16) : ((cfg8.win 6).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_6.index t (0 : Fin 2) * 64 + 1 * (y 0).val = (y 0).val; rw [e6a]; omega
  | ⟨1, _⟩ => show win8_6.index t (1 : Fin 2) * 4 + 1 * (y 1).val = (y 1).val; rw [e6b]; omega

theorem read7 (t : Fin cfg8.N) (A : Vec Ideal S1x4 .f32) : ((cfg8.win 7).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_7.index t (0 : Fin 2) * 1 + 1 * (y 0).val = (y 0).val; rw [e7a]; omega
  | ⟨1, _⟩ => show win8_7.index t (1 : Fin 2) * 4 + 1 * (y 1).val = (y 1).val; rw [e7b]; omega

theorem read8 (t : Fin cfg8.N) (A : Vec Ideal S4x1 .bf16) : ((cfg8.win 8).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_8.index t (0 : Fin 2) * 4 + 1 * (y 0).val = (y 0).val; rw [e8a]; omega
  | ⟨1, _⟩ => show win8_8.index t (1 : Fin 2) * 1 + 1 * (y 1).val = (y 1).val; rw [e8b]; omega

theorem read9 (t : Fin cfg8.N) (A : Vec Ideal S1x1 .f32) : ((cfg8.win 9).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_9.index t (0 : Fin 2) * 1 + 1 * (y 0).val = (y 0).val; rw [e9a]; omega
  | ⟨1, _⟩ => show win8_9.index t (1 : Fin 2) * 1 + 1 * (y 1).val = (y 1).val; rw [e9b]; omega

theorem read10 (t : Fin cfg8.N) (A : Vec Ideal S64x64 .bf16) : ((cfg8.win 10).blk t).view.read (Elt Ideal) A = A := by
  obtain ⟨e1a, e1b, e2a, e2b, e3a, e3b, e4a, e4b, e6a, e6b, e7a, e7b, e8a, e8b, e9a, e9b, e10a, e10b⟩ := idx_facts_res t
  funext y
  rw [View.read_apply]
  refine congrArg A (funext fun a => Fin.ext ?_)
  match a with
  | ⟨0, _⟩ => show win8_10.index t (0 : Fin 2) * 64 + 1 * (y 0).val = (y 0).val; rw [e10a]; omega
  | ⟨1, _⟩ => show win8_10.index t (1 : Fin 2) * 64 + 1 * (y 1).val = (y 1).val; rw [e10b]; omega

theorem mem_blk11 (t : Fin cfg8.N) (i : S50000x64.Idx) :
    i ∈ ((cfg8.win 11).blk t).view.set ↔ ∀ a : Fin 2, win8_11.index t a * S2000x64.size a ≤ (i a).val ∧ (i a).val < win8_11.index t a * S2000x64.size a + S2000x64.size a := by
  show i ∈ ((View.whole main_v351_0).slice (win8_11.rect t)).set ↔ _
  rw [View.set_slice_whole, Rect.mem_set_unit]
  exact Iff.rfl
theorem mem_blk12 (t : Fin cfg8.N) (i : S50000x64.Idx) :
    i ∈ ((cfg8.win 12).blk t).view.set ↔ ∀ a : Fin 2, win8_12.index t a * S2000x64.size a ≤ (i a).val ∧ (i a).val < win8_12.index t a * S2000x64.size a + S2000x64.size a := by
  show i ∈ ((View.whole main_v351_1).slice (win8_12.rect t)).set ↔ _
  rw [View.set_slice_whole, Rect.mem_set_unit]
  exact Iff.rfl

def pointOf (i : S50000x64.Idx) : Fin cfg8.N :=
  ⟨(i 0).val / 2000, by have h : cfg8.N = 25 := N_8; have : (i 0).val < 50000 := (i 0).isLt; omega⟩

theorem cover11 (i : S50000x64.Idx) : ∃ t : Fin cfg8.N, (cfg8.win 11).flush t = true ∧ i ∈ ((cfg8.win 11).blk t).view.set := by
  refine ⟨pointOf i, flush8_11 _, ?_⟩
  obtain ⟨-, -, -, -, e0a, e0b, -⟩ := idx_facts (pointOf i)
  rw [mem_blk11]
  have hi0 : (i 0).val < 50000 := (i 0).isLt
  have hi1 : (i 1).val < 64 := (i 1).isLt
  have hp : (pointOf i).val = (i 0).val / 2000 := rfl
  intro a
  match a with
  | ⟨0, _⟩ => show win8_11.index (pointOf i) (0 : Fin 2) * 2000 ≤ (i 0).val ∧ (i 0).val < win8_11.index (pointOf i) (0 : Fin 2) * 2000 + 2000; rw [e0a, hp]; omega
  | ⟨1, _⟩ => show win8_11.index (pointOf i) (1 : Fin 2) * 64 ≤ (i 1).val ∧ (i 1).val < win8_11.index (pointOf i) (1 : Fin 2) * 64 + 64; rw [e0b]; omega

theorem cover12 (i : S50000x64.Idx) : ∃ t : Fin cfg8.N, (cfg8.win 12).flush t = true ∧ i ∈ ((cfg8.win 12).blk t).view.set := by
  refine ⟨pointOf i, flush8_12 _, ?_⟩
  obtain ⟨-, -, -, -, -, -, e0a, e0b⟩ := idx_facts (pointOf i)
  rw [mem_blk12]
  have hi0 : (i 0).val < 50000 := (i 0).isLt
  have hi1 : (i 1).val < 64 := (i 1).isLt
  have hp : (pointOf i).val = (i 0).val / 2000 := rfl
  intro a
  match a with
  | ⟨0, _⟩ => show win8_12.index (pointOf i) (0 : Fin 2) * 2000 ≤ (i 0).val ∧ (i 0).val < win8_12.index (pointOf i) (0 : Fin 2) * 2000 + 2000; rw [e0a, hp]; omega
  | ⟨1, _⟩ => show win8_12.index (pointOf i) (1 : Fin 2) * 64 ≤ (i 1).val ∧ (i 1).val < win8_12.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v327
abbrev meanIn (c : Dev nD) : Vec Ideal S1x64 .f32 := V c main_v331
abbrev varIn (c : Dev nD) : Vec Ideal S1x64 .f32 := V c main_v332
abbrev gammaIn (c : Dev nD) : Vec Ideal S1x64 .f32 := V c main_v335
abbrev betaIn (c : Dev nD) : Vec Ideal S1x64 .f32 := V c main_v338
abbrev fusedIn (c : Dev nD) : Vec Ideal S50000x64 .f32 := V c main_v310_0
abbrev lw1In (c : Dev nD) : Vec Ideal S64x4 .bf16 := V c main_v340
abbrev lb1In (c : Dev nD) : Vec Ideal S1x4 .f32 := V c main_v343
abbrev lw2In (c : Dev nD) : Vec Ideal S4x1 .bf16 := V c main_v345
abbrev lb2In (c : Dev nD) : Vec Ideal S1x1 .f32 := V c main_v348
abbrev bwIn (c : Dev nD) : Vec Ideal S64x64 .bf16 := V c main_v350

theorem flushed11_eq (c : Dev nD) (t : Fin cfg8.N) :
    (dat8 (F := Ideal) V c).flushed 11 t
      = ((cfg8.win 11).blk t).view.read (Elt Ideal) (fusedArr (aggIn V c) (meanIn V c) (varIn V c) (gammaIn V c) (betaIn V c) (fusedIn V c) (lw1In V c) (lb1In V c) (lw2In V c) (lb2In V c)) := by
  show (cfg8.win 11).cut (grid8.coords t) ((dat8 (F := Ideal) V c).after 11 t) = _
  rw [after8_11]
  unfold out8_11
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store11 (rowOf t) (aggIn V c) (meanIn V c) (varIn V c) (gammaIn V c) (betaIn V c) (fusedIn V c) (lw1In V c) (lb1In V c) (lw2In V c) (lb2In V c)
    (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) _
    (fun p j => read11 t _ p j)

theorem flushed12_eq (c : Dev nD) (t : Fin cfg8.N) :
    (dat8 (F := Ideal) V c).flushed 12 t
      = ((cfg8.win 12).blk t).view.read (Elt Ideal) (projArr (aggIn V c) (meanIn V c) (varIn V c) (gammaIn V c) (betaIn V c) (fusedIn V c) (lw1In V c) (lb1In V c) (lw2In V c) (lb2In V c) (bwIn V c)) := by
  show (cfg8.win 12).cut (grid8.coords t) ((dat8 (F := Ideal) V c).after 12 t) = _
  rw [after8_12]
  unfold out8_12
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz, View.ld_unit_zero (S := S64x64) hz]
  exact store12 (rowOf t) (aggIn V c) (meanIn V c) (varIn V c) (gammaIn V c) (betaIn V c) (fusedIn V c) (lw1In V c) (lb1In V c) (lw2In V c) (lb2In V c) (bwIn V c)
    (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c)) (read10 t (bwIn V c)) _
    (fun p j => read12 t _ p j)

theorem final11 (c : Dev nD) :
    (dat8 (F := Ideal) V c).arrAt 11 cfg8.N = fusedArr (aggIn V c) (meanIn V c) (varIn V c) (gammaIn V c) (betaIn V c) (fusedIn V c) (lw1In V c) (lb1In V c) (lw2In V c) (lb2In V c) :=
  (dat8 (F := Ideal) V c).arrAt_eq_of_cover 11 (fusedArr (aggIn V c) (meanIn V c) (varIn V c) (gammaIn V c) (betaIn V c) (fusedIn V c) (lw1In V c) (lb1In V c) (lw2In V c) (lb2In V c))
    (fun t _ => flushed11_eq V c t) cover11

theorem final12 (c : Dev nD) :
    (dat8 (F := Ideal) V c).arrAt 12 cfg8.N = projArr (aggIn V c) (meanIn V c) (varIn V c) (gammaIn V c) (betaIn V c) (fusedIn V c) (lw1In V c) (lb1In V c) (lw2In V c) (lb2In V c) (bwIn V c) :=
  (dat8 (F := Ideal) V c).arrAt_eq_of_cover 12 (projArr (aggIn V c) (meanIn V c) (varIn V c) (gammaIn V c) (betaIn V c) (fusedIn V c) (lw1In V c) (lb1In V c) (lw2In V c) (lb2In V c) (bwIn V c))
    (fun t _ => flushed12_eq V c t) cover12

end Region

end Cert.KernelIdeal.KReg8

end
-- ==== Proof.KChain.Link8.lean ====
/- Template: proof/Proof/KChain/Link2.lean, whole. Substitutions, all at once: Link2 -> Link8, KHost.L2 -> KHost.L8, st2_keep -> st8_keep, wrS2 -> wrS8,
   st2_v<n> -> st8_v<n + 246>, Proof.KReg2 -> Proof.KReg8, KReg2.final -> KReg8.final, spec2 -> spec8, main_v<n> -> main_v<n + 246> for n >= 64,
   W<n> and V<n> -> W<n + 24> and V<n + 24> for n >= 8, (0 : Fin 8) -> (6 : Fin 8), (1 : Fin 9) -> (7 : Fin 9), (1 : Fin 8) -> (7 : Fin 8),
   and the heading's layer and region numbers. -/
/-
  Backbone layer 6 (kernel region 8), linked to the specification.

  Between the previous region's exit and this region's entry the host operations aggregate the previous projection over
  the edges, add the layer's bias, take the aggregate's per-feature mean and variance, and slice the layer's parameters
  out of their stacks; the region then leaves the new fused state and the new projection. Read as matrices, the two
  arrays are the specification's state after the layer, given that the two arrays the previous region left are the
  specification's state before it.
-/
import proofs.«428538_j32280974197073_1_alg».proof.Proof.Gen.KernelIdeal.Frame
import proofs.«428538_j32280974197073_1_alg».proof.Proof.KHost.L8
import proofs.«428538_j32280974197073_1_alg».proof.Proof.KReg8
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link8

variable (m : (ℓ : Loc nD τ sig) → Buf (Elt Ideal) ℓ) (ρ : Dev nD → PrngReg)

/-! ## The buffers computed once are kept -/

/-- No buffer computed once before the first region is written by this stretch of host operations. -/
theorem static_nw : ∀ b ∈ staticRefs, b ∉ KHost.wrS8 := by decide

/-- None is an array of this region. -/
theorem static_ne : ∀ b ∈ staticRefs, ∀ w, Pipeline.arrRef spec8 w ≠ b := by decide

/-- So each holds at the region's exit what it held at the previous region's exit. -/
theorem keeps (c : Dev nD) : Keeps (W32 m ρ c) (W36 m ρ c) := fun b hb =>
  (W36_of_ne m ρ c b (static_ne b hb)).trans (KHost.st8_keep (W32 m ρ c) b (static_nw b hb))

/-! ## The region's exit arrays as functions of its entry arrays -/

/-- The new fused state the region leaves, as a function of the arrays it was entered with. -/
theorem exit_fused (c : Dev nD) :
    (W36 m ρ c (Proc.devRef .tc main_v351_0) : Vec Ideal S50000x64 .f32)
      = KReg2.fusedArr
          (W35 m ρ c (Proc.devRef .tc main_v327) : Vec Ideal S50000x64 .f32)
          (W35 m ρ c (Proc.devRef .tc main_v331) : Vec Ideal S1x64 .f32)
          (W35 m ρ c (Proc.devRef .tc main_v332) : Vec Ideal S1x64 .f32)
          (W35 m ρ c (Proc.devRef .tc main_v335) : Vec Ideal S1x64 .f32)
          (W35 m ρ c (Proc.devRef .tc main_v338) : Vec Ideal S1x64 .f32)
          (W35 m ρ c (Proc.devRef .tc main_v310_0) : Vec Ideal S50000x64 .f32)
          (W35 m ρ c (Proc.devRef .tc main_v340) : Vec Ideal S64x4 .bf16)
          (W35 m ρ c (Proc.devRef .tc main_v343) : Vec Ideal S1x4 .f32)
          (W35 m ρ c (Proc.devRef .tc main_v345) : Vec Ideal S4x1 .bf16)
          (W35 m ρ c (Proc.devRef .tc main_v348) : Vec Ideal S1x1 .f32) :=
  (W36_arr m ρ c 11).trans (KReg8.final11 (V35 m ρ) c)

/-- The new projection the region leaves, as a function of the arrays it was entered with. -/
theorem exit_proj (c : Dev nD) :
    (W36 m ρ c (Proc.devRef .tc main_v351_1) : Vec Ideal S50000x64 .f32)
      = KReg2.projArr
          (W35 m ρ c (Proc.devRef .tc main_v327) : Vec Ideal S50000x64 .f32)
          (W35 m ρ c (Proc.devRef .tc main_v331) : Vec Ideal S1x64 .f32)
          (W35 m ρ c (Proc.devRef .tc main_v332) : Vec Ideal S1x64 .f32)
          (W35 m ρ c (Proc.devRef .tc main_v335) : Vec Ideal S1x64 .f32)
          (W35 m ρ c (Proc.devRef .tc main_v338) : Vec Ideal S1x64 .f32)
          (W35 m ρ c (Proc.devRef .tc main_v310_0) : Vec Ideal S50000x64 .f32)
          (W35 m ρ c (Proc.devRef .tc main_v340) : Vec Ideal S64x4 .bf16)
          (W35 m ρ c (Proc.devRef .tc main_v343) : Vec Ideal S1x4 .f32)
          (W35 m ρ c (Proc.devRef .tc main_v345) : Vec Ideal S4x1 .bf16)
          (W35 m ρ c (Proc.devRef .tc main_v348) : Vec Ideal S1x1 .f32)
          (W35 m ρ c (Proc.devRef .tc main_v350) : Vec Ideal S64x64 .bf16) :=
  (W36_arr m ρ c 12).trans (KReg8.final12 (V35 m ρ) c)

/-! ## The region's entry arrays, from the previous region's exit -/

/-- The aggregate: the edge aggregation of the previous projection, plus the layer's bias. -/
theorem e_agg (c : Dev nD) (hst : Keeps (W3 m ρ c) (W32 m ρ c)) (i : Fin 50000) (j : Fin 64) :
    (W35 m ρ c (Proc.devRef .tc main_v327) : Vec Ideal S50000x64 .f32) (ix2 i j)
      = KHost.scatK (W32 m ρ c (Proc.devRef .tc main_v310_1)) (KHost.srcOf (m ((c : Thread nD τ).loc main_arg1))) (KHost.enormOf (m ((c : Thread nD τ).loc main_arg1))) (KHost.dstOf (m ((c : Thread nD τ).loc main_arg1))) (ix2 i j)
        + (paramsK m c).bb (6 : Fin 8) j := by
  have h := KHost.st8_v327 (W32 m ρ c) i j
  rw [st_src hst, st_enorm hst, st_dst hst, st_arg13 hst] at h
  exact h

/-- The mean's row: the aggregate's per-feature sum over the number of nodes. -/
theorem e_mean (c : Dev nD) (k : Fin 64) :
    (W35 m ρ c (Proc.devRef .tc main_v331) : Vec Ideal S1x64 .f32) (ix2 (0 : Fin 1) k) = Cert.Spec.meanOf (KHost.sum64K (W35 m ρ c (Proc.devRef .tc main_v327) : Vec Ideal S50000x64 .f32) (ix1 k)) :=
  KHost.st8_v331 (W32 m ρ c) 0 k

/-- The variance's row: the aggregate's per-feature variance. -/
theorem e_var (c : Dev nD) (k : Fin 64) :
    (W35 m ρ c (Proc.devRef .tc main_v332) : Vec Ideal S1x64 .f32) (ix2 (0 : Fin 1) k) = KHost.var64K (W35 m ρ c (Proc.devRef .tc main_v327) : Vec Ideal S50000x64 .f32) (ix2 (0 : Fin 1) k) :=
  congrFun (KHost.st8_v332 (W32 m ρ c)) (ix2 (0 : Fin 1) k)

/-- The scale's row: the layer's row of the stacked scales. -/
theorem e_gamma (c : Dev nD) (hst : Keeps (W3 m ρ c) (W32 m ρ c)) (k : Fin 64) :
    (W35 m ρ c (Proc.devRef .tc main_v335) : Vec Ideal S1x64 .f32) (ix2 (0 : Fin 1) k) = (paramsK m c).bg (6 : Fin 8) k := by
  have h := KHost.st8_v335 (W32 m ρ c) 0 k
  rw [st_arg14 hst] at h
  exact h

/-- The shift's row: the layer's row of the stacked shifts. -/
theorem e_beta (c : Dev nD) (hst : Keeps (W3 m ρ c) (W32 m ρ c)) (k : Fin 64) :
    (W35 m ρ c (Proc.devRef .tc main_v338) : Vec Ideal S1x64 .f32) (ix2 (0 : Fin 1) k) = (paramsK m c).bbe (6 : Fin 8) k := by
  have h := KHost.st8_v338 (W32 m ρ c) 0 k
  rw [st_arg15 hst] at h
  exact h

/-- The fused state is the one the previous region left. -/
theorem e_fused (c : Dev nD) : W35 m ρ c (Proc.devRef .tc main_v310_0) = W32 m ρ c (Proc.devRef .tc main_v310_0) :=
  KHost.st8_keep (W32 m ρ c) main_v310_0 (by decide)

/-- The gate's first matrix: the layer's member of the stack. -/
theorem e_lw1 (c : Dev nD) (hst : Keeps (W3 m ρ c) (W32 m ρ c)) :
    Cert.Pack.mat (W35 m ρ c (Proc.devRef .tc main_v340) : Vec Ideal S64x4 .bf16) = (paramsK m c).lw1 (7 : Fin 9) := by
  funext k a
  have h := KHost.st8_v340 (W32 m ρ c) k a
  rw [st_v38 hst] at h
  exact h

/-- The gate's first bias: the layer's row of the stack. -/
theorem e_lb1 (c : Dev nD) (hst : Keeps (W3 m ρ c) (W32 m ρ c)) (a : Fin 4) :
    (W35 m ρ c (Proc.devRef .tc main_v343) : Vec Ideal S1x4 .f32) (ix2 (0 : Fin 1) a) = (paramsK m c).lb1 (7 : Fin 9) a := by
  have h := KHost.st8_v343 (W32 m ρ c) 0 a
  rw [st_arg9 hst] at h
  exact h

/-- The gate's read-out column: the layer's member of the stack. -/
theorem e_lw2 (c : Dev nD) (hst : Keeps (W3 m ρ c) (W32 m ρ c)) (a : Fin 4) :
    (W35 m ρ c (Proc.devRef .tc main_v345) : Vec Ideal S4x1 .bf16) (ix2 a (0 : Fin 1)) = (paramsK m c).lw2 (7 : Fin 9) a := by
  have h := KHost.st8_v345 (W32 m ρ c) a 0
  rw [st_v39 hst] at h
  exact h

/-- The gate's last bias: the layer's entry of the stack. -/
theorem e_lb2 (c : Dev nD) (hst : Keeps (W3 m ρ c) (W32 m ρ c)) :
    (W35 m ρ c (Proc.devRef .tc main_v348) : Vec Ideal S1x1 .f32) (ix2 (0 : Fin 1) (0 : Fin 1)) = (paramsK m c).lb2 (7 : Fin 9) := by
  have h := KHost.st8_v348 (W32 m ρ c) 0 0
  rw [st_arg11 hst] at h
  exact h

/-- The next layer's weights: its member of the stack. -/
theorem e_bw (c : Dev nD) (hst : Keeps (W3 m ρ c) (W32 m ρ c)) :
    Cert.Pack.mat (W35 m ρ c (Proc.devRef .tc main_v350) : Vec Ideal S64x64 .bf16) = (paramsK m c).bw (7 : Fin 8) := by
  funext k j
  have h := KHost.st8_v350 (W32 m ρ c) k j
  rw [st_v37 hst] at h
  exact h

/-! ## The link -/

/-- If the two arrays the previous region left read as the specification's state before the layer, the two arrays this
    region leaves read as its state after the layer; and the buffers computed once are still what they were. -/
theorem link (c : Dev nD) (s : Cert.Spec.Mat 50000 64 × Cert.Spec.Mat 50000 64)
    (hst : Keeps (W3 m ρ c) (W32 m ρ c))
    (hfu : Cert.Pack.mat (W32 m ρ c (Proc.devRef .tc main_v310_0) : Vec Ideal S50000x64 .f32) = s.1)
    (hpj : Cert.Pack.mat (W32 m ρ c (Proc.devRef .tc main_v310_1) : Vec Ideal S50000x64 .f32)
      = fun i j => Cert.Spec.proj (s.2 i) ((paramsK m c).bw (6 : Fin 8)) j) :
    Keeps (W3 m ρ c) (W36 m ρ c)
      ∧ Cert.Pack.mat (W36 m ρ c (Proc.devRef .tc main_v351_0) : Vec Ideal S50000x64 .f32)
          = (Cert.Spec.layer (opsK (m ((c : Thread nD τ).loc main_arg1))) (paramsK m c) (6 : Fin 8) (7 : Fin 9) s).1
      ∧ Cert.Pack.mat (W36 m ρ c (Proc.devRef .tc main_v351_1) : Vec Ideal S50000x64 .f32)
          = fun i j => Cert.Spec.proj
              ((Cert.Spec.layer (opsK (m ((c : Thread nD τ).loc main_arg1))) (paramsK m c) (6 : Fin 8) (7 : Fin 9) s).2 i)
              ((paramsK m c).bw (7 : Fin 8)) j :=
  ⟨hst.trans (keeps m ρ c),
   layer_link (opsK (m ((c : Thread nD τ).loc main_arg1))) (paramsK m c) (6 : Fin 8) (7 : Fin 9) (7 : Fin 8) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W32 m ρ c (Proc.devRef .tc main_v310_1) : Vec Ideal S50000x64 .f32) hpj
    (W36 m ρ c (Proc.devRef .tc main_v351_0) : Vec Ideal S50000x64 .f32) (W36 m ρ c (Proc.devRef .tc main_v351_1) : Vec Ideal S50000x64 .f32)
    (W35 m ρ c (Proc.devRef .tc main_v327) : Vec Ideal S50000x64 .f32) (W35 m ρ c (Proc.devRef .tc main_v331) : Vec Ideal S1x64 .f32) (W35 m ρ c (Proc.devRef .tc main_v332) : Vec Ideal S1x64 .f32) (W35 m ρ c (Proc.devRef .tc main_v335) : Vec Ideal S1x64 .f32)
    (W35 m ρ c (Proc.devRef .tc main_v338) : Vec Ideal S1x64 .f32) (W35 m ρ c (Proc.devRef .tc main_v310_0) : Vec Ideal S50000x64 .f32) (W35 m ρ c (Proc.devRef .tc main_v340) : Vec Ideal S64x4 .bf16) (W35 m ρ c (Proc.devRef .tc main_v343) : Vec Ideal S1x4 .f32)
    (W35 m ρ c (Proc.devRef .tc main_v345) : Vec Ideal S4x1 .bf16) (W35 m ρ c (Proc.devRef .tc main_v348) : Vec Ideal S1x1 .f32) (W35 m ρ c (Proc.devRef .tc main_v350) : Vec Ideal S64x64 .bf16)
    (fun r j => by rw [exit_fused]; exact KReg2.fusedArr_apply _ _ _ _ _ _ _ _ _ _ r j)
    (fun r j => by rw [exit_proj]; exact KReg2.projArr_apply _ _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst) (e_bw m ρ c hst)⟩

end Link8

end Cert.KernelIdeal.KChain

end
-- ==== Proof.KHost.L9.lean ====
import proofs.«428538_j32280974197073_1_alg».proof.Proof.KHost.Defs

noncomputable section

namespace Cert.KernelIdeal.KHost

open Cert.KernelIdeal Cert.KernelIdeal.Gen
open Idealize.ShloMosaic Idealize.ShloMosaic.ValueIdx

attribute [local irreducible] concatenate Host.gather Host.scatterAdd Host.reduceAdd

abbrev st9 (W : Valuation τ sig (Elt Ideal)) : Valuation τ sig (Elt Ideal) :=
  StableHlo.after hostOps9_2 (StableHlo.after hostOps9_1 (StableHlo.after hostOps9 W))

noncomputable def wr9 : List (Ref sig .tc) :=
  [main_c_52, main_v352, main_v353, main_c_53, main_v354, main_v355, main_v356, main_v357, main_v358, main_v359, main_v360, main_cst_54, main_v361, main_v362, main_v363, main_v364, main_v365, main_v366, main_v367, main_v368, main_cst_55, main_v369, main_v370, main_cst_56, main_v371, main_v372, main_c_57]
noncomputable def wr9_1 : List (Ref sig .tc) :=
  [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v373]
noncomputable def wr9_2 : List (Ref sig .tc) :=
  [main_v374, main_v375, main_v376, main_v377, main_v378, main_v379, main_v380, main_v381, main_v382, main_v383, main_v384, main_v385, main_v386, main_v387, main_v388, main_v389]
noncomputable def wrS9 : List (Ref sig .tc) := wr9 ++ wr9_1 ++ wr9_2

theorem keep9 (W : Valuation τ sig (Elt Ideal)) (b : Ref sig .tc) (hb : b ∉ wr9) :
    StableHlo.after hostOps9 W (Proc.devRef .tc b) = W (Proc.devRef .tc b) :=
  StableHlo.after_of_writes_sub hostOps9 W (by
    simp only [hostOps9, wr9, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep9_1 (W : Valuation τ sig (Elt Ideal)) (b : Ref sig .tc) (hb : b ∉ wr9_1) :
    StableHlo.after hostOps9_1 W (Proc.devRef .tc b) = W (Proc.devRef .tc b) :=
  StableHlo.after_of_writes_sub hostOps9_1 W (by
    simp only [hostOps9_1, wr9_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem keep9_2 (W : Valuation τ sig (Elt Ideal)) (b : Ref sig .tc) (hb : b ∉ wr9_2) :
    StableHlo.after hostOps9_2 W (Proc.devRef .tc b) = W (Proc.devRef .tc b) :=
  StableHlo.after_of_writes_sub hostOps9_2 W (by
    simp only [hostOps9_2, wr9_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

theorem st9_keep (W : Valuation τ sig (Elt Ideal)) (b : Ref sig .tc) (hb : b ∉ wrS9) :
    st9 W (Proc.devRef .tc b) = W (Proc.devRef .tc b) :=
  (keep9_2 _ b fun h => hb (List.mem_append_right _ h)).trans
    ((keep9_1 _ b fun h => hb (List.mem_append_left _ (List.mem_append_right _ h))).trans
      (keep9 W b fun h => hb (List.mem_append_left _ (List.mem_append_left _ h))))

theorem l9_v368 (X : Valuation τ sig (Elt Ideal)) :
    StableHlo.after hostOps9 X (Proc.devRef .tc main_v368)
      = (addf (scatK (X (Proc.devRef .tc main_v351_1)) (X (Proc.devRef .tc main_v3)) (X (Proc.devRef .tc main_v32)) (X (Proc.devRef .tc main_v6)))
          (broadcastInDim S50000x64 ![0, 1] bcast_S1x64_S50000x64_0_1
            (broadcastInDim S1x64 ![1] bcast_S64_S1x64_1
              (shapeCast S64 (extractStridedSlice S1x64 ![7, 0] (X (Proc.devRef .tc main_arg13)) slices_S8x64_S1x64_7_0) shapeCasts_S1x64_S64))) :
          FVec Ideal S50000x64 .f32) := by
  simp only [hostOps9]; after_results_simp; all_goals rfl

theorem l9_v372 (X : Valuation τ sig (Elt Ideal)) :
    StableHlo.after hostOps9 X (Proc.devRef .tc main_v372)
      = (Host.divf (broadcastInDim S1x64 ![1] bcast_S64_S1x64_1 (sum64K (StableHlo.after hostOps9 X (Proc.devRef .tc main_v368))))
          (broadcastInDim S1x64 ![] bcast_S_S1x64 (constant S_ .f32 0x47435000#32)) : FVec Ideal S1x64 .f32) := by
  rw [← List.take_append_drop 20 (hostOps9 (F := Ideal)), after_append]
  generalize StableHlo.after (List.take 20 hostOps9) X = Y
  simp only [hostOps9, List.drop_succ_cons, List.drop_zero]
  after_results; all_goals rfl

theorem l9_c_57 (X : Valuation τ sig (Elt Ideal)) :
    StableHlo.after hostOps9 X (Proc.devRef .tc main_c_57) = (constantI S_ 32 0#32 : IVec S_ 32) := by
  simp only [hostOps9]; after_results; all_goals rfl

theorem l9_1_v373 (X : Valuation τ sig (Elt Ideal)) (h0 : X (Proc.devRef .tc main_c_57) = (constantI S_ 32 0#32 : IVec S_ 32)) :
    StableHlo.after hostOps9_1 X (Proc.devRef .tc main_v373) = var64K (X (Proc.devRef .tc main_v368)) := by
  simp only [hostOps9_1]; after_results_simp; rw [h0]; rfl

theorem l9_2_v376 (X : Valuation τ sig (Elt Ideal)) :
    StableHlo.after hostOps9_2 X (Proc.devRef .tc main_v376)
      = (shapeCast S1x64 (shapeCast S64 (extractStridedSlice S1x64 ![7, 0] (X (Proc.devRef .tc main_arg14)) slices_S8x64_S1x64_7_0) shapeCasts_S1x64_S64) shapeCasts_S64_S1x64 :
          FVec Ideal S1x64 .f32) := by
  simp only [hostOps9_2]; after_results; all_goals rfl

theorem l9_2_v379 (X : Valuation τ sig (Elt Ideal)) :
    StableHlo.after hostOps9_2 X (Proc.devRef .tc main_v379)
      = (shapeCast S1x64 (shapeCast S64 (extractStridedSlice S1x64 ![7, 0] (X (Proc.devRef .tc main_arg15)) slices_S8x64_S1x64_7_0) shapeCasts_S1x64_S64) shapeCasts_S64_S1x64 :
          FVec Ideal S1x64 .f32) := by
  simp only [hostOps9_2]; after_results; all_goals rfl

theorem l9_2_v381 (X : Valuation τ sig (Elt Ideal)) :
    StableHlo.after hostOps9_2 X (Proc.devRef .tc main_v381)
      = (shapeCast S64x4 (extractStridedSlice S1x64x4 ![8, 0, 0] (X (Proc.devRef .tc main_v38)) slices_S9x64x4_S1x64x4_8_0_0) shapeCasts_S1x64x4_S64x4 :
          FVec Ideal S64x4 .bf16) := by
  simp only [hostOps9_2]; after_results; all_goals rfl

theorem l9_2_v384 (X : Valuation τ sig (Elt Ideal)) :
    StableHlo.after hostOps9_2 X (Proc.devRef .tc main_v384)
      = (shapeCast S1x4 (shapeCast S4 (extractStridedSlice S1x4 ![8, 0] (X (Proc.devRef .tc main_arg9)) slices_S9x4_S1x4_8_0) shapeCasts_S1x4_S4) shapeCasts_S4_S1x4 :
          FVec Ideal S1x4 .f32) := by
  simp only [hostOps9_2]; after_results; all_goals rfl

theorem l9_2_v386 (X : Valuation τ sig (Elt Ideal)) :
    StableHlo.after hostOps9_2 X (Proc.devRef .tc main_v386)
      = (shapeCast S4x1 (extractStridedSlice S1x4x1 ![8, 0, 0] (X (Proc.devRef .tc main_v39)) slices_S9x4x1_S1x4x1_8_0_0) shapeCasts_S1x4x1_S4x1 :
          FVec Ideal S4x1 .bf16) := by
  simp only [hostOps9_2]; after_results; all_goals rfl

theorem l9_2_v389 (X : Valuation τ sig (Elt Ideal)) :
    StableHlo.after hostOps9_2 X (Proc.devRef .tc main_v389)
      = (shapeCast S1x1 (shapeCast S1 (extractStridedSlice S1x1 ![8, 0] (X (Proc.devRef .tc main_arg11)) slices_S9x1_S1x1_8_0) shapeCasts_S1x1_S1) shapeCasts_S1_S1x1 :
          FVec Ideal S1x1 .f32) := by
  simp only [hostOps9_2]; after_results; all_goals rfl

theorem st9_v368 (W : Valuation τ sig (Elt Ideal)) (i : Fin 50000) (j : Fin 64) :
    (st9 W (Proc.devRef .tc main_v368) : S50000x64.Idx → EReal) (ix2 i j)
      = scatK (W (Proc.devRef .tc main_v351_1)) (W (Proc.devRef .tc main_v3)) (W (Proc.devRef .tc main_v32)) (W (Proc.devRef .tc main_v6)) (ix2 i j)
        + (W (Proc.devRef .tc main_arg13) : S8x64.Idx → EReal) (ix2 7 j) := by
  have e : (st9 W (Proc.devRef .tc main_v368) : S50000x64.Idx → EReal)
      = addf (scatK (W (Proc.devRef .tc main_v351_1)) (W (Proc.devRef .tc main_v3)) (W (Proc.devRef .tc main_v32)) (W (Proc.devRef .tc main_v6)))
          (broadcastInDim S50000x64 ![0, 1] bcast_S1x64_S50000x64_0_1
            (broadcastInDim S1x64 ![1] bcast_S64_S1x64_1
              (shapeCast S64 (extractStridedSlice S1x64 ![7, 0] (W (Proc.devRef .tc main_arg13) : S8x64.Idx → EReal) slices_S8x64_S1x64_7_0) shapeCasts_S1x64_S64))) := by
    show StableHlo.after hostOps9_2 (StableHlo.after hostOps9_1 (StableHlo.after hostOps9 W)) (Proc.devRef .tc main_v368) = _
    rw [keep9_2 _ main_v368 (by decide), keep9_1 _ main_v368 (by decide), l9_v368]
  rw [e, addf_apply, bcast_1b_ab, bcast_b_1b]
  exact congrArg (_ + ·) ((shapeCast_1a_a_apply _ _ j).trans (stack2_row (7 : Fin 8) _ _ 0 j))

theorem st9_v372 (W : Valuation τ sig (Elt Ideal)) (u : Fin 1) (j : Fin 64) :
    (st9 W (Proc.devRef .tc main_v372) : S1x64.Idx → EReal) (ix2 u j)
      = Cert.Spec.meanOf (sum64K (st9 W (Proc.devRef .tc main_v368)) (ix1 j)) := by
  have e : (st9 W (Proc.devRef .tc main_v372) : S1x64.Idx → EReal)
      = Host.divf (broadcastInDim S1x64 ![1] bcast_S64_S1x64_1 (sum64K (st9 W (Proc.devRef .tc main_v368))))
          (broadcastInDim S1x64 ![] bcast_S_S1x64 (constant S_ .f32 0x47435000#32)) := by
    show StableHlo.after hostOps9_2 (StableHlo.after hostOps9_1 (StableHlo.after hostOps9 W)) (Proc.devRef .tc main_v372)
      = Host.divf (broadcastInDim S1x64 ![1] bcast_S64_S1x64_1 (sum64K (StableHlo.after hostOps9_2 (StableHlo.after hostOps9_1 (StableHlo.after hostOps9 W)) (Proc.devRef .tc main_v368))))
          (broadcastInDim S1x64 ![] bcast_S_S1x64 (constant S_ .f32 0x47435000#32))
    rw [keep9_2 _ main_v372 (by decide), keep9_1 _ main_v372 (by decide), keep9_2 _ main_v368 (by decide),
      keep9_1 _ main_v368 (by decide), l9_v372]
  rw [e]
  show Ideal.div (broadcastInDim S1x64 ![1] bcast_S64_S1x64_1 (sum64K (st9 W (Proc.devRef .tc main_v368))) (ix2 u j))
      (Ideal.ofBits .f32 0x47435000#32) = _
  rw [bcast_b_1b]
  rfl

theorem st9_v373 (W : Valuation τ sig (Elt Ideal)) :
    st9 W (Proc.devRef .tc main_v373) = var64K (st9 W (Proc.devRef .tc main_v368)) := by
  show StableHlo.after hostOps9_2 (StableHlo.after hostOps9_1 (StableHlo.after hostOps9 W)) (Proc.devRef .tc main_v373) = var64K (StableHlo.after hostOps9_2 (StableHlo.after hostOps9_1 (StableHlo.after hostOps9 W)) (Proc.devRef .tc main_v368))
  rw [keep9_2 _ main_v373 (by decide), keep9_2 _ main_v368 (by decide), keep9_1 _ main_v368 (by decide),
    l9_1_v373 _ (l9_c_57 W)]

theorem st9_v376 (W : Valuation τ sig (Elt Ideal)) (u : Fin 1) (j : Fin 64) :
    (st9 W (Proc.devRef .tc main_v376) : S1x64.Idx → EReal) (ix2 u j) = (W (Proc.devRef .tc main_arg14) : S8x64.Idx → EReal) (ix2 7 j) := by
  have e : (st9 W (Proc.devRef .tc main_v376) : S1x64.Idx → EReal)
      = shapeCast S1x64 (shapeCast S64 (extractStridedSlice S1x64 ![7, 0] (W (Proc.devRef .tc main_arg14) : S8x64.Idx → EReal) slices_S8x64_S1x64_7_0) shapeCasts_S1x64_S64) shapeCasts_S64_S1x64 := by
    show StableHlo.after hostOps9_2 (StableHlo.after hostOps9_1 (StableHlo.after hostOps9 W)) (Proc.devRef .tc main_v376) = _
    rw [l9_2_v376, keep9_1 _ main_arg14 (by decide), keep9 _ main_arg14 (by decide)]
  rw [e]
  exact (row_roundtrip _ _ _ u j).trans (stack2_row (7 : Fin 8) _ _ 0 j)

theorem st9_v379 (W : Valuation τ sig (Elt Ideal)) (u : Fin 1) (j : Fin 64) :
    (st9 W (Proc.devRef .tc main_v379) : S1x64.Idx → EReal) (ix2 u j) = (W (Proc.devRef .tc main_arg15) : S8x64.Idx → EReal) (ix2 7 j) := by
  have e : (st9 W (Proc.devRef .tc main_v379) : S1x64.Idx → EReal)
      = shapeCast S1x64 (shapeCast S64 (extractStridedSlice S1x64 ![7, 0] (W (Proc.devRef .tc main_arg15) : S8x64.Idx → EReal) slices_S8x64_S1x64_7_0) shapeCasts_S1x64_S64) shapeCasts_S64_S1x64 := by
    show StableHlo.after hostOps9_2 (StableHlo.after hostOps9_1 (StableHlo.after hostOps9 W)) (Proc.devRef .tc main_v379) = _
    rw [l9_2_v379, keep9_1 _ main_arg15 (by decide), keep9 _ main_arg15 (by decide)]
  rw [e]
  exact (row_roundtrip _ _ _ u j).trans (stack2_row (7 : Fin 8) _ _ 0 j)

theorem st9_v381 (W : Valuation τ sig (Elt Ideal)) (k : Fin 64) (a : Fin 4) :
    (st9 W (Proc.devRef .tc main_v381) : S64x4.Idx → EReal) (ix2 k a) = (W (Proc.devRef .tc main_v38) : S9x64x4.Idx → EReal) (ix3 8 k a) := by
  have e : (st9 W (Proc.devRef .tc main_v381) : S64x4.Idx → EReal)
      = shapeCast S64x4 (extractStridedSlice S1x64x4 ![8, 0, 0] (W (Proc.devRef .tc main_v38) : S9x64x4.Idx → EReal) slices_S9x64x4_S1x64x4_8_0_0) shapeCasts_S1x64x4_S64x4 := by
    show StableHlo.after hostOps9_2 (StableHlo.after hostOps9_1 (StableHlo.after hostOps9 W)) (Proc.devRef .tc main_v381) = _
    rw [l9_2_v381, keep9_1 _ main_v38 (by decide), keep9 _ main_v38 (by decide)]
  rw [e]
  exact stack3_entry (8 : Fin 9) _ _ _ k a

theorem st9_v384 (W : Valuation τ sig (Elt Ideal)) (u : Fin 1) (a : Fin 4) :
    (st9 W (Proc.devRef .tc main_v384) : S1x4.Idx → EReal) (ix2 u a) = (W (Proc.devRef .tc main_arg9) : S9x4.Idx → EReal) (ix2 8 a) := by
  have e : (st9 W (Proc.devRef .tc main_v384) : S1x4.Idx → EReal)
      = shapeCast S1x4 (shapeCast S4 (extractStridedSlice S1x4 ![8, 0] (W (Proc.devRef .tc main_arg9) : S9x4.Idx → EReal) slices_S9x4_S1x4_8_0) shapeCasts_S1x4_S4) shapeCasts_S4_S1x4 := by
    show StableHlo.after hostOps9_2 (StableHlo.after hostOps9_1 (StableHlo.after hostOps9 W)) (Proc.devRef .tc main_v384) = _
    rw [l9_2_v384, keep9_1 _ main_arg9 (by decide), keep9 _ main_arg9 (by decide)]
  rw [e]
  exact (row_roundtrip _ _ _ u a).trans (stack2_row (8 : Fin 9) _ _ 0 a)

theorem st9_v386 (W : Valuation τ sig (Elt Ideal)) (a : Fin 4) (q : Fin 1) :
    (st9 W (Proc.devRef .tc main_v386) : S4x1.Idx → EReal) (ix2 a q) = (W (Proc.devRef .tc main_v39) : S9x4x1.Idx → EReal) (ix3 8 a q) := by
  have e : (st9 W (Proc.devRef .tc main_v386) : S4x1.Idx → EReal)
      = shapeCast S4x1 (extractStridedSlice S1x4x1 ![8, 0, 0] (W (Proc.devRef .tc main_v39) : S9x4x1.Idx → EReal) slices_S9x4x1_S1x4x1_8_0_0) shapeCasts_S1x4x1_S4x1 := by
    show StableHlo.after hostOps9_2 (StableHlo.after hostOps9_1 (StableHlo.after hostOps9 W)) (Proc.devRef .tc main_v386) = _
    rw [l9_2_v386, keep9_1 _ main_v39 (by decide), keep9 _ main_v39 (by decide)]
  rw [e]
  exact stack3_entry (8 : Fin 9) _ _ _ a q

theorem st9_v389 (W : Valuation τ sig (Elt Ideal)) (u : Fin 1) (q : Fin 1) :
    (st9 W (Proc.devRef .tc main_v389) : S1x1.Idx → EReal) (ix2 u q) = (W (Proc.devRef .tc main_arg11) : S9x1.Idx → EReal) (ix2 8 q) := by
  have e : (st9 W (Proc.devRef .tc main_v389) : S1x1.Idx → EReal)
      = shapeCast S1x1 (shapeCast S1 (extractStridedSlice S1x1 ![8, 0] (W (Proc.devRef .tc main_arg11) : S9x1.Idx → EReal) slices_S9x1_S1x1_8_0) shapeCasts_S1x1_S1) shapeCasts_S1_S1x1 := by
    show StableHlo.after hostOps9_2 (StableHlo.after hostOps9_1 (StableHlo.after hostOps9 W)) (Proc.devRef .tc main_v389) = _
    rw [l9_2_v389, keep9_1 _ main_arg11 (by decide), keep9 _ main_arg11 (by decide)]
  rw [e]
  exact (row_roundtrip _ _ _ u q).trans (stack2_row (8 : Fin 9) _ _ 0 q)

end Cert.KernelIdeal.KHost

end
-- ==== Proof.KReg9.lean ====
import proofs.«428538_j32280974197073_1_alg».proof.Proof.KReg2

set_option pp.maxSteps 5000
set_option pp.deepTerms false

noncomputable section

open scoped BigOperators

namespace Cert.KernelIdeal.KReg9

open Cert.KernelIdeal Cert.KernelIdeal.Gen
open Idealize.ShloMosaic Idealize.ShloMosaic.ValueIdx
open Idealize.ShloMosaic.TcCoe Idealize.SL.Sem
open Idealize.ShloMosaic.Pipeline (Dat)
open Cert.KernelIdeal.KReg2 (hrow grow hrow_congr grow_congr leaky_eq zero_word broadcastTo_col_apply hz fusedArr)

theorem k9_pay2_apply (v0 : Vec Ideal S2000x64 .f32) (v2 v7 v13 v17 : Vec Ideal S1x64 .f32) (i : Fin 2000) (j : Fin 64) :
    k9_pay2 (F := Ideal) v0 v2 v7 v13 v17 (ix2 i j) = hrow v0 v2 v7 v13 v17 i j := by
  unfold k9_pay2
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply, zero_word]
  rfl

theorem k9_pay3_apply (v0 v23 : Vec Ideal S2000x64 .f32) (v2 v7 v13 v17 : Vec Ideal S1x64 .f32) (v27 : Vec Ideal S64x4 .bf16)
    (v30 : Vec Ideal S1x4 .f32) (i : Fin 2000) (a : Fin 4) :
    k9_pay3 (F := Ideal) v0 v2 v7 v13 v17 v23 v27 v30 (ix2 i a)
      = (∑ k : Fin 64, (hrow v0 v2 v7 v13 v17 i k - v23 (ix2 i k)) * v27 (ix2 k a)) + v30 (ix2 (0 : Fin 1) a) := by
  unfold k9_pay3
  simp only [shapeCast_self]
  rw [addf_apply, ReadOps.matmul_64x4_apply, broadcastTo_1b_ab_apply]
  refine congrArg (· + v30 (ix2 (0 : Fin 1) a)) (Finset.sum_congr rfl fun k _ => ?_)
  rw [truncf_apply, subf_apply, k9_pay2_apply]

theorem k9_select_apply (v0 v23 : Vec Ideal S2000x64 .f32) (v2 v7 v13 v17 : Vec Ideal S1x64 .f32) (v27 : Vec Ideal S64x4 .bf16)
    (v30 : Vec Ideal S1x4 .f32) (i : Fin 2000) (a : Fin 4) :
    Scalar.select (k9_pay4 (F := Ideal) v0 v2 v7 v13 v17 v23 v27 v30 (ix2 i a)) (k9_pay3 (F := Ideal) v0 v2 v7 v13 v17 v23 v27 v30 (ix2 i a))
        (k9_pay5 (F := Ideal) v0 v2 v7 v13 v17 v23 v27 v30 (ix2 i a))
      = Cert.Spec.leaky (k9_pay3 (F := Ideal) v0 v2 v7 v13 v17 v23 v27 v30 (ix2 i a)) :=
  leaky_eq (k9_pay3 (F := Ideal) v0 v2 v7 v13 v17 v23 v27 v30 (ix2 i a))

theorem k9_pay1_apply (v22 : FVec Ideal S2000x64 .f32) (v33 v37 : FVec Ideal S2000x4 .f32) (v35 : IVec S2000x4 1)
    (v40 : Vec Ideal S4x1 .bf16) (v43 : Vec Ideal S1x1 .f32) (v50 : Vec Ideal S2000x64 .f32) (i : Fin 2000) (j : Fin 64) :
    k9_pay1 (F := Ideal) v22 v33 v35 v37 v40 v43 v50 (ix2 i j)
      = v50 (ix2 i j) + v22 (ix2 i j) * Ideal.logistic ((∑ a : Fin 4, Scalar.select (v35 (ix2 i a)) (v33 (ix2 i a)) (v37 (ix2 i a))
          * v40 (ix2 a (0 : Fin 1))) + v43 (ix2 (0 : Fin 1) (0 : Fin 1))) := by
  unfold k9_pay1
  simp only [shapeCast_self]
  rw [addf_apply, mulf_apply, broadcastTo_col_apply]
  refine congrArg (fun z => v50 (ix2 i j) + v22 (ix2 i j) * Ideal.logistic z) ?_
  rw [addf_apply, ReadOps.matmul_4x1_apply, broadcastTo_1b_ab_apply]
  rfl

theorem k9_out_apply (v0 v23 v50 : Vec Ideal S2000x64 .f32) (v2 v7 v13 v17 : Vec Ideal S1x64 .f32) (v27 : Vec Ideal S64x4 .bf16)
    (v30 : Vec Ideal S1x4 .f32) (v40 : Vec Ideal S4x1 .bf16) (v43 : Vec Ideal S1x1 .f32) (i : Fin 2000) (j : Fin 64) :
    k9_pay1 (F := Ideal) (k9_pay2 v0 v2 v7 v13 v17) (k9_pay3 v0 v2 v7 v13 v17 v23 v27 v30) (k9_pay4 v0 v2 v7 v13 v17 v23 v27 v30)
        (k9_pay5 v0 v2 v7 v13 v17 v23 v27 v30) v40 v43 v50 (ix2 i j)
      = v50 (ix2 i j) + grow v0 v23 v2 v7 v13 v17 v27 v30 v40 v43 i j := by
  rw [k9_pay1_apply, k9_pay2_apply]
  show _ = v50 (ix2 i j) + hrow v0 v2 v7 v13 v17 i j * Ideal.logistic ((∑ a : Fin 4, Cert.Spec.leaky ((∑ k : Fin 64,
      (hrow v0 v2 v7 v13 v17 i k - v23 (ix2 i k)) * v27 (ix2 k a)) + v30 (ix2 (0 : Fin 1) a)) * v40 (ix2 a (0 : Fin 1)))
      + v43 (ix2 (0 : Fin 1) (0 : Fin 1)))
  refine congrArg (fun z => v50 (ix2 i j) + hrow v0 v2 v7 v13 v17 i j * Ideal.logistic (z + v43 (ix2 (0 : Fin 1) (0 : Fin 1)))) ?_
  refine Finset.sum_congr rfl fun a _ => ?_
  rw [k9_select_apply, k9_pay3_apply]

theorem idx_facts : ∀ t : Fin cfg9.N,
    win9_0.index t (0 : Fin 2) = t.val ∧ win9_0.index t (1 : Fin 2) = 0
    ∧ win9_5.index t (0 : Fin 2) = t.val ∧ win9_5.index t (1 : Fin 2) = 0
    ∧ win9_10.index t (0 : Fin 2) = t.val ∧ win9_10.index t (1 : Fin 2) = 0 :=
  (by decide +kernel : ∀ t : Fin grid9.N, _)

theorem idx_facts_res : ∀ t : Fin cfg9.N,
    win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = 0 ∧ win9_9.index t (1 : Fin 2) = 0 :=
  (by decide +kernel : ∀ t : Fin grid9.N, _)

def rowOf (t : Fin cfg9.N) (p : Fin 2000) : Fin 50000 :=
  ⟨t.val * 2000 + p.val, by have h : cfg9.N = 25 := N_9; have := t.isLt; have := p.isLt; omega⟩

theorem read0 (t : Fin cfg9.N) (A : Vec Ideal S50000x64 .f32) (p : Fin 2000) (k : Fin 64) :
    (((cfg9.win 0).blk t).view.read (Elt Ideal) A) (ix2 p k) = A (ix2 (rowOf t p) k) := by
  obtain ⟨e0a, e0b, -⟩ := idx_facts t
  rw [View.read_apply]
  refine congrArg A (funext fun a => Fin.ext ?_)
  match a with
  | ⟨0, _⟩ => show win9_0.index t (0 : Fin 2) * 2000 + 1 * p.val = t.val * 2000 + p.val; rw [e0a]; omega
  | ⟨1, _⟩ => show win9_0.index t (1 : Fin 2) * 64 + 1 * k.val = k.val; rw [e0b]; omega

theorem read5 (t : Fin cfg9.N) (A : Vec Ideal S50000x64 .f32) (p : Fin 2000) (k : Fin 64) :
    (((cfg9.win 5).blk t).view.read (Elt Ideal) A) (ix2 p k) = A (ix2 (rowOf t p) k) := by
  obtain ⟨-, -, e0a, e0b, -⟩ := idx_facts t
  rw [View.read_apply]
  refine congrArg A (funext fun a => Fin.ext ?_)
  match a with
  | ⟨0, _⟩ => show win9_5.index t (0 : Fin 2) * 2000 + 1 * p.val = t.val * 2000 + p.val; rw [e0a]; omega
  | ⟨1, _⟩ => show win9_5.index t (1 : Fin 2) * 64 + 1 * k.val = k.val; rw [e0b]; omega

theorem read10 (t : Fin cfg9.N) (A : Vec Ideal S50000x64 .f32) (p : Fin 2000) (k : Fin 64) :
    (((cfg9.win 10).blk t).view.read (Elt Ideal) A) (ix2 p k) = A (ix2 (rowOf t p) k) := by
  obtain ⟨-, -, -, -, e0a, e0b⟩ := idx_facts t
  rw [View.read_apply]
  refine congrArg A (funext fun a => Fin.ext ?_)
  match a with
  | ⟨0, _⟩ => show win9_10.index t (0 : Fin 2) * 2000 + 1 * p.val = t.val * 2000 + p.val; rw [e0a]; omega
  | ⟨1, _⟩ => show win9_10.index t (1 : Fin 2) * 64 + 1 * k.val = k.val; rw [e0b]; omega

theorem read1 (t : Fin cfg9.N) (A : Vec Ideal S1x64 .f32) : ((cfg9.win 1).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_1.index t (0 : Fin 2) * 1 + 1 * (y 0).val = (y 0).val; rw [e1a]; omega
  | ⟨1, _⟩ => show win9_1.index t (1 : Fin 2) * 64 + 1 * (y 1).val = (y 1).val; rw [e1b]; omega

theorem read2 (t : Fin cfg9.N) (A : Vec Ideal S1x64 .f32) : ((cfg9.win 2).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_2.index t (0 : Fin 2) * 1 + 1 * (y 0).val = (y 0).val; rw [e2a]; omega
  | ⟨1, _⟩ => show win9_2.index t (1 : Fin 2) * 64 + 1 * (y 1).val = (y 1).val; rw [e2b]; omega

theorem read3 (t : Fin cfg9.N) (A : Vec Ideal S1x64 .f32) : ((cfg9.win 3).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_3.index t (0 : Fin 2) * 1 + 1 * (y 0).val = (y 0).val; rw [e3a]; omega
  | ⟨1, _⟩ => show win9_3.index t (1 : Fin 2) * 64 + 1 * (y 1).val = (y 1).val; rw [e3b]; omega

theorem read4 (t : Fin cfg9.N) (A : Vec Ideal S1x64 .f32) : ((cfg9.win 4).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_4.index t (0 : Fin 2) * 1 + 1 * (y 0).val = (y 0).val; rw [e4a]; omega
  | ⟨1, _⟩ => show win9_4.index t (1 : Fin 2) * 64 + 1 * (y 1).val = (y 1).val; rw [e4b]; omega

theorem read6 (t : Fin cfg9.N) (A : Vec Ideal S64x4 .bf16) : ((cfg9.win 6).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_6.index t (0 : Fin 2) * 64 + 1 * (y 0).val = (y 0).val; rw [e6a]; omega
  | ⟨1, _⟩ => show win9_6.index t (1 : Fin 2) * 4 + 1 * (y 1).val = (y 1).val; rw [e6b]; omega

theorem read7 (t : Fin cfg9.N) (A : Vec Ideal S1x4 .f32) : ((cfg9.win 7).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_7.index t (0 : Fin 2) * 1 + 1 * (y 0).val = (y 0).val; rw [e7a]; omega
  | ⟨1, _⟩ => show win9_7.index t (1 : Fin 2) * 4 + 1 * (y 1).val = (y 1).val; rw [e7b]; omega

theorem read8 (t : Fin cfg9.N) (A : Vec Ideal S4x1 .bf16) : ((cfg9.win 8).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_8.index t (0 : Fin 2) * 4 + 1 * (y 0).val = (y 0).val; rw [e8a]; omega
  | ⟨1, _⟩ => show win9_8.index t (1 : Fin 2) * 1 + 1 * (y 1).val = (y 1).val; rw [e8b]; omega

theorem read9 (t : Fin cfg9.N) (A : Vec Ideal S1x1 .f32) : ((cfg9.win 9).blk t).view.read (Elt Ideal) A = A := by
  obtain ⟨e1a, e1b, e2a, e2b, e3a, e3b, e4a, e4b, e6a, e6b, e7a, e7b, e8a, e8b, e9a, e9b⟩ := idx_facts_res t
  funext y
  rw [View.read_apply]
  refine congrArg A (funext fun a => Fin.ext ?_)
  match a with
  | ⟨0, _⟩ => show win9_9.index t (0 : Fin 2) * 1 + 1 * (y 0).val = (y 0).val; rw [e9a]; omega
  | ⟨1, _⟩ => show win9_9.index t (1 : Fin 2) * 1 + 1 * (y 1).val = (y 1).val; rw [e9b]; omega

theorem store10_eq (t : Fin cfg9.N) (A0 : Vec Ideal S50000x64 .f32) (A1 A2 A3 A4 : Vec Ideal S1x64 .f32) (A5 : Vec Ideal S50000x64 .f32)
    (A6 : Vec Ideal S64x4 .bf16) (A7 : Vec Ideal S1x4 .f32) (A8 : Vec Ideal S4x1 .bf16) (A9 : Vec Ideal S1x1 .f32)
    (x0 : Vec Ideal S2000x64 .f32) (x1 x2 x3 x4 : Vec Ideal S1x64 .f32) (x5 : Vec Ideal S2000x64 .f32)
    (x6 : Vec Ideal S64x4 .bf16) (x7 : Vec Ideal S1x4 .f32) (x8 : Vec Ideal S4x1 .bf16) (x9 : Vec Ideal S1x1 .f32)
    (h0 : ∀ p k, x0 (ix2 p k) = A0 (ix2 (rowOf t p) k)) (h1 : x1 = A1) (h2 : x2 = A2) (h3 : x3 = A3) (h4 : x4 = A4)
    (h5 : ∀ p k, x5 (ix2 p k) = A5 (ix2 (rowOf t p) k)) (h6 : x6 = A6) (h7 : x7 = A7) (h8 : x8 = A8) (h9 : x9 = A9) :
    k9_pay1 (F := Ideal) (k9_pay2 x0 x2 x1 x3 x4) (k9_pay3 x0 x2 x1 x3 x4 x5 x6 x7) (k9_pay4 x0 x2 x1 x3 x4 x5 x6 x7)
        (k9_pay5 x0 x2 x1 x3 x4 x5 x6 x7) x8 x9 x5
      = ((cfg9.win 10).blk t).view.read (Elt Ideal) (fusedArr A0 A1 A2 A3 A4 A5 A6 A7 A8 A9) := by
  subst h1 h2 h3 h4 h6 h7 h8 h9
  funext y
  obtain ⟨p, j, rfl⟩ : ∃ (p : Fin 2000) (j : Fin 64), y = ix2 p j := ⟨y 0, y 1, eq_ix2 y⟩
  rw [read10, k9_out_apply, h5 p j]
  show _ = A5 (ix2 (rowOf t p) j) + grow (n := 50000) A0 A5 x2 x1 x3 x4 x6 x7 x8 x9 (rowOf t p) j
  rw [grow_congr x0 x5 A0 A5 x2 x1 x3 x4 x6 x7 x8 x9 p (rowOf t p) (h0 p) (h5 p)]

theorem mem_blk10 (t : Fin cfg9.N) (i : S50000x64.Idx) :
    i ∈ ((cfg9.win 10).blk t).view.set ↔ ∀ a : Fin 2, win9_10.index t a * S2000x64.size a ≤ (i a).val ∧ (i a).val < win9_10.index t a * S2000x64.size a + S2000x64.size a := by
  show i ∈ ((View.whole main_v390).slice (win9_10.rect t)).set ↔ _
  rw [View.set_slice_whole, Rect.mem_set_unit]
  exact Iff.rfl

def pointOf (i : S50000x64.Idx) : Fin cfg9.N :=
  ⟨(i 0).val / 2000, by have h : cfg9.N = 25 := N_9; have : (i 0).val < 50000 := (i 0).isLt; omega⟩

theorem cover10 (i : S50000x64.Idx) : ∃ t : Fin cfg9.N, (cfg9.win 10).flush t = true ∧ i ∈ ((cfg9.win 10).blk t).view.set := by
  refine ⟨pointOf i, flush9_10 _, ?_⟩
  obtain ⟨-, -, -, -, e0a, e0b⟩ := idx_facts (pointOf i)
  rw [mem_blk10]
  have hi0 : (i 0).val < 50000 := (i 0).isLt
  have hi1 : (i 1).val < 64 := (i 1).isLt
  have hp : (pointOf i).val = (i 0).val / 2000 := rfl
  intro a
  match a with
  | ⟨0, _⟩ => show win9_10.index (pointOf i) (0 : Fin 2) * 2000 ≤ (i 0).val ∧ (i 0).val < win9_10.index (pointOf i) (0 : Fin 2) * 2000 + 2000; rw [e0a, hp]; omega
  | ⟨1, _⟩ => show win9_10.index (pointOf i) (1 : Fin 2) * 64 ≤ (i 1).val ∧ (i 1).val < win9_10.index (pointOf i) (1 : Fin 2) * 64 + 64; rw [e0b]; omega

section Region
variable (V : (c : Dev nD) → (b : Ref sig .tc) → Buf (Elt Ideal) ((c : Thread nD τ).loc b))

abbrev aggIn (c : Dev nD) : Vec Ideal S50000x64 .f32 := V c main_v368
abbrev meanIn (c : Dev nD) : Vec Ideal S1x64 .f32 := V c main_v372
abbrev varIn (c : Dev nD) : Vec Ideal S1x64 .f32 := V c main_v373
abbrev gammaIn (c : Dev nD) : Vec Ideal S1x64 .f32 := V c main_v376
abbrev betaIn (c : Dev nD) : Vec Ideal S1x64 .f32 := V c main_v379
abbrev fusedIn (c : Dev nD) : Vec Ideal S50000x64 .f32 := V c main_v351_0
abbrev lw1In (c : Dev nD) : Vec Ideal S64x4 .bf16 := V c main_v381
abbrev lb1In (c : Dev nD) : Vec Ideal S1x4 .f32 := V c main_v384
abbrev lw2In (c : Dev nD) : Vec Ideal S4x1 .bf16 := V c main_v386
abbrev lb2In (c : Dev nD) : Vec Ideal S1x1 .f32 := V c main_v389

theorem flushed10_eq (c : Dev nD) (t : Fin cfg9.N) :
    (dat9 (F := Ideal) V c).flushed 10 t
      = ((cfg9.win 10).blk t).view.read (Elt Ideal) (fusedArr (aggIn V c) (meanIn V c) (varIn V c) (gammaIn V c) (betaIn V c) (fusedIn V c) (lw1In V c) (lb1In V c) (lw2In V c) (lb2In V c)) := by
  show (cfg9.win 10).cut (grid9.coords t) ((dat9 (F := Ideal) V c).after 10 t) = _
  rw [after9_10]
  unfold out9_10
  rw [View.canon_unit_zero hz]
  simp only [View.ld_unit_zero (S := S2000x64) hz, View.ld_unit_zero (S := S1x64) hz, View.ld_unit_zero (S := S64x4) hz,
    View.ld_unit_zero (S := S1x4) hz, View.ld_unit_zero (S := S4x1) hz, View.ld_unit_zero (S := S1x1) hz]
  exact store10_eq t (aggIn V c) (meanIn V c) (varIn V c) (gammaIn V c) (betaIn V c) (fusedIn V c) (lw1In V c) (lb1In V c) (lw2In V c) (lb2In V c)
    (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t)
    (fun p k => read0 t (aggIn V c) p k) (read1 t (meanIn V c)) (read2 t (varIn V c)) (read3 t (gammaIn V c)) (read4 t (betaIn V c))
    (fun p k => read5 t (fusedIn V c) p k) (read6 t (lw1In V c)) (read7 t (lb1In V c)) (read8 t (lw2In V c)) (read9 t (lb2In V c))

theorem final10 (c : Dev nD) :
    (dat9 (F := Ideal) V c).arrAt 10 cfg9.N = fusedArr (aggIn V c) (meanIn V c) (varIn V c) (gammaIn V c) (betaIn V c) (fusedIn V c) (lw1In V c) (lb1In V c) (lw2In V c) (lb2In V c) :=
  (dat9 (F := Ideal) V c).arrAt_eq_of_cover 10 (fusedArr (aggIn V c) (meanIn V c) (varIn V c) (gammaIn V c) (betaIn V c) (fusedIn V c) (lw1In V c) (lb1In V c) (lw2In V c) (lb2In V c))
    (fun t _ => flushed10_eq V c t) cover10

end Region

end Cert.KernelIdeal.KReg9

end
-- ==== Proof.KChain.Link9.lean ====
import proofs.«428538_j32280974197073_1_alg».proof.Proof.Gen.KernelIdeal.Frame
import proofs.«428538_j32280974197073_1_alg».proof.Proof.KHost.L9
import proofs.«428538_j32280974197073_1_alg».proof.Proof.KReg9
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link9

variable (m : (ℓ : Loc nD τ sig) → Buf (Elt Ideal) ℓ) (ρ : Dev nD → PrngReg)

theorem static_nw : ∀ b ∈ staticRefs, b ∉ KHost.wrS9 := by decide

theorem static_ne : ∀ b ∈ staticRefs, ∀ w, Pipeline.arrRef spec9 w ≠ b := by decide

theorem keeps (c : Dev nD) : Keeps (W36 m ρ c) (W40 m ρ c) := fun b hb =>
  (W40_of_ne m ρ c b (static_ne b hb)).trans (KHost.st9_keep (W36 m ρ c) b (static_nw b hb))

theorem exit_fused (c : Dev nD) :
    (W40 m ρ c (Proc.devRef .tc main_v390) : Vec Ideal S50000x64 .f32)
      = KReg2.fusedArr
          (W39 m ρ c (Proc.devRef .tc main_v368) : Vec Ideal S50000x64 .f32)
          (W39 m ρ c (Proc.devRef .tc main_v372) : Vec Ideal S1x64 .f32)
          (W39 m ρ c (Proc.devRef .tc main_v373) : Vec Ideal S1x64 .f32)
          (W39 m ρ c (Proc.devRef .tc main_v376) : Vec Ideal S1x64 .f32)
          (W39 m ρ c (Proc.devRef .tc main_v379) : Vec Ideal S1x64 .f32)
          (W39 m ρ c (Proc.devRef .tc main_v351_0) : Vec Ideal S50000x64 .f32)
          (W39 m ρ c (Proc.devRef .tc main_v381) : Vec Ideal S64x4 .bf16)
          (W39 m ρ c (Proc.devRef .tc main_v384) : Vec Ideal S1x4 .f32)
          (W39 m ρ c (Proc.devRef .tc main_v386) : Vec Ideal S4x1 .bf16)
          (W39 m ρ c (Proc.devRef .tc main_v389) : Vec Ideal S1x1 .f32) :=
  (W40_arr m ρ c 10).trans (KReg9.final10 (V39 m ρ) c)

theorem e_agg (c : Dev nD) (hst : Keeps (W3 m ρ c) (W36 m ρ c)) (i : Fin 50000) (j : Fin 64) :
    (W39 m ρ c (Proc.devRef .tc main_v368) : Vec Ideal S50000x64 .f32) (ix2 i j)
      = KHost.scatK (W36 m ρ c (Proc.devRef .tc main_v351_1)) (KHost.srcOf (m ((c : Thread nD τ).loc main_arg1))) (KHost.enormOf (m ((c : Thread nD τ).loc main_arg1))) (KHost.dstOf (m ((c : Thread nD τ).loc main_arg1))) (ix2 i j)
        + (paramsK m c).bb (7 : Fin 8) j := by
  have h := KHost.st9_v368 (W36 m ρ c) i j
  rw [st_src hst, st_enorm hst, st_dst hst, st_arg13 hst] at h
  exact h

theorem e_mean (c : Dev nD) (k : Fin 64) :
    (W39 m ρ c (Proc.devRef .tc main_v372) : Vec Ideal S1x64 .f32) (ix2 (0 : Fin 1) k) = Cert.Spec.meanOf (KHost.sum64K (W39 m ρ c (Proc.devRef .tc main_v368) : Vec Ideal S50000x64 .f32) (ix1 k)) :=
  KHost.st9_v372 (W36 m ρ c) 0 k

theorem e_var (c : Dev nD) (k : Fin 64) :
    (W39 m ρ c (Proc.devRef .tc main_v373) : Vec Ideal S1x64 .f32) (ix2 (0 : Fin 1) k) = KHost.var64K (W39 m ρ c (Proc.devRef .tc main_v368) : Vec Ideal S50000x64 .f32) (ix2 (0 : Fin 1) k) :=
  congrFun (KHost.st9_v373 (W36 m ρ c)) (ix2 (0 : Fin 1) k)

theorem e_gamma (c : Dev nD) (hst : Keeps (W3 m ρ c) (W36 m ρ c)) (k : Fin 64) :
    (W39 m ρ c (Proc.devRef .tc main_v376) : Vec Ideal S1x64 .f32) (ix2 (0 : Fin 1) k) = (paramsK m c).bg (7 : Fin 8) k := by
  have h := KHost.st9_v376 (W36 m ρ c) 0 k
  rw [st_arg14 hst] at h
  exact h

theorem e_beta (c : Dev nD) (hst : Keeps (W3 m ρ c) (W36 m ρ c)) (k : Fin 64) :
    (W39 m ρ c (Proc.devRef .tc main_v379) : Vec Ideal S1x64 .f32) (ix2 (0 : Fin 1) k) = (paramsK m c).bbe (7 : Fin 8) k := by
  have h := KHost.st9_v379 (W36 m ρ c) 0 k
  rw [st_arg15 hst] at h
  exact h

theorem e_fused (c : Dev nD) : W39 m ρ c (Proc.devRef .tc main_v351_0) = W36 m ρ c (Proc.devRef .tc main_v351_0) :=
  KHost.st9_keep (W36 m ρ c) main_v351_0 (by decide)

theorem e_lw1 (c : Dev nD) (hst : Keeps (W3 m ρ c) (W36 m ρ c)) :
    Cert.Pack.mat (W39 m ρ c (Proc.devRef .tc main_v381) : Vec Ideal S64x4 .bf16) = (paramsK m c).lw1 (8 : Fin 9) := by
  funext k a
  have h := KHost.st9_v381 (W36 m ρ c) k a
  rw [st_v38 hst] at h
  exact h

theorem e_lb1 (c : Dev nD) (hst : Keeps (W3 m ρ c) (W36 m ρ c)) (a : Fin 4) :
    (W39 m ρ c (Proc.devRef .tc main_v384) : Vec Ideal S1x4 .f32) (ix2 (0 : Fin 1) a) = (paramsK m c).lb1 (8 : Fin 9) a := by
  have h := KHost.st9_v384 (W36 m ρ c) 0 a
  rw [st_arg9 hst] at h
  exact h

theorem e_lw2 (c : Dev nD) (hst : Keeps (W3 m ρ c) (W36 m ρ c)) (a : Fin 4) :
    (W39 m ρ c (Proc.devRef .tc main_v386) : Vec Ideal S4x1 .bf16) (ix2 a (0 : Fin 1)) = (paramsK m c).lw2 (8 : Fin 9) a := by
  have h := KHost.st9_v386 (W36 m ρ c) a 0
  rw [st_v39 hst] at h
  exact h

theorem e_lb2 (c : Dev nD) (hst : Keeps (W3 m ρ c) (W36 m ρ c)) :
    (W39 m ρ c (Proc.devRef .tc main_v389) : Vec Ideal S1x1 .f32) (ix2 (0 : Fin 1) (0 : Fin 1)) = (paramsK m c).lb2 (8 : Fin 9) := by
  have h := KHost.st9_v389 (W36 m ρ c) 0 0
  rw [st_arg11 hst] at h
  exact h

theorem link (c : Dev nD) (s : Cert.Spec.Mat 50000 64 × Cert.Spec.Mat 50000 64)
    (hst : Keeps (W3 m ρ c) (W36 m ρ c))
    (hfu : Cert.Pack.mat (W36 m ρ c (Proc.devRef .tc main_v351_0) : Vec Ideal S50000x64 .f32) = s.1)
    (hpj : Cert.Pack.mat (W36 m ρ c (Proc.devRef .tc main_v351_1) : Vec Ideal S50000x64 .f32)
      = fun i j => Cert.Spec.proj (s.2 i) ((paramsK m c).bw (7 : Fin 8)) j) :
    Keeps (W3 m ρ c) (W40 m ρ c)
      ∧ Cert.Pack.mat (W40 m ρ c (Proc.devRef .tc main_v390) : Vec Ideal S50000x64 .f32)
          = (Cert.Spec.layer (opsK (m ((c : Thread nD τ).loc main_arg1))) (paramsK m c) (7 : Fin 8) (8 : Fin 9) s).1 :=
  ⟨hst.trans (keeps m ρ c),
   last_link (opsK (m ((c : Thread nD τ).loc main_arg1))) (paramsK m c) (7 : Fin 8) (8 : Fin 9) s
    (fun A => KHost.scatK A (KHost.srcOf (m ((c : Thread nD τ).loc main_arg1))) (KHost.enormOf (m ((c : Thread nD τ).loc main_arg1))) (KHost.dstOf (m ((c : Thread nD τ).loc main_arg1))))
    (fun A k => KHost.sum64K A (ix1 k)) (fun A k => KHost.var64K A (ix2 (0 : Fin 1) k))
    (fun M => opsK_scat (m ((c : Thread nD τ).loc main_arg1)) M) (fun M k => opsK_sum64 (m ((c : Thread nD τ).loc main_arg1)) M k) (fun M k => opsK_var64 (m ((c : Thread nD τ).loc main_arg1)) M k)
    (W36 m ρ c (Proc.devRef .tc main_v351_1) : Vec Ideal S50000x64 .f32) hpj
    (W40 m ρ c (Proc.devRef .tc main_v390) : Vec Ideal S50000x64 .f32)
    (W39 m ρ c (Proc.devRef .tc main_v368) : Vec Ideal S50000x64 .f32) (W39 m ρ c (Proc.devRef .tc main_v372) : Vec Ideal S1x64 .f32) (W39 m ρ c (Proc.devRef .tc main_v373) : Vec Ideal S1x64 .f32) (W39 m ρ c (Proc.devRef .tc main_v376) : Vec Ideal S1x64 .f32)
    (W39 m ρ c (Proc.devRef .tc main_v379) : Vec Ideal S1x64 .f32) (W39 m ρ c (Proc.devRef .tc main_v351_0) : Vec Ideal S50000x64 .f32) (W39 m ρ c (Proc.devRef .tc main_v381) : Vec Ideal S64x4 .bf16) (W39 m ρ c (Proc.devRef .tc main_v384) : Vec Ideal S1x4 .f32)
    (W39 m ρ c (Proc.devRef .tc main_v386) : Vec Ideal S4x1 .bf16) (W39 m ρ c (Proc.devRef .tc main_v389) : Vec Ideal S1x1 .f32)
    (fun r j => by rw [exit_fused]; exact KReg2.fusedArr_apply _ _ _ _ _ _ _ _ _ _ r j)
    (e_agg m ρ c hst) (e_mean m ρ c) (e_var m ρ c) (e_gamma m ρ c hst) (e_beta m ρ c hst)
    (by rw [e_fused]; exact hfu)
    (e_lw1 m ρ c hst) (e_lb1 m ρ c hst) (e_lw2 m ρ c hst) (e_lb2 m ρ c hst)⟩

end Link9

end Cert.KernelIdeal.KChain

end
-- ==== Proof.KReg10.lean ====
import proofs.«428538_j32280974197073_1_alg».proof.Proof.Spec
import proofs.«428538_j32280974197073_1_alg».proof.Proof.Gen.KernelIdeal.Frame
import proofs.«428538_j32280974197073_1_alg».proof.Proof.ReadOps
import Idealize.ShloMosaic.PureOps.Ideal.Laws
import Idealize.ShloMosaic.Lib.ValueIdx
import Idealize.ShloMosaic.Lib.Pipeline.Value

set_option maxRecDepth 16384

noncomputable section

namespace Cert.KernelIdeal.KReg10

open Idealize.ShloMosaic Idealize.ShloMosaic.ValueIdx Idealize.ShloMosaic.TcCoe Idealize.SL.Sem
open Idealize.ShloMosaic.Pipeline (Dat)
open Cert.KernelIdeal Cert.KernelIdeal.Gen

open Cert.KernelIdeal.ReadOps

theorem pay1_raw (f : Vec Ideal S2000x64 .f32) (w1 : Vec Ideal S64x128 .bf16) (b1 : Vec Ideal S1x128 .f32)
    (w2 : Vec Ideal S128x64 .bf16) (b2 : Vec Ideal S1x64 .f32) (p : Fin 2000) (q : Fin 64) :
    Gen.k10_pay1 (F := Ideal) f w1 b1 w2 b2 (ix2 p q)
      = (∑ a : Fin 128, max ((∑ k : Fin 64, f (ix2 p k) * w1 (ix2 k a)) + b1 (ix2 0 a)) 0 * w2 (ix2 a q)) + b2 (ix2 0 q) := by
  unfold Gen.k10_pay1
  rw [addf_apply, shapeCast_self, shapeCast_self, shapeCast_self, shapeCast_self, shapeCast_self, matmul_128x64_apply, broadcastTo_row64_apply]
  refine congrArg (· + b2 (ix2 0 q)) (Finset.sum_congr rfl fun a _ => ?_)
  refine congrArg (· * w2 (ix2 a q)) ?_
  rw [truncf_apply, maximumf_apply, addf_apply, matmul_64x128_apply, broadcastTo_row128_apply, broadcast_apply]
  show max _ (Ideal.ofBits .f32 0x00000000#32) = _
  rw [Ideal.ofBits_zero_f32]
  rfl

theorem pay1_apply (f : Vec Ideal S2000x64 .f32) (w1 : Vec Ideal S64x128 .bf16) (b1 : Vec Ideal S1x128 .f32)
    (w2 : Vec Ideal S128x64 .bf16) (b2 : Vec Ideal S1x64 .f32) (p : Fin 2000) (q : Fin 64) :
    Gen.k10_pay1 (F := Ideal) f w1 b1 w2 b2 (ix2 p q)
      = Cert.Spec.outRow (fun k => f (ix2 p k)) (fun k a => w1 (ix2 k a)) (fun a => b1 (ix2 0 a)) (fun a j => w2 (ix2 a j)) (fun j => b2 (ix2 0 j)) q :=
  pay1_raw f w1 b1 w2 b2 p q

def outArr (f : Vec Ideal S50000x64 .f32) (w1 : Vec Ideal S64x128 .bf16) (b1 : Vec Ideal S1x128 .f32)
    (w2 : Vec Ideal S128x64 .bf16) (b2 : Vec Ideal S1x64 .f32) : Vec Ideal S50000x64 .f32 :=
  fun i => (∑ a : Fin 128, max ((∑ k : Fin 64, f (ix2 (⟨(i 0).val, idx2_lt0 i⟩ : Fin 50000) k) * w1 (ix2 k a)) + b1 (ix2 0 a)) 0
      * w2 (ix2 a (⟨(i 1).val, idx2_lt1 i⟩ : Fin 64)))
    + b2 (ix2 0 (⟨(i 1).val, idx2_lt1 i⟩ : Fin 64))

theorem outArr_raw (f : Vec Ideal S50000x64 .f32) (w1 : Vec Ideal S64x128 .bf16) (b1 : Vec Ideal S1x128 .f32)
    (w2 : Vec Ideal S128x64 .bf16) (b2 : Vec Ideal S1x64 .f32) (i : Fin 50000) (j : Fin 64) :
    outArr f w1 b1 w2 b2 (ix2 i j)
      = (∑ a : Fin 128, max ((∑ k : Fin 64, f (ix2 i k) * w1 (ix2 k a)) + b1 (ix2 0 a)) 0 * w2 (ix2 a j)) + b2 (ix2 0 j) := rfl

theorem outArr_apply (f : Vec Ideal S50000x64 .f32) (w1 : Vec Ideal S64x128 .bf16) (b1 : Vec Ideal S1x128 .f32)
    (w2 : Vec Ideal S128x64 .bf16) (b2 : Vec Ideal S1x64 .f32) (i : Fin 50000) (j : Fin 64) :
    outArr f w1 b1 w2 b2 (ix2 i j)
      = Cert.Spec.outRow (fun k => f (ix2 i k)) (fun k a => w1 (ix2 k a)) (fun a => b1 (ix2 0 a)) (fun a j => w2 (ix2 a j)) (fun j => b2 (ix2 0 j)) j := rfl

theorem hz : (![0, 0] : Fin 2 → Nat) = fun _ => 0 := funext fun a => by fin_cases a <;> rfl

theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

theorem fblk_apply (X : Vec Ideal S50000x64 .f32) (t : Fin cfg10.N) (y : S2000x64.Idx) (i : S50000x64.Idx)
    (h0 : (i 0).val = 2000 * t.val + (y 0).val) (h1 : (i 1).val = (y 1).val) :
    (((cfg10.win 0).blk t).view.read (Elt Ideal) X : Vec Ideal S2000x64 .f32) y = X i := by
  obtain ⟨e0, e1, -⟩ := idx_facts t
  rw [View.read_apply]
  show X (((cfg10.win 0).blk t).view.emb y) = X i
  congr 1
  funext a
  apply Fin.ext
  match a with
  | ⟨0, _⟩ => show win10_0.index t 0 * 2000 + 1 * (y 0).val = (i 0).val; rw [e0, h0]; omega
  | ⟨1, _⟩ => show win10_0.index t 1 * 64 + 1 * (y 1).val = (i 1).val; rw [e1, h1]; omega

theorem w1blk_eq (W : Vec Ideal S64x128 .bf16) (t : Fin cfg10.N) :
    (((cfg10.win 1).blk t).view.read (Elt Ideal) W : Vec Ideal S64x128 .bf16) = W := by
  obtain ⟨-, -, e2, e3, -⟩ := idx_facts t
  funext y
  rw [View.read_apply]
  show W (((cfg10.win 1).blk t).view.emb y) = W y
  congr 1
  funext a
  apply Fin.ext
  match a with
  | ⟨0, _⟩ => show win10_1.index t 0 * 64 + 1 * (y 0).val = (y 0).val; rw [e2]; omega
  | ⟨1, _⟩ => show win10_1.index t 1 * 128 + 1 * (y 1).val = (y 1).val; rw [e3]; omega

theorem b1blk_eq (B : Vec Ideal S1x128 .f32) (t : Fin cfg10.N) :
    (((cfg10.win 2).blk t).view.read (Elt Ideal) B : Vec Ideal S1x128 .f32) = B := by
  obtain ⟨-, -, -, -, e4, e5, -⟩ := idx_facts t
  funext y
  rw [View.read_apply]
  show B (((cfg10.win 2).blk t).view.emb y) = B y
  congr 1
  funext a
  apply Fin.ext
  match a with
  | ⟨0, _⟩ => show win10_2.index t 0 * 1 + 1 * (y 0).val = (y 0).val; rw [e4]; omega
  | ⟨1, _⟩ => show win10_2.index t 1 * 128 + 1 * (y 1).val = (y 1).val; rw [e5]; omega

theorem w2blk_eq (W : Vec Ideal S128x64 .bf16) (t : Fin cfg10.N) :
    (((cfg10.win 3).blk t).view.read (Elt Ideal) W : Vec Ideal S128x64 .bf16) = W := by
  obtain ⟨-, -, -, -, -, -, e6, e7, -⟩ := idx_facts t
  funext y
  rw [View.read_apply]
  show W (((cfg10.win 3).blk t).view.emb y) = W y
  congr 1
  funext a
  apply Fin.ext
  match a with
  | ⟨0, _⟩ => show win10_3.index t 0 * 128 + 1 * (y 0).val = (y 0).val; rw [e6]; omega
  | ⟨1, _⟩ => show win10_3.index t 1 * 64 + 1 * (y 1).val = (y 1).val; rw [e7]; omega

theorem b2blk_eq (B : Vec Ideal S1x64 .f32) (t : Fin cfg10.N) :
    (((cfg10.win 4).blk t).view.read (Elt Ideal) B : Vec Ideal S1x64 .f32) = B := by
  obtain ⟨-, -, -, -, -, -, -, -, e8, e9, -⟩ := idx_facts t
  funext y
  rw [View.read_apply]
  show B (((cfg10.win 4).blk t).view.emb y) = B y
  congr 1
  funext a
  apply Fin.ext
  match a with
  | ⟨0, _⟩ => show win10_4.index t 0 * 1 + 1 * (y 0).val = (y 0).val; rw [e8]; omega
  | ⟨1, _⟩ => show win10_4.index t 1 * 64 + 1 * (y 1).val = (y 1).val; rw [e9]; omega

theorem mem_blk5 (t : Fin cfg10.N) (i : S50000x64.Idx) :
    i ∈ ((cfg10.win 5).blk t).view.set ↔ ∀ a : Fin 2, win10_5.index t a * S2000x64.size a ≤ (i a).val ∧ (i a).val < win10_5.index t a * S2000x64.size a + S2000x64.size a := by
  show i ∈ ((View.whole main_v391).slice (win10_5.rect t)).set ↔ _
  rw [View.set_slice_whole, Rect.mem_set_unit]
  exact Iff.rfl

theorem cover5 (i : S50000x64.Idx) : ∃ t : Fin cfg10.N, (cfg10.win 5).flush t = true ∧ i ∈ ((cfg10.win 5).blk t).view.set := by
  have hi0 : (i 0).val < 50000 := idx2_lt0 i
  have hi1 : (i 1).val < 64 := idx2_lt1 i
  have hN : cfg10.N = 25 := N_10
  refine ⟨⟨(i 0).val / 2000, by rw [hN]; omega⟩, flush10_5 _, ?_⟩
  rw [mem_blk5]
  obtain ⟨-, -, -, -, -, -, -, -, -, -, e10, e11⟩ := idx_facts ⟨(i 0).val / 2000, by rw [hN]; omega⟩
  intro a
  match a with
  | ⟨0, _⟩ =>
    show win10_5.index _ 0 * 2000 ≤ (i 0).val ∧ (i 0).val < win10_5.index _ 0 * 2000 + 2000
    rw [e10]; show (i 0).val / 2000 * 2000 ≤ (i 0).val ∧ (i 0).val < (i 0).val / 2000 * 2000 + 2000; omega
  | ⟨1, _⟩ =>
    show win10_5.index _ 1 * 64 ≤ (i 1).val ∧ (i 1).val < win10_5.index _ 1 * 64 + 64
    rw [e11]; omega

section Array

variable (V : (c : Dev nD) → (b : Ref sig .tc) → Buf (Elt Ideal) ((c : Thread nD τ).loc b))

abbrev farr (c : Dev nD) : Vec Ideal S50000x64 .f32 := V c main_v390

abbrev w1arr (c : Dev nD) : Vec Ideal S64x128 .bf16 := V c main_v35

abbrev b1arr (c : Dev nD) : Vec Ideal S1x128 .f32 := V c main_v44

abbrev w2arr (c : Dev nD) : Vec Ideal S128x64 .bf16 := V c main_v36

abbrev b2arr (c : Dev nD) : Vec Ideal S1x64 .f32 := V c main_v45

theorem flushed_eq (c : Dev nD) (t : Fin cfg10.N) :
    (dat10 V c).flushed 5 t = ((cfg10.win 5).blk t).view.read (Elt Ideal)
      (outArr (farr V c) (w1arr V c) (b1arr V c) (w2arr V c) (b2arr V c)) := by
  show (cfg10.win 5).cut (grid10.coords t) ((dat10 V c).after 5 t) = _
  rw [after10_5]
  unfold out10_5
  rw [View.canon_unit_zero hz]
  simp only [View.ld_unit_zero (S := S2000x64) hz, View.ld_unit_zero (S := S64x128) hz, View.ld_unit_zero (S := S1x128) hz,
    View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  obtain ⟨-, -, -, -, -, -, -, -, -, -, e10, e11⟩ := idx_facts t
  have ht : t.val < 25 := lt_of_lt_of_eq t.isLt N_10
  refine (pay1_raw (iblk10 V c 0 t) (iblk10 V c 1 t) (iblk10 V c 2 t) (iblk10 V c 3 t) (iblk10 V c 4 t) p q).trans ?_
  rw [View.read_apply]
  have hi : ((cfg10.win 5).blk t).view.emb (ix2 p q) = ix2 (⟨2000 * t.val + p.val, by omega⟩ : Fin 50000) q := by
    funext a; apply Fin.ext
    match a with
    | ⟨0, _⟩ => show win10_5.index t 0 * 2000 + 1 * p.val = 2000 * t.val + p.val; rw [e10]; omega
    | ⟨1, _⟩ => show win10_5.index t 1 * 64 + 1 * q.val = q.val; rw [e11]; omega
  show _ = outArr (farr V c) (w1arr V c) (b1arr V c) (w2arr V c) (b2arr V c) (((cfg10.win 5).blk t).view.emb (ix2 p q))
  rw [hi, outArr_raw]
  unfold iblk10
  refine congrArg₂ (fun u v : EReal => u + v) (Finset.sum_congr rfl fun a _ => congrArg₂ (fun u v : EReal => u * v)
    (congrArg (fun u : EReal => max u 0) (congrArg₂ (fun u v : EReal => u + v)
      (Finset.sum_congr rfl fun k _ => congrArg₂ (fun u v : EReal => u * v) ?_ ?_) ?_)) ?_) ?_
  · exact fblk_apply (farr V c) t (ix2 p k) (ix2 (⟨2000 * t.val + p.val, by omega⟩ : Fin 50000) k) rfl rfl
  · exact congrFun (w1blk_eq (w1arr V c) t) (ix2 k a)
  · exact congrFun (b1blk_eq (b1arr V c) t) (ix2 0 a)
  · exact congrFun (w2blk_eq (w2arr V c) t) (ix2 a q)
  · exact congrFun (b2blk_eq (b2arr V c) t) (ix2 0 q)

theorem final (c : Dev nD) : (dat10 (F := Ideal) V c).arrAt 5 cfg10.N
    = outArr (farr V c) (w1arr V c) (b1arr V c) (w2arr V c) (b2arr V c) :=
  (dat10 V c).arrAt_eq_of_cover 5 (outArr (farr V c) (w1arr V c) (b1arr V c) (w2arr V c) (b2arr V c))
    (fun t _ => flushed_eq V c t) cover5

end Array

end Cert.KernelIdeal.KReg10

end
-- ==== Proof.KChain.Link10.lean ====
import proofs.«428538_j32280974197073_1_alg».proof.Proof.Gen.KernelIdeal.Frame
import proofs.«428538_j32280974197073_1_alg».proof.Proof.KReg10
import proofs.«428538_j32280974197073_1_alg».proof.Proof.KChain.Step
import proofs.«428538_j32280974197073_1_alg».proof.Proof.KChain.Defs
import proofs.«428538_j32280974197073_1_alg».proof.Proof.KChain.Static

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

namespace Link10

variable (m : (ℓ : Loc nD τ sig) → Buf (Elt Ideal) ℓ) (ρ : Dev nD → PrngReg)

theorem exit_out (c : Dev nD) :
    (W41 m ρ c (Proc.devRef .tc main_v391) : Vec Ideal S50000x64 .f32)
      = KReg10.outArr (W40 m ρ c (Proc.devRef .tc main_v390) : Vec Ideal S50000x64 .f32) (W40 m ρ c (Proc.devRef .tc main_v35) : Vec Ideal S64x128 .bf16)
          (W40 m ρ c (Proc.devRef .tc main_v44) : Vec Ideal S1x128 .f32) (W40 m ρ c (Proc.devRef .tc main_v36) : Vec Ideal S128x64 .bf16)
          (W40 m ρ c (Proc.devRef .tc main_v45) : Vec Ideal S1x64 .f32) :=
  (W41_arr m ρ c 5).trans (KReg10.final (V40 m ρ) c)

theorem link (c : Dev nD) (hst : Keeps (W3 m ρ c) (W40 m ρ c))
    (hfu : Cert.Pack.mat (W40 m ρ c (Proc.devRef .tc main_v390) : Vec Ideal S50000x64 .f32)
      = (Cert.Spec.s8 (opsK (m ((c : Thread nD τ).loc main_arg1))) (paramsK m c)).1) :
    Cert.Pack.mat (W41 m ρ c (Proc.devRef .tc main_v391) : Vec Ideal S50000x64 .f32)
      = Cert.Spec.result (opsK (m ((c : Thread nD τ).loc main_arg1))) (paramsK m c) :=
  out_step (opsK (m ((c : Thread nD τ).loc main_arg1))) (paramsK m c)
    (W41 m ρ c (Proc.devRef .tc main_v391) : Vec Ideal S50000x64 .f32) (W40 m ρ c (Proc.devRef .tc main_v390) : Vec Ideal S50000x64 .f32)
    (W40 m ρ c (Proc.devRef .tc main_v35) : Vec Ideal S64x128 .bf16) (W40 m ρ c (Proc.devRef .tc main_v44) : Vec Ideal S1x128 .f32)
    (W40 m ρ c (Proc.devRef .tc main_v36) : Vec Ideal S128x64 .bf16) (W40 m ρ c (Proc.devRef .tc main_v45) : Vec Ideal S1x64 .f32)
    (fun i j => by rw [exit_out]; exact KReg10.outArr_apply _ _ _ _ _ i j)
    hfu
    (by rw [st_v35 hst]; rfl) (fun a => st_v44 hst a)
    (by rw [st_v36 hst]; rfl) (fun j => st_v45 hst j)

end Link10

end Cert.KernelIdeal.KChain

end
-- ==== Proof.KChain.lean ====
import proofs.«428538_j32280974197073_1_alg».proof.Proof.Gen.KernelIdeal.Frame
import proofs.«428538_j32280974197073_1_alg».proof.Proof.Spec
import proofs.«428538_j32280974197073_1_alg».proof.Proof.Pack
import proofs.«428538_j32280974197073_1_alg».proof.Proof.KChain.Step
import proofs.«428538_j32280974197073_1_alg».proof.Proof.KChain.Defs
import proofs.«428538_j32280974197073_1_alg».proof.Proof.KChain.Static
import proofs.«428538_j32280974197073_1_alg».proof.Proof.KChain.Link0
import proofs.«428538_j32280974197073_1_alg».proof.Proof.KChain.Link1
import proofs.«428538_j32280974197073_1_alg».proof.Proof.KChain.Link2
import proofs.«428538_j32280974197073_1_alg».proof.Proof.KChain.Link3
import proofs.«428538_j32280974197073_1_alg».proof.Proof.KChain.Link4
import proofs.«428538_j32280974197073_1_alg».proof.Proof.KChain.Link5
import proofs.«428538_j32280974197073_1_alg».proof.Proof.KChain.Link6
import proofs.«428538_j32280974197073_1_alg».proof.Proof.KChain.Link7
import proofs.«428538_j32280974197073_1_alg».proof.Proof.KChain.Link8
import proofs.«428538_j32280974197073_1_alg».proof.Proof.KChain.Link9
import proofs.«428538_j32280974197073_1_alg».proof.Proof.KChain.Link10

set_option maxRecDepth 16384
set_option pp.maxSteps 5000
set_option pp.deepTerms false

noncomputable section

namespace Cert.KernelIdeal.KChain

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

theorem result_eq (c : Dev nD) :
    Cert.Pack.mat (W41 m ρ c (Proc.devRef .tc main_v391) : Vec Ideal S50000x64 .f32)
      = Cert.Spec.result (opsK (m ((c : Thread nD τ).loc main_arg1))) (paramsK m c) := by
  obtain ⟨k4, h4⟩ := Link0.link m ρ c
  obtain ⟨k8, f8, p8⟩ := Link1.link m ρ c k4 h4
  obtain ⟨k12, f12, p12⟩ := Link2.link m ρ c (Cert.Spec.s0 (opsK (m ((c : Thread nD τ).loc main_arg1))) (paramsK m c)) k8 f8 p8
  obtain ⟨k16, f16, p16⟩ := Link3.link m ρ c (Cert.Spec.s1 (opsK (m ((c : Thread nD τ).loc main_arg1))) (paramsK m c)) k12 f12 p12
  obtain ⟨k20, f20, p20⟩ := Link4.link m ρ c (Cert.Spec.s2 (opsK (m ((c : Thread nD τ).loc main_arg1))) (paramsK m c)) k16 f16 p16
  obtain ⟨k24, f24, p24⟩ := Link5.link m ρ c (Cert.Spec.s3 (opsK (m ((c : Thread nD τ).loc main_arg1))) (paramsK m c)) k20 f20 p20
  obtain ⟨k28, f28, p28⟩ := Link6.link m ρ c (Cert.Spec.s4 (opsK (m ((c : Thread nD τ).loc main_arg1))) (paramsK m c)) k24 f24 p24
  obtain ⟨k32, f32, p32⟩ := Link7.link m ρ c (Cert.Spec.s5 (opsK (m ((c : Thread nD τ).loc main_arg1))) (paramsK m c)) k28 f28 p28
  obtain ⟨k36, f36, p36⟩ := Link8.link m ρ c (Cert.Spec.s6 (opsK (m ((c : Thread nD τ).loc main_arg1))) (paramsK m c)) k32 f32 p32
  obtain ⟨k40, f40⟩ := Link9.link m ρ c (Cert.Spec.s7 (opsK (m ((c : Thread nD τ).loc main_arg1))) (paramsK m c)) k36 f36 p36
  exact Link10.link m ρ c k40 f40

end Cert.KernelIdeal.KChain

end
-- ==== Proof.RefRun.Ops.lean ====
import proofs.«428538_j32280974197073_1_alg».proof.ReferenceIdeal
import proofs.«428538_j32280974197073_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's host operations in program order, each outlined function's operations standing at its call. The graph preprocessing: the two edge lists, then the per-edge weight. -/
abbrev opsPrepA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

abbrev opsPrepB : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v15 : StableHlo.TRef sig ⟨S50000, .f32⟩) main_call0.v1 main_call0.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.unary main_v31 main_v32 (broadcastInDim S850000x1 ![0] bcast_S850000_S850000x1_0 : (⟨S850000, .f32⟩ : BufTy).Contents (Elt F) → (⟨S850000x1, .f32⟩ : BufTy).Contents (Elt F)) ]

def opsPrep : List (HloOp τ sig (Elt F)) := opsPrepA ++ opsPrepB

/-- The input map in five pieces: affine; column statistics; normalise, rectify, affine; gate; first projection. -/
abbrev opsInA : List (HloOp τ sig (Elt F)) :=
  [ StableHlo.binary main_arg0 main_arg2 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v35 main_v36 (addf : (⟨S50000x128, .f32⟩ : BufTy).Contents (Elt F) → (⟨S50000x128, .f32⟩ : BufTy).Contents (Elt F) → (⟨S50000x128, .f32⟩ : BufTy).Contents (Elt F)) ]

abbrev opsInB : List (HloOp τ sig (Elt F)) :=
  [ StableHlo.nullary main_cst_7 (constant S_ .f32 0x00000000#32),
    StableHlo.binary main_v36 main_cst_7 main_v37 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_8 (constant S_ .f32 0x47435000#32),
    StableHlo.unary main_cst_8 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call1.cst (constant S_ .f32 0x00000000#32),
    StableHlo.TRef.binary (.of main_v36 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v36 : StableHlo.TRef sig ⟨S50000x128, .f32⟩) main_call1.v4 main_call1.v5 subf,
    StableHlo.TRef.binary main_call1.v5 main_call1.v5 main_call1.v6 mulf,
    StableHlo.TRef.unary (.of main_c_9 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

abbrev opsInC : List (HloOp τ sig (Elt F)) :=
  [ StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v42 main_v43 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg4 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v51 main_v52 (mulf : (⟨S50000x128, .f32⟩ : BufTy).Contents (Elt F) → (⟨S50000x128, .f32⟩ : BufTy).Contents (Elt F) → (⟨S50000x128, .f32⟩ : BufTy).Contents (Elt F)),
    StableHlo.unary main_arg5 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v55 : StableHlo.TRef sig ⟨S50000x128, .f32⟩) main_call2.v0 main_call2.v1 maximumf,
    StableHlo.binary main_v56 main_arg6 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg7 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (addf : (⟨S50000x64, .f32⟩ : BufTy).Contents (Elt F) → (⟨S50000x64, .f32⟩ : BufTy).Contents (Elt F) → (⟨S50000x64, .f32⟩ : BufTy).Contents (Elt F)) ]

abbrev opsInD : List (HloOp τ sig (Elt F)) :=
  [ StableHlo.unary main_arg8 main_v61 ((extractStridedSlice S1x64x4 ![0, 0, 0] · slices_S9x64x4_S1x64x4_0_0_0) : (⟨S9x64x4, .f32⟩ : BufTy).Contents (Elt F) → (⟨S1x64x4, .f32⟩ : BufTy).Contents (Elt F)),
    StableHlo.reshape main_v61 main_v62 rfl shapeCasts_S1x64x4_S64x4,
    StableHlo.unary main_arg9 main_v63 ((extractStridedSlice S1x4 ![0, 0] · slices_S9x4_S1x4_0_0) : (⟨S9x4, .f32⟩ : BufTy).Contents (Elt F) → (⟨S1x4, .f32⟩ : BufTy).Contents (Elt F)),
    StableHlo.reshape main_v63 main_v64 rfl shapeCasts_S1x4_S4,
    StableHlo.unary main_arg10 main_v65 ((extractStridedSlice S1x4x1 ![0, 0, 0] · slices_S9x4x1_S1x4x1_0_0_0) : (⟨S9x4x1, .f32⟩ : BufTy).Contents (Elt F) → (⟨S1x4x1, .f32⟩ : BufTy).Contents (Elt F)),
    StableHlo.reshape main_v65 main_v66 rfl shapeCasts_S1x4x1_S4x1,
    StableHlo.unary main_arg11 main_v67 ((extractStridedSlice S1x1 ![0, 0] · slices_S9x1_S1x1_0_0) : (⟨S9x1, .f32⟩ : BufTy).Contents (Elt F) → (⟨S1x1, .f32⟩ : BufTy).Contents (Elt F)),
    StableHlo.reshape main_v67 main_v68 rfl shapeCasts_S1x1_S1,
    StableHlo.binary main_v60 main_v62 main_v69 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v64 main_v70 (broadcastInDim S1x4 ![1] bcast_S4_S1x4_1 : (⟨S4, .f32⟩ : BufTy).Contents (Elt F) → (⟨S1x4, .f32⟩ : BufTy).Contents (Elt F)),
    StableHlo.unary main_v70 main_v71 (broadcastInDim S50000x4 ![0, 1] bcast_S1x4_S50000x4_0_1 : (⟨S1x4, .f32⟩ : BufTy).Contents (Elt F) → (⟨S50000x4, .f32⟩ : BufTy).Contents (Elt F)),
    StableHlo.binary main_v69 main_v71 main_v72 (addf : (⟨S50000x4, .f32⟩ : BufTy).Contents (Elt F) → (⟨S50000x4, .f32⟩ : BufTy).Contents (Elt F) → (⟨S50000x4, .f32⟩ : BufTy).Contents (Elt F)),
    StableHlo.nullary main_cst_11 (constant S_ .f32 0x3E4CCCCD#32),
    StableHlo.TRef.nullary main_call3.cst (constant S_ .f32 0x00000000#32),
    StableHlo.TRef.unary main_call3.cst main_call3.v0 (broadcastInDim S50000x4 ![] bcast_S_S50000x4),
    StableHlo.TRef.binary (.of main_v72 : StableHlo.TRef sig ⟨S50000x4, .f32⟩) main_call3.v0 main_call3.v1 (cmpf .oge),
    StableHlo.TRef.unary (.of main_cst_11 : StableHlo.TRef sig ⟨S_, .f32⟩) main_call3.v2 id,
    StableHlo.TRef.unary main_call3.v2 main_call3.v3 (broadcastInDim S50000x4 ![] bcast_S_S50000x4),
    StableHlo.TRef.binary main_call3.v3 (.of main_v72 : StableHlo.TRef sig ⟨S50000x4, .f32⟩) main_call3.v4 mulf,
    StableHlo.TRef.ternary main_call3.v1 (.of main_v72 : StableHlo.TRef sig ⟨S50000x4, .f32⟩) main_call3.v4 main_call3.call0.v0 select,
    StableHlo.binary main_v73 main_v66 main_v74 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v68 main_v75 (broadcastInDim S1x1 ![1] bcast_S1_S1x1_1 : (⟨S1, .f32⟩ : BufTy).Contents (Elt F) → (⟨S1x1, .f32⟩ : BufTy).Contents (Elt F)),
    StableHlo.unary main_v75 main_v76 (broadcastInDim S50000x1 ![0, 1] bcast_S1x1_S50000x1_0_1 : (⟨S1x1, .f32⟩ : BufTy).Contents (Elt F) → (⟨S50000x1, .f32⟩ : BufTy).Contents (Elt F)),
    StableHlo.binary main_v74 main_v76 main_v77 (addf : (⟨S50000x1, .f32⟩ : BufTy).Contents (Elt F) → (⟨S50000x1, .f32⟩ : BufTy).Contents (Elt F) → (⟨S50000x1, .f32⟩ : BufTy).Contents (Elt F)),
    StableHlo.unary main_v77 main_v78 (Host.negf : (⟨S50000x1, .f32⟩ : BufTy).Contents (Elt F) → (⟨S50000x1, .f32⟩ : BufTy).Contents (Elt F)),
    StableHlo.unary main_v78 main_v79 (Host.exp : (⟨S50000x1, .f32⟩ : BufTy).Contents (Elt F) → (⟨S50000x1, .f32⟩ : BufTy).Contents (Elt F)),
    StableHlo.nullary main_cst_12 (constant S_ .f32 0x3F800000#32),
    StableHlo.unary main_cst_12 main_v80 (broadcastInDim S50000x1 ![] bcast_S_S50000x1 : (⟨S_, .f32⟩ : BufTy).Contents (Elt F) → (⟨S50000x1, .f32⟩ : BufTy).Contents (Elt F)),
    StableHlo.binary main_v80 main_v79 main_v81 (addf : (⟨S50000x1, .f32⟩ : BufTy).Contents (Elt F) → (⟨S50000x1, .f32⟩ : BufTy).Contents (Elt F) → (⟨S50000x1, .f32⟩ : BufTy).Contents (Elt F)),
    StableHlo.nullary main_cst_13 (constant S_ .f32 0x3F800000#32),
    StableHlo.unary main_cst_13 main_v82 (broadcastInDim S50000x1 ![] bcast_S_S50000x1 : (⟨S_, .f32⟩ : BufTy).Contents (Elt F) → (⟨S50000x1, .f32⟩ : BufTy).Contents (Elt F)),
    StableHlo.binary main_v82 main_v81 main_v83 (Host.divf : (⟨S50000x1, .f32⟩ : BufTy).Contents (Elt F) → (⟨S50000x1, .f32⟩ : BufTy).Contents (Elt F) → (⟨S50000x1, .f32⟩ : BufTy).Contents (Elt F)),
    StableHlo.unary main_v83 main_v84 (broadcastInDim S50000x64 ![0, 1] bcast_S50000x1_S50000x64_0_1 : (⟨S50000x1, .f32⟩ : BufTy).Contents (Elt F) → (⟨S50000x64, .f32⟩ : BufTy).Contents (Elt F)),
    StableHlo.binary main_v60 main_v84 main_v85 (mulf : (⟨S50000x64, .f32⟩ : BufTy).Contents (Elt F) → (⟨S50000x64, .f32⟩ : BufTy).Contents (Elt F) → (⟨S50000x64, .f32⟩ : BufTy).Contents (Elt F)) ]

abbrev opsInE : List (HloOp τ sig (Elt F)) :=
  [ StableHlo.unary main_arg12 main_v86 ((extractStridedSlice S1x64x64 ![0, 0, 0] · slices_S8x64x64_S1x64x64_0_0_0) : (⟨S8x64x64, .f32⟩ : BufTy).Contents (Elt F) → (⟨S1x64x64, .f32⟩ : BufTy).Contents (Elt F)),
    StableHlo.reshape main_v86 main_v87 rfl shapeCasts_S1x64x64_S64x64,
    StableHlo.binary main_v85 main_v87 main_v88 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsIn : List (HloOp τ sig (Elt F)) := opsInA ++ (opsInB ++ (opsInC ++ (opsInD ++ opsInE)))

/-- Backbone layer 0 in four stretches: aggregate plus bias; normalisation and rectifier; gate and new fused state; next projection. Layers 1 to 7 likewise (the last has no projection). -/
abbrev opsL0A : List (HloOp τ sig (Elt F)) :=
  [ StableHlo.nullary main_c_14 (constantI S_ 32 0#32),
    StableHlo.unary main_c_14 main_v89 (broadcastInDim S850000 ![] bcast_S_S850000 : (⟨S_, .i32⟩ : BufTy).Contents (Elt F) → (⟨S850000, .i32⟩ : BufTy).Contents (Elt F)),
    StableHlo.binary main_v3 main_v89 main_v90 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v91 (broadcastInDim S850000 ![] bcast_S_S850000 : (⟨S_, .i32⟩ : BufTy).Contents (Elt F) → (⟨S850000, .i32⟩ : BufTy).Contents (Elt F)),
    StableHlo.binary main_v3 main_v91 main_v92 (addi : (⟨S850000, .i32⟩ : BufTy).Contents (Elt F) → (⟨S850000, .i32⟩ : BufTy).Contents (Elt F) → (⟨S850000, .i32⟩ : BufTy).Contents (Elt F)),
    StableHlo.ternary main_v90 main_v92 main_v3 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v93 main_v94 (broadcastInDim S850000x1 ![0] bcast_S850000_S850000x1_0 : (⟨S850000, .i32⟩ : BufTy).Contents (Elt F) → (⟨S850000x1, .i32⟩ : BufTy).Contents (Elt F)),
    StableHlo.binary main_v88 main_v94 main_v95 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v96 (broadcastInDim S850000x64 ![0, 1] bcast_S850000x1_S850000x64_0_1 : (⟨S850000x1, .f32⟩ : BufTy).Contents (Elt F) → (⟨S850000x64, .f32⟩ : BufTy).Contents (Elt F)),
    StableHlo.binary main_v95 main_v96 main_v97 (mulf : (⟨S850000x64, .f32⟩ : BufTy).Contents (Elt F) → (⟨S850000x64, .f32⟩ : BufTy).Contents (Elt F) → (⟨S850000x64, .f32⟩ : BufTy).Contents (Elt F)),
    StableHlo.nullary main_cst_16 (constant S_ .f32 0x00000000#32),
    StableHlo.unary main_cst_16 main_v98 (broadcastInDim S50000x64 ![] bcast_S_S50000x64 : (⟨S_, .f32⟩ : BufTy).Contents (Elt F) → (⟨S50000x64, .f32⟩ : BufTy).Contents (Elt F)),
    StableHlo.unary main_v6 main_v99 (broadcastInDim S850000x1 ![0] bcast_S850000_S850000x1_0 : (⟨S850000, .i32⟩ : BufTy).Contents (Elt F) → (⟨S850000x1, .i32⟩ : BufTy).Contents (Elt F)),
    StableHlo.ternary main_v98 main_v99 main_v97 main_v100 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v101 ((extractStridedSlice S1x64 ![0, 0] · slices_S8x64_S1x64_0_0) : (⟨S8x64, .f32⟩ : BufTy).Contents (Elt F) → (⟨S1x64, .f32⟩ : BufTy).Contents (Elt F)),
    StableHlo.reshape main_v101 main_v102 rfl shapeCasts_S1x64_S64,
    StableHlo.unary main_v102 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v104 main_v105 (addf : (⟨S50000x64, .f32⟩ : BufTy).Contents (Elt F) → (⟨S50000x64, .f32⟩ : BufTy).Contents (Elt F) → (⟨S50000x64, .f32⟩ : BufTy).Contents (Elt F)) ]

abbrev opsL0B : List (HloOp τ sig (Elt F)) :=
  [ StableHlo.unary main_arg14 main_v106 ((extractStridedSlice S1x64 ![0, 0] · slices_S8x64_S1x64_0_0) : (⟨S8x64, .f32⟩ : BufTy).Contents (Elt F) → (⟨S1x64, .f32⟩ : BufTy).Contents (Elt F)),
    StableHlo.reshape main_v106 main_v107 rfl shapeCasts_S1x64_S64,
    StableHlo.unary main_arg15 main_v108 ((extractStridedSlice S1x64 ![0, 0] · slices_S8x64_S1x64_0_0) : (⟨S8x64, .f32⟩ : BufTy).Contents (Elt F) → (⟨S1x64, .f32⟩ : BufTy).Contents (Elt F)),
    StableHlo.reshape main_v108 main_v109 rfl shapeCasts_S1x64_S64,
    StableHlo.nullary main_cst_17 (constant S_ .f32 0x00000000#32),
    StableHlo.binary main_v105 main_cst_17 main_v110 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_18 (constant S_ .f32 0x47435000#32),
    StableHlo.unary main_cst_18 main_v111 (broadcastInDim S64 ![] bcast_S_S64 : (⟨S_, .f32⟩ : BufTy).Contents (Elt F) → (⟨S64, .f32⟩ : BufTy).Contents (Elt F)),
    StableHlo.binary main_v110 main_v111 main_v112 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call4.cst (constant S_ .f32 0x00000000#32),
    StableHlo.TRef.binary (.of main_v105 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v105 : StableHlo.TRef sig ⟨S50000x64, .f32⟩) main_call4.v4 main_call4.v5 subf,
    StableHlo.TRef.binary main_call4.v5 main_call4.v5 main_call4.v6 mulf,
    StableHlo.TRef.unary (.of main_c_19 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v112 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v115 main_v116 (subf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x3727C5AC#32),
    StableHlo.unary main_cst_20 main_v117 (broadcastInDim S64 ![] bcast_S_S64 : (⟨S_, .f32⟩ : BufTy).Contents (Elt F) → (⟨S64, .f32⟩ : BufTy).Contents (Elt F)),
    StableHlo.binary main_v113 main_v117 main_v118 (addf : (⟨S64, .f32⟩ : BufTy).Contents (Elt F) → (⟨S64, .f32⟩ : BufTy).Contents (Elt F) → (⟨S64, .f32⟩ : BufTy).Contents (Elt F)),
    StableHlo.unary main_v118 main_v119 (Host.rsqrt : (⟨S64, .f32⟩ : BufTy).Contents (Elt F) → (⟨S64, .f32⟩ : BufTy).Contents (Elt F)),
    StableHlo.unary main_v119 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S50000x64 ![0, 1] bcast_S1x64_S50000x64_0_1 : (⟨S1x64, .f32⟩ : BufTy).Contents (Elt F) → (⟨S50000x64, .f32⟩ : BufTy).Contents (Elt F)),
    StableHlo.binary main_v116 main_v121 main_v122 (mulf : (⟨S50000x64, .f32⟩ : BufTy).Contents (Elt F) → (⟨S50000x64, .f32⟩ : BufTy).Contents (Elt F) → (⟨S50000x64, .f32⟩ : BufTy).Contents (Elt F)),
    StableHlo.unary main_v107 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v122 main_v124 main_v125 (mulf : (⟨S50000x64, .f32⟩ : BufTy).Contents (Elt F) → (⟨S50000x64, .f32⟩ : BufTy).Contents (Elt F) → (⟨S50000x64, .f32⟩ : BufTy).Contents (Elt F)),
    StableHlo.unary main_v109 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v125 main_v127 main_v128 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v128 : StableHlo.TRef sig ⟨S50000x64, .f32⟩) main_call5.v0 main_call5.v1 maximumf ]

abbrev opsL0C : List (HloOp τ sig (Elt F)) :=
  [ StableHlo.binary main_v129 main_v85 main_v130 (subf : (⟨S50000x64, .f32⟩ : BufTy).Contents (Elt F) → (⟨S50000x64, .f32⟩ : BufTy).Contents (Elt F) → (⟨S50000x64, .f32⟩ : BufTy).Contents (Elt F)),
    StableHlo.unary main_arg8 main_v131 ((extractStridedSlice S1x64x4 ![1, 0, 0] · slices_S9x64x4_S1x64x4_1_0_0) : (⟨S9x64x4, .f32⟩ : BufTy).Contents (Elt F) → (⟨S1x64x4, .f32⟩ : BufTy).Contents (Elt F)),
    StableHlo.reshape main_v131 main_v132 rfl shapeCasts_S1x64x4_S64x4,
    StableHlo.unary main_arg9 main_v133 ((extractStridedSlice S1x4 ![1, 0] · slices_S9x4_S1x4_1_0) : (⟨S9x4, .f32⟩ : BufTy).Contents (Elt F) → (⟨S1x4, .f32⟩ : BufTy).Contents (Elt F)),
    StableHlo.reshape main_v133 main_v134 rfl shapeCasts_S1x4_S4,
    StableHlo.unary main_arg10 main_v135 ((extractStridedSlice S1x4x1 ![1, 0, 0] · slices_S9x4x1_S1x4x1_1_0_0) : (⟨S9x4x1, .f32⟩ : BufTy).Contents (Elt F) → (⟨S1x4x1, .f32⟩ : BufTy).Contents (Elt F)),
    StableHlo.reshape main_v135 main_v136 rfl shapeCasts_S1x4x1_S4x1,
    StableHlo.unary main_arg11 main_v137 ((extractStridedSlice S1x1 ![1, 0] · slices_S9x1_S1x1_1_0) : (⟨S9x1, .f32⟩ : BufTy).Contents (Elt F) → (⟨S1x1, .f32⟩ : BufTy).Contents (Elt F)),
    StableHlo.reshape main_v137 main_v138 rfl shapeCasts_S1x1_S1,
    StableHlo.binary main_v130 main_v132 main_v139 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v134 main_v140 (broadcastInDim S1x4 ![1] bcast_S4_S1x4_1 : (⟨S4, .f32⟩ : BufTy).Contents (Elt F) → (⟨S1x4, .f32⟩ : BufTy).Contents (Elt F)),
    StableHlo.unary main_v140 main_v141 (broadcastInDim S50000x4 ![0, 1] bcast_S1x4_S50000x4_0_1 : (⟨S1x4, .f32⟩ : BufTy).Contents (Elt F) → (⟨S50000x4, .f32⟩ : BufTy).Contents (Elt F)),
    StableHlo.binary main_v139 main_v141 main_v142 (addf : (⟨S50000x4, .f32⟩ : BufTy).Contents (Elt F) → (⟨S50000x4, .f32⟩ : BufTy).Contents (Elt F) → (⟨S50000x4, .f32⟩ : BufTy).Contents (Elt F)),
    StableHlo.nullary main_cst_21 (constant S_ .f32 0x3E4CCCCD#32),
    StableHlo.TRef.nullary main_call6.cst (constant S_ .f32 0x00000000#32),
    StableHlo.TRef.unary main_call6.cst main_call6.v0 (broadcastInDim S50000x4 ![] bcast_S_S50000x4),
    StableHlo.TRef.binary (.of main_v142 : StableHlo.TRef sig ⟨S50000x4, .f32⟩) main_call6.v0 main_call6.v1 (cmpf .oge),
    StableHlo.TRef.unary (.of main_cst_21 : StableHlo.TRef sig ⟨S_, .f32⟩) main_call6.v2 id,
    StableHlo.TRef.unary main_call6.v2 main_call6.v3 (broadcastInDim S50000x4 ![] bcast_S_S50000x4),
    StableHlo.TRef.binary main_call6.v3 (.of main_v142 : StableHlo.TRef sig ⟨S50000x4, .f32⟩) main_call6.v4 mulf,
    StableHlo.TRef.ternary main_call6.v1 (.of main_v142 : StableHlo.TRef sig ⟨S50000x4, .f32⟩) main_call6.v4 main_call6.call0.v0 select,
    StableHlo.binary main_v143 main_v136 main_v144 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v138 main_v145 (broadcastInDim S1x1 ![1] bcast_S1_S1x1_1 : (⟨S1, .f32⟩ : BufTy).Contents (Elt F) → (⟨S1x1, .f32⟩ : BufTy).Contents (Elt F)),
    StableHlo.unary main_v145 main_v146 (broadcastInDim S50000x1 ![0, 1] bcast_S1x1_S50000x1_0_1 : (⟨S1x1, .f32⟩ : BufTy).Contents (Elt F) → (⟨S50000x1, .f32⟩ : BufTy).Contents (Elt F)),
    StableHlo.binary main_v144 main_v146 main_v147 (addf : (⟨S50000x1, .f32⟩ : BufTy).Contents (Elt F) → (⟨S50000x1, .f32⟩ : BufTy).Contents (Elt F) → (⟨S50000x1, .f32⟩ : BufTy).Contents (Elt F)),
    StableHlo.unary main_v147 main_v148 (Host.negf : (⟨S50000x1, .f32⟩ : BufTy).Contents (Elt F) → (⟨S50000x1, .f32⟩ : BufTy).Contents (Elt F)),
    StableHlo.unary main_v148 main_v149 (Host.exp : (⟨S50000x1, .f32⟩ : BufTy).Contents (Elt F) → (⟨S50000x1, .f32⟩ : BufTy).Contents (Elt F)),
    StableHlo.nullary main_cst_22 (constant S_ .f32 0x3F800000#32),
    StableHlo.unary main_cst_22 main_v150 (broadcastInDim S50000x1 ![] bcast_S_S50000x1 : (⟨S_, .f32⟩ : BufTy).Contents (Elt F) → (⟨S50000x1, .f32⟩ : BufTy).Contents (Elt F)),
    StableHlo.binary main_v150 main_v149 main_v151 (addf : (⟨S50000x1, .f32⟩ : BufTy).Contents (Elt F) → (⟨S50000x1, .f32⟩ : BufTy).Contents (Elt F) → (⟨S50000x1, .f32⟩ : BufTy).Contents (Elt F)),
    StableHlo.nullary main_cst_23 (constant S_ .f32 0x3F800000#32),
    StableHlo.unary main_cst_23 main_v152 (broadcastInDim S50000x1 ![] bcast_S_S50000x1 : (⟨S_, .f32⟩ : BufTy).Contents (Elt F) → (⟨S50000x1, .f32⟩ : BufTy).Contents (Elt F)),
    StableHlo.binary main_v152 main_v151 main_v153 (Host.divf : (⟨S50000x1, .f32⟩ : BufTy).Contents (Elt F) → (⟨S50000x1, .f32⟩ : BufTy).Contents (Elt F) → (⟨S50000x1, .f32⟩ : BufTy).Contents (Elt F)),
    StableHlo.unary main_v153 main_v154 (broadcastInDim S50000x64 ![0, 1] bcast_S50000x1_S50000x64_0_1 : (⟨S50000x1, .f32⟩ : BufTy).Contents (Elt F) → (⟨S50000x64, .f32⟩ : BufTy).Contents (Elt F)),
    StableHlo.binary main_v129 main_v154 main_v155 (mulf : (⟨S50000x64, .f32⟩ : BufTy).Contents (Elt F) → (⟨S50000x64, .f32⟩ : BufTy).Contents (Elt F) → (⟨S50000x64, .f32⟩ : BufTy).Contents (Elt F)),
    StableHlo.binary main_v85 main_v155 main_v156 (addf : (⟨S50000x64, .f32⟩ : BufTy).Contents (Elt F) → (⟨S50000x64, .f32⟩ : BufTy).Contents (Elt F) → (⟨S50000x64, .f32⟩ : BufTy).Contents (Elt F)) ]

abbrev opsL0T : List (HloOp τ sig (Elt F)) :=
  [ StableHlo.unary main_arg12 main_v157 ((extractStridedSlice S1x64x64 ![1, 0, 0] · slices_S8x64x64_S1x64x64_1_0_0) : (⟨S8x64x64, .f32⟩ : BufTy).Contents (Elt F) → (⟨S1x64x64, .f32⟩ : BufTy).Contents (Elt F)),
    StableHlo.reshape main_v157 main_v158 rfl shapeCasts_S1x64x64_S64x64,
    StableHlo.binary main_v155 main_v158 main_v159 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL0 : List (HloOp τ sig (Elt F)) := opsL0A ++ (opsL0B ++ (opsL0C ++ opsL0T))

abbrev opsL1A : List (HloOp τ sig (Elt F)) :=
  [ StableHlo.nullary main_c_24 (constantI S_ 32 0#32),
    StableHlo.unary main_c_24 main_v160 (broadcastInDim S850000 ![] bcast_S_S850000 : (⟨S_, .i32⟩ : BufTy).Contents (Elt F) → (⟨S850000, .i32⟩ : BufTy).Contents (Elt F)),
    StableHlo.binary main_v3 main_v160 main_v161 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v162 (broadcastInDim S850000 ![] bcast_S_S850000 : (⟨S_, .i32⟩ : BufTy).Contents (Elt F) → (⟨S850000, .i32⟩ : BufTy).Contents (Elt F)),
    StableHlo.binary main_v3 main_v162 main_v163 (addi : (⟨S850000, .i32⟩ : BufTy).Contents (Elt F) → (⟨S850000, .i32⟩ : BufTy).Contents (Elt F) → (⟨S850000, .i32⟩ : BufTy).Contents (Elt F)),
    StableHlo.ternary main_v161 main_v163 main_v3 main_v164 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v164 main_v165 (broadcastInDim S850000x1 ![0] bcast_S850000_S850000x1_0 : (⟨S850000, .i32⟩ : BufTy).Contents (Elt F) → (⟨S850000x1, .i32⟩ : BufTy).Contents (Elt F)),
    StableHlo.binary main_v159 main_v165 main_v166 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v167 (broadcastInDim S850000x64 ![0, 1] bcast_S850000x1_S850000x64_0_1 : (⟨S850000x1, .f32⟩ : BufTy).Contents (Elt F) → (⟨S850000x64, .f32⟩ : BufTy).Contents (Elt F)),
    StableHlo.binary main_v166 main_v167 main_v168 (mulf : (⟨S850000x64, .f32⟩ : BufTy).Contents (Elt F) → (⟨S850000x64, .f32⟩ : BufTy).Contents (Elt F) → (⟨S850000x64, .f32⟩ : BufTy).Contents (Elt F)),
    StableHlo.nullary main_cst_26 (constant S_ .f32 0x00000000#32),
    StableHlo.unary main_cst_26 main_v169 (broadcastInDim S50000x64 ![] bcast_S_S50000x64 : (⟨S_, .f32⟩ : BufTy).Contents (Elt F) → (⟨S50000x64, .f32⟩ : BufTy).Contents (Elt F)),
    StableHlo.unary main_v6 main_v170 (broadcastInDim S850000x1 ![0] bcast_S850000_S850000x1_0 : (⟨S850000, .i32⟩ : BufTy).Contents (Elt F) → (⟨S850000x1, .i32⟩ : BufTy).Contents (Elt F)),
    StableHlo.ternary main_v169 main_v170 main_v168 main_v171 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v172 ((extractStridedSlice S1x64 ![1, 0] · slices_S8x64_S1x64_1_0) : (⟨S8x64, .f32⟩ : BufTy).Contents (Elt F) → (⟨S1x64, .f32⟩ : BufTy).Contents (Elt F)),
    StableHlo.reshape main_v172 main_v173 rfl shapeCasts_S1x64_S64,
    StableHlo.unary main_v173 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S50000x64 ![0, 1] bcast_S1x64_S50000x64_0_1 : (⟨S1x64, .f32⟩ : BufTy).Contents (Elt F) → (⟨S50000x64, .f32⟩ : BufTy).Contents (Elt F)),
    StableHlo.binary main_v171 main_v175 main_v176 (addf : (⟨S50000x64, .f32⟩ : BufTy).Contents (Elt F) → (⟨S50000x64, .f32⟩ : BufTy).Contents (Elt F) → (⟨S50000x64, .f32⟩ : BufTy).Contents (Elt F)) ]

abbrev opsL1B : List (HloOp τ sig (Elt F)) :=
  [ StableHlo.unary main_arg14 main_v177 ((extractStridedSlice S1x64 ![1, 0] · slices_S8x64_S1x64_1_0) : (⟨S8x64, .f32⟩ : BufTy).Contents (Elt F) → (⟨S1x64, .f32⟩ : BufTy).Contents (Elt F)),
    StableHlo.reshape main_v177 main_v178 rfl shapeCasts_S1x64_S64,
    StableHlo.unary main_arg15 main_v179 ((extractStridedSlice S1x64 ![1, 0] · slices_S8x64_S1x64_1_0) : (⟨S8x64, .f32⟩ : BufTy).Contents (Elt F) → (⟨S1x64, .f32⟩ : BufTy).Contents (Elt F)),
    StableHlo.reshape main_v179 main_v180 rfl shapeCasts_S1x64_S64,
    StableHlo.nullary main_cst_27 (constant S_ .f32 0x00000000#32),
    StableHlo.binary main_v176 main_cst_27 main_v181 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_28 (constant S_ .f32 0x47435000#32),
    StableHlo.unary main_cst_28 main_v182 (broadcastInDim S64 ![] bcast_S_S64 : (⟨S_, .f32⟩ : BufTy).Contents (Elt F) → (⟨S64, .f32⟩ : BufTy).Contents (Elt F)),
    StableHlo.binary main_v181 main_v182 main_v183 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call7.cst (constant S_ .f32 0x00000000#32),
    StableHlo.TRef.binary (.of main_v176 : StableHlo.TRef sig ⟨S50000x64, .f32⟩) main_call7.cst main_call7.v0 (fun x v => Host.reduceAdd x v reducesTo_S50000x64_S64_d0 h_S_),
    StableHlo.TRef.unary main_call7.v0 main_call7.v1 (broadcastInDim S1x64 ![1] bcast_S64_S1x64_1),
    StableHlo.TRef.nullary main_call7.cst_0 (constant S_ .f32 0x47435000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S50000x64 ![0, 1] bcast_S1x64_S50000x64_0_1),
    StableHlo.TRef.binary (.of main_v176 : StableHlo.TRef sig ⟨S50000x64, .f32⟩) main_call7.v4 main_call7.v5 subf,
    StableHlo.TRef.binary main_call7.v5 main_call7.v5 main_call7.v6 mulf,
    StableHlo.TRef.unary (.of main_c_29 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v183 main_v185 (broadcastInDim S1x64 ![1] bcast_S64_S1x64_1 : (⟨S64, .f32⟩ : BufTy).Contents (Elt F) → (⟨S1x64, .f32⟩ : BufTy).Contents (Elt F)),
    StableHlo.unary main_v185 main_v186 (broadcastInDim S50000x64 ![0, 1] bcast_S1x64_S50000x64_0_1 : (⟨S1x64, .f32⟩ : BufTy).Contents (Elt F) → (⟨S50000x64, .f32⟩ : BufTy).Contents (Elt F)),
    StableHlo.binary main_v176 main_v186 main_v187 (subf : (⟨S50000x64, .f32⟩ : BufTy).Contents (Elt F) → (⟨S50000x64, .f32⟩ : BufTy).Contents (Elt F) → (⟨S50000x64, .f32⟩ : BufTy).Contents (Elt F)),
    StableHlo.nullary main_cst_30 (constant S_ .f32 0x3727C5AC#32),
    StableHlo.unary main_cst_30 main_v188 (broadcastInDim S64 ![] bcast_S_S64 : (⟨S_, .f32⟩ : BufTy).Contents (Elt F) → (⟨S64, .f32⟩ : BufTy).Contents (Elt F)),
    StableHlo.binary main_v184 main_v188 main_v189 (addf : (⟨S64, .f32⟩ : BufTy).Contents (Elt F) → (⟨S64, .f32⟩ : BufTy).Contents (Elt F) → (⟨S64, .f32⟩ : BufTy).Contents (Elt F)),
    StableHlo.unary main_v189 main_v190 (Host.rsqrt : (⟨S64, .f32⟩ : BufTy).Contents (Elt F) → (⟨S64, .f32⟩ : BufTy).Contents (Elt F)),
    StableHlo.unary main_v190 main_v191 (broadcastInDim S1x64 ![1] bcast_S64_S1x64_1 : (⟨S64, .f32⟩ : BufTy).Contents (Elt F) → (⟨S1x64, .f32⟩ : BufTy).Contents (Elt F)),
    StableHlo.unary main_v191 main_v192 (broadcastInDim S50000x64 ![0, 1] bcast_S1x64_S50000x64_0_1 : (⟨S1x64, .f32⟩ : BufTy).Contents (Elt F) → (⟨S50000x64, .f32⟩ : BufTy).Contents (Elt F)),
    StableHlo.binary main_v187 main_v192 main_v193 (mulf : (⟨S50000x64, .f32⟩ : BufTy).Contents (Elt F) → (⟨S50000x64, .f32⟩ : BufTy).Contents (Elt F) → (⟨S50000x64, .f32⟩ : BufTy).Contents (Elt F)),
    StableHlo.unary main_v178 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S50000x64 ![0, 1] bcast_S1x64_S50000x64_0_1 : (⟨S1x64, .f32⟩ : BufTy).Contents (Elt F) → (⟨S50000x64, .f32⟩ : BufTy).Contents (Elt F)),
    StableHlo.binary main_v193 main_v195 main_v196 (mulf : (⟨S50000x64, .f32⟩ : BufTy).Contents (Elt F) → (⟨S50000x64, .f32⟩ : BufTy).Contents (Elt F) → (⟨S50000x64, .f32⟩ : BufTy).Contents (Elt F)),
    StableHlo.unary main_v180 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S50000x64 ![0, 1] bcast_S1x64_S50000x64_0_1 : (⟨S1x64, .f32⟩ : BufTy).Contents (Elt F) → (⟨S50000x64, .f32⟩ : BufTy).Contents (Elt F)),
    StableHlo.binary main_v196 main_v198 main_v199 (addf : (⟨S50000x64, .f32⟩ : BufTy).Contents (Elt F) → (⟨S50000x64, .f32⟩ : BufTy).Contents (Elt F) → (⟨S50000x64, .f32⟩ : BufTy).Contents (Elt F)),
    StableHlo.TRef.nullary main_call8.cst (constant S_ .f32 0x00000000#32),
    StableHlo.TRef.unary main_call8.cst main_call8.v0 (broadcastInDim S50000x64 ![] bcast_S_S50000x64),
    StableHlo.TRef.binary (.of main_v199 : StableHlo.TRef sig ⟨S50000x64, .f32⟩) main_call8.v0 main_call8.v1 maximumf ]

abbrev opsL1C : List (HloOp τ sig (Elt F)) :=
  [ StableHlo.binary main_v200 main_v156 main_v201 (subf : (⟨S50000x64, .f32⟩ : BufTy).Contents (Elt F) → (⟨S50000x64, .f32⟩ : BufTy).Contents (Elt F) → (⟨S50000x64, .f32⟩ : BufTy).Contents (Elt F)),
    StableHlo.unary main_arg8 main_v202 ((extractStridedSlice S1x64x4 ![2, 0, 0] · slices_S9x64x4_S1x64x4_2_0_0) : (⟨S9x64x4, .f32⟩ : BufTy).Contents (Elt F) → (⟨S1x64x4, .f32⟩ : BufTy).Contents (Elt F)),
    StableHlo.reshape main_v202 main_v203 rfl shapeCasts_S1x64x4_S64x4,
    StableHlo.unary main_arg9 main_v204 ((extractStridedSlice S1x4 ![2, 0] · slices_S9x4_S1x4_2_0) : (⟨S9x4, .f32⟩ : BufTy).Contents (Elt F) → (⟨S1x4, .f32⟩ : BufTy).Contents (Elt F)),
    StableHlo.reshape main_v204 main_v205 rfl shapeCasts_S1x4_S4,
    StableHlo.unary main_arg10 main_v206 ((extractStridedSlice S1x4x1 ![2, 0, 0] · slices_S9x4x1_S1x4x1_2_0_0) : (⟨S9x4x1, .f32⟩ : BufTy).Contents (Elt F) → (⟨S1x4x1, .f32⟩ : BufTy).Contents (Elt F)),
    StableHlo.reshape main_v206 main_v207 rfl shapeCasts_S1x4x1_S4x1,
    StableHlo.unary main_arg11 main_v208 ((extractStridedSlice S1x1 ![2, 0] · slices_S9x1_S1x1_2_0) : (⟨S9x1, .f32⟩ : BufTy).Contents (Elt F) → (⟨S1x1, .f32⟩ : BufTy).Contents (Elt F)),
    StableHlo.reshape main_v208 main_v209 rfl shapeCasts_S1x1_S1,
    StableHlo.binary main_v201 main_v203 main_v210 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v205 main_v211 (broadcastInDim S1x4 ![1] bcast_S4_S1x4_1 : (⟨S4, .f32⟩ : BufTy).Contents (Elt F) → (⟨S1x4, .f32⟩ : BufTy).Contents (Elt F)),
    StableHlo.unary main_v211 main_v212 (broadcastInDim S50000x4 ![0, 1] bcast_S1x4_S50000x4_0_1 : (⟨S1x4, .f32⟩ : BufTy).Contents (Elt F) → (⟨S50000x4, .f32⟩ : BufTy).Contents (Elt F)),
    StableHlo.binary main_v210 main_v212 main_v213 (addf : (⟨S50000x4, .f32⟩ : BufTy).Contents (Elt F) → (⟨S50000x4, .f32⟩ : BufTy).Contents (Elt F) → (⟨S50000x4, .f32⟩ : BufTy).Contents (Elt F)),
    StableHlo.nullary main_cst_31 (constant S_ .f32 0x3E4CCCCD#32),
    StableHlo.TRef.nullary main_call9.cst (constant S_ .f32 0x00000000#32),
    StableHlo.TRef.unary main_call9.cst main_call9.v0 (broadcastInDim S50000x4 ![] bcast_S_S50000x4),
    StableHlo.TRef.binary (.of main_v213 : StableHlo.TRef sig ⟨S50000x4, .f32⟩) main_call9.v0 main_call9.v1 (cmpf .oge),
    StableHlo.TRef.unary (.of main_cst_31 : StableHlo.TRef sig ⟨S_, .f32⟩) main_call9.v2 id,
    StableHlo.TRef.unary main_call9.v2 main_call9.v3 (broadcastInDim S50000x4 ![] bcast_S_S50000x4),
    StableHlo.TRef.binary main_call9.v3 (.of main_v213 : StableHlo.TRef sig ⟨S50000x4, .f32⟩) main_call9.v4 mulf,
    StableHlo.TRef.ternary main_call9.v1 (.of main_v213 : StableHlo.TRef sig ⟨S50000x4, .f32⟩) main_call9.v4 main_call9.call0.v0 select,
    StableHlo.binary main_v214 main_v207 main_v215 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v209 main_v216 (broadcastInDim S1x1 ![1] bcast_S1_S1x1_1 : (⟨S1, .f32⟩ : BufTy).Contents (Elt F) → (⟨S1x1, .f32⟩ : BufTy).Contents (Elt F)),
    StableHlo.unary main_v216 main_v217 (broadcastInDim S50000x1 ![0, 1] bcast_S1x1_S50000x1_0_1 : (⟨S1x1, .f32⟩ : BufTy).Contents (Elt F) → (⟨S50000x1, .f32⟩ : BufTy).Contents (Elt F)),
    StableHlo.binary main_v215 main_v217 main_v218 (addf : (⟨S50000x1, .f32⟩ : BufTy).Contents (Elt F) → (⟨S50000x1, .f32⟩ : BufTy).Contents (Elt F) → (⟨S50000x1, .f32⟩ : BufTy).Contents (Elt F)),
    StableHlo.unary main_v218 main_v219 (Host.negf : (⟨S50000x1, .f32⟩ : BufTy).Contents (Elt F) → (⟨S50000x1, .f32⟩ : BufTy).Contents (Elt F)),
    StableHlo.unary main_v219 main_v220 (Host.exp : (⟨S50000x1, .f32⟩ : BufTy).Contents (Elt F) → (⟨S50000x1, .f32⟩ : BufTy).Contents (Elt F)),
    StableHlo.nullary main_cst_32 (constant S_ .f32 0x3F800000#32),
    StableHlo.unary main_cst_32 main_v221 (broadcastInDim S50000x1 ![] bcast_S_S50000x1 : (⟨S_, .f32⟩ : BufTy).Contents (Elt F) → (⟨S50000x1, .f32⟩ : BufTy).Contents (Elt F)),
    StableHlo.binary main_v221 main_v220 main_v222 (addf : (⟨S50000x1, .f32⟩ : BufTy).Contents (Elt F) → (⟨S50000x1, .f32⟩ : BufTy).Contents (Elt F) → (⟨S50000x1, .f32⟩ : BufTy).Contents (Elt F)),
    StableHlo.nullary main_cst_33 (constant S_ .f32 0x3F800000#32),
    StableHlo.unary main_cst_33 main_v223 (broadcastInDim S50000x1 ![] bcast_S_S50000x1 : (⟨S_, .f32⟩ : BufTy).Contents (Elt F) → (⟨S50000x1, .f32⟩ : BufTy).Contents (Elt F)),
    StableHlo.binary main_v223 main_v222 main_v224 (Host.divf : (⟨S50000x1, .f32⟩ : BufTy).Contents (Elt F) → (⟨S50000x1, .f32⟩ : BufTy).Contents (Elt F) → (⟨S50000x1, .f32⟩ : BufTy).Contents (Elt F)),
    StableHlo.unary main_v224 main_v225 (broadcastInDim S50000x64 ![0, 1] bcast_S50000x1_S50000x64_0_1 : (⟨S50000x1, .f32⟩ : BufTy).Contents (Elt F) → (⟨S50000x64, .f32⟩ : BufTy).Contents (Elt F)),
    StableHlo.binary main_v200 main_v225 main_v226 (mulf : (⟨S50000x64, .f32⟩ : BufTy).Contents (Elt F) → (⟨S50000x64, .f32⟩ : BufTy).Contents (Elt F) → (⟨S50000x64, .f32⟩ : BufTy).Contents (Elt F)),
    StableHlo.binary main_v156 main_v226 main_v227 (addf : (⟨S50000x64, .f32⟩ : BufTy).Contents (Elt F) → (⟨S50000x64, .f32⟩ : BufTy).Contents (Elt F) → (⟨S50000x64, .f32⟩ : BufTy).Contents (Elt F)) ]

abbrev opsL1T : List (HloOp τ sig (Elt F)) :=
  [ StableHlo.unary main_arg12 main_v228 ((extractStridedSlice S1x64x64 ![2, 0, 0] · slices_S8x64x64_S1x64x64_2_0_0) : (⟨S8x64x64, .f32⟩ : BufTy).Contents (Elt F) → (⟨S1x64x64, .f32⟩ : BufTy).Contents (Elt F)),
    StableHlo.reshape main_v228 main_v229 rfl shapeCasts_S1x64x64_S64x64,
    StableHlo.binary main_v226 main_v229 main_v230 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL1 : List (HloOp τ sig (Elt F)) := opsL1A ++ (opsL1B ++ (opsL1C ++ opsL1T))

abbrev opsL2A : List (HloOp τ sig (Elt F)) :=
  [ StableHlo.nullary main_c_34 (constantI S_ 32 0#32),
    StableHlo.unary main_c_34 main_v231 (broadcastInDim S850000 ![] bcast_S_S850000 : (⟨S_, .i32⟩ : BufTy).Contents (Elt F) → (⟨S850000, .i32⟩ : BufTy).Contents (Elt F)),
    StableHlo.binary main_v3 main_v231 main_v232 (cmpi .slt : (⟨S850000, .i32⟩ : BufTy).Contents (Elt F) → (⟨S850000, .i32⟩ : BufTy).Contents (Elt F) → (⟨S850000, .i1⟩ : BufTy).Contents (Elt F)),
    StableHlo.nullary main_c_35 (constantI S_ 32 50000#32),
    StableHlo.unary main_c_35 main_v233 (broadcastInDim S850000 ![] bcast_S_S850000 : (⟨S_, .i32⟩ : BufTy).Contents (Elt F) → (⟨S850000, .i32⟩ : BufTy).Contents (Elt F)),
    StableHlo.binary main_v3 main_v233 main_v234 (addi : (⟨S850000, .i32⟩ : BufTy).Contents (Elt F) → (⟨S850000, .i32⟩ : BufTy).Contents (Elt F) → (⟨S850000, .i32⟩ : BufTy).Contents (Elt F)),
    StableHlo.ternary main_v232 main_v234 main_v3 main_v235 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v235 main_v236 (broadcastInDim S850000x1 ![0] bcast_S850000_S850000x1_0 : (⟨S850000, .i32⟩ : BufTy).Contents (Elt F) → (⟨S850000x1, .i32⟩ : BufTy).Contents (Elt F)),
    StableHlo.binary main_v230 main_v236 main_v237 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v238 (broadcastInDim S850000x64 ![0, 1] bcast_S850000x1_S850000x64_0_1 : (⟨S850000x1, .f32⟩ : BufTy).Contents (Elt F) → (⟨S850000x64, .f32⟩ : BufTy).Contents (Elt F)),
    StableHlo.binary main_v237 main_v238 main_v239 (mulf : (⟨S850000x64, .f32⟩ : BufTy).Contents (Elt F) → (⟨S850000x64, .f32⟩ : BufTy).Contents (Elt F) → (⟨S850000x64, .f32⟩ : BufTy).Contents (Elt F)),
    StableHlo.nullary main_cst_36 (constant S_ .f32 0x00000000#32),
    StableHlo.unary main_cst_36 main_v240 (broadcastInDim S50000x64 ![] bcast_S_S50000x64 : (⟨S_, .f32⟩ : BufTy).Contents (Elt F) → (⟨S50000x64, .f32⟩ : BufTy).Contents (Elt F)),
    StableHlo.unary main_v6 main_v241 (broadcastInDim S850000x1 ![0] bcast_S850000_S850000x1_0 : (⟨S850000, .i32⟩ : BufTy).Contents (Elt F) → (⟨S850000x1, .i32⟩ : BufTy).Contents (Elt F)),
    StableHlo.ternary main_v240 main_v241 main_v239 main_v242 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v243 ((extractStridedSlice S1x64 ![2, 0] · slices_S8x64_S1x64_2_0) : (⟨S8x64, .f32⟩ : BufTy).Contents (Elt F) → (⟨S1x64, .f32⟩ : BufTy).Contents (Elt F)),
    StableHlo.reshape main_v243 main_v244 rfl shapeCasts_S1x64_S64,
    StableHlo.unary main_v244 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S50000x64 ![0, 1] bcast_S1x64_S50000x64_0_1 : (⟨S1x64, .f32⟩ : BufTy).Contents (Elt F) → (⟨S50000x64, .f32⟩ : BufTy).Contents (Elt F)),
    StableHlo.binary main_v242 main_v246 main_v247 (addf : (⟨S50000x64, .f32⟩ : BufTy).Contents (Elt F) → (⟨S50000x64, .f32⟩ : BufTy).Contents (Elt F) → (⟨S50000x64, .f32⟩ : BufTy).Contents (Elt F)) ]

abbrev opsL2B : List (HloOp τ sig (Elt F)) :=
  [ StableHlo.unary main_arg14 main_v248 ((extractStridedSlice S1x64 ![2, 0] · slices_S8x64_S1x64_2_0) : (⟨S8x64, .f32⟩ : BufTy).Contents (Elt F) → (⟨S1x64, .f32⟩ : BufTy).Contents (Elt F)),
    StableHlo.reshape main_v248 main_v249 rfl shapeCasts_S1x64_S64,
    StableHlo.unary main_arg15 main_v250 ((extractStridedSlice S1x64 ![2, 0] · slices_S8x64_S1x64_2_0) : (⟨S8x64, .f32⟩ : BufTy).Contents (Elt F) → (⟨S1x64, .f32⟩ : BufTy).Contents (Elt F)),
    StableHlo.reshape main_v250 main_v251 rfl shapeCasts_S1x64_S64,
    StableHlo.nullary main_cst_37 (constant S_ .f32 0x00000000#32),
    StableHlo.binary main_v247 main_cst_37 main_v252 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_38 (constant S_ .f32 0x47435000#32),
    StableHlo.unary main_cst_38 main_v253 (broadcastInDim S64 ![] bcast_S_S64 : (⟨S_, .f32⟩ : BufTy).Contents (Elt F) → (⟨S64, .f32⟩ : BufTy).Contents (Elt F)),
    StableHlo.binary main_v252 main_v253 main_v254 (Host.divf : (⟨S64, .f32⟩ : BufTy).Contents (Elt F) → (⟨S64, .f32⟩ : BufTy).Contents (Elt F) → (⟨S64, .f32⟩ : BufTy).Contents (Elt F)),
    StableHlo.nullary main_c_39 (constantI S_ 32 0#32),
    StableHlo.TRef.nullary main_call10.cst (constant S_ .f32 0x00000000#32),
    StableHlo.TRef.binary (.of main_v247 : StableHlo.TRef sig ⟨S50000x64, .f32⟩) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v247 : StableHlo.TRef sig ⟨S50000x64, .f32⟩) main_call10.v4 main_call10.v5 subf,
    StableHlo.TRef.binary main_call10.v5 main_call10.v5 main_call10.v6 mulf,
    StableHlo.TRef.unary (.of main_c_39 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v254 main_v256 (broadcastInDim S1x64 ![1] bcast_S64_S1x64_1 : (⟨S64, .f32⟩ : BufTy).Contents (Elt F) → (⟨S1x64, .f32⟩ : BufTy).Contents (Elt F)),
    StableHlo.unary main_v256 main_v257 (broadcastInDim S50000x64 ![0, 1] bcast_S1x64_S50000x64_0_1 : (⟨S1x64, .f32⟩ : BufTy).Contents (Elt F) → (⟨S50000x64, .f32⟩ : BufTy).Contents (Elt F)),
    StableHlo.binary main_v247 main_v257 main_v258 (subf : (⟨S50000x64, .f32⟩ : BufTy).Contents (Elt F) → (⟨S50000x64, .f32⟩ : BufTy).Contents (Elt F) → (⟨S50000x64, .f32⟩ : BufTy).Contents (Elt F)),
    StableHlo.nullary main_cst_40 (constant S_ .f32 0x3727C5AC#32),
    StableHlo.unary main_cst_40 main_v259 (broadcastInDim S64 ![] bcast_S_S64 : (⟨S_, .f32⟩ : BufTy).Contents (Elt F) → (⟨S64, .f32⟩ : BufTy).Contents (Elt F)),
    StableHlo.binary main_v255 main_v259 main_v260 (addf : (⟨S64, .f32⟩ : BufTy).Contents (Elt F) → (⟨S64, .f32⟩ : BufTy).Contents (Elt F) → (⟨S64, .f32⟩ : BufTy).Contents (Elt F)),
    StableHlo.unary main_v260 main_v261 (Host.rsqrt : (⟨S64, .f32⟩ : BufTy).Contents (Elt F) → (⟨S64, .f32⟩ : BufTy).Contents (Elt F)),
    StableHlo.unary main_v261 main_v262 (broadcastInDim S1x64 ![1] bcast_S64_S1x64_1 : (⟨S64, .f32⟩ : BufTy).Contents (Elt F) → (⟨S1x64, .f32⟩ : BufTy).Contents (Elt F)),
    StableHlo.unary main_v262 main_v263 (broadcastInDim S50000x64 ![0, 1] bcast_S1x64_S50000x64_0_1 : (⟨S1x64, .f32⟩ : BufTy).Contents (Elt F) → (⟨S50000x64, .f32⟩ : BufTy).Contents (Elt F)),
    StableHlo.binary main_v258 main_v263 main_v264 (mulf : (⟨S50000x64, .f32⟩ : BufTy).Contents (Elt F) → (⟨S50000x64, .f32⟩ : BufTy).Contents (Elt F) → (⟨S50000x64, .f32⟩ : BufTy).Contents (Elt F)),
    StableHlo.unary main_v249 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S50000x64 ![0, 1] bcast_S1x64_S50000x64_0_1 : (⟨S1x64, .f32⟩ : BufTy).Contents (Elt F) → (⟨S50000x64, .f32⟩ : BufTy).Contents (Elt F)),
    StableHlo.binary main_v264 main_v266 main_v267 (mulf : (⟨S50000x64, .f32⟩ : BufTy).Contents (Elt F) → (⟨S50000x64, .f32⟩ : BufTy).Contents (Elt F) → (⟨S50000x64, .f32⟩ : BufTy).Contents (Elt F)),
    StableHlo.unary main_v251 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S50000x64 ![0, 1] bcast_S1x64_S50000x64_0_1 : (⟨S1x64, .f32⟩ : BufTy).Contents (Elt F) → (⟨S50000x64, .f32⟩ : BufTy).Contents (Elt F)),
    StableHlo.binary main_v267 main_v269 main_v270 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v270 : StableHlo.TRef sig ⟨S50000x64, .f32⟩) main_call11.v0 main_call11.v1 maximumf ]

abbrev opsL2C : List (HloOp τ sig (Elt F)) :=
  [ StableHlo.binary main_v271 main_v227 main_v272 (subf : (⟨S50000x64, .f32⟩ : BufTy).Contents (Elt F) → (⟨S50000x64, .f32⟩ : BufTy).Contents (Elt F) → (⟨S50000x64, .f32⟩ : BufTy).Contents (Elt F)),
    StableHlo.unary main_arg8 main_v273 ((extractStridedSlice S1x64x4 ![3, 0, 0] · slices_S9x64x4_S1x64x4_3_0_0) : (⟨S9x64x4, .f32⟩ : BufTy).Contents (Elt F) → (⟨S1x64x4, .f32⟩ : BufTy).Contents (Elt F)),
    StableHlo.reshape main_v273 main_v274 rfl shapeCasts_S1x64x4_S64x4,
    StableHlo.unary main_arg9 main_v275 ((extractStridedSlice S1x4 ![3, 0] · slices_S9x4_S1x4_3_0) : (⟨S9x4, .f32⟩ : BufTy).Contents (Elt F) → (⟨S1x4, .f32⟩ : BufTy).Contents (Elt F)),
    StableHlo.reshape main_v275 main_v276 rfl shapeCasts_S1x4_S4,
    StableHlo.unary main_arg10 main_v277 ((extractStridedSlice S1x4x1 ![3, 0, 0] · slices_S9x4x1_S1x4x1_3_0_0) : (⟨S9x4x1, .f32⟩ : BufTy).Contents (Elt F) → (⟨S1x4x1, .f32⟩ : BufTy).Contents (Elt F)),
    StableHlo.reshape main_v277 main_v278 rfl shapeCasts_S1x4x1_S4x1,
    StableHlo.unary main_arg11 main_v279 ((extractStridedSlice S1x1 ![3, 0] · slices_S9x1_S1x1_3_0) : (⟨S9x1, .f32⟩ : BufTy).Contents (Elt F) → (⟨S1x1, .f32⟩ : BufTy).Contents (Elt F)),
    StableHlo.reshape main_v279 main_v280 rfl shapeCasts_S1x1_S1,
    StableHlo.binary main_v272 main_v274 main_v281 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v276 main_v282 (broadcastInDim S1x4 ![1] bcast_S4_S1x4_1 : (⟨S4, .f32⟩ : BufTy).Contents (Elt F) → (⟨S1x4, .f32⟩ : BufTy).Contents (Elt F)),
    StableHlo.unary main_v282 main_v283 (broadcastInDim S50000x4 ![0, 1] bcast_S1x4_S50000x4_0_1 : (⟨S1x4, .f32⟩ : BufTy).Contents (Elt F) → (⟨S50000x4, .f32⟩ : BufTy).Contents (Elt F)),
    StableHlo.binary main_v281 main_v283 main_v284 (addf : (⟨S50000x4, .f32⟩ : BufTy).Contents (Elt F) → (⟨S50000x4, .f32⟩ : BufTy).Contents (Elt F) → (⟨S50000x4, .f32⟩ : BufTy).Contents (Elt F)),
    StableHlo.nullary main_cst_41 (constant S_ .f32 0x3E4CCCCD#32),
    StableHlo.TRef.nullary main_call12.cst (constant S_ .f32 0x00000000#32),
    StableHlo.TRef.unary main_call12.cst main_call12.v0 (broadcastInDim S50000x4 ![] bcast_S_S50000x4),
    StableHlo.TRef.binary (.of main_v284 : StableHlo.TRef sig ⟨S50000x4, .f32⟩) main_call12.v0 main_call12.v1 (cmpf .oge),
    StableHlo.TRef.unary (.of main_cst_41 : StableHlo.TRef sig ⟨S_, .f32⟩) main_call12.v2 id,
    StableHlo.TRef.unary main_call12.v2 main_call12.v3 (broadcastInDim S50000x4 ![] bcast_S_S50000x4),
    StableHlo.TRef.binary main_call12.v3 (.of main_v284 : StableHlo.TRef sig ⟨S50000x4, .f32⟩) main_call12.v4 mulf,
    StableHlo.TRef.ternary main_call12.v1 (.of main_v284 : StableHlo.TRef sig ⟨S50000x4, .f32⟩) main_call12.v4 main_call12.call0.v0 select,
    StableHlo.binary main_v285 main_v278 main_v286 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v280 main_v287 (broadcastInDim S1x1 ![1] bcast_S1_S1x1_1 : (⟨S1, .f32⟩ : BufTy).Contents (Elt F) → (⟨S1x1, .f32⟩ : BufTy).Contents (Elt F)),
    StableHlo.unary main_v287 main_v288 (broadcastInDim S50000x1 ![0, 1] bcast_S1x1_S50000x1_0_1 : (⟨S1x1, .f32⟩ : BufTy).Contents (Elt F) → (⟨S50000x1, .f32⟩ : BufTy).Contents (Elt F)),
    StableHlo.binary main_v286 main_v288 main_v289 (addf : (⟨S50000x1, .f32⟩ : BufTy).Contents (Elt F) → (⟨S50000x1, .f32⟩ : BufTy).Contents (Elt F) → (⟨S50000x1, .f32⟩ : BufTy).Contents (Elt F)),
    StableHlo.unary main_v289 main_v290 (Host.negf : (⟨S50000x1, .f32⟩ : BufTy).Contents (Elt F) → (⟨S50000x1, .f32⟩ : BufTy).Contents (Elt F)),
    StableHlo.unary main_v290 main_v291 (Host.exp : (⟨S50000x1, .f32⟩ : BufTy).Contents (Elt F) → (⟨S50000x1, .f32⟩ : BufTy).Contents (Elt F)),
    StableHlo.nullary main_cst_42 (constant S_ .f32 0x3F800000#32),
    StableHlo.unary main_cst_42 main_v292 (broadcastInDim S50000x1 ![] bcast_S_S50000x1 : (⟨S_, .f32⟩ : BufTy).Contents (Elt F) → (⟨S50000x1, .f32⟩ : BufTy).Contents (Elt F)),
    StableHlo.binary main_v292 main_v291 main_v293 (addf : (⟨S50000x1, .f32⟩ : BufTy).Contents (Elt F) → (⟨S50000x1, .f32⟩ : BufTy).Contents (Elt F) → (⟨S50000x1, .f32⟩ : BufTy).Contents (Elt F)),
    StableHlo.nullary main_cst_43 (constant S_ .f32 0x3F800000#32),
    StableHlo.unary main_cst_43 main_v294 (broadcastInDim S50000x1 ![] bcast_S_S50000x1 : (⟨S_, .f32⟩ : BufTy).Contents (Elt F) → (⟨S50000x1, .f32⟩ : BufTy).Contents (Elt F)),
    StableHlo.binary main_v294 main_v293 main_v295 (Host.divf : (⟨S50000x1, .f32⟩ : BufTy).Contents (Elt F) → (⟨S50000x1, .f32⟩ : BufTy).Contents (Elt F) → (⟨S50000x1, .f32⟩ : BufTy).Contents (Elt F)),
    StableHlo.unary main_v295 main_v296 (broadcastInDim S50000x64 ![0, 1] bcast_S50000x1_S50000x64_0_1 : (⟨S50000x1, .f32⟩ : BufTy).Contents (Elt F) → (⟨S50000x64, .f32⟩ : BufTy).Contents (Elt F)),
    StableHlo.binary main_v271 main_v296 main_v297 (mulf : (⟨S50000x64, .f32⟩ : BufTy).Contents (Elt F) → (⟨S50000x64, .f32⟩ : BufTy).Contents (Elt F) → (⟨S50000x64, .f32⟩ : BufTy).Contents (Elt F)),
    StableHlo.binary main_v227 main_v297 main_v298 (addf : (⟨S50000x64, .f32⟩ : BufTy).Contents (Elt F) → (⟨S50000x64, .f32⟩ : BufTy).Contents (Elt F) → (⟨S50000x64, .f32⟩ : BufTy).Contents (Elt F)) ]

abbrev opsL2T : List (HloOp τ sig (Elt F)) :=
  [ StableHlo.unary main_arg12 main_v299 ((extractStridedSlice S1x64x64 ![3, 0, 0] · slices_S8x64x64_S1x64x64_3_0_0) : (⟨S8x64x64, .f32⟩ : BufTy).Contents (Elt F) → (⟨S1x64x64, .f32⟩ : BufTy).Contents (Elt F)),
    StableHlo.reshape main_v299 main_v300 rfl shapeCasts_S1x64x64_S64x64,
    StableHlo.binary main_v297 main_v300 main_v301 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL2 : List (HloOp τ sig (Elt F)) := opsL2A ++ (opsL2B ++ (opsL2C ++ opsL2T))

abbrev opsL3A : List (HloOp τ sig (Elt F)) :=
  [ StableHlo.nullary main_c_44 (constantI S_ 32 0#32),
    StableHlo.unary main_c_44 main_v302 (broadcastInDim S850000 ![] bcast_S_S850000 : (⟨S_, .i32⟩ : BufTy).Contents (Elt F) → (⟨S850000, .i32⟩ : BufTy).Contents (Elt F)),
    StableHlo.binary main_v3 main_v302 main_v303 (cmpi .slt : (⟨S850000, .i32⟩ : BufTy).Contents (Elt F) → (⟨S850000, .i32⟩ : BufTy).Contents (Elt F) → (⟨S850000, .i1⟩ : BufTy).Contents (Elt F)),
    StableHlo.nullary main_c_45 (constantI S_ 32 50000#32),
    StableHlo.unary main_c_45 main_v304 (broadcastInDim S850000 ![] bcast_S_S850000 : (⟨S_, .i32⟩ : BufTy).Contents (Elt F) → (⟨S850000, .i32⟩ : BufTy).Contents (Elt F)),
    StableHlo.binary main_v3 main_v304 main_v305 (addi : (⟨S850000, .i32⟩ : BufTy).Contents (Elt F) → (⟨S850000, .i32⟩ : BufTy).Contents (Elt F) → (⟨S850000, .i32⟩ : BufTy).Contents (Elt F)),
    StableHlo.ternary main_v303 main_v305 main_v3 main_v306 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v306 main_v307 (broadcastInDim S850000x1 ![0] bcast_S850000_S850000x1_0 : (⟨S850000, .i32⟩ : BufTy).Contents (Elt F) → (⟨S850000x1, .i32⟩ : BufTy).Contents (Elt F)),
    StableHlo.binary main_v301 main_v307 main_v308 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v309 (broadcastInDim S850000x64 ![0, 1] bcast_S850000x1_S850000x64_0_1 : (⟨S850000x1, .f32⟩ : BufTy).Contents (Elt F) → (⟨S850000x64, .f32⟩ : BufTy).Contents (Elt F)),
    StableHlo.binary main_v308 main_v309 main_v310 (mulf : (⟨S850000x64, .f32⟩ : BufTy).Contents (Elt F) → (⟨S850000x64, .f32⟩ : BufTy).Contents (Elt F) → (⟨S850000x64, .f32⟩ : BufTy).Contents (Elt F)),
    StableHlo.nullary main_cst_46 (constant S_ .f32 0x00000000#32),
    StableHlo.unary main_cst_46 main_v311 (broadcastInDim S50000x64 ![] bcast_S_S50000x64 : (⟨S_, .f32⟩ : BufTy).Contents (Elt F) → (⟨S50000x64, .f32⟩ : BufTy).Contents (Elt F)),
    StableHlo.unary main_v6 main_v312 (broadcastInDim S850000x1 ![0] bcast_S850000_S850000x1_0 : (⟨S850000, .i32⟩ : BufTy).Contents (Elt F) → (⟨S850000x1, .i32⟩ : BufTy).Contents (Elt F)),
    StableHlo.ternary main_v311 main_v312 main_v310 main_v313 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v314 ((extractStridedSlice S1x64 ![3, 0] · slices_S8x64_S1x64_3_0) : (⟨S8x64, .f32⟩ : BufTy).Contents (Elt F) → (⟨S1x64, .f32⟩ : BufTy).Contents (Elt F)),
    StableHlo.reshape main_v314 main_v315 rfl shapeCasts_S1x64_S64,
    StableHlo.unary main_v315 main_v316 (broadcastInDim S1x64 ![1] bcast_S64_S1x64_1 : (⟨S64, .f32⟩ : BufTy).Contents (Elt F) → (⟨S1x64, .f32⟩ : BufTy).Contents (Elt F)),
    StableHlo.unary main_v316 main_v317 (broadcastInDim S50000x64 ![0, 1] bcast_S1x64_S50000x64_0_1 : (⟨S1x64, .f32⟩ : BufTy).Contents (Elt F) → (⟨S50000x64, .f32⟩ : BufTy).Contents (Elt F)),
    StableHlo.binary main_v313 main_v317 main_v318 (addf : (⟨S50000x64, .f32⟩ : BufTy).Contents (Elt F) → (⟨S50000x64, .f32⟩ : BufTy).Contents (Elt F) → (⟨S50000x64, .f32⟩ : BufTy).Contents (Elt F)) ]

abbrev opsL3B : List (HloOp τ sig (Elt F)) :=
  [ StableHlo.unary main_arg14 main_v319 ((extractStridedSlice S1x64 ![3, 0] · slices_S8x64_S1x64_3_0) : (⟨S8x64, .f32⟩ : BufTy).Contents (Elt F) → (⟨S1x64, .f32⟩ : BufTy).Contents (Elt F)),
    StableHlo.reshape main_v319 main_v320 rfl shapeCasts_S1x64_S64,
    StableHlo.unary main_arg15 main_v321 ((extractStridedSlice S1x64 ![3, 0] · slices_S8x64_S1x64_3_0) : (⟨S8x64, .f32⟩ : BufTy).Contents (Elt F) → (⟨S1x64, .f32⟩ : BufTy).Contents (Elt F)),
    StableHlo.reshape main_v321 main_v322 rfl shapeCasts_S1x64_S64,
    StableHlo.nullary main_cst_47 (constant S_ .f32 0x00000000#32),
    StableHlo.binary main_v318 main_cst_47 main_v323 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_48 (constant S_ .f32 0x47435000#32),
    StableHlo.unary main_cst_48 main_v324 (broadcastInDim S64 ![] bcast_S_S64 : (⟨S_, .f32⟩ : BufTy).Contents (Elt F) → (⟨S64, .f32⟩ : BufTy).Contents (Elt F)),
    StableHlo.binary main_v323 main_v324 main_v325 (Host.divf : (⟨S64, .f32⟩ : BufTy).Contents (Elt F) → (⟨S64, .f32⟩ : BufTy).Contents (Elt F) → (⟨S64, .f32⟩ : BufTy).Contents (Elt F)),
    StableHlo.nullary main_c_49 (constantI S_ 32 0#32),
    StableHlo.TRef.nullary main_call13.cst (constant S_ .f32 0x00000000#32),
    StableHlo.TRef.binary (.of main_v318 : StableHlo.TRef sig ⟨S50000x64, .f32⟩) main_call13.cst main_call13.v0 (fun x v => Host.reduceAdd x v reducesTo_S50000x64_S64_d0 h_S_),
    StableHlo.TRef.unary main_call13.v0 main_call13.v1 (broadcastInDim S1x64 ![1] bcast_S64_S1x64_1),
    StableHlo.TRef.nullary main_call13.cst_0 (constant S_ .f32 0x47435000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S50000x64 ![0, 1] bcast_S1x64_S50000x64_0_1),
    StableHlo.TRef.binary (.of main_v318 : StableHlo.TRef sig ⟨S50000x64, .f32⟩) main_call13.v4 main_call13.v5 subf,
    StableHlo.TRef.binary main_call13.v5 main_call13.v5 main_call13.v6 mulf,
    StableHlo.TRef.unary (.of main_c_49 : StableHlo.TRef sig ⟨S_, .i32⟩) main_call13.v7 (sitofp .f32),
    StableHlo.TRef.nullary main_call13.cst_1 (constant S_ .f32 0x47435000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S50000x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v325 main_v327 (broadcastInDim S1x64 ![1] bcast_S64_S1x64_1 : (⟨S64, .f32⟩ : BufTy).Contents (Elt F) → (⟨S1x64, .f32⟩ : BufTy).Contents (Elt F)),
    StableHlo.unary main_v327 main_v328 (broadcastInDim S50000x64 ![0, 1] bcast_S1x64_S50000x64_0_1 : (⟨S1x64, .f32⟩ : BufTy).Contents (Elt F) → (⟨S50000x64, .f32⟩ : BufTy).Contents (Elt F)),
    StableHlo.binary main_v318 main_v328 main_v329 (subf : (⟨S50000x64, .f32⟩ : BufTy).Contents (Elt F) → (⟨S50000x64, .f32⟩ : BufTy).Contents (Elt F) → (⟨S50000x64, .f32⟩ : BufTy).Contents (Elt F)),
    StableHlo.nullary main_cst_50 (constant S_ .f32 0x3727C5AC#32),
    StableHlo.unary main_cst_50 main_v330 (broadcastInDim S64 ![] bcast_S_S64 : (⟨S_, .f32⟩ : BufTy).Contents (Elt F) → (⟨S64, .f32⟩ : BufTy).Contents (Elt F)),
    StableHlo.binary main_v326 main_v330 main_v331 (addf : (⟨S64, .f32⟩ : BufTy).Contents (Elt F) → (⟨S64, .f32⟩ : BufTy).Contents (Elt F) → (⟨S64, .f32⟩ : BufTy).Contents (Elt F)),
    StableHlo.unary main_v331 main_v332 (Host.rsqrt : (⟨S64, .f32⟩ : BufTy).Contents (Elt F) → (⟨S64, .f32⟩ : BufTy).Contents (Elt F)),
    StableHlo.unary main_v332 main_v333 (broadcastInDim S1x64 ![1] bcast_S64_S1x64_1 : (⟨S64, .f32⟩ : BufTy).Contents (Elt F) → (⟨S1x64, .f32⟩ : BufTy).Contents (Elt F)),
    StableHlo.unary main_v333 main_v334 (broadcastInDim S50000x64 ![0, 1] bcast_S1x64_S50000x64_0_1 : (⟨S1x64, .f32⟩ : BufTy).Contents (Elt F) → (⟨S50000x64, .f32⟩ : BufTy).Contents (Elt F)),
    StableHlo.binary main_v329 main_v334 main_v335 (mulf : (⟨S50000x64, .f32⟩ : BufTy).Contents (Elt F) → (⟨S50000x64, .f32⟩ : BufTy).Contents (Elt F) → (⟨S50000x64, .f32⟩ : BufTy).Contents (Elt F)),
    StableHlo.unary main_v320 main_v336 (broadcastInDim S1x64 ![1] bcast_S64_S1x64_1 : (⟨S64, .f32⟩ : BufTy).Contents (Elt F) → (⟨S1x64, .f32⟩ : BufTy).Contents (Elt F)),
    StableHlo.unary main_v336 main_v337 (broadcastInDim S50000x64 ![0, 1] bcast_S1x64_S50000x64_0_1 : (⟨S1x64, .f32⟩ : BufTy).Contents (Elt F) → (⟨S50000x64, .f32⟩ : BufTy).Contents (Elt F)),
    StableHlo.binary main_v335 main_v337 main_v338 (mulf : (⟨S50000x64, .f32⟩ : BufTy).Contents (Elt F) → (⟨S50000x64, .f32⟩ : BufTy).Contents (Elt F) → (⟨S50000x64, .f32⟩ : BufTy).Contents (Elt F)),
    StableHlo.unary main_v322 main_v339 (broadcastInDim S1x64 ![1] bcast_S64_S1x64_1 : (⟨S64, .f32⟩ : BufTy).Contents (Elt F) → (⟨S1x64, .f32⟩ : BufTy).Contents (Elt F)),
    StableHlo.unary main_v339 main_v340 (broadcastInDim S50000x64 ![0, 1] bcast_S1x64_S50000x64_0_1 : (⟨S1x64, .f32⟩ : BufTy).Contents (Elt F) → (⟨S50000x64, .f32⟩ : BufTy).Contents (Elt F)),
    StableHlo.binary main_v338 main_v340 main_v341 (addf : (⟨S50000x64, .f32⟩ : BufTy).Contents (Elt F) → (⟨S50000x64, .f32⟩ : BufTy).Contents (Elt F) → (⟨S50000x64, .f32⟩ : BufTy).Contents (Elt F)),
    StableHlo.TRef.nullary main_call14.cst (constant S_ .f32 0x00000000#32),
    StableHlo.TRef.unary main_call14.cst main_call14.v0 (broadcastInDim S50000x64 ![] bcast_S_S50000x64),
    StableHlo.TRef.binary (.of main_v341 : StableHlo.TRef sig ⟨S50000x64, .f32⟩) main_call14.v0 main_call14.v1 maximumf ]

abbrev opsL3C : List (HloOp τ sig (Elt F)) :=
  [ StableHlo.binary main_v342 main_v298 main_v343 (subf : (⟨S50000x64, .f32⟩ : BufTy).Contents (Elt F) → (⟨S50000x64, .f32⟩ : BufTy).Contents (Elt F) → (⟨S50000x64, .f32⟩ : BufTy).Contents (Elt F)),
    StableHlo.unary main_arg8 main_v344 ((extractStridedSlice S1x64x4 ![4, 0, 0] · slices_S9x64x4_S1x64x4_4_0_0) : (⟨S9x64x4, .f32⟩ : BufTy).Contents (Elt F) → (⟨S1x64x4, .f32⟩ : BufTy).Contents (Elt F)),
    StableHlo.reshape main_v344 main_v345 rfl shapeCasts_S1x64x4_S64x4,
    StableHlo.unary main_arg9 main_v346 ((extractStridedSlice S1x4 ![4, 0] · slices_S9x4_S1x4_4_0) : (⟨S9x4, .f32⟩ : BufTy).Contents (Elt F) → (⟨S1x4, .f32⟩ : BufTy).Contents (Elt F)),
    StableHlo.reshape main_v346 main_v347 rfl shapeCasts_S1x4_S4,
    StableHlo.unary main_arg10 main_v348 ((extractStridedSlice S1x4x1 ![4, 0, 0] · slices_S9x4x1_S1x4x1_4_0_0) : (⟨S9x4x1, .f32⟩ : BufTy).Contents (Elt F) → (⟨S1x4x1, .f32⟩ : BufTy).Contents (Elt F)),
    StableHlo.reshape main_v348 main_v349 rfl shapeCasts_S1x4x1_S4x1,
    StableHlo.unary main_arg11 main_v350 ((extractStridedSlice S1x1 ![4, 0] · slices_S9x1_S1x1_4_0) : (⟨S9x1, .f32⟩ : BufTy).Contents (Elt F) → (⟨S1x1, .f32⟩ : BufTy).Contents (Elt F)),
    StableHlo.reshape main_v350 main_v351 rfl shapeCasts_S1x1_S1,
    StableHlo.binary main_v343 main_v345 main_v352 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v347 main_v353 (broadcastInDim S1x4 ![1] bcast_S4_S1x4_1 : (⟨S4, .f32⟩ : BufTy).Contents (Elt F) → (⟨S1x4, .f32⟩ : BufTy).Contents (Elt F)),
    StableHlo.unary main_v353 main_v354 (broadcastInDim S50000x4 ![0, 1] bcast_S1x4_S50000x4_0_1 : (⟨S1x4, .f32⟩ : BufTy).Contents (Elt F) → (⟨S50000x4, .f32⟩ : BufTy).Contents (Elt F)),
    StableHlo.binary main_v352 main_v354 main_v355 (addf : (⟨S50000x4, .f32⟩ : BufTy).Contents (Elt F) → (⟨S50000x4, .f32⟩ : BufTy).Contents (Elt F) → (⟨S50000x4, .f32⟩ : BufTy).Contents (Elt F)),
    StableHlo.nullary main_cst_51 (constant S_ .f32 0x3E4CCCCD#32),
    StableHlo.TRef.nullary main_call15.cst (constant S_ .f32 0x00000000#32),
    StableHlo.TRef.unary main_call15.cst main_call15.v0 (broadcastInDim S50000x4 ![] bcast_S_S50000x4),
    StableHlo.TRef.binary (.of main_v355 : StableHlo.TRef sig ⟨S50000x4, .f32⟩) main_call15.v0 main_call15.v1 (cmpf .oge),
    StableHlo.TRef.unary (.of main_cst_51 : StableHlo.TRef sig ⟨S_, .f32⟩) main_call15.v2 id,
    StableHlo.TRef.unary main_call15.v2 main_call15.v3 (broadcastInDim S50000x4 ![] bcast_S_S50000x4),
    StableHlo.TRef.binary main_call15.v3 (.of main_v355 : StableHlo.TRef sig ⟨S50000x4, .f32⟩) main_call15.v4 mulf,
    StableHlo.TRef.ternary main_call15.v1 (.of main_v355 : StableHlo.TRef sig ⟨S50000x4, .f32⟩) main_call15.v4 main_call15.call0.v0 select,
    StableHlo.binary main_v356 main_v349 main_v357 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v351 main_v358 (broadcastInDim S1x1 ![1] bcast_S1_S1x1_1 : (⟨S1, .f32⟩ : BufTy).Contents (Elt F) → (⟨S1x1, .f32⟩ : BufTy).Contents (Elt F)),
    StableHlo.unary main_v358 main_v359 (broadcastInDim S50000x1 ![0, 1] bcast_S1x1_S50000x1_0_1 : (⟨S1x1, .f32⟩ : BufTy).Contents (Elt F) → (⟨S50000x1, .f32⟩ : BufTy).Contents (Elt F)),
    StableHlo.binary main_v357 main_v359 main_v360 (addf : (⟨S50000x1, .f32⟩ : BufTy).Contents (Elt F) → (⟨S50000x1, .f32⟩ : BufTy).Contents (Elt F) → (⟨S50000x1, .f32⟩ : BufTy).Contents (Elt F)),
    StableHlo.unary main_v360 main_v361 (Host.negf : (⟨S50000x1, .f32⟩ : BufTy).Contents (Elt F) → (⟨S50000x1, .f32⟩ : BufTy).Contents (Elt F)),
    StableHlo.unary main_v361 main_v362 (Host.exp : (⟨S50000x1, .f32⟩ : BufTy).Contents (Elt F) → (⟨S50000x1, .f32⟩ : BufTy).Contents (Elt F)),
    StableHlo.nullary main_cst_52 (constant S_ .f32 0x3F800000#32),
    StableHlo.unary main_cst_52 main_v363 (broadcastInDim S50000x1 ![] bcast_S_S50000x1 : (⟨S_, .f32⟩ : BufTy).Contents (Elt F) → (⟨S50000x1, .f32⟩ : BufTy).Contents (Elt F)),
    StableHlo.binary main_v363 main_v362 main_v364 (addf : (⟨S50000x1, .f32⟩ : BufTy).Contents (Elt F) → (⟨S50000x1, .f32⟩ : BufTy).Contents (Elt F) → (⟨S50000x1, .f32⟩ : BufTy).Contents (Elt F)),
    StableHlo.nullary main_cst_53 (constant S_ .f32 0x3F800000#32),
    StableHlo.unary main_cst_53 main_v365 (broadcastInDim S50000x1 ![] bcast_S_S50000x1 : (⟨S_, .f32⟩ : BufTy).Contents (Elt F) → (⟨S50000x1, .f32⟩ : BufTy).Contents (Elt F)),
    StableHlo.binary main_v365 main_v364 main_v366 (Host.divf : (⟨S50000x1, .f32⟩ : BufTy).Contents (Elt F) → (⟨S50000x1, .f32⟩ : BufTy).Contents (Elt F) → (⟨S50000x1, .f32⟩ : BufTy).Contents (Elt F)),
    StableHlo.unary main_v366 main_v367 (broadcastInDim S50000x64 ![0, 1] bcast_S50000x1_S50000x64_0_1 : (⟨S50000x1, .f32⟩ : BufTy).Contents (Elt F) → (⟨S50000x64, .f32⟩ : BufTy).Contents (Elt F)),
    StableHlo.binary main_v342 main_v367 main_v368 (mulf : (⟨S50000x64, .f32⟩ : BufTy).Contents (Elt F) → (⟨S50000x64, .f32⟩ : BufTy).Contents (Elt F) → (⟨S50000x64, .f32⟩ : BufTy).Contents (Elt F)),
    StableHlo.binary main_v298 main_v368 main_v369 (addf : (⟨S50000x64, .f32⟩ : BufTy).Contents (Elt F) → (⟨S50000x64, .f32⟩ : BufTy).Contents (Elt F) → (⟨S50000x64, .f32⟩ : BufTy).Contents (Elt F)) ]

abbrev opsL3T : List (HloOp τ sig (Elt F)) :=
  [ StableHlo.unary main_arg12 main_v370 ((extractStridedSlice S1x64x64 ![4, 0, 0] · slices_S8x64x64_S1x64x64_4_0_0) : (⟨S8x64x64, .f32⟩ : BufTy).Contents (Elt F) → (⟨S1x64x64, .f32⟩ : BufTy).Contents (Elt F)),
    StableHlo.reshape main_v370 main_v371 rfl shapeCasts_S1x64x64_S64x64,
    StableHlo.binary main_v368 main_v371 main_v372 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL3 : List (HloOp τ sig (Elt F)) := opsL3A ++ (opsL3B ++ (opsL3C ++ opsL3T))

abbrev opsL4A : List (HloOp τ sig (Elt F)) :=
  [ StableHlo.nullary main_c_54 (constantI S_ 32 0#32),
    StableHlo.unary main_c_54 main_v373 (broadcastInDim S850000 ![] bcast_S_S850000 : (⟨S_, .i32⟩ : BufTy).Contents (Elt F) → (⟨S850000, .i32⟩ : BufTy).Contents (Elt F)),
    StableHlo.binary main_v3 main_v373 main_v374 (cmpi .slt : (⟨S850000, .i32⟩ : BufTy).Contents (Elt F) → (⟨S850000, .i32⟩ : BufTy).Contents (Elt F) → (⟨S850000, .i1⟩ : BufTy).Contents (Elt F)),
    StableHlo.nullary main_c_55 (constantI S_ 32 50000#32),
    StableHlo.unary main_c_55 main_v375 (broadcastInDim S850000 ![] bcast_S_S850000 : (⟨S_, .i32⟩ : BufTy).Contents (Elt F) → (⟨S850000, .i32⟩ : BufTy).Contents (Elt F)),
    StableHlo.binary main_v3 main_v375 main_v376 (addi : (⟨S850000, .i32⟩ : BufTy).Contents (Elt F) → (⟨S850000, .i32⟩ : BufTy).Contents (Elt F) → (⟨S850000, .i32⟩ : BufTy).Contents (Elt F)),
    StableHlo.ternary main_v374 main_v376 main_v3 main_v377 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v377 main_v378 (broadcastInDim S850000x1 ![0] bcast_S850000_S850000x1_0 : (⟨S850000, .i32⟩ : BufTy).Contents (Elt F) → (⟨S850000x1, .i32⟩ : BufTy).Contents (Elt F)),
    StableHlo.binary main_v372 main_v378 main_v379 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v380 (broadcastInDim S850000x64 ![0, 1] bcast_S850000x1_S850000x64_0_1 : (⟨S850000x1, .f32⟩ : BufTy).Contents (Elt F) → (⟨S850000x64, .f32⟩ : BufTy).Contents (Elt F)),
    StableHlo.binary main_v379 main_v380 main_v381 (mulf : (⟨S850000x64, .f32⟩ : BufTy).Contents (Elt F) → (⟨S850000x64, .f32⟩ : BufTy).Contents (Elt F) → (⟨S850000x64, .f32⟩ : BufTy).Contents (Elt F)),
    StableHlo.nullary main_cst_56 (constant S_ .f32 0x00000000#32),
    StableHlo.unary main_cst_56 main_v382 (broadcastInDim S50000x64 ![] bcast_S_S50000x64 : (⟨S_, .f32⟩ : BufTy).Contents (Elt F) → (⟨S50000x64, .f32⟩ : BufTy).Contents (Elt F)),
    StableHlo.unary main_v6 main_v383 (broadcastInDim S850000x1 ![0] bcast_S850000_S850000x1_0 : (⟨S850000, .i32⟩ : BufTy).Contents (Elt F) → (⟨S850000x1, .i32⟩ : BufTy).Contents (Elt F)),
    StableHlo.ternary main_v382 main_v383 main_v381 main_v384 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v385 ((extractStridedSlice S1x64 ![4, 0] · slices_S8x64_S1x64_4_0) : (⟨S8x64, .f32⟩ : BufTy).Contents (Elt F) → (⟨S1x64, .f32⟩ : BufTy).Contents (Elt F)),
    StableHlo.reshape main_v385 main_v386 rfl shapeCasts_S1x64_S64,
    StableHlo.unary main_v386 main_v387 (broadcastInDim S1x64 ![1] bcast_S64_S1x64_1 : (⟨S64, .f32⟩ : BufTy).Contents (Elt F) → (⟨S1x64, .f32⟩ : BufTy).Contents (Elt F)),
    StableHlo.unary main_v387 main_v388 (broadcastInDim S50000x64 ![0, 1] bcast_S1x64_S50000x64_0_1 : (⟨S1x64, .f32⟩ : BufTy).Contents (Elt F) → (⟨S50000x64, .f32⟩ : BufTy).Contents (Elt F)),
    StableHlo.binary main_v384 main_v388 main_v389 (addf : (⟨S50000x64, .f32⟩ : BufTy).Contents (Elt F) → (⟨S50000x64, .f32⟩ : BufTy).Contents (Elt F) → (⟨S50000x64, .f32⟩ : BufTy).Contents (Elt F)) ]

abbrev opsL4B : List (HloOp τ sig (Elt F)) :=
  [ StableHlo.unary main_arg14 main_v390 ((extractStridedSlice S1x64 ![4, 0] · slices_S8x64_S1x64_4_0) : (⟨S8x64, .f32⟩ : BufTy).Contents (Elt F) → (⟨S1x64, .f32⟩ : BufTy).Contents (Elt F)),
    StableHlo.reshape main_v390 main_v391 rfl shapeCasts_S1x64_S64,
    StableHlo.unary main_arg15 main_v392 ((extractStridedSlice S1x64 ![4, 0] · slices_S8x64_S1x64_4_0) : (⟨S8x64, .f32⟩ : BufTy).Contents (Elt F) → (⟨S1x64, .f32⟩ : BufTy).Contents (Elt F)),
    StableHlo.reshape main_v392 main_v393 rfl shapeCasts_S1x64_S64,
    StableHlo.nullary main_cst_57 (constant S_ .f32 0x00000000#32),
    StableHlo.binary main_v389 main_cst_57 main_v394 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_58 (constant S_ .f32 0x47435000#32),
    StableHlo.unary main_cst_58 main_v395 (broadcastInDim S64 ![] bcast_S_S64 : (⟨S_, .f32⟩ : BufTy).Contents (Elt F) → (⟨S64, .f32⟩ : BufTy).Contents (Elt F)),
    StableHlo.binary main_v394 main_v395 main_v396 (Host.divf : (⟨S64, .f32⟩ : BufTy).Contents (Elt F) → (⟨S64, .f32⟩ : BufTy).Contents (Elt F) → (⟨S64, .f32⟩ : BufTy).Contents (Elt F)),
    StableHlo.nullary main_c_59 (constantI S_ 32 0#32),
    StableHlo.TRef.nullary main_call16.cst (constant S_ .f32 0x00000000#32),
    StableHlo.TRef.binary (.of main_v389 : StableHlo.TRef sig ⟨S50000x64, .f32⟩) main_call16.cst main_call16.v0 (fun x v => Host.reduceAdd x v reducesTo_S50000x64_S64_d0 h_S_),
    StableHlo.TRef.unary main_call16.v0 main_call16.v1 (broadcastInDim S1x64 ![1] bcast_S64_S1x64_1),
    StableHlo.TRef.nullary main_call16.cst_0 (constant S_ .f32 0x47435000#32),
    StableHlo.TRef.unary main_call16.cst_0 main_call16.v2 (broadcastInDim S1x64 ![] bcast_S_S1x64),
    StableHlo.TRef.binary main_call16.v1 main_call16.v2 main_call16.v3 Host.divf,
    StableHlo.TRef.unary main_call16.v3 main_call16.v4 (broadcastInDim S50000x64 ![0, 1] bcast_S1x64_S50000x64_0_1),
    StableHlo.TRef.binary (.of main_v389 : StableHlo.TRef sig ⟨S50000x64, .f32⟩) main_call16.v4 main_call16.v5 subf,
    StableHlo.TRef.binary main_call16.v5 main_call16.v5 main_call16.v6 mulf,
    StableHlo.TRef.unary (.of main_c_59 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x64_S64_d0 h_S_),
    StableHlo.TRef.unary main_call16.v8 main_call16.v10 (broadcastInDim S64 ![] bcast_S_S64),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S64 ![] bcast_S_S64),
    StableHlo.TRef.ternary main_call16.v12 main_call16.v11 main_call16.call0.v1 main_call16.call0.v2 (fun p a b => select (broadcastInDim S64 ![] bcast_S_S64 p) a b),
    StableHlo.unary main_v396 main_v398 (broadcastInDim S1x64 ![1] bcast_S64_S1x64_1 : (⟨S64, .f32⟩ : BufTy).Contents (Elt F) → (⟨S1x64, .f32⟩ : BufTy).Contents (Elt F)),
    StableHlo.unary main_v398 main_v399 (broadcastInDim S50000x64 ![0, 1] bcast_S1x64_S50000x64_0_1 : (⟨S1x64, .f32⟩ : BufTy).Contents (Elt F) → (⟨S50000x64, .f32⟩ : BufTy).Contents (Elt F)),
    StableHlo.binary main_v389 main_v399 main_v400 (subf : (⟨S50000x64, .f32⟩ : BufTy).Contents (Elt F) → (⟨S50000x64, .f32⟩ : BufTy).Contents (Elt F) → (⟨S50000x64, .f32⟩ : BufTy).Contents (Elt F)),
    StableHlo.nullary main_cst_60 (constant S_ .f32 0x3727C5AC#32),
    StableHlo.unary main_cst_60 main_v401 (broadcastInDim S64 ![] bcast_S_S64 : (⟨S_, .f32⟩ : BufTy).Contents (Elt F) → (⟨S64, .f32⟩ : BufTy).Contents (Elt F)),
    StableHlo.binary main_v397 main_v401 main_v402 (addf : (⟨S64, .f32⟩ : BufTy).Contents (Elt F) → (⟨S64, .f32⟩ : BufTy).Contents (Elt F) → (⟨S64, .f32⟩ : BufTy).Contents (Elt F)),
    StableHlo.unary main_v402 main_v403 (Host.rsqrt : (⟨S64, .f32⟩ : BufTy).Contents (Elt F) → (⟨S64, .f32⟩ : BufTy).Contents (Elt F)),
    StableHlo.unary main_v403 main_v404 (broadcastInDim S1x64 ![1] bcast_S64_S1x64_1 : (⟨S64, .f32⟩ : BufTy).Contents (Elt F) → (⟨S1x64, .f32⟩ : BufTy).Contents (Elt F)),
    StableHlo.unary main_v404 main_v405 (broadcastInDim S50000x64 ![0, 1] bcast_S1x64_S50000x64_0_1 : (⟨S1x64, .f32⟩ : BufTy).Contents (Elt F) → (⟨S50000x64, .f32⟩ : BufTy).Contents (Elt F)),
    StableHlo.binary main_v400 main_v405 main_v406 (mulf : (⟨S50000x64, .f32⟩ : BufTy).Contents (Elt F) → (⟨S50000x64, .f32⟩ : BufTy).Contents (Elt F) → (⟨S50000x64, .f32⟩ : BufTy).Contents (Elt F)),
    StableHlo.unary main_v391 main_v407 (broadcastInDim S1x64 ![1] bcast_S64_S1x64_1 : (⟨S64, .f32⟩ : BufTy).Contents (Elt F) → (⟨S1x64, .f32⟩ : BufTy).Contents (Elt F)),
    StableHlo.unary main_v407 main_v408 (broadcastInDim S50000x64 ![0, 1] bcast_S1x64_S50000x64_0_1 : (⟨S1x64, .f32⟩ : BufTy).Contents (Elt F) → (⟨S50000x64, .f32⟩ : BufTy).Contents (Elt F)),
    StableHlo.binary main_v406 main_v408 main_v409 (mulf : (⟨S50000x64, .f32⟩ : BufTy).Contents (Elt F) → (⟨S50000x64, .f32⟩ : BufTy).Contents (Elt F) → (⟨S50000x64, .f32⟩ : BufTy).Contents (Elt F)),
    StableHlo.unary main_v393 main_v410 (broadcastInDim S1x64 ![1] bcast_S64_S1x64_1 : (⟨S64, .f32⟩ : BufTy).Contents (Elt F) → (⟨S1x64, .f32⟩ : BufTy).Contents (Elt F)),
    StableHlo.unary main_v410 main_v411 (broadcastInDim S50000x64 ![0, 1] bcast_S1x64_S50000x64_0_1 : (⟨S1x64, .f32⟩ : BufTy).Contents (Elt F) → (⟨S50000x64, .f32⟩ : BufTy).Contents (Elt F)),
    StableHlo.binary main_v409 main_v411 main_v412 (addf : (⟨S50000x64, .f32⟩ : BufTy).Contents (Elt F) → (⟨S50000x64, .f32⟩ : BufTy).Contents (Elt F) → (⟨S50000x64, .f32⟩ : BufTy).Contents (Elt F)),
    StableHlo.TRef.nullary main_call17.cst (constant S_ .f32 0x00000000#32),
    StableHlo.TRef.unary main_call17.cst main_call17.v0 (broadcastInDim S50000x64 ![] bcast_S_S50000x64),
    StableHlo.TRef.binary (.of main_v412 : StableHlo.TRef sig ⟨S50000x64, .f32⟩) main_call17.v0 main_call17.v1 maximumf ]

abbrev opsL4C : List (HloOp τ sig (Elt F)) :=
  [ StableHlo.binary main_v413 main_v369 main_v414 (subf : (⟨S50000x64, .f32⟩ : BufTy).Contents (Elt F) → (⟨S50000x64, .f32⟩ : BufTy).Contents (Elt F) → (⟨S50000x64, .f32⟩ : BufTy).Contents (Elt F)),
    StableHlo.unary main_arg8 main_v415 ((extractStridedSlice S1x64x4 ![5, 0, 0] · slices_S9x64x4_S1x64x4_5_0_0) : (⟨S9x64x4, .f32⟩ : BufTy).Contents (Elt F) → (⟨S1x64x4, .f32⟩ : BufTy).Contents (Elt F)),
    StableHlo.reshape main_v415 main_v416 rfl shapeCasts_S1x64x4_S64x4,
    StableHlo.unary main_arg9 main_v417 ((extractStridedSlice S1x4 ![5, 0] · slices_S9x4_S1x4_5_0) : (⟨S9x4, .f32⟩ : BufTy).Contents (Elt F) → (⟨S1x4, .f32⟩ : BufTy).Contents (Elt F)),
    StableHlo.reshape main_v417 main_v418 rfl shapeCasts_S1x4_S4,
    StableHlo.unary main_arg10 main_v419 ((extractStridedSlice S1x4x1 ![5, 0, 0] · slices_S9x4x1_S1x4x1_5_0_0) : (⟨S9x4x1, .f32⟩ : BufTy).Contents (Elt F) → (⟨S1x4x1, .f32⟩ : BufTy).Contents (Elt F)),
    StableHlo.reshape main_v419 main_v420 rfl shapeCasts_S1x4x1_S4x1,
    StableHlo.unary main_arg11 main_v421 ((extractStridedSlice S1x1 ![5, 0] · slices_S9x1_S1x1_5_0) : (⟨S9x1, .f32⟩ : BufTy).Contents (Elt F) → (⟨S1x1, .f32⟩ : BufTy).Contents (Elt F)),
    StableHlo.reshape main_v421 main_v422 rfl shapeCasts_S1x1_S1,
    StableHlo.binary main_v414 main_v416 main_v423 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v418 main_v424 (broadcastInDim S1x4 ![1] bcast_S4_S1x4_1 : (⟨S4, .f32⟩ : BufTy).Contents (Elt F) → (⟨S1x4, .f32⟩ : BufTy).Contents (Elt F)),
    StableHlo.unary main_v424 main_v425 (broadcastInDim S50000x4 ![0, 1] bcast_S1x4_S50000x4_0_1 : (⟨S1x4, .f32⟩ : BufTy).Contents (Elt F) → (⟨S50000x4, .f32⟩ : BufTy).Contents (Elt F)),
    StableHlo.binary main_v423 main_v425 main_v426 (addf : (⟨S50000x4, .f32⟩ : BufTy).Contents (Elt F) → (⟨S50000x4, .f32⟩ : BufTy).Contents (Elt F) → (⟨S50000x4, .f32⟩ : BufTy).Contents (Elt F)),
    StableHlo.nullary main_cst_61 (constant S_ .f32 0x3E4CCCCD#32),
    StableHlo.TRef.nullary main_call18.cst (constant S_ .f32 0x00000000#32),
    StableHlo.TRef.unary main_call18.cst main_call18.v0 (broadcastInDim S50000x4 ![] bcast_S_S50000x4),
    StableHlo.TRef.binary (.of main_v426 : StableHlo.TRef sig ⟨S50000x4, .f32⟩) main_call18.v0 main_call18.v1 (cmpf .oge),
    StableHlo.TRef.unary (.of main_cst_61 : StableHlo.TRef sig ⟨S_, .f32⟩) main_call18.v2 id,
    StableHlo.TRef.unary main_call18.v2 main_call18.v3 (broadcastInDim S50000x4 ![] bcast_S_S50000x4),
    StableHlo.TRef.binary main_call18.v3 (.of main_v426 : StableHlo.TRef sig ⟨S50000x4, .f32⟩) main_call18.v4 mulf,
    StableHlo.TRef.ternary main_call18.v1 (.of main_v426 : StableHlo.TRef sig ⟨S50000x4, .f32⟩) main_call18.v4 main_call18.call0.v0 select,
    StableHlo.binary main_v427 main_v420 main_v428 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v422 main_v429 (broadcastInDim S1x1 ![1] bcast_S1_S1x1_1 : (⟨S1, .f32⟩ : BufTy).Contents (Elt F) → (⟨S1x1, .f32⟩ : BufTy).Contents (Elt F)),
    StableHlo.unary main_v429 main_v430 (broadcastInDim S50000x1 ![0, 1] bcast_S1x1_S50000x1_0_1 : (⟨S1x1, .f32⟩ : BufTy).Contents (Elt F) → (⟨S50000x1, .f32⟩ : BufTy).Contents (Elt F)),
    StableHlo.binary main_v428 main_v430 main_v431 (addf : (⟨S50000x1, .f32⟩ : BufTy).Contents (Elt F) → (⟨S50000x1, .f32⟩ : BufTy).Contents (Elt F) → (⟨S50000x1, .f32⟩ : BufTy).Contents (Elt F)),
    StableHlo.unary main_v431 main_v432 (Host.negf : (⟨S50000x1, .f32⟩ : BufTy).Contents (Elt F) → (⟨S50000x1, .f32⟩ : BufTy).Contents (Elt F)),
    StableHlo.unary main_v432 main_v433 (Host.exp : (⟨S50000x1, .f32⟩ : BufTy).Contents (Elt F) → (⟨S50000x1, .f32⟩ : BufTy).Contents (Elt F)),
    StableHlo.nullary main_cst_62 (constant S_ .f32 0x3F800000#32),
    StableHlo.unary main_cst_62 main_v434 (broadcastInDim S50000x1 ![] bcast_S_S50000x1 : (⟨S_, .f32⟩ : BufTy).Contents (Elt F) → (⟨S50000x1, .f32⟩ : BufTy).Contents (Elt F)),
    StableHlo.binary main_v434 main_v433 main_v435 (addf : (⟨S50000x1, .f32⟩ : BufTy).Contents (Elt F) → (⟨S50000x1, .f32⟩ : BufTy).Contents (Elt F) → (⟨S50000x1, .f32⟩ : BufTy).Contents (Elt F)),
    StableHlo.nullary main_cst_63 (constant S_ .f32 0x3F800000#32),
    StableHlo.unary main_cst_63 main_v436 (broadcastInDim S50000x1 ![] bcast_S_S50000x1 : (⟨S_, .f32⟩ : BufTy).Contents (Elt F) → (⟨S50000x1, .f32⟩ : BufTy).Contents (Elt F)),
    StableHlo.binary main_v436 main_v435 main_v437 (Host.divf : (⟨S50000x1, .f32⟩ : BufTy).Contents (Elt F) → (⟨S50000x1, .f32⟩ : BufTy).Contents (Elt F) → (⟨S50000x1, .f32⟩ : BufTy).Contents (Elt F)),
    StableHlo.unary main_v437 main_v438 (broadcastInDim S50000x64 ![0, 1] bcast_S50000x1_S50000x64_0_1 : (⟨S50000x1, .f32⟩ : BufTy).Contents (Elt F) → (⟨S50000x64, .f32⟩ : BufTy).Contents (Elt F)),
    StableHlo.binary main_v413 main_v438 main_v439 (mulf : (⟨S50000x64, .f32⟩ : BufTy).Contents (Elt F) → (⟨S50000x64, .f32⟩ : BufTy).Contents (Elt F) → (⟨S50000x64, .f32⟩ : BufTy).Contents (Elt F)),
    StableHlo.binary main_v369 main_v439 main_v440 (addf : (⟨S50000x64, .f32⟩ : BufTy).Contents (Elt F) → (⟨S50000x64, .f32⟩ : BufTy).Contents (Elt F) → (⟨S50000x64, .f32⟩ : BufTy).Contents (Elt F)) ]

abbrev opsL4T : List (HloOp τ sig (Elt F)) :=
  [ StableHlo.unary main_arg12 main_v441 ((extractStridedSlice S1x64x64 ![5, 0, 0] · slices_S8x64x64_S1x64x64_5_0_0) : (⟨S8x64x64, .f32⟩ : BufTy).Contents (Elt F) → (⟨S1x64x64, .f32⟩ : BufTy).Contents (Elt F)),
    StableHlo.reshape main_v441 main_v442 rfl shapeCasts_S1x64x64_S64x64,
    StableHlo.binary main_v439 main_v442 main_v443 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL4 : List (HloOp τ sig (Elt F)) := opsL4A ++ (opsL4B ++ (opsL4C ++ opsL4T))

abbrev opsL5A : List (HloOp τ sig (Elt F)) :=
  [ StableHlo.nullary main_c_64 (constantI S_ 32 0#32),
    StableHlo.unary main_c_64 main_v444 (broadcastInDim S850000 ![] bcast_S_S850000 : (⟨S_, .i32⟩ : BufTy).Contents (Elt F) → (⟨S850000, .i32⟩ : BufTy).Contents (Elt F)),
    StableHlo.binary main_v3 main_v444 main_v445 (cmpi .slt : (⟨S850000, .i32⟩ : BufTy).Contents (Elt F) → (⟨S850000, .i32⟩ : BufTy).Contents (Elt F) → (⟨S850000, .i1⟩ : BufTy).Contents (Elt F)),
    StableHlo.nullary main_c_65 (constantI S_ 32 50000#32),
    StableHlo.unary main_c_65 main_v446 (broadcastInDim S850000 ![] bcast_S_S850000 : (⟨S_, .i32⟩ : BufTy).Contents (Elt F) → (⟨S850000, .i32⟩ : BufTy).Contents (Elt F)),
    StableHlo.binary main_v3 main_v446 main_v447 (addi : (⟨S850000, .i32⟩ : BufTy).Contents (Elt F) → (⟨S850000, .i32⟩ : BufTy).Contents (Elt F) → (⟨S850000, .i32⟩ : BufTy).Contents (Elt F)),
    StableHlo.ternary main_v445 main_v447 main_v3 main_v448 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v448 main_v449 (broadcastInDim S850000x1 ![0] bcast_S850000_S850000x1_0 : (⟨S850000, .i32⟩ : BufTy).Contents (Elt F) → (⟨S850000x1, .i32⟩ : BufTy).Contents (Elt F)),
    StableHlo.binary main_v443 main_v449 main_v450 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v451 (broadcastInDim S850000x64 ![0, 1] bcast_S850000x1_S850000x64_0_1 : (⟨S850000x1, .f32⟩ : BufTy).Contents (Elt F) → (⟨S850000x64, .f32⟩ : BufTy).Contents (Elt F)),
    StableHlo.binary main_v450 main_v451 main_v452 (mulf : (⟨S850000x64, .f32⟩ : BufTy).Contents (Elt F) → (⟨S850000x64, .f32⟩ : BufTy).Contents (Elt F) → (⟨S850000x64, .f32⟩ : BufTy).Contents (Elt F)),
    StableHlo.nullary main_cst_66 (constant S_ .f32 0x00000000#32),
    StableHlo.unary main_cst_66 main_v453 (broadcastInDim S50000x64 ![] bcast_S_S50000x64 : (⟨S_, .f32⟩ : BufTy).Contents (Elt F) → (⟨S50000x64, .f32⟩ : BufTy).Contents (Elt F)),
    StableHlo.unary main_v6 main_v454 (broadcastInDim S850000x1 ![0] bcast_S850000_S850000x1_0 : (⟨S850000, .i32⟩ : BufTy).Contents (Elt F) → (⟨S850000x1, .i32⟩ : BufTy).Contents (Elt F)),
    StableHlo.ternary main_v453 main_v454 main_v452 main_v455 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v456 ((extractStridedSlice S1x64 ![5, 0] · slices_S8x64_S1x64_5_0) : (⟨S8x64, .f32⟩ : BufTy).Contents (Elt F) → (⟨S1x64, .f32⟩ : BufTy).Contents (Elt F)),
    StableHlo.reshape main_v456 main_v457 rfl shapeCasts_S1x64_S64,
    StableHlo.unary main_v457 main_v458 (broadcastInDim S1x64 ![1] bcast_S64_S1x64_1 : (⟨S64, .f32⟩ : BufTy).Contents (Elt F) → (⟨S1x64, .f32⟩ : BufTy).Contents (Elt F)),
    StableHlo.unary main_v458 main_v459 (broadcastInDim S50000x64 ![0, 1] bcast_S1x64_S50000x64_0_1 : (⟨S1x64, .f32⟩ : BufTy).Contents (Elt F) → (⟨S50000x64, .f32⟩ : BufTy).Contents (Elt F)),
    StableHlo.binary main_v455 main_v459 main_v460 (addf : (⟨S50000x64, .f32⟩ : BufTy).Contents (Elt F) → (⟨S50000x64, .f32⟩ : BufTy).Contents (Elt F) → (⟨S50000x64, .f32⟩ : BufTy).Contents (Elt F)) ]

abbrev opsL5B : List (HloOp τ sig (Elt F)) :=
  [ StableHlo.unary main_arg14 main_v461 ((extractStridedSlice S1x64 ![5, 0] · slices_S8x64_S1x64_5_0) : (⟨S8x64, .f32⟩ : BufTy).Contents (Elt F) → (⟨S1x64, .f32⟩ : BufTy).Contents (Elt F)),
    StableHlo.reshape main_v461 main_v462 rfl shapeCasts_S1x64_S64,
    StableHlo.unary main_arg15 main_v463 ((extractStridedSlice S1x64 ![5, 0] · slices_S8x64_S1x64_5_0) : (⟨S8x64, .f32⟩ : BufTy).Contents (Elt F) → (⟨S1x64, .f32⟩ : BufTy).Contents (Elt F)),
    StableHlo.reshape main_v463 main_v464 rfl shapeCasts_S1x64_S64,
    StableHlo.nullary main_cst_67 (constant S_ .f32 0x00000000#32),
    StableHlo.binary main_v460 main_cst_67 main_v465 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_68 (constant S_ .f32 0x47435000#32),
    StableHlo.unary main_cst_68 main_v466 (broadcastInDim S64 ![] bcast_S_S64 : (⟨S_, .f32⟩ : BufTy).Contents (Elt F) → (⟨S64, .f32⟩ : BufTy).Contents (Elt F)),
    StableHlo.binary main_v465 main_v466 main_v467 (Host.divf : (⟨S64, .f32⟩ : BufTy).Contents (Elt F) → (⟨S64, .f32⟩ : BufTy).Contents (Elt F) → (⟨S64, .f32⟩ : BufTy).Contents (Elt F)),
    StableHlo.nullary main_c_69 (constantI S_ 32 0#32),
    StableHlo.TRef.nullary main_call19.cst (constant S_ .f32 0x00000000#32),
    StableHlo.TRef.binary (.of main_v460 : StableHlo.TRef sig ⟨S50000x64, .f32⟩) main_call19.cst main_call19.v0 (fun x v => Host.reduceAdd x v reducesTo_S50000x64_S64_d0 h_S_),
    StableHlo.TRef.unary main_call19.v0 main_call19.v1 (broadcastInDim S1x64 ![1] bcast_S64_S1x64_1),
    StableHlo.TRef.nullary main_call19.cst_0 (constant S_ .f32 0x47435000#32),
    StableHlo.TRef.unary main_call19.cst_0 main_call19.v2 (broadcastInDim S1x64 ![] bcast_S_S1x64),
    StableHlo.TRef.binary main_call19.v1 main_call19.v2 main_call19.v3 Host.divf,
    StableHlo.TRef.unary main_call19.v3 main_call19.v4 (broadcastInDim S50000x64 ![0, 1] bcast_S1x64_S50000x64_0_1),
    StableHlo.TRef.binary (.of main_v460 : StableHlo.TRef sig ⟨S50000x64, .f32⟩) main_call19.v4 main_call19.v5 subf,
    StableHlo.TRef.binary main_call19.v5 main_call19.v5 main_call19.v6 mulf,
    StableHlo.TRef.unary (.of main_c_69 : StableHlo.TRef sig ⟨S_, .i32⟩) main_call19.v7 (sitofp .f32),
    StableHlo.TRef.nullary main_call19.cst_1 (constant S_ .f32 0x47435000#32),
    StableHlo.TRef.binary main_call19.cst_1 main_call19.v7 main_call19.v8 subf,
    StableHlo.TRef.nullary main_call19.cst_2 (constant S_ .f32 0x00000000#32),
    StableHlo.TRef.binary main_call19.v6 main_call19.cst_2 main_call19.v9 (fun x v => Host.reduceAdd x v reducesTo_S50000x64_S64_d0 h_S_),
    StableHlo.TRef.unary main_call19.v8 main_call19.v10 (broadcastInDim S64 ![] bcast_S_S64),
    StableHlo.TRef.binary main_call19.v9 main_call19.v10 main_call19.v11 Host.divf,
    StableHlo.TRef.nullary main_call19.cst_3 (constant S_ .f32 0x00000000#32),
    StableHlo.TRef.binary main_call19.v8 main_call19.cst_3 main_call19.v12 (cmpf .ogt),
    StableHlo.TRef.nullary main_call19.cst_4 (constant S_ .f32 0x7FC00000#32),
    StableHlo.TRef.unary main_call19.cst_4 main_call19.call0.v0 id,
    StableHlo.TRef.unary main_call19.call0.v0 main_call19.call0.v1 (broadcastInDim S64 ![] bcast_S_S64),
    StableHlo.TRef.ternary main_call19.v12 main_call19.v11 main_call19.call0.v1 main_call19.call0.v2 (fun p a b => select (broadcastInDim S64 ![] bcast_S_S64 p) a b),
    StableHlo.unary main_v467 main_v469 (broadcastInDim S1x64 ![1] bcast_S64_S1x64_1 : (⟨S64, .f32⟩ : BufTy).Contents (Elt F) → (⟨S1x64, .f32⟩ : BufTy).Contents (Elt F)),
    StableHlo.unary main_v469 main_v470 (broadcastInDim S50000x64 ![0, 1] bcast_S1x64_S50000x64_0_1 : (⟨S1x64, .f32⟩ : BufTy).Contents (Elt F) → (⟨S50000x64, .f32⟩ : BufTy).Contents (Elt F)),
    StableHlo.binary main_v460 main_v470 main_v471 (subf : (⟨S50000x64, .f32⟩ : BufTy).Contents (Elt F) → (⟨S50000x64, .f32⟩ : BufTy).Contents (Elt F) → (⟨S50000x64, .f32⟩ : BufTy).Contents (Elt F)),
    StableHlo.nullary main_cst_70 (constant S_ .f32 0x3727C5AC#32),
    StableHlo.unary main_cst_70 main_v472 (broadcastInDim S64 ![] bcast_S_S64 : (⟨S_, .f32⟩ : BufTy).Contents (Elt F) → (⟨S64, .f32⟩ : BufTy).Contents (Elt F)),
    StableHlo.binary main_v468 main_v472 main_v473 (addf : (⟨S64, .f32⟩ : BufTy).Contents (Elt F) → (⟨S64, .f32⟩ : BufTy).Contents (Elt F) → (⟨S64, .f32⟩ : BufTy).Contents (Elt F)),
    StableHlo.unary main_v473 main_v474 (Host.rsqrt : (⟨S64, .f32⟩ : BufTy).Contents (Elt F) → (⟨S64, .f32⟩ : BufTy).Contents (Elt F)),
    StableHlo.unary main_v474 main_v475 (broadcastInDim S1x64 ![1] bcast_S64_S1x64_1 : (⟨S64, .f32⟩ : BufTy).Contents (Elt F) → (⟨S1x64, .f32⟩ : BufTy).Contents (Elt F)),
    StableHlo.unary main_v475 main_v476 (broadcastInDim S50000x64 ![0, 1] bcast_S1x64_S50000x64_0_1 : (⟨S1x64, .f32⟩ : BufTy).Contents (Elt F) → (⟨S50000x64, .f32⟩ : BufTy).Contents (Elt F)),
    StableHlo.binary main_v471 main_v476 main_v477 (mulf : (⟨S50000x64, .f32⟩ : BufTy).Contents (Elt F) → (⟨S50000x64, .f32⟩ : BufTy).Contents (Elt F) → (⟨S50000x64, .f32⟩ : BufTy).Contents (Elt F)),
    StableHlo.unary main_v462 main_v478 (broadcastInDim S1x64 ![1] bcast_S64_S1x64_1 : (⟨S64, .f32⟩ : BufTy).Contents (Elt F) → (⟨S1x64, .f32⟩ : BufTy).Contents (Elt F)),
    StableHlo.unary main_v478 main_v479 (broadcastInDim S50000x64 ![0, 1] bcast_S1x64_S50000x64_0_1 : (⟨S1x64, .f32⟩ : BufTy).Contents (Elt F) → (⟨S50000x64, .f32⟩ : BufTy).Contents (Elt F)),
    StableHlo.binary main_v477 main_v479 main_v480 (mulf : (⟨S50000x64, .f32⟩ : BufTy).Contents (Elt F) → (⟨S50000x64, .f32⟩ : BufTy).Contents (Elt F) → (⟨S50000x64, .f32⟩ : BufTy).Contents (Elt F)),
    StableHlo.unary main_v464 main_v481 (broadcastInDim S1x64 ![1] bcast_S64_S1x64_1 : (⟨S64, .f32⟩ : BufTy).Contents (Elt F) → (⟨S1x64, .f32⟩ : BufTy).Contents (Elt F)),
    StableHlo.unary main_v481 main_v482 (broadcastInDim S50000x64 ![0, 1] bcast_S1x64_S50000x64_0_1 : (⟨S1x64, .f32⟩ : BufTy).Contents (Elt F) → (⟨S50000x64, .f32⟩ : BufTy).Contents (Elt F)),
    StableHlo.binary main_v480 main_v482 main_v483 (addf : (⟨S50000x64, .f32⟩ : BufTy).Contents (Elt F) → (⟨S50000x64, .f32⟩ : BufTy).Contents (Elt F) → (⟨S50000x64, .f32⟩ : BufTy).Contents (Elt F)),
    StableHlo.TRef.nullary main_call20.cst (constant S_ .f32 0x00000000#32),
    StableHlo.TRef.unary main_call20.cst main_call20.v0 (broadcastInDim S50000x64 ![] bcast_S_S50000x64),
    StableHlo.TRef.binary (.of main_v483 : StableHlo.TRef sig ⟨S50000x64, .f32⟩) main_call20.v0 main_call20.v1 maximumf ]

abbrev opsL5C : List (HloOp τ sig (Elt F)) :=
  [ StableHlo.binary main_v484 main_v440 main_v485 (subf : (⟨S50000x64, .f32⟩ : BufTy).Contents (Elt F) → (⟨S50000x64, .f32⟩ : BufTy).Contents (Elt F) → (⟨S50000x64, .f32⟩ : BufTy).Contents (Elt F)),
    StableHlo.unary main_arg8 main_v486 ((extractStridedSlice S1x64x4 ![6, 0, 0] · slices_S9x64x4_S1x64x4_6_0_0) : (⟨S9x64x4, .f32⟩ : BufTy).Contents (Elt F) → (⟨S1x64x4, .f32⟩ : BufTy).Contents (Elt F)),
    StableHlo.reshape main_v486 main_v487 rfl shapeCasts_S1x64x4_S64x4,
    StableHlo.unary main_arg9 main_v488 ((extractStridedSlice S1x4 ![6, 0] · slices_S9x4_S1x4_6_0) : (⟨S9x4, .f32⟩ : BufTy).Contents (Elt F) → (⟨S1x4, .f32⟩ : BufTy).Contents (Elt F)),
    StableHlo.reshape main_v488 main_v489 rfl shapeCasts_S1x4_S4,
    StableHlo.unary main_arg10 main_v490 ((extractStridedSlice S1x4x1 ![6, 0, 0] · slices_S9x4x1_S1x4x1_6_0_0) : (⟨S9x4x1, .f32⟩ : BufTy).Contents (Elt F) → (⟨S1x4x1, .f32⟩ : BufTy).Contents (Elt F)),
    StableHlo.reshape main_v490 main_v491 rfl shapeCasts_S1x4x1_S4x1,
    StableHlo.unary main_arg11 main_v492 ((extractStridedSlice S1x1 ![6, 0] · slices_S9x1_S1x1_6_0) : (⟨S9x1, .f32⟩ : BufTy).Contents (Elt F) → (⟨S1x1, .f32⟩ : BufTy).Contents (Elt F)),
    StableHlo.reshape main_v492 main_v493 rfl shapeCasts_S1x1_S1,
    StableHlo.binary main_v485 main_v487 main_v494 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v489 main_v495 (broadcastInDim S1x4 ![1] bcast_S4_S1x4_1 : (⟨S4, .f32⟩ : BufTy).Contents (Elt F) → (⟨S1x4, .f32⟩ : BufTy).Contents (Elt F)),
    StableHlo.unary main_v495 main_v496 (broadcastInDim S50000x4 ![0, 1] bcast_S1x4_S50000x4_0_1 : (⟨S1x4, .f32⟩ : BufTy).Contents (Elt F) → (⟨S50000x4, .f32⟩ : BufTy).Contents (Elt F)),
    StableHlo.binary main_v494 main_v496 main_v497 (addf : (⟨S50000x4, .f32⟩ : BufTy).Contents (Elt F) → (⟨S50000x4, .f32⟩ : BufTy).Contents (Elt F) → (⟨S50000x4, .f32⟩ : BufTy).Contents (Elt F)),
    StableHlo.nullary main_cst_71 (constant S_ .f32 0x3E4CCCCD#32),
    StableHlo.TRef.nullary main_call21.cst (constant S_ .f32 0x00000000#32),
    StableHlo.TRef.unary main_call21.cst main_call21.v0 (broadcastInDim S50000x4 ![] bcast_S_S50000x4),
    StableHlo.TRef.binary (.of main_v497 : StableHlo.TRef sig ⟨S50000x4, .f32⟩) main_call21.v0 main_call21.v1 (cmpf .oge),
    StableHlo.TRef.unary (.of main_cst_71 : StableHlo.TRef sig ⟨S_, .f32⟩) main_call21.v2 id,
    StableHlo.TRef.unary main_call21.v2 main_call21.v3 (broadcastInDim S50000x4 ![] bcast_S_S50000x4),
    StableHlo.TRef.binary main_call21.v3 (.of main_v497 : StableHlo.TRef sig ⟨S50000x4, .f32⟩) main_call21.v4 mulf,
    StableHlo.TRef.ternary main_call21.v1 (.of main_v497 : StableHlo.TRef sig ⟨S50000x4, .f32⟩) main_call21.v4 main_call21.call0.v0 select,
    StableHlo.binary main_v498 main_v491 main_v499 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v493 main_v500 (broadcastInDim S1x1 ![1] bcast_S1_S1x1_1 : (⟨S1, .f32⟩ : BufTy).Contents (Elt F) → (⟨S1x1, .f32⟩ : BufTy).Contents (Elt F)),
    StableHlo.unary main_v500 main_v501 (broadcastInDim S50000x1 ![0, 1] bcast_S1x1_S50000x1_0_1 : (⟨S1x1, .f32⟩ : BufTy).Contents (Elt F) → (⟨S50000x1, .f32⟩ : BufTy).Contents (Elt F)),
    StableHlo.binary main_v499 main_v501 main_v502 (addf : (⟨S50000x1, .f32⟩ : BufTy).Contents (Elt F) → (⟨S50000x1, .f32⟩ : BufTy).Contents (Elt F) → (⟨S50000x1, .f32⟩ : BufTy).Contents (Elt F)),
    StableHlo.unary main_v502 main_v503 (Host.negf : (⟨S50000x1, .f32⟩ : BufTy).Contents (Elt F) → (⟨S50000x1, .f32⟩ : BufTy).Contents (Elt F)),
    StableHlo.unary main_v503 main_v504 (Host.exp : (⟨S50000x1, .f32⟩ : BufTy).Contents (Elt F) → (⟨S50000x1, .f32⟩ : BufTy).Contents (Elt F)),
    StableHlo.nullary main_cst_72 (constant S_ .f32 0x3F800000#32),
    StableHlo.unary main_cst_72 main_v505 (broadcastInDim S50000x1 ![] bcast_S_S50000x1 : (⟨S_, .f32⟩ : BufTy).Contents (Elt F) → (⟨S50000x1, .f32⟩ : BufTy).Contents (Elt F)),
    StableHlo.binary main_v505 main_v504 main_v506 (addf : (⟨S50000x1, .f32⟩ : BufTy).Contents (Elt F) → (⟨S50000x1, .f32⟩ : BufTy).Contents (Elt F) → (⟨S50000x1, .f32⟩ : BufTy).Contents (Elt F)),
    StableHlo.nullary main_cst_73 (constant S_ .f32 0x3F800000#32),
    StableHlo.unary main_cst_73 main_v507 (broadcastInDim S50000x1 ![] bcast_S_S50000x1 : (⟨S_, .f32⟩ : BufTy).Contents (Elt F) → (⟨S50000x1, .f32⟩ : BufTy).Contents (Elt F)),
    StableHlo.binary main_v507 main_v506 main_v508 (Host.divf : (⟨S50000x1, .f32⟩ : BufTy).Contents (Elt F) → (⟨S50000x1, .f32⟩ : BufTy).Contents (Elt F) → (⟨S50000x1, .f32⟩ : BufTy).Contents (Elt F)),
    StableHlo.unary main_v508 main_v509 (broadcastInDim S50000x64 ![0, 1] bcast_S50000x1_S50000x64_0_1 : (⟨S50000x1, .f32⟩ : BufTy).Contents (Elt F) → (⟨S50000x64, .f32⟩ : BufTy).Contents (Elt F)),
    StableHlo.binary main_v484 main_v509 main_v510 (mulf : (⟨S50000x64, .f32⟩ : BufTy).Contents (Elt F) → (⟨S50000x64, .f32⟩ : BufTy).Contents (Elt F) → (⟨S50000x64, .f32⟩ : BufTy).Contents (Elt F)),
    StableHlo.binary main_v440 main_v510 main_v511 (addf : (⟨S50000x64, .f32⟩ : BufTy).Contents (Elt F) → (⟨S50000x64, .f32⟩ : BufTy).Contents (Elt F) → (⟨S50000x64, .f32⟩ : BufTy).Contents (Elt F)) ]

abbrev opsL5T : List (HloOp τ sig (Elt F)) :=
  [ StableHlo.unary main_arg12 main_v512 ((extractStridedSlice S1x64x64 ![6, 0, 0] · slices_S8x64x64_S1x64x64_6_0_0) : (⟨S8x64x64, .f32⟩ : BufTy).Contents (Elt F) → (⟨S1x64x64, .f32⟩ : BufTy).Contents (Elt F)),
    StableHlo.reshape main_v512 main_v513 rfl shapeCasts_S1x64x64_S64x64,
    StableHlo.binary main_v510 main_v513 main_v514 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL5 : List (HloOp τ sig (Elt F)) := opsL5A ++ (opsL5B ++ (opsL5C ++ opsL5T))

abbrev opsL6A : List (HloOp τ sig (Elt F)) :=
  [ StableHlo.nullary main_c_74 (constantI S_ 32 0#32),
    StableHlo.unary main_c_74 main_v515 (broadcastInDim S850000 ![] bcast_S_S850000 : (⟨S_, .i32⟩ : BufTy).Contents (Elt F) → (⟨S850000, .i32⟩ : BufTy).Contents (Elt F)),
    StableHlo.binary main_v3 main_v515 main_v516 (cmpi .slt : (⟨S850000, .i32⟩ : BufTy).Contents (Elt F) → (⟨S850000, .i32⟩ : BufTy).Contents (Elt F) → (⟨S850000, .i1⟩ : BufTy).Contents (Elt F)),
    StableHlo.nullary main_c_75 (constantI S_ 32 50000#32),
    StableHlo.unary main_c_75 main_v517 (broadcastInDim S850000 ![] bcast_S_S850000 : (⟨S_, .i32⟩ : BufTy).Contents (Elt F) → (⟨S850000, .i32⟩ : BufTy).Contents (Elt F)),
    StableHlo.binary main_v3 main_v517 main_v518 (addi : (⟨S850000, .i32⟩ : BufTy).Contents (Elt F) → (⟨S850000, .i32⟩ : BufTy).Contents (Elt F) → (⟨S850000, .i32⟩ : BufTy).Contents (Elt F)),
    StableHlo.ternary main_v516 main_v518 main_v3 main_v519 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v519 main_v520 (broadcastInDim S850000x1 ![0] bcast_S850000_S850000x1_0 : (⟨S850000, .i32⟩ : BufTy).Contents (Elt F) → (⟨S850000x1, .i32⟩ : BufTy).Contents (Elt F)),
    StableHlo.binary main_v514 main_v520 main_v521 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v522 (broadcastInDim S850000x64 ![0, 1] bcast_S850000x1_S850000x64_0_1 : (⟨S850000x1, .f32⟩ : BufTy).Contents (Elt F) → (⟨S850000x64, .f32⟩ : BufTy).Contents (Elt F)),
    StableHlo.binary main_v521 main_v522 main_v523 (mulf : (⟨S850000x64, .f32⟩ : BufTy).Contents (Elt F) → (⟨S850000x64, .f32⟩ : BufTy).Contents (Elt F) → (⟨S850000x64, .f32⟩ : BufTy).Contents (Elt F)),
    StableHlo.nullary main_cst_76 (constant S_ .f32 0x00000000#32),
    StableHlo.unary main_cst_76 main_v524 (broadcastInDim S50000x64 ![] bcast_S_S50000x64 : (⟨S_, .f32⟩ : BufTy).Contents (Elt F) → (⟨S50000x64, .f32⟩ : BufTy).Contents (Elt F)),
    StableHlo.unary main_v6 main_v525 (broadcastInDim S850000x1 ![0] bcast_S850000_S850000x1_0 : (⟨S850000, .i32⟩ : BufTy).Contents (Elt F) → (⟨S850000x1, .i32⟩ : BufTy).Contents (Elt F)),
    StableHlo.ternary main_v524 main_v525 main_v523 main_v526 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v527 ((extractStridedSlice S1x64 ![6, 0] · slices_S8x64_S1x64_6_0) : (⟨S8x64, .f32⟩ : BufTy).Contents (Elt F) → (⟨S1x64, .f32⟩ : BufTy).Contents (Elt F)),
    StableHlo.reshape main_v527 main_v528 rfl shapeCasts_S1x64_S64,
    StableHlo.unary main_v528 main_v529 (broadcastInDim S1x64 ![1] bcast_S64_S1x64_1 : (⟨S64, .f32⟩ : BufTy).Contents (Elt F) → (⟨S1x64, .f32⟩ : BufTy).Contents (Elt F)),
    StableHlo.unary main_v529 main_v530 (broadcastInDim S50000x64 ![0, 1] bcast_S1x64_S50000x64_0_1 : (⟨S1x64, .f32⟩ : BufTy).Contents (Elt F) → (⟨S50000x64, .f32⟩ : BufTy).Contents (Elt F)),
    StableHlo.binary main_v526 main_v530 main_v531 (addf : (⟨S50000x64, .f32⟩ : BufTy).Contents (Elt F) → (⟨S50000x64, .f32⟩ : BufTy).Contents (Elt F) → (⟨S50000x64, .f32⟩ : BufTy).Contents (Elt F)) ]

abbrev opsL6B : List (HloOp τ sig (Elt F)) :=
  [ StableHlo.unary main_arg14 main_v532 ((extractStridedSlice S1x64 ![6, 0] · slices_S8x64_S1x64_6_0) : (⟨S8x64, .f32⟩ : BufTy).Contents (Elt F) → (⟨S1x64, .f32⟩ : BufTy).Contents (Elt F)),
    StableHlo.reshape main_v532 main_v533 rfl shapeCasts_S1x64_S64,
    StableHlo.unary main_arg15 main_v534 ((extractStridedSlice S1x64 ![6, 0] · slices_S8x64_S1x64_6_0) : (⟨S8x64, .f32⟩ : BufTy).Contents (Elt F) → (⟨S1x64, .f32⟩ : BufTy).Contents (Elt F)),
    StableHlo.reshape main_v534 main_v535 rfl shapeCasts_S1x64_S64,
    StableHlo.nullary main_cst_77 (constant S_ .f32 0x00000000#32),
    StableHlo.binary main_v531 main_cst_77 main_v536 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_78 (constant S_ .f32 0x47435000#32),
    StableHlo.unary main_cst_78 main_v537 (broadcastInDim S64 ![] bcast_S_S64 : (⟨S_, .f32⟩ : BufTy).Contents (Elt F) → (⟨S64, .f32⟩ : BufTy).Contents (Elt F)),
    StableHlo.binary main_v536 main_v537 main_v538 (Host.divf : (⟨S64, .f32⟩ : BufTy).Contents (Elt F) → (⟨S64, .f32⟩ : BufTy).Contents (Elt F) → (⟨S64, .f32⟩ : BufTy).Contents (Elt F)),
    StableHlo.nullary main_c_79 (constantI S_ 32 0#32),
    StableHlo.TRef.nullary main_call22.cst (constant S_ .f32 0x00000000#32),
    StableHlo.TRef.binary (.of main_v531 : StableHlo.TRef sig ⟨S50000x64, .f32⟩) main_call22.cst main_call22.v0 (fun x v => Host.reduceAdd x v reducesTo_S50000x64_S64_d0 h_S_),
    StableHlo.TRef.unary main_call22.v0 main_call22.v1 (broadcastInDim S1x64 ![1] bcast_S64_S1x64_1),
    StableHlo.TRef.nullary main_call22.cst_0 (constant S_ .f32 0x47435000#32),
    StableHlo.TRef.unary main_call22.cst_0 main_call22.v2 (broadcastInDim S1x64 ![] bcast_S_S1x64),
    StableHlo.TRef.binary main_call22.v1 main_call22.v2 main_call22.v3 Host.divf,
    StableHlo.TRef.unary main_call22.v3 main_call22.v4 (broadcastInDim S50000x64 ![0, 1] bcast_S1x64_S50000x64_0_1),
    StableHlo.TRef.binary (.of main_v531 : StableHlo.TRef sig ⟨S50000x64, .f32⟩) main_call22.v4 main_call22.v5 subf,
    StableHlo.TRef.binary main_call22.v5 main_call22.v5 main_call22.v6 mulf,
    StableHlo.TRef.unary (.of main_c_79 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x64_S64_d0 h_S_),
    StableHlo.TRef.unary main_call22.v8 main_call22.v10 (broadcastInDim S64 ![] bcast_S_S64),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S64 ![] bcast_S_S64),
    StableHlo.TRef.ternary main_call22.v12 main_call22.v11 main_call22.call0.v1 main_call22.call0.v2 (fun p a b => select (broadcastInDim S64 ![] bcast_S_S64 p) a b),
    StableHlo.unary main_v538 main_v540 (broadcastInDim S1x64 ![1] bcast_S64_S1x64_1 : (⟨S64, .f32⟩ : BufTy).Contents (Elt F) → (⟨S1x64, .f32⟩ : BufTy).Contents (Elt F)),
    StableHlo.unary main_v540 main_v541 (broadcastInDim S50000x64 ![0, 1] bcast_S1x64_S50000x64_0_1 : (⟨S1x64, .f32⟩ : BufTy).Contents (Elt F) → (⟨S50000x64, .f32⟩ : BufTy).Contents (Elt F)),
    StableHlo.binary main_v531 main_v541 main_v542 (subf : (⟨S50000x64, .f32⟩ : BufTy).Contents (Elt F) → (⟨S50000x64, .f32⟩ : BufTy).Contents (Elt F) → (⟨S50000x64, .f32⟩ : BufTy).Contents (Elt F)),
    StableHlo.nullary main_cst_80 (constant S_ .f32 0x3727C5AC#32),
    StableHlo.unary main_cst_80 main_v543 (broadcastInDim S64 ![] bcast_S_S64 : (⟨S_, .f32⟩ : BufTy).Contents (Elt F) → (⟨S64, .f32⟩ : BufTy).Contents (Elt F)),
    StableHlo.binary main_v539 main_v543 main_v544 (addf : (⟨S64, .f32⟩ : BufTy).Contents (Elt F) → (⟨S64, .f32⟩ : BufTy).Contents (Elt F) → (⟨S64, .f32⟩ : BufTy).Contents (Elt F)),
    StableHlo.unary main_v544 main_v545 (Host.rsqrt : (⟨S64, .f32⟩ : BufTy).Contents (Elt F) → (⟨S64, .f32⟩ : BufTy).Contents (Elt F)),
    StableHlo.unary main_v545 main_v546 (broadcastInDim S1x64 ![1] bcast_S64_S1x64_1 : (⟨S64, .f32⟩ : BufTy).Contents (Elt F) → (⟨S1x64, .f32⟩ : BufTy).Contents (Elt F)),
    StableHlo.unary main_v546 main_v547 (broadcastInDim S50000x64 ![0, 1] bcast_S1x64_S50000x64_0_1 : (⟨S1x64, .f32⟩ : BufTy).Contents (Elt F) → (⟨S50000x64, .f32⟩ : BufTy).Contents (Elt F)),
    StableHlo.binary main_v542 main_v547 main_v548 (mulf : (⟨S50000x64, .f32⟩ : BufTy).Contents (Elt F) → (⟨S50000x64, .f32⟩ : BufTy).Contents (Elt F) → (⟨S50000x64, .f32⟩ : BufTy).Contents (Elt F)),
    StableHlo.unary main_v533 main_v549 (broadcastInDim S1x64 ![1] bcast_S64_S1x64_1 : (⟨S64, .f32⟩ : BufTy).Contents (Elt F) → (⟨S1x64, .f32⟩ : BufTy).Contents (Elt F)),
    StableHlo.unary main_v549 main_v550 (broadcastInDim S50000x64 ![0, 1] bcast_S1x64_S50000x64_0_1 : (⟨S1x64, .f32⟩ : BufTy).Contents (Elt F) → (⟨S50000x64, .f32⟩ : BufTy).Contents (Elt F)),
    StableHlo.binary main_v548 main_v550 main_v551 (mulf : (⟨S50000x64, .f32⟩ : BufTy).Contents (Elt F) → (⟨S50000x64, .f32⟩ : BufTy).Contents (Elt F) → (⟨S50000x64, .f32⟩ : BufTy).Contents (Elt F)),
    StableHlo.unary main_v535 main_v552 (broadcastInDim S1x64 ![1] bcast_S64_S1x64_1 : (⟨S64, .f32⟩ : BufTy).Contents (Elt F) → (⟨S1x64, .f32⟩ : BufTy).Contents (Elt F)),
    StableHlo.unary main_v552 main_v553 (broadcastInDim S50000x64 ![0, 1] bcast_S1x64_S50000x64_0_1 : (⟨S1x64, .f32⟩ : BufTy).Contents (Elt F) → (⟨S50000x64, .f32⟩ : BufTy).Contents (Elt F)),
    StableHlo.binary main_v551 main_v553 main_v554 (addf : (⟨S50000x64, .f32⟩ : BufTy).Contents (Elt F) → (⟨S50000x64, .f32⟩ : BufTy).Contents (Elt F) → (⟨S50000x64, .f32⟩ : BufTy).Contents (Elt F)),
    StableHlo.TRef.nullary main_call23.cst (constant S_ .f32 0x00000000#32),
    StableHlo.TRef.unary main_call23.cst main_call23.v0 (broadcastInDim S50000x64 ![] bcast_S_S50000x64),
    StableHlo.TRef.binary (.of main_v554 : StableHlo.TRef sig ⟨S50000x64, .f32⟩) main_call23.v0 main_call23.v1 maximumf ]

abbrev opsL6C : List (HloOp τ sig (Elt F)) :=
  [ StableHlo.binary main_v555 main_v511 main_v556 (subf : (⟨S50000x64, .f32⟩ : BufTy).Contents (Elt F) → (⟨S50000x64, .f32⟩ : BufTy).Contents (Elt F) → (⟨S50000x64, .f32⟩ : BufTy).Contents (Elt F)),
    StableHlo.unary main_arg8 main_v557 ((extractStridedSlice S1x64x4 ![7, 0, 0] · slices_S9x64x4_S1x64x4_7_0_0) : (⟨S9x64x4, .f32⟩ : BufTy).Contents (Elt F) → (⟨S1x64x4, .f32⟩ : BufTy).Contents (Elt F)),
    StableHlo.reshape main_v557 main_v558 rfl shapeCasts_S1x64x4_S64x4,
    StableHlo.unary main_arg9 main_v559 ((extractStridedSlice S1x4 ![7, 0] · slices_S9x4_S1x4_7_0) : (⟨S9x4, .f32⟩ : BufTy).Contents (Elt F) → (⟨S1x4, .f32⟩ : BufTy).Contents (Elt F)),
    StableHlo.reshape main_v559 main_v560 rfl shapeCasts_S1x4_S4,
    StableHlo.unary main_arg10 main_v561 ((extractStridedSlice S1x4x1 ![7, 0, 0] · slices_S9x4x1_S1x4x1_7_0_0) : (⟨S9x4x1, .f32⟩ : BufTy).Contents (Elt F) → (⟨S1x4x1, .f32⟩ : BufTy).Contents (Elt F)),
    StableHlo.reshape main_v561 main_v562 rfl shapeCasts_S1x4x1_S4x1,
    StableHlo.unary main_arg11 main_v563 ((extractStridedSlice S1x1 ![7, 0] · slices_S9x1_S1x1_7_0) : (⟨S9x1, .f32⟩ : BufTy).Contents (Elt F) → (⟨S1x1, .f32⟩ : BufTy).Contents (Elt F)),
    StableHlo.reshape main_v563 main_v564 rfl shapeCasts_S1x1_S1,
    StableHlo.binary main_v556 main_v558 main_v565 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v560 main_v566 (broadcastInDim S1x4 ![1] bcast_S4_S1x4_1 : (⟨S4, .f32⟩ : BufTy).Contents (Elt F) → (⟨S1x4, .f32⟩ : BufTy).Contents (Elt F)),
    StableHlo.unary main_v566 main_v567 (broadcastInDim S50000x4 ![0, 1] bcast_S1x4_S50000x4_0_1 : (⟨S1x4, .f32⟩ : BufTy).Contents (Elt F) → (⟨S50000x4, .f32⟩ : BufTy).Contents (Elt F)),
    StableHlo.binary main_v565 main_v567 main_v568 (addf : (⟨S50000x4, .f32⟩ : BufTy).Contents (Elt F) → (⟨S50000x4, .f32⟩ : BufTy).Contents (Elt F) → (⟨S50000x4, .f32⟩ : BufTy).Contents (Elt F)),
    StableHlo.nullary main_cst_81 (constant S_ .f32 0x3E4CCCCD#32),
    StableHlo.TRef.nullary main_call24.cst (constant S_ .f32 0x00000000#32),
    StableHlo.TRef.unary main_call24.cst main_call24.v0 (broadcastInDim S50000x4 ![] bcast_S_S50000x4),
    StableHlo.TRef.binary (.of main_v568 : StableHlo.TRef sig ⟨S50000x4, .f32⟩) main_call24.v0 main_call24.v1 (cmpf .oge),
    StableHlo.TRef.unary (.of main_cst_81 : StableHlo.TRef sig ⟨S_, .f32⟩) main_call24.v2 id,
    StableHlo.TRef.unary main_call24.v2 main_call24.v3 (broadcastInDim S50000x4 ![] bcast_S_S50000x4),
    StableHlo.TRef.binary main_call24.v3 (.of main_v568 : StableHlo.TRef sig ⟨S50000x4, .f32⟩) main_call24.v4 mulf,
    StableHlo.TRef.ternary main_call24.v1 (.of main_v568 : StableHlo.TRef sig ⟨S50000x4, .f32⟩) main_call24.v4 main_call24.call0.v0 select,
    StableHlo.binary main_v569 main_v562 main_v570 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v564 main_v571 (broadcastInDim S1x1 ![1] bcast_S1_S1x1_1 : (⟨S1, .f32⟩ : BufTy).Contents (Elt F) → (⟨S1x1, .f32⟩ : BufTy).Contents (Elt F)),
    StableHlo.unary main_v571 main_v572 (broadcastInDim S50000x1 ![0, 1] bcast_S1x1_S50000x1_0_1 : (⟨S1x1, .f32⟩ : BufTy).Contents (Elt F) → (⟨S50000x1, .f32⟩ : BufTy).Contents (Elt F)),
    StableHlo.binary main_v570 main_v572 main_v573 (addf : (⟨S50000x1, .f32⟩ : BufTy).Contents (Elt F) → (⟨S50000x1, .f32⟩ : BufTy).Contents (Elt F) → (⟨S50000x1, .f32⟩ : BufTy).Contents (Elt F)),
    StableHlo.unary main_v573 main_v574 (Host.negf : (⟨S50000x1, .f32⟩ : BufTy).Contents (Elt F) → (⟨S50000x1, .f32⟩ : BufTy).Contents (Elt F)),
    StableHlo.unary main_v574 main_v575 (Host.exp : (⟨S50000x1, .f32⟩ : BufTy).Contents (Elt F) → (⟨S50000x1, .f32⟩ : BufTy).Contents (Elt F)),
    StableHlo.nullary main_cst_82 (constant S_ .f32 0x3F800000#32),
    StableHlo.unary main_cst_82 main_v576 (broadcastInDim S50000x1 ![] bcast_S_S50000x1 : (⟨S_, .f32⟩ : BufTy).Contents (Elt F) → (⟨S50000x1, .f32⟩ : BufTy).Contents (Elt F)),
    StableHlo.binary main_v576 main_v575 main_v577 (addf : (⟨S50000x1, .f32⟩ : BufTy).Contents (Elt F) → (⟨S50000x1, .f32⟩ : BufTy).Contents (Elt F) → (⟨S50000x1, .f32⟩ : BufTy).Contents (Elt F)),
    StableHlo.nullary main_cst_83 (constant S_ .f32 0x3F800000#32),
    StableHlo.unary main_cst_83 main_v578 (broadcastInDim S50000x1 ![] bcast_S_S50000x1 : (⟨S_, .f32⟩ : BufTy).Contents (Elt F) → (⟨S50000x1, .f32⟩ : BufTy).Contents (Elt F)),
    StableHlo.binary main_v578 main_v577 main_v579 (Host.divf : (⟨S50000x1, .f32⟩ : BufTy).Contents (Elt F) → (⟨S50000x1, .f32⟩ : BufTy).Contents (Elt F) → (⟨S50000x1, .f32⟩ : BufTy).Contents (Elt F)),
    StableHlo.unary main_v579 main_v580 (broadcastInDim S50000x64 ![0, 1] bcast_S50000x1_S50000x64_0_1 : (⟨S50000x1, .f32⟩ : BufTy).Contents (Elt F) → (⟨S50000x64, .f32⟩ : BufTy).Contents (Elt F)),
    StableHlo.binary main_v555 main_v580 main_v581 (mulf : (⟨S50000x64, .f32⟩ : BufTy).Contents (Elt F) → (⟨S50000x64, .f32⟩ : BufTy).Contents (Elt F) → (⟨S50000x64, .f32⟩ : BufTy).Contents (Elt F)),
    StableHlo.binary main_v511 main_v581 main_v582 (addf : (⟨S50000x64, .f32⟩ : BufTy).Contents (Elt F) → (⟨S50000x64, .f32⟩ : BufTy).Contents (Elt F) → (⟨S50000x64, .f32⟩ : BufTy).Contents (Elt F)) ]

abbrev opsL6T : List (HloOp τ sig (Elt F)) :=
  [ StableHlo.unary main_arg12 main_v583 ((extractStridedSlice S1x64x64 ![7, 0, 0] · slices_S8x64x64_S1x64x64_7_0_0) : (⟨S8x64x64, .f32⟩ : BufTy).Contents (Elt F) → (⟨S1x64x64, .f32⟩ : BufTy).Contents (Elt F)),
    StableHlo.reshape main_v583 main_v584 rfl shapeCasts_S1x64x64_S64x64,
    StableHlo.binary main_v581 main_v584 main_v585 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

def opsL6 : List (HloOp τ sig (Elt F)) := opsL6A ++ (opsL6B ++ (opsL6C ++ opsL6T))

abbrev opsL7A : List (HloOp τ sig (Elt F)) :=
  [ StableHlo.nullary main_c_84 (constantI S_ 32 0#32),
    StableHlo.unary main_c_84 main_v586 (broadcastInDim S850000 ![] bcast_S_S850000 : (⟨S_, .i32⟩ : BufTy).Contents (Elt F) → (⟨S850000, .i32⟩ : BufTy).Contents (Elt F)),
    StableHlo.binary main_v3 main_v586 main_v587 (cmpi .slt : (⟨S850000, .i32⟩ : BufTy).Contents (Elt F) → (⟨S850000, .i32⟩ : BufTy).Contents (Elt F) → (⟨S850000, .i1⟩ : BufTy).Contents (Elt F)),
    StableHlo.nullary main_c_85 (constantI S_ 32 50000#32),
    StableHlo.unary main_c_85 main_v588 (broadcastInDim S850000 ![] bcast_S_S850000 : (⟨S_, .i32⟩ : BufTy).Contents (Elt F) → (⟨S850000, .i32⟩ : BufTy).Contents (Elt F)),
    StableHlo.binary main_v3 main_v588 main_v589 (addi : (⟨S850000, .i32⟩ : BufTy).Contents (Elt F) → (⟨S850000, .i32⟩ : BufTy).Contents (Elt F) → (⟨S850000, .i32⟩ : BufTy).Contents (Elt F)),
    StableHlo.ternary main_v587 main_v589 main_v3 main_v590 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v590 main_v591 (broadcastInDim S850000x1 ![0] bcast_S850000_S850000x1_0 : (⟨S850000, .i32⟩ : BufTy).Contents (Elt F) → (⟨S850000x1, .i32⟩ : BufTy).Contents (Elt F)),
    StableHlo.binary main_v585 main_v591 main_v592 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v593 (broadcastInDim S850000x64 ![0, 1] bcast_S850000x1_S850000x64_0_1 : (⟨S850000x1, .f32⟩ : BufTy).Contents (Elt F) → (⟨S850000x64, .f32⟩ : BufTy).Contents (Elt F)),
    StableHlo.binary main_v592 main_v593 main_v594 (mulf : (⟨S850000x64, .f32⟩ : BufTy).Contents (Elt F) → (⟨S850000x64, .f32⟩ : BufTy).Contents (Elt F) → (⟨S850000x64, .f32⟩ : BufTy).Contents (Elt F)),
    StableHlo.nullary main_cst_86 (constant S_ .f32 0x00000000#32),
    StableHlo.unary main_cst_86 main_v595 (broadcastInDim S50000x64 ![] bcast_S_S50000x64 : (⟨S_, .f32⟩ : BufTy).Contents (Elt F) → (⟨S50000x64, .f32⟩ : BufTy).Contents (Elt F)),
    StableHlo.unary main_v6 main_v596 (broadcastInDim S850000x1 ![0] bcast_S850000_S850000x1_0 : (⟨S850000, .i32⟩ : BufTy).Contents (Elt F) → (⟨S850000x1, .i32⟩ : BufTy).Contents (Elt F)),
    StableHlo.ternary main_v595 main_v596 main_v594 main_v597 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg13 main_v598 ((extractStridedSlice S1x64 ![7, 0] · slices_S8x64_S1x64_7_0) : (⟨S8x64, .f32⟩ : BufTy).Contents (Elt F) → (⟨S1x64, .f32⟩ : BufTy).Contents (Elt F)),
    StableHlo.reshape main_v598 main_v599 rfl shapeCasts_S1x64_S64,
    StableHlo.unary main_v599 main_v600 (broadcastInDim S1x64 ![1] bcast_S64_S1x64_1 : (⟨S64, .f32⟩ : BufTy).Contents (Elt F) → (⟨S1x64, .f32⟩ : BufTy).Contents (Elt F)),
    StableHlo.unary main_v600 main_v601 (broadcastInDim S50000x64 ![0, 1] bcast_S1x64_S50000x64_0_1 : (⟨S1x64, .f32⟩ : BufTy).Contents (Elt F) → (⟨S50000x64, .f32⟩ : BufTy).Contents (Elt F)),
    StableHlo.binary main_v597 main_v601 main_v602 (addf : (⟨S50000x64, .f32⟩ : BufTy).Contents (Elt F) → (⟨S50000x64, .f32⟩ : BufTy).Contents (Elt F) → (⟨S50000x64, .f32⟩ : BufTy).Contents (Elt F)) ]

abbrev opsL7B : List (HloOp τ sig (Elt F)) :=
  [ StableHlo.unary main_arg14 main_v603 ((extractStridedSlice S1x64 ![7, 0] · slices_S8x64_S1x64_7_0) : (⟨S8x64, .f32⟩ : BufTy).Contents (Elt F) → (⟨S1x64, .f32⟩ : BufTy).Contents (Elt F)),
    StableHlo.reshape main_v603 main_v604 rfl shapeCasts_S1x64_S64,
    StableHlo.unary main_arg15 main_v605 ((extractStridedSlice S1x64 ![7, 0] · slices_S8x64_S1x64_7_0) : (⟨S8x64, .f32⟩ : BufTy).Contents (Elt F) → (⟨S1x64, .f32⟩ : BufTy).Contents (Elt F)),
    StableHlo.reshape main_v605 main_v606 rfl shapeCasts_S1x64_S64,
    StableHlo.nullary main_cst_87 (constant S_ .f32 0x00000000#32),
    StableHlo.binary main_v602 main_cst_87 main_v607 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_88 (constant S_ .f32 0x47435000#32),
    StableHlo.unary main_cst_88 main_v608 (broadcastInDim S64 ![] bcast_S_S64 : (⟨S_, .f32⟩ : BufTy).Contents (Elt F) → (⟨S64, .f32⟩ : BufTy).Contents (Elt F)),
    StableHlo.binary main_v607 main_v608 main_v609 (Host.divf : (⟨S64, .f32⟩ : BufTy).Contents (Elt F) → (⟨S64, .f32⟩ : BufTy).Contents (Elt F) → (⟨S64, .f32⟩ : BufTy).Contents (Elt F)),
    StableHlo.nullary main_c_89 (constantI S_ 32 0#32),
    StableHlo.TRef.nullary main_call25.cst (constant S_ .f32 0x00000000#32),
    StableHlo.TRef.binary (.of main_v602 : StableHlo.TRef sig ⟨S50000x64, .f32⟩) main_call25.cst main_call25.v0 (fun x v => Host.reduceAdd x v reducesTo_S50000x64_S64_d0 h_S_),
    StableHlo.TRef.unary main_call25.v0 main_call25.v1 (broadcastInDim S1x64 ![1] bcast_S64_S1x64_1),
    StableHlo.TRef.nullary main_call25.cst_0 (constant S_ .f32 0x47435000#32),
    StableHlo.TRef.unary main_call25.cst_0 main_call25.v2 (broadcastInDim S1x64 ![] bcast_S_S1x64),
    StableHlo.TRef.binary main_call25.v1 main_call25.v2 main_call25.v3 Host.divf,
    StableHlo.TRef.unary main_call25.v3 main_call25.v4 (broadcastInDim S50000x64 ![0, 1] bcast_S1x64_S50000x64_0_1),
    StableHlo.TRef.binary (.of main_v602 : StableHlo.TRef sig ⟨S50000x64, .f32⟩) main_call25.v4 main_call25.v5 subf,
    StableHlo.TRef.binary main_call25.v5 main_call25.v5 main_call25.v6 mulf,
    StableHlo.TRef.unary (.of main_c_89 : StableHlo.TRef sig ⟨S_, .i32⟩) main_call25.v7 (sitofp .f32),
    StableHlo.TRef.nullary main_call25.cst_1 (constant S_ .f32 0x47435000#32),
    StableHlo.TRef.binary main_call25.cst_1 main_call25.v7 main_call25.v8 subf,
    StableHlo.TRef.nullary main_call25.cst_2 (constant S_ .f32 0x00000000#32),
    StableHlo.TRef.binary main_call25.v6 main_call25.cst_2 main_call25.v9 (fun x v => Host.reduceAdd x v reducesTo_S50000x64_S64_d0 h_S_),
    StableHlo.TRef.unary main_call25.v8 main_call25.v10 (broadcastInDim S64 ![] bcast_S_S64),
    StableHlo.TRef.binary main_call25.v9 main_call25.v10 main_call25.v11 Host.divf,
    StableHlo.TRef.nullary main_call25.cst_3 (constant S_ .f32 0x00000000#32),
    StableHlo.TRef.binary main_call25.v8 main_call25.cst_3 main_call25.v12 (cmpf .ogt),
    StableHlo.TRef.nullary main_call25.cst_4 (constant S_ .f32 0x7FC00000#32),
    StableHlo.TRef.unary main_call25.cst_4 main_call25.call0.v0 id,
    StableHlo.TRef.unary main_call25.call0.v0 main_call25.call0.v1 (broadcastInDim S64 ![] bcast_S_S64),
    StableHlo.TRef.ternary main_call25.v12 main_call25.v11 main_call25.call0.v1 main_call25.call0.v2 (fun p a b => select (broadcastInDim S64 ![] bcast_S_S64 p) a b),
    StableHlo.unary main_v609 main_v611 (broadcastInDim S1x64 ![1] bcast_S64_S1x64_1 : (⟨S64, .f32⟩ : BufTy).Contents (Elt F) → (⟨S1x64, .f32⟩ : BufTy).Contents (Elt F)),
    StableHlo.unary main_v611 main_v612 (broadcastInDim S50000x64 ![0, 1] bcast_S1x64_S50000x64_0_1 : (⟨S1x64, .f32⟩ : BufTy).Contents (Elt F) → (⟨S50000x64, .f32⟩ : BufTy).Contents (Elt F)),
    StableHlo.binary main_v602 main_v612 main_v613 (subf : (⟨S50000x64, .f32⟩ : BufTy).Contents (Elt F) → (⟨S50000x64, .f32⟩ : BufTy).Contents (Elt F) → (⟨S50000x64, .f32⟩ : BufTy).Contents (Elt F)),
    StableHlo.nullary main_cst_90 (constant S_ .f32 0x3727C5AC#32),
    StableHlo.unary main_cst_90 main_v614 (broadcastInDim S64 ![] bcast_S_S64 : (⟨S_, .f32⟩ : BufTy).Contents (Elt F) → (⟨S64, .f32⟩ : BufTy).Contents (Elt F)),
    StableHlo.binary main_v610 main_v614 main_v615 (addf : (⟨S64, .f32⟩ : BufTy).Contents (Elt F) → (⟨S64, .f32⟩ : BufTy).Contents (Elt F) → (⟨S64, .f32⟩ : BufTy).Contents (Elt F)),
    StableHlo.unary main_v615 main_v616 (Host.rsqrt : (⟨S64, .f32⟩ : BufTy).Contents (Elt F) → (⟨S64, .f32⟩ : BufTy).Contents (Elt F)),
    StableHlo.unary main_v616 main_v617 (broadcastInDim S1x64 ![1] bcast_S64_S1x64_1 : (⟨S64, .f32⟩ : BufTy).Contents (Elt F) → (⟨S1x64, .f32⟩ : BufTy).Contents (Elt F)),
    StableHlo.unary main_v617 main_v618 (broadcastInDim S50000x64 ![0, 1] bcast_S1x64_S50000x64_0_1 : (⟨S1x64, .f32⟩ : BufTy).Contents (Elt F) → (⟨S50000x64, .f32⟩ : BufTy).Contents (Elt F)),
    StableHlo.binary main_v613 main_v618 main_v619 (mulf : (⟨S50000x64, .f32⟩ : BufTy).Contents (Elt F) → (⟨S50000x64, .f32⟩ : BufTy).Contents (Elt F) → (⟨S50000x64, .f32⟩ : BufTy).Contents (Elt F)),
    StableHlo.unary main_v604 main_v620 (broadcastInDim S1x64 ![1] bcast_S64_S1x64_1 : (⟨S64, .f32⟩ : BufTy).Contents (Elt F) → (⟨S1x64, .f32⟩ : BufTy).Contents (Elt F)),
    StableHlo.unary main_v620 main_v621 (broadcastInDim S50000x64 ![0, 1] bcast_S1x64_S50000x64_0_1 : (⟨S1x64, .f32⟩ : BufTy).Contents (Elt F) → (⟨S50000x64, .f32⟩ : BufTy).Contents (Elt F)),
    StableHlo.binary main_v619 main_v621 main_v622 (mulf : (⟨S50000x64, .f32⟩ : BufTy).Contents (Elt F) → (⟨S50000x64, .f32⟩ : BufTy).Contents (Elt F) → (⟨S50000x64, .f32⟩ : BufTy).Contents (Elt F)),
    StableHlo.unary main_v606 main_v623 (broadcastInDim S1x64 ![1] bcast_S64_S1x64_1 : (⟨S64, .f32⟩ : BufTy).Contents (Elt F) → (⟨S1x64, .f32⟩ : BufTy).Contents (Elt F)),
    StableHlo.unary main_v623 main_v624 (broadcastInDim S50000x64 ![0, 1] bcast_S1x64_S50000x64_0_1 : (⟨S1x64, .f32⟩ : BufTy).Contents (Elt F) → (⟨S50000x64, .f32⟩ : BufTy).Contents (Elt F)),
    StableHlo.binary main_v622 main_v624 main_v625 (addf : (⟨S50000x64, .f32⟩ : BufTy).Contents (Elt F) → (⟨S50000x64, .f32⟩ : BufTy).Contents (Elt F) → (⟨S50000x64, .f32⟩ : BufTy).Contents (Elt F)),
    StableHlo.TRef.nullary main_call26.cst (constant S_ .f32 0x00000000#32),
    StableHlo.TRef.unary main_call26.cst main_call26.v0 (broadcastInDim S50000x64 ![] bcast_S_S50000x64),
    StableHlo.TRef.binary (.of main_v625 : StableHlo.TRef sig ⟨S50000x64, .f32⟩) main_call26.v0 main_call26.v1 maximumf ]

abbrev opsL7C : List (HloOp τ sig (Elt F)) :=
  [ StableHlo.binary main_v626 main_v582 main_v627 (subf : (⟨S50000x64, .f32⟩ : BufTy).Contents (Elt F) → (⟨S50000x64, .f32⟩ : BufTy).Contents (Elt F) → (⟨S50000x64, .f32⟩ : BufTy).Contents (Elt F)),
    StableHlo.unary main_arg8 main_v628 ((extractStridedSlice S1x64x4 ![8, 0, 0] · slices_S9x64x4_S1x64x4_8_0_0) : (⟨S9x64x4, .f32⟩ : BufTy).Contents (Elt F) → (⟨S1x64x4, .f32⟩ : BufTy).Contents (Elt F)),
    StableHlo.reshape main_v628 main_v629 rfl shapeCasts_S1x64x4_S64x4,
    StableHlo.unary main_arg9 main_v630 ((extractStridedSlice S1x4 ![8, 0] · slices_S9x4_S1x4_8_0) : (⟨S9x4, .f32⟩ : BufTy).Contents (Elt F) → (⟨S1x4, .f32⟩ : BufTy).Contents (Elt F)),
    StableHlo.reshape main_v630 main_v631 rfl shapeCasts_S1x4_S4,
    StableHlo.unary main_arg10 main_v632 ((extractStridedSlice S1x4x1 ![8, 0, 0] · slices_S9x4x1_S1x4x1_8_0_0) : (⟨S9x4x1, .f32⟩ : BufTy).Contents (Elt F) → (⟨S1x4x1, .f32⟩ : BufTy).Contents (Elt F)),
    StableHlo.reshape main_v632 main_v633 rfl shapeCasts_S1x4x1_S4x1,
    StableHlo.unary main_arg11 main_v634 ((extractStridedSlice S1x1 ![8, 0] · slices_S9x1_S1x1_8_0) : (⟨S9x1, .f32⟩ : BufTy).Contents (Elt F) → (⟨S1x1, .f32⟩ : BufTy).Contents (Elt F)),
    StableHlo.reshape main_v634 main_v635 rfl shapeCasts_S1x1_S1,
    StableHlo.binary main_v627 main_v629 main_v636 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    StableHlo.unary main_v631 main_v637 (broadcastInDim S1x4 ![1] bcast_S4_S1x4_1 : (⟨S4, .f32⟩ : BufTy).Contents (Elt F) → (⟨S1x4, .f32⟩ : BufTy).Contents (Elt F)),
    StableHlo.unary main_v637 main_v638 (broadcastInDim S50000x4 ![0, 1] bcast_S1x4_S50000x4_0_1 : (⟨S1x4, .f32⟩ : BufTy).Contents (Elt F) → (⟨S50000x4, .f32⟩ : BufTy).Contents (Elt F)),
    StableHlo.binary main_v636 main_v638 main_v639 (addf : (⟨S50000x4, .f32⟩ : BufTy).Contents (Elt F) → (⟨S50000x4, .f32⟩ : BufTy).Contents (Elt F) → (⟨S50000x4, .f32⟩ : BufTy).Contents (Elt F)),
    StableHlo.nullary main_cst_91 (constant S_ .f32 0x3E4CCCCD#32),
    StableHlo.TRef.nullary main_call27.cst (constant S_ .f32 0x00000000#32),
    StableHlo.TRef.unary main_call27.cst main_call27.v0 (broadcastInDim S50000x4 ![] bcast_S_S50000x4),
    StableHlo.TRef.binary (.of main_v639 : StableHlo.TRef sig ⟨S50000x4, .f32⟩) main_call27.v0 main_call27.v1 (cmpf .oge),
    StableHlo.TRef.unary (.of main_cst_91 : StableHlo.TRef sig ⟨S_, .f32⟩) main_call27.v2 id,
    StableHlo.TRef.unary main_call27.v2 main_call27.v3 (broadcastInDim S50000x4 ![] bcast_S_S50000x4),
    StableHlo.TRef.binary main_call27.v3 (.of main_v639 : StableHlo.TRef sig ⟨S50000x4, .f32⟩) main_call27.v4 mulf,
    StableHlo.TRef.ternary main_call27.v1 (.of main_v639 : StableHlo.TRef sig ⟨S50000x4, .f32⟩) main_call27.v4 main_call27.call0.v0 select,
    StableHlo.binary main_v640 main_v633 main_v641 ((fun l r => Host.dotGeneral dot_S50000x4_S4x1_S50000x1_1_0_0_1_n_n none l r) : (⟨S50000x4, .f32⟩ : BufTy).Contents (Elt F) → (⟨S4x1, .f32⟩ : BufTy).Contents (Elt F) → (⟨S50000x1, .f32⟩ : BufTy).Contents (Elt F)),
    StableHlo.unary main_v635 main_v642 (broadcastInDim S1x1 ![1] bcast_S1_S1x1_1 : (⟨S1, .f32⟩ : BufTy).Contents (Elt F) → (⟨S1x1, .f32⟩ : BufTy).Contents (Elt F)),
    StableHlo.unary main_v642 main_v643 (broadcastInDim S50000x1 ![0, 1] bcast_S1x1_S50000x1_0_1 : (⟨S1x1, .f32⟩ : BufTy).Contents (Elt F) → (⟨S50000x1, .f32⟩ : BufTy).Contents (Elt F)),
    StableHlo.binary main_v641 main_v643 main_v644 (addf : (⟨S50000x1, .f32⟩ : BufTy).Contents (Elt F) → (⟨S50000x1, .f32⟩ : BufTy).Contents (Elt F) → (⟨S50000x1, .f32⟩ : BufTy).Contents (Elt F)),
    StableHlo.unary main_v644 main_v645 (Host.negf : (⟨S50000x1, .f32⟩ : BufTy).Contents (Elt F) → (⟨S50000x1, .f32⟩ : BufTy).Contents (Elt F)),
    StableHlo.unary main_v645 main_v646 (Host.exp : (⟨S50000x1, .f32⟩ : BufTy).Contents (Elt F) → (⟨S50000x1, .f32⟩ : BufTy).Contents (Elt F)),
    StableHlo.nullary main_cst_92 (constant S_ .f32 0x3F800000#32),
    StableHlo.unary main_cst_92 main_v647 (broadcastInDim S50000x1 ![] bcast_S_S50000x1 : (⟨S_, .f32⟩ : BufTy).Contents (Elt F) → (⟨S50000x1, .f32⟩ : BufTy).Contents (Elt F)),
    StableHlo.binary main_v647 main_v646 main_v648 (addf : (⟨S50000x1, .f32⟩ : BufTy).Contents (Elt F) → (⟨S50000x1, .f32⟩ : BufTy).Contents (Elt F) → (⟨S50000x1, .f32⟩ : BufTy).Contents (Elt F)),
    StableHlo.nullary main_cst_93 (constant S_ .f32 0x3F800000#32),
    StableHlo.unary main_cst_93 main_v649 (broadcastInDim S50000x1 ![] bcast_S_S50000x1 : (⟨S_, .f32⟩ : BufTy).Contents (Elt F) → (⟨S50000x1, .f32⟩ : BufTy).Contents (Elt F)),
    StableHlo.binary main_v649 main_v648 main_v650 (Host.divf : (⟨S50000x1, .f32⟩ : BufTy).Contents (Elt F) → (⟨S50000x1, .f32⟩ : BufTy).Contents (Elt F) → (⟨S50000x1, .f32⟩ : BufTy).Contents (Elt F)),
    StableHlo.unary main_v650 main_v651 (broadcastInDim S50000x64 ![0, 1] bcast_S50000x1_S50000x64_0_1 : (⟨S50000x1, .f32⟩ : BufTy).Contents (Elt F) → (⟨S50000x64, .f32⟩ : BufTy).Contents (Elt F)),
    StableHlo.binary main_v626 main_v651 main_v652 (mulf : (⟨S50000x64, .f32⟩ : BufTy).Contents (Elt F) → (⟨S50000x64, .f32⟩ : BufTy).Contents (Elt F) → (⟨S50000x64, .f32⟩ : BufTy).Contents (Elt F)),
    StableHlo.binary main_v582 main_v652 main_v653 (addf : (⟨S50000x64, .f32⟩ : BufTy).Contents (Elt F) → (⟨S50000x64, .f32⟩ : BufTy).Contents (Elt F) → (⟨S50000x64, .f32⟩ : BufTy).Contents (Elt F)) ]

def opsL7 : List (HloOp τ sig (Elt F)) := opsL7A ++ (opsL7B ++ opsL7C)

/-- The output map. -/
def opsOut : List (HloOp τ sig (Elt F)) :=
  [ StableHlo.binary main_v653 main_arg16 main_v654 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg17 main_v655 (broadcastInDim S1x128 ![1] bcast_S128_S1x128_1 : (⟨S128, .f32⟩ : BufTy).Contents (Elt F) → (⟨S1x128, .f32⟩ : BufTy).Contents (Elt F)),
    StableHlo.unary main_v655 main_v656 (broadcastInDim S50000x128 ![0, 1] bcast_S1x128_S50000x128_0_1 : (⟨S1x128, .f32⟩ : BufTy).Contents (Elt F) → (⟨S50000x128, .f32⟩ : BufTy).Contents (Elt F)),
    StableHlo.binary main_v654 main_v656 main_v657 (addf : (⟨S50000x128, .f32⟩ : BufTy).Contents (Elt F) → (⟨S50000x128, .f32⟩ : BufTy).Contents (Elt F) → (⟨S50000x128, .f32⟩ : BufTy).Contents (Elt F)),
    StableHlo.TRef.nullary main_call28.cst (constant S_ .f32 0x00000000#32),
    StableHlo.TRef.unary main_call28.cst main_call28.v0 (broadcastInDim S50000x128 ![] bcast_S_S50000x128),
    StableHlo.TRef.binary (.of main_v657 : StableHlo.TRef sig ⟨S50000x128, .f32⟩) main_call28.v0 main_call28.v1 maximumf,
    StableHlo.binary main_v658 main_arg18 main_v659 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg19 main_v660 (broadcastInDim S1x64 ![1] bcast_S64_S1x64_1 : (⟨S64, .f32⟩ : BufTy).Contents (Elt F) → (⟨S1x64, .f32⟩ : BufTy).Contents (Elt F)),
    StableHlo.unary main_v660 main_v661 (broadcastInDim S50000x64 ![0, 1] bcast_S1x64_S50000x64_0_1 : (⟨S1x64, .f32⟩ : BufTy).Contents (Elt F) → (⟨S50000x64, .f32⟩ : BufTy).Contents (Elt F)),
    StableHlo.binary main_v659 main_v661 main_v662 (addf : (⟨S50000x64, .f32⟩ : BufTy).Contents (Elt F) → (⟨S50000x64, .f32⟩ : BufTy).Contents (Elt F) → (⟨S50000x64, .f32⟩ : BufTy).Contents (Elt F)) ]

/-- All 1024 operations. -/
abbrev ops : List (HloOp τ sig (Elt F)) :=
  opsPrep ++ opsIn ++ opsL0 ++ opsL1 ++ opsL2 ++ opsL3 ++ opsL4 ++ opsL5 ++ opsL6 ++ opsL7 ++ opsOut

end Cert.ReferenceIdeal.RefRun

end
-- ==== Proof.RefRun.Parts.lean ====
import proofs.«428538_j32280974197073_1_alg».proof.Proof.RefRun.Ops

noncomputable section

namespace Cert.ReferenceIdeal.RefRun

open Cert.ReferenceIdeal Idealize.ShloMosaic Idealize.ShloMosaic.StableHlo

variable {F : FTy → Type} [FloatOps F]

/-- The operations of each of @main's thirteen parts: the same list, cut where the parts end. -/
abbrev part0ops : List (HloOp τ sig (Elt F)) := opsPrep ++ opsIn.take 39
abbrev part1ops : List (HloOp τ sig (Elt F)) := opsIn.drop 39 ++ opsL0.take 15
abbrev part2ops : List (HloOp τ sig (Elt F)) := (opsL0.drop 15).take 89
abbrev part3ops : List (HloOp τ sig (Elt F)) := (opsL0.drop 15).drop 89 ++ opsL1.take 77
abbrev part4ops : List (HloOp τ sig (Elt F)) := opsL1.drop 77 ++ opsL2.take 54
abbrev part5ops : List (HloOp τ sig (Elt F)) := opsL2.drop 54 ++ opsL3.take 12
abbrev part6ops : List (HloOp τ sig (Elt F)) := (opsL3.drop 12).take 89
abbrev part7ops : List (HloOp τ sig (Elt F)) := (opsL3.drop 12).drop 89 ++ opsL4.take 74
abbrev part8ops : List (HloOp τ sig (Elt F)) := opsL4.drop 74 ++ opsL5.take 30
abbrev part9ops : List (HloOp τ sig (Elt F)) := opsL5.drop 30 ++ opsL6.take 9
abbrev part10ops : List (HloOp τ sig (Elt F)) := (opsL6.drop 9).take 89
abbrev part11ops : List (HloOp τ sig (Elt F)) := (opsL6.drop 9).drop 89 ++ opsL7.take 71
abbrev part12ops : List (HloOp τ sig (Elt F)) := opsL7.drop 71 ++ opsOut

end Cert.ReferenceIdeal.RefRun

end
-- ==== Proof.RefRun.lean ====
import proofs.«428538_j32280974197073_1_alg».proof.Proof.RefRun.Ops
import proofs.«428538_j32280974197073_1_alg».proof.Proof.RefRun.Parts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
theorem main_part0_eq (c : Dev nD) : main_part0 (F := F) c = seq part0ops := by
  simp only [main_part0, fn_where.body, fn_var.body, fn_where_0.body, seq, bind_assoc, pure_bind]
  rfl

set_option maxRecDepth 4096 in
theorem main_part1_eq (c : Dev nD) : main_part1 (F := F) c = seq part1ops := by
  simp only [main_part1, fn_relu.body, fn_leaky_relu.body, fn_where_1.body, seq, bind_assoc, pure_bind]
  rfl

set_option maxRecDepth 4096 in
theorem main_part2_eq (c : Dev nD) : main_part2 (F := F) c = seq part2ops := by
  simp only [main_part2, fn_var_2.body, fn_where_3.body, fn_relu_4.body, fn_leaky_relu.body, fn_where_1.body, seq, bind_assoc, pure_bind]
  rfl

set_option maxRecDepth 4096 in
theorem main_part3_eq (c : Dev nD) : main_part3 (F := F) c = seq part3ops := by
  simp only [main_part3, fn_var_2.body, fn_where_3.body, fn_relu_4.body, seq, bind_assoc, pure_bind]
  rfl

set_option maxRecDepth 4096 in
theorem main_part4_eq (c : Dev nD) : main_part4 (F := F) c = seq part4ops := by
  simp only [main_part4, fn_leaky_relu.body, fn_where_1.body, fn_var_2.body, fn_where_3.body, seq, bind_assoc, pure_bind]
  rfl

set_option maxRecDepth 4096 in
theorem main_part5_eq (c : Dev nD) : main_part5 (F := F) c = seq part5ops := by
  simp only [main_part5, fn_relu_4.body, fn_leaky_relu.body, fn_where_1.body, seq, bind_assoc, pure_bind]
  rfl

set_option maxRecDepth 4096 in
theorem main_part6_eq (c : Dev nD) : main_part6 (F := F) c = seq part6ops := by
  simp only [main_part6, fn_var_2.body, fn_where_3.body, fn_relu_4.body, fn_leaky_relu.body, fn_where_1.body, seq, bind_assoc, pure_bind]
  rfl

set_option maxRecDepth 4096 in
theorem main_part7_eq (c : Dev nD) : main_part7 (F := F) c = seq part7ops := by
  simp only [main_part7, fn_var_2.body, fn_where_3.body, fn_relu_4.body, seq, bind_assoc, pure_bind]
  rfl

set_option maxRecDepth 4096 in
theorem main_part8_eq (c : Dev nD) : main_part8 (F := F) c = seq part8ops := by
  simp only [main_part8, fn_leaky_relu.body, fn_where_1.body, seq, bind_assoc, pure_bind]
  rfl

set_option maxRecDepth 4096 in
theorem main_part9_eq (c : Dev nD) : main_part9 (F := F) c = seq part9ops := by
  simp only [main_part9, fn_var_2.body, fn_where_3.body, fn_relu_4.body, fn_leaky_relu.body, fn_where_1.body, seq, bind_assoc, pure_bind]
  rfl

set_option maxRecDepth 4096 in
theorem main_part10_eq (c : Dev nD) : main_part10 (F := F) c = seq part10ops := by
  simp only [main_part10, fn_var_2.body, fn_where_3.body, fn_relu_4.body, fn_leaky_relu.body, fn_where_1.body, seq, bind_assoc, pure_bind]
  rfl

set_option maxRecDepth 4096 in
theorem main_part11_eq (c : Dev nD) : main_part11 (F := F) c = seq part11ops := by
  simp only [main_part11, fn_var_2.body, fn_where_3.body, fn_relu_4.body, seq, bind_assoc, pure_bind]
  rfl

set_option maxRecDepth 4096 in
theorem main_part12_eq (c : Dev nD) : main_part12 (F := F) c = seq part12ops := by
  simp only [main_part12, fn_leaky_relu.body, fn_where_1.body, fn_relu.body, seq, bind_assoc, pure_bind]
  rfl

theorem take_append_drop_append {α : Type _} (n : Nat) (l r : List α) : l.take n ++ (l.drop n ++ r) = l ++ r := by
  rw [← List.append_assoc, List.take_append_drop]

/-- The parts' lists one after the other are the whole list: each cut list is glued back at its cut. -/
theorem ops_eq_parts : (ops : List (HloOp τ sig (Elt F))) = part0ops ++ (part1ops ++ (part2ops ++ (part3ops ++ (part4ops ++ (part5ops ++ (part6ops ++ (part7ops ++ (part8ops ++ (part9ops ++ (part10ops ++ (part11ops ++ (part12ops)))))))))))) := by
  simp only [ops, part0ops, part1ops, part2ops, part3ops, part4ops, part5ops, part6ops, part7ops, part8ops, part9ops, part10ops, part11ops, part12ops, List.append_assoc, take_append_drop_append, List.take_append_drop]

theorem main_eq (c : Dev nD) : main (F := F) c = seq ops := by
  rw [ops_eq_parts]
  simp only [main, seq_append, bind_assoc, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c]

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem opsPrep_sub : (opsPrep : List (HloOp τ sig (Elt F))).Forall fun op => op.bufs ⊆ tcRefs τ sig := by
  simp only [opsPrep, List.forall_append, List.Forall, nullary_bufs_sub, unary_bufs_sub, binary_bufs_sub, ternary_bufs_sub, reshape_bufs_sub, and_self]

set_option maxRecDepth 4096 in
theorem opsIn_sub : (opsIn : List (HloOp τ sig (Elt F))).Forall fun op => op.bufs ⊆ tcRefs τ sig := by
  simp only [opsIn, List.forall_append, List.Forall, nullary_bufs_sub, unary_bufs_sub, binary_bufs_sub, ternary_bufs_sub, reshape_bufs_sub, and_self]

set_option maxRecDepth 4096 in
theorem opsL0_sub : (opsL0 : List (HloOp τ sig (Elt F))).Forall fun op => op.bufs ⊆ tcRefs τ sig := by
  simp only [opsL0, List.forall_append, List.Forall, nullary_bufs_sub, unary_bufs_sub, binary_bufs_sub, ternary_bufs_sub, reshape_bufs_sub, and_self]

set_option maxRecDepth 4096 in
theorem opsL1_sub : (opsL1 : List (HloOp τ sig (Elt F))).Forall fun op => op.bufs ⊆ tcRefs τ sig := by
  simp only [opsL1, List.forall_append, List.Forall, nullary_bufs_sub, unary_bufs_sub, binary_bufs_sub, ternary_bufs_sub, reshape_bufs_sub, and_self]

set_option maxRecDepth 4096 in
theorem opsL2_sub : (opsL2 : List (HloOp τ sig (Elt F))).Forall fun op => op.bufs ⊆ tcRefs τ sig := by
  simp only [opsL2, List.forall_append, List.Forall, nullary_bufs_sub, unary_bufs_sub, binary_bufs_sub, ternary_bufs_sub, reshape_bufs_sub, and_self]

set_option maxRecDepth 4096 in
theorem opsL3_sub : (opsL3 : List (HloOp τ sig (Elt F))).Forall fun op => op.bufs ⊆ tcRefs τ sig := by
  simp only [opsL3, List.forall_append, List.Forall, nullary_bufs_sub, unary_bufs_sub, binary_bufs_sub, ternary_bufs_sub, reshape_bufs_sub, and_self]

set_option maxRecDepth 4096 in
theorem opsL4_sub : (opsL4 : List (HloOp τ sig (Elt F))).Forall fun op => op.bufs ⊆ tcRefs τ sig := by
  simp only [opsL4, List.forall_append, List.Forall, nullary_bufs_sub, unary_bufs_sub, binary_bufs_sub, ternary_bufs_sub, reshape_bufs_sub, and_self]

set_option maxRecDepth 4096 in
theorem opsL5_sub : (opsL5 : List (HloOp τ sig (Elt F))).Forall fun op => op.bufs ⊆ tcRefs τ sig := by
  simp only [opsL5, List.forall_append, List.Forall, nullary_bufs_sub, unary_bufs_sub, binary_bufs_sub, ternary_bufs_sub, reshape_bufs_sub, and_self]

set_option maxRecDepth 4096 in
theorem opsL6_sub : (opsL6 : List (HloOp τ sig (Elt F))).Forall fun op => op.bufs ⊆ tcRefs τ sig := by
  simp only [opsL6, List.forall_append, List.Forall, nullary_bufs_sub, unary_bufs_sub, binary_bufs_sub, ternary_bufs_sub, reshape_bufs_sub, and_self]

set_option maxRecDepth 4096 in
theorem opsL7_sub : (opsL7 : List (HloOp τ sig (Elt F))).Forall fun op => op.bufs ⊆ tcRefs τ sig := by
  simp only [opsL7, List.forall_append, List.Forall, nullary_bufs_sub, unary_bufs_sub, binary_bufs_sub, ternary_bufs_sub, reshape_bufs_sub, and_self]

set_option maxRecDepth 4096 in
theorem opsOut_sub : (opsOut : List (HloOp τ sig (Elt F))).Forall fun op => op.bufs ⊆ tcRefs τ sig := by
  simp only [opsOut, List.Forall, nullary_bufs_sub, unary_bufs_sub, binary_bufs_sub, ternary_bufs_sub, reshape_bufs_sub, and_self]

theorem ops_sub : (ops : List (HloOp τ sig (Elt F))).Forall fun op => op.bufs ⊆ tcRefs τ sig := by
  simp only [ops, List.forall_append, and_assoc]
  exact ⟨opsPrep_sub, opsIn_sub, opsL0_sub, opsL1_sub, opsL2_sub, opsL3_sub, opsL4_sub, opsL5_sub, opsL6_sub, opsL7_sub, opsOut_sub⟩

set_option maxRecDepth 4096 in
theorem ops_fresh : ∀ op ∈ (ops : List (HloOp τ sig (Elt F))), op.fresh = ∅ := by
  simp only [ops, opsPrep, opsIn, opsL0, opsL1, opsL2, opsL3, opsL4, opsL5, opsL6, opsL7, opsOut, List.forall_mem_append]
  with_reducible repeat' apply And.intro
  all_goals
    intro _ h
    repeat (cases h with | head => rfl | tail _ h => ?_)
    exact nomatch h

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The operation writes no buffer among the first twenty, the program's arguments. -/
def WritesAbove (op : HloOp τ sig (Elt F)) : Prop :=
  ∀ r : Ref sig .tc, (Proc.devRef .tc r : DevRef τ sig) ∈ op.writes → 20 ≤ r.idx.val

theorem keeps_of_above {l : List (HloOp τ sig (Elt F))} (hl : l.Forall WritesAbove) (V : Valuation τ sig (Elt F)) (r : Ref sig .tc)
    (hr : r.idx.val < 20) : after l V (r : DevRef τ sig) = V (r : DevRef τ sig) :=
  after_of_forall_not_mem l V fun op hop hb =>
    absurd (List.forall_iff_forall_mem.mp hl op hop r hb) (Nat.not_le.mpr hr)

set_option maxRecDepth 4096 in
theorem opsPrep_above : (opsPrep : List (HloOp τ sig (Elt F))).Forall WritesAbove := by
  simp only [opsPrep, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsIn_above : (opsIn : List (HloOp τ sig (Elt F))).Forall WritesAbove := by
  simp only [opsIn, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL0_above : (opsL0 : List (HloOp τ sig (Elt F))).Forall WritesAbove := by
  simp only [opsL0, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL1_above : (opsL1 : List (HloOp τ sig (Elt F))).Forall WritesAbove := by
  simp only [opsL1, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL2_above : (opsL2 : List (HloOp τ sig (Elt F))).Forall WritesAbove := by
  simp only [opsL2, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL3_above : (opsL3 : List (HloOp τ sig (Elt F))).Forall WritesAbove := by
  simp only [opsL3, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL4_above : (opsL4 : List (HloOp τ sig (Elt F))).Forall WritesAbove := by
  simp only [opsL4, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL5_above : (opsL5 : List (HloOp τ sig (Elt F))).Forall WritesAbove := by
  simp only [opsL5, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL6_above : (opsL6 : List (HloOp τ sig (Elt F))).Forall WritesAbove := by
  simp only [opsL6, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsL7_above : (opsL7 : List (HloOp τ sig (Elt F))).Forall WritesAbove := by
  simp only [opsL7, List.forall_append, List.Forall, WritesAbove, nullary_writes, unary_writes, binary_writes, ternary_writes, reshape_writes,
    Finset.mem_singleton]
  repeat' apply And.intro
  all_goals (intro r h; obtain rfl := Proc.devRef_injective _ h; decide)

set_option maxRecDepth 4096 in
theorem opsOut_above : (opsOut : List (HloOp τ sig (Elt F))).Forall WritesAbove := by
  simp only [opsOut, List.Forall, WritesAbove, nullary_writes, unary_writes, binary_writes, ternary_writes, reshape_writes,
    Finset.mem_singleton]
  repeat' apply And.intro
  all_goals (intro r h; obtain rfl := Proc.devRef_injective _ h; decide)

theorem ops_above : (ops : List (HloOp τ sig (Elt F))).Forall WritesAbove := by
  simp only [ops, List.forall_append, and_assoc]
  exact ⟨opsPrep_above, opsIn_above, opsL0_above, opsL1_above, opsL2_above, opsL3_above, opsL4_above, opsL5_above, opsL6_above, opsL7_above, opsOut_above⟩

theorem arg_kept (V : Valuation τ sig (Elt F)) (r : Ref sig .tc) (hr : r.idx.val < 20) :
    after ops V (r : DevRef τ sig) = V (r : DevRef τ sig) :=
  keeps_of_above ops_above V r hr

theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

end Cert.ReferenceIdeal.RefRun

end
-- ==== Proof.RRead0.Pieces.lean ====
import proofs.«428538_j32280974197073_1_alg».proof.Proof.RefRun.Ops
import Idealize.ShloMosaic.PureOps.Ideal

noncomputable section

namespace Cert.ReferenceIdeal.RRead0

open Cert.ReferenceIdeal Cert.ReferenceIdeal.RefRun
open Idealize.ShloMosaic Idealize.ShloMosaic.TcCoe Idealize.ShloMosaic.StableHlo

section
variable [Facts]
open Facts₀ Facts

/-- The first two stretches' pieces at the ideal values, and with each the buffers it writes, one per operation. -/
abbrev prepA : List (HloOp τ sig (Elt Ideal)) := opsPrepA (F := Ideal)
abbrev prepB : List (HloOp τ sig (Elt Ideal)) := opsPrepB (F := Ideal)
abbrev inA : List (HloOp τ sig (Elt Ideal)) := opsInA (F := Ideal)
abbrev inB : List (HloOp τ sig (Elt Ideal)) := opsInB (F := Ideal)
abbrev inC : List (HloOp τ sig (Elt Ideal)) := opsInC (F := Ideal)
abbrev inD : List (HloOp τ sig (Elt Ideal)) := opsInD (F := Ideal)
abbrev inE : List (HloOp τ sig (Elt Ideal)) := opsInE (F := Ideal)

noncomputable def prepAWrites : List (Ref sig .tc) :=
  [
    main_v0, main_v1, main_v2, main_v3, main_v4, main_v5, main_v6 ]

noncomputable def prepBWrites : List (Ref sig .tc) :=
  [
    main_cst, main_v7, main_cst_0, main_v8, main_v9, main_v10, main_cst_1, main_v11, main_v12, main_cst_2, main_v13,
    main_v14, main_v15, main_cst_3, main_call0_v0, main_call0_v1, main_v16, main_c, main_v17, main_v18, main_c_4,
    main_v19, main_v20, main_v21, main_v22, main_v23, main_c_5, main_v24, main_v25, main_c_6, main_v26, main_v27,
    main_v28, main_v29, main_v30, main_v31, main_v32 ]

noncomputable def inAWrites : List (Ref sig .tc) :=
  [
    main_v33, main_v34, main_v35, main_v36 ]

noncomputable def inBWrites : List (Ref sig .tc) :=
  [
    main_cst_7, main_v37, main_cst_8, main_v38, main_v39, main_c_9, main_call1_cst, main_call1_v0, main_call1_v1,
    main_call1_cst_0, main_call1_v2, main_call1_v3, main_call1_v4, main_call1_v5, main_call1_v6, main_call1_v7,
    main_call1_cst_1, main_call1_v8, main_call1_cst_2, main_call1_v9, main_call1_v10, main_call1_v11,
    main_call1_cst_3, main_call1_v12, main_call1_cst_4, main_call1_call0_v0, main_call1_call0_v1, main_v40 ]

noncomputable def inCWrites : List (Ref sig .tc) :=
  [
    main_v41, main_v42, main_v43, main_cst_10, main_v44, main_v45, main_v46, main_v47, main_v48, main_v49, main_v50,
    main_v51, main_v52, main_v53, main_v54, main_v55, main_call2_cst, main_call2_v0, main_v56, main_v57, main_v58,
    main_v59, main_v60 ]

noncomputable def inDWrites : List (Ref sig .tc) :=
  [
    main_v61, main_v62, main_v63, main_v64, main_v65, main_v66, main_v67, main_v68, main_v69, main_v70, main_v71,
    main_v72, main_cst_11, main_call3_cst, main_call3_v0, main_call3_v1, main_call3_v2, main_call3_v3, main_call3_v4,
    main_v73, main_v74, main_v75, main_v76, main_v77, main_v78, main_v79, main_cst_12, main_v80, main_v81,
    main_cst_13, main_v82, main_v83, main_v84, main_v85 ]

noncomputable def inEWrites : List (Ref sig .tc) :=
  [
    main_v86, main_v87, main_v88 ]

end

end Cert.ReferenceIdeal.RRead0

end
-- ==== Proof.RReadLayer.lean ====
import proofs.«428538_j32280974197073_1_alg».proof.ReferenceIdeal
import proofs.«428538_j32280974197073_1_alg».proof.Proof.Spec
import proofs.«428538_j32280974197073_1_alg».proof.Proof.ReadOps
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Run

set_option pp.maxSteps 5000
set_option pp.deepTerms false

noncomputable section

open scoped BigOperators

namespace Cert.ReferenceIdeal.RReadLayer

open Cert.ReferenceIdeal
open Idealize.ShloMosaic Idealize.ShloMosaic.ValueIdx

variable [Facts]
open Facts₀ Facts

def scatR (m : FVec Ideal S50000x64 .f32) (src : IVec S850000 32) (enorm : FVec Ideal S850000x1 .f32) (dst : IVec S850000 32) :
    FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (Host.gather gather_S50000x64_S850000x1_S850000x64_1_0_n_n_0_1_164 m
            (broadcastInDim S850000x1 ![0] bcast_S850000_S850000x1_0
              (select (cmpi .slt src (broadcastInDim S850000 ![] bcast_S_S850000 (constantI S_ 32 0#32)))
                (addi src (broadcastInDim S850000 ![] bcast_S_S850000 (constantI S_ 32 50000#32))) src)))
      (broadcastInDim S850000x64 ![0, 1] bcast_S850000x1_S850000x64_0_1 enorm))

def sum64R (a : FVec Ideal S50000x64 .f32) : FVec Ideal S64 .f32 :=
  Host.reduceAdd a (constant (F := Ideal) S_ .f32 0x00000000#32) reducesTo_S50000x64_S64_d0 h_S_

def var64R (a : FVec Ideal S50000x64 .f32) : FVec Ideal S64 .f32 :=
  select
    (broadcastInDim S64 ![] bcast_S_S64
      (cmpf .ogt (subf (constant (F := Ideal) S_ .f32 0x47435000#32) (sitofp .f32 (constantI S_ 32 0#32)))
        (constant (F := Ideal) S_ .f32 0x00000000#32)))
    (Host.divf
      (Host.reduceAdd
        (mulf
          (subf a (broadcastInDim S50000x64 ![0, 1] bcast_S1x64_S50000x64_0_1
            (Host.divf (broadcastInDim S1x64 ![1] bcast_S64_S1x64_1
                (Host.reduceAdd a (constant (F := Ideal) S_ .f32 0x00000000#32) reducesTo_S50000x64_S64_d0 h_S_))
              (broadcastInDim S1x64 ![] bcast_S_S1x64 (constant (F := Ideal) S_ .f32 0x47435000#32)))))
          (subf a (broadcastInDim S50000x64 ![0, 1] bcast_S1x64_S50000x64_0_1
            (Host.divf (broadcastInDim S1x64 ![1] bcast_S64_S1x64_1
                (Host.reduceAdd a (constant (F := Ideal) S_ .f32 0x00000000#32) reducesTo_S50000x64_S64_d0 h_S_))
              (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64
        (subf (constant (F := Ideal) S_ .f32 0x47435000#32) (sitofp .f32 (constantI S_ 32 0#32)))))
    (broadcastInDim S64 ![] bcast_S_S64 (id (constant (F := Ideal) S_ .f32 0x7FC00000#32)))

def rows64 (v : FVec Ideal S64 .f32) : FVec Ideal S50000x64 .f32 :=
  broadcastInDim S50000x64 ![0, 1] bcast_S1x64_S50000x64_0_1 (broadcastInDim S1x64 ![1] bcast_S64_S1x64_1 v)

def aggR (sc : FVec Ideal S50000x64 .f32) (b : FVec Ideal S64 .f32) : FVec Ideal S50000x64 .f32 :=
  addf sc (rows64 b)

def hrawR (A : FVec Ideal S50000x64 .f32) (g be : FVec Ideal S64 .f32) : FVec Ideal S50000x64 .f32 :=
  maximumf
    (addf
      (mulf
        (mulf
          (subf A (rows64 (Host.divf (sum64R A) (broadcastInDim S64 ![] bcast_S_S64 (constant (F := Ideal) S_ .f32 0x47435000#32)))))
          (rows64 (Host.rsqrt (addf (var64R A) (broadcastInDim S64 ![] bcast_S_S64 (constant (F := Ideal) S_ .f32 0x3727C5AC#32))))))
        (rows64 g))
      (rows64 be))
    (broadcastInDim S50000x64 ![] bcast_S_S50000x64 (constant (F := Ideal) S_ .f32 0x00000000#32))

def gateR (h fu : FVec Ideal S50000x64 .f32) (lw1 : FVec Ideal S64x4 .f32) (lb1 : FVec Ideal S4 .f32)
    (lw2 : FVec Ideal S4x1 .f32) (lb2 : FVec Ideal S1 .f32) : FVec Ideal S50000x1 .f32 :=
  Host.divf (broadcastInDim S50000x1 ![] bcast_S_S50000x1 (constant (F := Ideal) S_ .f32 0x3F800000#32))
    (addf (broadcastInDim S50000x1 ![] bcast_S_S50000x1 (constant (F := Ideal) S_ .f32 0x3F800000#32))
      (Host.exp (Host.negf
        (addf
          (Host.dotGeneral dot_S50000x4_S4x1_S50000x1_1_0_0_1_n_n none
            (select
              (cmpf .oge
                (addf (Host.dotGeneral dot_S50000x64_S64x4_S50000x4_1_0_0_1_n_n none (subf h fu) lw1)
                  (broadcastInDim S50000x4 ![0, 1] bcast_S1x4_S50000x4_0_1 (broadcastInDim S1x4 ![1] bcast_S4_S1x4_1 lb1)))
                (broadcastInDim S50000x4 ![] bcast_S_S50000x4 (constant (F := Ideal) S_ .f32 0x00000000#32)))
              (addf (Host.dotGeneral dot_S50000x64_S64x4_S50000x4_1_0_0_1_n_n none (subf h fu) lw1)
                (broadcastInDim S50000x4 ![0, 1] bcast_S1x4_S50000x4_0_1 (broadcastInDim S1x4 ![1] bcast_S4_S1x4_1 lb1)))
              (mulf (broadcastInDim S50000x4 ![] bcast_S_S50000x4 (constant (F := Ideal) S_ .f32 0x3E4CCCCD#32))
                (addf (Host.dotGeneral dot_S50000x64_S64x4_S50000x4_1_0_0_1_n_n none (subf h fu) lw1)
                  (broadcastInDim S50000x4 ![0, 1] bcast_S1x4_S50000x4_0_1 (broadcastInDim S1x4 ![1] bcast_S4_S1x4_1 lb1)))))
            lw2)
          (broadcastInDim S50000x1 ![0, 1] bcast_S1x1_S50000x1_0_1 (broadcastInDim S1x1 ![1] bcast_S1_S1x1_1 lb2))))))

def gatedR (h fu : FVec Ideal S50000x64 .f32) (lw1 : FVec Ideal S64x4 .f32) (lb1 : FVec Ideal S4 .f32)
    (lw2 : FVec Ideal S4x1 .f32) (lb2 : FVec Ideal S1 .f32) : FVec Ideal S50000x64 .f32 :=
  mulf h (broadcastInDim S50000x64 ![0, 1] bcast_S50000x1_S50000x64_0_1 (gateR h fu lw1 lb1 lw2 lb2))

def fusedR (h fu : FVec Ideal S50000x64 .f32) (lw1 : FVec Ideal S64x4 .f32) (lb1 : FVec Ideal S4 .f32)
    (lw2 : FVec Ideal S4x1 .f32) (lb2 : FVec Ideal S1 .f32) : FVec Ideal S50000x64 .f32 :=
  addf fu (gatedR h fu lw1 lb1 lw2 lb2)

def projR (x : FVec Ideal S50000x64 .f32) (bw : FVec Ideal S64x64 .f32) : FVec Ideal S50000x64 .f32 :=
  Host.dotGeneral dot_S50000x64_S64x64_S50000x64_1_0_0_1_n_n none x bw

theorem rows64_apply (v : FVec Ideal S64 .f32) (i : Fin 50000) (k : Fin 64) : rows64 v (ix2 i k) = v (ix1 k) := by
  unfold rows64
  rw [ReadOps.broadcastInDim_rows64_apply, ReadOps.broadcastInDim_row64_apply]

theorem aggR_apply (sc : FVec Ideal S50000x64 .f32) (b : FVec Ideal S64 .f32) (i : Fin 50000) (j : Fin 64) :
    aggR sc b (ix2 i j) = sc (ix2 i j) + b (ix1 j) := by
  unfold aggR
  rw [addf_apply, rows64_apply]

theorem hrawR_apply (A : FVec Ideal S50000x64 .f32) (g be : FVec Ideal S64 .f32) (i : Fin 50000) (j : Fin 64) :
    hrawR A g be (ix2 i j)
      = Cert.Spec.hraw (fun k => A (ix2 i k)) (fun k => Cert.Spec.meanOf (sum64R A (ix1 k))) (fun k => var64R A (ix1 k))
          (fun k => g (ix1 k)) (fun k => be (ix1 k)) j := by
  unfold hrawR
  rw [ReadOps.relu_apply, addf_apply, mulf_apply, mulf_apply, subf_apply, rows64_apply, rows64_apply, rows64_apply, rows64_apply]
  rfl

theorem gateR_apply (h fu : FVec Ideal S50000x64 .f32) (lw1 : FVec Ideal S64x4 .f32) (lb1 : FVec Ideal S4 .f32)
    (lw2 : FVec Ideal S4x1 .f32) (lb2 : FVec Ideal S1 .f32) (i : Fin 50000) :
    gateR h fu lw1 lb1 lw2 lb2 (ix2 i 0)
      = Cert.Spec.gate (fun k => h (ix2 i k) - fu (ix2 i k)) (fun k a => lw1 (ix2 k a)) (fun a => lb1 (ix1 a))
          (fun a => lw2 (ix2 a 0)) (lb2 (ix1 0)) := by
  unfold gateR
  rw [ReadOps.logistic_apply, addf_apply, ReadOps.dotGeneral_4x1_apply, ReadOps.broadcastInDim_rows1_apply,
    ReadOps.broadcastInDim_row1_apply]
  unfold Cert.Spec.gate
  congr 2
  refine Finset.sum_congr rfl fun a _ => ?_
  rw [ReadOps.leaky_apply, addf_apply, ReadOps.dotGeneral_64x4_apply, ReadOps.broadcastInDim_rows4_apply,
    ReadOps.broadcastInDim_row4_apply]
  rfl

theorem gatedR_apply (h fu : FVec Ideal S50000x64 .f32) (lw1 : FVec Ideal S64x4 .f32) (lb1 : FVec Ideal S4 .f32)
    (lw2 : FVec Ideal S4x1 .f32) (lb2 : FVec Ideal S1 .f32) (i : Fin 50000) (j : Fin 64) :
    gatedR h fu lw1 lb1 lw2 lb2 (ix2 i j)
      = Cert.Spec.gated (fun k => h (ix2 i k)) (fun k => h (ix2 i k) - fu (ix2 i k)) (fun k a => lw1 (ix2 k a))
          (fun a => lb1 (ix1 a)) (fun a => lw2 (ix2 a 0)) (lb2 (ix1 0)) j := by
  unfold gatedR
  rw [mulf_apply, ReadOps.broadcastInDim_col64_apply, gateR_apply]
  rfl

theorem fusedR_apply (h fu : FVec Ideal S50000x64 .f32) (lw1 : FVec Ideal S64x4 .f32) (lb1 : FVec Ideal S4 .f32)
    (lw2 : FVec Ideal S4x1 .f32) (lb2 : FVec Ideal S1 .f32) (i : Fin 50000) (j : Fin 64) :
    fusedR h fu lw1 lb1 lw2 lb2 (ix2 i j)
      = fu (ix2 i j) + Cert.Spec.gated (fun k => h (ix2 i k)) (fun k => h (ix2 i k) - fu (ix2 i k)) (fun k a => lw1 (ix2 k a))
          (fun a => lb1 (ix1 a)) (fun a => lw2 (ix2 a 0)) (lb2 (ix1 0)) j := by
  unfold fusedR
  rw [addf_apply, gatedR_apply]

theorem projR_apply (x : FVec Ideal S50000x64 .f32) (bw : FVec Ideal S64x64 .f32) (i : Fin 50000) (j : Fin 64) :
    projR x bw (ix2 i j) = Cert.Spec.proj (fun k => x (ix2 i k)) (fun k q => bw (ix2 k q)) j := by
  unfold projR
  rw [ReadOps.dotGeneral_64x64_apply]
  rfl

open Idealize.ShloMosaic.StableHlo in

theorem ofBuf_toBuf {Val : EltTy → Type} {T : BufTy} (x : TRef sig T) (v : T.Contents Val) : x.ofBuf (x.toBuf v) = v := by
  obtain ⟨r, h, _, _⟩ := x
  subst h
  rfl

end Cert.ReferenceIdeal.RReadLayer

end
-- ==== Proof.RRead0.lean ====
import proofs.«428538_j32280974197073_1_alg».proof.Proof.RRead0.Pieces
import proofs.«428538_j32280974197073_1_alg».proof.Proof.ReadOps
import proofs.«428538_j32280974197073_1_alg».proof.Proof.Spec
import proofs.«428538_j32280974197073_1_alg».proof.Proof.Pack
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RRead0

open Cert.ReferenceIdeal Cert.ReferenceIdeal.RefRun
open Cert.ReferenceIdeal.RReadLayer (ofBuf_toBuf)
open Idealize.ShloMosaic Idealize.ShloMosaic.TcCoe Idealize.ShloMosaic.StableHlo Idealize.ShloMosaic.ValueIdx

section
variable [Facts]
open Facts₀ Facts

noncomputable def srcOf (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

noncomputable def dstOf (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

noncomputable def degOf (dst : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

noncomputable def dinvOf (deg : FVec Ideal S50000 .f32) : FVec Ideal S50000 .f32 :=
  select (cmpf .ogt deg (broadcastInDim S50000 ![] bcast_S_S50000 (constant S_ .f32 0x00000000#32)))
    (Host.rsqrt (maximumf deg (broadcastInDim S50000 ![] bcast_S_S50000 (constant S_ .f32 0x3F800000#32))))
    (broadcastInDim S50000 ![] bcast_S_S50000 (constant S_ .f32 0x00000000#32))

noncomputable def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

noncomputable def enormFrom (src dst : IVec S850000 32) : FVec Ideal S850000x1 .f32 :=
  broadcastInDim S850000x1 ![0] bcast_S850000_S850000x1_0
    (mulf (Host.gather gather_S50000_S850000x1_S850000_n_0_n_n_0_1_1 (dinvOf (degOf dst)) (wrapIdx src))
      (Host.gather gather_S50000_S850000x1_S850000_n_0_n_n_0_1_1 (dinvOf (degOf dst)) (wrapIdx dst)))

noncomputable def enormOf (ei : IVec S2x800000 32) : FVec Ideal S850000x1 .f32 := enormFrom (srcOf ei) (dstOf ei)

noncomputable def prepWrites : List (Ref sig .tc) := prepAWrites ++ prepBWrites

noncomputable def inWrites : List (Ref sig .tc) := inAWrites ++ (inBWrites ++ (inCWrites ++ (inDWrites ++ inEWrites)))

theorem after_append' (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem opsPrep_eq : (opsPrep (F := Ideal)) = prepA ++ prepB := rfl

theorem opsIn_eq : (opsIn (F := Ideal)) = inA ++ (inB ++ (inC ++ (inD ++ inE))) := rfl

theorem prepA_writes_sub :
    (prepA : List (HloOp τ sig (Elt Ideal))).Forall fun op => op.writes ⊆ (prepAWrites.map (Proc.devRef (τ := τ) .tc)).toFinset := by
  unfold prepA opsPrepA
  simp only [List.Forall, nullary_writes, unary_writes, binary_writes, ternary_writes, reshape_writes, Finset.singleton_subset_iff, List.mem_toFinset]
  repeat' apply And.intro
  all_goals exact List.mem_map_of_mem (by decide)

theorem prepA_keep (W : Valuation τ sig (Elt Ideal)) {r : Ref sig .tc} (hr : r ∉ prepAWrites) :
    after prepA W (r : DevRef τ sig) = W (r : DevRef τ sig) :=
  after_of_writes_sub _ W prepA_writes_sub hr

theorem prepB_writes_sub :
    (prepB : List (HloOp τ sig (Elt Ideal))).Forall fun op => op.writes ⊆ (prepBWrites.map (Proc.devRef (τ := τ) .tc)).toFinset := by
  unfold prepB opsPrepB
  simp only [List.Forall, nullary_writes, unary_writes, binary_writes, ternary_writes, reshape_writes, Finset.singleton_subset_iff, List.mem_toFinset]
  repeat' apply And.intro
  all_goals exact List.mem_map_of_mem (by decide)

theorem prepB_keep (W : Valuation τ sig (Elt Ideal)) {r : Ref sig .tc} (hr : r ∉ prepBWrites) :
    after prepB W (r : DevRef τ sig) = W (r : DevRef τ sig) :=
  after_of_writes_sub _ W prepB_writes_sub hr

attribute [local irreducible] Host.gather Host.scatterAdd Host.reduceAdd concatenate iotaInDim in
set_option maxRecDepth 8192 in

theorem prepA_v3 (W : Valuation τ sig (Elt Ideal)) :
    after prepA W (main_v3 : DevRef τ sig) = srcOf (W (main_arg1 : DevRef τ sig)) := by
  simp only [after_cons, after_nil]
  rfl

attribute [local irreducible] Host.gather Host.scatterAdd Host.reduceAdd concatenate iotaInDim in
set_option maxRecDepth 8192 in

theorem prepA_v6 (W : Valuation τ sig (Elt Ideal)) :
    after prepA W (main_v6 : DevRef τ sig) = dstOf (W (main_arg1 : DevRef τ sig)) := by
  simp only [after_cons, after_nil]
  rfl

attribute [local irreducible] Host.gather Host.scatterAdd Host.reduceAdd concatenate iotaInDim in
set_option maxRecDepth 8192 in
set_option maxHeartbeats 1000000 in

theorem prepB_v32 (W : Valuation τ sig (Elt Ideal)) :
    after prepB W (main_v32 : DevRef τ sig) = enormFrom (W (main_v3 : DevRef τ sig)) (W (main_v6 : DevRef τ sig)) := by
  after_results_simp
  try simp only [ofBuf_toBuf]
  rfl

theorem prep_v3 (W : Valuation τ sig (Elt Ideal)) :
    after (opsPrep (F := Ideal)) W (main_v3 : DevRef τ sig) = srcOf (W (main_arg1 : DevRef τ sig)) := by
  rw [opsPrep_eq, after_append', prepB_keep (r := main_v3) _ (by decide), prepA_v3]

theorem prep_v6 (W : Valuation τ sig (Elt Ideal)) :
    after (opsPrep (F := Ideal)) W (main_v6 : DevRef τ sig) = dstOf (W (main_arg1 : DevRef τ sig)) := by
  rw [opsPrep_eq, after_append', prepB_keep (r := main_v6) _ (by decide), prepA_v6]

theorem prep_v32 (W : Valuation τ sig (Elt Ideal)) :
    after (opsPrep (F := Ideal)) W (main_v32 : DevRef τ sig) = enormOf (W (main_arg1 : DevRef τ sig)) := by
  rw [opsPrep_eq, after_append', prepB_v32, prepA_v3, prepA_v6]
  rfl

theorem prep_keep (W : Valuation τ sig (Elt Ideal)) {r : Ref sig .tc} (hr : r ∉ prepWrites) :
    after (opsPrep (F := Ideal)) W (r : DevRef τ sig) = W (r : DevRef τ sig) := by
  have h := hr
  unfold prepWrites at h
  simp only [List.mem_append, not_or] at h
  rw [opsPrep_eq, after_append', prepB_keep _ h.2, prepA_keep _ h.1]

noncomputable def rows128 (v : FVec Ideal S128 .f32) : FVec Ideal S50000x128 .f32 :=
  broadcastInDim S50000x128 ![0, 1] bcast_S1x128_S50000x128_0_1 (broadcastInDim S1x128 ![1] bcast_S128_S1x128_1 v)

noncomputable def rows64 (v : FVec Ideal S64 .f32) : FVec Ideal S50000x64 .f32 :=
  broadcastInDim S50000x64 ![0, 1] bcast_S1x64_S50000x64_0_1 (broadcastInDim S1x64 ![1] bcast_S64_S1x64_1 v)

noncomputable def preT (x : FVec Ideal S50000x128 .f32) (w1 : FVec Ideal S128x128 .f32) (b1 : FVec Ideal S128 .f32) :
    FVec Ideal S50000x128 .f32 :=
  addf (Host.dotGeneral dot_S50000x128_S128x128_S50000x128_1_0_0_1_n_n none x w1) (rows128 b1)

noncomputable def sum128R (a : FVec Ideal S50000x128 .f32) : FVec Ideal S128 .f32 :=
  Host.reduceAdd a (constant S_ .f32 0x00000000#32) reducesTo_S50000x128_S128_d0 h_S_

noncomputable def var128R (a : FVec Ideal S50000x128 .f32) : FVec Ideal S128 .f32 :=
  (fun p u v => select (broadcastInDim S128 ![] bcast_S_S128 p) u v)
    (cmpf .ogt (subf (constant S_ .f32 0x47435000#32) (sitofp .f32 (constantI S_ 32 0#32) : FVec Ideal S_ .f32)) (constant S_ .f32 0x00000000#32))
    (Host.divf
      (Host.reduceAdd
        (mulf
          (subf a (broadcastInDim S50000x128 ![0, 1] bcast_S1x128_S50000x128_0_1
            (Host.divf (broadcastInDim S1x128 ![1] bcast_S128_S1x128_1 (sum128R a))
              (broadcastInDim S1x128 ![] bcast_S_S1x128 (constant S_ .f32 0x47435000#32)))))
          (subf a (broadcastInDim S50000x128 ![0, 1] bcast_S1x128_S50000x128_0_1
            (Host.divf (broadcastInDim S1x128 ![1] bcast_S128_S1x128_1 (sum128R a))
              (broadcastInDim S1x128 ![] bcast_S_S1x128 (constant S_ .f32 0x47435000#32))))))
        (constant S_ .f32 0x00000000#32) reducesTo_S50000x128_S128_d0 h_S_)
      (broadcastInDim S128 ![] bcast_S_S128
        (subf (constant S_ .f32 0x47435000#32) (sitofp .f32 (constantI S_ 32 0#32) : FVec Ideal S_ .f32))))
    (broadcastInDim S128 ![] bcast_S_S128 (constant S_ .f32 0x7FC00000#32))

noncomputable def meanT (p : FVec Ideal S50000x128 .f32) : FVec Ideal S128 .f32 :=
  Host.divf (sum128R p) (broadcastInDim S128 ![] bcast_S_S128 (constant S_ .f32 0x47435000#32))

noncomputable def hinFrom (p : FVec Ideal S50000x128 .f32) (mean var g be : FVec Ideal S128 .f32) (w2 : FVec Ideal S128x64 .f32)
    (b2 : FVec Ideal S64 .f32) : FVec Ideal S50000x64 .f32 :=
  addf
    (Host.dotGeneral dot_S50000x128_S128x64_S50000x64_1_0_0_1_n_n none
      (maximumf
        (addf
          (mulf
            (mulf (subf p (rows128 mean))
              (rows128 (Host.rsqrt (addf var (broadcastInDim S128 ![] bcast_S_S128 (constant S_ .f32 0x3727C5AC#32))))))
            (rows128 g))
          (rows128 be))
        (broadcastInDim S50000x128 ![] bcast_S_S50000x128 (constant S_ .f32 0x00000000#32)))
      w2)
    (rows64 b2)

noncomputable def hinT (p : FVec Ideal S50000x128 .f32) (g be : FVec Ideal S128 .f32) (w2 : FVec Ideal S128x64 .f32)
    (b2 : FVec Ideal S64 .f32) : FVec Ideal S50000x64 .f32 :=
  hinFrom p (meanT p) (var128R p) g be w2 b2

noncomputable def gate0T (d : FVec Ideal S50000x64 .f32) (lw1 : FVec Ideal S9x64x4 .f32) (lb1 : FVec Ideal S9x4 .f32)
    (lw2 : FVec Ideal S9x4x1 .f32) (lb2 : FVec Ideal S9x1 .f32) : FVec Ideal S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf
        (addf
          (Host.dotGeneral dot_S50000x4_S4x1_S50000x1_1_0_0_1_n_n none
            (select
              (cmpf .oge
                (addf
                  (Host.dotGeneral dot_S50000x64_S64x4_S50000x4_1_0_0_1_n_n none d
                    (shapeCast S64x4 (extractStridedSlice S1x64x4 ![0, 0, 0] lw1 slices_S9x64x4_S1x64x4_0_0_0) shapeCasts_S1x64x4_S64x4))
                  (broadcastInDim S50000x4 ![0, 1] bcast_S1x4_S50000x4_0_1 (broadcastInDim S1x4 ![1] bcast_S4_S1x4_1
                    (shapeCast S4 (extractStridedSlice S1x4 ![0, 0] lb1 slices_S9x4_S1x4_0_0) shapeCasts_S1x4_S4))))
                (broadcastInDim S50000x4 ![] bcast_S_S50000x4 (constant S_ .f32 0x00000000#32)))
              (addf
                (Host.dotGeneral dot_S50000x64_S64x4_S50000x4_1_0_0_1_n_n none d
                  (shapeCast S64x4 (extractStridedSlice S1x64x4 ![0, 0, 0] lw1 slices_S9x64x4_S1x64x4_0_0_0) shapeCasts_S1x64x4_S64x4))
                (broadcastInDim S50000x4 ![0, 1] bcast_S1x4_S50000x4_0_1 (broadcastInDim S1x4 ![1] bcast_S4_S1x4_1
                  (shapeCast S4 (extractStridedSlice S1x4 ![0, 0] lb1 slices_S9x4_S1x4_0_0) shapeCasts_S1x4_S4))))
              (mulf (broadcastInDim S50000x4 ![] bcast_S_S50000x4 (constant S_ .f32 0x3E4CCCCD#32))
                (addf
                  (Host.dotGeneral dot_S50000x64_S64x4_S50000x4_1_0_0_1_n_n none d
                    (shapeCast S64x4 (extractStridedSlice S1x64x4 ![0, 0, 0] lw1 slices_S9x64x4_S1x64x4_0_0_0) shapeCasts_S1x64x4_S64x4))
                  (broadcastInDim S50000x4 ![0, 1] bcast_S1x4_S50000x4_0_1 (broadcastInDim S1x4 ![1] bcast_S4_S1x4_1
                    (shapeCast S4 (extractStridedSlice S1x4 ![0, 0] lb1 slices_S9x4_S1x4_0_0) shapeCasts_S1x4_S4))))))
            (shapeCast S4x1 (extractStridedSlice S1x4x1 ![0, 0, 0] lw2 slices_S9x4x1_S1x4x1_0_0_0) shapeCasts_S1x4x1_S4x1))
          (broadcastInDim S50000x1 ![0, 1] bcast_S1x1_S50000x1_0_1 (broadcastInDim S1x1 ![1] bcast_S1_S1x1_1
            (shapeCast S1 (extractStridedSlice S1x1 ![0, 0] lb2 slices_S9x1_S1x1_0_0) shapeCasts_S1x1_S1)))))))

noncomputable def scaleT (h : FVec Ideal S50000x64 .f32) (g : FVec Ideal S50000x1 .f32) : FVec Ideal S50000x64 .f32 :=
  mulf h (broadcastInDim S50000x64 ![0, 1] bcast_S50000x1_S50000x64_0_1 g)

noncomputable def h0From (h : FVec Ideal S50000x64 .f32) (lw1 : FVec Ideal S9x64x4 .f32) (lb1 : FVec Ideal S9x4 .f32)
    (lw2 : FVec Ideal S9x4x1 .f32) (lb2 : FVec Ideal S9x1 .f32) : FVec Ideal S50000x64 .f32 :=
  scaleT h (gate0T h lw1 lb1 lw2 lb2)

noncomputable def h0T (p : FVec Ideal S50000x128 .f32) (g be : FVec Ideal S128 .f32) (w2 : FVec Ideal S128x64 .f32) (b2 : FVec Ideal S64 .f32)
    (lw1 : FVec Ideal S9x64x4 .f32) (lb1 : FVec Ideal S9x4 .f32) (lw2 : FVec Ideal S9x4x1 .f32) (lb2 : FVec Ideal S9x1 .f32) :
    FVec Ideal S50000x64 .f32 :=
  h0From (hinT p g be w2 b2) lw1 lb1 lw2 lb2

noncomputable def proj0T (h : FVec Ideal S50000x64 .f32) (bw : FVec Ideal S8x64x64 .f32) : FVec Ideal S50000x64 .f32 :=
  Host.dotGeneral dot_S50000x64_S64x64_S50000x64_1_0_0_1_n_n none h
    (shapeCast S64x64 (extractStridedSlice S1x64x64 ![0, 0, 0] bw slices_S8x64x64_S1x64x64_0_0_0) shapeCasts_S1x64x64_S64x64)

attribute [local irreducible] Host.gather Host.scatterAdd Host.reduceAdd concatenate iotaInDim in
set_option maxRecDepth 8192 in
set_option maxHeartbeats 1000000 in

theorem inA_v36 (W : Valuation τ sig (Elt Ideal)) :
    after inA W (main_v36 : DevRef τ sig) = preT (W (main_arg0 : DevRef τ sig)) (W (main_arg2 : DevRef τ sig)) (W (main_arg3 : DevRef τ sig)) := by
  after_results_simp
  rfl

attribute [local irreducible] Host.gather Host.scatterAdd Host.reduceAdd concatenate iotaInDim in
set_option maxRecDepth 8192 in
set_option maxHeartbeats 1000000 in

theorem inB_v39 (W : Valuation τ sig (Elt Ideal)) :
    after inB W (main_v39 : DevRef τ sig) = meanT (W (main_v36 : DevRef τ sig)) := by
  after_results_simp
  try simp only [ofBuf_toBuf]
  rfl

attribute [local irreducible] Host.gather Host.scatterAdd Host.reduceAdd concatenate iotaInDim in
set_option maxRecDepth 8192 in
set_option maxHeartbeats 1000000 in

theorem inB_v40 (W : Valuation τ sig (Elt Ideal)) :
    after inB W (main_v40 : DevRef τ sig) = var128R (W (main_v36 : DevRef τ sig)) := by
  after_results_simp
  try simp only [ofBuf_toBuf]
  rfl

attribute [local irreducible] Host.gather Host.scatterAdd Host.reduceAdd concatenate iotaInDim in
set_option maxRecDepth 8192 in
set_option maxHeartbeats 1000000 in

theorem inC_v60 (W : Valuation τ sig (Elt Ideal)) :
    after inC W (main_v60 : DevRef τ sig)
      = hinFrom (W (main_v36 : DevRef τ sig)) (W (main_v39 : DevRef τ sig)) (W (main_v40 : DevRef τ sig)) (W (main_arg4 : DevRef τ sig)) (W (main_arg5 : DevRef τ sig))
          (W (main_arg6 : DevRef τ sig)) (W (main_arg7 : DevRef τ sig)) := by
  after_results_simp
  try simp only [ofBuf_toBuf]
  rfl

attribute [local irreducible] Host.gather Host.scatterAdd Host.reduceAdd concatenate iotaInDim in
set_option maxRecDepth 8192 in
set_option maxHeartbeats 1000000 in

theorem inD_v85 (W : Valuation τ sig (Elt Ideal)) :
    after inD W (main_v85 : DevRef τ sig)
      = h0From (W (main_v60 : DevRef τ sig)) (W (main_arg8 : DevRef τ sig)) (W (main_arg9 : DevRef τ sig)) (W (main_arg10 : DevRef τ sig)) (W (main_arg11 : DevRef τ sig)) := by
  after_results_simp
  try simp only [ofBuf_toBuf]
  rfl

attribute [local irreducible] Host.gather Host.scatterAdd Host.reduceAdd concatenate iotaInDim in
set_option maxRecDepth 8192 in
set_option maxHeartbeats 1000000 in

theorem inE_v88 (W : Valuation τ sig (Elt Ideal)) :
    after inE W (main_v88 : DevRef τ sig) = proj0T (W (main_v85 : DevRef τ sig)) (W (main_arg12 : DevRef τ sig)) := by
  after_results_simp
  rfl

theorem inA_writes_sub :
    (inA : List (HloOp τ sig (Elt Ideal))).Forall fun op => op.writes ⊆ (inAWrites.map (Proc.devRef (τ := τ) .tc)).toFinset := by
  unfold inA opsInA
  simp only [List.Forall, nullary_writes, unary_writes, binary_writes, ternary_writes, reshape_writes, Finset.singleton_subset_iff, List.mem_toFinset]
  repeat' apply And.intro
  all_goals exact List.mem_map_of_mem (by decide)

theorem inA_keep (W : Valuation τ sig (Elt Ideal)) {r : Ref sig .tc} (hr : r ∉ inAWrites) :
    after inA W (r : DevRef τ sig) = W (r : DevRef τ sig) :=
  after_of_writes_sub _ W inA_writes_sub hr

theorem inB_writes_sub :
    (inB : List (HloOp τ sig (Elt Ideal))).Forall fun op => op.writes ⊆ (inBWrites.map (Proc.devRef (τ := τ) .tc)).toFinset := by
  unfold inB opsInB
  simp only [List.Forall, nullary_writes, unary_writes, binary_writes, ternary_writes, reshape_writes, Finset.singleton_subset_iff, List.mem_toFinset]
  repeat' apply And.intro
  all_goals exact List.mem_map_of_mem (by decide)

theorem inB_keep (W : Valuation τ sig (Elt Ideal)) {r : Ref sig .tc} (hr : r ∉ inBWrites) :
    after inB W (r : DevRef τ sig) = W (r : DevRef τ sig) :=
  after_of_writes_sub _ W inB_writes_sub hr

theorem inC_writes_sub :
    (inC : List (HloOp τ sig (Elt Ideal))).Forall fun op => op.writes ⊆ (inCWrites.map (Proc.devRef (τ := τ) .tc)).toFinset := by
  unfold inC opsInC
  simp only [List.Forall, nullary_writes, unary_writes, binary_writes, ternary_writes, reshape_writes, Finset.singleton_subset_iff, List.mem_toFinset]
  repeat' apply And.intro
  all_goals exact List.mem_map_of_mem (by decide)

theorem inC_keep (W : Valuation τ sig (Elt Ideal)) {r : Ref sig .tc} (hr : r ∉ inCWrites) :
    after inC W (r : DevRef τ sig) = W (r : DevRef τ sig) :=
  after_of_writes_sub _ W inC_writes_sub hr

theorem inD_writes_sub :
    (inD : List (HloOp τ sig (Elt Ideal))).Forall fun op => op.writes ⊆ (inDWrites.map (Proc.devRef (τ := τ) .tc)).toFinset := by
  unfold inD opsInD
  simp only [List.Forall, nullary_writes, unary_writes, binary_writes, ternary_writes, reshape_writes, Finset.singleton_subset_iff, List.mem_toFinset]
  repeat' apply And.intro
  all_goals exact List.mem_map_of_mem (by decide)

theorem inD_keep (W : Valuation τ sig (Elt Ideal)) {r : Ref sig .tc} (hr : r ∉ inDWrites) :
    after inD W (r : DevRef τ sig) = W (r : DevRef τ sig) :=
  after_of_writes_sub _ W inD_writes_sub hr

theorem inE_writes_sub :
    (inE : List (HloOp τ sig (Elt Ideal))).Forall fun op => op.writes ⊆ (inEWrites.map (Proc.devRef (τ := τ) .tc)).toFinset := by
  unfold inE opsInE
  simp only [List.Forall, nullary_writes, unary_writes, binary_writes, ternary_writes, reshape_writes, Finset.singleton_subset_iff, List.mem_toFinset]
  repeat' apply And.intro
  all_goals exact List.mem_map_of_mem (by decide)

theorem inE_keep (W : Valuation τ sig (Elt Ideal)) {r : Ref sig .tc} (hr : r ∉ inEWrites) :
    after inE W (r : DevRef τ sig) = W (r : DevRef τ sig) :=
  after_of_writes_sub _ W inE_writes_sub hr

theorem keep_AB (W : Valuation τ sig (Elt Ideal)) {r : Ref sig .tc} (hA : r ∉ inAWrites) (hB : r ∉ inBWrites) :
    after inB (after inA W) (r : DevRef τ sig) = W (r : DevRef τ sig) := by
  rw [inB_keep _ hB, inA_keep _ hA]

theorem keep_ABC (W : Valuation τ sig (Elt Ideal)) {r : Ref sig .tc} (hA : r ∉ inAWrites) (hB : r ∉ inBWrites)
    (hC : r ∉ inCWrites) : after inC (after inB (after inA W)) (r : DevRef τ sig) = W (r : DevRef τ sig) := by
  rw [inC_keep _ hC, keep_AB W hA hB]

theorem keep_ABCD (W : Valuation τ sig (Elt Ideal)) {r : Ref sig .tc} (hA : r ∉ inAWrites) (hB : r ∉ inBWrites)
    (hC : r ∉ inCWrites) (hD : r ∉ inDWrites) :
    after inD (after inC (after inB (after inA W))) (r : DevRef τ sig) = W (r : DevRef τ sig) := by
  rw [inD_keep _ hD, keep_ABC W hA hB hC]

theorem upToD_v85 (W : Valuation τ sig (Elt Ideal)) :
    after inD (after inC (after inB (after inA W))) (main_v85 : DevRef τ sig)
      = h0T (preT (W (main_arg0 : DevRef τ sig)) (W (main_arg2 : DevRef τ sig)) (W (main_arg3 : DevRef τ sig)))
          (W (main_arg4 : DevRef τ sig)) (W (main_arg5 : DevRef τ sig)) (W (main_arg6 : DevRef τ sig)) (W (main_arg7 : DevRef τ sig))
          (W (main_arg8 : DevRef τ sig)) (W (main_arg9 : DevRef τ sig)) (W (main_arg10 : DevRef τ sig)) (W (main_arg11 : DevRef τ sig)) := by
  rw [inD_v85, inC_v60, inB_v39, inB_v40, inB_keep (r := main_v36) _ (by decide), inA_v36,
    keep_AB W (by decide : main_arg4 ∉ inAWrites) (by decide : main_arg4 ∉ inBWrites), keep_AB W (by decide : main_arg5 ∉ inAWrites) (by decide : main_arg5 ∉ inBWrites),
    keep_AB W (by decide : main_arg6 ∉ inAWrites) (by decide : main_arg6 ∉ inBWrites), keep_AB W (by decide : main_arg7 ∉ inAWrites) (by decide : main_arg7 ∉ inBWrites),
    keep_ABC W (by decide : main_arg8 ∉ inAWrites) (by decide : main_arg8 ∉ inBWrites) (by decide : main_arg8 ∉ inCWrites), keep_ABC W (by decide : main_arg9 ∉ inAWrites) (by decide : main_arg9 ∉ inBWrites) (by decide : main_arg9 ∉ inCWrites),
    keep_ABC W (by decide : main_arg10 ∉ inAWrites) (by decide : main_arg10 ∉ inBWrites) (by decide : main_arg10 ∉ inCWrites), keep_ABC W (by decide : main_arg11 ∉ inAWrites) (by decide : main_arg11 ∉ inBWrites) (by decide : main_arg11 ∉ inCWrites)]
  rfl

theorem in_v36 (W : Valuation τ sig (Elt Ideal)) :
    after (opsIn (F := Ideal)) W (main_v36 : DevRef τ sig)
      = preT (W (main_arg0 : DevRef τ sig)) (W (main_arg2 : DevRef τ sig)) (W (main_arg3 : DevRef τ sig)) := by
  rw [opsIn_eq, after_append', after_append', after_append', after_append', inE_keep (r := main_v36) _ (by decide), inD_keep (r := main_v36) _ (by decide),
    inC_keep (r := main_v36) _ (by decide), inB_keep (r := main_v36) _ (by decide), inA_v36]

theorem in_v85 (W : Valuation τ sig (Elt Ideal)) :
    after (opsIn (F := Ideal)) W (main_v85 : DevRef τ sig)
      = h0T (preT (W (main_arg0 : DevRef τ sig)) (W (main_arg2 : DevRef τ sig)) (W (main_arg3 : DevRef τ sig)))
          (W (main_arg4 : DevRef τ sig)) (W (main_arg5 : DevRef τ sig)) (W (main_arg6 : DevRef τ sig)) (W (main_arg7 : DevRef τ sig))
          (W (main_arg8 : DevRef τ sig)) (W (main_arg9 : DevRef τ sig)) (W (main_arg10 : DevRef τ sig)) (W (main_arg11 : DevRef τ sig)) := by
  rw [opsIn_eq, after_append', after_append', after_append', after_append', inE_keep (r := main_v85) _ (by decide), upToD_v85]

theorem in_v88 (W : Valuation τ sig (Elt Ideal)) :
    after (opsIn (F := Ideal)) W (main_v88 : DevRef τ sig)
      = proj0T
          (h0T (preT (W (main_arg0 : DevRef τ sig)) (W (main_arg2 : DevRef τ sig)) (W (main_arg3 : DevRef τ sig)))
            (W (main_arg4 : DevRef τ sig)) (W (main_arg5 : DevRef τ sig)) (W (main_arg6 : DevRef τ sig)) (W (main_arg7 : DevRef τ sig))
            (W (main_arg8 : DevRef τ sig)) (W (main_arg9 : DevRef τ sig)) (W (main_arg10 : DevRef τ sig)) (W (main_arg11 : DevRef τ sig)))
          (W (main_arg12 : DevRef τ sig)) := by
  rw [opsIn_eq, after_append', after_append', after_append', after_append', inE_v88, upToD_v85,
    keep_ABCD W (by decide : main_arg12 ∉ inAWrites) (by decide : main_arg12 ∉ inBWrites) (by decide : main_arg12 ∉ inCWrites) (by decide : main_arg12 ∉ inDWrites)]

theorem in_keep (W : Valuation τ sig (Elt Ideal)) {r : Ref sig .tc} (hr : r ∉ inWrites) :
    after (opsIn (F := Ideal)) W (r : DevRef τ sig) = W (r : DevRef τ sig) := by
  have h := hr
  unfold inWrites at h
  simp only [List.mem_append, not_or] at h
  obtain ⟨hA, hB, hC, hD, hE⟩ := h
  rw [opsIn_eq, after_append', after_append', after_append', after_append', inE_keep _ hE, inD_keep _ hD, inC_keep _ hC, inB_keep _ hB, inA_keep _ hA]

theorem rows128_apply (v : FVec Ideal S128 .f32) (i : Fin 50000) (k : Fin 128) : rows128 v (ix2 i k) = v (ix1 k) := by
  unfold rows128
  rw [ReadOps.broadcastInDim_rows128_apply, ReadOps.broadcastInDim_row128_apply]

theorem rows64_apply (v : FVec Ideal S64 .f32) (i : Fin 50000) (k : Fin 64) : rows64 v (ix2 i k) = v (ix1 k) := by
  unfold rows64
  rw [ReadOps.broadcastInDim_rows64_apply, ReadOps.broadcastInDim_row64_apply]

theorem preT_apply (x : FVec Ideal S50000x128 .f32) (w1 : FVec Ideal S128x128 .f32) (b1 : FVec Ideal S128 .f32)
    (i : Fin 50000) (j : Fin 128) :
    preT x w1 b1 (ix2 i j) = Cert.Spec.pre (Cert.Pack.mat x i) (Cert.Pack.mat w1) (Cert.Pack.row b1) j := by
  show Host.dotGeneral dot_S50000x128_S128x128_S50000x128_1_0_0_1_n_n none x w1 (ix2 i j) + rows128 b1 (ix2 i j) = _
  rw [ReadOps.dotGeneral_128x128_apply, rows128_apply]
  rfl

theorem hinT_apply (p : FVec Ideal S50000x128 .f32) (g be : FVec Ideal S128 .f32) (w2 : FVec Ideal S128x64 .f32)
    (b2 : FVec Ideal S64 .f32) (i : Fin 50000) (j : Fin 64) :
    hinT p g be w2 b2 (ix2 i j)
      = Cert.Spec.hin (Cert.Pack.mat p i) (fun k => Cert.Spec.meanOf (sum128R p (ix1 k))) (fun k => var128R p (ix1 k))
          (Cert.Pack.row g) (Cert.Pack.row be) (Cert.Pack.mat w2) (Cert.Pack.row b2) j := by
  unfold hinT hinFrom
  show Host.dotGeneral dot_S50000x128_S128x64_S50000x64_1_0_0_1_n_n none _ w2 (ix2 i j) + rows64 b2 (ix2 i j) = _
  rw [ReadOps.dotGeneral_128x64_apply, rows64_apply]
  refine congrArg (· + b2 (ix1 j)) (Finset.sum_congr rfl fun k _ => congrArg (· * w2 (ix2 k j)) ?_)
  rw [ReadOps.relu_apply]
  show Cert.Spec.relu ((p (ix2 i k) - rows128 _ (ix2 i k)) * rows128 _ (ix2 i k) * rows128 g (ix2 i k) + rows128 be (ix2 i k)) = _
  rw [rows128_apply, rows128_apply, rows128_apply, rows128_apply]
  rfl

theorem gate0T_apply (d : FVec Ideal S50000x64 .f32) (lw1 : FVec Ideal S9x64x4 .f32) (lb1 : FVec Ideal S9x4 .f32)
    (lw2 : FVec Ideal S9x4x1 .f32) (lb2 : FVec Ideal S9x1 .f32) (i : Fin 50000) :
    gate0T d lw1 lb1 lw2 lb2 (ix2 i 0)
      = Cert.Spec.gate (Cert.Pack.mat d i) (Cert.Pack.matAt lw1 0) (Cert.Pack.rowAt lb1 0) (Cert.Pack.colAt lw2 0)
          (Cert.Pack.oneAt lb2 0) := by
  unfold gate0T
  rw [ReadOps.logistic_apply]
  unfold Cert.Spec.gate
  refine congrArg Ideal.logistic ?_
  show Host.dotGeneral dot_S50000x4_S4x1_S50000x1_1_0_0_1_n_n none _ _ (ix2 i 0)
      + broadcastInDim S50000x1 ![0, 1] bcast_S1x1_S50000x1_0_1 (broadcastInDim S1x1 ![1] bcast_S1_S1x1_1 (_ : FVec Ideal S1 .f32)) (ix2 i 0) = _
  rw [ReadOps.dotGeneral_4x1_apply, ReadOps.broadcastInDim_rows1_apply, ReadOps.broadcastInDim_row1_apply, ReadOps.entry_S9x1_0]
  refine congrArg (· + lb2 (ix2 0 0)) (Finset.sum_congr rfl fun a _ => ?_)
  rw [ReadOps.entry_S9x4x1_0, ReadOps.leaky_apply]
  refine congrArg (fun t => Cert.Spec.leaky t * lw2 (ix3 0 a 0)) ?_
  show Host.dotGeneral dot_S50000x64_S64x4_S50000x4_1_0_0_1_n_n none d _ (ix2 i a)
      + broadcastInDim S50000x4 ![0, 1] bcast_S1x4_S50000x4_0_1 (broadcastInDim S1x4 ![1] bcast_S4_S1x4_1 (_ : FVec Ideal S4 .f32)) (ix2 i a) = _
  rw [ReadOps.dotGeneral_64x4_apply, ReadOps.broadcastInDim_rows4_apply, ReadOps.broadcastInDim_row4_apply, ReadOps.entry_S9x4_0]
  refine congrArg (· + lb1 (ix2 0 a)) (Finset.sum_congr rfl fun k _ => ?_)
  rw [ReadOps.entry_S9x64x4_0]
  rfl

theorem scaleT_apply (h : FVec Ideal S50000x64 .f32) (g : FVec Ideal S50000x1 .f32) (i : Fin 50000) (j : Fin 64) :
    scaleT h g (ix2 i j) = h (ix2 i j) * g (ix2 i 0) := by
  show h (ix2 i j) * broadcastInDim S50000x64 ![0, 1] bcast_S50000x1_S50000x64_0_1 g (ix2 i j) = _
  rw [ReadOps.broadcastInDim_col64_apply]

theorem h0T_apply (p : FVec Ideal S50000x128 .f32) (g be : FVec Ideal S128 .f32) (w2 : FVec Ideal S128x64 .f32)
    (b2 : FVec Ideal S64 .f32) (lw1 : FVec Ideal S9x64x4 .f32) (lb1 : FVec Ideal S9x4 .f32) (lw2 : FVec Ideal S9x4x1 .f32)
    (lb2 : FVec Ideal S9x1 .f32) (i : Fin 50000) (j : Fin 64) :
    h0T p g be w2 b2 lw1 lb1 lw2 lb2 (ix2 i j)
      = Cert.Spec.gated
          (Cert.Spec.hin (Cert.Pack.mat p i) (fun k => Cert.Spec.meanOf (sum128R p (ix1 k))) (fun k => var128R p (ix1 k))
            (Cert.Pack.row g) (Cert.Pack.row be) (Cert.Pack.mat w2) (Cert.Pack.row b2))
          (Cert.Spec.hin (Cert.Pack.mat p i) (fun k => Cert.Spec.meanOf (sum128R p (ix1 k))) (fun k => var128R p (ix1 k))
            (Cert.Pack.row g) (Cert.Pack.row be) (Cert.Pack.mat w2) (Cert.Pack.row b2))
          (Cert.Pack.matAt lw1 0) (Cert.Pack.rowAt lb1 0) (Cert.Pack.colAt lw2 0) (Cert.Pack.oneAt lb2 0) j := by
  have hrow : Cert.Pack.mat (hinT p g be w2 b2) i
      = Cert.Spec.hin (Cert.Pack.mat p i) (fun k => Cert.Spec.meanOf (sum128R p (ix1 k))) (fun k => var128R p (ix1 k))
          (Cert.Pack.row g) (Cert.Pack.row be) (Cert.Pack.mat w2) (Cert.Pack.row b2) :=
    funext fun k => hinT_apply p g be w2 b2 i k
  unfold h0T h0From
  rw [scaleT_apply, gate0T_apply, hrow, hinT_apply]
  rfl

theorem proj0T_apply (h : FVec Ideal S50000x64 .f32) (bw : FVec Ideal S8x64x64 .f32) (i : Fin 50000) (j : Fin 64) :
    proj0T h bw (ix2 i j) = Cert.Spec.proj (Cert.Pack.mat h i) (Cert.Pack.matAt bw 0) j := by
  unfold proj0T
  rw [ReadOps.dotGeneral_64x64_apply]
  refine Finset.sum_congr rfl fun k _ => ?_
  rw [ReadOps.entry_S8x64x64_0]
  rfl

noncomputable abbrev argX (W : Valuation τ sig (Elt Ideal)) : FVec Ideal S50000x128 .f32 := W (main_arg0 : DevRef τ sig)
noncomputable abbrev argW1 (W : Valuation τ sig (Elt Ideal)) : FVec Ideal S128x128 .f32 := W (main_arg2 : DevRef τ sig)
noncomputable abbrev argB1 (W : Valuation τ sig (Elt Ideal)) : FVec Ideal S128 .f32 := W (main_arg3 : DevRef τ sig)
noncomputable abbrev argG1 (W : Valuation τ sig (Elt Ideal)) : FVec Ideal S128 .f32 := W (main_arg4 : DevRef τ sig)
noncomputable abbrev argBe1 (W : Valuation τ sig (Elt Ideal)) : FVec Ideal S128 .f32 := W (main_arg5 : DevRef τ sig)
noncomputable abbrev argW2 (W : Valuation τ sig (Elt Ideal)) : FVec Ideal S128x64 .f32 := W (main_arg6 : DevRef τ sig)
noncomputable abbrev argB2 (W : Valuation τ sig (Elt Ideal)) : FVec Ideal S64 .f32 := W (main_arg7 : DevRef τ sig)
noncomputable abbrev argLw1 (W : Valuation τ sig (Elt Ideal)) : FVec Ideal S9x64x4 .f32 := W (main_arg8 : DevRef τ sig)
noncomputable abbrev argLb1 (W : Valuation τ sig (Elt Ideal)) : FVec Ideal S9x4 .f32 := W (main_arg9 : DevRef τ sig)
noncomputable abbrev argLw2 (W : Valuation τ sig (Elt Ideal)) : FVec Ideal S9x4x1 .f32 := W (main_arg10 : DevRef τ sig)
noncomputable abbrev argLb2 (W : Valuation τ sig (Elt Ideal)) : FVec Ideal S9x1 .f32 := W (main_arg11 : DevRef τ sig)
noncomputable abbrev argBw (W : Valuation τ sig (Elt Ideal)) : FVec Ideal S8x64x64 .f32 := W (main_arg12 : DevRef τ sig)

noncomputable abbrev preOf (W : Valuation τ sig (Elt Ideal)) : FVec Ideal S50000x128 .f32 := preT (argX W) (argW1 W) (argB1 W)

noncomputable abbrev hinRow (W : Valuation τ sig (Elt Ideal)) (i : Fin 50000) : Fin 64 → EReal :=
  Cert.Spec.hin (Cert.Pack.mat (preOf W) i) (fun k => Cert.Spec.meanOf (sum128R (preOf W) (ix1 k)))
    (fun k => var128R (preOf W) (ix1 k)) (Cert.Pack.row (argG1 W)) (Cert.Pack.row (argBe1 W)) (Cert.Pack.mat (argW2 W))
    (Cert.Pack.row (argB2 W))

theorem in_v36_apply (W : Valuation τ sig (Elt Ideal)) (i : Fin 50000) (j : Fin 128) :
    (after (opsIn (F := Ideal)) W (main_v36 : DevRef τ sig) : FVec Ideal S50000x128 .f32) (ix2 i j)
      = Cert.Spec.pre (Cert.Pack.mat (argX W) i) (Cert.Pack.mat (argW1 W)) (Cert.Pack.row (argB1 W)) j := by
  rw [in_v36]
  exact preT_apply _ _ _ i j

theorem preOf_row (W : Valuation τ sig (Elt Ideal)) (i : Fin 50000) :
    Cert.Pack.mat (preOf W) i = Cert.Spec.pre (Cert.Pack.mat (argX W) i) (Cert.Pack.mat (argW1 W)) (Cert.Pack.row (argB1 W)) :=
  funext fun j => preT_apply _ _ _ i j

theorem in_v85_apply (W : Valuation τ sig (Elt Ideal)) (i : Fin 50000) (j : Fin 64) :
    (after (opsIn (F := Ideal)) W (main_v85 : DevRef τ sig) : FVec Ideal S50000x64 .f32) (ix2 i j)
      = Cert.Spec.gated (hinRow W i) (hinRow W i) (Cert.Pack.matAt (argLw1 W) 0) (Cert.Pack.rowAt (argLb1 W) 0)
          (Cert.Pack.colAt (argLw2 W) 0) (Cert.Pack.oneAt (argLb2 W) 0) j := by
  rw [in_v85]
  exact h0T_apply _ _ _ _ _ _ _ _ _ i j

theorem in_v88_apply (W : Valuation τ sig (Elt Ideal)) (i : Fin 50000) (j : Fin 64) :
    (after (opsIn (F := Ideal)) W (main_v88 : DevRef τ sig) : FVec Ideal S50000x64 .f32) (ix2 i j)
      = Cert.Spec.proj
          (Cert.Pack.mat (after (opsIn (F := Ideal)) W (main_v85 : DevRef τ sig) : FVec Ideal S50000x64 .f32) i)
          (Cert.Pack.matAt (argBw W) 0) j := by
  rw [in_v88, in_v85]
  exact proj0T_apply _ _ i j

end

end Cert.ReferenceIdeal.RRead0

end
-- ==== Proof.RReadL0.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL0

open Cert.ReferenceIdeal Cert.ReferenceIdeal.RReadLayer
open Cert.ReferenceIdeal.RefRun (opsL0 opsL0A opsL0B opsL0C opsL0T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![0, 0] a slices_S8x64_S1x64_0_0) shapeCasts_S1x64_S64

def lw1L (a : FVec Ideal S9x64x4 .f32) : FVec Ideal S64x4 .f32 :=
  shapeCast S64x4 (extractStridedSlice S1x64x4 ![1, 0, 0] a slices_S9x64x4_S1x64x4_1_0_0) shapeCasts_S1x64x4_S64x4

def lb1L (a : FVec Ideal S9x4 .f32) : FVec Ideal S4 .f32 :=
  shapeCast S4 (extractStridedSlice S1x4 ![1, 0] a slices_S9x4_S1x4_1_0) shapeCasts_S1x4_S4

def lw2L (a : FVec Ideal S9x4x1 .f32) : FVec Ideal S4x1 .f32 :=
  shapeCast S4x1 (extractStridedSlice S1x4x1 ![1, 0, 0] a slices_S9x4x1_S1x4x1_1_0_0) shapeCasts_S1x4x1_S4x1

def lb2L (a : FVec Ideal S9x1 .f32) : FVec Ideal S1 .f32 :=
  shapeCast S1 (extractStridedSlice S1x1 ![1, 0] a slices_S9x1_S1x1_1_0) shapeCasts_S1x1_S1

/-- The layer's four stretches: the aggregate plus bias; its normalisation and rectification; the gate and the new fused state; the next projection. -/
abbrev opsA : List (HloOp τ sig (Elt Ideal)) := opsL0A (F := Ideal)

abbrev opsA_W : List (Ref sig .tc) :=
  [
    main_c_14, main_v89, main_v90, main_c_15, main_v91, main_v92, main_v93, main_v94,
    main_v95, main_v96, main_v97, main_cst_16, main_v98, main_v99, main_v100, main_v101,
    main_v102, main_v103, main_v104, main_v105 ]

theorem opsA_writes : opsA.Forall fun op => op.writes ⊆ (opsA_W.map (Proc.devRef (τ := τ) .tc)).toFinset := by
  unfold opsA opsL0A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL0B (F := Ideal)

abbrev opsB_W : List (Ref sig .tc) :=
  [
    main_v106, main_v107, main_v108, main_v109, main_cst_17, main_v110, main_cst_18, main_v111,
    main_v112, main_c_19, main_call4.cst.ref, main_call4.v0.ref, main_call4.v1.ref, main_call4.cst_0.ref, main_call4.v2.ref, main_call4.v3.ref,
    main_call4.v4.ref, main_call4.v5.ref, main_call4.v6.ref, main_call4.v7.ref, main_call4.cst_1.ref, main_call4.v8.ref, main_call4.cst_2.ref, main_call4.v9.ref,
    main_call4.v10.ref, main_call4.v11.ref, main_call4.cst_3.ref, main_call4.v12.ref, main_call4.cst_4.ref, main_call4.call0.v0.ref, main_call4.call0.v1.ref, main_call4.call0.v2.ref,
    main_v114, main_v115, main_v116, main_cst_20, main_v117, main_v118, main_v119, main_v120,
    main_v121, main_v122, main_v123, main_v124, main_v125, main_v126, main_v127, main_v128,
    main_call5.cst.ref, main_call5.v0.ref, main_call5.v1.ref ]

theorem opsB_writes : opsB.Forall fun op => op.writes ⊆ (opsB_W.map (Proc.devRef (τ := τ) .tc)).toFinset := by
  unfold opsB opsL0B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL0C (F := Ideal)

abbrev opsC_W : List (Ref sig .tc) :=
  [
    main_v130, main_v131, main_v132, main_v133, main_v134, main_v135, main_v136, main_v137,
    main_v138, main_v139, main_v140, main_v141, main_v142, main_cst_21, main_call6.cst.ref, main_call6.v0.ref,
    main_call6.v1.ref, main_call6.v2.ref, main_call6.v3.ref, main_call6.v4.ref, main_call6.call0.v0.ref, main_v144, main_v145, main_v146,
    main_v147, main_v148, main_v149, main_cst_22, main_v150, main_v151, main_cst_23, main_v152,
    main_v153, main_v154, main_v155, main_v156 ]

theorem opsC_writes : opsC.Forall fun op => op.writes ⊆ (opsC_W.map (Proc.devRef (τ := τ) .tc)).toFinset := by
  unfold opsC opsL0C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL0T (F := Ideal)

abbrev opsT_W : List (Ref sig .tc) :=
  [
    main_v157, main_v158, main_v159 ]

theorem opsT_writes : opsT.Forall fun op => op.writes ⊆ (opsT_W.map (Proc.devRef (τ := τ) .tc)).toFinset := by
  unfold opsT opsL0T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL0 (F := Ideal)) = opsA ++ (opsB ++ (opsC ++ opsT)) := rfl

theorem run_cut (W : Valuation τ sig (Elt Ideal)) :
    after (opsL0 (F := Ideal)) W = after opsT (after opsC (after opsB (after opsA W))) := by
  rw [cut, after_append, after_append, after_append]

set_option maxRecDepth 8192 in
theorem opsA_agg (V : Valuation τ sig (Elt Ideal)) :
    after opsA V (main_v105 : DevRef τ sig)
      = aggR (scatR (V (main_v88 : DevRef τ sig)) (V (main_v3 : DevRef τ sig)) (V (main_v32 : DevRef τ sig)) (V (main_v6 : DevRef τ sig)))
          (row64L (V (main_arg13 : DevRef τ sig))) := by
  unfold opsA opsL0A
  after_results_simp
  rfl

set_option maxRecDepth 8192 in
set_option maxHeartbeats 1000000 in
theorem opsB_hraw (V : Valuation τ sig (Elt Ideal)) :
    after opsB V (main_v129 : DevRef τ sig)
      = hrawR (V (main_v105 : DevRef τ sig)) (row64L (V (main_arg14 : DevRef τ sig))) (row64L (V (main_arg15 : DevRef τ sig))) := by
  unfold opsB opsL0B
  after_results_simp
  simp only [ofBuf_toBuf]
  rfl

set_option maxRecDepth 8192 in
set_option maxHeartbeats 1000000 in
theorem opsC_gated (V : Valuation τ sig (Elt Ideal)) :
    after opsC V (main_v155 : DevRef τ sig)
      = gatedR (V (main_v129 : DevRef τ sig)) (V (main_v85 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL0C
  after_results_simp
  simp only [ofBuf_toBuf]
  rfl

set_option maxRecDepth 8192 in
set_option maxHeartbeats 1000000 in
theorem opsC_fused (V : Valuation τ sig (Elt Ideal)) :
    after opsC V (main_v156 : DevRef τ sig)
      = fusedR (V (main_v129 : DevRef τ sig)) (V (main_v85 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL0C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v88 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v85 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v105 : DevRef τ sig) = aggL W :=
  (opsB_keep _ main_v105 (by decide)).trans (opsA_agg W)

theorem hrawAB (W : Valuation τ sig (Elt Ideal)) : after opsB (after opsA W) (main_v129 : DevRef τ sig) = hrawL W := by
  rw [opsB_hraw, opsA_agg, opsA_keep W main_arg14 (by decide), opsA_keep W main_arg15 (by decide)]
  rfl

theorem agg_eq (W : Valuation τ sig (Elt Ideal)) :
    after (opsL0 (F := Ideal)) W (main_v105 : DevRef τ sig) = aggL W := by
  rw [run_cut]
  exact (opsT_keep _ main_v105 (by decide)).trans ((opsC_keep _ main_v105 (by decide)).trans (aggAB W))

theorem gated_eq (W : Valuation τ sig (Elt Ideal)) :
    after (opsL0 (F := Ideal)) W (main_v155 : DevRef τ sig) = gatedL W := by
  rw [run_cut]
  refine (opsT_keep _ main_v155 (by decide)).trans ?_
  rw [opsC_gated, hrawAB, keepAB W main_v85 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL0 (F := Ideal)) W (main_v156 : DevRef τ sig)
      = fusedR (hrawL W) (W (main_v85 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v156 (by decide)).trans ?_
  rw [opsC_fused, hrawAB, keepAB W main_v85 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL0 (F := Ideal)) W (main_v105 : DevRef τ sig) (ix2 i j)
      = scatR (W (main_v88 : DevRef τ sig)) (W (main_v3 : DevRef τ sig)) (W (main_v32 : DevRef τ sig)) (W (main_v6 : DevRef τ sig)) (ix2 i j)
        + (W (main_arg13 : DevRef τ sig) : FVec Ideal S8x64 .f32) (ix2 0 j) := by
  rw [agg_eq]
  unfold aggL row64L
  rw [aggR_apply, ReadOps.entry_S8x64_0]

/-- Row `i` of the normalised, rectified aggregate as the specification's row function. -/
def hr (W : Valuation τ sig (Elt Ideal)) (i : Fin 50000) : Fin 64 → EReal :=
  Cert.Spec.hraw (fun k => after (opsL0 (F := Ideal)) W (main_v105 : DevRef τ sig) (ix2 i k))
    (fun k => Cert.Spec.meanOf (sum64R (after (opsL0 (F := Ideal)) W (main_v105 : DevRef τ sig)) (ix1 k)))
    (fun k => var64R (after (opsL0 (F := Ideal)) W (main_v105 : DevRef τ sig)) (ix1 k))
    (fun k => (W (main_arg14 : DevRef τ sig) : FVec Ideal S8x64 .f32) (ix2 0 k))
    (fun k => (W (main_arg15 : DevRef τ sig) : FVec Ideal S8x64 .f32) (ix2 0 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v85 : DevRef τ sig) : FVec Ideal S50000x64 .f32) (ix2 i k))
    (fun k a => (W (main_arg8 : DevRef τ sig) : FVec Ideal S9x64x4 .f32) (ix3 1 k a))
    (fun a => (W (main_arg9 : DevRef τ sig) : FVec Ideal S9x4 .f32) (ix2 1 a))
    (fun a => (W (main_arg10 : DevRef τ sig) : FVec Ideal S9x4x1 .f32) (ix3 1 a 0))
    ((W (main_arg11 : DevRef τ sig) : FVec Ideal S9x1 .f32) (ix2 1 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_0]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_1, ReadOps.entry_S9x4_1, ReadOps.entry_S9x4x1_1, ReadOps.entry_S9x1_1]

theorem gated_apply (W : Valuation τ sig (Elt Ideal)) (i : Fin 50000) (j : Fin 64) :
    after (opsL0 (F := Ideal)) W (main_v155 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL0 (F := Ideal)) W (main_v156 : DevRef τ sig) (ix2 i j)
      = HAdd.hAdd (α := EReal) (β := EReal) ((W (main_v85 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![1, 0, 0] a slices_S8x64x64_S1x64x64_1_0_0) shapeCasts_S1x64x64_S64x64

set_option maxRecDepth 8192 in
theorem opsT_proj (V : Valuation τ sig (Elt Ideal)) :
    after opsT V (main_v159 : DevRef τ sig) = projR (V (main_v155 : DevRef τ sig)) (bwL (V (main_arg12 : DevRef τ sig))) := by
  unfold opsT opsL0T
  after_results_simp
  rfl

theorem proj_eq (W : Valuation τ sig (Elt Ideal)) :
    after (opsL0 (F := Ideal)) W (main_v159 : DevRef τ sig) = projR (gatedL W) (bwL (W (main_arg12 : DevRef τ sig))) := by
  have hg : after opsC (after opsB (after opsA W)) (main_v155 : DevRef τ sig) = gatedL W := by
    have h := gated_eq W
    rw [run_cut] at h
    exact (opsT_keep _ main_v155 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL0 (F := Ideal)) W (main_v159 : DevRef τ sig) (ix2 i j)
      = Cert.Spec.proj (gatedRow W i) (fun k q => (W (main_arg12 : DevRef τ sig) : FVec Ideal S8x64x64 .f32) (ix3 1 k q)) j := by
  rw [proj_eq, projR_apply]
  unfold bwL
  simp only [gatedL_apply, ReadOps.entry_S8x64x64_1]

end Proj

abbrev opsL0_W : List (Ref sig .tc) := opsA_W ++ (opsB_W ++ (opsC_W ++ opsT_W))

/-- A buffer the layer writes nowhere keeps its contents. -/
theorem keep (W : Valuation τ sig (Elt Ideal)) (r : Ref sig .tc) (h : r ∉ opsL0_W) :
    after (opsL0 (F := Ideal)) W (Proc.devRef .tc r) = W (Proc.devRef .tc r) := by
  simp only [opsL0_W, List.mem_append, not_or] at h
  rw [run_cut, opsT_keep _ r h.2.2.2, opsC_keep _ r h.2.2.1, opsB_keep _ r h.2.1, opsA_keep _ r h.1]

end Cert.ReferenceIdeal.RReadL0

end
-- ==== Proof.RReadL1.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL1

open Cert.ReferenceIdeal Cert.ReferenceIdeal.RReadLayer
open Cert.ReferenceIdeal.RefRun (opsL1 opsL1A opsL1B opsL1C opsL1T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![1, 0] a slices_S8x64_S1x64_1_0) shapeCasts_S1x64_S64

def lw1L (a : FVec Ideal S9x64x4 .f32) : FVec Ideal S64x4 .f32 :=
  shapeCast S64x4 (extractStridedSlice S1x64x4 ![2, 0, 0] a slices_S9x64x4_S1x64x4_2_0_0) shapeCasts_S1x64x4_S64x4

def lb1L (a : FVec Ideal S9x4 .f32) : FVec Ideal S4 .f32 :=
  shapeCast S4 (extractStridedSlice S1x4 ![2, 0] a slices_S9x4_S1x4_2_0) shapeCasts_S1x4_S4

def lw2L (a : FVec Ideal S9x4x1 .f32) : FVec Ideal S4x1 .f32 :=
  shapeCast S4x1 (extractStridedSlice S1x4x1 ![2, 0, 0] a slices_S9x4x1_S1x4x1_2_0_0) shapeCasts_S1x4x1_S4x1

def lb2L (a : FVec Ideal S9x1 .f32) : FVec Ideal S1 .f32 :=
  shapeCast S1 (extractStridedSlice S1x1 ![2, 0] a slices_S9x1_S1x1_2_0) shapeCasts_S1x1_S1

/-- The layer's four stretches: the aggregate plus bias; its normalisation and rectification; the gate and the new fused state; the next projection. -/
abbrev opsA : List (HloOp τ sig (Elt Ideal)) := opsL1A (F := Ideal)

abbrev opsA_W : List (Ref sig .tc) :=
  [
    main_c_24, main_v160, main_v161, main_c_25, main_v162, main_v163, main_v164, main_v165,
    main_v166, main_v167, main_v168, main_cst_26, main_v169, main_v170, main_v171, main_v172,
    main_v173, main_v174, main_v175, main_v176 ]

theorem opsA_writes : opsA.Forall fun op => op.writes ⊆ (opsA_W.map (Proc.devRef (τ := τ) .tc)).toFinset := by
  unfold opsA opsL1A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL1B (F := Ideal)

abbrev opsB_W : List (Ref sig .tc) :=
  [
    main_v177, main_v178, main_v179, main_v180, main_cst_27, main_v181, main_cst_28, main_v182,
    main_v183, main_c_29, main_call7.cst.ref, main_call7.v0.ref, main_call7.v1.ref, main_call7.cst_0.ref, main_call7.v2.ref, main_call7.v3.ref,
    main_call7.v4.ref, main_call7.v5.ref, main_call7.v6.ref, main_call7.v7.ref, main_call7.cst_1.ref, main_call7.v8.ref, main_call7.cst_2.ref, main_call7.v9.ref,
    main_call7.v10.ref, main_call7.v11.ref, main_call7.cst_3.ref, main_call7.v12.ref, main_call7.cst_4.ref, main_call7.call0.v0.ref, main_call7.call0.v1.ref, main_call7.call0.v2.ref,
    main_v185, main_v186, main_v187, main_cst_30, main_v188, main_v189, main_v190, main_v191,
    main_v192, main_v193, main_v194, main_v195, main_v196, main_v197, main_v198, main_v199,
    main_call8.cst.ref, main_call8.v0.ref, main_call8.v1.ref ]

theorem opsB_writes : opsB.Forall fun op => op.writes ⊆ (opsB_W.map (Proc.devRef (τ := τ) .tc)).toFinset := by
  unfold opsB opsL1B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL1C (F := Ideal)

abbrev opsC_W : List (Ref sig .tc) :=
  [
    main_v201, main_v202, main_v203, main_v204, main_v205, main_v206, main_v207, main_v208,
    main_v209, main_v210, main_v211, main_v212, main_v213, main_cst_31, main_call9.cst.ref, main_call9.v0.ref,
    main_call9.v1.ref, main_call9.v2.ref, main_call9.v3.ref, main_call9.v4.ref, main_call9.call0.v0.ref, main_v215, main_v216, main_v217,
    main_v218, main_v219, main_v220, main_cst_32, main_v221, main_v222, main_cst_33, main_v223,
    main_v224, main_v225, main_v226, main_v227 ]

theorem opsC_writes : opsC.Forall fun op => op.writes ⊆ (opsC_W.map (Proc.devRef (τ := τ) .tc)).toFinset := by
  unfold opsC opsL1C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL1T (F := Ideal)

abbrev opsT_W : List (Ref sig .tc) :=
  [
    main_v228, main_v229, main_v230 ]

theorem opsT_writes : opsT.Forall fun op => op.writes ⊆ (opsT_W.map (Proc.devRef (τ := τ) .tc)).toFinset := by
  unfold opsT opsL1T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL1 (F := Ideal)) = opsA ++ (opsB ++ (opsC ++ opsT)) := rfl

theorem run_cut (W : Valuation τ sig (Elt Ideal)) :
    after (opsL1 (F := Ideal)) W = after opsT (after opsC (after opsB (after opsA W))) := by
  rw [cut, after_append, after_append, after_append]

set_option maxRecDepth 8192 in
theorem opsA_agg (V : Valuation τ sig (Elt Ideal)) :
    after opsA V (main_v176 : DevRef τ sig)
      = aggR (scatR (V (main_v159 : DevRef τ sig)) (V (main_v3 : DevRef τ sig)) (V (main_v32 : DevRef τ sig)) (V (main_v6 : DevRef τ sig)))
          (row64L (V (main_arg13 : DevRef τ sig))) := by
  unfold opsA opsL1A
  after_results_simp
  rfl

set_option maxRecDepth 8192 in
set_option maxHeartbeats 1000000 in
theorem opsB_hraw (V : Valuation τ sig (Elt Ideal)) :
    after opsB V (main_v200 : DevRef τ sig)
      = hrawR (V (main_v176 : DevRef τ sig)) (row64L (V (main_arg14 : DevRef τ sig))) (row64L (V (main_arg15 : DevRef τ sig))) := by
  unfold opsB opsL1B
  after_results_simp
  simp only [ofBuf_toBuf]
  rfl

set_option maxRecDepth 8192 in
set_option maxHeartbeats 1000000 in
theorem opsC_gated (V : Valuation τ sig (Elt Ideal)) :
    after opsC V (main_v226 : DevRef τ sig)
      = gatedR (V (main_v200 : DevRef τ sig)) (V (main_v156 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL1C
  after_results_simp
  simp only [ofBuf_toBuf]
  rfl

set_option maxRecDepth 8192 in
set_option maxHeartbeats 1000000 in
theorem opsC_fused (V : Valuation τ sig (Elt Ideal)) :
    after opsC V (main_v227 : DevRef τ sig)
      = fusedR (V (main_v200 : DevRef τ sig)) (V (main_v156 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL1C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v159 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v156 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v176 : DevRef τ sig) = aggL W :=
  (opsB_keep _ main_v176 (by decide)).trans (opsA_agg W)

theorem hrawAB (W : Valuation τ sig (Elt Ideal)) : after opsB (after opsA W) (main_v200 : DevRef τ sig) = hrawL W := by
  rw [opsB_hraw, opsA_agg, opsA_keep W main_arg14 (by decide), opsA_keep W main_arg15 (by decide)]
  rfl

theorem agg_eq (W : Valuation τ sig (Elt Ideal)) :
    after (opsL1 (F := Ideal)) W (main_v176 : DevRef τ sig) = aggL W := by
  rw [run_cut]
  exact (opsT_keep _ main_v176 (by decide)).trans ((opsC_keep _ main_v176 (by decide)).trans (aggAB W))

theorem gated_eq (W : Valuation τ sig (Elt Ideal)) :
    after (opsL1 (F := Ideal)) W (main_v226 : DevRef τ sig) = gatedL W := by
  rw [run_cut]
  refine (opsT_keep _ main_v226 (by decide)).trans ?_
  rw [opsC_gated, hrawAB, keepAB W main_v156 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL1 (F := Ideal)) W (main_v227 : DevRef τ sig)
      = fusedR (hrawL W) (W (main_v156 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v227 (by decide)).trans ?_
  rw [opsC_fused, hrawAB, keepAB W main_v156 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL1 (F := Ideal)) W (main_v176 : DevRef τ sig) (ix2 i j)
      = scatR (W (main_v159 : DevRef τ sig)) (W (main_v3 : DevRef τ sig)) (W (main_v32 : DevRef τ sig)) (W (main_v6 : DevRef τ sig)) (ix2 i j)
        + (W (main_arg13 : DevRef τ sig) : FVec Ideal S8x64 .f32) (ix2 1 j) := by
  rw [agg_eq]
  unfold aggL row64L
  rw [aggR_apply, ReadOps.entry_S8x64_1]

/-- Row `i` of the normalised, rectified aggregate as the specification's row function. -/
def hr (W : Valuation τ sig (Elt Ideal)) (i : Fin 50000) : Fin 64 → EReal :=
  Cert.Spec.hraw (fun k => after (opsL1 (F := Ideal)) W (main_v176 : DevRef τ sig) (ix2 i k))
    (fun k => Cert.Spec.meanOf (sum64R (after (opsL1 (F := Ideal)) W (main_v176 : DevRef τ sig)) (ix1 k)))
    (fun k => var64R (after (opsL1 (F := Ideal)) W (main_v176 : DevRef τ sig)) (ix1 k))
    (fun k => (W (main_arg14 : DevRef τ sig) : FVec Ideal S8x64 .f32) (ix2 1 k))
    (fun k => (W (main_arg15 : DevRef τ sig) : FVec Ideal S8x64 .f32) (ix2 1 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v156 : DevRef τ sig) : FVec Ideal S50000x64 .f32) (ix2 i k))
    (fun k a => (W (main_arg8 : DevRef τ sig) : FVec Ideal S9x64x4 .f32) (ix3 2 k a))
    (fun a => (W (main_arg9 : DevRef τ sig) : FVec Ideal S9x4 .f32) (ix2 2 a))
    (fun a => (W (main_arg10 : DevRef τ sig) : FVec Ideal S9x4x1 .f32) (ix3 2 a 0))
    ((W (main_arg11 : DevRef τ sig) : FVec Ideal S9x1 .f32) (ix2 2 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_1]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_2, ReadOps.entry_S9x4_2, ReadOps.entry_S9x4x1_2, ReadOps.entry_S9x1_2]

theorem gated_apply (W : Valuation τ sig (Elt Ideal)) (i : Fin 50000) (j : Fin 64) :
    after (opsL1 (F := Ideal)) W (main_v226 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL1 (F := Ideal)) W (main_v227 : DevRef τ sig) (ix2 i j)
      = HAdd.hAdd (α := EReal) (β := EReal) ((W (main_v156 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![2, 0, 0] a slices_S8x64x64_S1x64x64_2_0_0) shapeCasts_S1x64x64_S64x64

set_option maxRecDepth 8192 in
theorem opsT_proj (V : Valuation τ sig (Elt Ideal)) :
    after opsT V (main_v230 : DevRef τ sig) = projR (V (main_v226 : DevRef τ sig)) (bwL (V (main_arg12 : DevRef τ sig))) := by
  unfold opsT opsL1T
  after_results_simp
  rfl

theorem proj_eq (W : Valuation τ sig (Elt Ideal)) :
    after (opsL1 (F := Ideal)) W (main_v230 : DevRef τ sig) = projR (gatedL W) (bwL (W (main_arg12 : DevRef τ sig))) := by
  have hg : after opsC (after opsB (after opsA W)) (main_v226 : DevRef τ sig) = gatedL W := by
    have h := gated_eq W
    rw [run_cut] at h
    exact (opsT_keep _ main_v226 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL1 (F := Ideal)) W (main_v230 : DevRef τ sig) (ix2 i j)
      = Cert.Spec.proj (gatedRow W i) (fun k q => (W (main_arg12 : DevRef τ sig) : FVec Ideal S8x64x64 .f32) (ix3 2 k q)) j := by
  rw [proj_eq, projR_apply]
  unfold bwL
  simp only [gatedL_apply, ReadOps.entry_S8x64x64_2]

end Proj

abbrev opsL1_W : List (Ref sig .tc) := opsA_W ++ (opsB_W ++ (opsC_W ++ opsT_W))

/-- A buffer the layer writes nowhere keeps its contents. -/
theorem keep (W : Valuation τ sig (Elt Ideal)) (r : Ref sig .tc) (h : r ∉ opsL1_W) :
    after (opsL1 (F := Ideal)) W (Proc.devRef .tc r) = W (Proc.devRef .tc r) := by
  simp only [opsL1_W, List.mem_append, not_or] at h
  rw [run_cut, opsT_keep _ r h.2.2.2, opsC_keep _ r h.2.2.1, opsB_keep _ r h.2.1, opsA_keep _ r h.1]

end Cert.ReferenceIdeal.RReadL1

end
-- ==== Proof.RReadL2.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL2

open Cert.ReferenceIdeal Cert.ReferenceIdeal.RReadLayer
open Cert.ReferenceIdeal.RefRun (opsL2 opsL2A opsL2B opsL2C opsL2T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![2, 0] a slices_S8x64_S1x64_2_0) shapeCasts_S1x64_S64

def lw1L (a : FVec Ideal S9x64x4 .f32) : FVec Ideal S64x4 .f32 :=
  shapeCast S64x4 (extractStridedSlice S1x64x4 ![3, 0, 0] a slices_S9x64x4_S1x64x4_3_0_0) shapeCasts_S1x64x4_S64x4

def lb1L (a : FVec Ideal S9x4 .f32) : FVec Ideal S4 .f32 :=
  shapeCast S4 (extractStridedSlice S1x4 ![3, 0] a slices_S9x4_S1x4_3_0) shapeCasts_S1x4_S4

def lw2L (a : FVec Ideal S9x4x1 .f32) : FVec Ideal S4x1 .f32 :=
  shapeCast S4x1 (extractStridedSlice S1x4x1 ![3, 0, 0] a slices_S9x4x1_S1x4x1_3_0_0) shapeCasts_S1x4x1_S4x1

def lb2L (a : FVec Ideal S9x1 .f32) : FVec Ideal S1 .f32 :=
  shapeCast S1 (extractStridedSlice S1x1 ![3, 0] a slices_S9x1_S1x1_3_0) shapeCasts_S1x1_S1

/-- The layer's four stretches: the aggregate plus bias; its normalisation and rectification; the gate and the new fused state; the next projection. -/
abbrev opsA : List (HloOp τ sig (Elt Ideal)) := opsL2A (F := Ideal)

abbrev opsA_W : List (Ref sig .tc) :=
  [
    main_c_34, main_v231, main_v232, main_c_35, main_v233, main_v234, main_v235, main_v236,
    main_v237, main_v238, main_v239, main_cst_36, main_v240, main_v241, main_v242, main_v243,
    main_v244, main_v245, main_v246, main_v247 ]

theorem opsA_writes : opsA.Forall fun op => op.writes ⊆ (opsA_W.map (Proc.devRef (τ := τ) .tc)).toFinset := by
  unfold opsA opsL2A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL2B (F := Ideal)

abbrev opsB_W : List (Ref sig .tc) :=
  [
    main_v248, main_v249, main_v250, main_v251, main_cst_37, main_v252, main_cst_38, main_v253,
    main_v254, main_c_39, main_call10.cst.ref, main_call10.v0.ref, main_call10.v1.ref, main_call10.cst_0.ref, main_call10.v2.ref, main_call10.v3.ref,
    main_call10.v4.ref, main_call10.v5.ref, main_call10.v6.ref, main_call10.v7.ref, main_call10.cst_1.ref, main_call10.v8.ref, main_call10.cst_2.ref, main_call10.v9.ref,
    main_call10.v10.ref, main_call10.v11.ref, main_call10.cst_3.ref, main_call10.v12.ref, main_call10.cst_4.ref, main_call10.call0.v0.ref, main_call10.call0.v1.ref, main_call10.call0.v2.ref,
    main_v256, main_v257, main_v258, main_cst_40, main_v259, main_v260, main_v261, main_v262,
    main_v263, main_v264, main_v265, main_v266, main_v267, main_v268, main_v269, main_v270,
    main_call11.cst.ref, main_call11.v0.ref, main_call11.v1.ref ]

theorem opsB_writes : opsB.Forall fun op => op.writes ⊆ (opsB_W.map (Proc.devRef (τ := τ) .tc)).toFinset := by
  unfold opsB opsL2B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL2C (F := Ideal)

abbrev opsC_W : List (Ref sig .tc) :=
  [
    main_v272, main_v273, main_v274, main_v275, main_v276, main_v277, main_v278, main_v279,
    main_v280, main_v281, main_v282, main_v283, main_v284, main_cst_41, main_call12.cst.ref, main_call12.v0.ref,
    main_call12.v1.ref, main_call12.v2.ref, main_call12.v3.ref, main_call12.v4.ref, main_call12.call0.v0.ref, main_v286, main_v287, main_v288,
    main_v289, main_v290, main_v291, main_cst_42, main_v292, main_v293, main_cst_43, main_v294,
    main_v295, main_v296, main_v297, main_v298 ]

theorem opsC_writes : opsC.Forall fun op => op.writes ⊆ (opsC_W.map (Proc.devRef (τ := τ) .tc)).toFinset := by
  unfold opsC opsL2C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL2T (F := Ideal)

abbrev opsT_W : List (Ref sig .tc) :=
  [
    main_v299, main_v300, main_v301 ]

theorem opsT_writes : opsT.Forall fun op => op.writes ⊆ (opsT_W.map (Proc.devRef (τ := τ) .tc)).toFinset := by
  unfold opsT opsL2T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL2 (F := Ideal)) = opsA ++ (opsB ++ (opsC ++ opsT)) := rfl

theorem run_cut (W : Valuation τ sig (Elt Ideal)) :
    after (opsL2 (F := Ideal)) W = after opsT (after opsC (after opsB (after opsA W))) := by
  rw [cut, after_append, after_append, after_append]

set_option maxRecDepth 8192 in
theorem opsA_agg (V : Valuation τ sig (Elt Ideal)) :
    after opsA V (main_v247 : DevRef τ sig)
      = aggR (scatR (V (main_v230 : DevRef τ sig)) (V (main_v3 : DevRef τ sig)) (V (main_v32 : DevRef τ sig)) (V (main_v6 : DevRef τ sig)))
          (row64L (V (main_arg13 : DevRef τ sig))) := by
  unfold opsA opsL2A
  after_results_simp
  rfl

set_option maxRecDepth 8192 in
set_option maxHeartbeats 1000000 in
theorem opsB_hraw (V : Valuation τ sig (Elt Ideal)) :
    after opsB V (main_v271 : DevRef τ sig)
      = hrawR (V (main_v247 : DevRef τ sig)) (row64L (V (main_arg14 : DevRef τ sig))) (row64L (V (main_arg15 : DevRef τ sig))) := by
  unfold opsB opsL2B
  after_results_simp
  simp only [ofBuf_toBuf]
  rfl

set_option maxRecDepth 8192 in
set_option maxHeartbeats 1000000 in
theorem opsC_gated (V : Valuation τ sig (Elt Ideal)) :
    after opsC V (main_v297 : DevRef τ sig)
      = gatedR (V (main_v271 : DevRef τ sig)) (V (main_v227 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL2C
  after_results_simp
  simp only [ofBuf_toBuf]
  rfl

set_option maxRecDepth 8192 in
set_option maxHeartbeats 1000000 in
theorem opsC_fused (V : Valuation τ sig (Elt Ideal)) :
    after opsC V (main_v298 : DevRef τ sig)
      = fusedR (V (main_v271 : DevRef τ sig)) (V (main_v227 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL2C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v230 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v227 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v247 : DevRef τ sig) = aggL W :=
  (opsB_keep _ main_v247 (by decide)).trans (opsA_agg W)

theorem hrawAB (W : Valuation τ sig (Elt Ideal)) : after opsB (after opsA W) (main_v271 : DevRef τ sig) = hrawL W := by
  rw [opsB_hraw, opsA_agg, opsA_keep W main_arg14 (by decide), opsA_keep W main_arg15 (by decide)]
  rfl

theorem agg_eq (W : Valuation τ sig (Elt Ideal)) :
    after (opsL2 (F := Ideal)) W (main_v247 : DevRef τ sig) = aggL W := by
  rw [run_cut]
  exact (opsT_keep _ main_v247 (by decide)).trans ((opsC_keep _ main_v247 (by decide)).trans (aggAB W))

theorem gated_eq (W : Valuation τ sig (Elt Ideal)) :
    after (opsL2 (F := Ideal)) W (main_v297 : DevRef τ sig) = gatedL W := by
  rw [run_cut]
  refine (opsT_keep _ main_v297 (by decide)).trans ?_
  rw [opsC_gated, hrawAB, keepAB W main_v227 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL2 (F := Ideal)) W (main_v298 : DevRef τ sig)
      = fusedR (hrawL W) (W (main_v227 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v298 (by decide)).trans ?_
  rw [opsC_fused, hrawAB, keepAB W main_v227 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL2 (F := Ideal)) W (main_v247 : DevRef τ sig) (ix2 i j)
      = scatR (W (main_v230 : DevRef τ sig)) (W (main_v3 : DevRef τ sig)) (W (main_v32 : DevRef τ sig)) (W (main_v6 : DevRef τ sig)) (ix2 i j)
        + (W (main_arg13 : DevRef τ sig) : FVec Ideal S8x64 .f32) (ix2 2 j) := by
  rw [agg_eq]
  unfold aggL row64L
  rw [aggR_apply, ReadOps.entry_S8x64_2]

/-- Row `i` of the normalised, rectified aggregate as the specification's row function. -/
def hr (W : Valuation τ sig (Elt Ideal)) (i : Fin 50000) : Fin 64 → EReal :=
  Cert.Spec.hraw (fun k => after (opsL2 (F := Ideal)) W (main_v247 : DevRef τ sig) (ix2 i k))
    (fun k => Cert.Spec.meanOf (sum64R (after (opsL2 (F := Ideal)) W (main_v247 : DevRef τ sig)) (ix1 k)))
    (fun k => var64R (after (opsL2 (F := Ideal)) W (main_v247 : DevRef τ sig)) (ix1 k))
    (fun k => (W (main_arg14 : DevRef τ sig) : FVec Ideal S8x64 .f32) (ix2 2 k))
    (fun k => (W (main_arg15 : DevRef τ sig) : FVec Ideal S8x64 .f32) (ix2 2 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v227 : DevRef τ sig) : FVec Ideal S50000x64 .f32) (ix2 i k))
    (fun k a => (W (main_arg8 : DevRef τ sig) : FVec Ideal S9x64x4 .f32) (ix3 3 k a))
    (fun a => (W (main_arg9 : DevRef τ sig) : FVec Ideal S9x4 .f32) (ix2 3 a))
    (fun a => (W (main_arg10 : DevRef τ sig) : FVec Ideal S9x4x1 .f32) (ix3 3 a 0))
    ((W (main_arg11 : DevRef τ sig) : FVec Ideal S9x1 .f32) (ix2 3 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_2]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_3, ReadOps.entry_S9x4_3, ReadOps.entry_S9x4x1_3, ReadOps.entry_S9x1_3]

theorem gated_apply (W : Valuation τ sig (Elt Ideal)) (i : Fin 50000) (j : Fin 64) :
    after (opsL2 (F := Ideal)) W (main_v297 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL2 (F := Ideal)) W (main_v298 : DevRef τ sig) (ix2 i j)
      = HAdd.hAdd (α := EReal) (β := EReal) ((W (main_v227 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![3, 0, 0] a slices_S8x64x64_S1x64x64_3_0_0) shapeCasts_S1x64x64_S64x64

set_option maxRecDepth 8192 in
theorem opsT_proj (V : Valuation τ sig (Elt Ideal)) :
    after opsT V (main_v301 : DevRef τ sig) = projR (V (main_v297 : DevRef τ sig)) (bwL (V (main_arg12 : DevRef τ sig))) := by
  unfold opsT opsL2T
  after_results_simp
  rfl

theorem proj_eq (W : Valuation τ sig (Elt Ideal)) :
    after (opsL2 (F := Ideal)) W (main_v301 : DevRef τ sig) = projR (gatedL W) (bwL (W (main_arg12 : DevRef τ sig))) := by
  have hg : after opsC (after opsB (after opsA W)) (main_v297 : DevRef τ sig) = gatedL W := by
    have h := gated_eq W
    rw [run_cut] at h
    exact (opsT_keep _ main_v297 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL2 (F := Ideal)) W (main_v301 : DevRef τ sig) (ix2 i j)
      = Cert.Spec.proj (gatedRow W i) (fun k q => (W (main_arg12 : DevRef τ sig) : FVec Ideal S8x64x64 .f32) (ix3 3 k q)) j := by
  rw [proj_eq, projR_apply]
  unfold bwL
  simp only [gatedL_apply, ReadOps.entry_S8x64x64_3]

end Proj

abbrev opsL2_W : List (Ref sig .tc) := opsA_W ++ (opsB_W ++ (opsC_W ++ opsT_W))

/-- A buffer the layer writes nowhere keeps its contents. -/
theorem keep (W : Valuation τ sig (Elt Ideal)) (r : Ref sig .tc) (h : r ∉ opsL2_W) :
    after (opsL2 (F := Ideal)) W (Proc.devRef .tc r) = W (Proc.devRef .tc r) := by
  simp only [opsL2_W, List.mem_append, not_or] at h
  rw [run_cut, opsT_keep _ r h.2.2.2, opsC_keep _ r h.2.2.1, opsB_keep _ r h.2.1, opsA_keep _ r h.1]

end Cert.ReferenceIdeal.RReadL2

end
-- ==== Proof.RReadL3.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL3

open Cert.ReferenceIdeal Cert.ReferenceIdeal.RReadLayer
open Cert.ReferenceIdeal.RefRun (opsL3 opsL3A opsL3B opsL3C opsL3T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![3, 0] a slices_S8x64_S1x64_3_0) shapeCasts_S1x64_S64

def lw1L (a : FVec Ideal S9x64x4 .f32) : FVec Ideal S64x4 .f32 :=
  shapeCast S64x4 (extractStridedSlice S1x64x4 ![4, 0, 0] a slices_S9x64x4_S1x64x4_4_0_0) shapeCasts_S1x64x4_S64x4

def lb1L (a : FVec Ideal S9x4 .f32) : FVec Ideal S4 .f32 :=
  shapeCast S4 (extractStridedSlice S1x4 ![4, 0] a slices_S9x4_S1x4_4_0) shapeCasts_S1x4_S4

def lw2L (a : FVec Ideal S9x4x1 .f32) : FVec Ideal S4x1 .f32 :=
  shapeCast S4x1 (extractStridedSlice S1x4x1 ![4, 0, 0] a slices_S9x4x1_S1x4x1_4_0_0) shapeCasts_S1x4x1_S4x1

def lb2L (a : FVec Ideal S9x1 .f32) : FVec Ideal S1 .f32 :=
  shapeCast S1 (extractStridedSlice S1x1 ![4, 0] a slices_S9x1_S1x1_4_0) shapeCasts_S1x1_S1

/-- The layer's four stretches: the aggregate plus bias; its normalisation and rectification; the gate and the new fused state; the next projection. -/
abbrev opsA : List (HloOp τ sig (Elt Ideal)) := opsL3A (F := Ideal)

abbrev opsA_W : List (Ref sig .tc) :=
  [
    main_c_44, main_v302, main_v303, main_c_45, main_v304, main_v305, main_v306, main_v307,
    main_v308, main_v309, main_v310, main_cst_46, main_v311, main_v312, main_v313, main_v314,
    main_v315, main_v316, main_v317, main_v318 ]

theorem opsA_writes : opsA.Forall fun op => op.writes ⊆ (opsA_W.map (Proc.devRef (τ := τ) .tc)).toFinset := by
  unfold opsA opsL3A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL3B (F := Ideal)

abbrev opsB_W : List (Ref sig .tc) :=
  [
    main_v319, main_v320, main_v321, main_v322, main_cst_47, main_v323, main_cst_48, main_v324,
    main_v325, main_c_49, main_call13.cst.ref, main_call13.v0.ref, main_call13.v1.ref, main_call13.cst_0.ref, main_call13.v2.ref, main_call13.v3.ref,
    main_call13.v4.ref, main_call13.v5.ref, main_call13.v6.ref, main_call13.v7.ref, main_call13.cst_1.ref, main_call13.v8.ref, main_call13.cst_2.ref, main_call13.v9.ref,
    main_call13.v10.ref, main_call13.v11.ref, main_call13.cst_3.ref, main_call13.v12.ref, main_call13.cst_4.ref, main_call13.call0.v0.ref, main_call13.call0.v1.ref, main_call13.call0.v2.ref,
    main_v327, main_v328, main_v329, main_cst_50, main_v330, main_v331, main_v332, main_v333,
    main_v334, main_v335, main_v336, main_v337, main_v338, main_v339, main_v340, main_v341,
    main_call14.cst.ref, main_call14.v0.ref, main_call14.v1.ref ]

theorem opsB_writes : opsB.Forall fun op => op.writes ⊆ (opsB_W.map (Proc.devRef (τ := τ) .tc)).toFinset := by
  unfold opsB opsL3B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL3C (F := Ideal)

abbrev opsC_W : List (Ref sig .tc) :=
  [
    main_v343, main_v344, main_v345, main_v346, main_v347, main_v348, main_v349, main_v350,
    main_v351, main_v352, main_v353, main_v354, main_v355, main_cst_51, main_call15.cst.ref, main_call15.v0.ref,
    main_call15.v1.ref, main_call15.v2.ref, main_call15.v3.ref, main_call15.v4.ref, main_call15.call0.v0.ref, main_v357, main_v358, main_v359,
    main_v360, main_v361, main_v362, main_cst_52, main_v363, main_v364, main_cst_53, main_v365,
    main_v366, main_v367, main_v368, main_v369 ]

theorem opsC_writes : opsC.Forall fun op => op.writes ⊆ (opsC_W.map (Proc.devRef (τ := τ) .tc)).toFinset := by
  unfold opsC opsL3C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL3T (F := Ideal)

abbrev opsT_W : List (Ref sig .tc) :=
  [
    main_v370, main_v371, main_v372 ]

theorem opsT_writes : opsT.Forall fun op => op.writes ⊆ (opsT_W.map (Proc.devRef (τ := τ) .tc)).toFinset := by
  unfold opsT opsL3T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL3 (F := Ideal)) = opsA ++ (opsB ++ (opsC ++ opsT)) := rfl

theorem run_cut (W : Valuation τ sig (Elt Ideal)) :
    after (opsL3 (F := Ideal)) W = after opsT (after opsC (after opsB (after opsA W))) := by
  rw [cut, after_append, after_append, after_append]

set_option maxRecDepth 8192 in
theorem opsA_agg (V : Valuation τ sig (Elt Ideal)) :
    after opsA V (main_v318 : DevRef τ sig)
      = aggR (scatR (V (main_v301 : DevRef τ sig)) (V (main_v3 : DevRef τ sig)) (V (main_v32 : DevRef τ sig)) (V (main_v6 : DevRef τ sig)))
          (row64L (V (main_arg13 : DevRef τ sig))) := by
  unfold opsA opsL3A
  after_results_simp
  rfl

set_option maxRecDepth 8192 in
set_option maxHeartbeats 1000000 in
theorem opsB_hraw (V : Valuation τ sig (Elt Ideal)) :
    after opsB V (main_v342 : DevRef τ sig)
      = hrawR (V (main_v318 : DevRef τ sig)) (row64L (V (main_arg14 : DevRef τ sig))) (row64L (V (main_arg15 : DevRef τ sig))) := by
  unfold opsB opsL3B
  after_results_simp
  simp only [ofBuf_toBuf]
  rfl

set_option maxRecDepth 8192 in
set_option maxHeartbeats 1000000 in
theorem opsC_gated (V : Valuation τ sig (Elt Ideal)) :
    after opsC V (main_v368 : DevRef τ sig)
      = gatedR (V (main_v342 : DevRef τ sig)) (V (main_v298 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL3C
  after_results_simp
  simp only [ofBuf_toBuf]
  rfl

set_option maxRecDepth 8192 in
set_option maxHeartbeats 1000000 in
theorem opsC_fused (V : Valuation τ sig (Elt Ideal)) :
    after opsC V (main_v369 : DevRef τ sig)
      = fusedR (V (main_v342 : DevRef τ sig)) (V (main_v298 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL3C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v301 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v298 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v318 : DevRef τ sig) = aggL W :=
  (opsB_keep _ main_v318 (by decide)).trans (opsA_agg W)

theorem hrawAB (W : Valuation τ sig (Elt Ideal)) : after opsB (after opsA W) (main_v342 : DevRef τ sig) = hrawL W := by
  rw [opsB_hraw, opsA_agg, opsA_keep W main_arg14 (by decide), opsA_keep W main_arg15 (by decide)]
  rfl

theorem agg_eq (W : Valuation τ sig (Elt Ideal)) :
    after (opsL3 (F := Ideal)) W (main_v318 : DevRef τ sig) = aggL W := by
  rw [run_cut]
  exact (opsT_keep _ main_v318 (by decide)).trans ((opsC_keep _ main_v318 (by decide)).trans (aggAB W))

theorem gated_eq (W : Valuation τ sig (Elt Ideal)) :
    after (opsL3 (F := Ideal)) W (main_v368 : DevRef τ sig) = gatedL W := by
  rw [run_cut]
  refine (opsT_keep _ main_v368 (by decide)).trans ?_
  rw [opsC_gated, hrawAB, keepAB W main_v298 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL3 (F := Ideal)) W (main_v369 : DevRef τ sig)
      = fusedR (hrawL W) (W (main_v298 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v369 (by decide)).trans ?_
  rw [opsC_fused, hrawAB, keepAB W main_v298 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL3 (F := Ideal)) W (main_v318 : DevRef τ sig) (ix2 i j)
      = scatR (W (main_v301 : DevRef τ sig)) (W (main_v3 : DevRef τ sig)) (W (main_v32 : DevRef τ sig)) (W (main_v6 : DevRef τ sig)) (ix2 i j)
        + (W (main_arg13 : DevRef τ sig) : FVec Ideal S8x64 .f32) (ix2 3 j) := by
  rw [agg_eq]
  unfold aggL row64L
  rw [aggR_apply, ReadOps.entry_S8x64_3]

/-- Row `i` of the normalised, rectified aggregate as the specification's row function. -/
def hr (W : Valuation τ sig (Elt Ideal)) (i : Fin 50000) : Fin 64 → EReal :=
  Cert.Spec.hraw (fun k => after (opsL3 (F := Ideal)) W (main_v318 : DevRef τ sig) (ix2 i k))
    (fun k => Cert.Spec.meanOf (sum64R (after (opsL3 (F := Ideal)) W (main_v318 : DevRef τ sig)) (ix1 k)))
    (fun k => var64R (after (opsL3 (F := Ideal)) W (main_v318 : DevRef τ sig)) (ix1 k))
    (fun k => (W (main_arg14 : DevRef τ sig) : FVec Ideal S8x64 .f32) (ix2 3 k))
    (fun k => (W (main_arg15 : DevRef τ sig) : FVec Ideal S8x64 .f32) (ix2 3 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v298 : DevRef τ sig) : FVec Ideal S50000x64 .f32) (ix2 i k))
    (fun k a => (W (main_arg8 : DevRef τ sig) : FVec Ideal S9x64x4 .f32) (ix3 4 k a))
    (fun a => (W (main_arg9 : DevRef τ sig) : FVec Ideal S9x4 .f32) (ix2 4 a))
    (fun a => (W (main_arg10 : DevRef τ sig) : FVec Ideal S9x4x1 .f32) (ix3 4 a 0))
    ((W (main_arg11 : DevRef τ sig) : FVec Ideal S9x1 .f32) (ix2 4 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_3]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_4, ReadOps.entry_S9x4_4, ReadOps.entry_S9x4x1_4, ReadOps.entry_S9x1_4]

theorem gated_apply (W : Valuation τ sig (Elt Ideal)) (i : Fin 50000) (j : Fin 64) :
    after (opsL3 (F := Ideal)) W (main_v368 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL3 (F := Ideal)) W (main_v369 : DevRef τ sig) (ix2 i j)
      = HAdd.hAdd (α := EReal) (β := EReal) ((W (main_v298 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![4, 0, 0] a slices_S8x64x64_S1x64x64_4_0_0) shapeCasts_S1x64x64_S64x64

set_option maxRecDepth 8192 in
theorem opsT_proj (V : Valuation τ sig (Elt Ideal)) :
    after opsT V (main_v372 : DevRef τ sig) = projR (V (main_v368 : DevRef τ sig)) (bwL (V (main_arg12 : DevRef τ sig))) := by
  unfold opsT opsL3T
  after_results_simp
  rfl

theorem proj_eq (W : Valuation τ sig (Elt Ideal)) :
    after (opsL3 (F := Ideal)) W (main_v372 : DevRef τ sig) = projR (gatedL W) (bwL (W (main_arg12 : DevRef τ sig))) := by
  have hg : after opsC (after opsB (after opsA W)) (main_v368 : DevRef τ sig) = gatedL W := by
    have h := gated_eq W
    rw [run_cut] at h
    exact (opsT_keep _ main_v368 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL3 (F := Ideal)) W (main_v372 : DevRef τ sig) (ix2 i j)
      = Cert.Spec.proj (gatedRow W i) (fun k q => (W (main_arg12 : DevRef τ sig) : FVec Ideal S8x64x64 .f32) (ix3 4 k q)) j := by
  rw [proj_eq, projR_apply]
  unfold bwL
  simp only [gatedL_apply, ReadOps.entry_S8x64x64_4]

end Proj

abbrev opsL3_W : List (Ref sig .tc) := opsA_W ++ (opsB_W ++ (opsC_W ++ opsT_W))

/-- A buffer the layer writes nowhere keeps its contents. -/
theorem keep (W : Valuation τ sig (Elt Ideal)) (r : Ref sig .tc) (h : r ∉ opsL3_W) :
    after (opsL3 (F := Ideal)) W (Proc.devRef .tc r) = W (Proc.devRef .tc r) := by
  simp only [opsL3_W, List.mem_append, not_or] at h
  rw [run_cut, opsT_keep _ r h.2.2.2, opsC_keep _ r h.2.2.1, opsB_keep _ r h.2.1, opsA_keep _ r h.1]

end Cert.ReferenceIdeal.RReadL3

end
-- ==== Proof.RReadL4.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL4

open Cert.ReferenceIdeal Cert.ReferenceIdeal.RReadLayer
open Cert.ReferenceIdeal.RefRun (opsL4 opsL4A opsL4B opsL4C opsL4T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![4, 0] a slices_S8x64_S1x64_4_0) shapeCasts_S1x64_S64

def lw1L (a : FVec Ideal S9x64x4 .f32) : FVec Ideal S64x4 .f32 :=
  shapeCast S64x4 (extractStridedSlice S1x64x4 ![5, 0, 0] a slices_S9x64x4_S1x64x4_5_0_0) shapeCasts_S1x64x4_S64x4

def lb1L (a : FVec Ideal S9x4 .f32) : FVec Ideal S4 .f32 :=
  shapeCast S4 (extractStridedSlice S1x4 ![5, 0] a slices_S9x4_S1x4_5_0) shapeCasts_S1x4_S4

def lw2L (a : FVec Ideal S9x4x1 .f32) : FVec Ideal S4x1 .f32 :=
  shapeCast S4x1 (extractStridedSlice S1x4x1 ![5, 0, 0] a slices_S9x4x1_S1x4x1_5_0_0) shapeCasts_S1x4x1_S4x1

def lb2L (a : FVec Ideal S9x1 .f32) : FVec Ideal S1 .f32 :=
  shapeCast S1 (extractStridedSlice S1x1 ![5, 0] a slices_S9x1_S1x1_5_0) shapeCasts_S1x1_S1

/-- The layer's four stretches: the aggregate plus bias; its normalisation and rectification; the gate and the new fused state; the next projection. -/
abbrev opsA : List (HloOp τ sig (Elt Ideal)) := opsL4A (F := Ideal)

abbrev opsA_W : List (Ref sig .tc) :=
  [
    main_c_54, main_v373, main_v374, main_c_55, main_v375, main_v376, main_v377, main_v378,
    main_v379, main_v380, main_v381, main_cst_56, main_v382, main_v383, main_v384, main_v385,
    main_v386, main_v387, main_v388, main_v389 ]

theorem opsA_writes : opsA.Forall fun op => op.writes ⊆ (opsA_W.map (Proc.devRef (τ := τ) .tc)).toFinset := by
  unfold opsA opsL4A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL4B (F := Ideal)

abbrev opsB_W : List (Ref sig .tc) :=
  [
    main_v390, main_v391, main_v392, main_v393, main_cst_57, main_v394, main_cst_58, main_v395,
    main_v396, main_c_59, main_call16.cst.ref, main_call16.v0.ref, main_call16.v1.ref, main_call16.cst_0.ref, main_call16.v2.ref, main_call16.v3.ref,
    main_call16.v4.ref, main_call16.v5.ref, main_call16.v6.ref, main_call16.v7.ref, main_call16.cst_1.ref, main_call16.v8.ref, main_call16.cst_2.ref, main_call16.v9.ref,
    main_call16.v10.ref, main_call16.v11.ref, main_call16.cst_3.ref, main_call16.v12.ref, main_call16.cst_4.ref, main_call16.call0.v0.ref, main_call16.call0.v1.ref, main_call16.call0.v2.ref,
    main_v398, main_v399, main_v400, main_cst_60, main_v401, main_v402, main_v403, main_v404,
    main_v405, main_v406, main_v407, main_v408, main_v409, main_v410, main_v411, main_v412,
    main_call17.cst.ref, main_call17.v0.ref, main_call17.v1.ref ]

theorem opsB_writes : opsB.Forall fun op => op.writes ⊆ (opsB_W.map (Proc.devRef (τ := τ) .tc)).toFinset := by
  unfold opsB opsL4B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL4C (F := Ideal)

abbrev opsC_W : List (Ref sig .tc) :=
  [
    main_v414, main_v415, main_v416, main_v417, main_v418, main_v419, main_v420, main_v421,
    main_v422, main_v423, main_v424, main_v425, main_v426, main_cst_61, main_call18.cst.ref, main_call18.v0.ref,
    main_call18.v1.ref, main_call18.v2.ref, main_call18.v3.ref, main_call18.v4.ref, main_call18.call0.v0.ref, main_v428, main_v429, main_v430,
    main_v431, main_v432, main_v433, main_cst_62, main_v434, main_v435, main_cst_63, main_v436,
    main_v437, main_v438, main_v439, main_v440 ]

theorem opsC_writes : opsC.Forall fun op => op.writes ⊆ (opsC_W.map (Proc.devRef (τ := τ) .tc)).toFinset := by
  unfold opsC opsL4C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL4T (F := Ideal)

abbrev opsT_W : List (Ref sig .tc) :=
  [
    main_v441, main_v442, main_v443 ]

theorem opsT_writes : opsT.Forall fun op => op.writes ⊆ (opsT_W.map (Proc.devRef (τ := τ) .tc)).toFinset := by
  unfold opsT opsL4T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL4 (F := Ideal)) = opsA ++ (opsB ++ (opsC ++ opsT)) := rfl

theorem run_cut (W : Valuation τ sig (Elt Ideal)) :
    after (opsL4 (F := Ideal)) W = after opsT (after opsC (after opsB (after opsA W))) := by
  rw [cut, after_append, after_append, after_append]

set_option maxRecDepth 8192 in
theorem opsA_agg (V : Valuation τ sig (Elt Ideal)) :
    after opsA V (main_v389 : DevRef τ sig)
      = aggR (scatR (V (main_v372 : DevRef τ sig)) (V (main_v3 : DevRef τ sig)) (V (main_v32 : DevRef τ sig)) (V (main_v6 : DevRef τ sig)))
          (row64L (V (main_arg13 : DevRef τ sig))) := by
  unfold opsA opsL4A
  after_results_simp
  rfl

set_option maxRecDepth 8192 in
set_option maxHeartbeats 1000000 in
theorem opsB_hraw (V : Valuation τ sig (Elt Ideal)) :
    after opsB V (main_v413 : DevRef τ sig)
      = hrawR (V (main_v389 : DevRef τ sig)) (row64L (V (main_arg14 : DevRef τ sig))) (row64L (V (main_arg15 : DevRef τ sig))) := by
  unfold opsB opsL4B
  after_results_simp
  simp only [ofBuf_toBuf]
  rfl

set_option maxRecDepth 8192 in
set_option maxHeartbeats 1000000 in
theorem opsC_gated (V : Valuation τ sig (Elt Ideal)) :
    after opsC V (main_v439 : DevRef τ sig)
      = gatedR (V (main_v413 : DevRef τ sig)) (V (main_v369 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL4C
  after_results_simp
  simp only [ofBuf_toBuf]
  rfl

set_option maxRecDepth 8192 in
set_option maxHeartbeats 1000000 in
theorem opsC_fused (V : Valuation τ sig (Elt Ideal)) :
    after opsC V (main_v440 : DevRef τ sig)
      = fusedR (V (main_v413 : DevRef τ sig)) (V (main_v369 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL4C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v372 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v369 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v389 : DevRef τ sig) = aggL W :=
  (opsB_keep _ main_v389 (by decide)).trans (opsA_agg W)

theorem hrawAB (W : Valuation τ sig (Elt Ideal)) : after opsB (after opsA W) (main_v413 : DevRef τ sig) = hrawL W := by
  rw [opsB_hraw, opsA_agg, opsA_keep W main_arg14 (by decide), opsA_keep W main_arg15 (by decide)]
  rfl

theorem agg_eq (W : Valuation τ sig (Elt Ideal)) :
    after (opsL4 (F := Ideal)) W (main_v389 : DevRef τ sig) = aggL W := by
  rw [run_cut]
  exact (opsT_keep _ main_v389 (by decide)).trans ((opsC_keep _ main_v389 (by decide)).trans (aggAB W))

theorem gated_eq (W : Valuation τ sig (Elt Ideal)) :
    after (opsL4 (F := Ideal)) W (main_v439 : DevRef τ sig) = gatedL W := by
  rw [run_cut]
  refine (opsT_keep _ main_v439 (by decide)).trans ?_
  rw [opsC_gated, hrawAB, keepAB W main_v369 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL4 (F := Ideal)) W (main_v440 : DevRef τ sig)
      = fusedR (hrawL W) (W (main_v369 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v440 (by decide)).trans ?_
  rw [opsC_fused, hrawAB, keepAB W main_v369 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL4 (F := Ideal)) W (main_v389 : DevRef τ sig) (ix2 i j)
      = scatR (W (main_v372 : DevRef τ sig)) (W (main_v3 : DevRef τ sig)) (W (main_v32 : DevRef τ sig)) (W (main_v6 : DevRef τ sig)) (ix2 i j)
        + (W (main_arg13 : DevRef τ sig) : FVec Ideal S8x64 .f32) (ix2 4 j) := by
  rw [agg_eq]
  unfold aggL row64L
  rw [aggR_apply, ReadOps.entry_S8x64_4]

/-- Row `i` of the normalised, rectified aggregate as the specification's row function. -/
def hr (W : Valuation τ sig (Elt Ideal)) (i : Fin 50000) : Fin 64 → EReal :=
  Cert.Spec.hraw (fun k => after (opsL4 (F := Ideal)) W (main_v389 : DevRef τ sig) (ix2 i k))
    (fun k => Cert.Spec.meanOf (sum64R (after (opsL4 (F := Ideal)) W (main_v389 : DevRef τ sig)) (ix1 k)))
    (fun k => var64R (after (opsL4 (F := Ideal)) W (main_v389 : DevRef τ sig)) (ix1 k))
    (fun k => (W (main_arg14 : DevRef τ sig) : FVec Ideal S8x64 .f32) (ix2 4 k))
    (fun k => (W (main_arg15 : DevRef τ sig) : FVec Ideal S8x64 .f32) (ix2 4 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v369 : DevRef τ sig) : FVec Ideal S50000x64 .f32) (ix2 i k))
    (fun k a => (W (main_arg8 : DevRef τ sig) : FVec Ideal S9x64x4 .f32) (ix3 5 k a))
    (fun a => (W (main_arg9 : DevRef τ sig) : FVec Ideal S9x4 .f32) (ix2 5 a))
    (fun a => (W (main_arg10 : DevRef τ sig) : FVec Ideal S9x4x1 .f32) (ix3 5 a 0))
    ((W (main_arg11 : DevRef τ sig) : FVec Ideal S9x1 .f32) (ix2 5 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_4]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_5, ReadOps.entry_S9x4_5, ReadOps.entry_S9x4x1_5, ReadOps.entry_S9x1_5]

theorem gated_apply (W : Valuation τ sig (Elt Ideal)) (i : Fin 50000) (j : Fin 64) :
    after (opsL4 (F := Ideal)) W (main_v439 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL4 (F := Ideal)) W (main_v440 : DevRef τ sig) (ix2 i j)
      = HAdd.hAdd (α := EReal) (β := EReal) ((W (main_v369 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![5, 0, 0] a slices_S8x64x64_S1x64x64_5_0_0) shapeCasts_S1x64x64_S64x64

set_option maxRecDepth 8192 in
theorem opsT_proj (V : Valuation τ sig (Elt Ideal)) :
    after opsT V (main_v443 : DevRef τ sig) = projR (V (main_v439 : DevRef τ sig)) (bwL (V (main_arg12 : DevRef τ sig))) := by
  unfold opsT opsL4T
  after_results_simp
  rfl

theorem proj_eq (W : Valuation τ sig (Elt Ideal)) :
    after (opsL4 (F := Ideal)) W (main_v443 : DevRef τ sig) = projR (gatedL W) (bwL (W (main_arg12 : DevRef τ sig))) := by
  have hg : after opsC (after opsB (after opsA W)) (main_v439 : DevRef τ sig) = gatedL W := by
    have h := gated_eq W
    rw [run_cut] at h
    exact (opsT_keep _ main_v439 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL4 (F := Ideal)) W (main_v443 : DevRef τ sig) (ix2 i j)
      = Cert.Spec.proj (gatedRow W i) (fun k q => (W (main_arg12 : DevRef τ sig) : FVec Ideal S8x64x64 .f32) (ix3 5 k q)) j := by
  rw [proj_eq, projR_apply]
  unfold bwL
  simp only [gatedL_apply, ReadOps.entry_S8x64x64_5]

end Proj

abbrev opsL4_W : List (Ref sig .tc) := opsA_W ++ (opsB_W ++ (opsC_W ++ opsT_W))

/-- A buffer the layer writes nowhere keeps its contents. -/
theorem keep (W : Valuation τ sig (Elt Ideal)) (r : Ref sig .tc) (h : r ∉ opsL4_W) :
    after (opsL4 (F := Ideal)) W (Proc.devRef .tc r) = W (Proc.devRef .tc r) := by
  simp only [opsL4_W, List.mem_append, not_or] at h
  rw [run_cut, opsT_keep _ r h.2.2.2, opsC_keep _ r h.2.2.1, opsB_keep _ r h.2.1, opsA_keep _ r h.1]

end Cert.ReferenceIdeal.RReadL4

end
-- ==== Proof.RReadL5.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL5

open Cert.ReferenceIdeal Cert.ReferenceIdeal.RReadLayer
open Cert.ReferenceIdeal.RefRun (opsL5 opsL5A opsL5B opsL5C opsL5T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![5, 0] a slices_S8x64_S1x64_5_0) shapeCasts_S1x64_S64

def lw1L (a : FVec Ideal S9x64x4 .f32) : FVec Ideal S64x4 .f32 :=
  shapeCast S64x4 (extractStridedSlice S1x64x4 ![6, 0, 0] a slices_S9x64x4_S1x64x4_6_0_0) shapeCasts_S1x64x4_S64x4

def lb1L (a : FVec Ideal S9x4 .f32) : FVec Ideal S4 .f32 :=
  shapeCast S4 (extractStridedSlice S1x4 ![6, 0] a slices_S9x4_S1x4_6_0) shapeCasts_S1x4_S4

def lw2L (a : FVec Ideal S9x4x1 .f32) : FVec Ideal S4x1 .f32 :=
  shapeCast S4x1 (extractStridedSlice S1x4x1 ![6, 0, 0] a slices_S9x4x1_S1x4x1_6_0_0) shapeCasts_S1x4x1_S4x1

def lb2L (a : FVec Ideal S9x1 .f32) : FVec Ideal S1 .f32 :=
  shapeCast S1 (extractStridedSlice S1x1 ![6, 0] a slices_S9x1_S1x1_6_0) shapeCasts_S1x1_S1

/-- The layer's four stretches: the aggregate plus bias; its normalisation and rectification; the gate and the new fused state; the next projection. -/
abbrev opsA : List (HloOp τ sig (Elt Ideal)) := opsL5A (F := Ideal)

abbrev opsA_W : List (Ref sig .tc) :=
  [
    main_c_64, main_v444, main_v445, main_c_65, main_v446, main_v447, main_v448, main_v449,
    main_v450, main_v451, main_v452, main_cst_66, main_v453, main_v454, main_v455, main_v456,
    main_v457, main_v458, main_v459, main_v460 ]

theorem opsA_writes : opsA.Forall fun op => op.writes ⊆ (opsA_W.map (Proc.devRef (τ := τ) .tc)).toFinset := by
  unfold opsA opsL5A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL5B (F := Ideal)

abbrev opsB_W : List (Ref sig .tc) :=
  [
    main_v461, main_v462, main_v463, main_v464, main_cst_67, main_v465, main_cst_68, main_v466,
    main_v467, main_c_69, main_call19.cst.ref, main_call19.v0.ref, main_call19.v1.ref, main_call19.cst_0.ref, main_call19.v2.ref, main_call19.v3.ref,
    main_call19.v4.ref, main_call19.v5.ref, main_call19.v6.ref, main_call19.v7.ref, main_call19.cst_1.ref, main_call19.v8.ref, main_call19.cst_2.ref, main_call19.v9.ref,
    main_call19.v10.ref, main_call19.v11.ref, main_call19.cst_3.ref, main_call19.v12.ref, main_call19.cst_4.ref, main_call19.call0.v0.ref, main_call19.call0.v1.ref, main_call19.call0.v2.ref,
    main_v469, main_v470, main_v471, main_cst_70, main_v472, main_v473, main_v474, main_v475,
    main_v476, main_v477, main_v478, main_v479, main_v480, main_v481, main_v482, main_v483,
    main_call20.cst.ref, main_call20.v0.ref, main_call20.v1.ref ]

theorem opsB_writes : opsB.Forall fun op => op.writes ⊆ (opsB_W.map (Proc.devRef (τ := τ) .tc)).toFinset := by
  unfold opsB opsL5B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL5C (F := Ideal)

abbrev opsC_W : List (Ref sig .tc) :=
  [
    main_v485, main_v486, main_v487, main_v488, main_v489, main_v490, main_v491, main_v492,
    main_v493, main_v494, main_v495, main_v496, main_v497, main_cst_71, main_call21.cst.ref, main_call21.v0.ref,
    main_call21.v1.ref, main_call21.v2.ref, main_call21.v3.ref, main_call21.v4.ref, main_call21.call0.v0.ref, main_v499, main_v500, main_v501,
    main_v502, main_v503, main_v504, main_cst_72, main_v505, main_v506, main_cst_73, main_v507,
    main_v508, main_v509, main_v510, main_v511 ]

theorem opsC_writes : opsC.Forall fun op => op.writes ⊆ (opsC_W.map (Proc.devRef (τ := τ) .tc)).toFinset := by
  unfold opsC opsL5C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL5T (F := Ideal)

abbrev opsT_W : List (Ref sig .tc) :=
  [
    main_v512, main_v513, main_v514 ]

theorem opsT_writes : opsT.Forall fun op => op.writes ⊆ (opsT_W.map (Proc.devRef (τ := τ) .tc)).toFinset := by
  unfold opsT opsL5T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL5 (F := Ideal)) = opsA ++ (opsB ++ (opsC ++ opsT)) := rfl

theorem run_cut (W : Valuation τ sig (Elt Ideal)) :
    after (opsL5 (F := Ideal)) W = after opsT (after opsC (after opsB (after opsA W))) := by
  rw [cut, after_append, after_append, after_append]

set_option maxRecDepth 8192 in
theorem opsA_agg (V : Valuation τ sig (Elt Ideal)) :
    after opsA V (main_v460 : DevRef τ sig)
      = aggR (scatR (V (main_v443 : DevRef τ sig)) (V (main_v3 : DevRef τ sig)) (V (main_v32 : DevRef τ sig)) (V (main_v6 : DevRef τ sig)))
          (row64L (V (main_arg13 : DevRef τ sig))) := by
  unfold opsA opsL5A
  after_results_simp
  rfl

set_option maxRecDepth 8192 in
set_option maxHeartbeats 1000000 in
theorem opsB_hraw (V : Valuation τ sig (Elt Ideal)) :
    after opsB V (main_v484 : DevRef τ sig)
      = hrawR (V (main_v460 : DevRef τ sig)) (row64L (V (main_arg14 : DevRef τ sig))) (row64L (V (main_arg15 : DevRef τ sig))) := by
  unfold opsB opsL5B
  after_results_simp
  simp only [ofBuf_toBuf]
  rfl

set_option maxRecDepth 8192 in
set_option maxHeartbeats 1000000 in
theorem opsC_gated (V : Valuation τ sig (Elt Ideal)) :
    after opsC V (main_v510 : DevRef τ sig)
      = gatedR (V (main_v484 : DevRef τ sig)) (V (main_v440 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL5C
  after_results_simp
  simp only [ofBuf_toBuf]
  rfl

set_option maxRecDepth 8192 in
set_option maxHeartbeats 1000000 in
theorem opsC_fused (V : Valuation τ sig (Elt Ideal)) :
    after opsC V (main_v511 : DevRef τ sig)
      = fusedR (V (main_v484 : DevRef τ sig)) (V (main_v440 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL5C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v443 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v440 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v460 : DevRef τ sig) = aggL W :=
  (opsB_keep _ main_v460 (by decide)).trans (opsA_agg W)

theorem hrawAB (W : Valuation τ sig (Elt Ideal)) : after opsB (after opsA W) (main_v484 : DevRef τ sig) = hrawL W := by
  rw [opsB_hraw, opsA_agg, opsA_keep W main_arg14 (by decide), opsA_keep W main_arg15 (by decide)]
  rfl

theorem agg_eq (W : Valuation τ sig (Elt Ideal)) :
    after (opsL5 (F := Ideal)) W (main_v460 : DevRef τ sig) = aggL W := by
  rw [run_cut]
  exact (opsT_keep _ main_v460 (by decide)).trans ((opsC_keep _ main_v460 (by decide)).trans (aggAB W))

theorem gated_eq (W : Valuation τ sig (Elt Ideal)) :
    after (opsL5 (F := Ideal)) W (main_v510 : DevRef τ sig) = gatedL W := by
  rw [run_cut]
  refine (opsT_keep _ main_v510 (by decide)).trans ?_
  rw [opsC_gated, hrawAB, keepAB W main_v440 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL5 (F := Ideal)) W (main_v511 : DevRef τ sig)
      = fusedR (hrawL W) (W (main_v440 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v511 (by decide)).trans ?_
  rw [opsC_fused, hrawAB, keepAB W main_v440 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL5 (F := Ideal)) W (main_v460 : DevRef τ sig) (ix2 i j)
      = scatR (W (main_v443 : DevRef τ sig)) (W (main_v3 : DevRef τ sig)) (W (main_v32 : DevRef τ sig)) (W (main_v6 : DevRef τ sig)) (ix2 i j)
        + (W (main_arg13 : DevRef τ sig) : FVec Ideal S8x64 .f32) (ix2 5 j) := by
  rw [agg_eq]
  unfold aggL row64L
  rw [aggR_apply, ReadOps.entry_S8x64_5]

/-- Row `i` of the normalised, rectified aggregate as the specification's row function. -/
def hr (W : Valuation τ sig (Elt Ideal)) (i : Fin 50000) : Fin 64 → EReal :=
  Cert.Spec.hraw (fun k => after (opsL5 (F := Ideal)) W (main_v460 : DevRef τ sig) (ix2 i k))
    (fun k => Cert.Spec.meanOf (sum64R (after (opsL5 (F := Ideal)) W (main_v460 : DevRef τ sig)) (ix1 k)))
    (fun k => var64R (after (opsL5 (F := Ideal)) W (main_v460 : DevRef τ sig)) (ix1 k))
    (fun k => (W (main_arg14 : DevRef τ sig) : FVec Ideal S8x64 .f32) (ix2 5 k))
    (fun k => (W (main_arg15 : DevRef τ sig) : FVec Ideal S8x64 .f32) (ix2 5 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v440 : DevRef τ sig) : FVec Ideal S50000x64 .f32) (ix2 i k))
    (fun k a => (W (main_arg8 : DevRef τ sig) : FVec Ideal S9x64x4 .f32) (ix3 6 k a))
    (fun a => (W (main_arg9 : DevRef τ sig) : FVec Ideal S9x4 .f32) (ix2 6 a))
    (fun a => (W (main_arg10 : DevRef τ sig) : FVec Ideal S9x4x1 .f32) (ix3 6 a 0))
    ((W (main_arg11 : DevRef τ sig) : FVec Ideal S9x1 .f32) (ix2 6 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_5]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_6, ReadOps.entry_S9x4_6, ReadOps.entry_S9x4x1_6, ReadOps.entry_S9x1_6]

theorem gated_apply (W : Valuation τ sig (Elt Ideal)) (i : Fin 50000) (j : Fin 64) :
    after (opsL5 (F := Ideal)) W (main_v510 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL5 (F := Ideal)) W (main_v511 : DevRef τ sig) (ix2 i j)
      = HAdd.hAdd (α := EReal) (β := EReal) ((W (main_v440 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![6, 0, 0] a slices_S8x64x64_S1x64x64_6_0_0) shapeCasts_S1x64x64_S64x64

set_option maxRecDepth 8192 in
theorem opsT_proj (V : Valuation τ sig (Elt Ideal)) :
    after opsT V (main_v514 : DevRef τ sig) = projR (V (main_v510 : DevRef τ sig)) (bwL (V (main_arg12 : DevRef τ sig))) := by
  unfold opsT opsL5T
  after_results_simp
  rfl

theorem proj_eq (W : Valuation τ sig (Elt Ideal)) :
    after (opsL5 (F := Ideal)) W (main_v514 : DevRef τ sig) = projR (gatedL W) (bwL (W (main_arg12 : DevRef τ sig))) := by
  have hg : after opsC (after opsB (after opsA W)) (main_v510 : DevRef τ sig) = gatedL W := by
    have h := gated_eq W
    rw [run_cut] at h
    exact (opsT_keep _ main_v510 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL5 (F := Ideal)) W (main_v514 : DevRef τ sig) (ix2 i j)
      = Cert.Spec.proj (gatedRow W i) (fun k q => (W (main_arg12 : DevRef τ sig) : FVec Ideal S8x64x64 .f32) (ix3 6 k q)) j := by
  rw [proj_eq, projR_apply]
  unfold bwL
  simp only [gatedL_apply, ReadOps.entry_S8x64x64_6]

end Proj

abbrev opsL5_W : List (Ref sig .tc) := opsA_W ++ (opsB_W ++ (opsC_W ++ opsT_W))

/-- A buffer the layer writes nowhere keeps its contents. -/
theorem keep (W : Valuation τ sig (Elt Ideal)) (r : Ref sig .tc) (h : r ∉ opsL5_W) :
    after (opsL5 (F := Ideal)) W (Proc.devRef .tc r) = W (Proc.devRef .tc r) := by
  simp only [opsL5_W, List.mem_append, not_or] at h
  rw [run_cut, opsT_keep _ r h.2.2.2, opsC_keep _ r h.2.2.1, opsB_keep _ r h.2.1, opsA_keep _ r h.1]

end Cert.ReferenceIdeal.RReadL5

end
-- ==== Proof.RReadL6.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL6

open Cert.ReferenceIdeal Cert.ReferenceIdeal.RReadLayer
open Cert.ReferenceIdeal.RefRun (opsL6 opsL6A opsL6B opsL6C opsL6T)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![6, 0] a slices_S8x64_S1x64_6_0) shapeCasts_S1x64_S64

def lw1L (a : FVec Ideal S9x64x4 .f32) : FVec Ideal S64x4 .f32 :=
  shapeCast S64x4 (extractStridedSlice S1x64x4 ![7, 0, 0] a slices_S9x64x4_S1x64x4_7_0_0) shapeCasts_S1x64x4_S64x4

def lb1L (a : FVec Ideal S9x4 .f32) : FVec Ideal S4 .f32 :=
  shapeCast S4 (extractStridedSlice S1x4 ![7, 0] a slices_S9x4_S1x4_7_0) shapeCasts_S1x4_S4

def lw2L (a : FVec Ideal S9x4x1 .f32) : FVec Ideal S4x1 .f32 :=
  shapeCast S4x1 (extractStridedSlice S1x4x1 ![7, 0, 0] a slices_S9x4x1_S1x4x1_7_0_0) shapeCasts_S1x4x1_S4x1

def lb2L (a : FVec Ideal S9x1 .f32) : FVec Ideal S1 .f32 :=
  shapeCast S1 (extractStridedSlice S1x1 ![7, 0] a slices_S9x1_S1x1_7_0) shapeCasts_S1x1_S1

/-- The layer's four stretches: the aggregate plus bias; its normalisation and rectification; the gate and the new fused state; the next projection. -/
abbrev opsA : List (HloOp τ sig (Elt Ideal)) := opsL6A (F := Ideal)

abbrev opsA_W : List (Ref sig .tc) :=
  [
    main_c_74, main_v515, main_v516, main_c_75, main_v517, main_v518, main_v519, main_v520,
    main_v521, main_v522, main_v523, main_cst_76, main_v524, main_v525, main_v526, main_v527,
    main_v528, main_v529, main_v530, main_v531 ]

theorem opsA_writes : opsA.Forall fun op => op.writes ⊆ (opsA_W.map (Proc.devRef (τ := τ) .tc)).toFinset := by
  unfold opsA opsL6A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL6B (F := Ideal)

abbrev opsB_W : List (Ref sig .tc) :=
  [
    main_v532, main_v533, main_v534, main_v535, main_cst_77, main_v536, main_cst_78, main_v537,
    main_v538, main_c_79, main_call22.cst.ref, main_call22.v0.ref, main_call22.v1.ref, main_call22.cst_0.ref, main_call22.v2.ref, main_call22.v3.ref,
    main_call22.v4.ref, main_call22.v5.ref, main_call22.v6.ref, main_call22.v7.ref, main_call22.cst_1.ref, main_call22.v8.ref, main_call22.cst_2.ref, main_call22.v9.ref,
    main_call22.v10.ref, main_call22.v11.ref, main_call22.cst_3.ref, main_call22.v12.ref, main_call22.cst_4.ref, main_call22.call0.v0.ref, main_call22.call0.v1.ref, main_call22.call0.v2.ref,
    main_v540, main_v541, main_v542, main_cst_80, main_v543, main_v544, main_v545, main_v546,
    main_v547, main_v548, main_v549, main_v550, main_v551, main_v552, main_v553, main_v554,
    main_call23.cst.ref, main_call23.v0.ref, main_call23.v1.ref ]

theorem opsB_writes : opsB.Forall fun op => op.writes ⊆ (opsB_W.map (Proc.devRef (τ := τ) .tc)).toFinset := by
  unfold opsB opsL6B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL6C (F := Ideal)

abbrev opsC_W : List (Ref sig .tc) :=
  [
    main_v556, main_v557, main_v558, main_v559, main_v560, main_v561, main_v562, main_v563,
    main_v564, main_v565, main_v566, main_v567, main_v568, main_cst_81, main_call24.cst.ref, main_call24.v0.ref,
    main_call24.v1.ref, main_call24.v2.ref, main_call24.v3.ref, main_call24.v4.ref, main_call24.call0.v0.ref, main_v570, main_v571, main_v572,
    main_v573, main_v574, main_v575, main_cst_82, main_v576, main_v577, main_cst_83, main_v578,
    main_v579, main_v580, main_v581, main_v582 ]

theorem opsC_writes : opsC.Forall fun op => op.writes ⊆ (opsC_W.map (Proc.devRef (τ := τ) .tc)).toFinset := by
  unfold opsC opsL6C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := opsL6T (F := Ideal)

abbrev opsT_W : List (Ref sig .tc) :=
  [
    main_v583, main_v584, main_v585 ]

theorem opsT_writes : opsT.Forall fun op => op.writes ⊆ (opsT_W.map (Proc.devRef (τ := τ) .tc)).toFinset := by
  unfold opsT opsL6T
  simp only [List.Forall, nullary_writes, unary_writes, binary_writes, ternary_writes, reshape_writes, Finset.singleton_subset_iff, List.mem_toFinset]
  repeat' apply And.intro
  all_goals exact List.mem_map_of_mem (by decide)

theorem opsT_keep (V : Valuation τ sig (Elt Ideal)) (r : Ref sig .tc) (h : r ∉ opsT_W) :
    after opsT V (Proc.devRef .tc r) = V (Proc.devRef .tc r) :=
  after_of_writes_sub opsT _ opsT_writes h

end Tail

/-- The layer's list is the four stretches in order, so its fold is their folds composed. -/
theorem cut : (opsL6 (F := Ideal)) = opsA ++ (opsB ++ (opsC ++ opsT)) := rfl

theorem run_cut (W : Valuation τ sig (Elt Ideal)) :
    after (opsL6 (F := Ideal)) W = after opsT (after opsC (after opsB (after opsA W))) := by
  rw [cut, after_append, after_append, after_append]

set_option maxRecDepth 8192 in
theorem opsA_agg (V : Valuation τ sig (Elt Ideal)) :
    after opsA V (main_v531 : DevRef τ sig)
      = aggR (scatR (V (main_v514 : DevRef τ sig)) (V (main_v3 : DevRef τ sig)) (V (main_v32 : DevRef τ sig)) (V (main_v6 : DevRef τ sig)))
          (row64L (V (main_arg13 : DevRef τ sig))) := by
  unfold opsA opsL6A
  after_results_simp
  rfl

set_option maxRecDepth 8192 in
set_option maxHeartbeats 1000000 in
theorem opsB_hraw (V : Valuation τ sig (Elt Ideal)) :
    after opsB V (main_v555 : DevRef τ sig)
      = hrawR (V (main_v531 : DevRef τ sig)) (row64L (V (main_arg14 : DevRef τ sig))) (row64L (V (main_arg15 : DevRef τ sig))) := by
  unfold opsB opsL6B
  after_results_simp
  simp only [ofBuf_toBuf]
  rfl

set_option maxRecDepth 8192 in
set_option maxHeartbeats 1000000 in
theorem opsC_gated (V : Valuation τ sig (Elt Ideal)) :
    after opsC V (main_v581 : DevRef τ sig)
      = gatedR (V (main_v555 : DevRef τ sig)) (V (main_v511 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL6C
  after_results_simp
  simp only [ofBuf_toBuf]
  rfl

set_option maxRecDepth 8192 in
set_option maxHeartbeats 1000000 in
theorem opsC_fused (V : Valuation τ sig (Elt Ideal)) :
    after opsC V (main_v582 : DevRef τ sig)
      = fusedR (V (main_v555 : DevRef τ sig)) (V (main_v511 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL6C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v514 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v511 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v531 : DevRef τ sig) = aggL W :=
  (opsB_keep _ main_v531 (by decide)).trans (opsA_agg W)

theorem hrawAB (W : Valuation τ sig (Elt Ideal)) : after opsB (after opsA W) (main_v555 : DevRef τ sig) = hrawL W := by
  rw [opsB_hraw, opsA_agg, opsA_keep W main_arg14 (by decide), opsA_keep W main_arg15 (by decide)]
  rfl

theorem agg_eq (W : Valuation τ sig (Elt Ideal)) :
    after (opsL6 (F := Ideal)) W (main_v531 : DevRef τ sig) = aggL W := by
  rw [run_cut]
  exact (opsT_keep _ main_v531 (by decide)).trans ((opsC_keep _ main_v531 (by decide)).trans (aggAB W))

theorem gated_eq (W : Valuation τ sig (Elt Ideal)) :
    after (opsL6 (F := Ideal)) W (main_v581 : DevRef τ sig) = gatedL W := by
  rw [run_cut]
  refine (opsT_keep _ main_v581 (by decide)).trans ?_
  rw [opsC_gated, hrawAB, keepAB W main_v511 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL6 (F := Ideal)) W (main_v582 : DevRef τ sig)
      = fusedR (hrawL W) (W (main_v511 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v582 (by decide)).trans ?_
  rw [opsC_fused, hrawAB, keepAB W main_v511 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL6 (F := Ideal)) W (main_v531 : DevRef τ sig) (ix2 i j)
      = scatR (W (main_v514 : DevRef τ sig)) (W (main_v3 : DevRef τ sig)) (W (main_v32 : DevRef τ sig)) (W (main_v6 : DevRef τ sig)) (ix2 i j)
        + (W (main_arg13 : DevRef τ sig) : FVec Ideal S8x64 .f32) (ix2 6 j) := by
  rw [agg_eq]
  unfold aggL row64L
  rw [aggR_apply, ReadOps.entry_S8x64_6]

/-- Row `i` of the normalised, rectified aggregate as the specification's row function. -/
def hr (W : Valuation τ sig (Elt Ideal)) (i : Fin 50000) : Fin 64 → EReal :=
  Cert.Spec.hraw (fun k => after (opsL6 (F := Ideal)) W (main_v531 : DevRef τ sig) (ix2 i k))
    (fun k => Cert.Spec.meanOf (sum64R (after (opsL6 (F := Ideal)) W (main_v531 : DevRef τ sig)) (ix1 k)))
    (fun k => var64R (after (opsL6 (F := Ideal)) W (main_v531 : DevRef τ sig)) (ix1 k))
    (fun k => (W (main_arg14 : DevRef τ sig) : FVec Ideal S8x64 .f32) (ix2 6 k))
    (fun k => (W (main_arg15 : DevRef τ sig) : FVec Ideal S8x64 .f32) (ix2 6 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v511 : DevRef τ sig) : FVec Ideal S50000x64 .f32) (ix2 i k))
    (fun k a => (W (main_arg8 : DevRef τ sig) : FVec Ideal S9x64x4 .f32) (ix3 7 k a))
    (fun a => (W (main_arg9 : DevRef τ sig) : FVec Ideal S9x4 .f32) (ix2 7 a))
    (fun a => (W (main_arg10 : DevRef τ sig) : FVec Ideal S9x4x1 .f32) (ix3 7 a 0))
    ((W (main_arg11 : DevRef τ sig) : FVec Ideal S9x1 .f32) (ix2 7 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_6]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_7, ReadOps.entry_S9x4_7, ReadOps.entry_S9x4x1_7, ReadOps.entry_S9x1_7]

theorem gated_apply (W : Valuation τ sig (Elt Ideal)) (i : Fin 50000) (j : Fin 64) :
    after (opsL6 (F := Ideal)) W (main_v581 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL6 (F := Ideal)) W (main_v582 : DevRef τ sig) (ix2 i j)
      = HAdd.hAdd (α := EReal) (β := EReal) ((W (main_v511 : DevRef τ sig) : FVec Ideal S50000x64 .f32) (ix2 i j)) (gatedRow W i j) := by
  rw [fused_eq]
  unfold fusedR
  rw [addf_apply]
  exact congrArg _ (gatedL_apply W i j)

section Proj

def bwL (a : FVec Ideal S8x64x64 .f32) : FVec Ideal S64x64 .f32 :=
  shapeCast S64x64 (extractStridedSlice S1x64x64 ![7, 0, 0] a slices_S8x64x64_S1x64x64_7_0_0) shapeCasts_S1x64x64_S64x64

set_option maxRecDepth 8192 in
theorem opsT_proj (V : Valuation τ sig (Elt Ideal)) :
    after opsT V (main_v585 : DevRef τ sig) = projR (V (main_v581 : DevRef τ sig)) (bwL (V (main_arg12 : DevRef τ sig))) := by
  unfold opsT opsL6T
  after_results_simp
  rfl

theorem proj_eq (W : Valuation τ sig (Elt Ideal)) :
    after (opsL6 (F := Ideal)) W (main_v585 : DevRef τ sig) = projR (gatedL W) (bwL (W (main_arg12 : DevRef τ sig))) := by
  have hg : after opsC (after opsB (after opsA W)) (main_v581 : DevRef τ sig) = gatedL W := by
    have h := gated_eq W
    rw [run_cut] at h
    exact (opsT_keep _ main_v581 (by decide)).symm.trans h
  rw [run_cut, opsT_proj, hg, opsC_keep _ main_arg12 (by decide), keepAB W main_arg12 (by decide) (by decide)]

/-- The next projection at an entry: the gated row times the next layer's weights. -/
theorem proj_apply (W : Valuation τ sig (Elt Ideal)) (i : Fin 50000) (j : Fin 64) :
    after (opsL6 (F := Ideal)) W (main_v585 : DevRef τ sig) (ix2 i j)
      = Cert.Spec.proj (gatedRow W i) (fun k q => (W (main_arg12 : DevRef τ sig) : FVec Ideal S8x64x64 .f32) (ix3 7 k q)) j := by
  rw [proj_eq, projR_apply]
  unfold bwL
  simp only [gatedL_apply, ReadOps.entry_S8x64x64_7]

end Proj

abbrev opsL6_W : List (Ref sig .tc) := opsA_W ++ (opsB_W ++ (opsC_W ++ opsT_W))

/-- A buffer the layer writes nowhere keeps its contents. -/
theorem keep (W : Valuation τ sig (Elt Ideal)) (r : Ref sig .tc) (h : r ∉ opsL6_W) :
    after (opsL6 (F := Ideal)) W (Proc.devRef .tc r) = W (Proc.devRef .tc r) := by
  simp only [opsL6_W, List.mem_append, not_or] at h
  rw [run_cut, opsT_keep _ r h.2.2.2, opsC_keep _ r h.2.2.1, opsB_keep _ r h.2.1, opsA_keep _ r h.1]

end Cert.ReferenceIdeal.RReadL6

end
-- ==== Proof.RReadL7.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadL7

open Cert.ReferenceIdeal Cert.ReferenceIdeal.RReadLayer
open Cert.ReferenceIdeal.RefRun (opsL7 opsL7A opsL7B opsL7C)
open Idealize.ShloMosaic Idealize.ShloMosaic.TcCoe Idealize.ShloMosaic.StableHlo Idealize.ShloMosaic.ValueIdx
open Facts₀ Facts

def row64L (a : FVec Ideal S8x64 .f32) : FVec Ideal S64 .f32 :=
  shapeCast S64 (extractStridedSlice S1x64 ![7, 0] a slices_S8x64_S1x64_7_0) shapeCasts_S1x64_S64

def lw1L (a : FVec Ideal S9x64x4 .f32) : FVec Ideal S64x4 .f32 :=
  shapeCast S64x4 (extractStridedSlice S1x64x4 ![8, 0, 0] a slices_S9x64x4_S1x64x4_8_0_0) shapeCasts_S1x64x4_S64x4

def lb1L (a : FVec Ideal S9x4 .f32) : FVec Ideal S4 .f32 :=
  shapeCast S4 (extractStridedSlice S1x4 ![8, 0] a slices_S9x4_S1x4_8_0) shapeCasts_S1x4_S4

def lw2L (a : FVec Ideal S9x4x1 .f32) : FVec Ideal S4x1 .f32 :=
  shapeCast S4x1 (extractStridedSlice S1x4x1 ![8, 0, 0] a slices_S9x4x1_S1x4x1_8_0_0) shapeCasts_S1x4x1_S4x1

def lb2L (a : FVec Ideal S9x1 .f32) : FVec Ideal S1 .f32 :=
  shapeCast S1 (extractStridedSlice S1x1 ![8, 0] a slices_S9x1_S1x1_8_0) shapeCasts_S1x1_S1

/-- The layer's four stretches: the aggregate plus bias; its normalisation and rectification; the gate and the new fused state; the next projection. -/
abbrev opsA : List (HloOp τ sig (Elt Ideal)) := opsL7A (F := Ideal)

abbrev opsA_W : List (Ref sig .tc) :=
  [
    main_c_84, main_v586, main_v587, main_c_85, main_v588, main_v589, main_v590, main_v591,
    main_v592, main_v593, main_v594, main_cst_86, main_v595, main_v596, main_v597, main_v598,
    main_v599, main_v600, main_v601, main_v602 ]

theorem opsA_writes : opsA.Forall fun op => op.writes ⊆ (opsA_W.map (Proc.devRef (τ := τ) .tc)).toFinset := by
  unfold opsA opsL7A
  simp only [List.Forall, nullary_writes, unary_writes, binary_writes, ternary_writes, reshape_writes, Finset.singleton_subset_iff, List.mem_toFinset]
  repeat' apply And.intro
  all_goals exact List.mem_map_of_mem (by decide)

theorem opsA_keep (V : Valuation τ sig (Elt Ideal)) (r : Ref sig .tc) (h : r ∉ opsA_W) :
    after opsA V (Proc.devRef .tc r) = V (Proc.devRef .tc r) :=
  after_of_writes_sub opsA _ opsA_writes h

abbrev opsB : List (HloOp τ sig (Elt Ideal)) := opsL7B (F := Ideal)

abbrev opsB_W : List (Ref sig .tc) :=
  [
    main_v603, main_v604, main_v605, main_v606, main_cst_87, main_v607, main_cst_88, main_v608,
    main_v609, main_c_89, main_call25.cst.ref, main_call25.v0.ref, main_call25.v1.ref, main_call25.cst_0.ref, main_call25.v2.ref, main_call25.v3.ref,
    main_call25.v4.ref, main_call25.v5.ref, main_call25.v6.ref, main_call25.v7.ref, main_call25.cst_1.ref, main_call25.v8.ref, main_call25.cst_2.ref, main_call25.v9.ref,
    main_call25.v10.ref, main_call25.v11.ref, main_call25.cst_3.ref, main_call25.v12.ref, main_call25.cst_4.ref, main_call25.call0.v0.ref, main_call25.call0.v1.ref, main_call25.call0.v2.ref,
    main_v611, main_v612, main_v613, main_cst_90, main_v614, main_v615, main_v616, main_v617,
    main_v618, main_v619, main_v620, main_v621, main_v622, main_v623, main_v624, main_v625,
    main_call26.cst.ref, main_call26.v0.ref, main_call26.v1.ref ]

theorem opsB_writes : opsB.Forall fun op => op.writes ⊆ (opsB_W.map (Proc.devRef (τ := τ) .tc)).toFinset := by
  unfold opsB opsL7B
  simp only [List.Forall, nullary_writes, unary_writes, binary_writes, ternary_writes, reshape_writes, Finset.singleton_subset_iff, List.mem_toFinset]
  repeat' apply And.intro
  all_goals exact List.mem_map_of_mem (by decide)

theorem opsB_keep (V : Valuation τ sig (Elt Ideal)) (r : Ref sig .tc) (h : r ∉ opsB_W) :
    after opsB V (Proc.devRef .tc r) = V (Proc.devRef .tc r) :=
  after_of_writes_sub opsB _ opsB_writes h

abbrev opsC : List (HloOp τ sig (Elt Ideal)) := opsL7C (F := Ideal)

abbrev opsC_W : List (Ref sig .tc) :=
  [
    main_v627, main_v628, main_v629, main_v630, main_v631, main_v632, main_v633, main_v634,
    main_v635, main_v636, main_v637, main_v638, main_v639, main_cst_91, main_call27.cst.ref, main_call27.v0.ref,
    main_call27.v1.ref, main_call27.v2.ref, main_call27.v3.ref, main_call27.v4.ref, main_call27.call0.v0.ref, main_v641, main_v642, main_v643,
    main_v644, main_v645, main_v646, main_cst_92, main_v647, main_v648, main_cst_93, main_v649,
    main_v650, main_v651, main_v652, main_v653 ]

theorem opsC_writes : opsC.Forall fun op => op.writes ⊆ (opsC_W.map (Proc.devRef (τ := τ) .tc)).toFinset := by
  unfold opsC opsL7C
  simp only [List.Forall, nullary_writes, unary_writes, binary_writes, ternary_writes, reshape_writes, Finset.singleton_subset_iff, List.mem_toFinset]
  repeat' apply And.intro
  all_goals exact List.mem_map_of_mem (by decide)

theorem opsC_keep (V : Valuation τ sig (Elt Ideal)) (r : Ref sig .tc) (h : r ∉ opsC_W) :
    after opsC V (Proc.devRef .tc r) = V (Proc.devRef .tc r) :=
  after_of_writes_sub opsC _ opsC_writes h

section Tail

abbrev opsT : List (HloOp τ sig (Elt Ideal)) := []

abbrev opsT_W : List (Ref sig .tc) := []

theorem opsT_keep (V : Valuation τ sig (Elt Ideal)) (r : Ref sig .tc) (h : r ∉ opsT_W) :
    after opsT V (Proc.devRef .tc r) = V (Proc.devRef .tc r) := rfl

end Tail

/-- The layer's list is the four stretches in order, so its fold is their folds composed. -/
theorem cut : (opsL7 (F := Ideal)) = opsA ++ (opsB ++ (opsC ++ opsT)) := rfl

theorem run_cut (W : Valuation τ sig (Elt Ideal)) :
    after (opsL7 (F := Ideal)) W = after opsT (after opsC (after opsB (after opsA W))) := by
  rw [cut, after_append, after_append, after_append]

set_option maxRecDepth 8192 in
theorem opsA_agg (V : Valuation τ sig (Elt Ideal)) :
    after opsA V (main_v602 : DevRef τ sig)
      = aggR (scatR (V (main_v585 : DevRef τ sig)) (V (main_v3 : DevRef τ sig)) (V (main_v32 : DevRef τ sig)) (V (main_v6 : DevRef τ sig)))
          (row64L (V (main_arg13 : DevRef τ sig))) := by
  unfold opsA opsL7A
  after_results_simp
  rfl

set_option maxRecDepth 8192 in
set_option maxHeartbeats 1000000 in
theorem opsB_hraw (V : Valuation τ sig (Elt Ideal)) :
    after opsB V (main_v626 : DevRef τ sig)
      = hrawR (V (main_v602 : DevRef τ sig)) (row64L (V (main_arg14 : DevRef τ sig))) (row64L (V (main_arg15 : DevRef τ sig))) := by
  unfold opsB opsL7B
  after_results_simp
  simp only [ofBuf_toBuf]
  rfl

set_option maxRecDepth 8192 in
set_option maxHeartbeats 1000000 in
theorem opsC_gated (V : Valuation τ sig (Elt Ideal)) :
    after opsC V (main_v652 : DevRef τ sig)
      = gatedR (V (main_v626 : DevRef τ sig)) (V (main_v582 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL7C
  after_results_simp
  simp only [ofBuf_toBuf]
  rfl

set_option maxRecDepth 8192 in
set_option maxHeartbeats 1000000 in
theorem opsC_fused (V : Valuation τ sig (Elt Ideal)) :
    after opsC V (main_v653 : DevRef τ sig)
      = fusedR (V (main_v626 : DevRef τ sig)) (V (main_v582 : DevRef τ sig)) (lw1L (V (main_arg8 : DevRef τ sig)))
          (lb1L (V (main_arg9 : DevRef τ sig))) (lw2L (V (main_arg10 : DevRef τ sig))) (lb2L (V (main_arg11 : DevRef τ sig))) := by
  unfold opsC opsL7C
  after_results_simp
  simp only [ofBuf_toBuf]
  rfl

theorem keepAB (W : Valuation τ sig (Elt Ideal)) (r : Ref sig .tc) (hA : r ∉ opsA_W) (hB : r ∉ opsB_W) :
    after opsB (after opsA W) (Proc.devRef .tc r) = W (Proc.devRef .tc r) :=
  (opsB_keep _ r hB).trans (opsA_keep W r hA)

/-- The three buffers the layer leaves, as the shared layer functions of the buffers it is entered with. -/
def aggL (W : Valuation τ sig (Elt Ideal)) : FVec Ideal S50000x64 .f32 :=
  aggR (scatR (W (main_v585 : DevRef τ sig)) (W (main_v3 : DevRef τ sig)) (W (main_v32 : DevRef τ sig)) (W (main_v6 : DevRef τ sig)))
    (row64L (W (main_arg13 : DevRef τ sig)))

def hrawL (W : Valuation τ sig (Elt Ideal)) : FVec Ideal S50000x64 .f32 :=
  hrawR (aggL W) (row64L (W (main_arg14 : DevRef τ sig))) (row64L (W (main_arg15 : DevRef τ sig)))

def gatedL (W : Valuation τ sig (Elt Ideal)) : FVec Ideal S50000x64 .f32 :=
  gatedR (hrawL W) (W (main_v582 : DevRef τ sig)) (lw1L (W (main_arg8 : DevRef τ sig))) (lb1L (W (main_arg9 : DevRef τ sig)))
    (lw2L (W (main_arg10 : DevRef τ sig))) (lb2L (W (main_arg11 : DevRef τ sig)))

theorem aggAB (W : Valuation τ sig (Elt Ideal)) : after opsB (after opsA W) (main_v602 : DevRef τ sig) = aggL W :=
  (opsB_keep _ main_v602 (by decide)).trans (opsA_agg W)

theorem hrawAB (W : Valuation τ sig (Elt Ideal)) : after opsB (after opsA W) (main_v626 : DevRef τ sig) = hrawL W := by
  rw [opsB_hraw, opsA_agg, opsA_keep W main_arg14 (by decide), opsA_keep W main_arg15 (by decide)]
  rfl

theorem agg_eq (W : Valuation τ sig (Elt Ideal)) :
    after (opsL7 (F := Ideal)) W (main_v602 : DevRef τ sig) = aggL W := by
  rw [run_cut]
  exact (opsT_keep _ main_v602 (by decide)).trans ((opsC_keep _ main_v602 (by decide)).trans (aggAB W))

theorem gated_eq (W : Valuation τ sig (Elt Ideal)) :
    after (opsL7 (F := Ideal)) W (main_v652 : DevRef τ sig) = gatedL W := by
  rw [run_cut]
  refine (opsT_keep _ main_v652 (by decide)).trans ?_
  rw [opsC_gated, hrawAB, keepAB W main_v582 (by decide) (by decide), keepAB W main_arg8 (by decide) (by decide),
    keepAB W main_arg9 (by decide) (by decide), keepAB W main_arg10 (by decide) (by decide),
    keepAB W main_arg11 (by decide) (by decide)]
  rfl

theorem fused_eq (W : Valuation τ sig (Elt Ideal)) :
    after (opsL7 (F := Ideal)) W (main_v653 : DevRef τ sig)
      = fusedR (hrawL W) (W (main_v582 : DevRef τ sig)) (lw1L (W (main_arg8 : DevRef τ sig))) (lb1L (W (main_arg9 : DevRef τ sig)))
          (lw2L (W (main_arg10 : DevRef τ sig))) (lb2L (W (main_arg11 : DevRef τ sig))) := by
  rw [run_cut]
  refine (opsT_keep _ main_v653 (by decide)).trans ?_
  rw [opsC_fused, hrawAB, keepAB W main_v582 (by decide) (by decide), keepAB W main_arg8 (by decide) (by decide),
    keepAB W main_arg9 (by decide) (by decide), keepAB W main_arg10 (by decide) (by decide),
    keepAB W main_arg11 (by decide) (by decide)]

/-- The aggregate at an entry: the edge aggregation of the incoming projection plus this layer's bias row. -/
theorem agg_apply (W : Valuation τ sig (Elt Ideal)) (i : Fin 50000) (j : Fin 64) :
    after (opsL7 (F := Ideal)) W (main_v602 : DevRef τ sig) (ix2 i j)
      = scatR (W (main_v585 : DevRef τ sig)) (W (main_v3 : DevRef τ sig)) (W (main_v32 : DevRef τ sig)) (W (main_v6 : DevRef τ sig)) (ix2 i j)
        + (W (main_arg13 : DevRef τ sig) : FVec Ideal S8x64 .f32) (ix2 7 j) := by
  rw [agg_eq]
  unfold aggL row64L
  rw [aggR_apply, ReadOps.entry_S8x64_7]

/-- Row `i` of the normalised, rectified aggregate as the specification's row function. -/
def hr (W : Valuation τ sig (Elt Ideal)) (i : Fin 50000) : Fin 64 → EReal :=
  Cert.Spec.hraw (fun k => after (opsL7 (F := Ideal)) W (main_v602 : DevRef τ sig) (ix2 i k))
    (fun k => Cert.Spec.meanOf (sum64R (after (opsL7 (F := Ideal)) W (main_v602 : DevRef τ sig)) (ix1 k)))
    (fun k => var64R (after (opsL7 (F := Ideal)) W (main_v602 : DevRef τ sig)) (ix1 k))
    (fun k => (W (main_arg14 : DevRef τ sig) : FVec Ideal S8x64 .f32) (ix2 7 k))
    (fun k => (W (main_arg15 : DevRef τ sig) : FVec Ideal S8x64 .f32) (ix2 7 k))

/-- Row `i` gated by its distance from the incoming fused state, with this layer's gate parameters. -/
def gatedRow (W : Valuation τ sig (Elt Ideal)) (i : Fin 50000) : Fin 64 → EReal :=
  Cert.Spec.gated (hr W i) (fun k => hr W i k - (W (main_v582 : DevRef τ sig) : FVec Ideal S50000x64 .f32) (ix2 i k))
    (fun k a => (W (main_arg8 : DevRef τ sig) : FVec Ideal S9x64x4 .f32) (ix3 8 k a))
    (fun a => (W (main_arg9 : DevRef τ sig) : FVec Ideal S9x4 .f32) (ix2 8 a))
    (fun a => (W (main_arg10 : DevRef τ sig) : FVec Ideal S9x4x1 .f32) (ix3 8 a 0))
    ((W (main_arg11 : DevRef τ sig) : FVec Ideal S9x1 .f32) (ix2 8 0))

theorem hrawL_apply (W : Valuation τ sig (Elt Ideal)) (i : Fin 50000) (k : Fin 64) : hrawL W (ix2 i k) = hr W i k := by
  unfold hrawL hr
  rw [hrawR_apply, agg_eq]
  unfold row64L
  simp only [ReadOps.entry_S8x64_7]

theorem gatedL_apply (W : Valuation τ sig (Elt Ideal)) (i : Fin 50000) (j : Fin 64) : gatedL W (ix2 i j) = gatedRow W i j := by
  unfold gatedL
  rw [gatedR_apply]
  unfold gatedRow lw1L lb1L lw2L lb2L
  simp only [hrawL_apply, ReadOps.entry_S9x64x4_8, ReadOps.entry_S9x4_8, ReadOps.entry_S9x4x1_8, ReadOps.entry_S9x1_8]

theorem gated_apply (W : Valuation τ sig (Elt Ideal)) (i : Fin 50000) (j : Fin 64) :
    after (opsL7 (F := Ideal)) W (main_v652 : DevRef τ sig) (ix2 i j) = gatedRow W i j := by
  rw [gated_eq, gatedL_apply]

/-- The new fused state at an entry: the incoming fused state plus the gated row. -/
theorem fused_apply (W : Valuation τ sig (Elt Ideal)) (i : Fin 50000) (j : Fin 64) :
    after (opsL7 (F := Ideal)) W (main_v653 : DevRef τ sig) (ix2 i j)
      = HAdd.hAdd (α := EReal) (β := EReal) ((W (main_v582 : DevRef τ sig) : FVec Ideal S50000x64 .f32) (ix2 i j)) (gatedRow W i j) := by
  rw [fused_eq]
  unfold fusedR
  rw [addf_apply]
  exact congrArg _ (gatedL_apply W i j)

abbrev opsL7_W : List (Ref sig .tc) := opsA_W ++ (opsB_W ++ (opsC_W ++ opsT_W))

/-- A buffer the layer writes nowhere keeps its contents. -/
theorem keep (W : Valuation τ sig (Elt Ideal)) (r : Ref sig .tc) (h : r ∉ opsL7_W) :
    after (opsL7 (F := Ideal)) W (Proc.devRef .tc r) = W (Proc.devRef .tc r) := by
  simp only [opsL7_W, List.mem_append, not_or] at h
  rw [run_cut, opsT_keep _ r h.2.2.2, opsC_keep _ r h.2.2.1, opsB_keep _ r h.2.1, opsA_keep _ r h.1]

end Cert.ReferenceIdeal.RReadL7

end
-- ==== Proof.RReadOut.lean ====
import proofs.«428538_j32280974197073_1_alg».proof.ReferenceIdeal
import proofs.«428538_j32280974197073_1_alg».proof.Proof.Gen.ReferenceIdeal
import proofs.«428538_j32280974197073_1_alg».proof.Proof.Spec
import proofs.«428538_j32280974197073_1_alg».proof.Proof.ReadOps
import proofs.«428538_j32280974197073_1_alg».proof.Proof.RefRun.Ops
import proofs.«428538_j32280974197073_1_alg».proof.Proof.RReadLayer
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.ReferenceIdeal.RReadOut

open Cert.ReferenceIdeal Cert.ReferenceIdeal.RReadLayer
open Cert.ReferenceIdeal.RefRun (opsOut)
open Idealize.ShloMosaic Idealize.ShloMosaic.TcCoe Idealize.ShloMosaic.StableHlo Idealize.ShloMosaic.ValueIdx
open Facts₀ Facts

def outR (f : FVec Ideal S50000x64 .f32) (w1 : FVec Ideal S64x128 .f32) (b1 : FVec Ideal S128 .f32)
    (w2 : FVec Ideal S128x64 .f32) (b2 : FVec Ideal S64 .f32) : FVec Ideal S50000x64 .f32 :=
  addf
    (Host.dotGeneral dot_S50000x128_S128x64_S50000x64_1_0_0_1_n_n none
      (maximumf
        (addf (Host.dotGeneral dot_S50000x64_S64x128_S50000x128_1_0_0_1_n_n none f w1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)))
      w2)
    (broadcastInDim S50000x64 ![0, 1] bcast_S1x64_S50000x64_0_1 (broadcastInDim S1x64 ![1] bcast_S64_S1x64_1 b2))

theorem outR_apply (f : FVec Ideal S50000x64 .f32) (w1 : FVec Ideal S64x128 .f32) (b1 : FVec Ideal S128 .f32)
    (w2 : FVec Ideal S128x64 .f32) (b2 : FVec Ideal S64 .f32) (i : Fin 50000) (j : Fin 64) :
    outR f w1 b1 w2 b2 (ix2 i j)
      = Cert.Spec.outRow (fun k => f (ix2 i k)) (fun k a => w1 (ix2 k a)) (fun a => b1 (ix1 a)) (fun a q => w2 (ix2 a q))
          (fun q => b2 (ix1 q)) j := by
  unfold outR
  rw [addf_apply, ReadOps.dotGeneral_128x64_apply, ReadOps.broadcastInDim_rows64_apply, ReadOps.broadcastInDim_row64_apply]
  unfold Cert.Spec.outRow Cert.Spec.proj
  congr 1
  refine Finset.sum_congr rfl fun a _ => ?_
  rw [ReadOps.relu_apply, addf_apply, ReadOps.dotGeneral_64x128_apply, ReadOps.broadcastInDim_rows128_apply,
    ReadOps.broadcastInDim_row128_apply]

set_option maxRecDepth 8192 in

theorem out_eq (W : Valuation τ sig (Elt Ideal)) :
    after (opsOut (F := Ideal)) W (main_v662 : DevRef τ sig)
      = outR (W (main_v653 : DevRef τ sig)) (W (main_arg16 : DevRef τ sig)) (W (main_arg17 : DevRef τ sig))
          (W (main_arg18 : DevRef τ sig)) (W (main_arg19 : DevRef τ sig)) := by
  unfold opsOut
  after_results_simp
  simp only [ofBuf_toBuf]
  rfl

theorem out_apply (W : Valuation τ sig (Elt Ideal)) (i : Fin 50000) (j : Fin 64) :
    after (opsOut (F := Ideal)) W (main_v662 : DevRef τ sig) (ix2 i j)
      = Cert.Spec.outRow (fun k => (W (main_v653 : DevRef τ sig) : FVec Ideal S50000x64 .f32) (ix2 i k))
          (fun k a => (W (main_arg16 : DevRef τ sig) : FVec Ideal S64x128 .f32) (ix2 k a))
          (fun a => (W (main_arg17 : DevRef τ sig) : FVec Ideal S128 .f32) (ix1 a))
          (fun a q => (W (main_arg18 : DevRef τ sig) : FVec Ideal S128x64 .f32) (ix2 a q))
          (fun q => (W (main_arg19 : DevRef τ sig) : FVec Ideal S64 .f32) (ix1 q)) j := by
  rw [out_eq, outR_apply]

abbrev opsOut_W : List (Ref sig .tc) :=
  [ main_v654, main_v655, main_v656, main_v657, main_call28.cst.ref, main_call28.v0.ref, main_call28.v1.ref, main_v659, main_v660, main_v661, main_v662 ]

theorem opsOut_writes : (opsOut (F := Ideal) : List (HloOp τ sig (Elt Ideal))).Forall fun op =>
    op.writes ⊆ (opsOut_W.map (Proc.devRef (τ := τ) .tc)).toFinset := by
  unfold opsOut
  simp only [List.Forall, nullary_writes, unary_writes, binary_writes, ternary_writes, reshape_writes, Finset.singleton_subset_iff, List.mem_toFinset]
  repeat' apply And.intro
  all_goals exact List.mem_map_of_mem (by decide)

theorem keep (W : Valuation τ sig (Elt Ideal)) (r : Ref sig .tc) (h : r ∉ opsOut_W) :
    after (opsOut (F := Ideal)) W (Proc.devRef .tc r) = W (Proc.devRef .tc r) :=
  after_of_writes_sub opsOut _ opsOut_writes h

end Cert.ReferenceIdeal.RReadOut

end
-- ==== Proof.RChain.Defs.lean ====
import proofs.«428538_j32280974197073_1_alg».proof.Proof.RRead0
import proofs.«428538_j32280974197073_1_alg».proof.Proof.RReadLayer
import proofs.«428538_j32280974197073_1_alg».proof.Proof.Pack
import Idealize.ShloMosaic.Lib.ValueIdx

noncomputable section

namespace Cert.ReferenceIdeal.RChain

open Cert.ReferenceIdeal
open Idealize.ShloMosaic Idealize.ShloMosaic.TcCoe Idealize.ShloMosaic.StableHlo Idealize.ShloMosaic.ValueIdx

def opsR (ei : IVec S2x800000 32) : Cert.Spec.Ops where
  scat M := Cert.Pack.mat (RReadLayer.scatR (Cert.Pack.unmat M) (RRead0.srcOf ei) (RRead0.enormOf ei) (RRead0.dstOf ei))
  sum128 M j := RRead0.sum128R (Cert.Pack.unmat M) (ix1 j)
  var128 M j := RRead0.var128R (Cert.Pack.unmat M) (ix1 j)
  sum64 M j := RReadLayer.sum64R (Cert.Pack.unmat M) (ix1 j)
  var64 M j := RReadLayer.var64R (Cert.Pack.unmat M) (ix1 j)

def paramsR (V : Valuation τ sig (Elt Ideal)) : Cert.Spec.Params :=
  Cert.Pack.params (V (main_arg0 : DevRef τ sig)) (V (main_arg2 : DevRef τ sig)) (V (main_arg3 : DevRef τ sig))
    (V (main_arg4 : DevRef τ sig)) (V (main_arg5 : DevRef τ sig)) (V (main_arg6 : DevRef τ sig))
    (V (main_arg7 : DevRef τ sig)) (V (main_arg8 : DevRef τ sig)) (V (main_arg9 : DevRef τ sig))
    (V (main_arg10 : DevRef τ sig)) (V (main_arg11 : DevRef τ sig)) (V (main_arg12 : DevRef τ sig))
    (V (main_arg13 : DevRef τ sig)) (V (main_arg14 : DevRef τ sig)) (V (main_arg15 : DevRef τ sig))
    (V (main_arg16 : DevRef τ sig)) (V (main_arg17 : DevRef τ sig)) (V (main_arg18 : DevRef τ sig))
    (V (main_arg19 : DevRef τ sig))

end Cert.ReferenceIdeal.RChain

end
-- ==== Proof.RChain.Step.lean ====
import proofs.«428538_j32280974197073_1_alg».proof.Proof.Spec
import proofs.«428538_j32280974197073_1_alg».proof.Proof.Pack

noncomputable section

namespace Cert.ReferenceIdeal.RChain

open Idealize.ShloMosaic Idealize.ShloMosaic.ValueIdx
open Cert.Spec (Mat Ops Params)
open Cert.Pack (mat unmat)

abbrev Arr2 (n d : ℕ) : Type := (⟨2, ![n, d]⟩ : Shape).Idx → EReal

abbrev Arr1 (d : ℕ) : Type := (⟨1, ![d]⟩ : Shape).Idx → EReal

theorem unmat_mat {n d : ℕ} (A : Arr2 n d) : unmat (mat A) = A := by
  funext y
  exact congrArg A (eq_ix2 y).symm

def opsOf (sc : Arr2 50000 64 → Arr2 50000 64) (s128 v128 : Arr2 50000 128 → Arr1 128)
    (s64 v64 : Arr2 50000 64 → Arr1 64) : Ops where
  scat M := mat (sc (unmat M))
  sum128 M j := s128 (unmat M) (ix1 j)
  var128 M j := v128 (unmat M) (ix1 j)
  sum64 M j := s64 (unmat M) (ix1 j)
  var64 M j := v64 (unmat M) (ix1 j)

variable (sc : Arr2 50000 64 → Arr2 50000 64) (s128 v128 : Arr2 50000 128 → Arr1 128)
  (s64 v64 : Arr2 50000 64 → Arr1 64) (P : Params)

theorem pre_step (p : Arr2 50000 128)
    (hp : ∀ i j, p (ix2 i j) = Cert.Spec.pre (P.x i) P.im_w1 P.im_b1 j) : mat p = Cert.Spec.preA P := by
  funext i j
  exact hp i j

def hinRow (p : Arr2 50000 128) (i : Fin 50000) : Fin 64 → EReal := fun q =>
  Cert.Spec.hin (fun k => p (ix2 i k)) (fun k => Cert.Spec.meanOf (s128 p (ix1 k))) (fun k => v128 p (ix1 k))
    P.im_g1 P.im_be1 P.im_w2 P.im_b2 q

theorem in_step (p : Arr2 50000 128) (f : Arr2 50000 64) (hp : mat p = Cert.Spec.preA P)
    (hf : ∀ i j, f (ix2 i j)
      = Cert.Spec.gated (hinRow s128 v128 P p i) (hinRow s128 v128 P p i) (P.lw1 0) (P.lb1 0) (P.lw2 0) (P.lb2 0) j) :
    mat f = Cert.Spec.h0 (opsOf sc s128 v128 s64 v64) P := by
  have hin : ∀ i, hinRow s128 v128 P p i = Cert.Spec.hinA (opsOf sc s128 v128 s64 v64) P i := by
    intro i
    funext q
    unfold hinRow Cert.Spec.hinA
    rw [← hp]
    show _ = Cert.Spec.hin (mat p i) (fun k => Cert.Spec.meanOf (s128 (unmat (mat p)) (ix1 k)))
      (fun k => v128 (unmat (mat p)) (ix1 k)) P.im_g1 P.im_be1 P.im_w2 P.im_b2 q
    rw [unmat_mat]
    rfl
  funext i j
  show f (ix2 i j) = _
  rw [hf i j, hin i]
  rfl

theorem in_proj_step (f g : Arr2 50000 64) (hf : mat f = Cert.Spec.h0 (opsOf sc s128 v128 s64 v64) P)
    (hg : ∀ i j, g (ix2 i j) = Cert.Spec.proj (fun q => f (ix2 i q)) (P.bw 0) j) :
    mat g = fun i j => Cert.Spec.proj ((Cert.Spec.s0 (opsOf sc s128 v128 s64 v64) P).2 i) (P.bw 0) j := by
  funext i j
  show g (ix2 i j) = _
  rw [hg i j]
  show Cert.Spec.proj (mat f i) (P.bw 0) j = _
  rw [hf]
  rfl

def hrawRow (l : Fin 8) (A : Arr2 50000 64) (i : Fin 50000) : Fin 64 → EReal := fun q =>
  Cert.Spec.hraw (fun k => A (ix2 i k)) (fun k => Cert.Spec.meanOf (s64 A (ix1 k))) (fun k => v64 A (ix1 k))
    (P.bg l) (P.bbe l) q

def hNextRow (l : Fin 8) (l' : Fin 9) (A fu : Arr2 50000 64) (i : Fin 50000) : Fin 64 → EReal := fun q =>
  Cert.Spec.gated (hrawRow s64 v64 P l A i) (fun k => hrawRow s64 v64 P l A i k - fu (ix2 i k))
    (P.lw1 l') (P.lb1 l') (P.lw2 l') (P.lb2 l') q

section Layer

variable (l : Fin 8) (l' : Fin 9) (s : Mat 50000 64 × Mat 50000 64) (fu pr A : Arr2 50000 64)
  (hfu : mat fu = s.1)
  (hpr : mat pr = fun i j => Cert.Spec.proj (s.2 i) (P.bw l) j)
  (hA : ∀ i j, A (ix2 i j) = sc pr (ix2 i j) + P.bb l j)

include hpr hA in

theorem agg_step : mat A = Cert.Spec.aggA (opsOf sc s128 v128 s64 v64) P l s.2 := by
  funext i j
  show A (ix2 i j) = _
  rw [hA i j]
  unfold Cert.Spec.aggA
  show _ = mat (sc (unmat fun i' j' => Cert.Spec.proj (s.2 i') (P.bw l) j')) i j + P.bb l j
  rw [← hpr, unmat_mat]
  rfl

include hpr hA in

theorem hraw_step (i : Fin 50000) :
    hrawRow s64 v64 P l A i = Cert.Spec.hrawA (opsOf sc s128 v128 s64 v64) P l s.2 i := by
  funext q
  unfold hrawRow Cert.Spec.hrawA
  rw [← agg_step sc s128 v128 s64 v64 P l s pr A hpr hA]
  show _ = Cert.Spec.hraw (mat A i) (fun k => Cert.Spec.meanOf (s64 (unmat (mat A)) (ix1 k)))
    (fun k => v64 (unmat (mat A)) (ix1 k)) (P.bg l) (P.bbe l) q
  rw [unmat_mat]
  rfl

include hfu hpr hA in

theorem hNext_step (i : Fin 50000) :
    hNextRow s64 v64 P l l' A fu i = Cert.Spec.hNext (opsOf sc s128 v128 s64 v64) P l l' s.1 s.2 i := by
  funext q
  unfold hNextRow Cert.Spec.hNext
  rw [hraw_step sc s128 v128 s64 v64 P l s pr A hpr hA i, ← hfu]
  rfl

include hfu hpr hA in

theorem fused_step (fu' : Arr2 50000 64)
    (hfu' : ∀ i j, fu' (ix2 i j) = fu (ix2 i j) + hNextRow s64 v64 P l l' A fu i j) :
    mat fu' = (Cert.Spec.layer (opsOf sc s128 v128 s64 v64) P l l' s).1 := by
  funext i j
  show fu' (ix2 i j) = _
  rw [hfu' i j, hNext_step sc s128 v128 s64 v64 P l l' s fu pr A hfu hpr hA i]
  show mat fu i j + _ = _
  rw [hfu]
  rfl

include hfu hpr hA in

theorem proj_step (m : Fin 8) (pr' : Arr2 50000 64)
    (hpr' : ∀ i j, pr' (ix2 i j) = Cert.Spec.proj (hNextRow s64 v64 P l l' A fu i) (P.bw m) j) :
    mat pr' = fun i j => Cert.Spec.proj ((Cert.Spec.layer (opsOf sc s128 v128 s64 v64) P l l' s).2 i) (P.bw m) j := by
  funext i j
  show pr' (ix2 i j) = _
  rw [hpr' i j, hNext_step sc s128 v128 s64 v64 P l l' s fu pr A hfu hpr hA i]
  rfl

end Layer

theorem out_step (f r : Arr2 50000 64) (hf : mat f = (Cert.Spec.s8 (opsOf sc s128 v128 s64 v64) P).1)
    (hr : ∀ i j, r (ix2 i j) = Cert.Spec.outRow (fun q => f (ix2 i q)) P.om_w1 P.om_b1 P.om_w2 P.om_b2 j) :
    mat r = Cert.Spec.result (opsOf sc s128 v128 s64 v64) P := by
  funext i j
  show r (ix2 i j) = _
  rw [hr i j]
  show Cert.Spec.outRow (mat f i) P.om_w1 P.om_b1 P.om_w2 P.om_b2 j = _
  rw [hf]
  rfl

end Cert.ReferenceIdeal.RChain

end
-- ==== Proof.RChain.lean ====
import proofs.«428538_j32280974197073_1_alg».proof.Proof.RefRun
import proofs.«428538_j32280974197073_1_alg».proof.Proof.RRead0
import proofs.«428538_j32280974197073_1_alg».proof.Proof.RReadLayer
import proofs.«428538_j32280974197073_1_alg».proof.Proof.RReadL0
import proofs.«428538_j32280974197073_1_alg».proof.Proof.RReadL1
import proofs.«428538_j32280974197073_1_alg».proof.Proof.RReadL2
import proofs.«428538_j32280974197073_1_alg».proof.Proof.RReadL3
import proofs.«428538_j32280974197073_1_alg».proof.Proof.RReadL4
import proofs.«428538_j32280974197073_1_alg».proof.Proof.RReadL5
import proofs.«428538_j32280974197073_1_alg».proof.Proof.RReadL6
import proofs.«428538_j32280974197073_1_alg».proof.Proof.RReadL7
import proofs.«428538_j32280974197073_1_alg».proof.Proof.RReadOut
import proofs.«428538_j32280974197073_1_alg».proof.Proof.RChain.Defs
import proofs.«428538_j32280974197073_1_alg».proof.Proof.RChain.Step
import Idealize.ShloMosaic.Lib.StableHlo.Run
import Idealize.ShloMosaic.Lib.ValueIdx

noncomputable section

namespace Cert.ReferenceIdeal.RChain

open Cert.ReferenceIdeal Cert.ReferenceIdeal.RefRun
open Idealize.ShloMosaic Idealize.ShloMosaic.TcCoe Idealize.ShloMosaic.StableHlo Idealize.ShloMosaic.ValueIdx

theorem opsR_eq (ei : IVec S2x800000 32) :
    opsR ei = opsOf (fun m => RReadLayer.scatR m (RRead0.srcOf ei) (RRead0.enormOf ei) (RRead0.dstOf ei))
      RRead0.sum128R RRead0.var128R RReadLayer.sum64R RReadLayer.var64R := rfl

def V1 (V : Valuation τ sig (Elt Ideal)) : Valuation τ sig (Elt Ideal) := after (opsPrep (F := Ideal)) V

def V2 (V : Valuation τ sig (Elt Ideal)) : Valuation τ sig (Elt Ideal) := after (opsIn (F := Ideal)) (V1 V)

def V3 (V : Valuation τ sig (Elt Ideal)) : Valuation τ sig (Elt Ideal) := after (opsL0 (F := Ideal)) (V2 V)

def V4 (V : Valuation τ sig (Elt Ideal)) : Valuation τ sig (Elt Ideal) := after (opsL1 (F := Ideal)) (V3 V)

def V5 (V : Valuation τ sig (Elt Ideal)) : Valuation τ sig (Elt Ideal) := after (opsL2 (F := Ideal)) (V4 V)

def V6 (V : Valuation τ sig (Elt Ideal)) : Valuation τ sig (Elt Ideal) := after (opsL3 (F := Ideal)) (V5 V)

def V7 (V : Valuation τ sig (Elt Ideal)) : Valuation τ sig (Elt Ideal) := after (opsL4 (F := Ideal)) (V6 V)

def V8 (V : Valuation τ sig (Elt Ideal)) : Valuation τ sig (Elt Ideal) := after (opsL5 (F := Ideal)) (V7 V)

def V9 (V : Valuation τ sig (Elt Ideal)) : Valuation τ sig (Elt Ideal) := after (opsL6 (F := Ideal)) (V8 V)

def V10 (V : Valuation τ sig (Elt Ideal)) : Valuation τ sig (Elt Ideal) := after (opsL7 (F := Ideal)) (V9 V)

def V11 (V : Valuation τ sig (Elt Ideal)) : Valuation τ sig (Elt Ideal) := after (opsOut (F := Ideal)) (V10 V)

theorem after_app : ∀ (a b : List (HloOp τ sig (Elt Ideal))) (V : Valuation τ sig (Elt Ideal)),
    after (a ++ b) V = after b (after a V)
  | [], _, _ => rfl
  | op :: a, b, V => by rw [List.cons_append, after_cons, after_cons, after_app a b]

theorem run_eq (V : Valuation τ sig (Elt Ideal)) : after (ops (F := Ideal)) V = V11 V := by
  unfold V11 V10 V9 V8 V7 V6 V5 V4 V3 V2 V1
  show after (opsPrep ++ opsIn ++ opsL0 ++ opsL1 ++ opsL2 ++ opsL3 ++ opsL4 ++ opsL5 ++ opsL6 ++ opsL7 ++ opsOut) V = _
  rw [after_app, after_app, after_app, after_app, after_app, after_app, after_app, after_app, after_app, after_app]

section Args
variable (V : Valuation τ sig (Elt Ideal)) (r : Ref sig .tc) (hr : r.idx.val < 20)
include hr
theorem V1_arg : V1 V (r : DevRef τ sig) = V (r : DevRef τ sig) := keeps_of_above opsPrep_above V r hr
theorem V2_arg : V2 V (r : DevRef τ sig) = V (r : DevRef τ sig) :=
  (keeps_of_above opsIn_above (V1 V) r hr).trans (V1_arg V r hr)
theorem V3_arg : V3 V (r : DevRef τ sig) = V (r : DevRef τ sig) :=
  (keeps_of_above opsL0_above (V2 V) r hr).trans (V2_arg V r hr)
theorem V4_arg : V4 V (r : DevRef τ sig) = V (r : DevRef τ sig) :=
  (keeps_of_above opsL1_above (V3 V) r hr).trans (V3_arg V r hr)
theorem V5_arg : V5 V (r : DevRef τ sig) = V (r : DevRef τ sig) :=
  (keeps_of_above opsL2_above (V4 V) r hr).trans (V4_arg V r hr)
theorem V6_arg : V6 V (r : DevRef τ sig) = V (r : DevRef τ sig) :=
  (keeps_of_above opsL3_above (V5 V) r hr).trans (V5_arg V r hr)
theorem V7_arg : V7 V (r : DevRef τ sig) = V (r : DevRef τ sig) :=
  (keeps_of_above opsL4_above (V6 V) r hr).trans (V6_arg V r hr)
theorem V8_arg : V8 V (r : DevRef τ sig) = V (r : DevRef τ sig) :=
  (keeps_of_above opsL5_above (V7 V) r hr).trans (V7_arg V r hr)
theorem V9_arg : V9 V (r : DevRef τ sig) = V (r : DevRef τ sig) :=
  (keeps_of_above opsL6_above (V8 V) r hr).trans (V8_arg V r hr)
theorem V10_arg : V10 V (r : DevRef τ sig) = V (r : DevRef τ sig) :=
  (keeps_of_above opsL7_above (V9 V) r hr).trans (V9_arg V r hr)
end Args

structure Graph (V W : Valuation τ sig (Elt Ideal)) : Prop where
  v3 : W (main_v3 : DevRef τ sig) = RRead0.srcOf (V (main_arg1 : DevRef τ sig))
  v6 : W (main_v6 : DevRef τ sig) = RRead0.dstOf (V (main_arg1 : DevRef τ sig))
  v32 : W (main_v32 : DevRef τ sig) = RRead0.enormOf (V (main_arg1 : DevRef τ sig))

theorem graph1 (V : Valuation τ sig (Elt Ideal)) : Graph V (V1 V) :=
  ⟨RRead0.prep_v3 V, RRead0.prep_v6 V, RRead0.prep_v32 V⟩

theorem graph2 (V : Valuation τ sig (Elt Ideal)) : Graph V (V2 V) :=
  ⟨(RRead0.in_keep (V1 V) (by decide)).trans (graph1 V).v3, (RRead0.in_keep (V1 V) (by decide)).trans (graph1 V).v6,
    (RRead0.in_keep (V1 V) (by decide)).trans (graph1 V).v32⟩

abbrev OR (V : Valuation τ sig (Elt Ideal)) : Cert.Spec.Ops := opsR (V (main_arg1 : DevRef τ sig))

theorem in_fused (V : Valuation τ sig (Elt Ideal)) :
    Cert.Pack.mat (V2 V (main_v85 : DevRef τ sig) : FVec Ideal S50000x64 .f32) = Cert.Spec.h0 (OR V) (paramsR V) := by
  have hX : RRead0.argX (V1 V) = V (main_arg0 : DevRef τ sig) := V1_arg V main_arg0 (by decide)
  have hW1 : RRead0.argW1 (V1 V) = V (main_arg2 : DevRef τ sig) := V1_arg V main_arg2 (by decide)
  have hB1 : RRead0.argB1 (V1 V) = V (main_arg3 : DevRef τ sig) := V1_arg V main_arg3 (by decide)
  have hG1 : RRead0.argG1 (V1 V) = V (main_arg4 : DevRef τ sig) := V1_arg V main_arg4 (by decide)
  have hBe1 : RRead0.argBe1 (V1 V) = V (main_arg5 : DevRef τ sig) := V1_arg V main_arg5 (by decide)
  have hW2 : RRead0.argW2 (V1 V) = V (main_arg6 : DevRef τ sig) := V1_arg V main_arg6 (by decide)
  have hB2 : RRead0.argB2 (V1 V) = V (main_arg7 : DevRef τ sig) := V1_arg V main_arg7 (by decide)
  have hLw1 : RRead0.argLw1 (V1 V) = V (main_arg8 : DevRef τ sig) := V1_arg V main_arg8 (by decide)
  have hLb1 : RRead0.argLb1 (V1 V) = V (main_arg9 : DevRef τ sig) := V1_arg V main_arg9 (by decide)
  have hLw2 : RRead0.argLw2 (V1 V) = V (main_arg10 : DevRef τ sig) := V1_arg V main_arg10 (by decide)
  have hLb2 : RRead0.argLb2 (V1 V) = V (main_arg11 : DevRef τ sig) := V1_arg V main_arg11 (by decide)
  have hp : Cert.Pack.mat (RRead0.preOf (V1 V)) = Cert.Spec.preA (paramsR V) := by
    refine pre_step (paramsR V) (RRead0.preOf (V1 V)) fun i j => ?_
    show RRead0.preT (RRead0.argX (V1 V)) (RRead0.argW1 (V1 V)) (RRead0.argB1 (V1 V)) (ix2 i j) = _
    rw [RRead0.preT_apply, hX, hW1, hB1]
    rfl
  rw [OR, opsR_eq]
  refine in_step _ RRead0.sum128R RRead0.var128R _ _ (paramsR V) (RRead0.preOf (V1 V)) _ hp fun i j => ?_
  show (after (opsIn (F := Ideal)) (V1 V) (main_v85 : DevRef τ sig) : FVec Ideal S50000x64 .f32) (ix2 i j) = _
  rw [RRead0.in_v85_apply, hLw1, hLb1, hLw2, hLb2]
  show Cert.Spec.gated
      (Cert.Spec.hin (Cert.Pack.mat (RRead0.preOf (V1 V)) i)
        (fun k => Cert.Spec.meanOf (RRead0.sum128R (RRead0.preOf (V1 V)) (ix1 k)))
        (fun k => RRead0.var128R (RRead0.preOf (V1 V)) (ix1 k)) (Cert.Pack.row (RRead0.argG1 (V1 V)))
        (Cert.Pack.row (RRead0.argBe1 (V1 V))) (Cert.Pack.mat (RRead0.argW2 (V1 V))) (Cert.Pack.row (RRead0.argB2 (V1 V))))
      (Cert.Spec.hin (Cert.Pack.mat (RRead0.preOf (V1 V)) i)
        (fun k => Cert.Spec.meanOf (RRead0.sum128R (RRead0.preOf (V1 V)) (ix1 k)))
        (fun k => RRead0.var128R (RRead0.preOf (V1 V)) (ix1 k)) (Cert.Pack.row (RRead0.argG1 (V1 V)))
        (Cert.Pack.row (RRead0.argBe1 (V1 V))) (Cert.Pack.mat (RRead0.argW2 (V1 V))) (Cert.Pack.row (RRead0.argB2 (V1 V))))
      _ _ _ _ j = _
  rw [hG1, hBe1, hW2, hB2]
  rfl

theorem in_proj (V : Valuation τ sig (Elt Ideal)) :
    Cert.Pack.mat (V2 V (main_v88 : DevRef τ sig) : FVec Ideal S50000x64 .f32)
      = fun i j => Cert.Spec.proj ((Cert.Spec.s0 (OR V) (paramsR V)).2 i) ((paramsR V).bw 0) j := by
  have hBw : RRead0.argBw (V1 V) = V (main_arg12 : DevRef τ sig) := V1_arg V main_arg12 (by decide)
  have hf := in_fused V
  rw [OR, opsR_eq] at hf ⊢
  refine in_proj_step _ _ _ _ _ (paramsR V) _ _ hf fun i j => ?_
  show (after (opsIn (F := Ideal)) (V1 V) (main_v88 : DevRef τ sig) : FVec Ideal S50000x64 .f32) (ix2 i j) = _
  rw [RRead0.in_v88_apply, hBw]
  rfl

abbrev OL (V : Valuation τ sig (Elt Ideal)) : Cert.Spec.Ops :=
  opsOf (fun m => RReadLayer.scatR m (RRead0.srcOf (V (main_arg1 : DevRef τ sig))) (RRead0.enormOf (V (main_arg1 : DevRef τ sig)))
      (RRead0.dstOf (V (main_arg1 : DevRef τ sig))))
    RRead0.sum128R RRead0.var128R RReadLayer.sum64R RReadLayer.var64R

structure Inv (V : Valuation τ sig (Elt Ideal)) (s : Cert.Spec.Mat 50000 64 × Cert.Spec.Mat 50000 64) (l : Fin 8)
    (fu pr : FVec Ideal S50000x64 .f32) : Prop where
  fused : Cert.Pack.mat fu = s.1
  proj : Cert.Pack.mat pr = fun i j => Cert.Spec.proj (s.2 i) ((paramsR V).bw l) j

def hrV (V : Valuation τ sig (Elt Ideal)) (l : Fin 8) (A : FVec Ideal S50000x64 .f32) (i : Fin 50000) : Fin 64 → EReal :=
  Cert.Spec.hraw (fun k => A (ix2 i k)) (fun k => Cert.Spec.meanOf (RReadLayer.sum64R A (ix1 k)))
    (fun k => RReadLayer.var64R A (ix1 k))
    (fun k => (V (main_arg14 : DevRef τ sig) : FVec Ideal S8x64 .f32) (ix2 l k))
    (fun k => (V (main_arg15 : DevRef τ sig) : FVec Ideal S8x64 .f32) (ix2 l k))

def gatedV (V : Valuation τ sig (Elt Ideal)) (l : Fin 8) (l' : Fin 9) (A fu : FVec Ideal S50000x64 .f32) (i : Fin 50000) :
    Fin 64 → EReal :=
  Cert.Spec.gated (hrV V l A i) (fun k => hrV V l A i k - fu (ix2 i k))
    (fun k a => (V (main_arg8 : DevRef τ sig) : FVec Ideal S9x64x4 .f32) (ix3 l' k a))
    (fun a => (V (main_arg9 : DevRef τ sig) : FVec Ideal S9x4 .f32) (ix2 l' a))
    (fun a => (V (main_arg10 : DevRef τ sig) : FVec Ideal S9x4x1 .f32) (ix3 l' a 0))
    ((V (main_arg11 : DevRef τ sig) : FVec Ideal S9x1 .f32) (ix2 l' 0))

section Step
variable {V : Valuation τ sig (Elt Ideal)} {s : Cert.Spec.Mat 50000 64 × Cert.Spec.Mat 50000 64} {l : Fin 8}
  {fu pr : FVec Ideal S50000x64 .f32}

theorem Inv.fused_next (h : Inv V s l fu pr) (l' : Fin 9) (A fu' : FVec Ideal S50000x64 .f32)
    (hA : ∀ i j, A (ix2 i j)
      = RReadLayer.scatR pr (RRead0.srcOf (V (main_arg1 : DevRef τ sig))) (RRead0.enormOf (V (main_arg1 : DevRef τ sig)))
          (RRead0.dstOf (V (main_arg1 : DevRef τ sig))) (ix2 i j)
        + (V (main_arg13 : DevRef τ sig) : FVec Ideal S8x64 .f32) (ix2 l j))
    (hfu' : ∀ i j, fu' (ix2 i j) = fu (ix2 i j) + gatedV V l l' A fu i j) :
    Cert.Pack.mat fu' = (Cert.Spec.layer (OL V) (paramsR V) l l' s).1 := by
  have hA' : ∀ i j, A (ix2 i j)
      = (fun m => RReadLayer.scatR m (RRead0.srcOf (V (main_arg1 : DevRef τ sig))) (RRead0.enormOf (V (main_arg1 : DevRef τ sig)))
      (RRead0.dstOf (V (main_arg1 : DevRef τ sig)))) pr (ix2 i j) + (paramsR V).bb l j := hA
  have hfu'' : ∀ i j, fu' (ix2 i j)
      = fu (ix2 i j) + hNextRow RReadLayer.sum64R RReadLayer.var64R (paramsR V) l l' A fu i j := hfu'
  exact fused_step (fun m => RReadLayer.scatR m (RRead0.srcOf (V (main_arg1 : DevRef τ sig))) (RRead0.enormOf (V (main_arg1 : DevRef τ sig)))
      (RRead0.dstOf (V (main_arg1 : DevRef τ sig))))
    RRead0.sum128R RRead0.var128R RReadLayer.sum64R RReadLayer.var64R (paramsR V) l l' s fu pr A h.fused h.proj hA' fu' hfu''

theorem Inv.next (h : Inv V s l fu pr) (l' : Fin 9) (m : Fin 8) (A fu' pr' : FVec Ideal S50000x64 .f32)
    (hA : ∀ i j, A (ix2 i j)
      = RReadLayer.scatR pr (RRead0.srcOf (V (main_arg1 : DevRef τ sig))) (RRead0.enormOf (V (main_arg1 : DevRef τ sig)))
          (RRead0.dstOf (V (main_arg1 : DevRef τ sig))) (ix2 i j)
        + (V (main_arg13 : DevRef τ sig) : FVec Ideal S8x64 .f32) (ix2 l j))
    (hfu' : ∀ i j, fu' (ix2 i j) = fu (ix2 i j) + gatedV V l l' A fu i j)
    (hpr' : ∀ i j, pr' (ix2 i j)
      = Cert.Spec.proj (gatedV V l l' A fu i)
          (fun k q => (V (main_arg12 : DevRef τ sig) : FVec Ideal S8x64x64 .f32) (ix3 m k q)) j) :
    Inv V (Cert.Spec.layer (OL V) (paramsR V) l l' s) m fu' pr' := by
  have hA' : ∀ i j, A (ix2 i j)
      = (fun m => RReadLayer.scatR m (RRead0.srcOf (V (main_arg1 : DevRef τ sig))) (RRead0.enormOf (V (main_arg1 : DevRef τ sig)))
      (RRead0.dstOf (V (main_arg1 : DevRef τ sig)))) pr (ix2 i j) + (paramsR V).bb l j := hA
  have hpr'' : ∀ i j, pr' (ix2 i j)
      = Cert.Spec.proj (hNextRow RReadLayer.sum64R RReadLayer.var64R (paramsR V) l l' A fu i) ((paramsR V).bw m) j := hpr'
  exact ⟨h.fused_next l' A fu' hA hfu',
    proj_step (fun m => RReadLayer.scatR m (RRead0.srcOf (V (main_arg1 : DevRef τ sig))) (RRead0.enormOf (V (main_arg1 : DevRef τ sig)))
      (RRead0.dstOf (V (main_arg1 : DevRef τ sig))))
      RRead0.sum128R RRead0.var128R RReadLayer.sum64R RReadLayer.var64R (paramsR V) l l' s fu pr A h.fused h.proj hA' m pr' hpr''⟩

end Step

theorem inv2 (V : Valuation τ sig (Elt Ideal)) :
    Inv V (Cert.Spec.s0 (OL V) (paramsR V)) 0 (V2 V (main_v85 : DevRef τ sig)) (V2 V (main_v88 : DevRef τ sig)) :=
  ⟨in_fused V, in_proj V⟩

theorem graph3 (V : Valuation τ sig (Elt Ideal)) : Graph V (V3 V) :=
  ⟨(RReadL0.keep (V2 V) main_v3 (by decide)).trans (graph2 V).v3,
    (RReadL0.keep (V2 V) main_v6 (by decide)).trans (graph2 V).v6,
    (RReadL0.keep (V2 V) main_v32 (by decide)).trans (graph2 V).v32⟩

theorem inv3 (V : Valuation τ sig (Elt Ideal)) :
    Inv V (Cert.Spec.s1 (OL V) (paramsR V)) 1 (V3 V (main_v156 : DevRef τ sig)) (V3 V (main_v159 : DevRef τ sig)) := by
  refine (inv2 V).next 1 1 (V3 V (main_v105 : DevRef τ sig)) _ _ (fun i j => ?_) (fun i j => ?_) (fun i j => ?_)
  · show after (opsL0 (F := Ideal)) (V2 V) (main_v105 : DevRef τ sig) (ix2 i j) = _
    rw [RReadL0.agg_apply, (graph2 V).v3, (graph2 V).v32, (graph2 V).v6, V2_arg V main_arg13 (by decide)]
  · show after (opsL0 (F := Ideal)) (V2 V) (main_v156 : DevRef τ sig) (ix2 i j) = _
    rw [RReadL0.fused_apply]
    unfold RReadL0.gatedRow RReadL0.hr gatedV hrV V3
    rw [V2_arg V main_arg8 (by decide), V2_arg V main_arg9 (by decide), V2_arg V main_arg10 (by decide), V2_arg V main_arg11 (by decide), V2_arg V main_arg14 (by decide), V2_arg V main_arg15 (by decide)]
  · show after (opsL0 (F := Ideal)) (V2 V) (main_v159 : DevRef τ sig) (ix2 i j) = _
    rw [RReadL0.proj_apply]
    unfold RReadL0.gatedRow RReadL0.hr gatedV hrV V3
    rw [V2_arg V main_arg8 (by decide), V2_arg V main_arg9 (by decide), V2_arg V main_arg10 (by decide), V2_arg V main_arg11 (by decide), V2_arg V main_arg14 (by decide), V2_arg V main_arg15 (by decide), V2_arg V main_arg12 (by decide)]

theorem graph4 (V : Valuation τ sig (Elt Ideal)) : Graph V (V4 V) :=
  ⟨(RReadL1.keep (V3 V) main_v3 (by decide)).trans (graph3 V).v3,
    (RReadL1.keep (V3 V) main_v6 (by decide)).trans (graph3 V).v6,
    (RReadL1.keep (V3 V) main_v32 (by decide)).trans (graph3 V).v32⟩

theorem inv4 (V : Valuation τ sig (Elt Ideal)) :
    Inv V (Cert.Spec.s2 (OL V) (paramsR V)) 2 (V4 V (main_v227 : DevRef τ sig)) (V4 V (main_v230 : DevRef τ sig)) := by
  refine (inv3 V).next 2 2 (V4 V (main_v176 : DevRef τ sig)) _ _ (fun i j => ?_) (fun i j => ?_) (fun i j => ?_)
  · show after (opsL1 (F := Ideal)) (V3 V) (main_v176 : DevRef τ sig) (ix2 i j) = _
    rw [RReadL1.agg_apply, (graph3 V).v3, (graph3 V).v32, (graph3 V).v6, V3_arg V main_arg13 (by decide)]
  · show after (opsL1 (F := Ideal)) (V3 V) (main_v227 : DevRef τ sig) (ix2 i j) = _
    rw [RReadL1.fused_apply]
    unfold RReadL1.gatedRow RReadL1.hr gatedV hrV V4
    rw [V3_arg V main_arg8 (by decide), V3_arg V main_arg9 (by decide), V3_arg V main_arg10 (by decide), V3_arg V main_arg11 (by decide), V3_arg V main_arg14 (by decide), V3_arg V main_arg15 (by decide)]
  · show after (opsL1 (F := Ideal)) (V3 V) (main_v230 : DevRef τ sig) (ix2 i j) = _
    rw [RReadL1.proj_apply]
    unfold RReadL1.gatedRow RReadL1.hr gatedV hrV V4
    rw [V3_arg V main_arg8 (by decide), V3_arg V main_arg9 (by decide), V3_arg V main_arg10 (by decide), V3_arg V main_arg11 (by decide), V3_arg V main_arg14 (by decide), V3_arg V main_arg15 (by decide), V3_arg V main_arg12 (by decide)]

theorem graph5 (V : Valuation τ sig (Elt Ideal)) : Graph V (V5 V) :=
  ⟨(RReadL2.keep (V4 V) main_v3 (by decide)).trans (graph4 V).v3,
    (RReadL2.keep (V4 V) main_v6 (by decide)).trans (graph4 V).v6,
    (RReadL2.keep (V4 V) main_v32 (by decide)).trans (graph4 V).v32⟩

theorem inv5 (V : Valuation τ sig (Elt Ideal)) :
    Inv V (Cert.Spec.s3 (OL V) (paramsR V)) 3 (V5 V (main_v298 : DevRef τ sig)) (V5 V (main_v301 : DevRef τ sig)) := by
  refine (inv4 V).next 3 3 (V5 V (main_v247 : DevRef τ sig)) _ _ (fun i j => ?_) (fun i j => ?_) (fun i j => ?_)
  · show after (opsL2 (F := Ideal)) (V4 V) (main_v247 : DevRef τ sig) (ix2 i j) = _
    rw [RReadL2.agg_apply, (graph4 V).v3, (graph4 V).v32, (graph4 V).v6, V4_arg V main_arg13 (by decide)]
  · show after (opsL2 (F := Ideal)) (V4 V) (main_v298 : DevRef τ sig) (ix2 i j) = _
    rw [RReadL2.fused_apply]
    unfold RReadL2.gatedRow RReadL2.hr gatedV hrV V5
    rw [V4_arg V main_arg8 (by decide), V4_arg V main_arg9 (by decide), V4_arg V main_arg10 (by decide), V4_arg V main_arg11 (by decide), V4_arg V main_arg14 (by decide), V4_arg V main_arg15 (by decide)]
  · show after (opsL2 (F := Ideal)) (V4 V) (main_v301 : DevRef τ sig) (ix2 i j) = _
    rw [RReadL2.proj_apply]
    unfold RReadL2.gatedRow RReadL2.hr gatedV hrV V5
    rw [V4_arg V main_arg8 (by decide), V4_arg V main_arg9 (by decide), V4_arg V main_arg10 (by decide), V4_arg V main_arg11 (by decide), V4_arg V main_arg14 (by decide), V4_arg V main_arg15 (by decide), V4_arg V main_arg12 (by decide)]

theorem graph6 (V : Valuation τ sig (Elt Ideal)) : Graph V (V6 V) :=
  ⟨(RReadL3.keep (V5 V) main_v3 (by decide)).trans (graph5 V).v3,
    (RReadL3.keep (V5 V) main_v6 (by decide)).trans (graph5 V).v6,
    (RReadL3.keep (V5 V) main_v32 (by decide)).trans (graph5 V).v32⟩

theorem inv6 (V : Valuation τ sig (Elt Ideal)) :
    Inv V (Cert.Spec.s4 (OL V) (paramsR V)) 4 (V6 V (main_v369 : DevRef τ sig)) (V6 V (main_v372 : DevRef τ sig)) := by
  refine (inv5 V).next 4 4 (V6 V (main_v318 : DevRef τ sig)) _ _ (fun i j => ?_) (fun i j => ?_) (fun i j => ?_)
  · show after (opsL3 (F := Ideal)) (V5 V) (main_v318 : DevRef τ sig) (ix2 i j) = _
    rw [RReadL3.agg_apply, (graph5 V).v3, (graph5 V).v32, (graph5 V).v6, V5_arg V main_arg13 (by decide)]
  · show after (opsL3 (F := Ideal)) (V5 V) (main_v369 : DevRef τ sig) (ix2 i j) = _
    rw [RReadL3.fused_apply]
    unfold RReadL3.gatedRow RReadL3.hr gatedV hrV V6
    rw [V5_arg V main_arg8 (by decide), V5_arg V main_arg9 (by decide), V5_arg V main_arg10 (by decide), V5_arg V main_arg11 (by decide), V5_arg V main_arg14 (by decide), V5_arg V main_arg15 (by decide)]
  · show after (opsL3 (F := Ideal)) (V5 V) (main_v372 : DevRef τ sig) (ix2 i j) = _
    rw [RReadL3.proj_apply]
    unfold RReadL3.gatedRow RReadL3.hr gatedV hrV V6
    rw [V5_arg V main_arg8 (by decide), V5_arg V main_arg9 (by decide), V5_arg V main_arg10 (by decide), V5_arg V main_arg11 (by decide), V5_arg V main_arg14 (by decide), V5_arg V main_arg15 (by decide), V5_arg V main_arg12 (by decide)]

theorem graph7 (V : Valuation τ sig (Elt Ideal)) : Graph V (V7 V) :=
  ⟨(RReadL4.keep (V6 V) main_v3 (by decide)).trans (graph6 V).v3,
    (RReadL4.keep (V6 V) main_v6 (by decide)).trans (graph6 V).v6,
    (RReadL4.keep (V6 V) main_v32 (by decide)).trans (graph6 V).v32⟩

theorem inv7 (V : Valuation τ sig (Elt Ideal)) :
    Inv V (Cert.Spec.s5 (OL V) (paramsR V)) 5 (V7 V (main_v440 : DevRef τ sig)) (V7 V (main_v443 : DevRef τ sig)) := by
  refine (inv6 V).next 5 5 (V7 V (main_v389 : DevRef τ sig)) _ _ (fun i j => ?_) (fun i j => ?_) (fun i j => ?_)
  · show after (opsL4 (F := Ideal)) (V6 V) (main_v389 : DevRef τ sig) (ix2 i j) = _
    rw [RReadL4.agg_apply, (graph6 V).v3, (graph6 V).v32, (graph6 V).v6, V6_arg V main_arg13 (by decide)]
  · show after (opsL4 (F := Ideal)) (V6 V) (main_v440 : DevRef τ sig) (ix2 i j) = _
    rw [RReadL4.fused_apply]
    unfold RReadL4.gatedRow RReadL4.hr gatedV hrV V7
    rw [V6_arg V main_arg8 (by decide), V6_arg V main_arg9 (by decide), V6_arg V main_arg10 (by decide), V6_arg V main_arg11 (by decide), V6_arg V main_arg14 (by decide), V6_arg V main_arg15 (by decide)]
  · show after (opsL4 (F := Ideal)) (V6 V) (main_v443 : DevRef τ sig) (ix2 i j) = _
    rw [RReadL4.proj_apply]
    unfold RReadL4.gatedRow RReadL4.hr gatedV hrV V7
    rw [V6_arg V main_arg8 (by decide), V6_arg V main_arg9 (by decide), V6_arg V main_arg10 (by decide), V6_arg V main_arg11 (by decide), V6_arg V main_arg14 (by decide), V6_arg V main_arg15 (by decide), V6_arg V main_arg12 (by decide)]

theorem graph8 (V : Valuation τ sig (Elt Ideal)) : Graph V (V8 V) :=
  ⟨(RReadL5.keep (V7 V) main_v3 (by decide)).trans (graph7 V).v3,
    (RReadL5.keep (V7 V) main_v6 (by decide)).trans (graph7 V).v6,
    (RReadL5.keep (V7 V) main_v32 (by decide)).trans (graph7 V).v32⟩

theorem inv8 (V : Valuation τ sig (Elt Ideal)) :
    Inv V (Cert.Spec.s6 (OL V) (paramsR V)) 6 (V8 V (main_v511 : DevRef τ sig)) (V8 V (main_v514 : DevRef τ sig)) := by
  refine (inv7 V).next 6 6 (V8 V (main_v460 : DevRef τ sig)) _ _ (fun i j => ?_) (fun i j => ?_) (fun i j => ?_)
  · show after (opsL5 (F := Ideal)) (V7 V) (main_v460 : DevRef τ sig) (ix2 i j) = _
    rw [RReadL5.agg_apply, (graph7 V).v3, (graph7 V).v32, (graph7 V).v6, V7_arg V main_arg13 (by decide)]
  · show after (opsL5 (F := Ideal)) (V7 V) (main_v511 : DevRef τ sig) (ix2 i j) = _
    rw [RReadL5.fused_apply]
    unfold RReadL5.gatedRow RReadL5.hr gatedV hrV V8
    rw [V7_arg V main_arg8 (by decide), V7_arg V main_arg9 (by decide), V7_arg V main_arg10 (by decide), V7_arg V main_arg11 (by decide), V7_arg V main_arg14 (by decide), V7_arg V main_arg15 (by decide)]
  · show after (opsL5 (F := Ideal)) (V7 V) (main_v514 : DevRef τ sig) (ix2 i j) = _
    rw [RReadL5.proj_apply]
    unfold RReadL5.gatedRow RReadL5.hr gatedV hrV V8
    rw [V7_arg V main_arg8 (by decide), V7_arg V main_arg9 (by decide), V7_arg V main_arg10 (by decide), V7_arg V main_arg11 (by decide), V7_arg V main_arg14 (by decide), V7_arg V main_arg15 (by decide), V7_arg V main_arg12 (by decide)]

theorem graph9 (V : Valuation τ sig (Elt Ideal)) : Graph V (V9 V) :=
  ⟨(RReadL6.keep (V8 V) main_v3 (by decide)).trans (graph8 V).v3,
    (RReadL6.keep (V8 V) main_v6 (by decide)).trans (graph8 V).v6,
    (RReadL6.keep (V8 V) main_v32 (by decide)).trans (graph8 V).v32⟩

theorem inv9 (V : Valuation τ sig (Elt Ideal)) :
    Inv V (Cert.Spec.s7 (OL V) (paramsR V)) 7 (V9 V (main_v582 : DevRef τ sig)) (V9 V (main_v585 : DevRef τ sig)) := by
  refine (inv8 V).next 7 7 (V9 V (main_v531 : DevRef τ sig)) _ _ (fun i j => ?_) (fun i j => ?_) (fun i j => ?_)
  · show after (opsL6 (F := Ideal)) (V8 V) (main_v531 : DevRef τ sig) (ix2 i j) = _
    rw [RReadL6.agg_apply, (graph8 V).v3, (graph8 V).v32, (graph8 V).v6, V8_arg V main_arg13 (by decide)]
  · show after (opsL6 (F := Ideal)) (V8 V) (main_v582 : DevRef τ sig) (ix2 i j) = _
    rw [RReadL6.fused_apply]
    unfold RReadL6.gatedRow RReadL6.hr gatedV hrV V9
    rw [V8_arg V main_arg8 (by decide), V8_arg V main_arg9 (by decide), V8_arg V main_arg10 (by decide), V8_arg V main_arg11 (by decide), V8_arg V main_arg14 (by decide), V8_arg V main_arg15 (by decide)]
  · show after (opsL6 (F := Ideal)) (V8 V) (main_v585 : DevRef τ sig) (ix2 i j) = _
    rw [RReadL6.proj_apply]
    unfold RReadL6.gatedRow RReadL6.hr gatedV hrV V9
    rw [V8_arg V main_arg8 (by decide), V8_arg V main_arg9 (by decide), V8_arg V main_arg10 (by decide), V8_arg V main_arg11 (by decide), V8_arg V main_arg14 (by decide), V8_arg V main_arg15 (by decide), V8_arg V main_arg12 (by decide)]

theorem fused10 (V : Valuation τ sig (Elt Ideal)) :
    Cert.Pack.mat (V10 V (main_v653 : DevRef τ sig) : FVec Ideal S50000x64 .f32) = (Cert.Spec.s8 (OL V) (paramsR V)).1 := by
  refine (inv9 V).fused_next 8 (V10 V (main_v602 : DevRef τ sig)) _ (fun i j => ?_) (fun i j => ?_)
  · show after (opsL7 (F := Ideal)) (V9 V) (main_v602 : DevRef τ sig) (ix2 i j) = _
    rw [RReadL7.agg_apply, (graph9 V).v3, (graph9 V).v32, (graph9 V).v6, V9_arg V main_arg13 (by decide)]
  · show after (opsL7 (F := Ideal)) (V9 V) (main_v653 : DevRef τ sig) (ix2 i j) = _
    rw [RReadL7.fused_apply]
    unfold RReadL7.gatedRow RReadL7.hr gatedV hrV V10
    rw [V9_arg V main_arg8 (by decide), V9_arg V main_arg9 (by decide), V9_arg V main_arg10 (by decide), V9_arg V main_arg11 (by decide), V9_arg V main_arg14 (by decide), V9_arg V main_arg15 (by decide)]

theorem result_eq (V : Valuation τ sig (Elt Ideal)) :
    Cert.Pack.mat (StableHlo.after (ops (F := Ideal)) V (main_v662 : DevRef τ sig))
      = Cert.Spec.result (opsR (V (main_arg1 : DevRef τ sig))) (paramsR V) := by
  rw [run_eq, opsR_eq]
  refine out_step _ RRead0.sum128R RRead0.var128R RReadLayer.sum64R RReadLayer.var64R (paramsR V)
    (V10 V (main_v653 : DevRef τ sig)) _ (fused10 V) fun i j => ?_
  show after (opsOut (F := Ideal)) (V10 V) (main_v662 : DevRef τ sig) (ix2 i j) = _
  rw [RReadOut.out_apply, V10_arg V main_arg16 (by decide), V10_arg V main_arg17 (by decide),
    V10_arg V main_arg18 (by decide), V10_arg V main_arg19 (by decide)]
  rfl

end Cert.ReferenceIdeal.RChain

end
-- ==== Proof.Bridge.lean ====
import proofs.«428538_j32280974197073_1_alg».proof.Proof.Spec
import proofs.«428538_j32280974197073_1_alg».proof.Proof.Pack
import proofs.«428538_j32280974197073_1_alg».proof.Proof.KHost.Defs
import proofs.«428538_j32280974197073_1_alg».proof.Proof.KChain.Defs
import proofs.«428538_j32280974197073_1_alg».proof.Proof.RRead0
import proofs.«428538_j32280974197073_1_alg».proof.Proof.RReadLayer
import proofs.«428538_j32280974197073_1_alg».proof.Proof.RChain.Defs
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

variable [Cert.ReferenceIdeal.Facts]

attribute [local irreducible] Host.gather Host.scatterAdd Host.reduceAdd concatenate iotaInDim

theorem scatter64_eq : Cert.KernelIdeal.scatter_S50000x64_S850000x1_S850000x64_1_0_0_1
    = Cert.ReferenceIdeal.scatter_S50000x64_S850000x1_S850000x64_1_0_0_1 := rfl
theorem gather64_eq : Cert.KernelIdeal.gather_S50000x64_S850000x1_S850000x64_1_0_n_n_0_1_164
    = Cert.ReferenceIdeal.gather_S50000x64_S850000x1_S850000x64_1_0_n_n_0_1_164 := rfl
theorem scatter1_eq : Cert.KernelIdeal.scatter_S50000_S850000x1_S850000_n_0_0_1
    = Cert.ReferenceIdeal.scatter_S50000_S850000x1_S850000_n_0_0_1 := rfl
theorem gather1_eq : Cert.KernelIdeal.gather_S50000_S850000x1_S850000_n_0_n_n_0_1_1
    = Cert.ReferenceIdeal.gather_S50000_S850000x1_S850000_n_0_n_n_0_1_1 := rfl

theorem srcOf_eq (ei : IVec Cert.KernelIdeal.S2x800000 32) :
    Cert.KernelIdeal.KHost.srcOf ei = Cert.ReferenceIdeal.RRead0.srcOf ei := by
  unfold Cert.KernelIdeal.KHost.srcOf Cert.ReferenceIdeal.RRead0.srcOf
  with_reducible rfl

theorem dstOf_eq (ei : IVec Cert.KernelIdeal.S2x800000 32) :
    Cert.KernelIdeal.KHost.dstOf ei = Cert.ReferenceIdeal.RRead0.dstOf ei := by
  unfold Cert.KernelIdeal.KHost.dstOf Cert.ReferenceIdeal.RRead0.dstOf
  with_reducible rfl

theorem enormOf_eq (ei : IVec Cert.KernelIdeal.S2x800000 32) :
    Cert.KernelIdeal.KHost.enormOf ei = Cert.ReferenceIdeal.RRead0.enormOf ei := by
  unfold Cert.KernelIdeal.KHost.enormOf Cert.KernelIdeal.KHost.dinvOf Cert.KernelIdeal.KHost.degOf Cert.KernelIdeal.KHost.normIdx
    Cert.ReferenceIdeal.RRead0.enormOf Cert.ReferenceIdeal.RRead0.enormFrom Cert.ReferenceIdeal.RRead0.dinvOf Cert.ReferenceIdeal.RRead0.degOf Cert.ReferenceIdeal.RRead0.wrapIdx
  rw [srcOf_eq, dstOf_eq, gather1_eq, scatter1_eq]

theorem scat_eq (m : FVec Ideal Cert.KernelIdeal.S50000x64 .f32) (src : IVec Cert.KernelIdeal.S850000 32)
    (en : FVec Ideal Cert.KernelIdeal.S850000x1 .f32) (dst : IVec Cert.KernelIdeal.S850000 32) :
    Cert.KernelIdeal.KHost.scatK m src en dst = Cert.ReferenceIdeal.RReadLayer.scatR m src en dst := by
  unfold Cert.KernelIdeal.KHost.scatK Cert.KernelIdeal.KHost.normIdx Cert.ReferenceIdeal.RReadLayer.scatR
  rw [scatter64_eq, gather64_eq]

theorem sum128_eq (a : FVec Ideal Cert.KernelIdeal.S50000x128 .f32) :
    Cert.KernelIdeal.KHost.sum128K a = Cert.ReferenceIdeal.RRead0.sum128R a := by
  unfold Cert.KernelIdeal.KHost.sum128K Cert.ReferenceIdeal.RRead0.sum128R
  with_reducible rfl

theorem sum64_eq (a : FVec Ideal Cert.KernelIdeal.S50000x64 .f32) :
    Cert.KernelIdeal.KHost.sum64K a = Cert.ReferenceIdeal.RReadLayer.sum64R a := by
  unfold Cert.KernelIdeal.KHost.sum64K Cert.ReferenceIdeal.RReadLayer.sum64R
  with_reducible rfl

theorem tail_kept {b : ℕ} (dims0 : Fin Cert.KernelIdeal.S_.rank → Fin (⟨2, ![1, b]⟩ : Shape).rank)
    (h0 : Cert.KernelIdeal.S_.BroadcastsInDim ⟨2, ![1, b]⟩ dims0)
    (h1 : (⟨1, ![b]⟩ : Shape).BroadcastsInDim ⟨2, ![1, b]⟩ ![1])
    (p : IVec Cert.KernelIdeal.S_ 1) (red : FVec Ideal ⟨1, ![b]⟩ .f32) (cnt nan : FVec Ideal Cert.KernelIdeal.S_ .f32) (j : Fin b) :
    select (broadcastInDim ⟨2, ![1, b]⟩ dims0 h0 p)
        (Host.divf (broadcastInDim ⟨2, ![1, b]⟩ ![1] h1 red) (broadcastInDim ⟨2, ![1, b]⟩ dims0 h0 cnt))
        (broadcastInDim ⟨2, ![1, b]⟩ dims0 h0 nan) (ix2 (0 : Fin 1) j)
      = Scalar.select (p ix0) (FloatOps.hostDivf (red (ix1 j)) (cnt ix0)) (nan ix0) := by
  have e0 : ∀ {α : Type} (x : Cert.KernelIdeal.S_.Idx → α),
      broadcastInDim ⟨2, ![1, b]⟩ dims0 h0 x (ix2 (0 : Fin 1) j) = x ix0 :=
    fun x => broadcastInDim_apply dims0 h0 x _ ix0 fun a => a.elim0
  have e1 : broadcastInDim ⟨2, ![1, b]⟩ ![1] h1 red (ix2 (0 : Fin 1) j) = red (ix1 j) :=
    broadcastInDim_apply ![1] h1 red _ (ix1 j) fun ax => by
      match ax with
      | ⟨0, _⟩ =>
        show j.val = if b = 1 then 0 else j.val
        split
        · have := j.isLt; omega
        · rfl
  show Scalar.select (broadcastInDim ⟨2, ![1, b]⟩ dims0 h0 p (ix2 (0 : Fin 1) j))
      (FloatOps.hostDivf (broadcastInDim ⟨2, ![1, b]⟩ ![1] h1 red (ix2 (0 : Fin 1) j))
        (broadcastInDim ⟨2, ![1, b]⟩ dims0 h0 cnt (ix2 (0 : Fin 1) j)))
      (broadcastInDim ⟨2, ![1, b]⟩ dims0 h0 nan (ix2 (0 : Fin 1) j)) = _
  rw [e0 p, e0 cnt, e0 nan, e1]

theorem tail_dropped {b : ℕ} (dims0 : Fin Cert.KernelIdeal.S_.rank → Fin (⟨1, ![b]⟩ : Shape).rank)
    (h0 : Cert.KernelIdeal.S_.BroadcastsInDim ⟨1, ![b]⟩ dims0)
    (p : IVec Cert.KernelIdeal.S_ 1) (red : FVec Ideal ⟨1, ![b]⟩ .f32) (cnt nan : FVec Ideal Cert.KernelIdeal.S_ .f32) (j : Fin b) :
    select (broadcastInDim ⟨1, ![b]⟩ dims0 h0 p) (Host.divf red (broadcastInDim ⟨1, ![b]⟩ dims0 h0 cnt))
        (broadcastInDim ⟨1, ![b]⟩ dims0 h0 nan) (ix1 j)
      = Scalar.select (p ix0) (FloatOps.hostDivf (red (ix1 j)) (cnt ix0)) (nan ix0) := by
  have e0 : ∀ {α : Type} (x : Cert.KernelIdeal.S_.Idx → α), broadcastInDim ⟨1, ![b]⟩ dims0 h0 x (ix1 j) = x ix0 :=
    fun x => broadcastInDim_apply dims0 h0 x _ ix0 fun a => a.elim0
  show Scalar.select (broadcastInDim ⟨1, ![b]⟩ dims0 h0 p (ix1 j))
      (FloatOps.hostDivf (red (ix1 j)) (broadcastInDim ⟨1, ![b]⟩ dims0 h0 cnt (ix1 j)))
      (broadcastInDim ⟨1, ![b]⟩ dims0 h0 nan (ix1 j)) = _
  rw [e0 p, e0 cnt, e0 nan]

theorem var128_eq (a : FVec Ideal Cert.KernelIdeal.S50000x128 .f32) (j : Fin 128) :
    Cert.KernelIdeal.KHost.var128K a (ix2 (0 : Fin 1) j) = Cert.ReferenceIdeal.RRead0.var128R a (ix1 j) := by
  unfold Cert.KernelIdeal.KHost.var128K Cert.ReferenceIdeal.RRead0.var128R
  rw [sum128_eq a]
  refine (tail_kept _ _ _ _ _ _ _ j).trans (Eq.trans ?_ (tail_dropped _ _ _ _ _ _ j).symm)
  with_reducible rfl

theorem var64_eq (a : FVec Ideal Cert.KernelIdeal.S50000x64 .f32) (j : Fin 64) :
    Cert.KernelIdeal.KHost.var64K a (ix2 (0 : Fin 1) j) = Cert.ReferenceIdeal.RReadLayer.var64R a (ix1 j) := by
  unfold Cert.KernelIdeal.KHost.var64K Cert.KernelIdeal.KHost.sum64K Cert.ReferenceIdeal.RReadLayer.var64R
  refine (tail_kept _ _ _ _ _ _ _ j).trans (Eq.trans ?_ (tail_dropped _ _ _ _ _ _ j).symm)
  rw [id_eq]

theorem ops_ext {A B : Cert.Spec.Ops} (h1 : A.scat = B.scat) (h2 : A.sum128 = B.sum128) (h3 : A.var128 = B.var128)
    (h4 : A.sum64 = B.sum64) (h5 : A.var64 = B.var64) : A = B := by
  cases A; cases B; cases h1; cases h2; cases h3; cases h4; cases h5; rfl

theorem ops_eq (ei : IVec Cert.KernelIdeal.S2x800000 32) :
    Cert.KernelIdeal.KChain.opsK ei = Cert.ReferenceIdeal.RChain.opsR ei :=
  ops_ext
    (funext fun M => by
      show Cert.Pack.mat (Cert.KernelIdeal.KHost.scatK (Cert.Pack.unmat M) (Cert.KernelIdeal.KHost.srcOf ei)
          (Cert.KernelIdeal.KHost.enormOf ei) (Cert.KernelIdeal.KHost.dstOf ei))
        = Cert.Pack.mat (Cert.ReferenceIdeal.RReadLayer.scatR (Cert.Pack.unmat M) (Cert.ReferenceIdeal.RRead0.srcOf ei)
          (Cert.ReferenceIdeal.RRead0.enormOf ei) (Cert.ReferenceIdeal.RRead0.dstOf ei))
      rw [scat_eq, srcOf_eq, enormOf_eq, dstOf_eq])
    (funext fun M => funext fun j => by
      show Cert.KernelIdeal.KHost.sum128K (Cert.Pack.unmat M) (ix1 j) = Cert.ReferenceIdeal.RRead0.sum128R (Cert.Pack.unmat M) (ix1 j)
      rw [sum128_eq])
    (funext fun M => funext fun j => var128_eq (Cert.Pack.unmat M) j)
    (funext fun M => funext fun j => by
      show Cert.KernelIdeal.KHost.sum64K (Cert.Pack.unmat M) (ix1 j) = Cert.ReferenceIdeal.RReadLayer.sum64R (Cert.Pack.unmat M) (ix1 j)
      rw [sum64_eq])
    (funext fun M => funext fun j => var64_eq (Cert.Pack.unmat M) j)

end Cert.Bridge

end
-- ==== Proof.Assemble.lean ====
import proofs.«428538_j32280974197073_1_alg».proof.Defs
import proofs.«428538_j32280974197073_1_alg».proof.Proof.Gen.Kernel.Frame
import proofs.«428538_j32280974197073_1_alg».proof.Proof.Gen.KernelIdeal.Frame
import proofs.«428538_j32280974197073_1_alg».proof.Proof.Gen.ReferenceIdeal
import proofs.«428538_j32280974197073_1_alg».proof.Proof.Gen.Pre_finite_inputs
import proofs.«428538_j32280974197073_1_alg».proof.Proof.KRun
import proofs.«428538_j32280974197073_1_alg».proof.Proof.KChain
import proofs.«428538_j32280974197073_1_alg».proof.Proof.RefRun
import proofs.«428538_j32280974197073_1_alg».proof.Proof.RChain
import proofs.«428538_j32280974197073_1_alg».proof.Proof.Bridge

set_option maxRecDepth 16384

noncomputable section

namespace Cert.Proof.Claims

open Idealize.ShloMosaic Idealize.ShloMosaic.TcCoe Idealize.ShloMosaic.StableHlo Idealize.SL.Sem Idealize.ShloMosaic.ValueIdx

theorem mat_inj {n d : ℕ} {A B : (⟨2, ![n, d]⟩ : Shape).Idx → EReal} (h : Cert.Pack.mat A = Cert.Pack.mat B) : A = B := by
  funext y
  calc A y = A (ix2 (y 0) (y 1)) := congrArg A (eq_ix2 y)
    _ = B (ix2 (y 0) (y 1)) := congrFun (congrFun h (y 0)) (y 1)
    _ = B y := (congrArg B (eq_ix2 y)).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_kept _ Cert.ReferenceIdeal.main_arg0 (by decide)),
      (h c Cert.ReferenceIdeal.main_arg1).trans (Cert.ReferenceIdeal.RefRun.arg_kept _ Cert.ReferenceIdeal.main_arg1 (by decide)),
      (h c Cert.ReferenceIdeal.main_arg2).trans (Cert.ReferenceIdeal.RefRun.arg_kept _ Cert.ReferenceIdeal.main_arg2 (by decide)),
      (h c Cert.ReferenceIdeal.main_arg3).trans (Cert.ReferenceIdeal.RefRun.arg_kept _ Cert.ReferenceIdeal.main_arg3 (by decide)),
      (h c Cert.ReferenceIdeal.main_arg4).trans (Cert.ReferenceIdeal.RefRun.arg_kept _ Cert.ReferenceIdeal.main_arg4 (by decide)),
      (h c Cert.ReferenceIdeal.main_arg5).trans (Cert.ReferenceIdeal.RefRun.arg_kept _ Cert.ReferenceIdeal.main_arg5 (by decide)),
      (h c Cert.ReferenceIdeal.main_arg6).trans (Cert.ReferenceIdeal.RefRun.arg_kept _ Cert.ReferenceIdeal.main_arg6 (by decide)),
      (h c Cert.ReferenceIdeal.main_arg7).trans (Cert.ReferenceIdeal.RefRun.arg_kept _ Cert.ReferenceIdeal.main_arg7 (by decide)),
      (h c Cert.ReferenceIdeal.main_arg8).trans (Cert.ReferenceIdeal.RefRun.arg_kept _ Cert.ReferenceIdeal.main_arg8 (by decide)),
      (h c Cert.ReferenceIdeal.main_arg9).trans (Cert.ReferenceIdeal.RefRun.arg_kept _ Cert.ReferenceIdeal.main_arg9 (by decide)),
      (h c Cert.ReferenceIdeal.main_arg10).trans (Cert.ReferenceIdeal.RefRun.arg_kept _ Cert.ReferenceIdeal.main_arg10 (by decide)),
      (h c Cert.ReferenceIdeal.main_arg11).trans (Cert.ReferenceIdeal.RefRun.arg_kept _ Cert.ReferenceIdeal.main_arg11 (by decide)),
      (h c Cert.ReferenceIdeal.main_arg12).trans (Cert.ReferenceIdeal.RefRun.arg_kept _ Cert.ReferenceIdeal.main_arg12 (by decide)),
      (h c Cert.ReferenceIdeal.main_arg13).trans (Cert.ReferenceIdeal.RefRun.arg_kept _ Cert.ReferenceIdeal.main_arg13 (by decide)),
      (h c Cert.ReferenceIdeal.main_arg14).trans (Cert.ReferenceIdeal.RefRun.arg_kept _ Cert.ReferenceIdeal.main_arg14 (by decide)),
      (h c Cert.ReferenceIdeal.main_arg15).trans (Cert.ReferenceIdeal.RefRun.arg_kept _ Cert.ReferenceIdeal.main_arg15 (by decide)),
      (h c Cert.ReferenceIdeal.main_arg16).trans (Cert.ReferenceIdeal.RefRun.arg_kept _ Cert.ReferenceIdeal.main_arg16 (by decide)),
      (h c Cert.ReferenceIdeal.main_arg17).trans (Cert.ReferenceIdeal.RefRun.arg_kept _ Cert.ReferenceIdeal.main_arg17 (by decide)),
      (h c Cert.ReferenceIdeal.main_arg18).trans (Cert.ReferenceIdeal.RefRun.arg_kept _ Cert.ReferenceIdeal.main_arg18 (by decide)),
      (h c Cert.ReferenceIdeal.main_arg19).trans (Cert.ReferenceIdeal.RefRun.arg_kept _ Cert.ReferenceIdeal.main_arg19 (by decide))⟩)
    (Cert.ReferenceIdeal.RefRun.run_main (F := Ideal) m ρ)

theorem result_congr (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (h0 : V (Cert.ReferenceIdeal.main_arg0 : DevRef Cert.ReferenceIdeal.τ Cert.ReferenceIdeal.sig) = m ((c : Thread Cert.KernelIdeal.nD Cert.KernelIdeal.τ).loc Cert.KernelIdeal.main_arg0))
    (h1 : V (Cert.ReferenceIdeal.main_arg1 : DevRef Cert.ReferenceIdeal.τ Cert.ReferenceIdeal.sig) = m ((c : Thread Cert.KernelIdeal.nD Cert.KernelIdeal.τ).loc Cert.KernelIdeal.main_arg1))
    (h2 : V (Cert.ReferenceIdeal.main_arg2 : DevRef Cert.ReferenceIdeal.τ Cert.ReferenceIdeal.sig) = m ((c : Thread Cert.KernelIdeal.nD Cert.KernelIdeal.τ).loc Cert.KernelIdeal.main_arg2))
    (h3 : V (Cert.ReferenceIdeal.main_arg3 : DevRef Cert.ReferenceIdeal.τ Cert.ReferenceIdeal.sig) = m ((c : Thread Cert.KernelIdeal.nD Cert.KernelIdeal.τ).loc Cert.KernelIdeal.main_arg3))
    (h4 : V (Cert.ReferenceIdeal.main_arg4 : DevRef Cert.ReferenceIdeal.τ Cert.ReferenceIdeal.sig) = m ((c : Thread Cert.KernelIdeal.nD Cert.KernelIdeal.τ).loc Cert.KernelIdeal.main_arg4))
    (h5 : V (Cert.ReferenceIdeal.main_arg5 : DevRef Cert.ReferenceIdeal.τ Cert.ReferenceIdeal.sig) = m ((c : Thread Cert.KernelIdeal.nD Cert.KernelIdeal.τ).loc Cert.KernelIdeal.main_arg5))
    (h6 : V (Cert.ReferenceIdeal.main_arg6 : DevRef Cert.ReferenceIdeal.τ Cert.ReferenceIdeal.sig) = m ((c : Thread Cert.KernelIdeal.nD Cert.KernelIdeal.τ).loc Cert.KernelIdeal.main_arg6))
    (h7 : V (Cert.ReferenceIdeal.main_arg7 : DevRef Cert.ReferenceIdeal.τ Cert.ReferenceIdeal.sig) = m ((c : Thread Cert.KernelIdeal.nD Cert.KernelIdeal.τ).loc Cert.KernelIdeal.main_arg7))
    (h8 : V (Cert.ReferenceIdeal.main_arg8 : DevRef Cert.ReferenceIdeal.τ Cert.ReferenceIdeal.sig) = m ((c : Thread Cert.KernelIdeal.nD Cert.KernelIdeal.τ).loc Cert.KernelIdeal.main_arg8))
    (h9 : V (Cert.ReferenceIdeal.main_arg9 : DevRef Cert.ReferenceIdeal.τ Cert.ReferenceIdeal.sig) = m ((c : Thread Cert.KernelIdeal.nD Cert.KernelIdeal.τ).loc Cert.KernelIdeal.main_arg9))
    (h10 : V (Cert.ReferenceIdeal.main_arg10 : DevRef Cert.ReferenceIdeal.τ Cert.ReferenceIdeal.sig) = m ((c : Thread Cert.KernelIdeal.nD Cert.KernelIdeal.τ).loc Cert.KernelIdeal.main_arg10))
    (h11 : V (Cert.ReferenceIdeal.main_arg11 : DevRef Cert.ReferenceIdeal.τ Cert.ReferenceIdeal.sig) = m ((c : Thread Cert.KernelIdeal.nD Cert.KernelIdeal.τ).loc Cert.KernelIdeal.main_arg11))
    (h12 : V (Cert.ReferenceIdeal.main_arg12 : DevRef Cert.ReferenceIdeal.τ Cert.ReferenceIdeal.sig) = m ((c : Thread Cert.KernelIdeal.nD Cert.KernelIdeal.τ).loc Cert.KernelIdeal.main_arg12))
    (h13 : V (Cert.ReferenceIdeal.main_arg13 : DevRef Cert.ReferenceIdeal.τ Cert.ReferenceIdeal.sig) = m ((c : Thread Cert.KernelIdeal.nD Cert.KernelIdeal.τ).loc Cert.KernelIdeal.main_arg13))
    (h14 : V (Cert.ReferenceIdeal.main_arg14 : DevRef Cert.ReferenceIdeal.τ Cert.ReferenceIdeal.sig) = m ((c : Thread Cert.KernelIdeal.nD Cert.KernelIdeal.τ).loc Cert.KernelIdeal.main_arg14))
    (h15 : V (Cert.ReferenceIdeal.main_arg15 : DevRef Cert.ReferenceIdeal.τ Cert.ReferenceIdeal.sig) = m ((c : Thread Cert.KernelIdeal.nD Cert.KernelIdeal.τ).loc Cert.KernelIdeal.main_arg15))
    (h16 : V (Cert.ReferenceIdeal.main_arg16 : DevRef Cert.ReferenceIdeal.τ Cert.ReferenceIdeal.sig) = m ((c : Thread Cert.KernelIdeal.nD Cert.KernelIdeal.τ).loc Cert.KernelIdeal.main_arg16))
    (h17 : V (Cert.ReferenceIdeal.main_arg17 : DevRef Cert.ReferenceIdeal.τ Cert.ReferenceIdeal.sig) = m ((c : Thread Cert.KernelIdeal.nD Cert.KernelIdeal.τ).loc Cert.KernelIdeal.main_arg17))
    (h18 : V (Cert.ReferenceIdeal.main_arg18 : DevRef Cert.ReferenceIdeal.τ Cert.ReferenceIdeal.sig) = m ((c : Thread Cert.KernelIdeal.nD Cert.KernelIdeal.τ).loc Cert.KernelIdeal.main_arg18))
    (h19 : V (Cert.ReferenceIdeal.main_arg19 : DevRef Cert.ReferenceIdeal.τ Cert.ReferenceIdeal.sig) = m ((c : Thread Cert.KernelIdeal.nD Cert.KernelIdeal.τ).loc Cert.KernelIdeal.main_arg19)) :
    Cert.Spec.result (Cert.ReferenceIdeal.RChain.opsR (V (Cert.ReferenceIdeal.main_arg1 : DevRef Cert.ReferenceIdeal.τ Cert.ReferenceIdeal.sig)))
        (Cert.ReferenceIdeal.RChain.paramsR V)
      = Cert.Spec.result (Cert.KernelIdeal.KChain.opsK (m ((c : Thread Cert.KernelIdeal.nD Cert.KernelIdeal.τ).loc Cert.KernelIdeal.main_arg1)))
        (Cert.KernelIdeal.KChain.paramsK m c) := by
  unfold Cert.ReferenceIdeal.RChain.paramsR Cert.KernelIdeal.KChain.paramsK
  rw [h0, h1, h2, h3, h4, h5, h6, h7, h8, h9, h10, h11, h12, h13, h14, h15, h16, h17, h18, h19, Cert.Bridge.ops_eq]

theorem algebraic : Cert.algebraic_KernelIdeal_ReferenceIdeal := by
  intro m ρ m' ρ' _ hagree
  refine ⟨fun c => Cert.KernelIdeal.Gen.W41 m ρ c (Proc.devRef .tc Cert.KernelIdeal.main_v391),
    Cert.KernelIdeal.KRun.run (F := Ideal) m ρ, ?_⟩
  refine (θ_run Cert.ReferenceIdeal.defs _ _).mono (fun r h c => ?_)
    (Cert.ReferenceIdeal.RefRun.run_main (F := Ideal) m' ρ')
  obtain ⟨a0, a1, a2, a3, a4, a5, a6, a7, a8, a9, a10, a11, a12, a13, a14, a15, a16, a17, a18, a19⟩ := hagree c
  refine ⟨?_,
      (h c Cert.ReferenceIdeal.main_arg0).trans (Cert.ReferenceIdeal.RefRun.arg_kept _ Cert.ReferenceIdeal.main_arg0 (by decide)),
      (h c Cert.ReferenceIdeal.main_arg1).trans (Cert.ReferenceIdeal.RefRun.arg_kept _ Cert.ReferenceIdeal.main_arg1 (by decide)),
      (h c Cert.ReferenceIdeal.main_arg2).trans (Cert.ReferenceIdeal.RefRun.arg_kept _ Cert.ReferenceIdeal.main_arg2 (by decide)),
      (h c Cert.ReferenceIdeal.main_arg3).trans (Cert.ReferenceIdeal.RefRun.arg_kept _ Cert.ReferenceIdeal.main_arg3 (by decide)),
      (h c Cert.ReferenceIdeal.main_arg4).trans (Cert.ReferenceIdeal.RefRun.arg_kept _ Cert.ReferenceIdeal.main_arg4 (by decide)),
      (h c Cert.ReferenceIdeal.main_arg5).trans (Cert.ReferenceIdeal.RefRun.arg_kept _ Cert.ReferenceIdeal.main_arg5 (by decide)),
      (h c Cert.ReferenceIdeal.main_arg6).trans (Cert.ReferenceIdeal.RefRun.arg_kept _ Cert.ReferenceIdeal.main_arg6 (by decide)),
      (h c Cert.ReferenceIdeal.main_arg7).trans (Cert.ReferenceIdeal.RefRun.arg_kept _ Cert.ReferenceIdeal.main_arg7 (by decide)),
      (h c Cert.ReferenceIdeal.main_arg8).trans (Cert.ReferenceIdeal.RefRun.arg_kept _ Cert.ReferenceIdeal.main_arg8 (by decide)),
      (h c Cert.ReferenceIdeal.main_arg9).trans (Cert.ReferenceIdeal.RefRun.arg_kept _ Cert.ReferenceIdeal.main_arg9 (by decide)),
      (h c Cert.ReferenceIdeal.main_arg10).trans (Cert.ReferenceIdeal.RefRun.arg_kept _ Cert.ReferenceIdeal.main_arg10 (by decide)),
      (h c Cert.ReferenceIdeal.main_arg11).trans (Cert.ReferenceIdeal.RefRun.arg_kept _ Cert.ReferenceIdeal.main_arg11 (by decide)),
      (h c Cert.ReferenceIdeal.main_arg12).trans (Cert.ReferenceIdeal.RefRun.arg_kept _ Cert.ReferenceIdeal.main_arg12 (by decide)),
      (h c Cert.ReferenceIdeal.main_arg13).trans (Cert.ReferenceIdeal.RefRun.arg_kept _ Cert.ReferenceIdeal.main_arg13 (by decide)),
      (h c Cert.ReferenceIdeal.main_arg14).trans (Cert.ReferenceIdeal.RefRun.arg_kept _ Cert.ReferenceIdeal.main_arg14 (by decide)),
      (h c Cert.ReferenceIdeal.main_arg15).trans (Cert.ReferenceIdeal.RefRun.arg_kept _ Cert.ReferenceIdeal.main_arg15 (by decide)),
      (h c Cert.ReferenceIdeal.main_arg16).trans (Cert.ReferenceIdeal.RefRun.arg_kept _ Cert.ReferenceIdeal.main_arg16 (by decide)),
      (h c Cert.ReferenceIdeal.main_arg17).trans (Cert.ReferenceIdeal.RefRun.arg_kept _ Cert.ReferenceIdeal.main_arg17 (by decide)),
      (h c Cert.ReferenceIdeal.main_arg18).trans (Cert.ReferenceIdeal.RefRun.arg_kept _ Cert.ReferenceIdeal.main_arg18 (by decide)),
      (h c Cert.ReferenceIdeal.main_arg19).trans (Cert.ReferenceIdeal.RefRun.arg_kept _ Cert.ReferenceIdeal.main_arg19 (by decide))⟩
  refine (h c Cert.ReferenceIdeal.main_v662).trans (mat_inj ?_)
  refine (Cert.ReferenceIdeal.RChain.result_eq _).trans ?_
  refine Eq.trans ?_ (Cert.KernelIdeal.KChain.result_eq m ρ c).symm
  exact result_congr _ m c a0 a1 a2 a3 a4 a5 a6 a7 a8 a9 a10 a11 a12 a13 a14 a15 a16 a17 a18 a19

end Cert.Proof.Claims

end
-- ==== Proof.lean ====
import proofs.«428538_j32280974197073_1_alg».proof.Defs
import proofs.«428538_j32280974197073_1_alg».proof.Proof.Gen.Kernel
import proofs.«428538_j32280974197073_1_alg».proof.Proof.Gen.KernelIdeal
import proofs.«428538_j32280974197073_1_alg».proof.Proof.Gen.ReferenceIdeal
import proofs.«428538_j32280974197073_1_alg».proof.Proof.Gen.Pre_finite_inputs
import proofs.«428538_j32280974197073_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
